-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x256 .f32) (main_arg1 : IVec S65536 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 12#32
  let main_v6 : IVec S65536 32 := broadcastInDim S65536 ![] bcast_S_S65536 main_c_1
  let main_v7 : IVec S65536 1 := cmpi .sle main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x256 : Shape := ⟨2, ![65536, 256]⟩
abbrev S65536 : Shape := ⟨1, ![65536]⟩
abbrev S32x1x2048 : Shape := ⟨3, ![32, 1, 2048]⟩
abbrev S32x16x256 : Shape := ⟨3, ![32, 16, 256]⟩
abbrev S32x16x32 : Shape := ⟨3, ![32, 16, 32]⟩
abbrev S2x128x256 : Shape := ⟨3, ![2, 128, 256]⟩
abbrev S2x128 : Shape := ⟨2, ![2, 128]⟩
abbrev S16x256 : Shape := ⟨2, ![16, 256]⟩
abbrev S16x32 : Shape := ⟨2, ![16, 32]⟩
abbrev S128 : Shape := ⟨1, ![128]⟩
abbrev S16 : Shape := ⟨1, ![16]⟩
abbrev S2 : Shape := ⟨1, ![2]⟩
abbrev S1x16 : Shape := ⟨2, ![1, 16]⟩
abbrev S1x128x256 : Shape := ⟨3, ![1, 128, 256]⟩
abbrev S128x256 : Shape := ⟨2, ![128, 256]⟩
abbrev S1 : Shape := ⟨1, ![1]⟩
abbrev S_ : Shape := ⟨0, ![]⟩
abbrev S1x128 : Shape := ⟨2, ![1, 128]⟩
abbrev S1x1x16 : Shape := ⟨3, ![1, 1, 16]⟩
abbrev S1x16x256 : Shape := ⟨3, ![1, 16, 256]⟩
abbrev S1x16x32 : Shape := ⟨3, ![1, 16, 32]⟩
abbrev S16x128 : Shape := ⟨2, ![16, 128]⟩
abbrev S1x1x2048 : Shape := ⟨3, ![1, 1, 2048]⟩
abbrev S2048x256 : Shape := ⟨2, ![2048, 256]⟩
abbrev S1x2048 : Shape := ⟨2, ![1, 2048]⟩
abbrev S16x2048 : Shape := ⟨2, ![16, 2048]⟩
abbrev S2048 : Shape := ⟨1, ![2048]⟩
abbrev S2048x1 : Shape := ⟨2, ![2048, 1]⟩
abbrev S2048x128 : Shape := ⟨2, ![2048, 128]⟩
abbrev S1x1 : Shape := ⟨2, ![1, 1]⟩
abbrev S16x1 : Shape := ⟨2, ![16, 1]⟩
abbrev S1x16x1 : Shape := ⟨3, ![1, 16, 1]⟩
abbrev S1x1x1 : Shape := ⟨3, ![1, 1, 1]⟩

abbrev nBuf : Table → Nat
  | .hbm => 9
  | .local .tc .vmem => 13
  | .local .scVector .smem => 5
  | .local .scVector .vmem => 4
  | _ => 0

abbrev bufTy : (tb : Table) → Fin (nBuf tb) → BufTy
  | .hbm, ⟨0, _⟩ => ⟨S65536x256, .f32⟩
  | .hbm, ⟨1, _⟩ => ⟨S65536, .i32⟩
  | .hbm, ⟨2, _⟩ => ⟨S32x1x2048, .i32⟩
  | .hbm, ⟨3, _⟩ => ⟨S32x16x256, .f32⟩
  | .hbm, ⟨4, _⟩ => ⟨S32x16x32, .f32⟩
  | .hbm, ⟨5, _⟩ => ⟨S16x256, .f32⟩
  | .hbm, ⟨6, _⟩ => ⟨S16x128, .f32⟩
  | .hbm, ⟨7, _⟩ => ⟨S1x1, .f32⟩
  | .hbm, ⟨8, _⟩ => ⟨S_, .f32⟩
  | .local .tc .vmem, ⟨0, _⟩ => ⟨S1x1x2048, .i32⟩
  | .local .tc .vmem, ⟨1, _⟩ => ⟨S1x1x2048, .i32⟩
  | .local .tc .vmem, ⟨2, _⟩ => ⟨S2048x256, .f32⟩
  | .local .tc .vmem, ⟨3, _⟩ => ⟨S2048x256, .f32⟩
  | .local .tc .vmem, ⟨4, _⟩ => ⟨S16x256, .f32⟩
  | .local .tc .vmem, ⟨5, _⟩ => ⟨S16x128, .f32⟩
  | .local .tc .vmem, ⟨6, _⟩ => ⟨S16x256, .f32⟩
  | .local .tc .vmem, ⟨7, _⟩ => ⟨S16x128, .f32⟩
  | .local .tc .vmem, ⟨8, _⟩ => ⟨S32x16x256, .f32⟩
  | .local .tc .vmem, ⟨9, _⟩ => ⟨S32x16x32, .f32⟩
  | .local .tc .vmem, ⟨10, _⟩ => ⟨S16x256, .f32⟩
  | .local .tc .vmem, ⟨11, _⟩ => ⟨S16x128, .f32⟩
  | .local .tc .vmem, ⟨12, _⟩ => ⟨S1x1, .f32⟩
  | .local .scVector .smem, ⟨0, _⟩ => ⟨S128, .i32⟩
  | .local .scVector .smem, ⟨1, _⟩ => ⟨S128, .i32⟩
  | .local .scVector .smem, ⟨2, _⟩ => ⟨S16, .i32⟩
  | .local .scVector .smem, ⟨3, _⟩ => ⟨S16, .i32⟩
  | .local .scVector .smem, ⟨4, _⟩ => ⟨S16, .i32⟩
  | .local .scVector .vmem, ⟨0, _⟩ => ⟨S2x128x256, .f32⟩
  | .local .scVector .vmem, ⟨1, _⟩ => ⟨S2x128, .i32⟩
  | .local .scVector .vmem, ⟨2, _⟩ => ⟨S16x256, .f32⟩
  | .local .scVector .vmem, ⟨3, _⟩ => ⟨S16x32, .f32⟩
  | _, _ => ⟨S65536x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.vmem, 6, rfl⟩
abbrev cc1_scratch1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc0_scratch4 : Ref sig .scVector := ⟨.smem, 0, rfl⟩
abbrev cc0_scratch5 : Ref sig .scVector := ⟨.smem, 1, rfl⟩
abbrev cc0_scratch6 : Ref sig .scVector := ⟨.smem, 2, rfl⟩
abbrev cc0_scratch7 : Ref sig .scVector := ⟨.smem, 3, rfl⟩
abbrev cc0_scratch8 : Ref sig .scVector := ⟨.smem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v4 : BitVec 32 := Scalar.addi c0_i32_0 c16_i32
  let c1_i32 : BitVec 32 := 1#32
  ⟨c0_i32_0, v4, c1_i32⟩
def k0_off1 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v40 : Index := Scalar.indexCast arg17
  let c0 : Index := 0#32
  ![v40.toNat, 0]
def k0_off2 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v44 : Index := Scalar.indexCast arg17
  let c16 : Index := 16#32
  ![v44.toNat, 16]
def k0_off3 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v48 : Index := Scalar.indexCast arg17
  let c32 : Index := 32#32
  ![v48.toNat, 32]
def k0_off4 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v52 : Index := Scalar.indexCast arg17
  let c48 : Index := 48#32
  ![v52.toNat, 48]
def k0_off5 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v56 : Index := Scalar.indexCast arg17
  let c64 : Index := 64#32
  ![v56.toNat, 64]
def k0_off6 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v60 : Index := Scalar.indexCast arg17
  let c80 : Index := 80#32
  ![v60.toNat, 80]
def k0_off7 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v64 : Index := Scalar.indexCast arg17
  let c96 : Index := 96#32
  ![v64.toNat, 96]
def k0_off8 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v68 : Index := Scalar.indexCast arg17
  let c112 : Index := 112#32
  ![v68.toNat, 112]
def k0_off9 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v72 : Index := Scalar.indexCast arg17
  let c128 : Index := 128#32
  ![v72.toNat, 128]
def k0_off10 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v76 : Index := Scalar.indexCast arg17
  let c144 : Index := 144#32
  ![v76.toNat, 144]
def k0_off11 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v80 : Index := Scalar.indexCast arg17
  let c160 : Index := 160#32
  ![v80.toNat, 160]
def k0_off12 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v84 : Index := Scalar.indexCast arg17
  let c176 : Index := 176#32
  ![v84.toNat, 176]
def k0_off13 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v88 : Index := Scalar.indexCast arg17
  let c192 : Index := 192#32
  ![v88.toNat, 192]
def k0_off14 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v92 : Index := Scalar.indexCast arg17
  let c208 : Index := 208#32
  ![v92.toNat, 208]
def k0_off15 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v96 : Index := Scalar.indexCast arg17
  let c224 : Index := 224#32
  ![v96.toNat, 224]
def k0_off16 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v100 : Index := Scalar.indexCast arg17
  let c240 : Index := 240#32
  ![v100.toNat, 240]
def k0_off17 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v104 : Index := Scalar.indexCast arg17
  let c0_31 : Index := 0#32
  ![v104.toNat, 0]
def k0_off18 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v108 : Index := Scalar.indexCast arg17
  let c16_32 : Index := 16#32
  ![v108.toNat, 16]
def k0_off19 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c0_i32_2
  let c0_i32_7 : BitVec 32 := 0#32
  ![v5.toNat, 0]
def k0_off20 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c0_i32_2
  ![v5.toNat]
@[reducible] def k0_t2_loop : Scf.Loop 32 :=
  let c0_i32_28 : BitVec 32 := 0#32
  let c8_i32 : BitVec 32 := 8#32
  let v39 : BitVec 32 := Scalar.addi c0_i32_28 c8_i32
  let c1_i32_29 : BitVec 32 := 1#32
  ⟨c0_i32_28, v39, c1_i32_29⟩
def k0_off21 (k0_t2 : Fin k0_t2_loop.trips) : Fin 2 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let c0_i32_37 : BitVec 32 := 0#32
  ![v49.toNat, 0]
def k0_off22 (k0_t2 : Fin k0_t2_loop.trips) : Fin 1 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  ![v49.toNat]
@[reducible] def k0_t3_loop : Scf.Loop 32 :=
  let c0_i32_42 : BitVec 32 := 0#32
  let c13_i32 : BitVec 32 := 13#32
  let v58 : BitVec 32 := Scalar.addi c0_i32_42 c13_i32
  let c1_i32_43 : BitVec 32 := 1#32
  ⟨c0_i32_42, v58, c1_i32_43⟩
def k0_off23 (k0_t3 : Fin k0_t3_loop.trips) : Fin 1 → Nat :=
  let c0_i32_42 : BitVec 32 := 0#32
  let c1_i32_43 : BitVec 32 := 1#32
  let arg18 : BitVec 32 := Scf.iv c0_i32_42 c1_i32_43 k0_t3
  let v76 : Index := Scalar.indexCast arg18
  ![v76.toNat]
@[reducible] def k0_t4_loop : Scf.Loop 32 :=
  let c0_i32_46 : BitVec 32 := 0#32
  let c8_i32_47 : BitVec 32 := 8#32
  let v59 : BitVec 32 := Scalar.addi c0_i32_46 c8_i32_47
  let c1_i32_48 : BitVec 32 := 1#32
  ⟨c0_i32_46, v59, c1_i32_48⟩
def k0_off24 (k0_t2 : Fin k0_t2_loop.trips) (k0_t4 : Fin k0_t4_loop.trips) : Fin 2 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v77 : Index := Scalar.indexCast v49
  let c16_i32_76 : BitVec 32 := 16#32
  let c0_i32_46 : BitVec 32 := 0#32
  let c1_i32_48 : BitVec 32 := 1#32
  let arg18 : BitVec 32 := Scf.iv c0_i32_46 c1_i32_48 k0_t4
  let v76 : BitVec 32 := Scalar.muli c16_i32_76 arg18
  let v78 : Index := Scalar.indexCast v76
  ![v77.toNat, v78.toNat]
def k0_off25 (k0_t4 : Fin k0_t4_loop.trips) : Fin 1 → Nat :=
  let c16_i32_77 : BitVec 32 := 16#32
  let c0_i32_46 : BitVec 32 := 0#32
  let c1_i32_48 : BitVec 32 := 1#32
  let arg18 : BitVec 32 := Scf.iv c0_i32_46 c1_i32_48 k0_t4
  let v83 : BitVec 32 := Scalar.muli c16_i32_77 arg18
  let c0_i32_78 : BitVec 32 := 0#32
  let v84 : BitVec 32 := Scalar.addi v83 c0_i32_78
  let v85 : Index := Scalar.indexCast v84
  ![v85.toNat]
def k0_off26 (v82 : BitVec 32) : Fin 1 → Nat :=
  let v87 : Index := Scalar.indexCast v82
  ![v87.toNat]

def k0_chk1 (v82 : BitVec 32) : Prop :=
  (∀ a, (k0_off26 v82) a + S1.size a ≤ S16.size a)
instance k0_chk1.dec : ∀ (v82 : BitVec 32), Decidable (k0_chk1 v82) := fun v82 => decidable_of_iff' _ (Iff.of_eq (k0_chk1.eq_1 v82))
theorem k0_off26_inb : ∀ (v82 : BitVec 32) (k0_hw1 : k0_chk1 v82), ∀ a, (k0_off26 v82) a + S1.size a ≤ S16.size a := fun v82 k0_hw1 => k0_hw1

def k0_off27 (k0_t4 : Fin k0_t4_loop.trips) : Fin 1 → Nat :=
  let c16_i32_80 : BitVec 32 := 16#32
  let c0_i32_46 : BitVec 32 := 0#32
  let c1_i32_48 : BitVec 32 := 1#32
  let arg18 : BitVec 32 := Scf.iv c0_i32_46 c1_i32_48 k0_t4
  let v94 : BitVec 32 := Scalar.muli c16_i32_80 arg18
  let c1_i32_81 : BitVec 32 := 1#32
  let v95 : BitVec 32 := Scalar.addi v94 c1_i32_81
  let v96 : Index := Scalar.indexCast v95
  ![v96.toNat]
def k0_off28 (v93 : BitVec 32) : Fin 1 → Nat :=
  let v98 : Index := Scalar.indexCast v93
  ![v98.toNat]

def k0_chk2 (v93 : BitVec 32) : Prop :=
  (∀ a, (k0_off28 v93) a + S1.size a ≤ S16.size a)
instance k0_chk2.dec : ∀ (v93 : BitVec 32), Decidable (k0_chk2 v93) := fun v93 => decidable_of_iff' _ (Iff.of_eq (k0_chk2.eq_1 v93))
theorem k0_off28_inb : ∀ (v93 : BitVec 32) (k0_hw2 : k0_chk2 v93), ∀ a, (k0_off28 v93) a + S1.size a ≤ S16.size a := fun v93 k0_hw2 => k0_hw2

def k0_off29 (k0_t4 : Fin k0_t4_loop.trips) : Fin 1 → Nat :=
  let c16_i32_83 : BitVec 32 := 16#32
  let c0_i32_46 : BitVec 32 := 0#32
  let c1_i32_48 : BitVec 32 := 1#32
  let arg18 : BitVec 32 := Scf.iv c0_i32_46 c1_i32_48 k0_t4
  let v105 : BitVec 32 := Scalar.muli c16_i32_83 arg18
  let c2_i32_84 : BitVec 32 := 2#32
  let v106 : BitVec 32 := Scalar.addi v105 c2_i32_84
  let v107 : Index := Scalar.indexCast v106
  ![v107.toNat]
def k0_off30 (v104 : BitVec 32) : Fin 1 → Nat :=
  let v109 : Index := Scalar.indexCast v104
  ![v109.toNat]

def k0_chk3 (v104 : BitVec 32) : Prop :=
  (∀ a, (k0_off30 v104) a + S1.size a ≤ S16.size a)
instance k0_chk3.dec : ∀ (v104 : BitVec 32), Decidable (k0_chk3 v104) := fun v104 => decidable_of_iff' _ (Iff.of_eq (k0_chk3.eq_1 v104))
theorem k0_off30_inb : ∀ (v104 : BitVec 32) (k0_hw3 : k0_chk3 v104), ∀ a, (k0_off30 v104) a + S1.size a ≤ S16.size a := fun v104 k0_hw3 => k0_hw3

def k0_off31 (k0_t4 : Fin k0_t4_loop.trips) : Fin 1 → Nat :=
  let c16_i32_86 : BitVec 32 := 16#32
  let c0_i32_46 : BitVec 32 := 0#32
  let c1_i32_48 : BitVec 32 := 1#32
  let arg18 : BitVec 32 := Scf.iv c0_i32_46 c1_i32_48 k0_t4
  let v116 : BitVec 32 := Scalar.muli c16_i32_86 arg18
  let c3_i32 : BitVec 32 := 3#32
  let v117 : BitVec 32 := Scalar.addi v116 c3_i32
  let v118 : Index := Scalar.indexCast v117
  ![v118.toNat]
def k0_off32 (v115 : BitVec 32) : Fin 1 → Nat :=
  let v120 : Index := Scalar.indexCast v115
  ![v120.toNat]

def k0_chk4 (v115 : BitVec 32) : Prop :=
  (∀ a, (k0_off32 v115) a + S1.size a ≤ S16.size a)
instance k0_chk4.dec : ∀ (v115 : BitVec 32), Decidable (k0_chk4 v115) := fun v115 => decidable_of_iff' _ (Iff.of_eq (k0_chk4.eq_1 v115))
theorem k0_off32_inb : ∀ (v115 : BitVec 32) (k0_hw4 : k0_chk4 v115), ∀ a, (k0_off32 v115) a + S1.size a ≤ S16.size a := fun v115 k0_hw4 => k0_hw4

def k0_off33 (k0_t4 : Fin k0_t4_loop.trips) : Fin 1 → Nat :=
  let c16_i32_88 : BitVec 32 := 16#32
  let c0_i32_46 : BitVec 32 := 0#32
  let c1_i32_48 : BitVec 32 := 1#32
  let arg18 : BitVec 32 := Scf.iv c0_i32_46 c1_i32_48 k0_t4
  let v127 : BitVec 32 := Scalar.muli c16_i32_88 arg18
  let c4_i32 : BitVec 32 := 4#32
  let v128 : BitVec 32 := Scalar.addi v127 c4_i32
  let v129 : Index := Scalar.indexCast v128
  ![v129.toNat]
def k0_off34 (v126 : BitVec 32) : Fin 1 → Nat :=
  let v131 : Index := Scalar.indexCast v126
  ![v131.toNat]

def k0_chk5 (v126 : BitVec 32) : Prop :=
  (∀ a, (k0_off34 v126) a + S1.size a ≤ S16.size a)
instance k0_chk5.dec : ∀ (v126 : BitVec 32), Decidable (k0_chk5 v126) := fun v126 => decidable_of_iff' _ (Iff.of_eq (k0_chk5.eq_1 v126))
theorem k0_off34_inb : ∀ (v126 : BitVec 32) (k0_hw5 : k0_chk5 v126), ∀ a, (k0_off34 v126) a + S1.size a ≤ S16.size a := fun v126 k0_hw5 => k0_hw5

def k0_off35 (k0_t4 : Fin k0_t4_loop.trips) : Fin 1 → Nat :=
  let c16_i32_90 : BitVec 32 := 16#32
  let c0_i32_46 : BitVec 32 := 0#32
  let c1_i32_48 : BitVec 32 := 1#32
  let arg18 : BitVec 32 := Scf.iv c0_i32_46 c1_i32_48 k0_t4
  let v138 : BitVec 32 := Scalar.muli c16_i32_90 arg18
  let c5_i32 : BitVec 32 := 5#32
  let v139 : BitVec 32 := Scalar.addi v138 c5_i32
  let v140 : Index := Scalar.indexCast v139
  ![v140.toNat]
def k0_off36 (v137 : BitVec 32) : Fin 1 → Nat :=
  let v142 : Index := Scalar.indexCast v137
  ![v142.toNat]

def k0_chk6 (v137 : BitVec 32) : Prop :=
  (∀ a, (k0_off36 v137) a + S1.size a ≤ S16.size a)
instance k0_chk6.dec : ∀ (v137 : BitVec 32), Decidable (k0_chk6 v137) := fun v137 => decidable_of_iff' _ (Iff.of_eq (k0_chk6.eq_1 v137))
theorem k0_off36_inb : ∀ (v137 : BitVec 32) (k0_hw6 : k0_chk6 v137), ∀ a, (k0_off36 v137) a + S1.size a ≤ S16.size a := fun v137 k0_hw6 => k0_hw6

def k0_off37 (k0_t4 : Fin k0_t4_loop.trips) : Fin 1 → Nat :=
  let c16_i32_92 : BitVec 32 := 16#32
  let c0_i32_46 : BitVec 32 := 0#32
  let c1_i32_48 : BitVec 32 := 1#32
  let arg18 : BitVec 32 := Scf.iv c0_i32_46 c1_i32_48 k0_t4
  let v149 : BitVec 32 := Scalar.muli c16_i32_92 arg18
  let c6_i32 : BitVec 32 := 6#32
  let v150 : BitVec 32 := Scalar.addi v149 c6_i32
  let v151 : Index := Scalar.indexCast v150
  ![v151.toNat]
def k0_off38 (v148 : BitVec 32) : Fin 1 → Nat :=
  let v153 : Index := Scalar.indexCast v148
  ![v153.toNat]

def k0_chk7 (v148 : BitVec 32) : Prop :=
  (∀ a, (k0_off38 v148) a + S1.size a ≤ S16.size a)
instance k0_chk7.dec : ∀ (v148 : BitVec 32), Decidable (k0_chk7 v148) := fun v148 => decidable_of_iff' _ (Iff.of_eq (k0_chk7.eq_1 v148))
theorem k0_off38_inb : ∀ (v148 : BitVec 32) (k0_hw7 : k0_chk7 v148), ∀ a, (k0_off38 v148) a + S1.size a ≤ S16.size a := fun v148 k0_hw7 => k0_hw7

def k0_off39 (k0_t4 : Fin k0_t4_loop.trips) : Fin 1 → Nat :=
  let c16_i32_94 : BitVec 32 := 16#32
  let c0_i32_46 : BitVec 32 := 0#32
  let c1_i32_48 : BitVec 32 := 1#32
  let arg18 : BitVec 32 := Scf.iv c0_i32_46 c1_i32_48 k0_t4
  let v160 : BitVec 32 := Scalar.muli c16_i32_94 arg18
  let c7_i32 : BitVec 32 := 7#32
  let v161 : BitVec 32 := Scalar.addi v160 c7_i32
  let v162 : Index := Scalar.indexCast v161
  ![v162.toNat]
def k0_off40 (v159 : BitVec 32) : Fin 1 → Nat :=
  let v164 : Index := Scalar.indexCast v159
  ![v164.toNat]

def k0_chk8 (v159 : BitVec 32) : Prop :=
  (∀ a, (k0_off40 v159) a + S1.size a ≤ S16.size a)
instance k0_chk8.dec : ∀ (v159 : BitVec 32), Decidable (k0_chk8 v159) := fun v159 => decidable_of_iff' _ (Iff.of_eq (k0_chk8.eq_1 v159))
theorem k0_off40_inb : ∀ (v159 : BitVec 32) (k0_hw8 : k0_chk8 v159), ∀ a, (k0_off40 v159) a + S1.size a ≤ S16.size a := fun v159 k0_hw8 => k0_hw8

def k0_off41 (k0_t4 : Fin k0_t4_loop.trips) : Fin 1 → Nat :=
  let c16_i32_96 : BitVec 32 := 16#32
  let c0_i32_46 : BitVec 32 := 0#32
  let c1_i32_48 : BitVec 32 := 1#32
  let arg18 : BitVec 32 := Scf.iv c0_i32_46 c1_i32_48 k0_t4
  let v171 : BitVec 32 := Scalar.muli c16_i32_96 arg18
  let c8_i32_97 : BitVec 32 := 8#32
  let v172 : BitVec 32 := Scalar.addi v171 c8_i32_97
  let v173 : Index := Scalar.indexCast v172
  ![v173.toNat]
def k0_off42 (v170 : BitVec 32) : Fin 1 → Nat :=
  let v175 : Index := Scalar.indexCast v170
  ![v175.toNat]

def k0_chk9 (v170 : BitVec 32) : Prop :=
  (∀ a, (k0_off42 v170) a + S1.size a ≤ S16.size a)
instance k0_chk9.dec : ∀ (v170 : BitVec 32), Decidable (k0_chk9 v170) := fun v170 => decidable_of_iff' _ (Iff.of_eq (k0_chk9.eq_1 v170))
theorem k0_off42_inb : ∀ (v170 : BitVec 32) (k0_hw9 : k0_chk9 v170), ∀ a, (k0_off42 v170) a + S1.size a ≤ S16.size a := fun v170 k0_hw9 => k0_hw9

def k0_off43 (k0_t4 : Fin k0_t4_loop.trips) : Fin 1 → Nat :=
  let c16_i32_99 : BitVec 32 := 16#32
  let c0_i32_46 : BitVec 32 := 0#32
  let c1_i32_48 : BitVec 32 := 1#32
  let arg18 : BitVec 32 := Scf.iv c0_i32_46 c1_i32_48 k0_t4
  let v182 : BitVec 32 := Scalar.muli c16_i32_99 arg18
  let c9_i32 : BitVec 32 := 9#32
  let v183 : BitVec 32 := Scalar.addi v182 c9_i32
  let v184 : Index := Scalar.indexCast v183
  ![v184.toNat]
def k0_off44 (v181 : BitVec 32) : Fin 1 → Nat :=
  let v186 : Index := Scalar.indexCast v181
  ![v186.toNat]

def k0_chk10 (v181 : BitVec 32) : Prop :=
  (∀ a, (k0_off44 v181) a + S1.size a ≤ S16.size a)
instance k0_chk10.dec : ∀ (v181 : BitVec 32), Decidable (k0_chk10 v181) := fun v181 => decidable_of_iff' _ (Iff.of_eq (k0_chk10.eq_1 v181))
theorem k0_off44_inb : ∀ (v181 : BitVec 32) (k0_hw10 : k0_chk10 v181), ∀ a, (k0_off44 v181) a + S1.size a ≤ S16.size a := fun v181 k0_hw10 => k0_hw10

def k0_off45 (k0_t4 : Fin k0_t4_loop.trips) : Fin 1 → Nat :=
  let c16_i32_101 : BitVec 32 := 16#32
  let c0_i32_46 : BitVec 32 := 0#32
  let c1_i32_48 : BitVec 32 := 1#32
  let arg18 : BitVec 32 := Scf.iv c0_i32_46 c1_i32_48 k0_t4
  let v193 : BitVec 32 := Scalar.muli c16_i32_101 arg18
  let c10_i32 : BitVec 32 := 10#32
  let v194 : BitVec 32 := Scalar.addi v193 c10_i32
  let v195 : Index := Scalar.indexCast v194
  ![v195.toNat]
def k0_off46 (v192 : BitVec 32) : Fin 1 → Nat :=
  let v197 : Index := Scalar.indexCast v192
  ![v197.toNat]

def k0_chk11 (v192 : BitVec 32) : Prop :=
  (∀ a, (k0_off46 v192) a + S1.size a ≤ S16.size a)
instance k0_chk11.dec : ∀ (v192 : BitVec 32), Decidable (k0_chk11 v192) := fun v192 => decidable_of_iff' _ (Iff.of_eq (k0_chk11.eq_1 v192))
theorem k0_off46_inb : ∀ (v192 : BitVec 32) (k0_hw11 : k0_chk11 v192), ∀ a, (k0_off46 v192) a + S1.size a ≤ S16.size a := fun v192 k0_hw11 => k0_hw11

def k0_off47 (k0_t4 : Fin k0_t4_loop.trips) : Fin 1 → Nat :=
  let c16_i32_103 : BitVec 32 := 16#32
  let c0_i32_46 : BitVec 32 := 0#32
  let c1_i32_48 : BitVec 32 := 1#32
  let arg18 : BitVec 32 := Scf.iv c0_i32_46 c1_i32_48 k0_t4
  let v204 : BitVec 32 := Scalar.muli c16_i32_103 arg18
  let c11_i32 : BitVec 32 := 11#32
  let v205 : BitVec 32 := Scalar.addi v204 c11_i32
  let v206 : Index := Scalar.indexCast v205
  ![v206.toNat]
def k0_off48 (v203 : BitVec 32) : Fin 1 → Nat :=
  let v208 : Index := Scalar.indexCast v203
  ![v208.toNat]

def k0_chk12 (v203 : BitVec 32) : Prop :=
  (∀ a, (k0_off48 v203) a + S1.size a ≤ S16.size a)
instance k0_chk12.dec : ∀ (v203 : BitVec 32), Decidable (k0_chk12 v203) := fun v203 => decidable_of_iff' _ (Iff.of_eq (k0_chk12.eq_1 v203))
theorem k0_off48_inb : ∀ (v203 : BitVec 32) (k0_hw12 : k0_chk12 v203), ∀ a, (k0_off48 v203) a + S1.size a ≤ S16.size a := fun v203 k0_hw12 => k0_hw12

def k0_off49 (k0_t4 : Fin k0_t4_loop.trips) : Fin 1 → Nat :=
  let c16_i32_105 : BitVec 32 := 16#32
  let c0_i32_46 : BitVec 32 := 0#32
  let c1_i32_48 : BitVec 32 := 1#32
  let arg18 : BitVec 32 := Scf.iv c0_i32_46 c1_i32_48 k0_t4
  let v215 : BitVec 32 := Scalar.muli c16_i32_105 arg18
  let c12_i32 : BitVec 32 := 12#32
  let v216 : BitVec 32 := Scalar.addi v215 c12_i32
  let v217 : Index := Scalar.indexCast v216
  ![v217.toNat]
def k0_off50 (v214 : BitVec 32) : Fin 1 → Nat :=
  let v219 : Index := Scalar.indexCast v214
  ![v219.toNat]

def k0_chk13 (v214 : BitVec 32) : Prop :=
  (∀ a, (k0_off50 v214) a + S1.size a ≤ S16.size a)
instance k0_chk13.dec : ∀ (v214 : BitVec 32), Decidable (k0_chk13 v214) := fun v214 => decidable_of_iff' _ (Iff.of_eq (k0_chk13.eq_1 v214))
theorem k0_off50_inb : ∀ (v214 : BitVec 32) (k0_hw13 : k0_chk13 v214), ∀ a, (k0_off50 v214) a + S1.size a ≤ S16.size a := fun v214 k0_hw13 => k0_hw13

def k0_off51 (k0_t4 : Fin k0_t4_loop.trips) : Fin 1 → Nat :=
  let c16_i32_107 : BitVec 32 := 16#32
  let c0_i32_46 : BitVec 32 := 0#32
  let c1_i32_48 : BitVec 32 := 1#32
  let arg18 : BitVec 32 := Scf.iv c0_i32_46 c1_i32_48 k0_t4
  let v226 : BitVec 32 := Scalar.muli c16_i32_107 arg18
  let c13_i32_108 : BitVec 32 := 13#32
  let v227 : BitVec 32 := Scalar.addi v226 c13_i32_108
  let v228 : Index := Scalar.indexCast v227
  ![v228.toNat]
def k0_off52 (v225 : BitVec 32) : Fin 1 → Nat :=
  let v230 : Index := Scalar.indexCast v225
  ![v230.toNat]

def k0_chk14 (v225 : BitVec 32) : Prop :=
  (∀ a, (k0_off52 v225) a + S1.size a ≤ S16.size a)
instance k0_chk14.dec : ∀ (v225 : BitVec 32), Decidable (k0_chk14 v225) := fun v225 => decidable_of_iff' _ (Iff.of_eq (k0_chk14.eq_1 v225))
theorem k0_off52_inb : ∀ (v225 : BitVec 32) (k0_hw14 : k0_chk14 v225), ∀ a, (k0_off52 v225) a + S1.size a ≤ S16.size a := fun v225 k0_hw14 => k0_hw14

def k0_off53 (k0_t4 : Fin k0_t4_loop.trips) : Fin 1 → Nat :=
  let c16_i32_110 : BitVec 32 := 16#32
  let c0_i32_46 : BitVec 32 := 0#32
  let c1_i32_48 : BitVec 32 := 1#32
  let arg18 : BitVec 32 := Scf.iv c0_i32_46 c1_i32_48 k0_t4
  let v237 : BitVec 32 := Scalar.muli c16_i32_110 arg18
  let c14_i32 : BitVec 32 := 14#32
  let v238 : BitVec 32 := Scalar.addi v237 c14_i32
  let v239 : Index := Scalar.indexCast v238
  ![v239.toNat]
def k0_off54 (v236 : BitVec 32) : Fin 1 → Nat :=
  let v241 : Index := Scalar.indexCast v236
  ![v241.toNat]

def k0_chk15 (v236 : BitVec 32) : Prop :=
  (∀ a, (k0_off54 v236) a + S1.size a ≤ S16.size a)
instance k0_chk15.dec : ∀ (v236 : BitVec 32), Decidable (k0_chk15 v236) := fun v236 => decidable_of_iff' _ (Iff.of_eq (k0_chk15.eq_1 v236))
theorem k0_off54_inb : ∀ (v236 : BitVec 32) (k0_hw15 : k0_chk15 v236), ∀ a, (k0_off54 v236) a + S1.size a ≤ S16.size a := fun v236 k0_hw15 => k0_hw15

def k0_off55 (k0_t4 : Fin k0_t4_loop.trips) : Fin 1 → Nat :=
  let c16_i32_112 : BitVec 32 := 16#32
  let c0_i32_46 : BitVec 32 := 0#32
  let c1_i32_48 : BitVec 32 := 1#32
  let arg18 : BitVec 32 := Scf.iv c0_i32_46 c1_i32_48 k0_t4
  let v248 : BitVec 32 := Scalar.muli c16_i32_112 arg18
  let c15_i32 : BitVec 32 := 15#32
  let v249 : BitVec 32 := Scalar.addi v248 c15_i32
  let v250 : Index := Scalar.indexCast v249
  ![v250.toNat]
def k0_off56 (v247 : BitVec 32) : Fin 1 → Nat :=
  let v252 : Index := Scalar.indexCast v247
  ![v252.toNat]

def k0_chk16 (v247 : BitVec 32) : Prop :=
  (∀ a, (k0_off56 v247) a + S1.size a ≤ S16.size a)
instance k0_chk16.dec : ∀ (v247 : BitVec 32), Decidable (k0_chk16 v247) := fun v247 => decidable_of_iff' _ (Iff.of_eq (k0_chk16.eq_1 v247))
theorem k0_off56_inb : ∀ (v247 : BitVec 32) (k0_hw16 : k0_chk16 v247), ∀ a, (k0_off56 v247) a + S1.size a ≤ S16.size a := fun v247 k0_hw16 => k0_hw16

@[reducible] def k0_t5_loop : Scf.Loop 32 :=
  let c0_i32_51 : BitVec 32 := 0#32
  let c13_i32_52 : BitVec 32 := 13#32
  let v60 : BitVec 32 := Scalar.addi c0_i32_51 c13_i32_52
  let c1_i32_53 : BitVec 32 := 1#32
  ⟨c0_i32_51, v60, c1_i32_53⟩
def k0_off57 (k0_t5 : Fin k0_t5_loop.trips) : Fin 1 → Nat :=
  let c0_i32_51 : BitVec 32 := 0#32
  let c1_i32_53 : BitVec 32 := 1#32
  let arg18 : BitVec 32 := Scf.iv c0_i32_51 c1_i32_53 k0_t5
  let v76 : Index := Scalar.indexCast arg18
  ![v76.toNat]
@[reducible] def k0_t6_loop : Scf.Loop 32 :=
  let c0_i32_56 : BitVec 32 := 0#32
  let c128_i32_57 : BitVec 32 := 128#32
  let v62 : BitVec 32 := Scalar.addi c0_i32_56 c128_i32_57
  let c1_i32_58 : BitVec 32 := 1#32
  ⟨c0_i32_56, v62, c1_i32_58⟩
def k0_off58 (k0_t6 : Fin k0_t6_loop.trips) : Fin 1 → Nat :=
  let c0_i32_56 : BitVec 32 := 0#32
  let c1_i32_58 : BitVec 32 := 1#32
  let arg18 : BitVec 32 := Scf.iv c0_i32_56 c1_i32_58 k0_t6
  let v76 : Index := Scalar.indexCast arg18
  ![v76.toNat]
def k0_off59 (v77 : BitVec 32) : Fin 1 → Nat :=
  let v78 : Index := Scalar.indexCast v77
  ![v78.toNat]

def k0_off60 (v79 : BitVec 32) : Fin 1 → Nat :=
  let v80 : Index := Scalar.indexCast v79
  ![v80.toNat]

def k0_chk18 (v79 : BitVec 32) : Prop :=
  (∀ a, (k0_off60 v79) a + S1.size a ≤ S128.size a)
instance k0_chk18.dec : ∀ (v79 : BitVec 32), Decidable (k0_chk18 v79) := fun v79 => decidable_of_iff' _ (Iff.of_eq (k0_chk18.eq_1 v79))
theorem k0_off60_inb : ∀ (v79 : BitVec 32) (k0_hw18 : k0_chk18 v79), ∀ a, (k0_off60 v79) a + S1.size a ≤ S128.size a := fun v79 k0_hw18 => k0_hw18

def k0_off61 (v77 : BitVec 32) : Fin 1 → Nat :=
  let v83 : Index := Scalar.indexCast v77
  ![v83.toNat]

def k0_chk17 (v77 : BitVec 32) : Prop :=
  (∀ a, (k0_off59 v77) a + S1.size a ≤ S16.size a) ∧
  (∀ a, (k0_off61 v77) a + S1.size a ≤ S16.size a)
instance k0_chk17.dec : ∀ (v77 : BitVec 32), Decidable (k0_chk17 v77) := fun v77 => decidable_of_iff' _ (Iff.of_eq (k0_chk17.eq_1 v77))
theorem k0_off59_inb : ∀ (v77 : BitVec 32) (k0_hw17 : k0_chk17 v77), ∀ a, (k0_off59 v77) a + S1.size a ≤ S16.size a := fun v77 k0_hw17 => k0_hw17.1
theorem k0_off61_inb : ∀ (v77 : BitVec 32) (k0_hw17 : k0_chk17 v77), ∀ a, (k0_off61 v77) a + S1.size a ≤ S16.size a := fun v77 k0_hw17 => k0_hw17.2

def k0_off62 (k0_t2 : Fin k0_t2_loop.trips) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let c0_i32_60 : BitVec 32 := 0#32
  let c0_i32_61 : BitVec 32 := 0#32
  ![v49.toNat, 0, 0]
@[reducible] def k0_t7_loop : Scf.Loop 32 :=
  let c0_i32_69 : BitVec 32 := 0#32
  let c13_i32_70 : BitVec 32 := 13#32
  let v71 : BitVec 32 := Scalar.addi c0_i32_69 c13_i32_70
  let c1_i32_71 : BitVec 32 := 1#32
  ⟨c0_i32_69, v71, c1_i32_71⟩
def k0_off63 (k0_t7 : Fin k0_t7_loop.trips) : Fin 1 → Nat :=
  let c0_i32_69 : BitVec 32 := 0#32
  let c1_i32_71 : BitVec 32 := 1#32
  let arg18 : BitVec 32 := Scf.iv c0_i32_69 c1_i32_71 k0_t7
  let v76 : Index := Scalar.indexCast arg18
  ![v76.toNat]
@[reducible] def k0_t8_loop (v77 : BitVec 32) : Scf.Loop 32 :=
  let c0_i32_76 : BitVec 32 := 0#32
  let v80 : BitVec 32 := Scalar.subi v77 c0_i32_76
  let c1_i32_77 : BitVec 32 := 1#32
  let v82 : BitVec 32 := Scalar.divsi v80 c1_i32_77
  let v83 : BitVec 32 := Scalar.muli v82 c1_i32_77
  let v84 : BitVec 32 := Scalar.addi c0_i32_76 v83
  let c1_i32_78 : BitVec 32 := 1#32
  ⟨c0_i32_76, v84, c1_i32_78⟩

def k0_off64 (v77 : BitVec 32) (v79 : BitVec 32) (k0_t8 : Fin (k0_t8_loop v77).trips) : Fin 1 → Nat :=
  let c0_i32_76 : BitVec 32 := 0#32
  let c1_i32_78 : BitVec 32 := 1#32
  let arg19 : BitVec 32 := Scf.iv c0_i32_76 c1_i32_78 k0_t8
  let v237 : BitVec 32 := Scalar.addi v79 arg19
  let v238 : Index := Scalar.indexCast v237
  ![v238.toNat]

def k0_off65 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v240 : Index := Scalar.indexCast v49
  let v241 : Index := Scalar.indexCast v239
  let c0_100 : Index := 0#32
  ![v240.toNat, v241.toNat, 0]

def k0_off66 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v244 : Index := Scalar.indexCast v49
  let v245 : Index := Scalar.indexCast v239
  let c16_101 : Index := 16#32
  ![v244.toNat, v245.toNat, 16]
def k0_off67 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v248 : Index := Scalar.indexCast v49
  let v249 : Index := Scalar.indexCast v239
  let c32_102 : Index := 32#32
  ![v248.toNat, v249.toNat, 32]
def k0_off68 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v252 : Index := Scalar.indexCast v49
  let v253 : Index := Scalar.indexCast v239
  let c48_103 : Index := 48#32
  ![v252.toNat, v253.toNat, 48]
def k0_off69 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v256 : Index := Scalar.indexCast v49
  let v257 : Index := Scalar.indexCast v239
  let c64_104 : Index := 64#32
  ![v256.toNat, v257.toNat, 64]
def k0_off70 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v260 : Index := Scalar.indexCast v49
  let v261 : Index := Scalar.indexCast v239
  let c80_105 : Index := 80#32
  ![v260.toNat, v261.toNat, 80]
def k0_off71 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v264 : Index := Scalar.indexCast v49
  let v265 : Index := Scalar.indexCast v239
  let c96_106 : Index := 96#32
  ![v264.toNat, v265.toNat, 96]
def k0_off72 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v268 : Index := Scalar.indexCast v49
  let v269 : Index := Scalar.indexCast v239
  let c112_107 : Index := 112#32
  ![v268.toNat, v269.toNat, 112]
def k0_off73 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v272 : Index := Scalar.indexCast v49
  let v273 : Index := Scalar.indexCast v239
  let c128_108 : Index := 128#32
  ![v272.toNat, v273.toNat, 128]
def k0_off74 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v276 : Index := Scalar.indexCast v49
  let v277 : Index := Scalar.indexCast v239
  let c144_109 : Index := 144#32
  ![v276.toNat, v277.toNat, 144]
def k0_off75 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v280 : Index := Scalar.indexCast v49
  let v281 : Index := Scalar.indexCast v239
  let c160_110 : Index := 160#32
  ![v280.toNat, v281.toNat, 160]
def k0_off76 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v284 : Index := Scalar.indexCast v49
  let v285 : Index := Scalar.indexCast v239
  let c176_111 : Index := 176#32
  ![v284.toNat, v285.toNat, 176]
def k0_off77 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v288 : Index := Scalar.indexCast v49
  let v289 : Index := Scalar.indexCast v239
  let c192_112 : Index := 192#32
  ![v288.toNat, v289.toNat, 192]
def k0_off78 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v292 : Index := Scalar.indexCast v49
  let v293 : Index := Scalar.indexCast v239
  let c208_113 : Index := 208#32
  ![v292.toNat, v293.toNat, 208]
def k0_off79 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v296 : Index := Scalar.indexCast v49
  let v297 : Index := Scalar.indexCast v239
  let c224_114 : Index := 224#32
  ![v296.toNat, v297.toNat, 224]
def k0_off80 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v300 : Index := Scalar.indexCast v49
  let v301 : Index := Scalar.indexCast v239
  let c240_115 : Index := 240#32
  ![v300.toNat, v301.toNat, 240]

def k0_chk21 (k0_t2 : Fin k0_t2_loop.trips) (v239 : BitVec 32) : Prop :=
  (∀ a, (k0_off65 k0_t2 v239) a + S1x1x16.size a ≤ S2x128x256.size a) ∧
  (∀ a, (k0_off66 k0_t2 v239) a + S1x1x16.size a ≤ S2x128x256.size a) ∧
  (∀ a, (k0_off67 k0_t2 v239) a + S1x1x16.size a ≤ S2x128x256.size a) ∧
  (∀ a, (k0_off68 k0_t2 v239) a + S1x1x16.size a ≤ S2x128x256.size a) ∧
  (∀ a, (k0_off69 k0_t2 v239) a + S1x1x16.size a ≤ S2x128x256.size a) ∧
  (∀ a, (k0_off70 k0_t2 v239) a + S1x1x16.size a ≤ S2x128x256.size a) ∧
  (∀ a, (k0_off71 k0_t2 v239) a + S1x1x16.size a ≤ S2x128x256.size a) ∧
  (∀ a, (k0_off72 k0_t2 v239) a + S1x1x16.size a ≤ S2x128x256.size a) ∧
  (∀ a, (k0_off73 k0_t2 v239) a + S1x1x16.size a ≤ S2x128x256.size a) ∧
  (∀ a, (k0_off74 k0_t2 v239) a + S1x1x16.size a ≤ S2x128x256.size a) ∧
  (∀ a, (k0_off75 k0_t2 v239) a + S1x1x16.size a ≤ S2x128x256.size a) ∧
  (∀ a, (k0_off76 k0_t2 v239) a + S1x1x16.size a ≤ S2x128x256.size a) ∧
  (∀ a, (k0_off77 k0_t2 v239) a + S1x1x16.size a ≤ S2x128x256.size a) ∧
  (∀ a, (k0_off78 k0_t2 v239) a + S1x1x16.size a ≤ S2x128x256.size a) ∧
  (∀ a, (k0_off79 k0_t2 v239) a + S1x1x16.size a ≤ S2x128x256.size a) ∧
  (∀ a, (k0_off80 k0_t2 v239) a + S1x1x16.size a ≤ S2x128x256.size a)
instance k0_chk21.dec : ∀ (k0_t2 : Fin k0_t2_loop.trips) (v239 : BitVec 32), Decidable (k0_chk21 k0_t2 v239) := fun k0_t2 v239 => decidable_of_iff' _ (Iff.of_eq (k0_chk21.eq_1 k0_t2 v239))
theorem k0_off65_inb : ∀ (k0_t2 : Fin k0_t2_loop.trips) (v239 : BitVec 32) (k0_hw21 : k0_chk21 k0_t2 v239), ∀ a, (k0_off65 k0_t2 v239) a + S1x1x16.size a ≤ S2x128x256.size a := fun k0_t2 v239 k0_hw21 => k0_hw21.1
theorem k0_off66_inb : ∀ (k0_t2 : Fin k0_t2_loop.trips) (v239 : BitVec 32) (k0_hw21 : k0_chk21 k0_t2 v239), ∀ a, (k0_off66 k0_t2 v239) a + S1x1x16.size a ≤ S2x128x256.size a := fun k0_t2 v239 k0_hw21 => k0_hw21.2.1
theorem k0_off67_inb : ∀ (k0_t2 : Fin k0_t2_loop.trips) (v239 : BitVec 32) (k0_hw21 : k0_chk21 k0_t2 v239), ∀ a, (k0_off67 k0_t2 v239) a + S1x1x16.size a ≤ S2x128x256.size a := fun k0_t2 v239 k0_hw21 => k0_hw21.2.2.1
theorem k0_off68_inb : ∀ (k0_t2 : Fin k0_t2_loop.trips) (v239 : BitVec 32) (k0_hw21 : k0_chk21 k0_t2 v239), ∀ a, (k0_off68 k0_t2 v239) a + S1x1x16.size a ≤ S2x128x256.size a := fun k0_t2 v239 k0_hw21 => k0_hw21.2.2.2.1
theorem k0_off69_inb : ∀ (k0_t2 : Fin k0_t2_loop.trips) (v239 : BitVec 32) (k0_hw21 : k0_chk21 k0_t2 v239), ∀ a, (k0_off69 k0_t2 v239) a + S1x1x16.size a ≤ S2x128x256.size a := fun k0_t2 v239 k0_hw21 => k0_hw21.2.2.2.2.1
theorem k0_off70_inb : ∀ (k0_t2 : Fin k0_t2_loop.trips) (v239 : BitVec 32) (k0_hw21 : k0_chk21 k0_t2 v239), ∀ a, (k0_off70 k0_t2 v239) a + S1x1x16.size a ≤ S2x128x256.size a := fun k0_t2 v239 k0_hw21 => k0_hw21.2.2.2.2.2.1
theorem k0_off71_inb : ∀ (k0_t2 : Fin k0_t2_loop.trips) (v239 : BitVec 32) (k0_hw21 : k0_chk21 k0_t2 v239), ∀ a, (k0_off71 k0_t2 v239) a + S1x1x16.size a ≤ S2x128x256.size a := fun k0_t2 v239 k0_hw21 => k0_hw21.2.2.2.2.2.2.1
theorem k0_off72_inb : ∀ (k0_t2 : Fin k0_t2_loop.trips) (v239 : BitVec 32) (k0_hw21 : k0_chk21 k0_t2 v239), ∀ a, (k0_off72 k0_t2 v239) a + S1x1x16.size a ≤ S2x128x256.size a := fun k0_t2 v239 k0_hw21 => k0_hw21.2.2.2.2.2.2.2.1
theorem k0_off73_inb : ∀ (k0_t2 : Fin k0_t2_loop.trips) (v239 : BitVec 32) (k0_hw21 : k0_chk21 k0_t2 v239), ∀ a, (k0_off73 k0_t2 v239) a + S1x1x16.size a ≤ S2x128x256.size a := fun k0_t2 v239 k0_hw21 => k0_hw21.2.2.2.2.2.2.2.2.1
theorem k0_off74_inb : ∀ (k0_t2 : Fin k0_t2_loop.trips) (v239 : BitVec 32) (k0_hw21 : k0_chk21 k0_t2 v239), ∀ a, (k0_off74 k0_t2 v239) a + S1x1x16.size a ≤ S2x128x256.size a := fun k0_t2 v239 k0_hw21 => k0_hw21.2.2.2.2.2.2.2.2.2.1
theorem k0_off75_inb : ∀ (k0_t2 : Fin k0_t2_loop.trips) (v239 : BitVec 32) (k0_hw21 : k0_chk21 k0_t2 v239), ∀ a, (k0_off75 k0_t2 v239) a + S1x1x16.size a ≤ S2x128x256.size a := fun k0_t2 v239 k0_hw21 => k0_hw21.2.2.2.2.2.2.2.2.2.2.1
theorem k0_off76_inb : ∀ (k0_t2 : Fin k0_t2_loop.trips) (v239 : BitVec 32) (k0_hw21 : k0_chk21 k0_t2 v239), ∀ a, (k0_off76 k0_t2 v239) a + S1x1x16.size a ≤ S2x128x256.size a := fun k0_t2 v239 k0_hw21 => k0_hw21.2.2.2.2.2.2.2.2.2.2.2.1
theorem k0_off77_inb : ∀ (k0_t2 : Fin k0_t2_loop.trips) (v239 : BitVec 32) (k0_hw21 : k0_chk21 k0_t2 v239), ∀ a, (k0_off77 k0_t2 v239) a + S1x1x16.size a ≤ S2x128x256.size a := fun k0_t2 v239 k0_hw21 => k0_hw21.2.2.2.2.2.2.2.2.2.2.2.2.1
theorem k0_off78_inb : ∀ (k0_t2 : Fin k0_t2_loop.trips) (v239 : BitVec 32) (k0_hw21 : k0_chk21 k0_t2 v239), ∀ a, (k0_off78 k0_t2 v239) a + S1x1x16.size a ≤ S2x128x256.size a := fun k0_t2 v239 k0_hw21 => k0_hw21.2.2.2.2.2.2.2.2.2.2.2.2.2.1
theorem k0_off79_inb : ∀ (k0_t2 : Fin k0_t2_loop.trips) (v239 : BitVec 32) (k0_hw21 : k0_chk21 k0_t2 v239), ∀ a, (k0_off79 k0_t2 v239) a + S1x1x16.size a ≤ S2x128x256.size a := fun k0_t2 v239 k0_hw21 => k0_hw21.2.2.2.2.2.2.2.2.2.2.2.2.2.2.1
theorem k0_off80_inb : ∀ (k0_t2 : Fin k0_t2_loop.trips) (v239 : BitVec 32) (k0_hw21 : k0_chk21 k0_t2 v239), ∀ a, (k0_off80 k0_t2 v239) a + S1x1x16.size a ≤ S2x128x256.size a := fun k0_t2 v239 k0_hw21 => k0_hw21.2.2.2.2.2.2.2.2.2.2.2.2.2.2.2

@[reducible] def k0_t9_loop (v77 : BitVec 32) : Scf.Loop 32 :=
  let c0_i32_76 : BitVec 32 := 0#32
  let v80 : BitVec 32 := Scalar.subi v77 c0_i32_76
  let c1_i32_77 : BitVec 32 := 1#32
  let v82 : BitVec 32 := Scalar.divsi v80 c1_i32_77
  let v83 : BitVec 32 := Scalar.muli v82 c1_i32_77
  let v84 : BitVec 32 := Scalar.addi c0_i32_76 v83
  let v81 : BitVec 32 := Scalar.addi c0_i32_76 v80
  let c1_i32_79 : BitVec 32 := 1#32
  ⟨v84, v81, c1_i32_79⟩

def k0_chk19 (v77 : BitVec 32) : Prop :=
  ((k0_t8_loop v77).OK) ∧
  ((k0_t9_loop v77).OK)
instance k0_chk19.dec : ∀ (v77 : BitVec 32), Decidable (k0_chk19 v77) := fun v77 => decidable_of_iff' _ (Iff.of_eq (k0_chk19.eq_1 v77))
theorem k0_t8_ok : ∀ (v77 : BitVec 32) (k0_hw19 : k0_chk19 v77), (k0_t8_loop v77).OK := fun v77 k0_hw19 => k0_hw19.1
theorem k0_t9_ok : ∀ (v77 : BitVec 32) (k0_hw19 : k0_chk19 v77), (k0_t9_loop v77).OK := fun v77 k0_hw19 => k0_hw19.2

def k0_off81 (v77 : BitVec 32) (v79 : BitVec 32) (k0_t9 : Fin (k0_t9_loop v77).trips) : Fin 1 → Nat :=
  let c0_i32_76 : BitVec 32 := 0#32
  let v80 : BitVec 32 := Scalar.subi v77 c0_i32_76
  let c1_i32_77 : BitVec 32 := 1#32
  let v82 : BitVec 32 := Scalar.divsi v80 c1_i32_77
  let v83 : BitVec 32 := Scalar.muli v82 c1_i32_77
  let v84 : BitVec 32 := Scalar.addi c0_i32_76 v83
  let c1_i32_79 : BitVec 32 := 1#32
  let arg19 : BitVec 32 := Scf.iv v84 c1_i32_79 k0_t9
  let v237 : BitVec 32 := Scalar.addi v79 arg19
  let v238 : Index := Scalar.indexCast v237
  ![v238.toNat]

def k0_chk20 (v77 : BitVec 32) (v79 : BitVec 32) : Prop :=
  (∀ k0_t8 : Fin (k0_t8_loop v77).trips, ∀ a, (k0_off64 v77 v79 k0_t8) a + S1.size a ≤ S128.size a) ∧
  (∀ k0_t9 : Fin (k0_t9_loop v77).trips, ∀ a, (k0_off81 v77 v79 k0_t9) a + S1.size a ≤ S128.size a)
instance k0_chk20.dec : ∀ (v77 : BitVec 32) (v79 : BitVec 32), Decidable (k0_chk20 v77 v79) := fun v77 v79 => decidable_of_iff' _ (Iff.of_eq (k0_chk20.eq_1 v77 v79))
theorem k0_off64_inb : ∀ (v77 : BitVec 32) (v79 : BitVec 32) (k0_hw20 : k0_chk20 v77 v79) (k0_t8 : Fin (k0_t8_loop v77).trips), ∀ a, (k0_off64 v77 v79 k0_t8) a + S1.size a ≤ S128.size a := fun v77 v79 k0_hw20 k0_t8 => k0_hw20.1 k0_t8
theorem k0_off81_inb : ∀ (v77 : BitVec 32) (v79 : BitVec 32) (k0_hw20 : k0_chk20 v77 v79) (k0_t9 : Fin (k0_t9_loop v77).trips), ∀ a, (k0_off81 v77 v79 k0_t9) a + S1.size a ≤ S128.size a := fun v77 v79 k0_hw20 k0_t9 => k0_hw20.2 k0_t9

def k0_off82 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v240 : Index := Scalar.indexCast v49
  let v241 : Index := Scalar.indexCast v239
  let c0_100 : Index := 0#32
  ![v240.toNat, v241.toNat, 0]

def k0_off83 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v244 : Index := Scalar.indexCast v49
  let v245 : Index := Scalar.indexCast v239
  let c16_101 : Index := 16#32
  ![v244.toNat, v245.toNat, 16]
def k0_off84 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v248 : Index := Scalar.indexCast v49
  let v249 : Index := Scalar.indexCast v239
  let c32_102 : Index := 32#32
  ![v248.toNat, v249.toNat, 32]
def k0_off85 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v252 : Index := Scalar.indexCast v49
  let v253 : Index := Scalar.indexCast v239
  let c48_103 : Index := 48#32
  ![v252.toNat, v253.toNat, 48]
def k0_off86 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v256 : Index := Scalar.indexCast v49
  let v257 : Index := Scalar.indexCast v239
  let c64_104 : Index := 64#32
  ![v256.toNat, v257.toNat, 64]
def k0_off87 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v260 : Index := Scalar.indexCast v49
  let v261 : Index := Scalar.indexCast v239
  let c80_105 : Index := 80#32
  ![v260.toNat, v261.toNat, 80]
def k0_off88 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v264 : Index := Scalar.indexCast v49
  let v265 : Index := Scalar.indexCast v239
  let c96_106 : Index := 96#32
  ![v264.toNat, v265.toNat, 96]
def k0_off89 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v268 : Index := Scalar.indexCast v49
  let v269 : Index := Scalar.indexCast v239
  let c112_107 : Index := 112#32
  ![v268.toNat, v269.toNat, 112]
def k0_off90 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v272 : Index := Scalar.indexCast v49
  let v273 : Index := Scalar.indexCast v239
  let c128_108 : Index := 128#32
  ![v272.toNat, v273.toNat, 128]
def k0_off91 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v276 : Index := Scalar.indexCast v49
  let v277 : Index := Scalar.indexCast v239
  let c144_109 : Index := 144#32
  ![v276.toNat, v277.toNat, 144]
def k0_off92 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v280 : Index := Scalar.indexCast v49
  let v281 : Index := Scalar.indexCast v239
  let c160_110 : Index := 160#32
  ![v280.toNat, v281.toNat, 160]
def k0_off93 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v284 : Index := Scalar.indexCast v49
  let v285 : Index := Scalar.indexCast v239
  let c176_111 : Index := 176#32
  ![v284.toNat, v285.toNat, 176]
def k0_off94 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v288 : Index := Scalar.indexCast v49
  let v289 : Index := Scalar.indexCast v239
  let c192_112 : Index := 192#32
  ![v288.toNat, v289.toNat, 192]
def k0_off95 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v292 : Index := Scalar.indexCast v49
  let v293 : Index := Scalar.indexCast v239
  let c208_113 : Index := 208#32
  ![v292.toNat, v293.toNat, 208]
def k0_off96 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v296 : Index := Scalar.indexCast v49
  let v297 : Index := Scalar.indexCast v239
  let c224_114 : Index := 224#32
  ![v296.toNat, v297.toNat, 224]
def k0_off97 (k0_t2 : Fin k0_t2_loop.trips) (v239 : BitVec 32) : Fin 3 → Nat :=
  let c0_i32_28 : BitVec 32 := 0#32
  let c1_i32_29 : BitVec 32 := 1#32
  let arg17 : BitVec 32 := Scf.iv c0_i32_28 c1_i32_29 k0_t2
  let c2_i32_31 : BitVec 32 := 2#32
  let c0_i32_32 : BitVec 32 := 0#32
  let v40 : BitVec 1 := Scalar.cmpi .eq c2_i32_31 c0_i32_32
  let c1_i32_33 : BitVec 32 := 1#32
  let v41 : BitVec 32 := Scalar.select v40 c1_i32_33 c2_i32_31
  let v42 : BitVec 32 := Scalar.remsi arg17 v41
  let c0_i32_35 : BitVec 32 := 0#32
  let v44 : BitVec 1 := Scalar.cmpi .slt v42 c0_i32_35
  let c0_i32_36 : BitVec 32 := 0#32
  let v45 : BitVec 1 := Scalar.cmpi .slt v41 c0_i32_36
  let v46 : BitVec 1 := Scalar.xori v44 v45
  let c0_i32_34 : BitVec 32 := 0#32
  let v43 : BitVec 1 := Scalar.cmpi .ne v42 c0_i32_34
  let v47 : BitVec 1 := Scalar.andi v46 v43
  let v48 : BitVec 32 := Scalar.addi v42 v41
  let v49 : BitVec 32 := Scalar.select v47 v48 v42
  let v300 : Index := Scalar.indexCast v49
  let v301 : Index := Scalar.indexCast v239
  let c240_115 : Index := 240#32
  ![v300.toNat, v301.toNat, 240]

def k0_chk22 (k0_t2 : Fin k0_t2_loop.trips) (v239 : BitVec 32) : Prop :=
  (∀ a, (k0_off82 k0_t2 v239) a + S1x1x16.size a ≤ S2x128x256.size a) ∧
  (∀ a, (k0_off83 k0_t2 v239) a + S1x1x16.size a ≤ S2x128x256.size a) ∧
  (∀ a, (k0_off84 k0_t2 v239) a + S1x1x16.size a ≤ S2x128x256.size a) ∧
  (∀ a, (k0_off85 k0_t2 v239) a + S1x1x16.size a ≤ S2x128x256.size a) ∧
  (∀ a, (k0_off86 k0_t2 v239) a + S1x1x16.size a ≤ S2x128x256.size a) ∧
  (∀ a, (k0_off87 k0_t2 v239) a + S1x1x16.size a ≤ S2x128x256.size a) ∧
  (∀ a, (k0_off88 k0_t2 v239) a + S1x1x16.size a ≤ S2x128x256.size a) ∧
  (∀ a, (k0_off89 k0_t2 v239) a + S1x1x16.size a ≤ S2x128x256.size a) ∧
  (∀ a, (k0_off90 k0_t2 v239) a + S1x1x16.size a ≤ S2x128x256.size a) ∧
  (∀ a, (k0_off91 k0_t2 v239) a + S1x1x16.size a ≤ S2x128x256.size a) ∧
  (∀ a, (k0_off92 k0_t2 v239) a + S1x1x16.size a ≤ S2x128x256.size a) ∧
  (∀ a, (k0_off93 k0_t2 v239) a + S1x1x16.size a ≤ S2x128x256.size a) ∧
  (∀ a, (k0_off94 k0_t2 v239) a + S1x1x16.size a ≤ S2x128x256.size a) ∧
  (∀ a, (k0_off95 k0_t2 v239) a + S1x1x16.size a ≤ S2x128x256.size a) ∧
  (∀ a, (k0_off96 k0_t2 v239) a + S1x1x16.size a ≤ S2x128x256.size a) ∧
  (∀ a, (k0_off97 k0_t2 v239) a + S1x1x16.size a ≤ S2x128x256.size a)
instance k0_chk22.dec : ∀ (k0_t2 : Fin k0_t2_loop.trips) (v239 : BitVec 32), Decidable (k0_chk22 k0_t2 v239) := fun k0_t2 v239 => decidable_of_iff' _ (Iff.of_eq (k0_chk22.eq_1 k0_t2 v239))
theorem k0_off82_inb : ∀ (k0_t2 : Fin k0_t2_loop.trips) (v239 : BitVec 32) (k0_hw22 : k0_chk22 k0_t2 v239), ∀ a, (k0_off82 k0_t2 v239) a + S1x1x16.size a ≤ S2x128x256.size a := fun k0_t2 v239 k0_hw22 => k0_hw22.1
theorem k0_off83_inb : ∀ (k0_t2 : Fin k0_t2_loop.trips) (v239 : BitVec 32) (k0_hw22 : k0_chk22 k0_t2 v239), ∀ a, (k0_off83 k0_t2 v239) a + S1x1x16.size a ≤ S2x128x256.size a := fun k0_t2 v239 k0_hw22 => k0_hw22.2.1
theorem k0_off84_inb : ∀ (k0_t2 : Fin k0_t2_loop.trips) (v239 : BitVec 32) (k0_hw22 : k0_chk22 k0_t2 v239), ∀ a, (k0_off84 k0_t2 v239) a + S1x1x16.size a ≤ S2x128x256.size a := fun k0_t2 v239 k0_hw22 => k0_hw22.2.2.1
theorem k0_off85_inb : ∀ (k0_t2 : Fin k0_t2_loop.trips) (v239 : BitVec 32) (k0_hw22 : k0_chk22 k0_t2 v239), ∀ a, (k0_off85 k0_t2 v239) a + S1x1x16.size a ≤ S2x128x256.size a := fun k0_t2 v239 k0_hw22 => k0_hw22.2.2.2.1
theorem k0_off86_inb : ∀ (k0_t2 : Fin k0_t2_loop.trips) (v239 : BitVec 32) (k0_hw22 : k0_chk22 k0_t2 v239), ∀ a, (k0_off86 k0_t2 v239) a + S1x1x16.size a ≤ S2x128x256.size a := fun k0_t2 v239 k0_hw22 => k0_hw22.2.2.2.2.1
theorem k0_off87_inb : ∀ (k0_t2 : Fin k0_t2_loop.trips) (v239 : BitVec 32) (k0_hw22 : k0_chk22 k0_t2 v239), ∀ a, (k0_off87 k0_t2 v239) a + S1x1x16.size a ≤ S2x128x256.size a := fun k0_t2 v239 k0_hw22 => k0_hw22.2.2.2.2.2.1
theorem k0_off88_inb : ∀ (k0_t2 : Fin k0_t2_loop.trips) (v239 : BitVec 32) (k0_hw22 : k0_chk22 k0_t2 v239), ∀ a, (k0_off88 k0_t2 v239) a + S1x1x16.size a ≤ S2x128x256.size a := fun k0_t2 v239 k0_hw22 => k0_hw22.2.2.2.2.2.2.1
theorem k0_off89_inb : ∀ (k0_t2 : Fin k0_t2_loop.trips) (v239 : BitVec 32) (k0_hw22 : k0_chk22 k0_t2 v239), ∀ a, (k0_off89 k0_t2 v239) a + S1x1x16.size a ≤ S2x128x256.size a := fun k0_t2 v239 k0_hw22 => k0_hw22.2.2.2.2.2.2.2.1
theorem k0_off90_inb : ∀ (k0_t2 : Fin k0_t2_loop.trips) (v239 : BitVec 32) (k0_hw22 : k0_chk22 k0_t2 v239), ∀ a, (k0_off90 k0_t2 v239) a + S1x1x16.size a ≤ S2x128x256.size a := fun k0_t2 v239 k0_hw22 => k0_hw22.2.2.2.2.2.2.2.2.1
theorem k0_off91_inb : ∀ (k0_t2 : Fin k0_t2_loop.trips) (v239 : BitVec 32) (k0_hw22 : k0_chk22 k0_t2 v239), ∀ a, (k0_off91 k0_t2 v239) a + S1x1x16.size a ≤ S2x128x256.size a := fun k0_t2 v239 k0_hw22 => k0_hw22.2.2.2.2.2.2.2.2.2.1
theorem k0_off92_inb : ∀ (k0_t2 : Fin k0_t2_loop.trips) (v239 : BitVec 32) (k0_hw22 : k0_chk22 k0_t2 v239), ∀ a, (k0_off92 k0_t2 v239) a + S1x1x16.size a ≤ S2x128x256.size a := fun k0_t2 v239 k0_hw22 => k0_hw22.2.2.2.2.2.2.2.2.2.2.1
theorem k0_off93_inb : ∀ (k0_t2 : Fin k0_t2_loop.trips) (v239 : BitVec 32) (k0_hw22 : k0_chk22 k0_t2 v239), ∀ a, (k0_off93 k0_t2 v239) a + S1x1x16.size a ≤ S2x128x256.size a := fun k0_t2 v239 k0_hw22 => k0_hw22.2.2.2.2.2.2.2.2.2.2.2.1
theorem k0_off94_inb : ∀ (k0_t2 : Fin k0_t2_loop.trips) (v239 : BitVec 32) (k0_hw22 : k0_chk22 k0_t2 v239), ∀ a, (k0_off94 k0_t2 v239) a + S1x1x16.size a ≤ S2x128x256.size a := fun k0_t2 v239 k0_hw22 => k0_hw22.2.2.2.2.2.2.2.2.2.2.2.2.1
theorem k0_off95_inb : ∀ (k0_t2 : Fin k0_t2_loop.trips) (v239 : BitVec 32) (k0_hw22 : k0_chk22 k0_t2 v239), ∀ a, (k0_off95 k0_t2 v239) a + S1x1x16.size a ≤ S2x128x256.size a := fun k0_t2 v239 k0_hw22 => k0_hw22.2.2.2.2.2.2.2.2.2.2.2.2.2.1
theorem k0_off96_inb : ∀ (k0_t2 : Fin k0_t2_loop.trips) (v239 : BitVec 32) (k0_hw22 : k0_chk22 k0_t2 v239), ∀ a, (k0_off96 k0_t2 v239) a + S1x1x16.size a ≤ S2x128x256.size a := fun k0_t2 v239 k0_hw22 => k0_hw22.2.2.2.2.2.2.2.2.2.2.2.2.2.2.1
theorem k0_off97_inb : ∀ (k0_t2 : Fin k0_t2_loop.trips) (v239 : BitVec 32) (k0_hw22 : k0_chk22 k0_t2 v239), ∀ a, (k0_off97 k0_t2 v239) a + S1x1x16.size a ≤ S2x128x256.size a := fun k0_t2 v239 k0_hw22 => k0_hw22.2.2.2.2.2.2.2.2.2.2.2.2.2.2.2

def k0_off98 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v87 : Index := Scalar.indexCast arg18
  let c0 : Index := 0#32
  ![v87.toNat, 0]
def k0_off99 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v95 : Index := Scalar.indexCast arg18
  let c16 : Index := 16#32
  ![v95.toNat, 16]
def k0_off100 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v103 : Index := Scalar.indexCast arg18
  let c32 : Index := 32#32
  ![v103.toNat, 32]
def k0_off101 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v111 : Index := Scalar.indexCast arg18
  let c48 : Index := 48#32
  ![v111.toNat, 48]
def k0_off102 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v119 : Index := Scalar.indexCast arg18
  let c64 : Index := 64#32
  ![v119.toNat, 64]
def k0_off103 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v127 : Index := Scalar.indexCast arg18
  let c80 : Index := 80#32
  ![v127.toNat, 80]
def k0_off104 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v135 : Index := Scalar.indexCast arg18
  let c96 : Index := 96#32
  ![v135.toNat, 96]
def k0_off105 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v143 : Index := Scalar.indexCast arg18
  let c112 : Index := 112#32
  ![v143.toNat, 112]
def k0_off106 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v151 : Index := Scalar.indexCast arg18
  let c128 : Index := 128#32
  ![v151.toNat, 128]
def k0_off107 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v159 : Index := Scalar.indexCast arg18
  let c144 : Index := 144#32
  ![v159.toNat, 144]
def k0_off108 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v167 : Index := Scalar.indexCast arg18
  let c160 : Index := 160#32
  ![v167.toNat, 160]
def k0_off109 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v175 : Index := Scalar.indexCast arg18
  let c176 : Index := 176#32
  ![v175.toNat, 176]
def k0_off110 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v183 : Index := Scalar.indexCast arg18
  let c192 : Index := 192#32
  ![v183.toNat, 192]
def k0_off111 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v191 : Index := Scalar.indexCast arg18
  let c208 : Index := 208#32
  ![v191.toNat, 208]
def k0_off112 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v199 : Index := Scalar.indexCast arg18
  let c224 : Index := 224#32
  ![v199.toNat, 224]
def k0_off113 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v207 : Index := Scalar.indexCast arg18
  let c240 : Index := 240#32
  ![v207.toNat, 240]
def k0_off114 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v218 : Index := Scalar.indexCast arg18
  let c0_96 : Index := 0#32
  ![v218.toNat, 0]
def k0_off115 (k0_t7 : Fin k0_t7_loop.trips) : Fin 2 → Nat :=
  let c0_i32_69 : BitVec 32 := 0#32
  let c1_i32_71 : BitVec 32 := 1#32
  let arg18 : BitVec 32 := Scf.iv c0_i32_69 c1_i32_71 k0_t7
  let v227 : Index := Scalar.indexCast arg18
  let c16_98 : Index := 16#32
  ![v227.toNat, 16]
def k0_cond1 (k0_t2 : Fin k0_t2_loop.trips) : BitVec 1 :=
  let c0_i32_28 : BitVec 32 := 0#32
  let c1_i32_29 : BitVec 32 := 1#32
  let arg17 : BitVec 32 := Scf.iv c0_i32_28 c1_i32_29 k0_t2
  let c2_i32_73 : BitVec 32 := 2#32
  let v72 : BitVec 32 := Scalar.addi arg17 c2_i32_73
  let c8_i32_74 : BitVec 32 := 8#32
  let v73 : BitVec 1 := Scalar.cmpi .slt v72 c8_i32_74
  let v74 : BitVec 32 := Scalar.extui v73
  let c0_i32_75 : BitVec 32 := 0#32
  let v75 : BitVec 1 := Scalar.cmpi .ne v74 c0_i32_75
  v75

def k0_off116 (k0_t2 : Fin k0_t2_loop.trips) : Fin 3 → Nat :=
  let c0_i32_28 : BitVec 32 := 0#32
  let c1_i32_29 : BitVec 32 := 1#32
  let arg17 : BitVec 32 := Scf.iv c0_i32_28 c1_i32_29 k0_t2
  let c2_i32_76 : BitVec 32 := 2#32
  let v76 : BitVec 32 := Scalar.addi arg17 c2_i32_76
  let c2_i32_77 : BitVec 32 := 2#32
  let c0_i32_78 : BitVec 32 := 0#32
  let v77 : BitVec 1 := Scalar.cmpi .eq c2_i32_77 c0_i32_78
  let c1_i32_79 : BitVec 32 := 1#32
  let v78 : BitVec 32 := Scalar.select v77 c1_i32_79 c2_i32_77
  let v79 : BitVec 32 := Scalar.remsi v76 v78
  let c0_i32_81 : BitVec 32 := 0#32
  let v81 : BitVec 1 := Scalar.cmpi .slt v79 c0_i32_81
  let c0_i32_82 : BitVec 32 := 0#32
  let v82 : BitVec 1 := Scalar.cmpi .slt v78 c0_i32_82
  let v83 : BitVec 1 := Scalar.xori v81 v82
  let c0_i32_80 : BitVec 32 := 0#32
  let v80 : BitVec 1 := Scalar.cmpi .ne v79 c0_i32_80
  let v84 : BitVec 1 := Scalar.andi v83 v80
  let v85 : BitVec 32 := Scalar.addi v79 v78
  let v86 : BitVec 32 := Scalar.select v84 v85 v79
  let c0_i32_84 : BitVec 32 := 0#32
  let c0_i32_85 : BitVec 32 := 0#32
  ![v86.toNat, 0, 0]
def k0_off117 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_28 : BitVec 32 := 0#32
  let c1_i32_29 : BitVec 32 := 1#32
  let arg17 : BitVec 32 := Scf.iv c0_i32_28 c1_i32_29 k0_t2
  let c2_i32_76 : BitVec 32 := 2#32
  let v76 : BitVec 32 := Scalar.addi arg17 c2_i32_76
  let c128_i32_83 : BitVec 32 := 128#32
  let v87 : BitVec 32 := Scalar.muli v76 c128_i32_83
  let v88 : BitVec 32 := Scalar.addi v2 v87
  let c0_i32_86 : BitVec 32 := 0#32
  ![v88.toNat, 0]
def k0_off118 (k0_t2 : Fin k0_t2_loop.trips) : Fin 1 → Nat :=
  let c0_i32_28 : BitVec 32 := 0#32
  let c1_i32_29 : BitVec 32 := 1#32
  let arg17 : BitVec 32 := Scf.iv c0_i32_28 c1_i32_29 k0_t2
  let c2_i32_76 : BitVec 32 := 2#32
  let v76 : BitVec 32 := Scalar.addi arg17 c2_i32_76
  let c2_i32_77 : BitVec 32 := 2#32
  let c0_i32_78 : BitVec 32 := 0#32
  let v77 : BitVec 1 := Scalar.cmpi .eq c2_i32_77 c0_i32_78
  let c1_i32_79 : BitVec 32 := 1#32
  let v78 : BitVec 32 := Scalar.select v77 c1_i32_79 c2_i32_77
  let v79 : BitVec 32 := Scalar.remsi v76 v78
  let c0_i32_81 : BitVec 32 := 0#32
  let v81 : BitVec 1 := Scalar.cmpi .slt v79 c0_i32_81
  let c0_i32_82 : BitVec 32 := 0#32
  let v82 : BitVec 1 := Scalar.cmpi .slt v78 c0_i32_82
  let v83 : BitVec 1 := Scalar.xori v81 v82
  let c0_i32_80 : BitVec 32 := 0#32
  let v80 : BitVec 1 := Scalar.cmpi .ne v79 c0_i32_80
  let v84 : BitVec 1 := Scalar.andi v83 v80
  let v85 : BitVec 32 := Scalar.addi v79 v78
  let v86 : BitVec 32 := Scalar.select v84 v85 v79
  ![v86.toNat]
def k0_off119 (k0_t2 : Fin k0_t2_loop.trips) : Fin 2 → Nat :=
  let c0_i32_28 : BitVec 32 := 0#32
  let c1_i32_29 : BitVec 32 := 1#32
  let arg17 : BitVec 32 := Scf.iv c0_i32_28 c1_i32_29 k0_t2
  let c2_i32_76 : BitVec 32 := 2#32
  let v76 : BitVec 32 := Scalar.addi arg17 c2_i32_76
  let c2_i32_77 : BitVec 32 := 2#32
  let c0_i32_78 : BitVec 32 := 0#32
  let v77 : BitVec 1 := Scalar.cmpi .eq c2_i32_77 c0_i32_78
  let c1_i32_79 : BitVec 32 := 1#32
  let v78 : BitVec 32 := Scalar.select v77 c1_i32_79 c2_i32_77
  let v79 : BitVec 32 := Scalar.remsi v76 v78
  let c0_i32_81 : BitVec 32 := 0#32
  let v81 : BitVec 1 := Scalar.cmpi .slt v79 c0_i32_81
  let c0_i32_82 : BitVec 32 := 0#32
  let v82 : BitVec 1 := Scalar.cmpi .slt v78 c0_i32_82
  let v83 : BitVec 1 := Scalar.xori v81 v82
  let c0_i32_80 : BitVec 32 := 0#32
  let v80 : BitVec 1 := Scalar.cmpi .ne v79 c0_i32_80
  let v84 : BitVec 1 := Scalar.andi v83 v80
  let v85 : BitVec 32 := Scalar.addi v79 v78
  let v86 : BitVec 32 := Scalar.select v84 v85 v79
  let c0_i32_90 : BitVec 32 := 0#32
  ![v86.toNat, 0]
def k0_off120 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_28 : BitVec 32 := 0#32
  let c1_i32_29 : BitVec 32 := 1#32
  let arg17 : BitVec 32 := Scf.iv c0_i32_28 c1_i32_29 k0_t2
  let c2_i32_76 : BitVec 32 := 2#32
  let v76 : BitVec 32 := Scalar.addi arg17 c2_i32_76
  let c128_i32_83 : BitVec 32 := 128#32
  let v87 : BitVec 32 := Scalar.muli v76 c128_i32_83
  let v88 : BitVec 32 := Scalar.addi v2 v87
  ![v88.toNat]
def k0_off121 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31_r0 : BitVec 32 := 0#32
  let c0_i32_32_r0 : BitVec 32 := 0#32
  ![v1.toNat, 0, 0]
def k0_off122 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31_r1 : BitVec 32 := 0#32
  let c0_i32_32_r1 : BitVec 32 := 0#32
  ![v1.toNat, 0, 0]
abbrev grid1 : Pipeline.Grid := ⟨1, ![16], ![false]⟩

def k1_cond3 (i : grid1.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_12 : BitVec 32 := 0#32
  let v32 : BitVec 1 := Scalar.cmpi .ne v31 c0_i32_12
  v32

def cc1_transform_0 (i : grid1.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S32x16x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S65536_S32x1x2048 : S65536.ShapeCasts S32x1x2048
  h_S1x16 : 0 < S1x16.numel
  shapeCasts_S1x16_S16 : S1x16.ShapeCasts S16
  shapeCasts_S16_S1x16 : S16.ShapeCasts S1x16
  inb_S2x128x256_S1x128x256_0_0_0 : ∀ a, (![0, 0, 0] : Fin 3 → Nat) a + S1x128x256.size a ≤ S2x128x256.size a
  squeezes_S1x128x256_S128x256 : S1x128x256.Squeezes S128x256
  inb_S2_S1_0 : ∀ a, (![0] : Fin 1 → Nat) a + S1.size a ≤ S2.size a
  squeezes_S1_S_ : S1.Squeezes S_
  inb_S2x128_S1x128_0_0 : ∀ a, (![0, 0] : Fin 2 → Nat) a + S1x128.size a ≤ S2x128.size a
  squeezes_S1x128_S128 : S1x128.Squeezes S128
  inb_S2x128x256_S1x128x256_1_0_0 : ∀ a, (![1, 0, 0] : Fin 3 → Nat) a + S1x128x256.size a ≤ S2x128x256.size a
  inb_S2_S1_1 : ∀ a, (![1] : Fin 1 → Nat) a + S1.size a ≤ S2.size a
  inb_S2x128_S1x128_1_0 : ∀ a, (![1, 0] : Fin 2 → Nat) a + S1x128.size a ≤ S2x128.size a
  inb_S65536_S128_0 : ∀ a, (![0] : Fin 1 → Nat) a + S128.size a ≤ S65536.size a
  numel1_S1 : S1.numel = 1
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S65536x256_S128x256_0_0 : ∀ a, (![0, 0] : Fin 2 → Nat) a + S128x256.size a ≤ S65536x256.size a
  h_S1x1x16 : 0 < S1x1x16.numel
  shapeCasts_S1x1x16_S16 : S1x1x16.ShapeCasts S16
  squeezes_S1x16x256_S16x256 : S1x16x256.Squeezes S16x256
  squeezes_S1x16x32_S16x32 : S1x16x32.Squeezes S16x32
  inb_S2048x256_S2048x256_0_0 : ∀ a, (![0, 0] : Fin 2 → Nat) a + S2048x256.size a ≤ S2048x256.size a
  h_S2048x256 : 0 < S2048x256.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S16x2048_d0_w32 : S16x2048.Iotas .tc 32 [0]
  broadcasts_S1x2048_S16x2048 : S1x2048.Broadcasts S16x2048
  natLt_1_32 : 1 < 32
  reduces_S2048x256_S2048 : S2048x256.Reduces [1] S2048
  shapeCasts_S2048_S2048x1 : S2048.ShapeCasts S2048x1
  iota_S2048x128_d1_w32 : S2048x128.Iotas .tc 32 [1]
  shapeCasts_S2048x1_S2048x1 : S2048x1.ShapeCasts S2048x1
  broadcasts_S2048x1_S2048x128 : S2048x1.Broadcasts S2048x128
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S32x16x32_S1x16x32_0_0_0 : ∀ a, (![0, 0, 0] : Fin 3 → Nat) a + S1x16x32.size a ≤ S32x16x32.size a
  h_S1x16x32 : 0 < S1x16x32.numel
  shapeCasts_S1x16x32_S16x32 : S1x16x32.ShapeCasts S16x32
  inb_S32x16x32_S1x16x32_1_0_0 : ∀ a, (![1, 0, 0] : Fin 3 → Nat) a + S1x16x32.size a ≤ S32x16x32.size a
  inb_S32x16x32_S1x16x32_2_0_0 : ∀ a, (![2, 0, 0] : Fin 3 → Nat) a + S1x16x32.size a ≤ S32x16x32.size a
  inb_S32x16x32_S1x16x32_3_0_0 : ∀ a, (![3, 0, 0] : Fin 3 → Nat) a + S1x16x32.size a ≤ S32x16x32.size a
  inb_S32x16x32_S1x16x32_4_0_0 : ∀ a, (![4, 0, 0] : Fin 3 → Nat) a + S1x16x32.size a ≤ S32x16x32.size a
  inb_S32x16x32_S1x16x32_5_0_0 : ∀ a, (![5, 0, 0] : Fin 3 → Nat) a + S1x16x32.size a ≤ S32x16x32.size a
  inb_S32x16x32_S1x16x32_6_0_0 : ∀ a, (![6, 0, 0] : Fin 3 → Nat) a + S1x16x32.size a ≤ S32x16x32.size a
  inb_S32x16x32_S1x16x32_7_0_0 : ∀ a, (![7, 0, 0] : Fin 3 → Nat) a + S1x16x32.size a ≤ S32x16x32.size a
  inb_S32x16x32_S1x16x32_8_0_0 : ∀ a, (![8, 0, 0] : Fin 3 → Nat) a + S1x16x32.size a ≤ S32x16x32.size a
  inb_S32x16x32_S1x16x32_9_0_0 : ∀ a, (![9, 0, 0] : Fin 3 → Nat) a + S1x16x32.size a ≤ S32x16x32.size a
  inb_S32x16x32_S1x16x32_10_0_0 : ∀ a, (![10, 0, 0] : Fin 3 → Nat) a + S1x16x32.size a ≤ S32x16x32.size a
  inb_S32x16x32_S1x16x32_11_0_0 : ∀ a, (![11, 0, 0] : Fin 3 → Nat) a + S1x16x32.size a ≤ S32x16x32.size a
  inb_S32x16x32_S1x16x32_12_0_0 : ∀ a, (![12, 0, 0] : Fin 3 → Nat) a + S1x16x32.size a ≤ S32x16x32.size a
  inb_S32x16x32_S1x16x32_13_0_0 : ∀ a, (![13, 0, 0] : Fin 3 → Nat) a + S1x16x32.size a ≤ S32x16x32.size a
  inb_S32x16x32_S1x16x32_14_0_0 : ∀ a, (![14, 0, 0] : Fin 3 → Nat) a + S1x16x32.size a ≤ S32x16x32.size a
  inb_S32x16x32_S1x16x32_15_0_0 : ∀ a, (![15, 0, 0] : Fin 3 → Nat) a + S1x16x32.size a ≤ S32x16x32.size a
  inb_S32x16x32_S1x16x32_16_0_0 : ∀ a, (![16, 0, 0] : Fin 3 → Nat) a + S1x16x32.size a ≤ S32x16x32.size a
  inb_S32x16x32_S1x16x32_17_0_0 : ∀ a, (![17, 0, 0] : Fin 3 → Nat) a + S1x16x32.size a ≤ S32x16x32.size a
  inb_S32x16x32_S1x16x32_18_0_0 : ∀ a, (![18, 0, 0] : Fin 3 → Nat) a + S1x16x32.size a ≤ S32x16x32.size a
  inb_S32x16x32_S1x16x32_19_0_0 : ∀ a, (![19, 0, 0] : Fin 3 → Nat) a + S1x16x32.size a ≤ S32x16x32.size a
  inb_S32x16x32_S1x16x32_20_0_0 : ∀ a, (![20, 0, 0] : Fin 3 → Nat) a + S1x16x32.size a ≤ S32x16x32.size a
  inb_S32x16x32_S1x16x32_21_0_0 : ∀ a, (![21, 0, 0] : Fin 3 → Nat) a + S1x16x32.size a ≤ S32x16x32.size a
  inb_S32x16x32_S1x16x32_22_0_0 : ∀ a, (![22, 0, 0] : Fin 3 → Nat) a + S1x16x32.size a ≤ S32x16x32.size a
  inb_S32x16x32_S1x16x32_23_0_0 : ∀ a, (![23, 0, 0] : Fin 3 → Nat) a + S1x16x32.size a ≤ S32x16x32.size a
  inb_S32x16x32_S1x16x32_24_0_0 : ∀ a, (![24, 0, 0] : Fin 3 → Nat) a + S1x16x32.size a ≤ S32x16x32.size a
  inb_S32x16x32_S1x16x32_25_0_0 : ∀ a, (![25, 0, 0] : Fin 3 → Nat) a + S1x16x32.size a ≤ S32x16x32.size a
  inb_S32x16x32_S1x16x32_26_0_0 : ∀ a, (![26, 0, 0] : Fin 3 → Nat) a + S1x16x32.size a ≤ S32x16x32.size a
  inb_S32x16x32_S1x16x32_27_0_0 : ∀ a, (![27, 0, 0] : Fin 3 → Nat) a + S1x16x32.size a ≤ S32x16x32.size a
  inb_S32x16x32_S1x16x32_28_0_0 : ∀ a, (![28, 0, 0] : Fin 3 → Nat) a + S1x16x32.size a ≤ S32x16x32.size a
  inb_S32x16x32_S1x16x32_29_0_0 : ∀ a, (![29, 0, 0] : Fin 3 → Nat) a + S1x16x32.size a ≤ S32x16x32.size a
  inb_S32x16x32_S1x16x32_30_0_0 : ∀ a, (![30, 0, 0] : Fin 3 → Nat) a + S1x16x32.size a ≤ S32x16x32.size a
  inb_S32x16x32_S1x16x32_31_0_0 : ∀ a, (![31, 0, 0] : Fin 3 → Nat) a + S1x16x32.size a ≤ S32x16x32.size a
  inb_S32x16x256_S1x16x256_0_0_0 : ∀ a, (![0, 0, 0] : Fin 3 → Nat) a + S1x16x256.size a ≤ S32x16x256.size a
  h_S1x16x256 : 0 < S1x16x256.numel
  shapeCasts_S1x16x256_S16x256 : S1x16x256.ShapeCasts S16x256
  inb_S32x16x256_S1x16x256_1_0_0 : ∀ a, (![1, 0, 0] : Fin 3 → Nat) a + S1x16x256.size a ≤ S32x16x256.size a
  inb_S32x16x256_S1x16x256_2_0_0 : ∀ a, (![2, 0, 0] : Fin 3 → Nat) a + S1x16x256.size a ≤ S32x16x256.size a
  inb_S32x16x256_S1x16x256_3_0_0 : ∀ a, (![3, 0, 0] : Fin 3 → Nat) a + S1x16x256.size a ≤ S32x16x256.size a
  inb_S32x16x256_S1x16x256_4_0_0 : ∀ a, (![4, 0, 0] : Fin 3 → Nat) a + S1x16x256.size a ≤ S32x16x256.size a
  inb_S32x16x256_S1x16x256_5_0_0 : ∀ a, (![5, 0, 0] : Fin 3 → Nat) a + S1x16x256.size a ≤ S32x16x256.size a
  inb_S32x16x256_S1x16x256_6_0_0 : ∀ a, (![6, 0, 0] : Fin 3 → Nat) a + S1x16x256.size a ≤ S32x16x256.size a
  inb_S32x16x256_S1x16x256_7_0_0 : ∀ a, (![7, 0, 0] : Fin 3 → Nat) a + S1x16x256.size a ≤ S32x16x256.size a
  inb_S32x16x256_S1x16x256_8_0_0 : ∀ a, (![8, 0, 0] : Fin 3 → Nat) a + S1x16x256.size a ≤ S32x16x256.size a
  inb_S32x16x256_S1x16x256_9_0_0 : ∀ a, (![9, 0, 0] : Fin 3 → Nat) a + S1x16x256.size a ≤ S32x16x256.size a
  inb_S32x16x256_S1x16x256_10_0_0 : ∀ a, (![10, 0, 0] : Fin 3 → Nat) a + S1x16x256.size a ≤ S32x16x256.size a
  inb_S32x16x256_S1x16x256_11_0_0 : ∀ a, (![11, 0, 0] : Fin 3 → Nat) a + S1x16x256.size a ≤ S32x16x256.size a
  inb_S32x16x256_S1x16x256_12_0_0 : ∀ a, (![12, 0, 0] : Fin 3 → Nat) a + S1x16x256.size a ≤ S32x16x256.size a
  inb_S32x16x256_S1x16x256_13_0_0 : ∀ a, (![13, 0, 0] : Fin 3 → Nat) a + S1x16x256.size a ≤ S32x16x256.size a
  inb_S32x16x256_S1x16x256_14_0_0 : ∀ a, (![14, 0, 0] : Fin 3 → Nat) a + S1x16x256.size a ≤ S32x16x256.size a
  inb_S32x16x256_S1x16x256_15_0_0 : ∀ a, (![15, 0, 0] : Fin 3 → Nat) a + S1x16x256.size a ≤ S32x16x256.size a
  inb_S32x16x256_S1x16x256_16_0_0 : ∀ a, (![16, 0, 0] : Fin 3 → Nat) a + S1x16x256.size a ≤ S32x16x256.size a
  inb_S32x16x256_S1x16x256_17_0_0 : ∀ a, (![17, 0, 0] : Fin 3 → Nat) a + S1x16x256.size a ≤ S32x16x256.size a
  inb_S32x16x256_S1x16x256_18_0_0 : ∀ a, (![18, 0, 0] : Fin 3 → Nat) a + S1x16x256.size a ≤ S32x16x256.size a
  inb_S32x16x256_S1x16x256_19_0_0 : ∀ a, (![19, 0, 0] : Fin 3 → Nat) a + S1x16x256.size a ≤ S32x16x256.size a
  inb_S32x16x256_S1x16x256_20_0_0 : ∀ a, (![20, 0, 0] : Fin 3 → Nat) a + S1x16x256.size a ≤ S32x16x256.size a
  inb_S32x16x256_S1x16x256_21_0_0 : ∀ a, (![21, 0, 0] : Fin 3 → Nat) a + S1x16x256.size a ≤ S32x16x256.size a
  inb_S32x16x256_S1x16x256_22_0_0 : ∀ a, (![22, 0, 0] : Fin 3 → Nat) a + S1x16x256.size a ≤ S32x16x256.size a
  inb_S32x16x256_S1x16x256_23_0_0 : ∀ a, (![23, 0, 0] : Fin 3 → Nat) a + S1x16x256.size a ≤ S32x16x256.size a
  inb_S32x16x256_S1x16x256_24_0_0 : ∀ a, (![24, 0, 0] : Fin 3 → Nat) a + S1x16x256.size a ≤ S32x16x256.size a
  inb_S32x16x256_S1x16x256_25_0_0 : ∀ a, (![25, 0, 0] : Fin 3 → Nat) a + S1x16x256.size a ≤ S32x16x256.size a
  inb_S32x16x256_S1x16x256_26_0_0 : ∀ a, (![26, 0, 0] : Fin 3 → Nat) a + S1x16x256.size a ≤ S32x16x256.size a
  inb_S32x16x256_S1x16x256_27_0_0 : ∀ a, (![27, 0, 0] : Fin 3 → Nat) a + S1x16x256.size a ≤ S32x16x256.size a
  inb_S32x16x256_S1x16x256_28_0_0 : ∀ a, (![28, 0, 0] : Fin 3 → Nat) a + S1x16x256.size a ≤ S32x16x256.size a
  inb_S32x16x256_S1x16x256_29_0_0 : ∀ a, (![29, 0, 0] : Fin 3 → Nat) a + S1x16x256.size a ≤ S32x16x256.size a
  inb_S32x16x256_S1x16x256_30_0_0 : ∀ a, (![30, 0, 0] : Fin 3 → Nat) a + S1x16x256.size a ≤ S32x16x256.size a
  inb_S32x16x256_S1x16x256_31_0_0 : ∀ a, (![31, 0, 0] : Fin 3 → Nat) a + S1x16x256.size a ≤ S32x16x256.size a
  iota_S16x128_d1_w32 : S16x128.Iotas .tc 32 [1]
  iota_S16x32_d1_w32 : S16x32.Iotas .tc 32 [1]
  reduces_S16x32_S16 : S16x32.Reduces [1] S16
  shapeCasts_S16_S16x1 : S16.ShapeCasts S16x1
  reduces_S16x128_S16 : S16x128.Reduces [1] S16
  reduces_S16x256_S16 : S16x256.Reduces [1] S16
  iota_S16x1_d0_w32 : S16x1.Iotas .tc 32 [0]
  shapeCasts_S16x1_S1x16x1 : S16x1.ShapeCasts S1x16x1
  reduces_S1x16x1_S1 : S1x16x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S16x2048_S2048x256_S16x256_1_0_0_1_n_n_wf : DotDims.WF S16x2048 S2048x256 S16x256 [1] [0] [0] [1] [] []
  dot_S16x2048_S2048x128_S16x128_1_0_0_1_n_n_wf : DotDims.WF S16x2048 S2048x128 S16x128 [1] [0] [0] [1] [] []
  hcc0_scratch9 : 0 + S2.numel ≤ 17
  hcc0_scratch10 : 2 + S2.numel ≤ 17
  hcc0_scoped0 : 4 + S_.numel ≤ 17
  hcc0_scoped1 : 5 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S1x16.size a ≤ S16x256.size a
  k0_off2_inb : ∀ k0_t1 : Fin k0_t1_loop.trips, ∀ a, (k0_off2 k0_t1) a + S1x16.size a ≤ S16x256.size a
  k0_off3_inb : ∀ k0_t1 : Fin k0_t1_loop.trips, ∀ a, (k0_off3 k0_t1) a + S1x16.size a ≤ S16x256.size a
  k0_off4_inb : ∀ k0_t1 : Fin k0_t1_loop.trips, ∀ a, (k0_off4 k0_t1) a + S1x16.size a ≤ S16x256.size a
  k0_off5_inb : ∀ k0_t1 : Fin k0_t1_loop.trips, ∀ a, (k0_off5 k0_t1) a + S1x16.size a ≤ S16x256.size a
  k0_off6_inb : ∀ k0_t1 : Fin k0_t1_loop.trips, ∀ a, (k0_off6 k0_t1) a + S1x16.size a ≤ S16x256.size a
  k0_off7_inb : ∀ k0_t1 : Fin k0_t1_loop.trips, ∀ a, (k0_off7 k0_t1) a + S1x16.size a ≤ S16x256.size a
  k0_off8_inb : ∀ k0_t1 : Fin k0_t1_loop.trips, ∀ a, (k0_off8 k0_t1) a + S1x16.size a ≤ S16x256.size a
  k0_off9_inb : ∀ k0_t1 : Fin k0_t1_loop.trips, ∀ a, (k0_off9 k0_t1) a + S1x16.size a ≤ S16x256.size a
  k0_off10_inb : ∀ k0_t1 : Fin k0_t1_loop.trips, ∀ a, (k0_off10 k0_t1) a + S1x16.size a ≤ S16x256.size a
  k0_off11_inb : ∀ k0_t1 : Fin k0_t1_loop.trips, ∀ a, (k0_off11 k0_t1) a + S1x16.size a ≤ S16x256.size a
  k0_off12_inb : ∀ k0_t1 : Fin k0_t1_loop.trips, ∀ a, (k0_off12 k0_t1) a + S1x16.size a ≤ S16x256.size a
  k0_off13_inb : ∀ k0_t1 : Fin k0_t1_loop.trips, ∀ a, (k0_off13 k0_t1) a + S1x16.size a ≤ S16x256.size a
  k0_off14_inb : ∀ k0_t1 : Fin k0_t1_loop.trips, ∀ a, (k0_off14 k0_t1) a + S1x16.size a ≤ S16x256.size a
  k0_off15_inb : ∀ k0_t1 : Fin k0_t1_loop.trips, ∀ a, (k0_off15 k0_t1) a + S1x16.size a ≤ S16x256.size a
  k0_off16_inb : ∀ k0_t1 : Fin k0_t1_loop.trips, ∀ a, (k0_off16 k0_t1) a + S1x16.size a ≤ S16x256.size a
  k0_off17_inb : ∀ k0_t1 : Fin k0_t1_loop.trips, ∀ a, (k0_off17 k0_t1) a + S1x16.size a ≤ S16x32.size a
  k0_off18_inb : ∀ k0_t1 : Fin k0_t1_loop.trips, ∀ a, (k0_off18 k0_t1) a + S1x16.size a ≤ S16x32.size a
  k0_off19_inb : ∀ i : grid0.Coords, ∀ (r : Fin 2), ∀ a, (k0_off19 i (BitVec.ofNat 32 (128 * r.val))) a + S128x256.size a ≤ S65536x256.size a
  k0_off20_inb : ∀ i : grid0.Coords, ∀ (r : Fin 2), ∀ a, (k0_off20 i (BitVec.ofNat 32 (128 * r.val))) a + S128.size a ≤ S65536.size a
  k0_t2_ok : k0_t2_loop.OK
  k0_off21_inb : ∀ k0_t2 : Fin k0_t2_loop.trips, ∀ a, (k0_off21 k0_t2) a + S1x128.size a ≤ S2x128.size a
  k0_off22_inb : ∀ k0_t2 : Fin k0_t2_loop.trips, ∀ a, (k0_off22 k0_t2) a + S1.size a ≤ S2.size a
  k0_t3_ok : k0_t3_loop.OK
  k0_off23_inb : ∀ k0_t3 : Fin k0_t3_loop.trips, ∀ a, (k0_off23 k0_t3) a + S1.size a ≤ S16.size a
  k0_t4_ok : k0_t4_loop.OK
  k0_off24_inb : ∀ (k0_t2 : Fin k0_t2_loop.trips) (k0_t4 : Fin k0_t4_loop.trips), ∀ a, (k0_off24 k0_t2 k0_t4) a + S1x16.size a ≤ S2x128.size a
  k0_off25_inb : ∀ k0_t4 : Fin k0_t4_loop.trips, ∀ a, (k0_off25 k0_t4) a + S1.size a ≤ S128.size a
  k0_off27_inb : ∀ k0_t4 : Fin k0_t4_loop.trips, ∀ a, (k0_off27 k0_t4) a + S1.size a ≤ S128.size a
  k0_off29_inb : ∀ k0_t4 : Fin k0_t4_loop.trips, ∀ a, (k0_off29 k0_t4) a + S1.size a ≤ S128.size a
  k0_off31_inb : ∀ k0_t4 : Fin k0_t4_loop.trips, ∀ a, (k0_off31 k0_t4) a + S1.size a ≤ S128.size a
  k0_off33_inb : ∀ k0_t4 : Fin k0_t4_loop.trips, ∀ a, (k0_off33 k0_t4) a + S1.size a ≤ S128.size a
  k0_off35_inb : ∀ k0_t4 : Fin k0_t4_loop.trips, ∀ a, (k0_off35 k0_t4) a + S1.size a ≤ S128.size a
  k0_off37_inb : ∀ k0_t4 : Fin k0_t4_loop.trips, ∀ a, (k0_off37 k0_t4) a + S1.size a ≤ S128.size a
  k0_off39_inb : ∀ k0_t4 : Fin k0_t4_loop.trips, ∀ a, (k0_off39 k0_t4) a + S1.size a ≤ S128.size a
  k0_off41_inb : ∀ k0_t4 : Fin k0_t4_loop.trips, ∀ a, (k0_off41 k0_t4) a + S1.size a ≤ S128.size a
  k0_off43_inb : ∀ k0_t4 : Fin k0_t4_loop.trips, ∀ a, (k0_off43 k0_t4) a + S1.size a ≤ S128.size a
  k0_off45_inb : ∀ k0_t4 : Fin k0_t4_loop.trips, ∀ a, (k0_off45 k0_t4) a + S1.size a ≤ S128.size a
  k0_off47_inb : ∀ k0_t4 : Fin k0_t4_loop.trips, ∀ a, (k0_off47 k0_t4) a + S1.size a ≤ S128.size a
  k0_off49_inb : ∀ k0_t4 : Fin k0_t4_loop.trips, ∀ a, (k0_off49 k0_t4) a + S1.size a ≤ S128.size a
  k0_off51_inb : ∀ k0_t4 : Fin k0_t4_loop.trips, ∀ a, (k0_off51 k0_t4) a + S1.size a ≤ S128.size a
  k0_off53_inb : ∀ k0_t4 : Fin k0_t4_loop.trips, ∀ a, (k0_off53 k0_t4) a + S1.size a ≤ S128.size a
  k0_off55_inb : ∀ k0_t4 : Fin k0_t4_loop.trips, ∀ a, (k0_off55 k0_t4) a + S1.size a ≤ S128.size a
  k0_t5_ok : k0_t5_loop.OK
  k0_off57_inb : ∀ k0_t5 : Fin k0_t5_loop.trips, ∀ a, (k0_off57 k0_t5) a + S1.size a ≤ S16.size a
  k0_t6_ok : k0_t6_loop.OK
  k0_off58_inb : ∀ k0_t6 : Fin k0_t6_loop.trips, ∀ a, (k0_off58 k0_t6) a + S1.size a ≤ S128.size a
  k0_off62_inb : ∀ k0_t2 : Fin k0_t2_loop.trips, ∀ a, (k0_off62 k0_t2) a + S1x128x256.size a ≤ S2x128x256.size a
  k0_t7_ok : k0_t7_loop.OK
  k0_off63_inb : ∀ k0_t7 : Fin k0_t7_loop.trips, ∀ a, (k0_off63 k0_t7) a + S1.size a ≤ S16.size a
  k0_off98_inb : ∀ k0_t7 : Fin k0_t7_loop.trips, ∀ a, (k0_off98 k0_t7) a + S1x16.size a ≤ S16x256.size a
  k0_off99_inb : ∀ k0_t7 : Fin k0_t7_loop.trips, ∀ a, (k0_off99 k0_t7) a + S1x16.size a ≤ S16x256.size a
  k0_off100_inb : ∀ k0_t7 : Fin k0_t7_loop.trips, ∀ a, (k0_off100 k0_t7) a + S1x16.size a ≤ S16x256.size a
  k0_off101_inb : ∀ k0_t7 : Fin k0_t7_loop.trips, ∀ a, (k0_off101 k0_t7) a + S1x16.size a ≤ S16x256.size a
  k0_off102_inb : ∀ k0_t7 : Fin k0_t7_loop.trips, ∀ a, (k0_off102 k0_t7) a + S1x16.size a ≤ S16x256.size a
  k0_off103_inb : ∀ k0_t7 : Fin k0_t7_loop.trips, ∀ a, (k0_off103 k0_t7) a + S1x16.size a ≤ S16x256.size a
  k0_off104_inb : ∀ k0_t7 : Fin k0_t7_loop.trips, ∀ a, (k0_off104 k0_t7) a + S1x16.size a ≤ S16x256.size a
  k0_off105_inb : ∀ k0_t7 : Fin k0_t7_loop.trips, ∀ a, (k0_off105 k0_t7) a + S1x16.size a ≤ S16x256.size a
  k0_off106_inb : ∀ k0_t7 : Fin k0_t7_loop.trips, ∀ a, (k0_off106 k0_t7) a + S1x16.size a ≤ S16x256.size a
  k0_off107_inb : ∀ k0_t7 : Fin k0_t7_loop.trips, ∀ a, (k0_off107 k0_t7) a + S1x16.size a ≤ S16x256.size a
  k0_off108_inb : ∀ k0_t7 : Fin k0_t7_loop.trips, ∀ a, (k0_off108 k0_t7) a + S1x16.size a ≤ S16x256.size a
  k0_off109_inb : ∀ k0_t7 : Fin k0_t7_loop.trips, ∀ a, (k0_off109 k0_t7) a + S1x16.size a ≤ S16x256.size a
  k0_off110_inb : ∀ k0_t7 : Fin k0_t7_loop.trips, ∀ a, (k0_off110 k0_t7) a + S1x16.size a ≤ S16x256.size a
  k0_off111_inb : ∀ k0_t7 : Fin k0_t7_loop.trips, ∀ a, (k0_off111 k0_t7) a + S1x16.size a ≤ S16x256.size a
  k0_off112_inb : ∀ k0_t7 : Fin k0_t7_loop.trips, ∀ a, (k0_off112 k0_t7) a + S1x16.size a ≤ S16x256.size a
  k0_off113_inb : ∀ k0_t7 : Fin k0_t7_loop.trips, ∀ a, (k0_off113 k0_t7) a + S1x16.size a ≤ S16x256.size a
  k0_off114_inb : ∀ k0_t7 : Fin k0_t7_loop.trips, ∀ a, (k0_off114 k0_t7) a + S1x16.size a ≤ S16x32.size a
  k0_off115_inb : ∀ k0_t7 : Fin k0_t7_loop.trips, ∀ a, (k0_off115 k0_t7) a + S1x16.size a ≤ S16x32.size a
  k0_off116_inb : ∀ k0_t2 : Fin k0_t2_loop.trips, ∀ (k0_h1 : k0_cond1 k0_t2 = 1#1), ∀ a, (k0_off116 k0_t2) a + S1x128x256.size a ≤ S2x128x256.size a
  k0_off117_inb : ∀ (i : grid0.Coords) (k0_t2 : Fin k0_t2_loop.trips), ∀ (k0_h1 : k0_cond1 k0_t2 = 1#1), ∀ a, (k0_off117 i k0_t2) a + S128x256.size a ≤ S65536x256.size a
  k0_off118_inb : ∀ k0_t2 : Fin k0_t2_loop.trips, ∀ (k0_h1 : k0_cond1 k0_t2 = 1#1), ∀ a, (k0_off118 k0_t2) a + S1.size a ≤ S2.size a
  k0_off119_inb : ∀ k0_t2 : Fin k0_t2_loop.trips, ∀ (k0_h1 : k0_cond1 k0_t2 = 1#1), ∀ a, (k0_off119 k0_t2) a + S1x128.size a ≤ S2x128.size a
  k0_off120_inb : ∀ (i : grid0.Coords) (k0_t2 : Fin k0_t2_loop.trips), ∀ (k0_h1 : k0_cond1 k0_t2 = 1#1), ∀ a, (k0_off120 i k0_t2) a + S128.size a ≤ S65536.size a
  k0_off121_inb : ∀ i : grid0.Coords, ∀ a, (k0_off121 i) a + S1x16x256.size a ≤ S32x16x256.size a
  k0_off122_inb : ∀ i : grid0.Coords, ∀ a, (k0_off122 i) a + S1x16x32.size a ≤ S32x16x32.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048.size a ≤ S32x1x2048.size a
  hwx1_0 : ∀ i : grid1.Coords, EltTy.bits .i32 = 32 ∨ (Rect.block (s := S32x1x2048) S1x1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S65536x256.size a
  hwx1_1 : ∀ i : grid1.Coords, EltTy.bits .f32 = 32 ∨ (Rect.block (s := S65536x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x256.size a
  hwx1_2 : ∀ i : grid1.Coords, EltTy.bits .f32 = 32 ∨ (Rect.block (s := S16x256) S16x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole

variable [Facts₀]

abbrev cc0_scratch9 : DmaSems sig S2 := SemArray.consecutive 0 S2 hcc0_scratch9
abbrev cc0_scratch10 : DmaSems sig S2 := SemArray.consecutive 2 S2 hcc0_scratch10
abbrev cc0_scoped0 : DmaSems sig S_ := SemArray.consecutive 4 S_ hcc0_scoped0
abbrev cc0_scoped1 : DmaSems sig S_ := SemArray.consecutive 5 S_ hcc0_scoped1
def dot_S16x2048_S2048x256_S16x256_1_0_0_1_n_n : DotDims S16x2048 S2048x256 S16x256 where
  lhsContracting := [1]
  rhsContracting := [0]
  lhsNonContracting := [0]
  rhsNonContracting := [1]
  lhsBatch := []
  rhsBatch := []
  wf := dot_S16x2048_S2048x256_S16x256_1_0_0_1_n_n_wf
def dot_S16x2048_S2048x128_S16x128_1_0_0_1_n_n : DotDims S16x2048 S2048x128 S16x128 where
  lhsContracting := [1]
  rhsContracting := [0]
  lhsNonContracting := [0]
  rhsNonContracting := [1]
  lhsBatch := []
  rhsBatch := []
  wf := dot_S16x2048_S2048x128_S16x128_1_0_0_1_n_n_wf

abbrev win1_0 : Pipeline.Window sig grid1 :=
  Pipeline.Window.ofSpec (Memref.whole main_v0) S1x1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S16x256.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S16x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond3 i == 1#1) | 3 => fun i => !(k1_cond3 i == 1#1) | ⟨_ + 4, h⟩ => absurd h (Nat.not_lt.2 (Nat.le_add_left _ _))

abbrev win2_0 : Pipeline.Window sig grid2 :=
  Pipeline.Window.whole (Memref.whole main_v1_0) false false (stage2_0 0) (sem2_0 0) (Memref.isWhole_whole _) (hstage2_0 0)

abbrev win2_1 : Pipeline.Window sig grid2 :=
  Pipeline.Window.whole (Memref.whole main_v1_1) false false (stage2_1 0) (sem2_1 0) (Memref.isWhole_whole _) (hstage2_1 0)

abbrev win2_2 : Pipeline.Window sig grid2 :=
  Pipeline.Window.whole (Memref.whole main_v2_0) false false (stage2_2 0) (sem2_2 0) (Memref.isWhole_whole _) (hstage2_2 0)

abbrev win2_3 : Pipeline.Window sig grid2 :=
  Pipeline.Window.whole (Memref.whole main_v2_1) false false (stage2_3 0) (sem2_3 0) (Memref.isWhole_whole _) (hstage2_3 0)

abbrev win2_4 : Pipeline.Window sig grid2 :=
  Pipeline.Window.whole (Memref.whole main_v3) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S65536x256 : Shape := ⟨2, ![65536, 256]⟩
abbrev S65536 : Shape := ⟨1, ![65536]⟩
abbrev S_ : Shape := ⟨0, ![]⟩
abbrev S13 : Shape := ⟨1, ![13]⟩
abbrev S65536x1 : Shape := ⟨2, ![65536, 1]⟩
abbrev S13x256 : Shape := ⟨2, ![13, 256]⟩
abbrev S13x1 : Shape := ⟨2, ![13, 1]⟩

abbrev nBuf : Space → Nat
  | .hbm => 49
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S13, .f32⟩
  | .hbm, ⟨6, _⟩ => ⟨S65536x1, .i32⟩
  | .hbm, ⟨7, _⟩ => ⟨S13, .f32⟩
  | .hbm, ⟨8, _⟩ => ⟨S_, .f32⟩
  | .hbm, ⟨9, _⟩ => ⟨S13x256, .f32⟩
  | .hbm, ⟨10, _⟩ => ⟨S65536x1, .i32⟩
  | .hbm, ⟨11, _⟩ => ⟨S13x256, .f32⟩
  | .hbm, ⟨12, _⟩ => ⟨S65536x256, .f32⟩
  | .hbm, ⟨13, _⟩ => ⟨S_, .f32⟩
  | .hbm, ⟨14, _⟩ => ⟨S65536, .f32⟩
  | .hbm, ⟨15, _⟩ => ⟨S_, .f32⟩
  | .hbm, ⟨16, _⟩ => ⟨S13, .f32⟩
  | .hbm, ⟨17, _⟩ => ⟨S65536x1, .i32⟩
  | .hbm, ⟨18, _⟩ => ⟨S13, .f32⟩
  | .hbm, ⟨19, _⟩ => ⟨S_, .f32⟩
  | .hbm, ⟨20, _⟩ => ⟨S13, .f32⟩
  | .hbm, ⟨21, _⟩ => ⟨S13, .f32⟩
  | .hbm, ⟨22, _⟩ => ⟨S13x1, .f32⟩
  | .hbm, ⟨23, _⟩ => ⟨S13x256, .f32⟩
  | .hbm, ⟨24, _⟩ => ⟨S13x256, .f32⟩
  | .hbm, ⟨25, _⟩ => ⟨S13x256, .f32⟩
  | .hbm, ⟨26, _⟩ => ⟨S_, .f32⟩
  | .hbm, ⟨27, _⟩ => ⟨S13, .f32⟩
  | .hbm, ⟨28, _⟩ => ⟨S13, .f32⟩
  | .hbm, ⟨29, _⟩ => ⟨S13, .f32⟩
  | .hbm, ⟨30, _⟩ => ⟨S_, .f32⟩
  | .hbm, ⟨31, _⟩ => ⟨S13, .f32⟩
  | .hbm, ⟨32, _⟩ => ⟨S13, .i1⟩
  | .hbm, ⟨33, _⟩ => ⟨S13, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S13, .f32⟩
  | .hbm, ⟨39, _⟩ => ⟨S13, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_cst_8 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_v29 : Ref sig .tc := ⟨.hbm, 46, rfl⟩
abbrev main_cst_12 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S13 : S_.BroadcastsInDim S13 (![] : Fin 0 → Fin S13.rank)
  bcast_S65536_S65536x1_0 : S65536.BroadcastsInDim S65536x1 (![0] : Fin 1 → Fin S65536x1.rank)
  bcast_S_S13x256 : S_.BroadcastsInDim S13x256 (![] : Fin 0 → Fin S13x256.rank)
  reducesTo_S65536x256_S65536_d1 : S65536x256.ReducesTo [1] S65536
  h_S_ : 0 < S_.numel
  bcast_S13_S13x1_0 : S13.BroadcastsInDim S13x1 (![0] : Fin 1 → Fin S13x1.rank)
  bcast_S13x1_S13x256_0_1 : S13x1.BroadcastsInDim S13x256 (![0, 1] : Fin 2 → Fin S13x256.rank)
  reducesTo_S13x256_S13_d1 : S13x256.ReducesTo [1] S13
  reducesTo_S13_S_d0 : S13.ReducesTo [0] S_
  scatter_S13_S65536x1_S65536_n_0_0_1_wf : ScatterDims.WF S13 S65536x1 S65536 [] [0] [0] 1
  scatter_S13x256_S65536x1_S65536x256_1_0_0_1_wf : ScatterDims.WF S13x256 S65536x1 S65536x256 [1] [0] [0] 1

variable [Facts₀]

def scatter_S13_S65536x1_S65536_n_0_0_1 : ScatterDims S13 S65536x1 S65536 where
  updateWindowDims := []
  insertedWindowDims := [0]
  scatterDimsToOperandDims := [0]
  indexVectorDim := 1
  wf := scatter_S13_S65536x1_S65536_n_0_0_1_wf
def scatter_S13x256_S65536x1_S65536x256_1_0_0_1 : ScatterDims S13x256 S65536x1 S65536x256 where
  updateWindowDims := [1]
  insertedWindowDims := [0]
  scatterDimsToOperandDims := [0]
  indexVectorDim := 1
  wf := scatter_S13x256_S65536x1_S65536x256_1_0_0_1_wf

class Facts : Prop extends Facts₀ where

variable [Facts]
-- ==== Proof.Common.lean ====
import proofs.«216278_g4776003633407_cont_8to1_c_644_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«216278_g4776003633407_cont_8to1_c_644_33_alg».proof.Proof.Gen.KernelIdeal
import proofs.«216278_g4776003633407_cont_8to1_c_644_33_alg».proof.Proof.Gen.KernelIdeal.Skeleton
import proofs.«216278_g4776003633407_cont_8to1_c_644_33_alg».proof.Proof.Gen.KernelIdeal.Launch
import proofs.«216278_g4776003633407_cont_8to1_c_644_33_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KI

end
-- ==== Proof.Iface.lean ====
import proofs.«216278_g4776003633407_cont_8to1_c_644_33_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

abbrev xLoc (d : Dev nD) : Loc nD τ sig := (SparseCore.T d).loc main_arg0
abbrev lLoc (d : Dev nD) : Loc nD τ sig := (SparseCore.T d).loc main_arg1
abbrev oFLoc (d : Dev nD) : Loc nD τ sig := (SparseCore.T d).loc main_v1_0
abbrev oALoc (d : Dev nD) : Loc nD τ sig := (SparseCore.T d).loc main_v1_1

def wid (c : Fin 2) (s : Fin 16) : Fin 32 := ⟨s.val * 2 + c.val, by omega⟩

theorem hdivF : 32 ∣ S32x16x256.size 0 := ⟨1, rfl⟩
theorem hdivA : 32 ∣ S32x16x32.size 0 := ⟨1, rfl⟩

abbrev blkF (w : Fin 32) : Rect S32x16x256 := Rect.part (s := S32x16x256) (a₀ := 0) hdivF w
abbrev blkA (w : Fin 32) : Rect S32x16x32 := Rect.part (s := S32x16x32) (a₀ := 0) hdivA w
abbrev blkFSet (w : Fin 32) : Finset S32x16x256.Idx := ((Memref.whole main_v1_0_scv : Memref sig .scVector .hbm S32x16x256 .f32).view.slice (blkF w)).set
abbrev blkASet (w : Fin 32) : Finset S32x16x32.Idx := ((Memref.whole main_v1_1_scv : Memref sig .scVector .hbm S32x16x32 .f32).view.slice (blkA w)).set

abbrev qTile (w : Fin 32) : PosShare TreeShare := Transfers.shareTok fullShare 32 w

def tileGo (d : Dev nD) (w : Fin 32) : sProp 𝕄 :=
  iprop((xLoc d ↦{qTile w} m (xLoc d)) ∗ (lLoc d ↦{qTile w} m (lLoc d))
    ∗ (oFLoc d ↦[blkFSet w]{fullShare} m (oFLoc d)) ∗ (oALoc d ↦[blkASet w]{fullShare} m (oALoc d)))

def tileTd (d : Dev nD) (w : Fin 32) : sProp 𝕄 :=
  iprop((xLoc d ↦{qTile w} m (xLoc d)) ∗ (lLoc d ↦{qTile w} m (lLoc d))
    ∗ (∃ f, oFLoc d ↦[blkFSet w]{fullShare} f) ∗ (∃ f, oALoc d ↦[blkASet w]{fullShare} f))

end Cert.Proof.KI

end
-- ==== Proof.TcIface.lean ====
import proofs.«216278_g4776003633407_cont_8to1_c_644_33_alg».proof.Proof.Iface

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev adm : (p : Fin 2) → (pcfgs (F := F) p).Adm := fun p => (cfgs p).toPCfg_adm

theorem cellOf_inj_pin : Function.Injective (Pipeline.cellOf (nD := nD) (τ := τ) (Pipeline.pin (pcfgs (F := F)) adm)) :=
  Gen.cellOf_inj

abbrev ι₀ : HIx 1 := none

def BW (F : FTy → Type) (c : Dev nD) : Set (SemLoc sig × HIx 1) := {p | (K (F := F)).lev ((c.tc : Thread nD τ), p.1) p.2 ≤ 8}

def tcOwes (c : Dev nD) : sProp 𝕄 := Pipeline.owesWithin c (0 : CellTallies nD τ sig (HIx 1)) (BW F c)

theorem waitPairs_sub (cfg : Pipeline.Cfg sig Λ₀) (c : Dev nD) : cfg.waitPairs (none : HIx 1) ⊆ BW F c := by
  rintro p ⟨w, s, rfl⟩
  show (K (F := F)).lev _ none ≤ 8
  rw [SparseCore.Cfg.lev_none]; omega

theorem tcOwes_in (cfg : Pipeline.Cfg sig Λ₀) (c : Dev nD) :
    (tcOwes c : sProp 𝕄) ⊢ Pipeline.owesWithin c (0 : CellTallies nD τ sig (HIx 1)) (BW F c ∪ cfg.waitPairs (none : HIx 1)) :=
  Pipeline.owesWithin_mono c 0 Set.subset_union_left

theorem tcOwes_out (cfg : Pipeline.Cfg sig Λ₀) (c : Dev nD) :
    Pipeline.owesWithin c (0 : CellTallies nD τ sig (HIx 1)) (BW F c ∪ cfg.waitPairs (none : HIx 1)) ⊢ (tcOwes c : sProp 𝕄) :=
  Pipeline.owesWithin_mono c 0 (Set.union_subset subset_rfl (waitPairs_sub cfg c))

variable (m : (ℓ : Loc nD τ sig) → Buf (Elt F) ℓ)

abbrev TcVal (F : FTy → Type) : Type := (c : Dev nD) → (b : Ref sig .tc) → Buf (Elt F) ((c.tc : Thread nD τ).loc b)

def TcValOK (V : TcVal F) : Prop := ∀ c, V c main_arg0 = m (xLoc c) ∧ V c main_arg1 = m (lLoc c)

def tcPre (V : TcVal F) (c : Dev nD) : sProp 𝕄 := iprop(unscopedBufs c (V c) ∗ tcOwes c)

def tcState (c : Dev nD) : sProp 𝕄 :=
  iprop(∃ Vc : (b : Ref sig .tc) → Buf (Elt F) ((c.tc : Thread nD τ).loc b),
    ⌜Vc main_arg0 = m (xLoc c) ∧ Vc main_arg1 = m (lLoc c)⌝ ∗ unscopedBufs c Vc ∗ tcOwes c)

theorem tcPre_state {V : TcVal F} (hV : TcValOK m V) (c : Dev nD) : (tcPre V c : sProp 𝕄) ⊢ tcState m c := by
  unfold tcPre tcState
  iintro ⟨HA, HO⟩
  iexists (V c); isplitr; · ipureintro; exact hV c
  isplitl [HA] <;> iassumption

def extV (d : Dev nD) (Vd : (b : Ref sig .tc) → Buf (Elt F) ((d.tc : Thread nD τ).loc b)) : TcVal F :=
  fun c => if h : d = c then h ▸ Vd else fun b => m ((c.tc : Thread nD τ).loc b)

theorem extV_self (d : Dev nD) (Vd : (b : Ref sig .tc) → Buf (Elt F) ((d.tc : Thread nD τ).loc b)) : extV m d Vd d = Vd := by
  unfold extV; rw [dif_pos rfl]

theorem extV_ok (d : Dev nD) (Vd : (b : Ref sig .tc) → Buf (Elt F) ((d.tc : Thread nD τ).loc b))
    (h : Vd main_arg0 = m (xLoc d) ∧ Vd main_arg1 = m (lLoc d)) : TcValOK m (extV m d Vd) := by
  intro c
  unfold extV
  by_cases e : d = c
  · subst e; rw [dif_pos rfl]; exact h
  · rw [dif_neg e]; exact ⟨rfl, rfl⟩

variable [FloatOps F]

def RegionStep (p : Fin 2) (pre post : Dev nD → sProp 𝕄) : Prop :=
  ∀ (c : Dev nD) {α : Type} (k : PUnit → Prog (TpuEff nD τ sig (Elt F) (ΛP (F := F)) .tc) α) (Q : α → sProp 𝕄),
    iprop((iprop(boundary (c.tc : Thread nD τ) ∗ post c) -∗ wp frame (wpE (D (F := F)) 𝒱 (c.tc : Thread nD τ) none) Set.univ (k ⟨⟩) Q)
        ∗ boundary (c.tc : Thread nD τ) ∗ pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE (D (F := F)) 𝒱 (c.tc : Thread nD τ) none) Set.univ (.op (.customCall (Pipeline.entry p) ()) k) Q

theorem RegionStep.mono_post {p : Fin 2} {pre post post' : Dev nD → sProp 𝕄} (h : RegionStep (F := F) p pre post)
    (hp : ∀ c, post c ⊢ post' c) : RegionStep (F := F) p pre post' := by
  intro c α k Q
  have aux (A R : sProp 𝕄) : iprop((iprop(boundary (c.tc : Thread nD τ) ∗ post' c) -∗ A) ∗ R) ⊢ iprop((iprop(boundary (c.tc : Thread nD τ) ∗ post c) -∗ A) ∗ R) := by
    iintro ⟨Hk, Hrest⟩
    isplitl [Hk]
    · iintro ⟨Hb, Hp⟩
      iapply Hk
      isplitl [Hb]; · iexact Hb
      iapply (hp c); iexact Hp
    · iexact Hrest
  exact (aux _ _).trans (h c k Q)

end Cert.Proof.KI

end
-- ==== Proof.Launch.lean ====
import proofs.«216278_g4776003633407_cont_8to1_c_644_33_alg».proof.Proof.TcIface

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

instance tileGo_storable (d : Dev nD) (w : Fin 32) : BI.Storable (upEmb : UEmb _ 𝕄) (tileGo m d w) := by unfold tileGo; infer_instance
instance tileTd_storable (d : Dev nD) (w : Fin 32) : BI.Storable (upEmb : UEmb _ 𝕄) (tileTd m d w) := by unfold tileTd; infer_instance

def coreGo (d : Dev nD) (c : Fin 2) : sProp 𝕄 := bigSep Finset.univ fun s : Fin 16 => tileGo m d (wid c s)
def coreTd (d : Dev nD) (c : Fin 2) : sProp 𝕄 := bigSep Finset.univ fun s : Fin 16 => tileTd m d (wid c s)

def P : (K (F := F)).Pay (nD := nD) (Val := Elt F) (Name := ℕ) (U := UU) where
  st := fun q d c => match q with | 0 => coreGo m d (Fin.cast nCore_zero c)
  dn := fun q d c => match q with | 0 => coreTd m d (Fin.cast nCore_zero c)
  go := fun q d c i => match q with | 0 => tileGo m d (wid (Fin.cast nCore_zero c) (Fin.cast nSub_zero i))
  td := fun q d c i => match q with | 0 => tileTd m d (wid (Fin.cast nCore_zero c) (Fin.cast nSub_zero i))
  x := fun _ _ => iprop(emp)

instance P_storable : (P (F := F) m).IsStorable where
  st q d c := match q with
    | 0 => (by unfold coreGo; infer_instance : BI.Storable (upEmb : UEmb _ 𝕄) (coreGo m d (Fin.cast nCore_zero c)))
  dn q d c := match q with
    | 0 => (by unfold coreTd; infer_instance : BI.Storable (upEmb : UEmb _ 𝕄) (coreTd m d (Fin.cast nCore_zero c)))
  go q d c i := match q with
    | 0 => (inferInstance : BI.Storable (upEmb : UEmb _ 𝕄) (tileGo m d (wid (Fin.cast nCore_zero c) (Fin.cast nSub_zero i))))
  td q d c i := match q with
    | 0 => (inferInstance : BI.Storable (upEmb : UEmb _ 𝕄) (tileTd m d (wid (Fin.cast nCore_zero c) (Fin.cast nSub_zero i))))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreGo m d (Fin.cast nCore_zero c) ⊢ |={Set.univ}=> iprop(
      (bigSep Finset.univ fun i : Fin ((K (F := F)).nSub 0) => tileGo m d (wid (Fin.cast nCore_zero c) (Fin.cast nSub_zero i)))
      ∗ ((bigSep Finset.univ fun i : Fin ((K (F := F)).nSub 0) => tileTd m d (wid (Fin.cast nCore_zero c) (Fin.cast nSub_zero i)))
          -∗ coreTd m d (Fin.cast nCore_zero c)))
  rw [bigSep_tasks (F := F) (fun i => tileGo m d (wid (Fin.cast nCore_zero c) i)),
    bigSep_tasks (F := F) (fun i => tileTd m d (wid (Fin.cast nCore_zero c) i))]
  unfold coreGo coreTd
  iintro H; imodintro
  isplitl [H]; · iexact H
  iintro H; iexact H

theorem workers_cover : (Finset.univ : Finset (Fin 32)) = (Finset.univ.image (wid 0)) ∪ (Finset.univ.image (wid 1)) := by
  ext w
  simp only [Finset.mem_univ, Finset.mem_union, Finset.mem_image, true_and, true_iff]
  rcases Nat.mod_two_eq_zero_or_one w.val with h | h
  · exact Or.inl ⟨⟨w.val / 2, by omega⟩, Fin.ext (by show w.val / 2 * 2 + 0 = w.val; omega)⟩
  · exact Or.inr ⟨⟨w.val / 2, by omega⟩, Fin.ext (by show w.val / 2 * 2 + 1 = w.val; omega)⟩

theorem workers_disjoint : Disjoint ((Finset.univ : Finset (Fin 16)).image (wid 0)) (Finset.univ.image (wid 1)) := by
  refine Finset.disjoint_left.mpr fun w h0 h1 => ?_
  obtain ⟨a, -, rfl⟩ := Finset.mem_image.mp h0
  obtain ⟨b, -, e⟩ := Finset.mem_image.mp h1
  have h : b.val * 2 + 1 = a.val * 2 + 0 := congrArg Fin.val e
  omega

theorem wid_injOn (c : Fin 2) : Set.InjOn (wid c) ((Finset.univ : Finset (Fin 16)) : Set (Fin 16)) := by
  intro a _ b _ e
  have h : a.val * 2 + c.val = b.val * 2 + c.val := congrArg Fin.val e
  exact Fin.ext (by omega)

theorem workers_regroup (Φ : Fin 32 → sProp 𝕄) :
    bigSep Finset.univ Φ = iprop((bigSep Finset.univ fun s : Fin 16 => Φ (wid 0 s)) ∗ bigSep Finset.univ fun s : Fin 16 => Φ (wid 1 s)) := by
  rw [workers_cover, SparseCore.bigSep_union' workers_disjoint, SparseCore.bigSep_image_of_injOn (wid_injOn 0) Φ,
    SparseCore.bigSep_image_of_injOn (wid_injOn 1) Φ]

theorem blkFSet_eq (w : Fin 32) : blkFSet w = (blkF w).set := by
  show ((View.whole (main_v1_0_scv : Ref sig .scVector)).slice (blkF w)).set = _
  rw [View.set_slice]; exact Finset.map_refl
theorem blkASet_eq (w : Fin 32) : blkASet w = (blkA w).set := by
  show ((View.whole (main_v1_1_scv : Ref sig .scVector)).slice (blkA w)).set = _
  rw [View.set_slice]; exact Finset.map_refl
theorem blkF_disjoint : ∀ i ∈ (Finset.univ : Finset (Fin 32)), ∀ j ∈ (Finset.univ : Finset (Fin 32)), i ≠ j → Disjoint (blkFSet i) (blkFSet j) :=
  fun i _ j _ h => by rw [blkFSet_eq, blkFSet_eq]; exact Rect.part_disjoint hdivF h
theorem blkA_disjoint : ∀ i ∈ (Finset.univ : Finset (Fin 32)), ∀ j ∈ (Finset.univ : Finset (Fin 32)), i ≠ j → Disjoint (blkASet i) (blkASet j) :=
  fun i _ j _ h => by rw [blkASet_eq, blkASet_eq]; exact Rect.part_disjoint hdivA h
theorem blkF_cover : (Finset.univ : Finset (Fin 32)).biUnion blkFSet = Finset.univ :=
  (Finset.biUnion_congr rfl fun i _ => blkFSet_eq i).trans (Rect.biUnion_part hdivF)
theorem blkA_cover : (Finset.univ : Finset (Fin 32)).biUnion blkASet = Finset.univ :=
  (Finset.biUnion_congr rfl fun i _ => blkASet_eq i).trans (Rect.biUnion_part hdivA)

theorem oF_blocks (d : Dev nD) (f : Buf (Elt F) (oFLoc d)) :
    (oFLoc d ↦{fullShare} f : sProp 𝕄) = bigSep Finset.univ fun w : Fin 32 => oFLoc d ↦[blkFSet w]{fullShare} f := by
  rw [← pointsTo_biUnion Finset.univ (ℓ := oFLoc d) blkFSet blkF_disjoint, blkF_cover]; try rfl
theorem oA_blocks (d : Dev nD) (f : Buf (Elt F) (oALoc d)) :
    (oALoc d ↦{fullShare} f : sProp 𝕄) = bigSep Finset.univ fun w : Fin 32 => oALoc d ↦[blkASet w]{fullShare} f := by
  rw [← pointsTo_biUnion Finset.univ (ℓ := oALoc d) blkASet blkA_disjoint, blkA_cover]; try rfl

theorem oF_join [∀ e, Nonempty (Elt F e)] (d : Dev nD) :
    (bigSep Finset.univ fun w : Fin 32 => iprop(∃ f, oFLoc d ↦[blkFSet w]{fullShare} f)) ⊢ (iprop(∃ f, oFLoc d ↦{fullShare} f) : sProp 𝕄) := by
  refine (bigSep_exists_pi Finset.univ (fun w (f : Buf (Elt F) (oFLoc d)) => oFLoc d ↦[blkFSet w]{fullShare} f)).trans ?_
  iintro ⟨%fs, H⟩
  ihave H' := (pointsTo_biUnion_join Finset.univ blkFSet fs (fs 0) blkF_disjoint) $$ H
  icases H' with ⟨%g, -, Hg⟩
  rw [blkF_cover]
  iexists g; iexact Hg
theorem oA_join [∀ e, Nonempty (Elt F e)] (d : Dev nD) :
    (bigSep Finset.univ fun w : Fin 32 => iprop(∃ f, oALoc d ↦[blkASet w]{fullShare} f)) ⊢ (iprop(∃ f, oALoc d ↦{fullShare} f) : sProp 𝕄) := by
  refine (bigSep_exists_pi Finset.univ (fun w (f : Buf (Elt F) (oALoc d)) => oALoc d ↦[blkASet w]{fullShare} f)).trans ?_
  iintro ⟨%fs, H⟩
  ihave H' := (pointsTo_biUnion_join Finset.univ blkASet fs (fs 0) blkA_disjoint) $$ H
  icases H' with ⟨%g, -, Hg⟩
  rw [blkA_cover]
  iexists g; iexact Hg

abbrev qRest : PosShare TreeShare := Transfers.shareDrop fullShare 32

theorem split_all (d : Dev nD) :
    iprop((xLoc d ↦{fullShare} m (xLoc d)) ∗ (lLoc d ↦{fullShare} m (lLoc d)) ∗ (oFLoc d ↦{fullShare} m (oFLoc d)) ∗ (oALoc d ↦{fullShare} m (oALoc d)))
      ⊢ (iprop(((xLoc d ↦{qRest} m (xLoc d)) ∗ (lLoc d ↦{qRest} m (lLoc d))) ∗ coreGo m d 0 ∗ coreGo m d 1) : sProp 𝕄) := by
  unfold coreGo
  rw [← workers_regroup (F := F) (fun w => tileGo m d w)]
  unfold tileGo
  rw [bigSep_sep', bigSep_sep', bigSep_sep', oF_blocks, oA_blocks]
  iintro ⟨Hx, Hl, HoF, HoA⟩
  ihave Hx' := (Transfers.pointsTo_toks_split fullShare 32) $$ Hx
  icases Hx' with ⟨Hxr, Hxt⟩
  ihave Hl' := (Transfers.pointsTo_toks_split fullShare 32) $$ Hl
  icases Hl' with ⟨Hlr, Hlt⟩
  isplitl [Hxr Hlr]
  · isplitl [Hxr] <;> iassumption
  isplitl [Hxt]; · iexact Hxt
  isplitl [Hlt]; · iexact Hlt
  isplitl [HoF] <;> iassumption

theorem join_all [∀ e, Nonempty (Elt F e)] (d : Dev nD) :
    iprop(((xLoc d ↦{qRest} m (xLoc d)) ∗ (lLoc d ↦{qRest} m (lLoc d))) ∗ coreTd m d 0 ∗ coreTd m d 1)
      ⊢ (iprop((xLoc d ↦{fullShare} m (xLoc d)) ∗ (lLoc d ↦{fullShare} m (lLoc d)) ∗ (∃ f, oFLoc d ↦{fullShare} f) ∗ (∃ f, oALoc d ↦{fullShare} f)) : sProp 𝕄) := by
  unfold coreTd
  rw [← workers_regroup (F := F) (fun w => tileTd m d w)]
  unfold tileTd
  rw [bigSep_sep', bigSep_sep', bigSep_sep']
  iintro ⟨⟨Hxr, Hlr⟩, Hxt, Hlt, HoF, HoA⟩
  isplitl [Hxr Hxt]
  · iapply (Transfers.pointsTo_toks_join fullShare 32); isplitl [Hxr] <;> iassumption
  isplitl [Hlr Hlt]
  · iapply (Transfers.pointsTo_toks_join fullShare 32); isplitl [Hlr] <;> iassumption
  isplitl [HoF]
  · iapply (oF_join d); iexact HoF
  · iapply (oA_join d); iexact HoA

def u₀ : UU := (initOf (K (F := F)).hsCells (K (F := F)).hsToks,
  (initOf (Pipeline.cells (Pipeline.pin (pcfgs (F := F)) adm) cellOf_inj_pin) (Pipeline.launchToks (Pipeline.pin (pcfgs (F := F)) adm) cellOf_inj_pin), 1))

def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem ownR_split (b : UP) (c : Counters) :
    (BI.own ((embR (nD := nD) (τ := τ) (sig := sig) (Ix := HIx 1) (Val := Elt F) (Name := ℕ) (Lvl := ℕ) (A := UH) (B := UP × Counters)) (b, c)) : sProp 𝕄)
      ⊢ iprop(BI.own ((EP : Emb UP 𝕄) b)
          ∗ BI.own (((Emb.inr : Emb Counters (UP × Counters)).trans (embR (nD := nD) (τ := τ) (sig := sig) (Ix := HIx 1) (Val := Elt F) (Name := ℕ) (Lvl := ℕ) (A := UH) (B := UP × Counters))) c)) := by
  unfold EP; exact own_pair_emb _ b c

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (ownR_split _ _) $$ HR
  icases H2 with ⟨HP, -⟩
  imod (Pipeline.fund_ghost (Pipeline.pin (pcfgs (F := F)) adm) EP cellOf_inj_pin) $$ HP with ⟨Hg, Ht⟩
  imodintro
  isplitl [HH]; · iexact HH
  isplitl [Hg Ht]
  · unfold G; rw [bigSep_sep']
    isplitl [Hg] <;> iassumption
  · rw [show (fun thr : Thread nD τ => bigSep Finset.univ fun q : Fin 1 => (P m).x q thr) = fun _ => (iprop(emp) : sProp 𝕄) from
      funext fun _ => bigSep_emp' _, bigSep_emp']
    iempintro

abbrev v0Loc (d : Dev nD) : Loc nD τ sig := (SparseCore.T d).loc main_v0
abbrev v20Loc (d : Dev nD) : Loc nD τ sig := (SparseCore.T d).loc main_v2_0
abbrev v21Loc (d : Dev nD) : Loc nD τ sig := (SparseCore.T d).loc main_v2_1
abbrev v3Loc (d : Dev nD) : Loc nD τ sig := (SparseCore.T d).loc main_v3
abbrev v4Loc (d : Dev nD) : Loc nD τ sig := (SparseCore.T d).loc main_v4

theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (v0Loc d ↦{fullShare} W main_v0)
      ∗ (oFLoc d ↦{fullShare} W main_v1_0) ∗ (oALoc d ↦{fullShare} W main_v1_1) ∗ (v20Loc d ↦{fullShare} W main_v2_0) ∗ (v21Loc d ↦{fullShare} W main_v2_1)
      ∗ (v3Loc d ↦{fullShare} W main_v3) ∗ (v4Loc d ↦{fullShare} W main_v4)) := by
  unfold unscopedBufs
  rw [show (Finset.univ.filter fun b : Ref sig .tc => ¬ b.isScoped) = {main_arg0, main_arg1, main_v0, main_v1_0, main_v1_1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

def mkV (d : Dev nD) (g0 : Buf (Elt F) (v0Loc d)) (g10 : Buf (Elt F) (oFLoc d)) (g11 : Buf (Elt F) (oALoc d)) :
    (b : Ref sig .tc) → Buf (Elt F) ((d.tc : Thread nD τ).loc b) :=
  Function.update (Function.update (Function.update (fun b => m ((d.tc : Thread nD τ).loc b)) main_v0 g0) main_v1_0 g10) main_v1_1 g11

theorem mkV_v11 (d : Dev nD) (g0 : Buf (Elt F) (v0Loc d)) (g10 : Buf (Elt F) (oFLoc d)) (g11 : Buf (Elt F) (oALoc d)) :
    mkV m d g0 g10 g11 main_v1_1 = g11 := Function.update_self _ _ _
theorem mkV_v10 (d : Dev nD) (g0 : Buf (Elt F) (v0Loc d)) (g10 : Buf (Elt F) (oFLoc d)) (g11 : Buf (Elt F) (oALoc d)) :
    mkV m d g0 g10 g11 main_v1_0 = g10 := (Function.update_of_ne (show (main_v1_0 : Ref sig .tc) ≠ main_v1_1 by decide) _ _).trans (Function.update_self _ _ _)
theorem mkV_v0 (d : Dev nD) (g0 : Buf (Elt F) (v0Loc d)) (g10 : Buf (Elt F) (oFLoc d)) (g11 : Buf (Elt F) (oALoc d)) :
    mkV m d g0 g10 g11 main_v0 = g0 :=
  (Function.update_of_ne (show (main_v0 : Ref sig .tc) ≠ main_v1_1 by decide) _ _).trans
    ((Function.update_of_ne (show (main_v0 : Ref sig .tc) ≠ main_v1_0 by decide) _ _).trans (Function.update_self _ _ _))
theorem mkV_other (d : Dev nD) (g0 : Buf (Elt F) (v0Loc d)) (g10 : Buf (Elt F) (oFLoc d)) (g11 : Buf (Elt F) (oALoc d))
    (b : Ref sig .tc) (h0 : b ≠ main_v0) (h1 : b ≠ main_v1_0) (h2 : b ≠ main_v1_1) : mkV m d g0 g10 g11 b = m ((d.tc : Thread nD τ).loc b) :=
  (Function.update_of_ne h2 _ _).trans ((Function.update_of_ne h1 _ _).trans (Function.update_of_ne h0 _ _))

theorem mkV_chain (d : Dev nD) (g0 : Buf (Elt F) (v0Loc d)) (g10 : Buf (Elt F) (oFLoc d)) (g11 : Buf (Elt F) (oALoc d)) :
    (unscopedBufs d (mkV m d g0 g10 g11) : sProp 𝕄) = iprop((xLoc d ↦{fullShare} m (xLoc d)) ∗ (lLoc d ↦{fullShare} m (lLoc d)) ∗ (v0Loc d ↦{fullShare} g0)
      ∗ (oFLoc d ↦{fullShare} g10) ∗ (oALoc d ↦{fullShare} g11) ∗ (v20Loc d ↦{fullShare} m (v20Loc d)) ∗ (v21Loc d ↦{fullShare} m (v21Loc d))
      ∗ (v3Loc d ↦{fullShare} m (v3Loc d)) ∗ (v4Loc d ↦{fullShare} m (v4Loc d))) := by
  rw [unscopedBufs_eq, mkV_v0, mkV_v10, mkV_v11, mkV_other m d g0 g10 g11 main_arg0 (by decide) (by decide) (by decide),
    mkV_other m d g0 g10 g11 main_arg1 (by decide) (by decide) (by decide), mkV_other m d g0 g10 g11 main_v2_0 (by decide) (by decide) (by decide),
    mkV_other m d g0 g10 g11 main_v2_1 (by decide) (by decide) (by decide), mkV_other m d g0 g10 g11 main_v3 (by decide) (by decide) (by decide),
    mkV_other m d g0 g10 g11 main_v4 (by decide) (by decide) (by decide)]

theorem mkV_ok (d : Dev nD) (g0 : Buf (Elt F) (v0Loc d)) (g10 : Buf (Elt F) (oFLoc d)) (g11 : Buf (Elt F) (oALoc d)) :
    mkV m d g0 g10 g11 main_arg0 = m (xLoc d) ∧ mkV m d g0 g10 g11 main_arg1 = m (lLoc d) :=
  ⟨mkV_other m d g0 g10 g11 main_arg0 (by decide) (by decide) (by decide), mkV_other m d g0 g10 g11 main_arg1 (by decide) (by decide) (by decide)⟩

abbrev a1' : DevRef τ sig := Proc.devRef .tc (main_arg1 : Ref sig .tc)
abbrev v0' : DevRef τ sig := Proc.devRef .tc (main_v0 : Ref sig .tc)
abbrev v3' : DevRef τ sig := Proc.devRef .tc (main_v3 : Ref sig .tc)
abbrev v4' : DevRef τ sig := Proc.devRef .tc (main_v4 : Ref sig .tc)
abbrev opR1 : HloOp τ sig (Elt F) := StableHlo.reshape main_arg1 main_v0 rfl shapeCasts_S65536_S32x1x2048
abbrev opR2 : HloOp τ sig (Elt F) := StableHlo.reshape main_v3 main_v4 rfl shapeCasts_S1x1_S_
abbrev S1 : Finset (DevRef τ sig) := {a1', v0'}
abbrev S2 : Finset (DevRef τ sig) := {v3', v4'}

theorem hR1 : (opR1 (F := F)).bufs ⊆ S1 := show ({a1', v0'} : Finset (DevRef τ sig)) ⊆ S1 by decide
theorem hR2 : (opR2 (F := F)).bufs ⊆ S2 := show ({v3', v4'} : Finset (DevRef τ sig)) ⊆ S2 by decide

theorem held_S1 (d : Dev nD) (W : Valuation τ sig (Elt F)) :
    (held (T d) S1 W : sProp 𝕄) = iprop((lLoc d ↦{fullShare} W a1') ∗ (v0Loc d ↦{fullShare} W v0')) := by
  unfold held S1
  rw [SparseCore.bigSep_insert' (by decide), bigSep_singleton]
theorem held_S2 (d : Dev nD) (W : Valuation τ sig (Elt F)) :
    (held (T d) S2 W : sProp 𝕄) = iprop((v3Loc d ↦{fullShare} W v3') ∗ (v4Loc d ↦{fullShare} W v4')) := by
  unfold held S2
  rw [SparseCore.bigSep_insert' (by decide), bigSep_singleton]

def V0 (d : Dev nD) : Valuation τ sig (Elt F) := fun b => m (d, b)

theorem held_R1 (d : Dev nD) :
    (held (T d) S1 ((opR1 (F := F)).result (V0 m d)) : sProp 𝕄)
      = iprop((lLoc d ↦{fullShare} m (lLoc d)) ∗ (v0Loc d ↦{fullShare} (opR1 (F := F)).result (V0 m d) v0')) := by
  rw [held_S1, (opR1 (F := F)).result_of_not_mem (V0 m d) (b := a1') (show a1' ∉ ({v0'} : Finset (DevRef τ sig)) by decide)]
  rfl

def V2 (d : Dev nD) (g3 : Buf (Elt F) (v3Loc d)) (g4 : Buf (Elt F) (v4Loc d)) : Valuation τ sig (Elt F) :=
  Function.update (Function.update (V0 m d) v3' g3) v4' g4
theorem V2_v4 (d : Dev nD) (g3 : Buf (Elt F) (v3Loc d)) (g4 : Buf (Elt F) (v4Loc d)) : V2 m d g3 g4 v4' = g4 := Function.update_self _ _ _
theorem V2_v3 (d : Dev nD) (g3 : Buf (Elt F) (v3Loc d)) (g4 : Buf (Elt F) (v4Loc d)) : V2 m d g3 g4 v3' = g3 :=
  (Function.update_of_ne (show v3' ≠ v4' by decide) _ _).trans (Function.update_self _ _ _)

theorem tcSt_open (d : Dev nD) :
    (K (F := F)).tcSt EH d 1 ⊢ (iprop(tcOwes d ∗ (tcOwes d -∗ (K (F := F)).tcSt EH d 1)) : sProp 𝕄) := by
  unfold SparseCore.Cfg.tcSt tcOwes
  rw [(K (F := F)).Otc_end d (le_refl 1)]
  iintro ⟨⟨%W, %hW, HO⟩, Hrest⟩
  isplitl [HO]
  · iexists W; isplitr
    · ipureintro; intro p hp; have h := hW p (Finset.mem_coe.mp hp); rw [Nat.mul_one] at h; exact h
    · iexact HO
  · iintro ⟨%W', %hW', HO'⟩
    isplitl [HO']
    · iexists W'; isplitr
      · ipureintro; intro p hp; have h : (K (F := F)).lev ((d.tc : Thread nD τ), p.1) p.2 ≤ 8 := hW' (Finset.mem_coe.mpr hp); rw [Nat.mul_one]; exact h
      · iexact HO'
    · iexact Hrest

variable [FloatOps F]

theorem bigSep_fin_two' (Φ : Fin 2 → sProp 𝕄) : bigSep Finset.univ Φ = iprop(Φ 0 ∗ Φ 1) := BI.bigSep_fin_two Φ

theorem tcSt_open' (d : Dev nD) :
    (K (F := F)).tcSt EH d ((0 : Fin 1).val + 1) ⊢ (iprop(tcOwes d ∗ (tcOwes d -∗ (K (F := F)).tcSt EH d 1)) : sProp 𝕄) := tcSt_open d

def labels0 (d : Dev nD) : Buf (Elt F) (v0Loc d) := (opR1 (F := F)).result (V0 m d) v0'

theorem held_R1' (d : Dev nD) :
    (held (T d) S1 ((opR1 (F := F)).result (V0 m d)) : sProp 𝕄) = iprop((lLoc d ↦{fullShare} m (lLoc d)) ∗ (v0Loc d ↦{fullShare} labels0 m d)) :=
  held_R1 m d

theorem st0_eq (d : Dev nD) : (bigSep Finset.univ fun c : Fin ((K (F := F)).nCore 0) => (P m).st 0 d c) = iprop(coreGo m d 0 ∗ coreGo m d 1) := by
  show (bigSep (Finset.univ : Finset (Fin 2)) fun c => coreGo m d c) = _
  exact bigSep_fin_two' _
theorem dn0_eq (d : Dev nD) : (bigSep Finset.univ fun c : Fin ((K (F := F)).nCore 0) => (P m).dn 0 d c) = iprop(coreTd m d 0 ∗ coreTd m d 1) := by
  show (bigSep (Finset.univ : Finset (Fin 2)) fun c => coreTd m d c) = _
  exact bigSep_fin_two' _

abbrev FIN (d : Dev nD) : sProp 𝕄 := iprop((xLoc d ↦{fullShare} m (xLoc d)) ∗ (lLoc d ↦{fullShare} m (lLoc d)))

theorem hmain [∀ e, Nonempty (Elt F e)]
    (h1 : ∀ V : TcVal F, TcValOK m V → RegionStep (F := F) 0 (tcPre V) (tcState m))
    (h2 : ∀ V : TcVal F, TcValOK m V → RegionStep (F := F) 1 (tcPre V) (tcState m))
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq, bigSep_fin_two', bigSep_fin_two']
  simp only [main, wp_bind, wp_pure]
  iintro ⟨#Hctx, Hst, ⟨Hb, ⟨Hx, Hl, Hv0, HoF, HoA, Hv20, Hv21, Hv3, Hv4⟩, -, -⟩, ⟨Hg0, Hg1⟩, ⟨Ht0, Ht1⟩⟩

  iapply (wp_hlo_within 𝒱 (SparseCore.T d) none Set.univ (op := opR1) (S := S1) hR1 (V := V0 m d)) $$ [Hb Hl Hv0]
  · isplitl [Hb]; · iexact Hb
    rw [held_S1]
    isplitl [Hl]; · iexact Hl
    iexact Hv0
  iintro ⟨Hb, Hheld⟩
  ihave Hh := (Entails.of_eq (held_R1' m d)) $$ Hheld
  icases Hh with ⟨Hl, Hv0⟩
  rw [wp_ret]; imodintro

  ihave Hsplit := (split_all m d) $$ [Hx Hl HoF HoA]
  · isplitl [Hx]; · iexact Hx
    isplitl [Hl]; · iexact Hl
    isplitl [HoF] <;> iassumption
  icases Hsplit with ⟨⟨Hxr, Hlr⟩, Hgo0, Hgo1⟩
  iapply ((K (F := F)).wp_run (D (F := F)) 𝒱 (EH := EH) (P := P m) κ d 0)
  isplitr; · iexact Hctx
  isplitl [Hst]; · iexact Hst
  isplitl [Hgo0 Hgo1]
  · rw [st0_eq]
    isplitl [Hgo0] <;> iassumption
  iintro ⟨Hst, Hdn⟩
  ihave Hdn' := (Entails.of_eq (dn0_eq m d)) $$ Hdn
  icases Hdn' with ⟨Htd0, Htd1⟩
  ihave Hj := (join_all m d) $$ [Hxr Hlr Htd0 Htd1]
  · isplitl [Hxr Hlr]
    · isplitl [Hxr] <;> iassumption
    isplitl [Htd0] <;> iassumption
  icases Hj with ⟨Hx, Hl, ⟨%f10, HoF⟩, ⟨%f11, HoA⟩⟩
  ihave Ho := (tcSt_open' d) $$ Hst
  icases Ho with ⟨HO, Hclose⟩

  ihave Hlv := (SparseCore.Cfg.ctx_levAts κ) $$ Hctx
  iapply ((K (F := F)).wp_liftProg (D (F := F)) 𝒱 (SparseCore.T d) Set.univ none (Prog.lift (.customCall (Pipeline.entry 0) ())) _)
  iapply (h1 (extV m d (mkV m d (labels0 m d) f10 f11)) (extV_ok m d _ (mkV_ok m d (labels0 m d) f10 f11)) d Prog.ret _)
  isplitr [Hb Hx Hl Hv0 HoF HoA Hv20 Hv21 Hv3 Hv4 HO Hlv Hg0 Ht0]
  swap
  · isplitl [Hb]; · iexact Hb
    isplitl [Hx Hl Hv0 HoF HoA Hv20 Hv21 Hv3 Hv4 HO]
    · unfold tcPre; rw [extV_self, mkV_chain]
      isplitr [HO]
      swap; · iexact HO
      isplitl [Hx]; · iexact Hx
      isplitl [Hl]; · iexact Hl
      isplitl [Hv0]; · iexact Hv0
      isplitl [HoF]; · iexact HoF
      isplitl [HoA]; · iexact HoA
      isplitl [Hv20]; · iexact Hv20
      isplitl [Hv21]; · iexact Hv21
      isplitl [Hv3] <;> iassumption
    isplitl [Hlv]; · iexact Hlv
    isplitl [Hg0] <;> iassumption
  iintro ⟨Hb, Hstate⟩
  rw [wp_ret]; imodintro
  unfold tcState
  icases Hstate with ⟨%Vc, %hVc, HA, HO⟩

  ihave Hlv := (SparseCore.Cfg.ctx_levAts κ) $$ Hctx
  iapply ((K (F := F)).wp_liftProg (D (F := F)) 𝒱 (SparseCore.T d) Set.univ none (Prog.lift (.customCall (Pipeline.entry 1) ())) _)
  iapply (h2 (extV m d Vc) (extV_ok m d Vc hVc) d Prog.ret _)
  isplitr [Hb HA HO Hlv Hg1 Ht1]
  swap
  · isplitl [Hb]; · iexact Hb
    isplitl [HA HO]
    · unfold tcPre; rw [extV_self]
      isplitl [HA] <;> iassumption
    isplitl [Hlv]; · iexact Hlv
    isplitl [Hg1] <;> iassumption
  iintro ⟨Hb, Hstate⟩
  rw [wp_ret]; imodintro
  unfold tcState
  icases Hstate with ⟨%Vc', %hVc', HA, HO⟩
  ihave HA' := (Entails.of_eq (unscopedBufs_eq d Vc')) $$ HA
  rw [hVc'.1, hVc'.2]
  icases HA' with ⟨Hx, Hl, -, -, -, -, -, Hv3, Hv4⟩

  iapply (wp_hlo_within 𝒱 (SparseCore.T d) none Set.univ (op := opR2) (S := S2) hR2 (V := V2 m d (Vc' main_v3) (Vc' main_v4))) $$ [Hb Hv3 Hv4]
  · isplitl [Hb]; · iexact Hb
    rw [held_S2, V2_v3, V2_v4]
    isplitl [Hv3] <;> iassumption
  iintro ⟨Hb, -⟩
  rw [wp_ret]; imodintro; imodintro
  isplitl [Hclose HO]
  · iapply Hclose; iexact HO
  isplitl [Hx] <;> iassumption

def fq (d : Dev nD) (s' : Phys nD τ sig (Elt F)) : Prop := s'.mem.mem (xLoc d) = m (xLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Hx, Hl⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := lLoc d) (I := Finset.univ) (q := fullShare) (f := m (lLoc d))) $$ [HSI Hl]
  · isplitl [HSI] <;> iassumption
  icases H with %h2
  ipureintro; exact ⟨funext fun i => h1 i (Finset.mem_univ i), funext fun i => h2 i (Finset.mem_univ i)⟩

def QC : PUnit × MemSt nD τ sig (Elt F) → Prop := fun r => ∀ c : Dev nD, r.2.mem (xLoc c) = m (xLoc c) ∧ r.2.mem (lLoc c) = m (lLoc c)

theorem run_main [∀ e, Nonempty (Elt F e)]
    (hTile : (K (F := F)).TileObl (D (F := F)) 𝒱 (P m) v₀ 0)
    (h1 : ∀ V : TcVal F, TcValOK m V → RegionStep (F := F) 0 (tcPre V) (tcState m))
    (h2 : ∀ V : TcVal F, TcValOK m V → RegionStep (F := F) 1 (tcPre V) (tcState m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => SparseCore.Cfg.VecSplit.of_plain (vecSplit m))
    m ρ main (fun d => G (F := F) d) (FIN m) (u₀ (F := F)) (sep_elim_left.trans (hu₀ m)) (hmain m ρ h1 h2) (fq m) (hfin m) (QC m) (fun _ h => h)

end Cert.Proof.KI

end
-- ==== Proof.Tc1Dat.lean ====
import proofs.«216278_g4776003633407_cont_8to1_c_644_33_alg».proof.Proof.TcIface

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (W : TcVal F)

abbrev rdAny (cfg : Pipeline.Cfg sig Λ₀) (c : Dev nD) : Pipeline.RDat τ (Elt F) (HIx 1) ℕ UU ℕ cfg c where
  A w := W c (Pipeline.arrRef cfg.spec w)
  after _ _ _ _ := True
  Φ _ := Pipeline.scopedRest (Ix := HIx 1) (Name := ℕ) (U := UU) (Lvl := ℕ) (Val := Elt F) cfg.spec c
  q _ := fullShare
  owed _ := 0
  recorded _ := BW F c

abbrev rd1 (c : Dev nD) : Pipeline.RDat τ (Elt F) (HIx 1) ℕ UU ℕ cfg1 c := rdAny W cfg1 c

abbrev rds1 : (p : Fin 2) → (c : Dev nD) → Pipeline.RDat τ (Elt F) (HIx 1) ℕ UU ℕ (Pipeline.pin (pcfgs (F := F)) adm p) c :=
  fun p c => rdAny W (Pipeline.pin (pcfgs (F := F)) adm p) c

theorem rd1_Phi (c : Dev nD) (t : Fin (cfg1.N + 1)) :
    (rd1 W c).Φ t = Pipeline.scopedRest (Ix := HIx 1) (Name := ℕ) (U := UU) (Lvl := ℕ) (Val := Elt F) spec1 c := rfl

theorem rdAny_share (cfg : Pipeline.Cfg sig Λ₀) (c : Dev nD) (w : Fin cfg.W) : (rdAny W cfg c).share w = fullShare := by
  unfold Pipeline.RDat.share; split <;> rfl

theorem rd1_share (c : Dev nD) (w : Fin cfg1.W) : (rd1 W c).share w = fullShare := rdAny_share W cfg1 c w

end Cert.Proof.KI

end
-- ==== Proof.Tc1.lean ====
import proofs.«216278_g4776003633407_cont_8to1_c_644_33_alg».proof.Proof.Tc1Dat
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig (HIx 1) (Elt F) ℕ UU ℕ

abbrev c1a (i : grid1.Coords) : Prop := Scalar.cmpi .ne (Scalar.extui (Scalar.cmpi .eq (BitVec.ofNat 32 (i 0).val) 0#32)) 0#32 = 1#1
abbrev c1b (i : grid1.Coords) : Prop := Scalar.cmpi .ne (Scalar.extui (Scalar.cmpi .sgt (BitVec.ofNat 32 (i 0).val) 0#32)) 0#32 = 1#1
abbrev c1c (i : grid1.Coords) : Prop := k1_cond3 i = 1#1

set_option maxHeartbeats 4000000 in

theorem tc1_body_any (c : Dev nD) (i : grid1.Coords)
    (arg1 : Memref sig .tc .vmem S1x1x2048 .i32) (harg1 : arg1.IsWhole) (arg2 : Memref sig .tc .vmem S2048x256 .f32) (harg2 : arg2.IsWhole)
    (arg3 : Memref sig .tc .vmem S16x256 .f32) (harg3 : arg3.IsWhole) (arg4 : Memref sig .tc .vmem S16x128 .f32) (harg4 : arg4.IsWhole)
    (arg5 : Memref sig .tc .vmem S16x256 .f32) (harg5 : arg5.IsWhole) (arg6 : Memref sig .tc .vmem S16x128 .f32) (harg6 : arg6.IsWhole)
    (x1 : Vec F S1x1x2048 .i32) (x2 : Vec F S2048x256 .f32) (x3 : Vec F S16x256 .f32) (x4 : Vec F S16x128 .f32)
    (x5 : Vec F S16x256 .f32) (x6 : Vec F S16x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2
            ∗ (∃ f, arg3.view.loc (c : Thread nD τ) ↦[arg3.view.set]{fullShare} f) ∗ (∃ f, arg4.view.loc (c : Thread nD τ) ↦[arg4.view.set]{fullShare} f)
            ∗ (∃ f, arg5.view.loc (c : Thread nD τ) ↦[arg5.view.set]{fullShare} f) ∗ (∃ f, arg6.view.loc (c : Thread nD τ) ↦[arg6.view.set]{fullShare} f)) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  by_cases h1 : c1a i <;> by_cases h2 : c1b i <;> by_cases h3 : c1c i
  all_goals
    sl_exec (disch := first | sl_exact h1 | sl_exact h2 | sl_exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; iexact H4
    isplitl [H5]
    · iexists _; iexact H5
    iexists _; iexact H6

def otherScoped (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f))

theorem scopedRest1_owns (c : Dev nD) :
    (Pipeline.scopedRest (Ix := HIx 1) (Name := ℕ) (U := UU) (Lvl := ℕ) (Val := Elt F) spec1 c : sProp 𝕄)
      = iprop((∃ d, owns (c : Thread nD τ) (Memref.whole cc1_scratch0) fullShare d) ∗ (∃ d, owns (c : Thread nD τ) (Memref.whole cc1_scratch1) fullShare d)
          ∗ otherScoped c) := by
  rw [scopedRest1_eq]; unfold otherScoped; simp only [owns_whole]

variable (W : TcVal F)

def bodyPre1 (c : Dev nD) (t : Fin cfg1.N) (Y : (w : Fin cfg1.W) → (cfg1.win w).block.Idx → Elt F (cfg1.win w).elt) : sProp 𝕄 :=
  iprop((rd1 W c).Φ t.castSucc ∗ (rd1 W c).owesAt ι₀ t.castSucc
    ∗ owns (c : Thread nD τ) ((cfg1.win 0).stage (cfg1.slots t 0)) fullShare (Y 0)
    ∗ owns (c : Thread nD τ) ((cfg1.win 1).stage (cfg1.slots t 1)) fullShare (Y 1)
    ∗ owns (c : Thread nD τ) ((cfg1.win 2).stage (cfg1.slots t 2)) fullShare (Y 2)
    ∗ owns (c : Thread nD τ) ((cfg1.win 3).stage (cfg1.slots t 3)) fullShare (Y 3))

def bodyPost1 (c : Dev nD) (t : Fin cfg1.N) (Y : (w : Fin cfg1.W) → (cfg1.win w).block.Idx → Elt F (cfg1.win w).elt) : sProp 𝕄 :=
  iprop((rd1 W c).Φ t.succ ∗ (rd1 W c).owesAt ι₀ t.succ
    ∗ (∃ X, ⌜(rd1 W c).after 0 t (Y 0) X⌝ ∗ owns (c : Thread nD τ) ((cfg1.win 0).stage (cfg1.slots t 0)) fullShare X)
    ∗ (∃ X, ⌜(rd1 W c).after 1 t (Y 1) X⌝ ∗ owns (c : Thread nD τ) ((cfg1.win 1).stage (cfg1.slots t 1)) fullShare X)
    ∗ (∃ X, ⌜(rd1 W c).after 2 t (Y 2) X⌝ ∗ owns (c : Thread nD τ) ((cfg1.win 2).stage (cfg1.slots t 2)) fullShare X)
    ∗ (∃ X, ⌜(rd1 W c).after 3 t (Y 3) X⌝ ∗ owns (c : Thread nD τ) ((cfg1.win 3).stage (cfg1.slots t 3)) fullShare X))

theorem sound_body1 (c : Dev nD) (t : Fin cfg1.N) (Y : (w : Fin cfg1.W) → (cfg1.win w).block.Idx → Elt F (cfg1.win w).elt) :
    bodyPre1 W c t Y ⊢ wp frame (wpE (defs₀ (F := F)) Variants.none c none) Set.univ (bodyAt1 t) (fun _ => bodyPost1 W c t Y) := by
  unfold bodyPre1 bodyPost1 bodyAt1
  rw [show (rd1 W c).owesAt ι₀ t.succ = (rd1 W c).owesAt ι₀ t.castSucc from rfl, rd1_Phi, scopedRest1_owns]
  iintro ⟨⟨⟨%s0, HS0⟩, ⟨%s1, HS1⟩, Hr⟩, HO, H0, H1, H2, H3⟩
  iapply (tc1_body_any c (grid1.coords t) _ _ _ _ _ _ _ _ _ _ _ _ (Y 0) (Y 1) (Y 2) (Y 3) s0 s1 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, ⟨%f2, H2⟩, ⟨%f3, H3⟩, ⟨%f4, HS0⟩, ⟨%f5, HS1⟩⟩
  isplitl [HS0 HS1 Hr]
  · isplitl [HS0]
    · iexists _; unfold owns; iexists _; isplitr; swap; · iexact HS0
      ipureintro; rfl
    isplitl [HS1]
    · iexists _; unfold owns; iexists _; isplitr; swap; · iexact HS1
      ipureintro; rfl
    iexact Hr
  isplitl [HO]; · iexact HO
  isplitl [H0]
  · iexists (Y 0); isplitr; · ipureintro; trivial
    iexact H0
  isplitl [H1]
  · iexists (Y 1); isplitr; · ipureintro; trivial
    iexact H1
  isplitl [H2]
  · iexists _; isplitr; swap
    · unfold owns; iexists _; isplitr; swap; · iexact H2
      ipureintro; rfl
    ipureintro; trivial
  iexists _; isplitr; swap
  · unfold owns; iexists _; isplitr; swap; · iexact H3
    ipureintro; rfl
  ipureintro; trivial

theorem body_obligation1 (c : Dev nD) : (rd1 W c).BodyObligation (defs₀ (F := F)) Variants.none ι₀ Set.univ := fun t Y _ => by
  rw [bigSep_W1, bigSep_W1]
  exact sound_body1 W c t Y

variable (m : (ℓ : Loc nD τ sig) → Buf (Elt F) ℓ)

theorem exists_exit {n : ℕ} (c : Dev nD) (r : Fin n → Ref sig .tc) (hinj : Function.Injective r)
    (Vc : (b : Ref sig .tc) → Buf (Elt F) ((c.tc : Thread nD τ).loc b)) (G : (w : Fin n) → Buf (Elt F) ((c.tc : Thread nD τ).loc (r w))) :
    ∃ V' : (b : Ref sig .tc) → Buf (Elt F) ((c.tc : Thread nD τ).loc b), (∀ w, V' (r w) = G w) ∧ ∀ b, b ∉ Finset.univ.image r → V' b = Vc b := by
  classical
  have key : ∀ (b : Ref sig .tc) (w w' : Fin n) (e : r w' = b) (e' : r w = b), e ▸ G w' = e' ▸ G w := fun b w w' e e' => by
    subst e'; have := hinj e; subst this; rfl
  refine ⟨fun b => if h : ∃ w, r w = b then h.choose_spec ▸ G h.choose else Vc b, fun w => ?_, fun b hb => ?_⟩
  · have h : ∃ w', r w' = r w := ⟨w, rfl⟩
    show (if h : ∃ w', r w' = r w then h.choose_spec ▸ G h.choose else Vc (r w)) = G w
    rw [dif_pos h]
    exact key (r w) w h.choose h.choose_spec rfl
  · show (if h : ∃ w, r w = b then h.choose_spec ▸ G h.choose else Vc b) = Vc b
    rw [dif_neg]
    rintro ⟨w, rfl⟩; exact hb (Finset.mem_image_of_mem _ (Finset.mem_univ _))

set_option backward.isDefEq.respectTransparency.types false in

theorem exit_arrays1 (hW : TcValOK m W) (c : Dev nD) :
    iprop((rd1 W c).arraysAt cfg1.N ∗ Pipeline.unscopedRest (Ix := HIx 1) (Name := ℕ) (U := UU) (Lvl := ℕ) spec1 c (W c))
      ⊢ (iprop(∃ Vc : (b : Ref sig .tc) → Buf (Elt F) ((c.tc : Thread nD τ).loc b),
          ⌜Vc main_arg0 = m (xLoc c) ∧ Vc main_arg1 = m (lLoc c)⌝ ∗ unscopedBufs c Vc) : sProp 𝕄) := by
  have step1 : ((rd1 W c).arraysAt cfg1.N : sProp 𝕄)
      ⊢ iprop(∃ G : (w : Fin cfg1.W) → Buf (Elt F) ((cfg1.win w).arr.view.loc (c.tc : Thread nD τ)),
          bigSep Finset.univ fun w => iprop(⌜(rd1 W c).ArrAt w cfg1.N (G w)⌝
            ∗ ((cfg1.win w).arr.view.loc (c.tc : Thread nD τ) ↦[(cfg1.win w).arr.view.set]{(rd1 W c).share w} G w))) := by
    unfold Pipeline.RDat.arraysAt
    exact bigSep_exists_pi Finset.univ _
  have step2 (G : (w : Fin cfg1.W) → Buf (Elt F) ((cfg1.win w).arr.view.loc (c.tc : Thread nD τ))) :
      (bigSep Finset.univ fun w => iprop(⌜(rd1 W c).ArrAt w cfg1.N (G w)⌝
            ∗ ((cfg1.win w).arr.view.loc (c.tc : Thread nD τ) ↦[(cfg1.win w).arr.view.set]{(rd1 W c).share w} G w)) : sProp 𝕄)
        = bigSep Finset.univ fun w => iprop(⌜(rd1 W c).ArrAt w cfg1.N (G w)⌝
            ∗ (((c.tc : Thread nD τ).loc (Pipeline.arrRef spec1 w)) ↦{fullShare} G w)) :=
    bigSep_congr fun w _ => by
      have hs : (cfg1.win w).arr.view.set = Finset.univ := (launch1.arr_whole w).set_eq_univ
      rw [hs, rd1_share]
  have step3 (V' : (b : Ref sig .tc) → Buf (Elt F) ((c.tc : Thread nD τ).loc b))
      (G : (w : Fin cfg1.W) → Buf (Elt F) ((cfg1.win w).arr.view.loc (c.tc : Thread nD τ)))
      (hV' : ∀ w, V' (Pipeline.arrRef spec1 w) = G w) (hrest : ∀ b, b ∉ Finset.univ.image (Pipeline.arrRef spec1) → V' b = W c b) :
      (unscopedBufs c V' : sProp 𝕄)
        = iprop(((((c.tc : Thread nD τ).loc (Pipeline.arrRef spec1 0)) ↦{fullShare} G 0) ∗ (((c.tc : Thread nD τ).loc (Pipeline.arrRef spec1 1)) ↦{fullShare} G 1)
            ∗ (((c.tc : Thread nD τ).loc (Pipeline.arrRef spec1 2)) ↦{fullShare} G 2) ∗ (((c.tc : Thread nD τ).loc (Pipeline.arrRef spec1 3)) ↦{fullShare} G 3))
          ∗ Pipeline.unscopedRest (Ix := HIx 1) (Name := ℕ) (U := UU) (Lvl := ℕ) spec1 c (W c)) := by
    rw [Pipeline.unscopedBufs_split (Pipeline.pin (pcfgs (F := F)) adm) 0 launch1.win.arr_unscoped launch1.win.arr_inj c V', bigSep_W1]
    rw [show Pipeline.unscopedRest (Ix := HIx 1) (Name := ℕ) (U := UU) (Lvl := ℕ) (Pipeline.pin (pcfgs (F := F)) adm 0).spec c V'
        = Pipeline.unscopedRest (Ix := HIx 1) (Name := ℕ) (U := UU) (Lvl := ℕ) spec1 c (W c) from by
      unfold Pipeline.unscopedRest
      exact bigSep_congr fun b hb => by rw [hrest b (Finset.mem_sdiff.mp hb).2]]
    rw [← hV' 0, ← hV' 1, ← hV' 2, ← hV' 3]
    rfl
  refine (sep_mono step1 .rfl).trans ?_
  iintro ⟨⟨%G, Hb⟩, Hr⟩
  obtain ⟨V', hV', hrest⟩ := exists_exit c (Pipeline.arrRef spec1) launch1.win.arr_inj (W c) G
  ihave Hc := (Entails.of_eq ((step2 G).trans (bigSep_W1 _))) $$ Hb
  icases Hc with ⟨⟨-, H0⟩, ⟨%h1, H1⟩, ⟨-, H2⟩, ⟨-, H3⟩⟩
  rw [(rd1 W c).ArrAt_in 1 rfl] at h1
  iexists V'
  isplitr
  · ipureintro
    exact ⟨(hV' 1).trans (h1.trans (hW c).1), (hrest main_arg1 (by decide)).trans (hW c).2⟩
  iapply (Entails.of_eq (step3 V' G hV' hrest).symm)
  isplitr [Hr]
  · isplitl [H0]; · iexact H0
    isplitl [H1]; · iexact H1
    isplitl [H2] <;> iassumption
  · iexact Hr

set_option maxHeartbeats 2000000 in
set_option backward.isDefEq.respectTransparency.types false in

def reg1 (hW : TcValOK m W) :
    Pipeline.RDat.RegionSeg (pcfgs (F := F)) adm (rds1 W) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation1 W c
  hwaits := Pipeline.RDat.hwaits_of_owed_zero _ _ _ _ _ _ 0 fun _ _ => rfl
  pre := tcPre W
  post := tcState m
  X _ := iprop(emp)
  Y _ := iprop(emp)
  Z c := Pipeline.unscopedRest (Ix := HIx 1) (Name := ℕ) (U := UU) (Lvl := ℕ) spec1 c (W c)
  hentry c := by
    unfold tcPre
    iintro ⟨⟨Hub, HO⟩, -, -⟩
    ihave H := (Pipeline.RDat.arrays_of_unscopedBufs (pcfgs (F := F)) adm (rds1 W) (p := 0) launch1.win launch1.arr_whole c
      (rd1_share W c) (W c) (fun _ => rfl)) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (tcOwes_in cfg1 c); iexact HO
    isplitr; · iempintro
    iexact Hr
  hin c := by
    iintro ⟨-, -, H⟩; iexact H
  hout c := by
    rw [Pipeline.ownSems0_none]
    iintro H
    isplitr; · iempintro
    isplitr; · iempintro
    iexact H
  hexit c := by
    unfold tcState
    iintro ⟨Ha, HO, -, HZ⟩
    ihave H := (exit_arrays1 W m hW c) $$ [Ha HZ]
    · isplitl [Ha] <;> iassumption
    icases H with ⟨%Vc, %hVc, Hub⟩
    imodintro
    iexists Vc
    isplitr; · ipureintro; exact hVc
    isplitl [Hub]; · iexact Hub
    iapply (tcOwes_out cfg1 c); iexact HO

set_option backward.isDefEq.respectTransparency.types false in

theorem tc1_step (V : TcVal F) (hV : TcValOK m V) : RegionStep (F := F) 0 (tcPre V) (tcState m) := fun c _ k Q =>
  Pipeline.RDat.RegionSeg.wp (pcfgs (F := F)) adm (rds1 V) ι₀ cellOf_inj_pin EP defs₀ 𝒱₀ (K (F := F)).L (K (F := F)).lev
    (reg1 V m hV) c none (fun _ h => nomatch h) k Q

end Cert.Proof.KI

end
-- ==== Proof.Tc2Dat.lean ====
import proofs.«216278_g4776003633407_cont_8to1_c_644_33_alg».proof.Proof.Common
import Idealize.ShloMosaic.Lib.Pipeline.FrameBody
import Idealize.ShloMosaic.Lib.Pipeline.Value
import Idealize.ShloMosaic.Lib.Tactic

set_option maxRecDepth 16384

noncomputable section

namespace Cert.Proof.KI.Tc2

open Cert.KernelIdeal Cert.KernelIdeal.Gen
open Cert.Proof.KI
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

def cnt1 (x1 : Vec F S32x16x32 .f32) : FVec F S16x32 .f32 :=
  k2_pay3 (View.ld x1 (Rect.unit (s := S32x16x32) ![0, 0, 0] S1x16x32.size inb_S32x16x32_S1x16x32_0_0_0))
    (View.ld x1 (Rect.unit (s := S32x16x32) ![1, 0, 0] S1x16x32.size inb_S32x16x32_S1x16x32_1_0_0))
    (View.ld x1 (Rect.unit (s := S32x16x32) ![2, 0, 0] S1x16x32.size inb_S32x16x32_S1x16x32_2_0_0))
    (View.ld x1 (Rect.unit (s := S32x16x32) ![3, 0, 0] S1x16x32.size inb_S32x16x32_S1x16x32_3_0_0))
    (View.ld x1 (Rect.unit (s := S32x16x32) ![4, 0, 0] S1x16x32.size inb_S32x16x32_S1x16x32_4_0_0))
    (View.ld x1 (Rect.unit (s := S32x16x32) ![5, 0, 0] S1x16x32.size inb_S32x16x32_S1x16x32_5_0_0))
    (View.ld x1 (Rect.unit (s := S32x16x32) ![6, 0, 0] S1x16x32.size inb_S32x16x32_S1x16x32_6_0_0))
    (View.ld x1 (Rect.unit (s := S32x16x32) ![7, 0, 0] S1x16x32.size inb_S32x16x32_S1x16x32_7_0_0))
    (View.ld x1 (Rect.unit (s := S32x16x32) ![8, 0, 0] S1x16x32.size inb_S32x16x32_S1x16x32_8_0_0))

def cnt2 (x1 : Vec F S32x16x32 .f32) : FVec F S16x32 .f32 :=
  k2_pay4 (cnt1 x1)
    (View.ld x1 (Rect.unit (s := S32x16x32) ![9, 0, 0] S1x16x32.size inb_S32x16x32_S1x16x32_9_0_0))
    (View.ld x1 (Rect.unit (s := S32x16x32) ![10, 0, 0] S1x16x32.size inb_S32x16x32_S1x16x32_10_0_0))
    (View.ld x1 (Rect.unit (s := S32x16x32) ![11, 0, 0] S1x16x32.size inb_S32x16x32_S1x16x32_11_0_0))
    (View.ld x1 (Rect.unit (s := S32x16x32) ![12, 0, 0] S1x16x32.size inb_S32x16x32_S1x16x32_12_0_0))
    (View.ld x1 (Rect.unit (s := S32x16x32) ![13, 0, 0] S1x16x32.size inb_S32x16x32_S1x16x32_13_0_0))
    (View.ld x1 (Rect.unit (s := S32x16x32) ![14, 0, 0] S1x16x32.size inb_S32x16x32_S1x16x32_14_0_0))
    (View.ld x1 (Rect.unit (s := S32x16x32) ![15, 0, 0] S1x16x32.size inb_S32x16x32_S1x16x32_15_0_0))
    (View.ld x1 (Rect.unit (s := S32x16x32) ![16, 0, 0] S1x16x32.size inb_S32x16x32_S1x16x32_16_0_0))
    (View.ld x1 (Rect.unit (s := S32x16x32) ![17, 0, 0] S1x16x32.size inb_S32x16x32_S1x16x32_17_0_0))
    (View.ld x1 (Rect.unit (s := S32x16x32) ![18, 0, 0] S1x16x32.size inb_S32x16x32_S1x16x32_18_0_0))

def cnt3 (x1 : Vec F S32x16x32 .f32) : FVec F S16x32 .f32 :=
  k2_pay5 (cnt2 x1)
    (View.ld x1 (Rect.unit (s := S32x16x32) ![19, 0, 0] S1x16x32.size inb_S32x16x32_S1x16x32_19_0_0))
    (View.ld x1 (Rect.unit (s := S32x16x32) ![20, 0, 0] S1x16x32.size inb_S32x16x32_S1x16x32_20_0_0))
    (View.ld x1 (Rect.unit (s := S32x16x32) ![21, 0, 0] S1x16x32.size inb_S32x16x32_S1x16x32_21_0_0))
    (View.ld x1 (Rect.unit (s := S32x16x32) ![22, 0, 0] S1x16x32.size inb_S32x16x32_S1x16x32_22_0_0))
    (View.ld x1 (Rect.unit (s := S32x16x32) ![23, 0, 0] S1x16x32.size inb_S32x16x32_S1x16x32_23_0_0))
    (View.ld x1 (Rect.unit (s := S32x16x32) ![24, 0, 0] S1x16x32.size inb_S32x16x32_S1x16x32_24_0_0))
    (View.ld x1 (Rect.unit (s := S32x16x32) ![25, 0, 0] S1x16x32.size inb_S32x16x32_S1x16x32_25_0_0))
    (View.ld x1 (Rect.unit (s := S32x16x32) ![26, 0, 0] S1x16x32.size inb_S32x16x32_S1x16x32_26_0_0))
    (View.ld x1 (Rect.unit (s := S32x16x32) ![27, 0, 0] S1x16x32.size inb_S32x16x32_S1x16x32_27_0_0))
    (View.ld x1 (Rect.unit (s := S32x16x32) ![28, 0, 0] S1x16x32.size inb_S32x16x32_S1x16x32_28_0_0))

def cnt (x1 : Vec F S32x16x32 .f32) : FVec F S16x32 .f32 :=
  k2_pay6 (cnt3 x1)
    (View.ld x1 (Rect.unit (s := S32x16x32) ![29, 0, 0] S1x16x32.size inb_S32x16x32_S1x16x32_29_0_0))
    (View.ld x1 (Rect.unit (s := S32x16x32) ![30, 0, 0] S1x16x32.size inb_S32x16x32_S1x16x32_30_0_0))
    (View.ld x1 (Rect.unit (s := S32x16x32) ![31, 0, 0] S1x16x32.size inb_S32x16x32_S1x16x32_31_0_0))

def fs1 (x0 : Vec F S32x16x256 .f32) (x2 : Vec F S16x256 .f32) : FVec F S16x256 .f32 :=
  k2_pay7 (k2_pay2 (View.ld x2 (Rect.unit (s := S16x256) ![0, 0] S16x256.size inb_S16x256_S16x256_0_0)))
    (View.ld x0 (Rect.unit (s := S32x16x256) ![0, 0, 0] S1x16x256.size inb_S32x16x256_S1x16x256_0_0_0))
    (View.ld x0 (Rect.unit (s := S32x16x256) ![1, 0, 0] S1x16x256.size inb_S32x16x256_S1x16x256_1_0_0))
    (View.ld x0 (Rect.unit (s := S32x16x256) ![2, 0, 0] S1x16x256.size inb_S32x16x256_S1x16x256_2_0_0))
    (View.ld x0 (Rect.unit (s := S32x16x256) ![3, 0, 0] S1x16x256.size inb_S32x16x256_S1x16x256_3_0_0))
    (View.ld x0 (Rect.unit (s := S32x16x256) ![4, 0, 0] S1x16x256.size inb_S32x16x256_S1x16x256_4_0_0))
    (View.ld x0 (Rect.unit (s := S32x16x256) ![5, 0, 0] S1x16x256.size inb_S32x16x256_S1x16x256_5_0_0))
    (View.ld x0 (Rect.unit (s := S32x16x256) ![6, 0, 0] S1x16x256.size inb_S32x16x256_S1x16x256_6_0_0))

def fs2 (x0 : Vec F S32x16x256 .f32) (x2 : Vec F S16x256 .f32) : FVec F S16x256 .f32 :=
  k2_pay8 (fs1 x0 x2)
    (View.ld x0 (Rect.unit (s := S32x16x256) ![7, 0, 0] S1x16x256.size inb_S32x16x256_S1x16x256_7_0_0))
    (View.ld x0 (Rect.unit (s := S32x16x256) ![8, 0, 0] S1x16x256.size inb_S32x16x256_S1x16x256_8_0_0))
    (View.ld x0 (Rect.unit (s := S32x16x256) ![9, 0, 0] S1x16x256.size inb_S32x16x256_S1x16x256_9_0_0))
    (View.ld x0 (Rect.unit (s := S32x16x256) ![10, 0, 0] S1x16x256.size inb_S32x16x256_S1x16x256_10_0_0))
    (View.ld x0 (Rect.unit (s := S32x16x256) ![11, 0, 0] S1x16x256.size inb_S32x16x256_S1x16x256_11_0_0))
    (View.ld x0 (Rect.unit (s := S32x16x256) ![12, 0, 0] S1x16x256.size inb_S32x16x256_S1x16x256_12_0_0))
    (View.ld x0 (Rect.unit (s := S32x16x256) ![13, 0, 0] S1x16x256.size inb_S32x16x256_S1x16x256_13_0_0))
    (View.ld x0 (Rect.unit (s := S32x16x256) ![14, 0, 0] S1x16x256.size inb_S32x16x256_S1x16x256_14_0_0))
    (View.ld x0 (Rect.unit (s := S32x16x256) ![15, 0, 0] S1x16x256.size inb_S32x16x256_S1x16x256_15_0_0))
    (View.ld x0 (Rect.unit (s := S32x16x256) ![16, 0, 0] S1x16x256.size inb_S32x16x256_S1x16x256_16_0_0))

def fs3 (x0 : Vec F S32x16x256 .f32) (x2 : Vec F S16x256 .f32) : FVec F S16x256 .f32 :=
  k2_pay9 (fs2 x0 x2)
    (View.ld x0 (Rect.unit (s := S32x16x256) ![17, 0, 0] S1x16x256.size inb_S32x16x256_S1x16x256_17_0_0))
    (View.ld x0 (Rect.unit (s := S32x16x256) ![18, 0, 0] S1x16x256.size inb_S32x16x256_S1x16x256_18_0_0))
    (View.ld x0 (Rect.unit (s := S32x16x256) ![19, 0, 0] S1x16x256.size inb_S32x16x256_S1x16x256_19_0_0))
    (View.ld x0 (Rect.unit (s := S32x16x256) ![20, 0, 0] S1x16x256.size inb_S32x16x256_S1x16x256_20_0_0))
    (View.ld x0 (Rect.unit (s := S32x16x256) ![21, 0, 0] S1x16x256.size inb_S32x16x256_S1x16x256_21_0_0))
    (View.ld x0 (Rect.unit (s := S32x16x256) ![22, 0, 0] S1x16x256.size inb_S32x16x256_S1x16x256_22_0_0))
    (View.ld x0 (Rect.unit (s := S32x16x256) ![23, 0, 0] S1x16x256.size inb_S32x16x256_S1x16x256_23_0_0))
    (View.ld x0 (Rect.unit (s := S32x16x256) ![24, 0, 0] S1x16x256.size inb_S32x16x256_S1x16x256_24_0_0))
    (View.ld x0 (Rect.unit (s := S32x16x256) ![25, 0, 0] S1x16x256.size inb_S32x16x256_S1x16x256_25_0_0))
    (View.ld x0 (Rect.unit (s := S32x16x256) ![26, 0, 0] S1x16x256.size inb_S32x16x256_S1x16x256_26_0_0))

def fs (x0 : Vec F S32x16x256 .f32) (x2 : Vec F S16x256 .f32) : FVec F S16x256 .f32 :=
  k2_pay10 (fs3 x0 x2)
    (View.ld x0 (Rect.unit (s := S32x16x256) ![27, 0, 0] S1x16x256.size inb_S32x16x256_S1x16x256_27_0_0))
    (View.ld x0 (Rect.unit (s := S32x16x256) ![28, 0, 0] S1x16x256.size inb_S32x16x256_S1x16x256_28_0_0))
    (View.ld x0 (Rect.unit (s := S32x16x256) ![29, 0, 0] S1x16x256.size inb_S32x16x256_S1x16x256_29_0_0))
    (View.ld x0 (Rect.unit (s := S32x16x256) ![30, 0, 0] S1x16x256.size inb_S32x16x256_S1x16x256_30_0_0))
    (View.ld x0 (Rect.unit (s := S32x16x256) ![31, 0, 0] S1x16x256.size inb_S32x16x256_S1x16x256_31_0_0))

def aux (x3 : Vec F S16x128 .f32) : FVec F S16x128 .f32 := k2_pay11 (View.ld x3 (Rect.unit (s := S16x128) ![0, 0] S16x128.size inb_S16x128_S16x128_0_0))

def lanes : IVec S16x128 32 := iota .tc S16x128 32 [1] iota_S16x128_d1_w32

def epiVal (x0 : Vec F S32x16x256 .f32) (x1 : Vec F S32x16x32 .f32) (x2 : Vec F S16x256 .f32) (x3 : Vec F S16x128 .f32) : FVec F S1x1 .f32 :=
  k2_pay1 (k2_pay17 (aux x3) lanes (k2_pay13 (cnt x1)))
    (k2_pay18 (fs x0 x2) (aux x3) lanes (k2_pay12 (cnt x1) (View.ld x3 (Rect.unit (s := S16x128) ![0, 0] S16x128.size inb_S16x128_S16x128_0_0))) (k2_pay13 (cnt x1)))
    (Scalar.ofBits .f32 0x00000000#32)

abbrev r2_out : Rect S1x1 := Rect.unit (s := S1x1) ![0, 0] S1x1.size inb_S1x1_S1x1_0_0

def out2_4 (x0 : Vec F S32x16x256 .f32) (x1 : Vec F S32x16x32 .f32) (x2 : Vec F S16x256 .f32) (x3 : Vec F S16x128 .f32) : Vec F S1x1 .f32 :=
  View.canon [⟨r2_out, epiVal x0 x1 x2 x3⟩]

theorem cover2_4 (p0 : Vec F S1x1 .f32) (y : S1x1.Idx) :
    ∃ pc ∈ ([⟨r2_out, p0⟩] : List (View.Piece (Elt F) S1x1 .f32)), y ∈ pc.1.set :=
  View.cover_of_tiled [⟨r2_out, p0⟩] S1x1.size (by rfl) y

theorem out2_4_eq (x0 : Vec F S32x16x256 .f32) (x1 : Vec F S32x16x32 .f32) (x2 : Vec F S16x256 .f32) (x3 : Vec F S16x128 .f32) :
    out2_4 x0 x1 x2 x3 = epiVal x0 x1 x2 x3 :=
  View.canon_unit_zero (by funext a; fin_cases a <;> rfl) _ _

set_option maxHeartbeats 2000000 in

theorem sound_kernel2 (c : Dev nD) (E : Set ℕ)
    (arg0 : Memref sig .tc .vmem S32x16x256 .f32) (harg0 : arg0.IsWhole) (arg1 : Memref sig .tc .vmem S32x16x32 .f32) (harg1 : arg1.IsWhole)
    (arg2 : Memref sig .tc .vmem S16x256 .f32) (harg2 : arg2.IsWhole) (arg3 : Memref sig .tc .vmem S16x128 .f32) (harg3 : arg3.IsWhole)
    (arg4 : Memref sig .tc .vmem S1x1 .f32) (harg4 : arg4.IsWhole)
    (x0 : Vec F S32x16x256 .f32) (x1 : Vec F S32x16x32 .f32) (x2 : Vec F S16x256 .f32) (x3 : Vec F S16x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__epi_body arg0 harg0 arg1 harg1 arg2 harg2 arg3 harg3 arg4 harg4) K := by
  simp only [cc2__epi_body_eq_skeleton]; unfold cc2__epi_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover2_4 _)).trans rfl

section Data

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

variable (B : Set (SemLoc sig × HIx 1))

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.scopedRest (Ix := HIx 1) (Name := ℕ) (U := UU) (Lvl := ℕ) (Val := Elt F) spec2 c
  q _ := fullShare
  owed _ := 0
  recorded _ := B

theorem A_eq2 (c : Dev nD) (w : Fin cfg2.W) : (dat2 V B c).A w = V c (Pipeline.arrRef spec2 w) := by
  dsimp only [dat2]

theorem after2_0 (c : Dev nD) (t : Fin cfg2.N) : (dat2 V B c).after 0 t = iblk2 V c 0 t := by dsimp only [dat2]
theorem after2_1 (c : Dev nD) (t : Fin cfg2.N) : (dat2 V B c).after 1 t = iblk2 V c 1 t := by dsimp only [dat2]
theorem after2_2 (c : Dev nD) (t : Fin cfg2.N) : (dat2 V B c).after 2 t = iblk2 V c 2 t := by dsimp only [dat2]
theorem after2_3 (c : Dev nD) (t : Fin cfg2.N) : (dat2 V B c).after 3 t = iblk2 V c 3 t := by dsimp only [dat2]
theorem after2_4 (c : Dev nD) (t : Fin cfg2.N) :
    (dat2 V B c).after 4 t = out2_4 (iblk2 V c 0 t) (iblk2 V c 1 t) (iblk2 V c 2 t) (iblk2 V c 3 t) := by dsimp only [dat2]

theorem before2_0 (c : Dev nD) (t : Fin cfg2.N) (d) : (dat2 V B c).before 0 t d = iblk2 V c 0 t :=
  before2_0_of V (dat2 V B c) (A_eq2 V B c 0) (after2_0 V B c) t d
theorem before2_1 (c : Dev nD) (t : Fin cfg2.N) (d) : (dat2 V B c).before 1 t d = iblk2 V c 1 t :=
  before2_1_of V (dat2 V B c) (A_eq2 V B c 1) (after2_1 V B c) t d
theorem before2_2 (c : Dev nD) (t : Fin cfg2.N) (d) : (dat2 V B c).before 2 t d = iblk2 V c 2 t :=
  before2_2_of V (dat2 V B c) (A_eq2 V B c 2) (after2_2 V B c) t d
theorem before2_3 (c : Dev nD) (t : Fin cfg2.N) (d) : (dat2 V B c).before 3 t d = iblk2 V c 3 t :=
  before2_3_of V (dat2 V B c) (A_eq2 V B c 3) (after2_3 V B c) t d

variable (ι : HIx 1)

def bodyPre2 (c : Dev nD) (t : Fin cfg2.N) : sProp 𝕄 :=
  iprop((dat2 V B c).Φ t.castSucc ∗ (dat2 V B c).owesAt ι t.castSucc
    ∗ (∃ d, owns (c : Thread nD τ) (st2_0 t) fullShare ((dat2 V B c).before 0 t d))
    ∗ (∃ d, owns (c : Thread nD τ) (st2_1 t) fullShare ((dat2 V B c).before 1 t d))
    ∗ (∃ d, owns (c : Thread nD τ) (st2_2 t) fullShare ((dat2 V B c).before 2 t d))
    ∗ (∃ d, owns (c : Thread nD τ) (st2_3 t) fullShare ((dat2 V B c).before 3 t d))
    ∗ (∃ d, owns (c : Thread nD τ) (st2_4 t) fullShare ((dat2 V B c).before 4 t d)))

def bodyPost2 (c : Dev nD) (t : Fin cfg2.N) : sProp 𝕄 :=
  iprop((dat2 V B c).Φ t.succ ∗ (dat2 V B c).owesAt ι t.succ
    ∗ owns (c : Thread nD τ) (st2_0 t) fullShare ((dat2 V B c).after 0 t)
    ∗ owns (c : Thread nD τ) (st2_1 t) fullShare ((dat2 V B c).after 1 t)
    ∗ owns (c : Thread nD τ) (st2_2 t) fullShare ((dat2 V B c).after 2 t)
    ∗ owns (c : Thread nD τ) (st2_3 t) fullShare ((dat2 V B c).after 3 t)
    ∗ owns (c : Thread nD τ) (st2_4 t) fullShare ((dat2 V B c).after 4 t))

theorem sound_body2 (c : Dev nD) (t : Fin cfg2.N) :
    bodyPre2 V B ι c t ⊢ wp frame (wpE (defs₀ (F := F)) Variants.none c none) Set.univ (bodyAt2 t) (fun _ => bodyPost2 V B ι c t) := by
  unfold bodyPre2 bodyPost2 bodyAt2
  simp only [before2_0, before2_1, before2_2, before2_3]
  rw [show (dat2 V B c).Φ t.succ = (dat2 V B c).Φ t.castSucc from rfl,
    show (dat2 V B c).owesAt ι t.succ = (dat2 V B c).owesAt ι t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V B c) (defs₀ (F := F)) Variants.none ι Set.univ := fun t => by
  rw [bigSep_W2, bigSep_W2]
  exact sound_body2 V B ι c t

end Data

end Cert.Proof.KI.Tc2

end
-- ==== Proof.Tc2.lean ====
import proofs.«216278_g4776003633407_cont_8to1_c_644_33_alg».proof.Proof.TcIface
import proofs.«216278_g4776003633407_cont_8to1_c_644_33_alg».proof.Proof.Tc2Dat
import Idealize.ShloMosaic.Lib.Pipeline.RegionsLoop

set_option maxRecDepth 16384

noncomputable section

namespace Cert.Proof.KI.Tc2

open Cert.KernelIdeal Cert.KernelIdeal.Gen
open Cert.Proof.KI
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : TcVal F)

def datOther (c : Dev nD) : Dat τ (Elt F) (HIx 1) ℕ UU ℕ cfg1 c where
  A w := V c (Pipeline.arrRef spec1 w)
  after w t := Dat.unnamed w t
  Φ _ := iprop(emp)
  q _ := fullShare
  owed _ := 0

def pdats2 : (p : Fin 2) → (c : Dev nD) → Dat τ (Elt F) (HIx 1) ℕ UU ℕ (Pipeline.pin (pcfgs (F := F)) adm p) c
  | ⟨0, _⟩ => fun c => datOther V c
  | ⟨1, _⟩ => fun c => dat2 V (BW F c) c

def V3 : TcVal F := fun c => Function.update (V c) main_v3 ((dat2 V (BW F c) c).arrAt 4 cfg2.N)

theorem V3_of_ne (c : Dev nD) (b : Ref sig .tc) (hb : b ≠ main_v3) : V3 V c b = V c b := by
  unfold V3; exact Function.update_of_ne hb _ _

theorem V3_out (c : Dev nD) : V3 V c main_v3 = (dat2 V (BW F c) c).arrAt 4 cfg2.N := by
  unfold V3; exact Function.update_self _ _ _

theorem V3_ok {m : (ℓ : Loc nD τ sig) → Buf (Elt F) ℓ} (hV : TcValOK m V) : TcValOK m (V3 V) := fun c =>
  ⟨(V3_of_ne V c main_arg0 (by decide)).trans (hV c).1, (V3_of_ne V c main_arg1 (by decide)).trans (hV c).2⟩

theorem hF2 (c : Dev nD) (w : Fin cfg2.W) : (pdats2 V 1 c).arrAt w cfg2.N = V3 V c (Pipeline.arrRef spec2 w) :=
  match w with
  | ⟨0, _⟩ => ((pdats2 V 1 c).arrAt_in 0 rfl _).trans (V3_of_ne V c main_v1_0 (by decide)).symm
  | ⟨1, _⟩ => ((pdats2 V 1 c).arrAt_in 1 rfl _).trans (V3_of_ne V c main_v1_1 (by decide)).symm
  | ⟨2, _⟩ => ((pdats2 V 1 c).arrAt_in 2 rfl _).trans (V3_of_ne V c main_v2_0 (by decide)).symm
  | ⟨3, _⟩ => ((pdats2 V 1 c).arrAt_in 3 rfl _).trans (V3_of_ne V c main_v2_1 (by decide)).symm
  | ⟨4, _⟩ => (V3_out V c).symm

theorem hrest2 (c : Dev nD) : ∀ b, b ∉ Finset.univ.image (Pipeline.arrRef spec2) → V3 V c b = V c b :=
  fun b hb => V3_of_ne V c b fun e => hb (Finset.mem_image.mpr ⟨4, Finset.mem_univ _, e.symm⟩)

set_option backward.isDefEq.respectTransparency.types false in

def reg2 : Pipeline.RegionSeg (pcfgs (F := F)) adm (pdats2 V) ι₀ defs₀ 𝒱₀ (Cert.Proof.KI.K (F := F)).L (Cert.Proof.KI.K (F := F)).lev 1 where
  win := launch2.win.to₀
  block_pos := launch2.block_pos
  stage_whole := launch2.stage_whole
  K := PEmpty
  osem k := k.elim
  ho := Pipeline.OwnSemFacts.none _
  hbody c := (body_obligation2 V (BW F c) ι₀ c).loose
  hwaits := Pipeline.hwaits_of_owed_zero _ _ _ _ _ _ 1 fun _ _ => rfl
  pre c := tcPre V c
  post c := tcPre (V3 V) c
  X c := iprop(emp)
  Y c := iprop(emp)
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V) launch2.win launch2.arr_whole c
      ((pdats2 V 1 c).share_full fun _ => rfl) (V c) fun _ => rfl
    unfold tcPre
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (tcOwes_in cfg2 c); iexact HO
    isplitr; · iempintro
    iexact Hrest
  hin c := by
    rw [show (pdats2 V 1 c).Φ 0 = Pipeline.scopedRest spec2 c from rfl]
    iintro ⟨-, -, Hr⟩
    iexact Hr
  hout c := by
    rw [Pipeline.ownSems0_none, show (pdats2 V 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats2 V) ((pdats2 V 1 c).share_full fun _ => rfl)
      (V c) (V3 V c) ((pdats2 V 1 c).arrAt · cfg2.N) (hF2 V c) (hrest2 V c)
    unfold tcPre
    iintro ⟨Ha, HO, -, Hrest⟩
    imodintro
    isplitl [Ha Hrest]
    · iapply hjoin; isplitl [Ha] <;> iassumption
    iapply (tcOwes_out cfg2 c); iexact HO

set_option backward.isDefEq.respectTransparency.types false in

theorem tc2_step_named : RegionStep (F := F) 1 (tcPre V) (tcPre (V3 V)) := fun c _ k Q =>
  (reg2 V).wp (pcfgs (F := F)) adm (pdats2 V) ι₀ cellOf_inj_pin EP defs₀ 𝒱₀ _ _ c none (fun _ h => absurd h (by simp)) k Q

theorem tc2_step {m : (ℓ : Loc nD τ sig) → Buf (Elt F) ℓ} (hV : TcValOK m V) : RegionStep (F := F) 1 (tcPre V) (tcState m) :=
  (tc2_step_named V).mono_post fun c => tcPre_state m (V3_ok V hV) c

end Cert.Proof.KI.Tc2

end
-- ==== Proof.PreFacts.lean ====
import proofs.«216278_g4776003633407_cont_8to1_c_644_33_alg».proof.Defs
import proofs.«216278_g4776003633407_cont_8to1_c_644_33_alg».proof.Proof.Gen.Pre_input_domain
import Idealize.ShloMosaic.Lib.ReduceAll
import Idealize.ShloMosaic.Lib.ValueIdx

noncomputable section

namespace Cert.Proof.PreFacts

open Idealize.ShloMosaic Cert.Pre_input_domain Cert.Pre_input_domain.Gen

instance : Subsingleton S_.Idx := ⟨fun a b => funext fun d => d.elim0⟩

theorem word_le (v : BitVec 32) (e : IntOp.andi (IntOp.cmpi .sge v 0#32) (IntOp.cmpi .sle v 12#32) = 1#1) : v.toNat ≤ 12 := by
  obtain ⟨e0, e1⟩ := IntOp.andi_eq_one.1 e
  rw [IntOp.cmpi_sge, show (0#32 : BitVec 32).toInt = 0 from by decide] at e0
  rw [IntOp.cmpi_sle, show (12#32 : BitVec 32).toInt = 12 from by decide] at e1
  rw [BitVec.toInt_eq_toNat_cond] at e0 e1
  split at e0 <;> omega

theorem labels_le {F : FTy → Type} [FloatOps F] (x : FVec F S65536x256 .f32) (lab : IVec S65536 32)
    (h : Cert.Pre_input_domain.fn (F := F) x lab = fun _ => 1#1) : ∀ r, (lab r).toNat ≤ 12 := by
  intro r
  have e := congrFun h ValueIdx.ix0
  dsimp only [Cert.Pre_input_domain.fn] at e
  obtain ⟨_, e2⟩ := IntOp.andi_eq_one.1 e
  have e3 := Host.reduce_andi_all _ _ _ _ _ e2 r
  exact word_le _ e3

theorem features_real (x : FVec Ideal S65536x256 .f32) (lab : IVec S65536 32)
    (h : Cert.Pre_input_domain.fn (F := Ideal) x lab = fun _ => 1#1) : ∀ i, ∃ a : ℝ, x i = (a : EReal) := by
  intro i
  have e := congrFun h ValueIdx.ix0
  dsimp only [Cert.Pre_input_domain.fn] at e
  obtain ⟨e1, _⟩ := IntOp.andi_eq_one.1 e
  have e3 := Host.reduce_andi_all _ _ _ _ _ e1 i
  have hlt : max (x i) (-(x i)) < ⊤ := by
    have e4 : BitVec.ofBool (decide (max (x i) (-(x i)) < Ideal.ofBits .f32 0x7F800000#32)) = 1#1 := e3
    have e5 : Ideal.ofBits .f32 0x7F800000#32 = ⊤ := by simp [Ideal.ofBits, Ideal.ieee]
    rw [e5] at e4
    by_contra hn
    rw [decide_eq_false hn] at e4
    exact absurd e4 (by decide)
  induction hx : x i using EReal.rec with
  | bot => rw [hx] at hlt; simp at hlt
  | coe a => exact ⟨a, rfl⟩
  | top => rw [hx] at hlt; simp at hlt

section AtKernel
open Idealize.ShloMosaic.TcCoe Idealize.SL.Sem

theorem labels_le_of_pre (m : (ℓ : Loc Cert.KernelIdeal.nD Cert.KernelIdeal.τ Cert.KernelIdeal.sig) → Buf (Elt Ideal) ℓ)
    (h : Cert.Pre_KernelIdeal m) (c : Dev Cert.KernelIdeal.nD) (r : S65536.Idx) :
    ((m ((c.tc : Thread Cert.KernelIdeal.nD Cert.KernelIdeal.τ).loc Cert.KernelIdeal.main_arg1) : IVec S65536 32) r).toNat ≤ 12 :=
  labels_le _ _ (h c) r

theorem features_real_of_pre (m : (ℓ : Loc Cert.KernelIdeal.nD Cert.KernelIdeal.τ Cert.KernelIdeal.sig) → Buf (Elt Ideal) ℓ)
    (h : Cert.Pre_KernelIdeal m) (c : Dev Cert.KernelIdeal.nD) (i : S65536x256.Idx) :
    ∃ a : ℝ, (m ((c.tc : Thread Cert.KernelIdeal.nD Cert.KernelIdeal.τ).loc Cert.KernelIdeal.main_arg0) : FVec Ideal S65536x256 .f32) i = (a : EReal) :=
  features_real _ _ (h c) i

end AtKernel

end Cert.Proof.PreFacts

end
-- ==== Proof.FrameKI.lean ====
import proofs.«216278_g4776003633407_cont_8to1_c_644_33_alg».proof.Proof.Launch
import proofs.«216278_g4776003633407_cont_8to1_c_644_33_alg».proof.Proof.Tc1
import proofs.«216278_g4776003633407_cont_8to1_c_644_33_alg».proof.Proof.Tc2
import proofs.«216278_g4776003633407_cont_8to1_c_644_33_alg».proof.Proof.PreFacts

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.Sem

variable {F : FTy → Type}

def LabOK (m : (ℓ : Loc nD τ sig) → Buf (Elt F) ℓ) : Prop :=
  ∀ (c : Dev nD) (r : S65536.Idx), ((m ((c.tc : Thread nD τ).loc main_arg1) : IVec S65536 32) r).toNat ≤ 12

theorem frame_run [FloatOps F] [∀ e, Nonempty (Elt F e)] (m : (ℓ : Loc nD τ sig) → Buf (Elt F) ℓ) (ρ : Dev nD → PrngReg)
    (hTile : (K (F := F)).TileObl (D (F := F)) 𝒱 (P m) v₀ 0) :
    θ_run (Cert.KernelIdeal.defs (F := F)) (Cert.KernelIdeal.threads (F := F)) ⟨m, fun _ => 0, ρ⟩ (QC m) :=
  run_main m ρ hTile (fun V hV => tc1_step m V hV) (fun V hV => Tc2.tc2_step V hV)

theorem frame_pi (hTile : ∀ m : (ℓ : Loc nD τ sig) → Buf (Elt Ideal) ℓ, LabOK m → (K (F := Ideal)).TileObl (D (F := Ideal)) 𝒱 (P m) v₀ 0) :
    Cert.frame_KernelIdeal := fun m ρ hpre =>
  (θ_run Cert.KernelIdeal.defs _ _).mono (fun _ h c => h c)
    (frame_run (F := Ideal) m ρ (hTile m fun c r => Cert.Proof.PreFacts.labels_le _ _ (hpre c) r))

end Cert.Proof.KI

end
-- ==== Proof.CommonB.lean ====
import proofs.«216278_g4776003633407_cont_8to1_c_644_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«216278_g4776003633407_cont_8to1_c_644_33_alg».proof.Proof.Gen.Kernel
import proofs.«216278_g4776003633407_cont_8to1_c_644_33_alg».proof.Proof.Gen.Kernel.Skeleton
import proofs.«216278_g4776003633407_cont_8to1_c_644_33_alg».proof.Proof.Gen.Kernel.Launch
import proofs.«216278_g4776003633407_cont_8to1_c_644_33_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KB

end
-- ==== Proof.IfaceB.lean ====
import proofs.«216278_g4776003633407_cont_8to1_c_644_33_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

abbrev xLoc (d : Dev nD) : Loc nD τ sig := (SparseCore.T d).loc main_arg0
abbrev lLoc (d : Dev nD) : Loc nD τ sig := (SparseCore.T d).loc main_arg1
abbrev oFLoc (d : Dev nD) : Loc nD τ sig := (SparseCore.T d).loc main_v1_0
abbrev oALoc (d : Dev nD) : Loc nD τ sig := (SparseCore.T d).loc main_v1_1

def wid (c : Fin 2) (s : Fin 16) : Fin 32 := ⟨s.val * 2 + c.val, by omega⟩

theorem hdivF : 32 ∣ S32x16x256.size 0 := ⟨1, rfl⟩
theorem hdivA : 32 ∣ S32x16x32.size 0 := ⟨1, rfl⟩

abbrev blkF (w : Fin 32) : Rect S32x16x256 := Rect.part (s := S32x16x256) (a₀ := 0) hdivF w
abbrev blkA (w : Fin 32) : Rect S32x16x32 := Rect.part (s := S32x16x32) (a₀ := 0) hdivA w
abbrev blkFSet (w : Fin 32) : Finset S32x16x256.Idx := ((Memref.whole main_v1_0_scv : Memref sig .scVector .hbm S32x16x256 .f32).view.slice (blkF w)).set
abbrev blkASet (w : Fin 32) : Finset S32x16x32.Idx := ((Memref.whole main_v1_1_scv : Memref sig .scVector .hbm S32x16x32 .f32).view.slice (blkA w)).set

abbrev qTile (w : Fin 32) : PosShare TreeShare := Transfers.shareTok fullShare 32 w

def tileGo (d : Dev nD) (w : Fin 32) : sProp 𝕄 :=
  iprop((xLoc d ↦{qTile w} m (xLoc d)) ∗ (lLoc d ↦{qTile w} m (lLoc d))
    ∗ (oFLoc d ↦[blkFSet w]{fullShare} m (oFLoc d)) ∗ (oALoc d ↦[blkASet w]{fullShare} m (oALoc d)))

def tileTd (d : Dev nD) (w : Fin 32) : sProp 𝕄 :=
  iprop((xLoc d ↦{qTile w} m (xLoc d)) ∗ (lLoc d ↦{qTile w} m (lLoc d))
    ∗ (∃ f, oFLoc d ↦[blkFSet w]{fullShare} f) ∗ (∃ f, oALoc d ↦[blkASet w]{fullShare} f))

end Cert.Proof.KB

end
-- ==== Proof.TcIfaceB.lean ====
import proofs.«216278_g4776003633407_cont_8to1_c_644_33_alg».proof.Proof.IfaceB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev adm : (p : Fin 2) → (pcfgs (F := F) p).Adm := fun p => (cfgs p).toPCfg_adm

theorem cellOf_inj_pin : Function.Injective (Pipeline.cellOf (nD := nD) (τ := τ) (Pipeline.pin (pcfgs (F := F)) adm)) :=
  Gen.cellOf_inj

abbrev ι₀ : HIx 1 := none

def BW (F : FTy → Type) (c : Dev nD) : Set (SemLoc sig × HIx 1) := {p | (K (F := F)).lev ((c.tc : Thread nD τ), p.1) p.2 ≤ 8}

def tcOwes (c : Dev nD) : sProp 𝕄 := Pipeline.owesWithin c (0 : CellTallies nD τ sig (HIx 1)) (BW F c)

theorem waitPairs_sub (cfg : Pipeline.Cfg sig Λ₀) (c : Dev nD) : cfg.waitPairs (none : HIx 1) ⊆ BW F c := by
  rintro p ⟨w, s, rfl⟩
  show (K (F := F)).lev _ none ≤ 8
  rw [SparseCore.Cfg.lev_none]; omega

theorem tcOwes_in (cfg : Pipeline.Cfg sig Λ₀) (c : Dev nD) :
    (tcOwes c : sProp 𝕄) ⊢ Pipeline.owesWithin c (0 : CellTallies nD τ sig (HIx 1)) (BW F c ∪ cfg.waitPairs (none : HIx 1)) :=
  Pipeline.owesWithin_mono c 0 Set.subset_union_left

theorem tcOwes_out (cfg : Pipeline.Cfg sig Λ₀) (c : Dev nD) :
    Pipeline.owesWithin c (0 : CellTallies nD τ sig (HIx 1)) (BW F c ∪ cfg.waitPairs (none : HIx 1)) ⊢ (tcOwes c : sProp 𝕄) :=
  Pipeline.owesWithin_mono c 0 (Set.union_subset subset_rfl (waitPairs_sub cfg c))

variable (m : (ℓ : Loc nD τ sig) → Buf (Elt F) ℓ)

abbrev TcVal (F : FTy → Type) : Type := (c : Dev nD) → (b : Ref sig .tc) → Buf (Elt F) ((c.tc : Thread nD τ).loc b)

def TcValOK (V : TcVal F) : Prop := ∀ c, V c main_arg0 = m (xLoc c) ∧ V c main_arg1 = m (lLoc c)

def tcPre (V : TcVal F) (c : Dev nD) : sProp 𝕄 := iprop(unscopedBufs c (V c) ∗ tcOwes c)

def tcState (c : Dev nD) : sProp 𝕄 :=
  iprop(∃ Vc : (b : Ref sig .tc) → Buf (Elt F) ((c.tc : Thread nD τ).loc b),
    ⌜Vc main_arg0 = m (xLoc c) ∧ Vc main_arg1 = m (lLoc c)⌝ ∗ unscopedBufs c Vc ∗ tcOwes c)

theorem tcPre_state {V : TcVal F} (hV : TcValOK m V) (c : Dev nD) : (tcPre V c : sProp 𝕄) ⊢ tcState m c := by
  unfold tcPre tcState
  iintro ⟨HA, HO⟩
  iexists (V c); isplitr; · ipureintro; exact hV c
  isplitl [HA] <;> iassumption

def extV (d : Dev nD) (Vd : (b : Ref sig .tc) → Buf (Elt F) ((d.tc : Thread nD τ).loc b)) : TcVal F :=
  fun c => if h : d = c then h ▸ Vd else fun b => m ((c.tc : Thread nD τ).loc b)

theorem extV_self (d : Dev nD) (Vd : (b : Ref sig .tc) → Buf (Elt F) ((d.tc : Thread nD τ).loc b)) : extV m d Vd d = Vd := by
  unfold extV; rw [dif_pos rfl]

theorem extV_ok (d : Dev nD) (Vd : (b : Ref sig .tc) → Buf (Elt F) ((d.tc : Thread nD τ).loc b))
    (h : Vd main_arg0 = m (xLoc d) ∧ Vd main_arg1 = m (lLoc d)) : TcValOK m (extV m d Vd) := by
  intro c
  unfold extV
  by_cases e : d = c
  · subst e; rw [dif_pos rfl]; exact h
  · rw [dif_neg e]; exact ⟨rfl, rfl⟩

variable [FloatOps F]

def RegionStep (p : Fin 2) (pre post : Dev nD → sProp 𝕄) : Prop :=
  ∀ (c : Dev nD) {α : Type} (k : PUnit → Prog (TpuEff nD τ sig (Elt F) (ΛP (F := F)) .tc) α) (Q : α → sProp 𝕄),
    iprop((iprop(boundary (c.tc : Thread nD τ) ∗ post c) -∗ wp frame (wpE (D (F := F)) 𝒱 (c.tc : Thread nD τ) none) Set.univ (k ⟨⟩) Q)
        ∗ boundary (c.tc : Thread nD τ) ∗ pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE (D (F := F)) 𝒱 (c.tc : Thread nD τ) none) Set.univ (.op (.customCall (Pipeline.entry p) ()) k) Q

theorem RegionStep.mono_post {p : Fin 2} {pre post post' : Dev nD → sProp 𝕄} (h : RegionStep (F := F) p pre post)
    (hp : ∀ c, post c ⊢ post' c) : RegionStep (F := F) p pre post' := by
  intro c α k Q
  have aux (A R : sProp 𝕄) : iprop((iprop(boundary (c.tc : Thread nD τ) ∗ post' c) -∗ A) ∗ R) ⊢ iprop((iprop(boundary (c.tc : Thread nD τ) ∗ post c) -∗ A) ∗ R) := by
    iintro ⟨Hk, Hrest⟩
    isplitl [Hk]
    · iintro ⟨Hb, Hp⟩
      iapply Hk
      isplitl [Hb]; · iexact Hb
      iapply (hp c); iexact Hp
    · iexact Hrest
  exact (aux _ _).trans (h c k Q)

end Cert.Proof.KB

end
-- ==== Proof.LaunchB.lean ====
import proofs.«216278_g4776003633407_cont_8to1_c_644_33_alg».proof.Proof.TcIfaceB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

instance tileGo_storable (d : Dev nD) (w : Fin 32) : BI.Storable (upEmb : UEmb _ 𝕄) (tileGo m d w) := by unfold tileGo; infer_instance
instance tileTd_storable (d : Dev nD) (w : Fin 32) : BI.Storable (upEmb : UEmb _ 𝕄) (tileTd m d w) := by unfold tileTd; infer_instance

def coreGo (d : Dev nD) (c : Fin 2) : sProp 𝕄 := bigSep Finset.univ fun s : Fin 16 => tileGo m d (wid c s)
def coreTd (d : Dev nD) (c : Fin 2) : sProp 𝕄 := bigSep Finset.univ fun s : Fin 16 => tileTd m d (wid c s)

def P : (K (F := F)).Pay (nD := nD) (Val := Elt F) (Name := ℕ) (U := UU) where
  st := fun q d c => match q with | 0 => coreGo m d (Fin.cast nCore_zero c)
  dn := fun q d c => match q with | 0 => coreTd m d (Fin.cast nCore_zero c)
  go := fun q d c i => match q with | 0 => tileGo m d (wid (Fin.cast nCore_zero c) (Fin.cast nSub_zero i))
  td := fun q d c i => match q with | 0 => tileTd m d (wid (Fin.cast nCore_zero c) (Fin.cast nSub_zero i))
  x := fun _ _ => iprop(emp)

instance P_storable : (P (F := F) m).IsStorable where
  st q d c := match q with
    | 0 => (by unfold coreGo; infer_instance : BI.Storable (upEmb : UEmb _ 𝕄) (coreGo m d (Fin.cast nCore_zero c)))
  dn q d c := match q with
    | 0 => (by unfold coreTd; infer_instance : BI.Storable (upEmb : UEmb _ 𝕄) (coreTd m d (Fin.cast nCore_zero c)))
  go q d c i := match q with
    | 0 => (inferInstance : BI.Storable (upEmb : UEmb _ 𝕄) (tileGo m d (wid (Fin.cast nCore_zero c) (Fin.cast nSub_zero i))))
  td q d c i := match q with
    | 0 => (inferInstance : BI.Storable (upEmb : UEmb _ 𝕄) (tileTd m d (wid (Fin.cast nCore_zero c) (Fin.cast nSub_zero i))))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreGo m d (Fin.cast nCore_zero c) ⊢ |={Set.univ}=> iprop(
      (bigSep Finset.univ fun i : Fin ((K (F := F)).nSub 0) => tileGo m d (wid (Fin.cast nCore_zero c) (Fin.cast nSub_zero i)))
      ∗ ((bigSep Finset.univ fun i : Fin ((K (F := F)).nSub 0) => tileTd m d (wid (Fin.cast nCore_zero c) (Fin.cast nSub_zero i)))
          -∗ coreTd m d (Fin.cast nCore_zero c)))
  rw [bigSep_tasks (F := F) (fun i => tileGo m d (wid (Fin.cast nCore_zero c) i)),
    bigSep_tasks (F := F) (fun i => tileTd m d (wid (Fin.cast nCore_zero c) i))]
  unfold coreGo coreTd
  iintro H; imodintro
  isplitl [H]; · iexact H
  iintro H; iexact H

theorem workers_cover : (Finset.univ : Finset (Fin 32)) = (Finset.univ.image (wid 0)) ∪ (Finset.univ.image (wid 1)) := by
  ext w
  simp only [Finset.mem_univ, Finset.mem_union, Finset.mem_image, true_and, true_iff]
  rcases Nat.mod_two_eq_zero_or_one w.val with h | h
  · exact Or.inl ⟨⟨w.val / 2, by omega⟩, Fin.ext (by show w.val / 2 * 2 + 0 = w.val; omega)⟩
  · exact Or.inr ⟨⟨w.val / 2, by omega⟩, Fin.ext (by show w.val / 2 * 2 + 1 = w.val; omega)⟩

theorem workers_disjoint : Disjoint ((Finset.univ : Finset (Fin 16)).image (wid 0)) (Finset.univ.image (wid 1)) := by
  refine Finset.disjoint_left.mpr fun w h0 h1 => ?_
  obtain ⟨a, -, rfl⟩ := Finset.mem_image.mp h0
  obtain ⟨b, -, e⟩ := Finset.mem_image.mp h1
  have h : b.val * 2 + 1 = a.val * 2 + 0 := congrArg Fin.val e
  omega

theorem wid_injOn (c : Fin 2) : Set.InjOn (wid c) ((Finset.univ : Finset (Fin 16)) : Set (Fin 16)) := by
  intro a _ b _ e
  have h : a.val * 2 + c.val = b.val * 2 + c.val := congrArg Fin.val e
  exact Fin.ext (by omega)

theorem workers_regroup (Φ : Fin 32 → sProp 𝕄) :
    bigSep Finset.univ Φ = iprop((bigSep Finset.univ fun s : Fin 16 => Φ (wid 0 s)) ∗ bigSep Finset.univ fun s : Fin 16 => Φ (wid 1 s)) := by
  rw [workers_cover, SparseCore.bigSep_union' workers_disjoint, SparseCore.bigSep_image_of_injOn (wid_injOn 0) Φ,
    SparseCore.bigSep_image_of_injOn (wid_injOn 1) Φ]

theorem blkFSet_eq (w : Fin 32) : blkFSet w = (blkF w).set := by
  show ((View.whole (main_v1_0_scv : Ref sig .scVector)).slice (blkF w)).set = _
  rw [View.set_slice]; exact Finset.map_refl
theorem blkASet_eq (w : Fin 32) : blkASet w = (blkA w).set := by
  show ((View.whole (main_v1_1_scv : Ref sig .scVector)).slice (blkA w)).set = _
  rw [View.set_slice]; exact Finset.map_refl
theorem blkF_disjoint : ∀ i ∈ (Finset.univ : Finset (Fin 32)), ∀ j ∈ (Finset.univ : Finset (Fin 32)), i ≠ j → Disjoint (blkFSet i) (blkFSet j) :=
  fun i _ j _ h => by rw [blkFSet_eq, blkFSet_eq]; exact Rect.part_disjoint hdivF h
theorem blkA_disjoint : ∀ i ∈ (Finset.univ : Finset (Fin 32)), ∀ j ∈ (Finset.univ : Finset (Fin 32)), i ≠ j → Disjoint (blkASet i) (blkASet j) :=
  fun i _ j _ h => by rw [blkASet_eq, blkASet_eq]; exact Rect.part_disjoint hdivA h
theorem blkF_cover : (Finset.univ : Finset (Fin 32)).biUnion blkFSet = Finset.univ :=
  (Finset.biUnion_congr rfl fun i _ => blkFSet_eq i).trans (Rect.biUnion_part hdivF)
theorem blkA_cover : (Finset.univ : Finset (Fin 32)).biUnion blkASet = Finset.univ :=
  (Finset.biUnion_congr rfl fun i _ => blkASet_eq i).trans (Rect.biUnion_part hdivA)

theorem oF_blocks (d : Dev nD) (f : Buf (Elt F) (oFLoc d)) :
    (oFLoc d ↦{fullShare} f : sProp 𝕄) = bigSep Finset.univ fun w : Fin 32 => oFLoc d ↦[blkFSet w]{fullShare} f := by
  rw [← pointsTo_biUnion Finset.univ (ℓ := oFLoc d) blkFSet blkF_disjoint, blkF_cover]; try rfl
theorem oA_blocks (d : Dev nD) (f : Buf (Elt F) (oALoc d)) :
    (oALoc d ↦{fullShare} f : sProp 𝕄) = bigSep Finset.univ fun w : Fin 32 => oALoc d ↦[blkASet w]{fullShare} f := by
  rw [← pointsTo_biUnion Finset.univ (ℓ := oALoc d) blkASet blkA_disjoint, blkA_cover]; try rfl

theorem oF_join [∀ e, Nonempty (Elt F e)] (d : Dev nD) :
    (bigSep Finset.univ fun w : Fin 32 => iprop(∃ f, oFLoc d ↦[blkFSet w]{fullShare} f)) ⊢ (iprop(∃ f, oFLoc d ↦{fullShare} f) : sProp 𝕄) := by
  refine (bigSep_exists_pi Finset.univ (fun w (f : Buf (Elt F) (oFLoc d)) => oFLoc d ↦[blkFSet w]{fullShare} f)).trans ?_
  iintro ⟨%fs, H⟩
  ihave H' := (pointsTo_biUnion_join Finset.univ blkFSet fs (fs 0) blkF_disjoint) $$ H
  icases H' with ⟨%g, -, Hg⟩
  rw [blkF_cover]
  iexists g; iexact Hg
theorem oA_join [∀ e, Nonempty (Elt F e)] (d : Dev nD) :
    (bigSep Finset.univ fun w : Fin 32 => iprop(∃ f, oALoc d ↦[blkASet w]{fullShare} f)) ⊢ (iprop(∃ f, oALoc d ↦{fullShare} f) : sProp 𝕄) := by
  refine (bigSep_exists_pi Finset.univ (fun w (f : Buf (Elt F) (oALoc d)) => oALoc d ↦[blkASet w]{fullShare} f)).trans ?_
  iintro ⟨%fs, H⟩
  ihave H' := (pointsTo_biUnion_join Finset.univ blkASet fs (fs 0) blkA_disjoint) $$ H
  icases H' with ⟨%g, -, Hg⟩
  rw [blkA_cover]
  iexists g; iexact Hg

abbrev qRest : PosShare TreeShare := Transfers.shareDrop fullShare 32

theorem split_all (d : Dev nD) :
    iprop((xLoc d ↦{fullShare} m (xLoc d)) ∗ (lLoc d ↦{fullShare} m (lLoc d)) ∗ (oFLoc d ↦{fullShare} m (oFLoc d)) ∗ (oALoc d ↦{fullShare} m (oALoc d)))
      ⊢ (iprop(((xLoc d ↦{qRest} m (xLoc d)) ∗ (lLoc d ↦{qRest} m (lLoc d))) ∗ coreGo m d 0 ∗ coreGo m d 1) : sProp 𝕄) := by
  unfold coreGo
  rw [← workers_regroup (F := F) (fun w => tileGo m d w)]
  unfold tileGo
  rw [bigSep_sep', bigSep_sep', bigSep_sep', oF_blocks, oA_blocks]
  iintro ⟨Hx, Hl, HoF, HoA⟩
  ihave Hx' := (Transfers.pointsTo_toks_split fullShare 32) $$ Hx
  icases Hx' with ⟨Hxr, Hxt⟩
  ihave Hl' := (Transfers.pointsTo_toks_split fullShare 32) $$ Hl
  icases Hl' with ⟨Hlr, Hlt⟩
  isplitl [Hxr Hlr]
  · isplitl [Hxr] <;> iassumption
  isplitl [Hxt]; · iexact Hxt
  isplitl [Hlt]; · iexact Hlt
  isplitl [HoF] <;> iassumption

theorem join_all [∀ e, Nonempty (Elt F e)] (d : Dev nD) :
    iprop(((xLoc d ↦{qRest} m (xLoc d)) ∗ (lLoc d ↦{qRest} m (lLoc d))) ∗ coreTd m d 0 ∗ coreTd m d 1)
      ⊢ (iprop((xLoc d ↦{fullShare} m (xLoc d)) ∗ (lLoc d ↦{fullShare} m (lLoc d)) ∗ (∃ f, oFLoc d ↦{fullShare} f) ∗ (∃ f, oALoc d ↦{fullShare} f)) : sProp 𝕄) := by
  unfold coreTd
  rw [← workers_regroup (F := F) (fun w => tileTd m d w)]
  unfold tileTd
  rw [bigSep_sep', bigSep_sep', bigSep_sep']
  iintro ⟨⟨Hxr, Hlr⟩, Hxt, Hlt, HoF, HoA⟩
  isplitl [Hxr Hxt]
  · iapply (Transfers.pointsTo_toks_join fullShare 32); isplitl [Hxr] <;> iassumption
  isplitl [Hlr Hlt]
  · iapply (Transfers.pointsTo_toks_join fullShare 32); isplitl [Hlr] <;> iassumption
  isplitl [HoF]
  · iapply (oF_join d); iexact HoF
  · iapply (oA_join d); iexact HoA

def u₀ : UU := (initOf (K (F := F)).hsCells (K (F := F)).hsToks,
  (initOf (Pipeline.cells (Pipeline.pin (pcfgs (F := F)) adm) cellOf_inj_pin) (Pipeline.launchToks (Pipeline.pin (pcfgs (F := F)) adm) cellOf_inj_pin), 1))

def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem ownR_split (b : UP) (c : Counters) :
    (BI.own ((embR (nD := nD) (τ := τ) (sig := sig) (Ix := HIx 1) (Val := Elt F) (Name := ℕ) (Lvl := ℕ) (A := UH) (B := UP × Counters)) (b, c)) : sProp 𝕄)
      ⊢ iprop(BI.own ((EP : Emb UP 𝕄) b)
          ∗ BI.own (((Emb.inr : Emb Counters (UP × Counters)).trans (embR (nD := nD) (τ := τ) (sig := sig) (Ix := HIx 1) (Val := Elt F) (Name := ℕ) (Lvl := ℕ) (A := UH) (B := UP × Counters))) c)) := by
  unfold EP; exact own_pair_emb _ b c

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (ownR_split _ _) $$ HR
  icases H2 with ⟨HP, -⟩
  imod (Pipeline.fund_ghost (Pipeline.pin (pcfgs (F := F)) adm) EP cellOf_inj_pin) $$ HP with ⟨Hg, Ht⟩
  imodintro
  isplitl [HH]; · iexact HH
  isplitl [Hg Ht]
  · unfold G; rw [bigSep_sep']
    isplitl [Hg] <;> iassumption
  · rw [show (fun thr : Thread nD τ => bigSep Finset.univ fun q : Fin 1 => (P m).x q thr) = fun _ => (iprop(emp) : sProp 𝕄) from
      funext fun _ => bigSep_emp' _, bigSep_emp']
    iempintro

abbrev v0Loc (d : Dev nD) : Loc nD τ sig := (SparseCore.T d).loc main_v0
abbrev v20Loc (d : Dev nD) : Loc nD τ sig := (SparseCore.T d).loc main_v2_0
abbrev v21Loc (d : Dev nD) : Loc nD τ sig := (SparseCore.T d).loc main_v2_1
abbrev v3Loc (d : Dev nD) : Loc nD τ sig := (SparseCore.T d).loc main_v3
abbrev v4Loc (d : Dev nD) : Loc nD τ sig := (SparseCore.T d).loc main_v4

theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (v0Loc d ↦{fullShare} W main_v0)
      ∗ (oFLoc d ↦{fullShare} W main_v1_0) ∗ (oALoc d ↦{fullShare} W main_v1_1) ∗ (v20Loc d ↦{fullShare} W main_v2_0) ∗ (v21Loc d ↦{fullShare} W main_v2_1)
      ∗ (v3Loc d ↦{fullShare} W main_v3) ∗ (v4Loc d ↦{fullShare} W main_v4)) := by
  unfold unscopedBufs
  rw [show (Finset.univ.filter fun b : Ref sig .tc => ¬ b.isScoped) = {main_arg0, main_arg1, main_v0, main_v1_0, main_v1_1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

def mkV (d : Dev nD) (g0 : Buf (Elt F) (v0Loc d)) (g10 : Buf (Elt F) (oFLoc d)) (g11 : Buf (Elt F) (oALoc d)) :
    (b : Ref sig .tc) → Buf (Elt F) ((d.tc : Thread nD τ).loc b) :=
  Function.update (Function.update (Function.update (fun b => m ((d.tc : Thread nD τ).loc b)) main_v0 g0) main_v1_0 g10) main_v1_1 g11

theorem mkV_v11 (d : Dev nD) (g0 : Buf (Elt F) (v0Loc d)) (g10 : Buf (Elt F) (oFLoc d)) (g11 : Buf (Elt F) (oALoc d)) :
    mkV m d g0 g10 g11 main_v1_1 = g11 := Function.update_self _ _ _
theorem mkV_v10 (d : Dev nD) (g0 : Buf (Elt F) (v0Loc d)) (g10 : Buf (Elt F) (oFLoc d)) (g11 : Buf (Elt F) (oALoc d)) :
    mkV m d g0 g10 g11 main_v1_0 = g10 := (Function.update_of_ne (show (main_v1_0 : Ref sig .tc) ≠ main_v1_1 by decide) _ _).trans (Function.update_self _ _ _)
theorem mkV_v0 (d : Dev nD) (g0 : Buf (Elt F) (v0Loc d)) (g10 : Buf (Elt F) (oFLoc d)) (g11 : Buf (Elt F) (oALoc d)) :
    mkV m d g0 g10 g11 main_v0 = g0 :=
  (Function.update_of_ne (show (main_v0 : Ref sig .tc) ≠ main_v1_1 by decide) _ _).trans
    ((Function.update_of_ne (show (main_v0 : Ref sig .tc) ≠ main_v1_0 by decide) _ _).trans (Function.update_self _ _ _))
theorem mkV_other (d : Dev nD) (g0 : Buf (Elt F) (v0Loc d)) (g10 : Buf (Elt F) (oFLoc d)) (g11 : Buf (Elt F) (oALoc d))
    (b : Ref sig .tc) (h0 : b ≠ main_v0) (h1 : b ≠ main_v1_0) (h2 : b ≠ main_v1_1) : mkV m d g0 g10 g11 b = m ((d.tc : Thread nD τ).loc b) :=
  (Function.update_of_ne h2 _ _).trans ((Function.update_of_ne h1 _ _).trans (Function.update_of_ne h0 _ _))

theorem mkV_chain (d : Dev nD) (g0 : Buf (Elt F) (v0Loc d)) (g10 : Buf (Elt F) (oFLoc d)) (g11 : Buf (Elt F) (oALoc d)) :
    (unscopedBufs d (mkV m d g0 g10 g11) : sProp 𝕄) = iprop((xLoc d ↦{fullShare} m (xLoc d)) ∗ (lLoc d ↦{fullShare} m (lLoc d)) ∗ (v0Loc d ↦{fullShare} g0)
      ∗ (oFLoc d ↦{fullShare} g10) ∗ (oALoc d ↦{fullShare} g11) ∗ (v20Loc d ↦{fullShare} m (v20Loc d)) ∗ (v21Loc d ↦{fullShare} m (v21Loc d))
      ∗ (v3Loc d ↦{fullShare} m (v3Loc d)) ∗ (v4Loc d ↦{fullShare} m (v4Loc d))) := by
  rw [unscopedBufs_eq, mkV_v0, mkV_v10, mkV_v11, mkV_other m d g0 g10 g11 main_arg0 (by decide) (by decide) (by decide),
    mkV_other m d g0 g10 g11 main_arg1 (by decide) (by decide) (by decide), mkV_other m d g0 g10 g11 main_v2_0 (by decide) (by decide) (by decide),
    mkV_other m d g0 g10 g11 main_v2_1 (by decide) (by decide) (by decide), mkV_other m d g0 g10 g11 main_v3 (by decide) (by decide) (by decide),
    mkV_other m d g0 g10 g11 main_v4 (by decide) (by decide) (by decide)]

theorem mkV_ok (d : Dev nD) (g0 : Buf (Elt F) (v0Loc d)) (g10 : Buf (Elt F) (oFLoc d)) (g11 : Buf (Elt F) (oALoc d)) :
    mkV m d g0 g10 g11 main_arg0 = m (xLoc d) ∧ mkV m d g0 g10 g11 main_arg1 = m (lLoc d) :=
  ⟨mkV_other m d g0 g10 g11 main_arg0 (by decide) (by decide) (by decide), mkV_other m d g0 g10 g11 main_arg1 (by decide) (by decide) (by decide)⟩

abbrev a1' : DevRef τ sig := Proc.devRef .tc (main_arg1 : Ref sig .tc)
abbrev v0' : DevRef τ sig := Proc.devRef .tc (main_v0 : Ref sig .tc)
abbrev v3' : DevRef τ sig := Proc.devRef .tc (main_v3 : Ref sig .tc)
abbrev v4' : DevRef τ sig := Proc.devRef .tc (main_v4 : Ref sig .tc)
abbrev opR1 : HloOp τ sig (Elt F) := StableHlo.reshape main_arg1 main_v0 rfl shapeCasts_S65536_S32x1x2048
abbrev opR2 : HloOp τ sig (Elt F) := StableHlo.reshape main_v3 main_v4 rfl shapeCasts_S1x1_S_
abbrev S1 : Finset (DevRef τ sig) := {a1', v0'}
abbrev S2 : Finset (DevRef τ sig) := {v3', v4'}

theorem hR1 : (opR1 (F := F)).bufs ⊆ S1 := show ({a1', v0'} : Finset (DevRef τ sig)) ⊆ S1 by decide
theorem hR2 : (opR2 (F := F)).bufs ⊆ S2 := show ({v3', v4'} : Finset (DevRef τ sig)) ⊆ S2 by decide

theorem held_S1 (d : Dev nD) (W : Valuation τ sig (Elt F)) :
    (held (T d) S1 W : sProp 𝕄) = iprop((lLoc d ↦{fullShare} W a1') ∗ (v0Loc d ↦{fullShare} W v0')) := by
  unfold held S1
  rw [SparseCore.bigSep_insert' (by decide), bigSep_singleton]
theorem held_S2 (d : Dev nD) (W : Valuation τ sig (Elt F)) :
    (held (T d) S2 W : sProp 𝕄) = iprop((v3Loc d ↦{fullShare} W v3') ∗ (v4Loc d ↦{fullShare} W v4')) := by
  unfold held S2
  rw [SparseCore.bigSep_insert' (by decide), bigSep_singleton]

def V0 (d : Dev nD) : Valuation τ sig (Elt F) := fun b => m (d, b)

theorem held_R1 (d : Dev nD) :
    (held (T d) S1 ((opR1 (F := F)).result (V0 m d)) : sProp 𝕄)
      = iprop((lLoc d ↦{fullShare} m (lLoc d)) ∗ (v0Loc d ↦{fullShare} (opR1 (F := F)).result (V0 m d) v0')) := by
  rw [held_S1, (opR1 (F := F)).result_of_not_mem (V0 m d) (b := a1') (show a1' ∉ ({v0'} : Finset (DevRef τ sig)) by decide)]
  rfl

def V2 (d : Dev nD) (g3 : Buf (Elt F) (v3Loc d)) (g4 : Buf (Elt F) (v4Loc d)) : Valuation τ sig (Elt F) :=
  Function.update (Function.update (V0 m d) v3' g3) v4' g4
theorem V2_v4 (d : Dev nD) (g3 : Buf (Elt F) (v3Loc d)) (g4 : Buf (Elt F) (v4Loc d)) : V2 m d g3 g4 v4' = g4 := Function.update_self _ _ _
theorem V2_v3 (d : Dev nD) (g3 : Buf (Elt F) (v3Loc d)) (g4 : Buf (Elt F) (v4Loc d)) : V2 m d g3 g4 v3' = g3 :=
  (Function.update_of_ne (show v3' ≠ v4' by decide) _ _).trans (Function.update_self _ _ _)

theorem tcSt_open (d : Dev nD) :
    (K (F := F)).tcSt EH d 1 ⊢ (iprop(tcOwes d ∗ (tcOwes d -∗ (K (F := F)).tcSt EH d 1)) : sProp 𝕄) := by
  unfold SparseCore.Cfg.tcSt tcOwes
  rw [(K (F := F)).Otc_end d (le_refl 1)]
  iintro ⟨⟨%W, %hW, HO⟩, Hrest⟩
  isplitl [HO]
  · iexists W; isplitr
    · ipureintro; intro p hp; have h := hW p (Finset.mem_coe.mp hp); rw [Nat.mul_one] at h; exact h
    · iexact HO
  · iintro ⟨%W', %hW', HO'⟩
    isplitl [HO']
    · iexists W'; isplitr
      · ipureintro; intro p hp; have h : (K (F := F)).lev ((d.tc : Thread nD τ), p.1) p.2 ≤ 8 := hW' (Finset.mem_coe.mpr hp); rw [Nat.mul_one]; exact h
      · iexact HO'
    · iexact Hrest

variable [FloatOps F]

theorem bigSep_fin_two' (Φ : Fin 2 → sProp 𝕄) : bigSep Finset.univ Φ = iprop(Φ 0 ∗ Φ 1) := BI.bigSep_fin_two Φ

theorem tcSt_open' (d : Dev nD) :
    (K (F := F)).tcSt EH d ((0 : Fin 1).val + 1) ⊢ (iprop(tcOwes d ∗ (tcOwes d -∗ (K (F := F)).tcSt EH d 1)) : sProp 𝕄) := tcSt_open d

def labels0 (d : Dev nD) : Buf (Elt F) (v0Loc d) := (opR1 (F := F)).result (V0 m d) v0'

theorem held_R1' (d : Dev nD) :
    (held (T d) S1 ((opR1 (F := F)).result (V0 m d)) : sProp 𝕄) = iprop((lLoc d ↦{fullShare} m (lLoc d)) ∗ (v0Loc d ↦{fullShare} labels0 m d)) :=
  held_R1 m d

theorem st0_eq (d : Dev nD) : (bigSep Finset.univ fun c : Fin ((K (F := F)).nCore 0) => (P m).st 0 d c) = iprop(coreGo m d 0 ∗ coreGo m d 1) := by
  show (bigSep (Finset.univ : Finset (Fin 2)) fun c => coreGo m d c) = _
  exact bigSep_fin_two' _
theorem dn0_eq (d : Dev nD) : (bigSep Finset.univ fun c : Fin ((K (F := F)).nCore 0) => (P m).dn 0 d c) = iprop(coreTd m d 0 ∗ coreTd m d 1) := by
  show (bigSep (Finset.univ : Finset (Fin 2)) fun c => coreTd m d c) = _
  exact bigSep_fin_two' _

abbrev FIN (d : Dev nD) : sProp 𝕄 := iprop((xLoc d ↦{fullShare} m (xLoc d)) ∗ (lLoc d ↦{fullShare} m (lLoc d)))

theorem hmain [∀ e, Nonempty (Elt F e)]
    (h1 : ∀ V : TcVal F, TcValOK m V → RegionStep (F := F) 0 (tcPre V) (tcState m))
    (h2 : ∀ V : TcVal F, TcValOK m V → RegionStep (F := F) 1 (tcPre V) (tcState m))
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq, bigSep_fin_two', bigSep_fin_two']
  simp only [main, wp_bind, wp_pure]
  iintro ⟨#Hctx, Hst, ⟨Hb, ⟨Hx, Hl, Hv0, HoF, HoA, Hv20, Hv21, Hv3, Hv4⟩, -, -⟩, ⟨Hg0, Hg1⟩, ⟨Ht0, Ht1⟩⟩

  iapply (wp_hlo_within 𝒱 (SparseCore.T d) none Set.univ (op := opR1) (S := S1) hR1 (V := V0 m d)) $$ [Hb Hl Hv0]
  · isplitl [Hb]; · iexact Hb
    rw [held_S1]
    isplitl [Hl]; · iexact Hl
    iexact Hv0
  iintro ⟨Hb, Hheld⟩
  ihave Hh := (Entails.of_eq (held_R1' m d)) $$ Hheld
  icases Hh with ⟨Hl, Hv0⟩
  rw [wp_ret]; imodintro

  ihave Hsplit := (split_all m d) $$ [Hx Hl HoF HoA]
  · isplitl [Hx]; · iexact Hx
    isplitl [Hl]; · iexact Hl
    isplitl [HoF] <;> iassumption
  icases Hsplit with ⟨⟨Hxr, Hlr⟩, Hgo0, Hgo1⟩
  iapply ((K (F := F)).wp_run (D (F := F)) 𝒱 (EH := EH) (P := P m) κ d 0)
  isplitr; · iexact Hctx
  isplitl [Hst]; · iexact Hst
  isplitl [Hgo0 Hgo1]
  · rw [st0_eq]
    isplitl [Hgo0] <;> iassumption
  iintro ⟨Hst, Hdn⟩
  ihave Hdn' := (Entails.of_eq (dn0_eq m d)) $$ Hdn
  icases Hdn' with ⟨Htd0, Htd1⟩
  ihave Hj := (join_all m d) $$ [Hxr Hlr Htd0 Htd1]
  · isplitl [Hxr Hlr]
    · isplitl [Hxr] <;> iassumption
    isplitl [Htd0] <;> iassumption
  icases Hj with ⟨Hx, Hl, ⟨%f10, HoF⟩, ⟨%f11, HoA⟩⟩
  ihave Ho := (tcSt_open' d) $$ Hst
  icases Ho with ⟨HO, Hclose⟩

  ihave Hlv := (SparseCore.Cfg.ctx_levAts κ) $$ Hctx
  iapply ((K (F := F)).wp_liftProg (D (F := F)) 𝒱 (SparseCore.T d) Set.univ none (Prog.lift (.customCall (Pipeline.entry 0) ())) _)
  iapply (h1 (extV m d (mkV m d (labels0 m d) f10 f11)) (extV_ok m d _ (mkV_ok m d (labels0 m d) f10 f11)) d Prog.ret _)
  isplitr [Hb Hx Hl Hv0 HoF HoA Hv20 Hv21 Hv3 Hv4 HO Hlv Hg0 Ht0]
  swap
  · isplitl [Hb]; · iexact Hb
    isplitl [Hx Hl Hv0 HoF HoA Hv20 Hv21 Hv3 Hv4 HO]
    · unfold tcPre; rw [extV_self, mkV_chain]
      isplitr [HO]
      swap; · iexact HO
      isplitl [Hx]; · iexact Hx
      isplitl [Hl]; · iexact Hl
      isplitl [Hv0]; · iexact Hv0
      isplitl [HoF]; · iexact HoF
      isplitl [HoA]; · iexact HoA
      isplitl [Hv20]; · iexact Hv20
      isplitl [Hv21]; · iexact Hv21
      isplitl [Hv3] <;> iassumption
    isplitl [Hlv]; · iexact Hlv
    isplitl [Hg0] <;> iassumption
  iintro ⟨Hb, Hstate⟩
  rw [wp_ret]; imodintro
  unfold tcState
  icases Hstate with ⟨%Vc, %hVc, HA, HO⟩

  ihave Hlv := (SparseCore.Cfg.ctx_levAts κ) $$ Hctx
  iapply ((K (F := F)).wp_liftProg (D (F := F)) 𝒱 (SparseCore.T d) Set.univ none (Prog.lift (.customCall (Pipeline.entry 1) ())) _)
  iapply (h2 (extV m d Vc) (extV_ok m d Vc hVc) d Prog.ret _)
  isplitr [Hb HA HO Hlv Hg1 Ht1]
  swap
  · isplitl [Hb]; · iexact Hb
    isplitl [HA HO]
    · unfold tcPre; rw [extV_self]
      isplitl [HA] <;> iassumption
    isplitl [Hlv]; · iexact Hlv
    isplitl [Hg1] <;> iassumption
  iintro ⟨Hb, Hstate⟩
  rw [wp_ret]; imodintro
  unfold tcState
  icases Hstate with ⟨%Vc', %hVc', HA, HO⟩
  ihave HA' := (Entails.of_eq (unscopedBufs_eq d Vc')) $$ HA
  rw [hVc'.1, hVc'.2]
  icases HA' with ⟨Hx, Hl, -, -, -, -, -, Hv3, Hv4⟩

  iapply (wp_hlo_within 𝒱 (SparseCore.T d) none Set.univ (op := opR2) (S := S2) hR2 (V := V2 m d (Vc' main_v3) (Vc' main_v4))) $$ [Hb Hv3 Hv4]
  · isplitl [Hb]; · iexact Hb
    rw [held_S2, V2_v3, V2_v4]
    isplitl [Hv3] <;> iassumption
  iintro ⟨Hb, -⟩
  rw [wp_ret]; imodintro; imodintro
  isplitl [Hclose HO]
  · iapply Hclose; iexact HO
  isplitl [Hx] <;> iassumption

def fq (d : Dev nD) (s' : Phys nD τ sig (Elt F)) : Prop := s'.mem.mem (xLoc d) = m (xLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Hx, Hl⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := lLoc d) (I := Finset.univ) (q := fullShare) (f := m (lLoc d))) $$ [HSI Hl]
  · isplitl [HSI] <;> iassumption
  icases H with %h2
  ipureintro; exact ⟨funext fun i => h1 i (Finset.mem_univ i), funext fun i => h2 i (Finset.mem_univ i)⟩

def QC : PUnit × MemSt nD τ sig (Elt F) → Prop := fun r => ∀ c : Dev nD, r.2.mem (xLoc c) = m (xLoc c) ∧ r.2.mem (lLoc c) = m (lLoc c)

theorem run_main [∀ e, Nonempty (Elt F e)]
    (hTile : (K (F := F)).TileObl (D (F := F)) 𝒱 (P m) v₀ 0)
    (h1 : ∀ V : TcVal F, TcValOK m V → RegionStep (F := F) 0 (tcPre V) (tcState m))
    (h2 : ∀ V : TcVal F, TcValOK m V → RegionStep (F := F) 1 (tcPre V) (tcState m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => SparseCore.Cfg.VecSplit.of_plain (vecSplit m))
    m ρ main (fun d => G (F := F) d) (FIN m) (u₀ (F := F)) (sep_elim_left.trans (hu₀ m)) (hmain m ρ h1 h2) (fq m) (hfin m) (QC m) (fun _ h => h)

end Cert.Proof.KB

end
-- ==== Proof.Tc1DatB.lean ====
import proofs.«216278_g4776003633407_cont_8to1_c_644_33_alg».proof.Proof.TcIfaceB

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (W : TcVal F)

abbrev rdAny (cfg : Pipeline.Cfg sig Λ₀) (c : Dev nD) : Pipeline.RDat τ (Elt F) (HIx 1) ℕ UU ℕ cfg c where
  A w := W c (Pipeline.arrRef cfg.spec w)
  after _ _ _ _ := True
  Φ _ := Pipeline.scopedRest (Ix := HIx 1) (Name := ℕ) (U := UU) (Lvl := ℕ) (Val := Elt F) cfg.spec c
  q _ := fullShare
  owed _ := 0
  recorded _ := BW F c

abbrev rd1 (c : Dev nD) : Pipeline.RDat τ (Elt F) (HIx 1) ℕ UU ℕ cfg1 c := rdAny W cfg1 c

abbrev rds1 : (p : Fin 2) → (c : Dev nD) → Pipeline.RDat τ (Elt F) (HIx 1) ℕ UU ℕ (Pipeline.pin (pcfgs (F := F)) adm p) c :=
  fun p c => rdAny W (Pipeline.pin (pcfgs (F := F)) adm p) c

theorem rd1_Phi (c : Dev nD) (t : Fin (cfg1.N + 1)) :
    (rd1 W c).Φ t = Pipeline.scopedRest (Ix := HIx 1) (Name := ℕ) (U := UU) (Lvl := ℕ) (Val := Elt F) spec1 c := rfl

theorem rdAny_share (cfg : Pipeline.Cfg sig Λ₀) (c : Dev nD) (w : Fin cfg.W) : (rdAny W cfg c).share w = fullShare := by
  unfold Pipeline.RDat.share; split <;> rfl

theorem rd1_share (c : Dev nD) (w : Fin cfg1.W) : (rd1 W c).share w = fullShare := rdAny_share W cfg1 c w

end Cert.Proof.KB

end
-- ==== Proof.Tc1B.lean ====
import proofs.«216278_g4776003633407_cont_8to1_c_644_33_alg».proof.Proof.Tc1DatB
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig (HIx 1) (Elt F) ℕ UU ℕ

abbrev c1a (i : grid1.Coords) : Prop := Scalar.cmpi .ne (Scalar.extui (Scalar.cmpi .eq (BitVec.ofNat 32 (i 0).val) 0#32)) 0#32 = 1#1
abbrev c1b (i : grid1.Coords) : Prop := Scalar.cmpi .ne (Scalar.extui (Scalar.cmpi .sgt (BitVec.ofNat 32 (i 0).val) 0#32)) 0#32 = 1#1
abbrev c1c (i : grid1.Coords) : Prop := k1_cond3 i = 1#1

set_option maxHeartbeats 4000000 in

theorem tc1_body_any (c : Dev nD) (i : grid1.Coords)
    (arg1 : Memref sig .tc .vmem S1x1x2048 .i32) (harg1 : arg1.IsWhole) (arg2 : Memref sig .tc .vmem S2048x256 .f32) (harg2 : arg2.IsWhole)
    (arg3 : Memref sig .tc .vmem S16x256 .f32) (harg3 : arg3.IsWhole) (arg4 : Memref sig .tc .vmem S16x128 .f32) (harg4 : arg4.IsWhole)
    (arg5 : Memref sig .tc .vmem S16x256 .f32) (harg5 : arg5.IsWhole) (arg6 : Memref sig .tc .vmem S16x128 .f32) (harg6 : arg6.IsWhole)
    (x1 : Vec F S1x1x2048 .i32) (x2 : Vec F S2048x256 .f32) (x3 : Vec F S16x256 .f32) (x4 : Vec F S16x128 .f32)
    (x5 : Vec F S16x256 .f32) (x6 : Vec F S16x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2
            ∗ (∃ f, arg3.view.loc (c : Thread nD τ) ↦[arg3.view.set]{fullShare} f) ∗ (∃ f, arg4.view.loc (c : Thread nD τ) ↦[arg4.view.set]{fullShare} f)
            ∗ (∃ f, arg5.view.loc (c : Thread nD τ) ↦[arg5.view.set]{fullShare} f) ∗ (∃ f, arg6.view.loc (c : Thread nD τ) ↦[arg6.view.set]{fullShare} f)) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  by_cases h1 : c1a i <;> by_cases h2 : c1b i <;> by_cases h3 : c1c i
  all_goals
    sl_exec (disch := first | sl_exact h1 | sl_exact h2 | sl_exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; iexact H4
    isplitl [H5]
    · iexists _; iexact H5
    iexists _; iexact H6

def otherScoped (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f))

theorem scopedRest1_owns (c : Dev nD) :
    (Pipeline.scopedRest (Ix := HIx 1) (Name := ℕ) (U := UU) (Lvl := ℕ) (Val := Elt F) spec1 c : sProp 𝕄)
      = iprop((∃ d, owns (c : Thread nD τ) (Memref.whole cc1_scratch0) fullShare d) ∗ (∃ d, owns (c : Thread nD τ) (Memref.whole cc1_scratch1) fullShare d)
          ∗ otherScoped c) := by
  rw [scopedRest1_eq]; unfold otherScoped; simp only [owns_whole]

variable (W : TcVal F)

def bodyPre1 (c : Dev nD) (t : Fin cfg1.N) (Y : (w : Fin cfg1.W) → (cfg1.win w).block.Idx → Elt F (cfg1.win w).elt) : sProp 𝕄 :=
  iprop((rd1 W c).Φ t.castSucc ∗ (rd1 W c).owesAt ι₀ t.castSucc
    ∗ owns (c : Thread nD τ) ((cfg1.win 0).stage (cfg1.slots t 0)) fullShare (Y 0)
    ∗ owns (c : Thread nD τ) ((cfg1.win 1).stage (cfg1.slots t 1)) fullShare (Y 1)
    ∗ owns (c : Thread nD τ) ((cfg1.win 2).stage (cfg1.slots t 2)) fullShare (Y 2)
    ∗ owns (c : Thread nD τ) ((cfg1.win 3).stage (cfg1.slots t 3)) fullShare (Y 3))

def bodyPost1 (c : Dev nD) (t : Fin cfg1.N) (Y : (w : Fin cfg1.W) → (cfg1.win w).block.Idx → Elt F (cfg1.win w).elt) : sProp 𝕄 :=
  iprop((rd1 W c).Φ t.succ ∗ (rd1 W c).owesAt ι₀ t.succ
    ∗ (∃ X, ⌜(rd1 W c).after 0 t (Y 0) X⌝ ∗ owns (c : Thread nD τ) ((cfg1.win 0).stage (cfg1.slots t 0)) fullShare X)
    ∗ (∃ X, ⌜(rd1 W c).after 1 t (Y 1) X⌝ ∗ owns (c : Thread nD τ) ((cfg1.win 1).stage (cfg1.slots t 1)) fullShare X)
    ∗ (∃ X, ⌜(rd1 W c).after 2 t (Y 2) X⌝ ∗ owns (c : Thread nD τ) ((cfg1.win 2).stage (cfg1.slots t 2)) fullShare X)
    ∗ (∃ X, ⌜(rd1 W c).after 3 t (Y 3) X⌝ ∗ owns (c : Thread nD τ) ((cfg1.win 3).stage (cfg1.slots t 3)) fullShare X))

theorem sound_body1 (c : Dev nD) (t : Fin cfg1.N) (Y : (w : Fin cfg1.W) → (cfg1.win w).block.Idx → Elt F (cfg1.win w).elt) :
    bodyPre1 W c t Y ⊢ wp frame (wpE (defs₀ (F := F)) Variants.none c none) Set.univ (bodyAt1 t) (fun _ => bodyPost1 W c t Y) := by
  unfold bodyPre1 bodyPost1 bodyAt1
  rw [show (rd1 W c).owesAt ι₀ t.succ = (rd1 W c).owesAt ι₀ t.castSucc from rfl, rd1_Phi, scopedRest1_owns]
  iintro ⟨⟨⟨%s0, HS0⟩, ⟨%s1, HS1⟩, Hr⟩, HO, H0, H1, H2, H3⟩
  iapply (tc1_body_any c (grid1.coords t) _ _ _ _ _ _ _ _ _ _ _ _ (Y 0) (Y 1) (Y 2) (Y 3) s0 s1 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, ⟨%f2, H2⟩, ⟨%f3, H3⟩, ⟨%f4, HS0⟩, ⟨%f5, HS1⟩⟩
  isplitl [HS0 HS1 Hr]
  · isplitl [HS0]
    · iexists _; unfold owns; iexists _; isplitr; swap; · iexact HS0
      ipureintro; rfl
    isplitl [HS1]
    · iexists _; unfold owns; iexists _; isplitr; swap; · iexact HS1
      ipureintro; rfl
    iexact Hr
  isplitl [HO]; · iexact HO
  isplitl [H0]
  · iexists (Y 0); isplitr; · ipureintro; trivial
    iexact H0
  isplitl [H1]
  · iexists (Y 1); isplitr; · ipureintro; trivial
    iexact H1
  isplitl [H2]
  · iexists _; isplitr; swap
    · unfold owns; iexists _; isplitr; swap; · iexact H2
      ipureintro; rfl
    ipureintro; trivial
  iexists _; isplitr; swap
  · unfold owns; iexists _; isplitr; swap; · iexact H3
    ipureintro; rfl
  ipureintro; trivial

theorem body_obligation1 (c : Dev nD) : (rd1 W c).BodyObligation (defs₀ (F := F)) Variants.none ι₀ Set.univ := fun t Y _ => by
  rw [bigSep_W1, bigSep_W1]
  exact sound_body1 W c t Y

variable (m : (ℓ : Loc nD τ sig) → Buf (Elt F) ℓ)

theorem exists_exit {n : ℕ} (c : Dev nD) (r : Fin n → Ref sig .tc) (hinj : Function.Injective r)
    (Vc : (b : Ref sig .tc) → Buf (Elt F) ((c.tc : Thread nD τ).loc b)) (G : (w : Fin n) → Buf (Elt F) ((c.tc : Thread nD τ).loc (r w))) :
    ∃ V' : (b : Ref sig .tc) → Buf (Elt F) ((c.tc : Thread nD τ).loc b), (∀ w, V' (r w) = G w) ∧ ∀ b, b ∉ Finset.univ.image r → V' b = Vc b := by
  classical
  have key : ∀ (b : Ref sig .tc) (w w' : Fin n) (e : r w' = b) (e' : r w = b), e ▸ G w' = e' ▸ G w := fun b w w' e e' => by
    subst e'; have := hinj e; subst this; rfl
  refine ⟨fun b => if h : ∃ w, r w = b then h.choose_spec ▸ G h.choose else Vc b, fun w => ?_, fun b hb => ?_⟩
  · have h : ∃ w', r w' = r w := ⟨w, rfl⟩
    show (if h : ∃ w', r w' = r w then h.choose_spec ▸ G h.choose else Vc (r w)) = G w
    rw [dif_pos h]
    exact key (r w) w h.choose h.choose_spec rfl
  · show (if h : ∃ w, r w = b then h.choose_spec ▸ G h.choose else Vc b) = Vc b
    rw [dif_neg]
    rintro ⟨w, rfl⟩; exact hb (Finset.mem_image_of_mem _ (Finset.mem_univ _))

set_option backward.isDefEq.respectTransparency.types false in

theorem exit_arrays1 (hW : TcValOK m W) (c : Dev nD) :
    iprop((rd1 W c).arraysAt cfg1.N ∗ Pipeline.unscopedRest (Ix := HIx 1) (Name := ℕ) (U := UU) (Lvl := ℕ) spec1 c (W c))
      ⊢ (iprop(∃ Vc : (b : Ref sig .tc) → Buf (Elt F) ((c.tc : Thread nD τ).loc b),
          ⌜Vc main_arg0 = m (xLoc c) ∧ Vc main_arg1 = m (lLoc c)⌝ ∗ unscopedBufs c Vc) : sProp 𝕄) := by
  have step1 : ((rd1 W c).arraysAt cfg1.N : sProp 𝕄)
      ⊢ iprop(∃ G : (w : Fin cfg1.W) → Buf (Elt F) ((cfg1.win w).arr.view.loc (c.tc : Thread nD τ)),
          bigSep Finset.univ fun w => iprop(⌜(rd1 W c).ArrAt w cfg1.N (G w)⌝
            ∗ ((cfg1.win w).arr.view.loc (c.tc : Thread nD τ) ↦[(cfg1.win w).arr.view.set]{(rd1 W c).share w} G w))) := by
    unfold Pipeline.RDat.arraysAt
    exact bigSep_exists_pi Finset.univ _
  have step2 (G : (w : Fin cfg1.W) → Buf (Elt F) ((cfg1.win w).arr.view.loc (c.tc : Thread nD τ))) :
      (bigSep Finset.univ fun w => iprop(⌜(rd1 W c).ArrAt w cfg1.N (G w)⌝
            ∗ ((cfg1.win w).arr.view.loc (c.tc : Thread nD τ) ↦[(cfg1.win w).arr.view.set]{(rd1 W c).share w} G w)) : sProp 𝕄)
        = bigSep Finset.univ fun w => iprop(⌜(rd1 W c).ArrAt w cfg1.N (G w)⌝
            ∗ (((c.tc : Thread nD τ).loc (Pipeline.arrRef spec1 w)) ↦{fullShare} G w)) :=
    bigSep_congr fun w _ => by
      have hs : (cfg1.win w).arr.view.set = Finset.univ := (launch1.arr_whole w).set_eq_univ
      rw [hs, rd1_share]
  have step3 (V' : (b : Ref sig .tc) → Buf (Elt F) ((c.tc : Thread nD τ).loc b))
      (G : (w : Fin cfg1.W) → Buf (Elt F) ((cfg1.win w).arr.view.loc (c.tc : Thread nD τ)))
      (hV' : ∀ w, V' (Pipeline.arrRef spec1 w) = G w) (hrest : ∀ b, b ∉ Finset.univ.image (Pipeline.arrRef spec1) → V' b = W c b) :
      (unscopedBufs c V' : sProp 𝕄)
        = iprop(((((c.tc : Thread nD τ).loc (Pipeline.arrRef spec1 0)) ↦{fullShare} G 0) ∗ (((c.tc : Thread nD τ).loc (Pipeline.arrRef spec1 1)) ↦{fullShare} G 1)
            ∗ (((c.tc : Thread nD τ).loc (Pipeline.arrRef spec1 2)) ↦{fullShare} G 2) ∗ (((c.tc : Thread nD τ).loc (Pipeline.arrRef spec1 3)) ↦{fullShare} G 3))
          ∗ Pipeline.unscopedRest (Ix := HIx 1) (Name := ℕ) (U := UU) (Lvl := ℕ) spec1 c (W c)) := by
    rw [Pipeline.unscopedBufs_split (Pipeline.pin (pcfgs (F := F)) adm) 0 launch1.win.arr_unscoped launch1.win.arr_inj c V', bigSep_W1]
    rw [show Pipeline.unscopedRest (Ix := HIx 1) (Name := ℕ) (U := UU) (Lvl := ℕ) (Pipeline.pin (pcfgs (F := F)) adm 0).spec c V'
        = Pipeline.unscopedRest (Ix := HIx 1) (Name := ℕ) (U := UU) (Lvl := ℕ) spec1 c (W c) from by
      unfold Pipeline.unscopedRest
      exact bigSep_congr fun b hb => by rw [hrest b (Finset.mem_sdiff.mp hb).2]]
    rw [← hV' 0, ← hV' 1, ← hV' 2, ← hV' 3]
    rfl
  refine (sep_mono step1 .rfl).trans ?_
  iintro ⟨⟨%G, Hb⟩, Hr⟩
  obtain ⟨V', hV', hrest⟩ := exists_exit c (Pipeline.arrRef spec1) launch1.win.arr_inj (W c) G
  ihave Hc := (Entails.of_eq ((step2 G).trans (bigSep_W1 _))) $$ Hb
  icases Hc with ⟨⟨-, H0⟩, ⟨%h1, H1⟩, ⟨-, H2⟩, ⟨-, H3⟩⟩
  rw [(rd1 W c).ArrAt_in 1 rfl] at h1
  iexists V'
  isplitr
  · ipureintro
    exact ⟨(hV' 1).trans (h1.trans (hW c).1), (hrest main_arg1 (by decide)).trans (hW c).2⟩
  iapply (Entails.of_eq (step3 V' G hV' hrest).symm)
  isplitr [Hr]
  · isplitl [H0]; · iexact H0
    isplitl [H1]; · iexact H1
    isplitl [H2] <;> iassumption
  · iexact Hr

set_option maxHeartbeats 2000000 in
set_option backward.isDefEq.respectTransparency.types false in

def reg1 (hW : TcValOK m W) :
    Pipeline.RDat.RegionSeg (pcfgs (F := F)) adm (rds1 W) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation1 W c
  hwaits := Pipeline.RDat.hwaits_of_owed_zero _ _ _ _ _ _ 0 fun _ _ => rfl
  pre := tcPre W
  post := tcState m
  X _ := iprop(emp)
  Y _ := iprop(emp)
  Z c := Pipeline.unscopedRest (Ix := HIx 1) (Name := ℕ) (U := UU) (Lvl := ℕ) spec1 c (W c)
  hentry c := by
    unfold tcPre
    iintro ⟨⟨Hub, HO⟩, -, -⟩
    ihave H := (Pipeline.RDat.arrays_of_unscopedBufs (pcfgs (F := F)) adm (rds1 W) (p := 0) launch1.win launch1.arr_whole c
      (rd1_share W c) (W c) (fun _ => rfl)) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (tcOwes_in cfg1 c); iexact HO
    isplitr; · iempintro
    iexact Hr
  hin c := by
    iintro ⟨-, -, H⟩; iexact H
  hout c := by
    rw [Pipeline.ownSems0_none]
    iintro H
    isplitr; · iempintro
    isplitr; · iempintro
    iexact H
  hexit c := by
    unfold tcState
    iintro ⟨Ha, HO, -, HZ⟩
    ihave H := (exit_arrays1 W m hW c) $$ [Ha HZ]
    · isplitl [Ha] <;> iassumption
    icases H with ⟨%Vc, %hVc, Hub⟩
    imodintro
    iexists Vc
    isplitr; · ipureintro; exact hVc
    isplitl [Hub]; · iexact Hub
    iapply (tcOwes_out cfg1 c); iexact HO

set_option backward.isDefEq.respectTransparency.types false in

theorem tc1_step (V : TcVal F) (hV : TcValOK m V) : RegionStep (F := F) 0 (tcPre V) (tcState m) := fun c _ k Q =>
  Pipeline.RDat.RegionSeg.wp (pcfgs (F := F)) adm (rds1 V) ι₀ cellOf_inj_pin EP defs₀ 𝒱₀ (K (F := F)).L (K (F := F)).lev
    (reg1 V m hV) c none (fun _ h => nomatch h) k Q

end Cert.Proof.KB

end
-- ==== Proof.Tc2DatB.lean ====
import proofs.«216278_g4776003633407_cont_8to1_c_644_33_alg».proof.Proof.CommonB
import Idealize.ShloMosaic.Lib.Pipeline.FrameBody
import Idealize.ShloMosaic.Lib.Pipeline.Value
import Idealize.ShloMosaic.Lib.Tactic

set_option maxRecDepth 16384

noncomputable section

namespace Cert.Proof.KB.Tc2

open Cert.Kernel Cert.Kernel.Gen
open Cert.Proof.KB
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

def cnt1 (x1 : Vec F S32x16x32 .f32) : FVec F S16x32 .f32 :=
  k2_pay3 (View.ld x1 (Rect.unit (s := S32x16x32) ![0, 0, 0] S1x16x32.size inb_S32x16x32_S1x16x32_0_0_0))
    (View.ld x1 (Rect.unit (s := S32x16x32) ![1, 0, 0] S1x16x32.size inb_S32x16x32_S1x16x32_1_0_0))
    (View.ld x1 (Rect.unit (s := S32x16x32) ![2, 0, 0] S1x16x32.size inb_S32x16x32_S1x16x32_2_0_0))
    (View.ld x1 (Rect.unit (s := S32x16x32) ![3, 0, 0] S1x16x32.size inb_S32x16x32_S1x16x32_3_0_0))
    (View.ld x1 (Rect.unit (s := S32x16x32) ![4, 0, 0] S1x16x32.size inb_S32x16x32_S1x16x32_4_0_0))
    (View.ld x1 (Rect.unit (s := S32x16x32) ![5, 0, 0] S1x16x32.size inb_S32x16x32_S1x16x32_5_0_0))
    (View.ld x1 (Rect.unit (s := S32x16x32) ![6, 0, 0] S1x16x32.size inb_S32x16x32_S1x16x32_6_0_0))
    (View.ld x1 (Rect.unit (s := S32x16x32) ![7, 0, 0] S1x16x32.size inb_S32x16x32_S1x16x32_7_0_0))
    (View.ld x1 (Rect.unit (s := S32x16x32) ![8, 0, 0] S1x16x32.size inb_S32x16x32_S1x16x32_8_0_0))

def cnt2 (x1 : Vec F S32x16x32 .f32) : FVec F S16x32 .f32 :=
  k2_pay4 (cnt1 x1)
    (View.ld x1 (Rect.unit (s := S32x16x32) ![9, 0, 0] S1x16x32.size inb_S32x16x32_S1x16x32_9_0_0))
    (View.ld x1 (Rect.unit (s := S32x16x32) ![10, 0, 0] S1x16x32.size inb_S32x16x32_S1x16x32_10_0_0))
    (View.ld x1 (Rect.unit (s := S32x16x32) ![11, 0, 0] S1x16x32.size inb_S32x16x32_S1x16x32_11_0_0))
    (View.ld x1 (Rect.unit (s := S32x16x32) ![12, 0, 0] S1x16x32.size inb_S32x16x32_S1x16x32_12_0_0))
    (View.ld x1 (Rect.unit (s := S32x16x32) ![13, 0, 0] S1x16x32.size inb_S32x16x32_S1x16x32_13_0_0))
    (View.ld x1 (Rect.unit (s := S32x16x32) ![14, 0, 0] S1x16x32.size inb_S32x16x32_S1x16x32_14_0_0))
    (View.ld x1 (Rect.unit (s := S32x16x32) ![15, 0, 0] S1x16x32.size inb_S32x16x32_S1x16x32_15_0_0))
    (View.ld x1 (Rect.unit (s := S32x16x32) ![16, 0, 0] S1x16x32.size inb_S32x16x32_S1x16x32_16_0_0))
    (View.ld x1 (Rect.unit (s := S32x16x32) ![17, 0, 0] S1x16x32.size inb_S32x16x32_S1x16x32_17_0_0))
    (View.ld x1 (Rect.unit (s := S32x16x32) ![18, 0, 0] S1x16x32.size inb_S32x16x32_S1x16x32_18_0_0))

def cnt3 (x1 : Vec F S32x16x32 .f32) : FVec F S16x32 .f32 :=
  k2_pay5 (cnt2 x1)
    (View.ld x1 (Rect.unit (s := S32x16x32) ![19, 0, 0] S1x16x32.size inb_S32x16x32_S1x16x32_19_0_0))
    (View.ld x1 (Rect.unit (s := S32x16x32) ![20, 0, 0] S1x16x32.size inb_S32x16x32_S1x16x32_20_0_0))
    (View.ld x1 (Rect.unit (s := S32x16x32) ![21, 0, 0] S1x16x32.size inb_S32x16x32_S1x16x32_21_0_0))
    (View.ld x1 (Rect.unit (s := S32x16x32) ![22, 0, 0] S1x16x32.size inb_S32x16x32_S1x16x32_22_0_0))
    (View.ld x1 (Rect.unit (s := S32x16x32) ![23, 0, 0] S1x16x32.size inb_S32x16x32_S1x16x32_23_0_0))
    (View.ld x1 (Rect.unit (s := S32x16x32) ![24, 0, 0] S1x16x32.size inb_S32x16x32_S1x16x32_24_0_0))
    (View.ld x1 (Rect.unit (s := S32x16x32) ![25, 0, 0] S1x16x32.size inb_S32x16x32_S1x16x32_25_0_0))
    (View.ld x1 (Rect.unit (s := S32x16x32) ![26, 0, 0] S1x16x32.size inb_S32x16x32_S1x16x32_26_0_0))
    (View.ld x1 (Rect.unit (s := S32x16x32) ![27, 0, 0] S1x16x32.size inb_S32x16x32_S1x16x32_27_0_0))
    (View.ld x1 (Rect.unit (s := S32x16x32) ![28, 0, 0] S1x16x32.size inb_S32x16x32_S1x16x32_28_0_0))

def cnt (x1 : Vec F S32x16x32 .f32) : FVec F S16x32 .f32 :=
  k2_pay6 (cnt3 x1)
    (View.ld x1 (Rect.unit (s := S32x16x32) ![29, 0, 0] S1x16x32.size inb_S32x16x32_S1x16x32_29_0_0))
    (View.ld x1 (Rect.unit (s := S32x16x32) ![30, 0, 0] S1x16x32.size inb_S32x16x32_S1x16x32_30_0_0))
    (View.ld x1 (Rect.unit (s := S32x16x32) ![31, 0, 0] S1x16x32.size inb_S32x16x32_S1x16x32_31_0_0))

def fs1 (x0 : Vec F S32x16x256 .f32) (x2 : Vec F S16x256 .f32) : FVec F S16x256 .f32 :=
  k2_pay7 (k2_pay2 (View.ld x2 (Rect.unit (s := S16x256) ![0, 0] S16x256.size inb_S16x256_S16x256_0_0)))
    (View.ld x0 (Rect.unit (s := S32x16x256) ![0, 0, 0] S1x16x256.size inb_S32x16x256_S1x16x256_0_0_0))
    (View.ld x0 (Rect.unit (s := S32x16x256) ![1, 0, 0] S1x16x256.size inb_S32x16x256_S1x16x256_1_0_0))
    (View.ld x0 (Rect.unit (s := S32x16x256) ![2, 0, 0] S1x16x256.size inb_S32x16x256_S1x16x256_2_0_0))
    (View.ld x0 (Rect.unit (s := S32x16x256) ![3, 0, 0] S1x16x256.size inb_S32x16x256_S1x16x256_3_0_0))
    (View.ld x0 (Rect.unit (s := S32x16x256) ![4, 0, 0] S1x16x256.size inb_S32x16x256_S1x16x256_4_0_0))
    (View.ld x0 (Rect.unit (s := S32x16x256) ![5, 0, 0] S1x16x256.size inb_S32x16x256_S1x16x256_5_0_0))
    (View.ld x0 (Rect.unit (s := S32x16x256) ![6, 0, 0] S1x16x256.size inb_S32x16x256_S1x16x256_6_0_0))

def fs2 (x0 : Vec F S32x16x256 .f32) (x2 : Vec F S16x256 .f32) : FVec F S16x256 .f32 :=
  k2_pay8 (fs1 x0 x2)
    (View.ld x0 (Rect.unit (s := S32x16x256) ![7, 0, 0] S1x16x256.size inb_S32x16x256_S1x16x256_7_0_0))
    (View.ld x0 (Rect.unit (s := S32x16x256) ![8, 0, 0] S1x16x256.size inb_S32x16x256_S1x16x256_8_0_0))
    (View.ld x0 (Rect.unit (s := S32x16x256) ![9, 0, 0] S1x16x256.size inb_S32x16x256_S1x16x256_9_0_0))
    (View.ld x0 (Rect.unit (s := S32x16x256) ![10, 0, 0] S1x16x256.size inb_S32x16x256_S1x16x256_10_0_0))
    (View.ld x0 (Rect.unit (s := S32x16x256) ![11, 0, 0] S1x16x256.size inb_S32x16x256_S1x16x256_11_0_0))
    (View.ld x0 (Rect.unit (s := S32x16x256) ![12, 0, 0] S1x16x256.size inb_S32x16x256_S1x16x256_12_0_0))
    (View.ld x0 (Rect.unit (s := S32x16x256) ![13, 0, 0] S1x16x256.size inb_S32x16x256_S1x16x256_13_0_0))
    (View.ld x0 (Rect.unit (s := S32x16x256) ![14, 0, 0] S1x16x256.size inb_S32x16x256_S1x16x256_14_0_0))
    (View.ld x0 (Rect.unit (s := S32x16x256) ![15, 0, 0] S1x16x256.size inb_S32x16x256_S1x16x256_15_0_0))
    (View.ld x0 (Rect.unit (s := S32x16x256) ![16, 0, 0] S1x16x256.size inb_S32x16x256_S1x16x256_16_0_0))

def fs3 (x0 : Vec F S32x16x256 .f32) (x2 : Vec F S16x256 .f32) : FVec F S16x256 .f32 :=
  k2_pay9 (fs2 x0 x2)
    (View.ld x0 (Rect.unit (s := S32x16x256) ![17, 0, 0] S1x16x256.size inb_S32x16x256_S1x16x256_17_0_0))
    (View.ld x0 (Rect.unit (s := S32x16x256) ![18, 0, 0] S1x16x256.size inb_S32x16x256_S1x16x256_18_0_0))
    (View.ld x0 (Rect.unit (s := S32x16x256) ![19, 0, 0] S1x16x256.size inb_S32x16x256_S1x16x256_19_0_0))
    (View.ld x0 (Rect.unit (s := S32x16x256) ![20, 0, 0] S1x16x256.size inb_S32x16x256_S1x16x256_20_0_0))
    (View.ld x0 (Rect.unit (s := S32x16x256) ![21, 0, 0] S1x16x256.size inb_S32x16x256_S1x16x256_21_0_0))
    (View.ld x0 (Rect.unit (s := S32x16x256) ![22, 0, 0] S1x16x256.size inb_S32x16x256_S1x16x256_22_0_0))
    (View.ld x0 (Rect.unit (s := S32x16x256) ![23, 0, 0] S1x16x256.size inb_S32x16x256_S1x16x256_23_0_0))
    (View.ld x0 (Rect.unit (s := S32x16x256) ![24, 0, 0] S1x16x256.size inb_S32x16x256_S1x16x256_24_0_0))
    (View.ld x0 (Rect.unit (s := S32x16x256) ![25, 0, 0] S1x16x256.size inb_S32x16x256_S1x16x256_25_0_0))
    (View.ld x0 (Rect.unit (s := S32x16x256) ![26, 0, 0] S1x16x256.size inb_S32x16x256_S1x16x256_26_0_0))

def fs (x0 : Vec F S32x16x256 .f32) (x2 : Vec F S16x256 .f32) : FVec F S16x256 .f32 :=
  k2_pay10 (fs3 x0 x2)
    (View.ld x0 (Rect.unit (s := S32x16x256) ![27, 0, 0] S1x16x256.size inb_S32x16x256_S1x16x256_27_0_0))
    (View.ld x0 (Rect.unit (s := S32x16x256) ![28, 0, 0] S1x16x256.size inb_S32x16x256_S1x16x256_28_0_0))
    (View.ld x0 (Rect.unit (s := S32x16x256) ![29, 0, 0] S1x16x256.size inb_S32x16x256_S1x16x256_29_0_0))
    (View.ld x0 (Rect.unit (s := S32x16x256) ![30, 0, 0] S1x16x256.size inb_S32x16x256_S1x16x256_30_0_0))
    (View.ld x0 (Rect.unit (s := S32x16x256) ![31, 0, 0] S1x16x256.size inb_S32x16x256_S1x16x256_31_0_0))

def aux (x3 : Vec F S16x128 .f32) : FVec F S16x128 .f32 := k2_pay11 (View.ld x3 (Rect.unit (s := S16x128) ![0, 0] S16x128.size inb_S16x128_S16x128_0_0))

def lanes : IVec S16x128 32 := iota .tc S16x128 32 [1] iota_S16x128_d1_w32

def epiVal (x0 : Vec F S32x16x256 .f32) (x1 : Vec F S32x16x32 .f32) (x2 : Vec F S16x256 .f32) (x3 : Vec F S16x128 .f32) : FVec F S1x1 .f32 :=
  k2_pay1 (k2_pay17 (aux x3) lanes (k2_pay13 (cnt x1)))
    (k2_pay18 (fs x0 x2) (aux x3) lanes (k2_pay12 (cnt x1) (View.ld x3 (Rect.unit (s := S16x128) ![0, 0] S16x128.size inb_S16x128_S16x128_0_0))) (k2_pay13 (cnt x1)))
    (Scalar.ofBits .f32 0x00000000#32)

abbrev r2_out : Rect S1x1 := Rect.unit (s := S1x1) ![0, 0] S1x1.size inb_S1x1_S1x1_0_0

def out2_4 (x0 : Vec F S32x16x256 .f32) (x1 : Vec F S32x16x32 .f32) (x2 : Vec F S16x256 .f32) (x3 : Vec F S16x128 .f32) : Vec F S1x1 .f32 :=
  View.canon [⟨r2_out, epiVal x0 x1 x2 x3⟩]

theorem cover2_4 (p0 : Vec F S1x1 .f32) (y : S1x1.Idx) :
    ∃ pc ∈ ([⟨r2_out, p0⟩] : List (View.Piece (Elt F) S1x1 .f32)), y ∈ pc.1.set :=
  View.cover_of_tiled [⟨r2_out, p0⟩] S1x1.size (by rfl) y

theorem out2_4_eq (x0 : Vec F S32x16x256 .f32) (x1 : Vec F S32x16x32 .f32) (x2 : Vec F S16x256 .f32) (x3 : Vec F S16x128 .f32) :
    out2_4 x0 x1 x2 x3 = epiVal x0 x1 x2 x3 :=
  View.canon_unit_zero (by funext a; fin_cases a <;> rfl) _ _

set_option maxHeartbeats 2000000 in

theorem sound_kernel2 (c : Dev nD) (E : Set ℕ)
    (arg0 : Memref sig .tc .vmem S32x16x256 .f32) (harg0 : arg0.IsWhole) (arg1 : Memref sig .tc .vmem S32x16x32 .f32) (harg1 : arg1.IsWhole)
    (arg2 : Memref sig .tc .vmem S16x256 .f32) (harg2 : arg2.IsWhole) (arg3 : Memref sig .tc .vmem S16x128 .f32) (harg3 : arg3.IsWhole)
    (arg4 : Memref sig .tc .vmem S1x1 .f32) (harg4 : arg4.IsWhole)
    (x0 : Vec F S32x16x256 .f32) (x1 : Vec F S32x16x32 .f32) (x2 : Vec F S16x256 .f32) (x3 : Vec F S16x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__epi_body arg0 harg0 arg1 harg1 arg2 harg2 arg3 harg3 arg4 harg4) K := by
  simp only [cc2__epi_body_eq_skeleton]; unfold cc2__epi_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover2_4 _)).trans rfl

section Data

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

variable (B : Set (SemLoc sig × HIx 1))

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.scopedRest (Ix := HIx 1) (Name := ℕ) (U := UU) (Lvl := ℕ) (Val := Elt F) spec2 c
  q _ := fullShare
  owed _ := 0
  recorded _ := B

theorem A_eq2 (c : Dev nD) (w : Fin cfg2.W) : (dat2 V B c).A w = V c (Pipeline.arrRef spec2 w) := by
  dsimp only [dat2]

theorem after2_0 (c : Dev nD) (t : Fin cfg2.N) : (dat2 V B c).after 0 t = iblk2 V c 0 t := by dsimp only [dat2]
theorem after2_1 (c : Dev nD) (t : Fin cfg2.N) : (dat2 V B c).after 1 t = iblk2 V c 1 t := by dsimp only [dat2]
theorem after2_2 (c : Dev nD) (t : Fin cfg2.N) : (dat2 V B c).after 2 t = iblk2 V c 2 t := by dsimp only [dat2]
theorem after2_3 (c : Dev nD) (t : Fin cfg2.N) : (dat2 V B c).after 3 t = iblk2 V c 3 t := by dsimp only [dat2]
theorem after2_4 (c : Dev nD) (t : Fin cfg2.N) :
    (dat2 V B c).after 4 t = out2_4 (iblk2 V c 0 t) (iblk2 V c 1 t) (iblk2 V c 2 t) (iblk2 V c 3 t) := by dsimp only [dat2]

theorem before2_0 (c : Dev nD) (t : Fin cfg2.N) (d) : (dat2 V B c).before 0 t d = iblk2 V c 0 t :=
  before2_0_of V (dat2 V B c) (A_eq2 V B c 0) (after2_0 V B c) t d
theorem before2_1 (c : Dev nD) (t : Fin cfg2.N) (d) : (dat2 V B c).before 1 t d = iblk2 V c 1 t :=
  before2_1_of V (dat2 V B c) (A_eq2 V B c 1) (after2_1 V B c) t d
theorem before2_2 (c : Dev nD) (t : Fin cfg2.N) (d) : (dat2 V B c).before 2 t d = iblk2 V c 2 t :=
  before2_2_of V (dat2 V B c) (A_eq2 V B c 2) (after2_2 V B c) t d
theorem before2_3 (c : Dev nD) (t : Fin cfg2.N) (d) : (dat2 V B c).before 3 t d = iblk2 V c 3 t :=
  before2_3_of V (dat2 V B c) (A_eq2 V B c 3) (after2_3 V B c) t d

variable (ι : HIx 1)

def bodyPre2 (c : Dev nD) (t : Fin cfg2.N) : sProp 𝕄 :=
  iprop((dat2 V B c).Φ t.castSucc ∗ (dat2 V B c).owesAt ι t.castSucc
    ∗ (∃ d, owns (c : Thread nD τ) (st2_0 t) fullShare ((dat2 V B c).before 0 t d))
    ∗ (∃ d, owns (c : Thread nD τ) (st2_1 t) fullShare ((dat2 V B c).before 1 t d))
    ∗ (∃ d, owns (c : Thread nD τ) (st2_2 t) fullShare ((dat2 V B c).before 2 t d))
    ∗ (∃ d, owns (c : Thread nD τ) (st2_3 t) fullShare ((dat2 V B c).before 3 t d))
    ∗ (∃ d, owns (c : Thread nD τ) (st2_4 t) fullShare ((dat2 V B c).before 4 t d)))

def bodyPost2 (c : Dev nD) (t : Fin cfg2.N) : sProp 𝕄 :=
  iprop((dat2 V B c).Φ t.succ ∗ (dat2 V B c).owesAt ι t.succ
    ∗ owns (c : Thread nD τ) (st2_0 t) fullShare ((dat2 V B c).after 0 t)
    ∗ owns (c : Thread nD τ) (st2_1 t) fullShare ((dat2 V B c).after 1 t)
    ∗ owns (c : Thread nD τ) (st2_2 t) fullShare ((dat2 V B c).after 2 t)
    ∗ owns (c : Thread nD τ) (st2_3 t) fullShare ((dat2 V B c).after 3 t)
    ∗ owns (c : Thread nD τ) (st2_4 t) fullShare ((dat2 V B c).after 4 t))

theorem sound_body2 (c : Dev nD) (t : Fin cfg2.N) :
    bodyPre2 V B ι c t ⊢ wp frame (wpE (defs₀ (F := F)) Variants.none c none) Set.univ (bodyAt2 t) (fun _ => bodyPost2 V B ι c t) := by
  unfold bodyPre2 bodyPost2 bodyAt2
  simp only [before2_0, before2_1, before2_2, before2_3]
  rw [show (dat2 V B c).Φ t.succ = (dat2 V B c).Φ t.castSucc from rfl,
    show (dat2 V B c).owesAt ι t.succ = (dat2 V B c).owesAt ι t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V B c) (defs₀ (F := F)) Variants.none ι Set.univ := fun t => by
  rw [bigSep_W2, bigSep_W2]
  exact sound_body2 V B ι c t

end Data

end Cert.Proof.KB.Tc2

end
-- ==== Proof.Tc2B.lean ====
import proofs.«216278_g4776003633407_cont_8to1_c_644_33_alg».proof.Proof.TcIfaceB
import proofs.«216278_g4776003633407_cont_8to1_c_644_33_alg».proof.Proof.Tc2DatB
import Idealize.ShloMosaic.Lib.Pipeline.RegionsLoop

set_option maxRecDepth 16384

noncomputable section

namespace Cert.Proof.KB.Tc2

open Cert.Kernel Cert.Kernel.Gen
open Cert.Proof.KB
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : TcVal F)

def datOther (c : Dev nD) : Dat τ (Elt F) (HIx 1) ℕ UU ℕ cfg1 c where
  A w := V c (Pipeline.arrRef spec1 w)
  after w t := Dat.unnamed w t
  Φ _ := iprop(emp)
  q _ := fullShare
  owed _ := 0

def pdats2 : (p : Fin 2) → (c : Dev nD) → Dat τ (Elt F) (HIx 1) ℕ UU ℕ (Pipeline.pin (pcfgs (F := F)) adm p) c
  | ⟨0, _⟩ => fun c => datOther V c
  | ⟨1, _⟩ => fun c => dat2 V (BW F c) c

def V3 : TcVal F := fun c => Function.update (V c) main_v3 ((dat2 V (BW F c) c).arrAt 4 cfg2.N)

theorem V3_of_ne (c : Dev nD) (b : Ref sig .tc) (hb : b ≠ main_v3) : V3 V c b = V c b := by
  unfold V3; exact Function.update_of_ne hb _ _

theorem V3_out (c : Dev nD) : V3 V c main_v3 = (dat2 V (BW F c) c).arrAt 4 cfg2.N := by
  unfold V3; exact Function.update_self _ _ _

theorem V3_ok {m : (ℓ : Loc nD τ sig) → Buf (Elt F) ℓ} (hV : TcValOK m V) : TcValOK m (V3 V) := fun c =>
  ⟨(V3_of_ne V c main_arg0 (by decide)).trans (hV c).1, (V3_of_ne V c main_arg1 (by decide)).trans (hV c).2⟩

theorem hF2 (c : Dev nD) (w : Fin cfg2.W) : (pdats2 V 1 c).arrAt w cfg2.N = V3 V c (Pipeline.arrRef spec2 w) :=
  match w with
  | ⟨0, _⟩ => ((pdats2 V 1 c).arrAt_in 0 rfl _).trans (V3_of_ne V c main_v1_0 (by decide)).symm
  | ⟨1, _⟩ => ((pdats2 V 1 c).arrAt_in 1 rfl _).trans (V3_of_ne V c main_v1_1 (by decide)).symm
  | ⟨2, _⟩ => ((pdats2 V 1 c).arrAt_in 2 rfl _).trans (V3_of_ne V c main_v2_0 (by decide)).symm
  | ⟨3, _⟩ => ((pdats2 V 1 c).arrAt_in 3 rfl _).trans (V3_of_ne V c main_v2_1 (by decide)).symm
  | ⟨4, _⟩ => (V3_out V c).symm

theorem hrest2 (c : Dev nD) : ∀ b, b ∉ Finset.univ.image (Pipeline.arrRef spec2) → V3 V c b = V c b :=
  fun b hb => V3_of_ne V c b fun e => hb (Finset.mem_image.mpr ⟨4, Finset.mem_univ _, e.symm⟩)

set_option backward.isDefEq.respectTransparency.types false in

def reg2 : Pipeline.RegionSeg (pcfgs (F := F)) adm (pdats2 V) ι₀ defs₀ 𝒱₀ (Cert.Proof.KB.K (F := F)).L (Cert.Proof.KB.K (F := F)).lev 1 where
  win := launch2.win.to₀
  block_pos := launch2.block_pos
  stage_whole := launch2.stage_whole
  K := PEmpty
  osem k := k.elim
  ho := Pipeline.OwnSemFacts.none _
  hbody c := (body_obligation2 V (BW F c) ι₀ c).loose
  hwaits := Pipeline.hwaits_of_owed_zero _ _ _ _ _ _ 1 fun _ _ => rfl
  pre c := tcPre V c
  post c := tcPre (V3 V) c
  X c := iprop(emp)
  Y c := iprop(emp)
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V) launch2.win launch2.arr_whole c
      ((pdats2 V 1 c).share_full fun _ => rfl) (V c) fun _ => rfl
    unfold tcPre
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (tcOwes_in cfg2 c); iexact HO
    isplitr; · iempintro
    iexact Hrest
  hin c := by
    rw [show (pdats2 V 1 c).Φ 0 = Pipeline.scopedRest spec2 c from rfl]
    iintro ⟨-, -, Hr⟩
    iexact Hr
  hout c := by
    rw [Pipeline.ownSems0_none, show (pdats2 V 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats2 V) ((pdats2 V 1 c).share_full fun _ => rfl)
      (V c) (V3 V c) ((pdats2 V 1 c).arrAt · cfg2.N) (hF2 V c) (hrest2 V c)
    unfold tcPre
    iintro ⟨Ha, HO, -, Hrest⟩
    imodintro
    isplitl [Ha Hrest]
    · iapply hjoin; isplitl [Ha] <;> iassumption
    iapply (tcOwes_out cfg2 c); iexact HO

set_option backward.isDefEq.respectTransparency.types false in

theorem tc2_step_named : RegionStep (F := F) 1 (tcPre V) (tcPre (V3 V)) := fun c _ k Q =>
  (reg2 V).wp (pcfgs (F := F)) adm (pdats2 V) ι₀ cellOf_inj_pin EP defs₀ 𝒱₀ _ _ c none (fun _ h => absurd h (by simp)) k Q

theorem tc2_step {m : (ℓ : Loc nD τ sig) → Buf (Elt F) ℓ} (hV : TcValOK m V) : RegionStep (F := F) 1 (tcPre V) (tcState m) :=
  (tc2_step_named V).mono_post fun c => tcPre_state m (V3_ok V hV) c

end Cert.Proof.KB.Tc2

end
-- ==== Proof.FrameKIB.lean ====
import proofs.«216278_g4776003633407_cont_8to1_c_644_33_alg».proof.Proof.LaunchB
import proofs.«216278_g4776003633407_cont_8to1_c_644_33_alg».proof.Proof.Tc1B
import proofs.«216278_g4776003633407_cont_8to1_c_644_33_alg».proof.Proof.Tc2B
import proofs.«216278_g4776003633407_cont_8to1_c_644_33_alg».proof.Proof.PreFacts

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type}

def LabOK (m : (ℓ : Loc nD τ sig) → Buf (Elt F) ℓ) : Prop :=
  ∀ (c : Dev nD) (r : S65536.Idx), ((m ((c.tc : Thread nD τ).loc main_arg1) : IVec S65536 32) r).toNat ≤ 12

theorem frame_run [FloatOps F] [∀ e, Nonempty (Elt F e)] (m : (ℓ : Loc nD τ sig) → Buf (Elt F) ℓ) (ρ : Dev nD → PrngReg)
    (hTile : (K (F := F)).TileObl (D (F := F)) 𝒱 (P m) v₀ 0) :
    θ_run (Cert.Kernel.defs (F := F)) (Cert.Kernel.threads (F := F)) ⟨m, fun _ => 0, ρ⟩ (QC m) :=
  run_main m ρ hTile (fun V hV => tc1_step m V hV) (fun V hV => Tc2.tc2_step V hV)

theorem frame_pi (hTile : ∀ m : (ℓ : Loc nD τ sig) → Buf (Elt Bits) ℓ, LabOK m → (K (F := Bits)).TileObl (D (F := Bits)) 𝒱 (P m) v₀ 0) :
    Cert.frame_Kernel := fun m ρ hpre =>
  (θ_run Cert.Kernel.defs _ _).mono (fun _ h c => h c)
    (frame_run (F := Bits) m ρ (hTile m fun c r => Cert.Proof.PreFacts.labels_le _ _ (hpre c) r))

end Cert.Proof.KB

end
-- ==== Proof.LaunchV.lean ====
import proofs.«216278_g4776003633407_cont_8to1_c_644_33_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable (outF : (d : Dev nD) → Buf (Elt F) (oFLoc d)) (outA : (d : Dev nD) → Buf (Elt F) (oALoc d))

def tileTdV (d : Dev nD) (w : Fin 32) : sProp 𝕄 :=
  iprop((xLoc d ↦{qTile w} m (xLoc d)) ∗ (lLoc d ↦{qTile w} m (lLoc d))
    ∗ (oFLoc d ↦[blkFSet w]{fullShare} outF d) ∗ (oALoc d ↦[blkASet w]{fullShare} outA d))

instance tileTdV_storable (d : Dev nD) (w : Fin 32) : BI.Storable (upEmb : UEmb _ 𝕄) (tileTdV m outF outA d w) := by unfold tileTdV; infer_instance

def coreTdV (d : Dev nD) (c : Fin 2) : sProp 𝕄 := bigSep Finset.univ fun s : Fin 16 => tileTdV m outF outA d (wid c s)

def PV : (K (F := F)).Pay (nD := nD) (Val := Elt F) (Name := ℕ) (U := UU) where
  st := fun q d c => match q with | 0 => coreGo m d (Fin.cast nCore_zero c)
  dn := fun q d c => match q with | 0 => coreTdV m outF outA d (Fin.cast nCore_zero c)
  go := fun q d c i => match q with | 0 => tileGo m d (wid (Fin.cast nCore_zero c) (Fin.cast nSub_zero i))
  td := fun q d c i => match q with | 0 => tileTdV m outF outA d (wid (Fin.cast nCore_zero c) (Fin.cast nSub_zero i))
  x := fun _ _ => iprop(emp)

instance PV_storable : (PV (F := F) m outF outA).IsStorable where
  st q d c := match q with
    | 0 => (by unfold coreGo; infer_instance : BI.Storable (upEmb : UEmb _ 𝕄) (coreGo m d (Fin.cast nCore_zero c)))
  dn q d c := match q with
    | 0 => (by unfold coreTdV; infer_instance : BI.Storable (upEmb : UEmb _ 𝕄) (coreTdV m outF outA d (Fin.cast nCore_zero c)))
  go q d c i := match q with
    | 0 => (inferInstance : BI.Storable (upEmb : UEmb _ 𝕄) (tileGo m d (wid (Fin.cast nCore_zero c) (Fin.cast nSub_zero i))))
  td q d c i := match q with
    | 0 => (inferInstance : BI.Storable (upEmb : UEmb _ 𝕄) (tileTdV m outF outA d (wid (Fin.cast nCore_zero c) (Fin.cast nSub_zero i))))

theorem vecSplitV : (K (F := F)).VecSplit' (PV m outF outA) 0 := by
  intro d c
  show coreGo m d (Fin.cast nCore_zero c) ⊢ |={Set.univ}=> iprop(
      (bigSep Finset.univ fun i : Fin ((K (F := F)).nSub 0) => tileGo m d (wid (Fin.cast nCore_zero c) (Fin.cast nSub_zero i)))
      ∗ ((bigSep Finset.univ fun i : Fin ((K (F := F)).nSub 0) => tileTdV m outF outA d (wid (Fin.cast nCore_zero c) (Fin.cast nSub_zero i)))
          -∗ coreTdV m outF outA d (Fin.cast nCore_zero c)))
  rw [bigSep_tasks (F := F) (fun i => tileGo m d (wid (Fin.cast nCore_zero c) i)),
    bigSep_tasks (F := F) (fun i => tileTdV m outF outA d (wid (Fin.cast nCore_zero c) i))]
  unfold coreGo coreTdV
  iintro H; imodintro
  isplitl [H]; · iexact H
  iintro H; iexact H

theorem join_allV (d : Dev nD) :
    iprop(((xLoc d ↦{qRest} m (xLoc d)) ∗ (lLoc d ↦{qRest} m (lLoc d))) ∗ coreTdV m outF outA d 0 ∗ coreTdV m outF outA d 1)
      ⊢ (iprop((xLoc d ↦{fullShare} m (xLoc d)) ∗ (lLoc d ↦{fullShare} m (lLoc d)) ∗ (oFLoc d ↦{fullShare} outF d) ∗ (oALoc d ↦{fullShare} outA d)) : sProp 𝕄) := by
  unfold coreTdV
  rw [← workers_regroup (F := F) (fun w => tileTdV m outF outA d w)]
  unfold tileTdV
  rw [bigSep_sep', bigSep_sep', bigSep_sep', oF_blocks, oA_blocks]
  iintro ⟨⟨Hxr, Hlr⟩, Hxt, Hlt, HoF, HoA⟩
  isplitl [Hxr Hxt]
  · iapply (Transfers.pointsTo_toks_join fullShare 32); isplitl [Hxr] <;> iassumption
  isplitl [Hlr Hlt]
  · iapply (Transfers.pointsTo_toks_join fullShare 32); isplitl [Hlr] <;> iassumption
  isplitl [HoF] <;> iassumption

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PV m outF outA).x q thr) :=
  hu₀ m

variable [FloatOps F]

theorem stV0_eq (d : Dev nD) : (bigSep Finset.univ fun c : Fin ((K (F := F)).nCore 0) => (PV m outF outA).st 0 d c) = iprop(coreGo m d 0 ∗ coreGo m d 1) := by
  show (bigSep (Finset.univ : Finset (Fin 2)) fun c => coreGo m d c) = _
  exact bigSep_fin_two' _
theorem dnV0_eq (d : Dev nD) :
    (bigSep Finset.univ fun c : Fin ((K (F := F)).nCore 0) => (PV m outF outA).dn 0 d c) = iprop(coreTdV m outF outA d 0 ∗ coreTdV m outF outA d 1) := by
  show (bigSep (Finset.univ : Finset (Fin 2)) fun c => coreTdV m outF outA d c) = _
  exact bigSep_fin_two' _

variable (N1 N2 : TcVal F → TcVal F)

def Vin (d : Dev nD) : TcVal F := extV m d (mkV m d (labels0 m d) (outF d) (outA d))

def Vout (d : Dev nD) : (b : Ref sig .tc) → Buf (Elt F) ((d.tc : Thread nD τ).loc b) := N2 (N1 (Vin m outF outA d)) d

theorem Vin_ok (d : Dev nD) : TcValOK m (Vin m outF outA d) := extV_ok m d _ (mkV_ok m d (labels0 m d) (outF d) (outA d))

def resV (d : Dev nD) : Buf (Elt F) (v4Loc d) :=
  (opR2 (F := F)).result (V2 m d (Vout m outF outA N1 N2 d main_v3) (Vout m outF outA N1 N2 d main_v4)) v4'

abbrev FINV (d : Dev nD) : sProp 𝕄 :=
  iprop((xLoc d ↦{fullShare} m (xLoc d)) ∗ (lLoc d ↦{fullShare} m (lLoc d)) ∗ (v4Loc d ↦{fullShare} resV m outF outA N1 N2 d))

theorem hmainV
    (h1 : ∀ V : TcVal F, TcValOK m V → RegionStep (F := F) 0 (tcPre V) (tcPre (N1 V))) (hN1 : ∀ V : TcVal F, TcValOK m V → TcValOK m (N1 V))
    (h2 : ∀ V : TcVal F, TcValOK m V → RegionStep (F := F) 1 (tcPre V) (tcPre (N2 V))) (hN2 : ∀ V : TcVal F, TcValOK m V → TcValOK m (N2 V))
    (κ : GSem nD τ sig → ℕ) (d : Dev nD) :
    iprop((K (F := F)).ctx EH (PV m outF outA) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m outF outA N1 N2 d) := by
  unfold SparseCore.Cfg.tcRes G
  rw [unscopedBufs_eq, bigSep_fin_two', bigSep_fin_two']
  simp only [main, wp_bind, wp_pure]
  iintro ⟨#Hctx, Hst, ⟨Hb, ⟨Hx, Hl, Hv0, HoF, HoA, Hv20, Hv21, Hv3, Hv4⟩, -, -⟩, ⟨Hg0, Hg1⟩, ⟨Ht0, Ht1⟩⟩

  iapply (wp_hlo_within 𝒱 (SparseCore.T d) none Set.univ (op := opR1) (S := S1) hR1 (V := V0 m d)) $$ [Hb Hl Hv0]
  · isplitl [Hb]; · iexact Hb
    rw [held_S1]
    isplitl [Hl]; · iexact Hl
    iexact Hv0
  iintro ⟨Hb, Hheld⟩
  ihave Hh := (Entails.of_eq (held_R1' m d)) $$ Hheld
  icases Hh with ⟨Hl, Hv0⟩
  rw [wp_ret]; imodintro

  ihave Hsplit := (split_all m d) $$ [Hx Hl HoF HoA]
  · isplitl [Hx]; · iexact Hx
    isplitl [Hl]; · iexact Hl
    isplitl [HoF] <;> iassumption
  icases Hsplit with ⟨⟨Hxr, Hlr⟩, Hgo0, Hgo1⟩
  iapply ((K (F := F)).wp_run (D (F := F)) 𝒱 (EH := EH) (P := PV m outF outA) κ d 0)
  isplitr; · iexact Hctx
  isplitl [Hst]; · iexact Hst
  isplitl [Hgo0 Hgo1]
  · rw [stV0_eq]
    isplitl [Hgo0] <;> iassumption
  iintro ⟨Hst, Hdn⟩
  ihave Hdn' := (Entails.of_eq (dnV0_eq m outF outA d)) $$ Hdn
  icases Hdn' with ⟨Htd0, Htd1⟩
  ihave Hj := (join_allV m outF outA d) $$ [Hxr Hlr Htd0 Htd1]
  · isplitl [Hxr Hlr]
    · isplitl [Hxr] <;> iassumption
    isplitl [Htd0] <;> iassumption
  icases Hj with ⟨Hx, Hl, HoF, HoA⟩
  ihave Ho := (tcSt_open' d) $$ Hst
  icases Ho with ⟨HO, Hclose⟩

  ihave Hlv := (SparseCore.Cfg.ctx_levAts κ) $$ Hctx
  iapply ((K (F := F)).wp_liftProg (D (F := F)) 𝒱 (SparseCore.T d) Set.univ none (Prog.lift (.customCall (Pipeline.entry 0) ())) _)
  iapply (h1 (Vin m outF outA d) (Vin_ok m outF outA d) d Prog.ret _)
  isplitr [Hb Hx Hl Hv0 HoF HoA Hv20 Hv21 Hv3 Hv4 HO Hlv Hg0 Ht0]
  swap
  · isplitl [Hb]; · iexact Hb
    isplitl [Hx Hl Hv0 HoF HoA Hv20 Hv21 Hv3 Hv4 HO]
    · unfold tcPre Vin; rw [extV_self, mkV_chain]
      isplitr [HO]
      swap; · iexact HO
      isplitl [Hx]; · iexact Hx
      isplitl [Hl]; · iexact Hl
      isplitl [Hv0]; · iexact Hv0
      isplitl [HoF]; · iexact HoF
      isplitl [HoA]; · iexact HoA
      isplitl [Hv20]; · iexact Hv20
      isplitl [Hv21]; · iexact Hv21
      isplitl [Hv3] <;> iassumption
    isplitl [Hlv]; · iexact Hlv
    isplitl [Hg0] <;> iassumption
  iintro ⟨Hb, Hstate⟩
  rw [wp_ret]; imodintro

  ihave Hlv := (SparseCore.Cfg.ctx_levAts κ) $$ Hctx
  iapply ((K (F := F)).wp_liftProg (D (F := F)) 𝒱 (SparseCore.T d) Set.univ none (Prog.lift (.customCall (Pipeline.entry 1) ())) _)
  iapply (h2 (N1 (Vin m outF outA d)) (hN1 _ (Vin_ok m outF outA d)) d Prog.ret _)
  isplitr [Hb Hstate Hlv Hg1 Ht1]
  swap
  · isplitl [Hb]; · iexact Hb
    isplitl [Hstate]; · iexact Hstate
    isplitl [Hlv]; · iexact Hlv
    isplitl [Hg1] <;> iassumption
  iintro ⟨Hb, Hstate⟩
  rw [wp_ret]; imodintro
  unfold tcPre
  icases Hstate with ⟨HA, HO⟩
  ihave HA' := (Entails.of_eq (unscopedBufs_eq d (N2 (N1 (Vin m outF outA d)) d))) $$ HA
  rw [(hN2 _ (hN1 _ (Vin_ok m outF outA d)) d).1, (hN2 _ (hN1 _ (Vin_ok m outF outA d)) d).2]
  icases HA' with ⟨Hx, Hl, -, -, -, -, -, Hv3, Hv4⟩

  iapply (wp_hlo_within 𝒱 (SparseCore.T d) none Set.univ (op := opR2) (S := S2) hR2
      (V := V2 m d (Vout m outF outA N1 N2 d main_v3) (Vout m outF outA N1 N2 d main_v4))) $$ [Hb Hv3 Hv4]
  · isplitl [Hb]; · iexact Hb
    rw [held_S2, V2_v3, V2_v4]
    unfold Vout
    isplitl [Hv3] <;> iassumption
  iintro ⟨Hb, Hheld⟩
  ihave Hh := (Entails.of_eq (held_S2 (F := F) d _)) $$ Hheld
  icases Hh with ⟨-, Hv4⟩
  rw [wp_ret]; imodintro; imodintro
  isplitl [Hclose HO]
  · iapply Hclose; iexact HO
  isplitl [Hx]; · iexact Hx
  isplitl [Hl]; · iexact Hl
  iexact Hv4

def fqV (d : Dev nD) (s' : Phys nD τ sig (Elt F)) : Prop :=
  s'.mem.mem (v4Loc d) = resV m outF outA N1 N2 d ∧ s'.mem.mem (xLoc d) = m (xLoc d) ∧ s'.mem.mem (lLoc d) = m (lLoc d)

theorem hfinV (d : Dev nD) (s' : Phys nD τ sig (Elt F)) : iprop(FINV m outF outA N1 N2 d ∗ SI s') ⊢ (⌜fqV m outF outA N1 N2 d s'⌝ : sProp 𝕄) := by
  iintro ⟨⟨Hx, Hl, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := v4Loc d) (I := Finset.univ) (q := fullShare) (f := resV m outF outA N1 N2 d)) $$ [HSI Hv]
  · isplitl [HSI] <;> iassumption
  icases H with %h3
  ipureintro
  exact ⟨funext fun i => h3 i (Finset.mem_univ i), funext fun i => h1 i (Finset.mem_univ i), funext fun i => h2 i (Finset.mem_univ i)⟩

def QCV : PUnit × MemSt nD τ sig (Elt F) → Prop := fun r => ∀ c : Dev nD,
  r.2.mem (v4Loc c) = resV m outF outA N1 N2 c ∧ r.2.mem (xLoc c) = m (xLoc c) ∧ r.2.mem (lLoc c) = m (lLoc c)

theorem run_main_val [∀ e, Nonempty (Elt F e)]
    (hTile : (K (F := F)).TileObl (D (F := F)) 𝒱 (PV m outF outA) v₀ 0)
    (h1 : ∀ V : TcVal F, TcValOK m V → RegionStep (F := F) 0 (tcPre V) (tcPre (N1 V))) (hN1 : ∀ V : TcVal F, TcValOK m V → TcValOK m (N1 V))
    (h2 : ∀ V : TcVal F, TcValOK m V → RegionStep (F := F) 1 (tcPre V) (tcPre (N2 V))) (hN2 : ∀ V : TcVal F, TcValOK m V → TcValOK m (N2 V)) :
    θ_run (Cert.KernelIdeal.defs (F := F)) (Cert.KernelIdeal.threads (F := F)) ⟨m, fun _ => 0, ρ⟩ (QCV m outF outA N1 N2) :=
  SparseCore.Cfg.θ_run_sc (K := K (F := F)) (D := D (F := F)) (𝒱 := 𝒱) (EH := EH) (P := PV m outF outA) facts v₀
    (fun q hq => match q with | 0 => nomatch hq)
    (fun q _ => match q with | 0 => hTile)
    (fun q _ => match q with | 0 => SparseCore.Cfg.VecSplit.of_plain (vecSplitV m outF outA))
    m ρ main (fun d => G (F := F) d) (FINV m outF outA N1 N2) (u₀ (F := F)) (sep_elim_left.trans (hu₀V m outF outA))
    (hmainV m ρ outF outA N1 N2 h1 hN1 h2 hN2) (fqV m outF outA N1 N2) (hfinV m outF outA N1 N2) (QCV m outF outA N1 N2) (fun _ h => h)

end Cert.Proof.KI

end
-- ==== Proof.ScOwn.lean ====
import proofs.«216278_g4776003633407_cont_8to1_c_644_33_alg».proof.Proof.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

def scrRefs : Finset (Ref sig .scVector) :=
  {cc0_scratch0, cc0_scratch1, cc0_scratch2, cc0_scratch3, cc0_scratch4, cc0_scratch5, cc0_scratch6, cc0_scratch7, cc0_scratch8}

def devEmb (c : Fin τ.nSC) (i : Fin τ.nSub) : Ref sig .scVector ↪ DevRef τ sig := ⟨(Proc.scVector c i).devRef, Proc.devRef_injective _⟩

theorem scr_sub : scrRefs.map (devEmb c i) ⊆ ownRefs (sig := sig) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl | rfl <;> exact SparseCore.Cfg.mem_ownRefs_of_owner rfl

theorem ownBufs_V :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f)
          ∗ (∃ f, (V d c i).loc cc0_scratch6 ↦{fullShare} f) ∗ (∃ f, (V d c i).loc cc0_scratch7 ↦{fullShare} f)
          ∗ (∃ f, (V d c i).loc cc0_scratch8 ↦{fullShare} f))
          ∗ bigSep (ownRefs (τ := τ) (.scVector c i) \ scrRefs.map (devEmb c i)) fun b => iprop(∃ f, ((d, b) : Loc nD τ sig) ↦{fullShare} f)) := by
  unfold SparseCore.Cfg.ownBufs
  rw [bigSep_sdiff_split (scr_sub c i), bigSep_map]
  congr 1
  unfold scrRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

def scrSems : Finset (SemLoc sig) := {.dma 0, .dma 1, .dma 2, .dma 3, .dma 4, .dma 5}

def thrEmb (thr : Thread nD τ) : SemLoc sig ↪ GSem nD τ sig := ⟨fun sm => (thr, sm), fun _ _ e => (Prod.mk.inj e).2⟩

theorem sems_sub : scrSems.map (thrEmb (V d c i)) ⊆ ownCells (sig := sig) (V d c i) := by
  intro g hg
  obtain ⟨sm, hs, rfl⟩ := Finset.mem_map.mp hg
  simp only [scrSems, Finset.mem_insert, Finset.mem_singleton] at hs
  rcases hs with rfl | rfl | rfl | rfl | rfl | rfl
  · exact mem_ownCells.mpr ⟨rfl, by show (SemLoc.dma 0 : SemLoc sig).isScoped .scVector = true; decide⟩
  · exact mem_ownCells.mpr ⟨rfl, by show (SemLoc.dma 1 : SemLoc sig).isScoped .scVector = true; decide⟩
  · exact mem_ownCells.mpr ⟨rfl, by show (SemLoc.dma 2 : SemLoc sig).isScoped .scVector = true; decide⟩
  · exact mem_ownCells.mpr ⟨rfl, by show (SemLoc.dma 3 : SemLoc sig).isScoped .scVector = true; decide⟩
  · exact mem_ownCells.mpr ⟨rfl, by show (SemLoc.dma 4 : SemLoc sig).isScoped .scVector = true; decide⟩
  · exact mem_ownCells.mpr ⟨rfl, by show (SemLoc.dma 5 : SemLoc sig).isScoped .scVector = true; decide⟩

theorem ownSems0_V :
    (ownSems0 (V d c i) : sProp 𝕄)
      = iprop((semVal (V d c i, .dma 0) 0 ∗ semVal (V d c i, .dma 1) 0 ∗ semVal (V d c i, .dma 2) 0 ∗ semVal (V d c i, .dma 3) 0
          ∗ semVal (V d c i, .dma 4) 0 ∗ semVal (V d c i, .dma 5) 0)
          ∗ bigSep (ownCells (V d c i) \ scrSems.map (thrEmb (V d c i))) fun g => semVal g 0) := by
  unfold SparseCore.Cfg.ownSems0
  rw [bigSep_sdiff_split (sems_sub d c i), bigSep_map]
  congr 1
  unfold scrSems
  rw [SparseCore.bigSep_insert' (by decide), SparseCore.bigSep_insert' (by decide), SparseCore.bigSep_insert' (by decide),
    SparseCore.bigSep_insert' (by decide), SparseCore.bigSep_insert' (by decide), bigSep_singleton]
  rfl

end Cert.Proof.KI

end
-- ==== Proof.ScSlots.lean ====
import proofs.«216278_g4776003633407_cont_8to1_c_644_33_alg».proof.Proof.ScOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

abbrev fbufM : Memref sig .scVector .vmem S2x128x256 .f32 := Memref.whole cc0_scratch0
abbrev lbufM : Memref sig .scVector .vmem S2x128 .i32 := Memref.whole cc0_scratch1

theorem hdiv2F : 2 ∣ S2x128x256.size 0 := ⟨1, rfl⟩
theorem hdiv2L : 2 ∣ S2x128.size 0 := ⟨1, rfl⟩

abbrev fSlotR (p : Fin 2) : Rect S2x128x256 := Rect.part (s := S2x128x256) (a₀ := 0) hdiv2F p
abbrev lSlotR (p : Fin 2) : Rect S2x128 := Rect.part (s := S2x128) (a₀ := 0) hdiv2L p
abbrev fSlotSet (p : Fin 2) : Finset S2x128x256.Idx := ((fbufM).view.slice (fSlotR p)).set
abbrev lSlotSet (p : Fin 2) : Finset S2x128.Idx := ((lbufM).view.slice (lSlotR p)).set

theorem fSlotSet_eq (p : Fin 2) : fSlotSet p = (fSlotR p).set := by
  show ((View.whole (cc0_scratch0 : Ref sig .scVector)).slice (fSlotR p)).set = _
  rw [View.set_slice]; exact Finset.map_refl
theorem lSlotSet_eq (p : Fin 2) : lSlotSet p = (lSlotR p).set := by
  show ((View.whole (cc0_scratch1 : Ref sig .scVector)).slice (lSlotR p)).set = _
  rw [View.set_slice]; exact Finset.map_refl

theorem fSlots_disjoint : ∀ i ∈ (Finset.univ : Finset (Fin 2)), ∀ j ∈ (Finset.univ : Finset (Fin 2)), i ≠ j → Disjoint (fSlotSet i) (fSlotSet j) :=
  fun i _ j _ h => by rw [fSlotSet_eq, fSlotSet_eq]; exact Rect.part_disjoint hdiv2F h
theorem lSlots_disjoint : ∀ i ∈ (Finset.univ : Finset (Fin 2)), ∀ j ∈ (Finset.univ : Finset (Fin 2)), i ≠ j → Disjoint (lSlotSet i) (lSlotSet j) :=
  fun i _ j _ h => by rw [lSlotSet_eq, lSlotSet_eq]; exact Rect.part_disjoint hdiv2L h
theorem fSlots_cover : (Finset.univ : Finset (Fin 2)).biUnion fSlotSet = Finset.univ :=
  (Finset.biUnion_congr rfl fun i _ => fSlotSet_eq i).trans (Rect.biUnion_part hdiv2F)
theorem lSlots_cover : (Finset.univ : Finset (Fin 2)).biUnion lSlotSet = Finset.univ :=
  (Finset.biUnion_congr rfl fun i _ => lSlotSet_eq i).trans (Rect.biUnion_part hdiv2L)

theorem fbuf_slots (f : Buf (Elt F) ((fbufM).view.loc (V d c i))) :
    ((fbufM).view.loc (V d c i) ↦{fullShare} f : sProp 𝕄)
      = iprop(((fbufM).view.loc (V d c i) ↦[fSlotSet 0]{fullShare} f) ∗ ((fbufM).view.loc (V d c i) ↦[fSlotSet 1]{fullShare} f)) := by
  rw [show ((fbufM).view.loc (V d c i) ↦{fullShare} f : sProp 𝕄) = bigSep Finset.univ fun p : Fin 2 => (fbufM).view.loc (V d c i) ↦[fSlotSet p]{fullShare} f from by
    rw [← pointsTo_biUnion Finset.univ (ℓ := (fbufM).view.loc (V d c i)) fSlotSet fSlots_disjoint, fSlots_cover]; try rfl]
  rw [show (Finset.univ : Finset (Fin 2)) = {0, 1} by decide, SparseCore.bigSep_insert' (by decide), bigSep_singleton]

theorem lbuf_slots (f : Buf (Elt F) ((lbufM).view.loc (V d c i))) :
    ((lbufM).view.loc (V d c i) ↦{fullShare} f : sProp 𝕄)
      = iprop(((lbufM).view.loc (V d c i) ↦[lSlotSet 0]{fullShare} f) ∗ ((lbufM).view.loc (V d c i) ↦[lSlotSet 1]{fullShare} f)) := by
  rw [show ((lbufM).view.loc (V d c i) ↦{fullShare} f : sProp 𝕄) = bigSep Finset.univ fun p : Fin 2 => (lbufM).view.loc (V d c i) ↦[lSlotSet p]{fullShare} f from by
    rw [← pointsTo_biUnion Finset.univ (ℓ := (lbufM).view.loc (V d c i)) lSlotSet lSlots_disjoint, lSlots_cover]; try rfl]
  rw [show (Finset.univ : Finset (Fin 2)) = {0, 1} by decide, SparseCore.bigSep_insert' (by decide), bigSep_singleton]

abbrev fSlotM0 : Memref sig .scVector .vmem S128x256 .f32 :=
  ((fbufM).slice (Rect.unit (s := S2x128x256) ![0, 0, 0] S1x128x256.size inb_S2x128x256_S1x128x256_0_0_0) (fun _ => rfl)).squeeze S128x256 squeezes_S1x128x256_S128x256
abbrev fSlotM1 : Memref sig .scVector .vmem S128x256 .f32 :=
  ((fbufM).slice (Rect.unit (s := S2x128x256) ![1, 0, 0] S1x128x256.size inb_S2x128x256_S1x128x256_1_0_0) (fun _ => rfl)).squeeze S128x256 squeezes_S1x128x256_S128x256
abbrev lSlotM0 : Memref sig .scVector .vmem S128 .i32 :=
  ((lbufM).slice (Rect.unit (s := S2x128) ![0, 0] S1x128.size inb_S2x128_S1x128_0_0) (fun _ => rfl)).squeeze S128 squeezes_S1x128_S128
abbrev lSlotM1 : Memref sig .scVector .vmem S128 .i32 :=
  ((lbufM).slice (Rect.unit (s := S2x128) ![1, 0] S1x128.size inb_S2x128_S1x128_1_0) (fun _ => rfl)).squeeze S128 squeezes_S1x128_S128

theorem fRect0 : Rect.unit (s := S2x128x256) ![0, 0, 0] S1x128x256.size inb_S2x128x256_S1x128x256_0_0_0 = fSlotR 0 := by
  unfold fSlotR Rect.part Rect.block
  congr 1 <;> funext a <;> (match a with | 0 => simp [Shape.partIx, Shape.partSize] | 1 => simp [Shape.partIx, Shape.partSize] | 2 => simp [Shape.partIx, Shape.partSize])
theorem fRect1 : Rect.unit (s := S2x128x256) ![1, 0, 0] S1x128x256.size inb_S2x128x256_S1x128x256_1_0_0 = fSlotR 1 := by
  unfold fSlotR Rect.part Rect.block
  congr 1 <;> funext a <;> (match a with | 0 => simp [Shape.partIx, Shape.partSize] | 1 => simp [Shape.partIx, Shape.partSize] | 2 => simp [Shape.partIx, Shape.partSize])
theorem lRect0 : Rect.unit (s := S2x128) ![0, 0] S1x128.size inb_S2x128_S1x128_0_0 = lSlotR 0 := by
  unfold lSlotR Rect.part Rect.block
  congr 1 <;> funext a <;> (match a with | 0 => simp [Shape.partIx, Shape.partSize] | 1 => simp [Shape.partIx, Shape.partSize])
theorem lRect1 : Rect.unit (s := S2x128) ![1, 0] S1x128.size inb_S2x128_S1x128_1_0 = lSlotR 1 := by
  unfold lSlotR Rect.part Rect.block
  congr 1 <;> funext a <;> (match a with | 0 => simp [Shape.partIx, Shape.partSize] | 1 => simp [Shape.partIx, Shape.partSize])

theorem set_fSlotM0 : (fSlotM0).view.set = fSlotSet 0 := by
  show (((fbufM).view.slice (Rect.unit (s := S2x128x256) ![0, 0, 0] S1x128x256.size inb_S2x128x256_S1x128x256_0_0_0)).reshape S128x256 squeezes_S1x128x256_S128x256.numel_eq).set = _
  rw [View.set_reshape]; unfold fSlotSet; rw [View.set_slice, View.set_slice]; exact congrArg _ (congrArg (fun r : Rect S2x128x256 => r.set) fRect0)
theorem set_fSlotM1 : (fSlotM1).view.set = fSlotSet 1 := by
  show (((fbufM).view.slice (Rect.unit (s := S2x128x256) ![1, 0, 0] S1x128x256.size inb_S2x128x256_S1x128x256_1_0_0)).reshape S128x256 squeezes_S1x128x256_S128x256.numel_eq).set = _
  rw [View.set_reshape]; unfold fSlotSet; rw [View.set_slice, View.set_slice]; exact congrArg _ (congrArg (fun r : Rect S2x128x256 => r.set) fRect1)
theorem set_lSlotM0 : (lSlotM0).view.set = lSlotSet 0 := by
  show (((lbufM).view.slice (Rect.unit (s := S2x128) ![0, 0] S1x128.size inb_S2x128_S1x128_0_0)).reshape S128 squeezes_S1x128_S128.numel_eq).set = _
  rw [View.set_reshape]; unfold lSlotSet; rw [View.set_slice, View.set_slice]; exact congrArg _ (congrArg (fun r : Rect S2x128 => r.set) lRect0)
theorem set_lSlotM1 : (lSlotM1).view.set = lSlotSet 1 := by
  show (((lbufM).view.slice (Rect.unit (s := S2x128) ![1, 0] S1x128.size inb_S2x128_S1x128_1_0)).reshape S128 squeezes_S1x128_S128.numel_eq).set = _
  rw [View.set_reshape]; unfold lSlotSet; rw [View.set_slice, View.set_slice]; exact congrArg _ (congrArg (fun r : Rect S2x128 => r.set) lRect1)

theorem fSlots_union : fSlotSet 0 ∪ fSlotSet 1 = Finset.univ := by
  have hc := fSlots_cover
  rwa [show (Finset.univ : Finset (Fin 2)) = {0, 1} by decide, Finset.biUnion_insert, Finset.singleton_biUnion] at hc
theorem lSlots_union : lSlotSet 0 ∪ lSlotSet 1 = Finset.univ := by
  have hc := lSlots_cover
  rwa [show (Finset.univ : Finset (Fin 2)) = {0, 1} by decide, Finset.biUnion_insert, Finset.singleton_biUnion] at hc

theorem fSlot_compl0 : Finset.univ \ (fSlotM1).view.set = fSlotSet 0 := by
  rw [set_fSlotM1, ← fSlots_union]
  exact Finset.union_sdiff_cancel_right (fSlots_disjoint 0 (Finset.mem_univ _) 1 (Finset.mem_univ _) (by decide))
theorem fSlot_compl1 : Finset.univ \ (fSlotM0).view.set = fSlotSet 1 := by
  rw [set_fSlotM0, ← fSlots_union]
  exact Finset.union_sdiff_cancel_left (fSlots_disjoint 0 (Finset.mem_univ _) 1 (Finset.mem_univ _) (by decide))
theorem lSlot_compl0 : Finset.univ \ (lSlotM1).view.set = lSlotSet 0 := by
  rw [set_lSlotM1, ← lSlots_union]
  exact Finset.union_sdiff_cancel_right (lSlots_disjoint 0 (Finset.mem_univ _) 1 (Finset.mem_univ _) (by decide))
theorem lSlot_compl1 : Finset.univ \ (lSlotM0).view.set = lSlotSet 1 := by
  rw [set_lSlotM0, ← lSlots_union]
  exact Finset.union_sdiff_cancel_left (lSlots_disjoint 0 (Finset.mem_univ _) 1 (Finset.mem_univ _) (by decide))

theorem lslot0_to_rest (f : Buf (Elt F) ((lbufM).view.loc (V d c i))) :
    ((lSlotM0).view.loc (V d c i) ↦[(lSlotM0).view.set]{fullShare} f : sProp 𝕄) ⊢ ((lbufM).view.loc (V d c i) ↦[Finset.univ \ (lSlotM1).view.set]{fullShare} f) :=
  Entails.of_eq (by rw [set_lSlotM0, lSlot_compl0])
theorem lslot0_of_rest (f : Buf (Elt F) ((lbufM).view.loc (V d c i))) :
    ((lbufM).view.loc (V d c i) ↦[Finset.univ \ (lSlotM1).view.set]{fullShare} f : sProp 𝕄) ⊢ ((lSlotM0).view.loc (V d c i) ↦[(lSlotM0).view.set]{fullShare} f) :=
  Entails.of_eq (by rw [set_lSlotM0, lSlot_compl0])

theorem lslot1_to_rest (f : Buf (Elt F) ((lbufM).view.loc (V d c i))) :
    ((lSlotM1).view.loc (V d c i) ↦[(lSlotM1).view.set]{fullShare} f : sProp 𝕄) ⊢ ((lbufM).view.loc (V d c i) ↦[Finset.univ \ (lSlotM0).view.set]{fullShare} f) :=
  Entails.of_eq (by rw [set_lSlotM1, lSlot_compl1])
theorem lslot1_of_rest (f : Buf (Elt F) ((lbufM).view.loc (V d c i))) :
    ((lbufM).view.loc (V d c i) ↦[Finset.univ \ (lSlotM0).view.set]{fullShare} f : sProp 𝕄) ⊢ ((lSlotM1).view.loc (V d c i) ↦[(lSlotM1).view.set]{fullShare} f) :=
  Entails.of_eq (by rw [set_lSlotM1, lSlot_compl1])

theorem fslot0_to_rest (f : Buf (Elt F) ((fbufM).view.loc (V d c i))) :
    ((fSlotM0).view.loc (V d c i) ↦[(fSlotM0).view.set]{fullShare} f : sProp 𝕄) ⊢ ((fbufM).view.loc (V d c i) ↦[Finset.univ \ (fSlotM1).view.set]{fullShare} f) :=
  Entails.of_eq (by rw [set_fSlotM0, fSlot_compl0])
theorem fslot0_of_rest (f : Buf (Elt F) ((fbufM).view.loc (V d c i))) :
    ((fbufM).view.loc (V d c i) ↦[Finset.univ \ (fSlotM1).view.set]{fullShare} f : sProp 𝕄) ⊢ ((fSlotM0).view.loc (V d c i) ↦[(fSlotM0).view.set]{fullShare} f) :=
  Entails.of_eq (by rw [set_fSlotM0, fSlot_compl0])

theorem fslot1_to_rest (f : Buf (Elt F) ((fbufM).view.loc (V d c i))) :
    ((fSlotM1).view.loc (V d c i) ↦[(fSlotM1).view.set]{fullShare} f : sProp 𝕄) ⊢ ((fbufM).view.loc (V d c i) ↦[Finset.univ \ (fSlotM0).view.set]{fullShare} f) :=
  Entails.of_eq (by rw [set_fSlotM1, fSlot_compl1])
theorem fslot1_of_rest (f : Buf (Elt F) ((fbufM).view.loc (V d c i))) :
    ((fbufM).view.loc (V d c i) ↦[Finset.univ \ (fSlotM0).view.set]{fullShare} f : sProp 𝕄) ⊢ ((fSlotM1).view.loc (V d c i) ↦[(fSlotM1).view.set]{fullShare} f) :=
  Entails.of_eq (by rw [set_fSlotM1, fSlot_compl1])

theorem fslot0_to_rest_ex (f : Buf (Elt F) ((fbufM).view.loc (V d c i))) :
    ((fSlotM0).view.loc (V d c i) ↦[(fSlotM0).view.set]{fullShare} f : sProp 𝕄) ⊢ iprop(∃ f', (fbufM).view.loc (V d c i) ↦[Finset.univ \ (fSlotM1).view.set]{fullShare} f') := by
  iintro H
  iexists f
  iapply (fslot0_to_rest (F := F) d c i f)
  iexact H

theorem fslot1_to_rest_ex (f : Buf (Elt F) ((fbufM).view.loc (V d c i))) :
    ((fSlotM1).view.loc (V d c i) ↦[(fSlotM1).view.set]{fullShare} f : sProp 𝕄) ⊢ iprop(∃ f', (fbufM).view.loc (V d c i) ↦[Finset.univ \ (fSlotM0).view.set]{fullShare} f') := by
  iintro H
  iexists f
  iapply (fslot1_to_rest (F := F) d c i f)
  iexact H

end Cert.Proof.KI

end
-- ==== Proof.ScOut.lean ====
import proofs.«216278_g4776003633407_cont_8to1_c_644_33_alg».proof.Proof.ScSlots

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

def widL (L : grid0.Coords) : Fin 32 := ⟨(L 1).val * 2 + (L 0).val, by
  have h0 : (L 0).val < 2 := (L 0).isLt
  have h1 : (L 1).val < 16 := (L 1).isLt
  omega⟩

abbrev outFM (L : grid0.Coords) : Memref sig .scVector .hbm S16x256 .f32 :=
  ((Memref.whole main_v1_0_scv : Memref sig .scVector .hbm S32x16x256 .f32).slice (Rect.unit (s := S32x16x256) (k0_off121 L) S1x16x256.size (k0_off121_inb L)) (fun _ => rfl)).squeeze S16x256 squeezes_S1x16x256_S16x256
abbrev outAM (L : grid0.Coords) : Memref sig .scVector .hbm S16x32 .f32 :=
  ((Memref.whole main_v1_1_scv : Memref sig .scVector .hbm S32x16x32 .f32).slice (Rect.unit (s := S32x16x32) (k0_off122 L) S1x16x32.size (k0_off122_inb L)) (fun _ => rfl)).squeeze S16x32 squeezes_S1x16x32_S16x32

theorem outF_rect : Rect.unit (s := S32x16x256) (k0_off121 L) S1x16x256.size (k0_off121_inb L) = blkF (widL L) := by
  unfold blkF Rect.part Rect.block
  congr 1 <;> funext a
  · rw [k0_off121_eq]
    match a with
    | 0 => simp [Shape.partIx, Shape.partSize, widL]; omega
    | 1 => simp [Shape.partIx, Shape.partSize]
    | 2 => simp [Shape.partIx, Shape.partSize]
  · match a with
    | 0 => simp [Shape.partSize]
    | 1 => simp [Shape.partSize]
    | 2 => simp [Shape.partSize]
theorem outA_rect : Rect.unit (s := S32x16x32) (k0_off122 L) S1x16x32.size (k0_off122_inb L) = blkA (widL L) := by
  unfold blkA Rect.part Rect.block
  congr 1 <;> funext a
  · rw [k0_off122_eq]
    match a with
    | 0 => simp [Shape.partIx, Shape.partSize, widL]; omega
    | 1 => simp [Shape.partIx, Shape.partSize]
    | 2 => simp [Shape.partIx, Shape.partSize]
  · match a with
    | 0 => simp [Shape.partSize]
    | 1 => simp [Shape.partSize]
    | 2 => simp [Shape.partSize]

theorem set_outFM : (outFM L).view.set = blkFSet (widL L) := by
  show (((Memref.whole main_v1_0_scv : Memref sig .scVector .hbm S32x16x256 .f32).view.slice (Rect.unit (s := S32x16x256) (k0_off121 L) S1x16x256.size (k0_off121_inb L))).reshape S16x256 squeezes_S1x16x256_S16x256.numel_eq).set = _
  rw [View.set_reshape]; unfold blkFSet; rw [View.set_slice, View.set_slice]; exact congrArg _ (congrArg (fun r : Rect S32x16x256 => r.set) (outF_rect L))
theorem set_outAM : (outAM L).view.set = blkASet (widL L) := by
  show (((Memref.whole main_v1_1_scv : Memref sig .scVector .hbm S32x16x32 .f32).view.slice (Rect.unit (s := S32x16x32) (k0_off122 L) S1x16x32.size (k0_off122_inb L))).reshape S16x32 squeezes_S1x16x32_S16x32.numel_eq).set = _
  rw [View.set_reshape]; unfold blkASet; rw [View.set_slice, View.set_slice]; exact congrArg _ (congrArg (fun r : Rect S32x16x32 => r.set) (outA_rect L))

end Cert.Proof.KI

end
-- ==== Proof.ScTile.lean ====
import proofs.«216278_g4776003633407_cont_8to1_c_644_33_alg».proof.Proof.Launch
import proofs.«216278_g4776003633407_cont_8to1_c_644_33_alg».proof.Proof.ScOut

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

abbrev bodyAt (L : grid0.Coords) :=
  cc0__sc_body (F := F) L (Memref.whole main_arg0_scv) (Memref.isWhole_whole _) (Memref.whole main_arg1_scv) (Memref.isWhole_whole _)
    (Memref.whole main_v1_0_scv) (Memref.isWhole_whole _) (Memref.whole main_v1_1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scoped0 cc0_scoped1

def BodyObl : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d (widL L) ∗ scopedBufs (V d (cV L) (jV L)) ∗ scopedSems0 (V d (cV L) (jV L))
        ∗ owes (V d (cV L) (jV L)) O W)
      ⊢ wp frame (wpE (defs₀ (F := F)) 𝒱₀ (V d (cV L) (jV L)) none) Set.univ (bodyAt (F := F) L)
          fun _ => iprop(tileTd m d (widL L) ∗ scopedBufs (V d (cV L) (jV L)) ∗ scopedSems0 (V d (cV L) (jV L))
            ∗ ∃ W', ⌜∀ p ∈ W', p ∈ W ∨ p.2 = none⌝ ∗ owes (V d (cV L) (jV L)) O W')

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : BodyObl (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KI

end
-- ==== Proof.Tc1Val.lean ====
import proofs.«216278_g4776003633407_cont_8to1_c_644_33_alg».proof.Proof.Tc1
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window cellOf)

variable {F : FTy → Type} [FloatOps F]

local notation "𝕄" => MT nD τ sig (HIx 1) (Elt F) ℕ UU ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_whole_last {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

set_option maxHeartbeats 4000000 in
/-- First point: the accumulators are set; later points: they are added to; last point: the results are the accumulators. -/
theorem tc1_body_V (c : Dev nD) (i : grid1.Coords)
    (arg1 : Memref sig .tc .vmem S1x1x2048 .i32) (harg1 : arg1.IsWhole) (arg2 : Memref sig .tc .vmem S2048x256 .f32) (harg2 : arg2.IsWhole)
    (arg3 : Memref sig .tc .vmem S16x256 .f32) (harg3 : arg3.IsWhole) (arg4 : Memref sig .tc .vmem S16x128 .f32) (harg4 : arg4.IsWhole)
    (arg5 : Memref sig .tc .vmem S16x256 .f32) (harg5 : arg5.IsWhole) (arg6 : Memref sig .tc .vmem S16x128 .f32) (harg6 : arg6.IsWhole)
    (x1 : Vec F S1x1x2048 .i32) (x2 : Vec F S2048x256 .f32) (x3 : Vec F S16x256 .f32) (x4 : Vec F S16x128 .f32)
    (x5 : Vec F S16x256 .f32) (x6 : Vec F S16x128 .f32) (z3 z5 : Vec F S16x256 .f32) (z4 z6 : Vec F S16x128 .f32)
    (hcase : (c1a i ∧ ¬c1b i ∧ ¬c1c i ∧ z3 = x3 ∧ z4 = x4 ∧ z5 = k1_pay4 x2 x1 ∧ z6 = k1_pay5 x2 x1)
      ∨ (¬c1a i ∧ c1b i ∧ z5 = k1_pay6 x2 x1 x5 ∧ z6 = k1_pay7 x2 x1 x6 ∧ ((¬c1c i ∧ z3 = x3 ∧ z4 = x4) ∨ (c1c i ∧ z3 = z5 ∧ z4 = z6))))
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2
            ∗ owns (c : Thread nD τ) arg3 fullShare z3 ∗ owns (c : Thread nD τ) arg4 fullShare z4
            ∗ owns (c : Thread nD τ) arg5 fullShare z5 ∗ owns (c : Thread nD τ) arg6 fullShare z6) -∗ K ⟨⟩))
      ⊢ wp frame (wpE (defs₀ (F := F)) Variants.none c none) E (cc1__tc_body i arg1 harg1 arg2 harg2 arg3 harg3 arg4 harg4 arg5 harg5 arg6 harg6) K := by
  simp only [cc1__tc_body_eq_skeleton]; unfold cc1__tc_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  rcases hcase with ⟨h1, h2, h3, rfl, rfl, rfl, rfl⟩ | ⟨h1, h2, rfl, rfl, ⟨h3, rfl, rfl⟩ | ⟨h3, rfl, rfl⟩⟩
  all_goals
    sl_exec (disch := first | sl_exact h1 | sl_exact h2 | sl_exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; swap; · iexact H3
      ipureintro; first | exact harg3.read_unread _ | ((try sl_unfold_words); rw [read_writes_whole_last _ _ hz2]; (try sl_unfold_words); (try rw [View.readCov_unit_zero _ hz2]); simp only [View.readAt_eq_ld, harg1.read_unread, harg2.read_unread, harg5.read_unread, harg6.read_unread, View.ld_unit_zero (S := S2048x256) hz2, View.ld_unit_zero (S := S1x1x2048) hz3, View.ld_unit_zero (S := S16x256) hz2, View.ld_unit_zero (S := S16x128) hz2])
    isplitl [H4]
    · iexists _; isplitr; swap; · iexact H4
      ipureintro; first | exact harg4.read_unread _ | ((try sl_unfold_words); rw [read_writes_whole_last _ _ hz2]; (try sl_unfold_words); (try rw [View.readCov_unit_zero _ hz2]); simp only [View.readAt_eq_ld, harg1.read_unread, harg2.read_unread, harg5.read_unread, harg6.read_unread, View.ld_unit_zero (S := S2048x256) hz2, View.ld_unit_zero (S := S1x1x2048) hz3, View.ld_unit_zero (S := S16x256) hz2, View.ld_unit_zero (S := S16x128) hz2])
    isplitl [H5]
    · iexists _; isplitr; swap; · iexact H5
      ipureintro; first | exact harg5.read_unread _ | ((try sl_unfold_words); rw [read_writes_whole_last _ _ hz2]; (try sl_unfold_words); (try rw [View.readCov_unit_zero _ hz2]); simp only [View.readAt_eq_ld, harg1.read_unread, harg2.read_unread, harg5.read_unread, harg6.read_unread, View.ld_unit_zero (S := S2048x256) hz2, View.ld_unit_zero (S := S1x1x2048) hz3, View.ld_unit_zero (S := S16x256) hz2, View.ld_unit_zero (S := S16x128) hz2])
    iexists _; isplitr; swap; · iexact H6
    ipureintro; first | exact harg6.read_unread _ | ((try sl_unfold_words); rw [read_writes_whole_last _ _ hz2]; (try sl_unfold_words); (try rw [View.readCov_unit_zero _ hz2]); simp only [View.readAt_eq_ld, harg1.read_unread, harg2.read_unread, harg5.read_unread, harg6.read_unread, View.ld_unit_zero (S := S2048x256) hz2, View.ld_unit_zero (S := S1x1x2048) hz3, View.ld_unit_zero (S := S16x256) hz2, View.ld_unit_zero (S := S16x128) hz2])

theorem hc1a : ∀ t : Fin cfg1.N, c1a (grid1.coords t) ↔ t.val = 0 :=
  (by decide +kernel : ∀ t : Fin grid1.N, c1a (grid1.coords t) ↔ t.val = 0)

theorem hc1b : ∀ t : Fin cfg1.N, c1b (grid1.coords t) ↔ 0 < t.val :=
  (by decide +kernel : ∀ t : Fin grid1.N, c1b (grid1.coords t) ↔ 0 < t.val)

theorem hc1c : ∀ t : Fin cfg1.N, c1c (grid1.coords t) ↔ t.val = 15 :=
  (by decide +kernel : ∀ t : Fin grid1.N, c1c (grid1.coords t) ↔ t.val = 15)

variable (W : TcVal F)

def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

def tcAcc (c : Dev nD) : (n : ℕ) → n < cfg1.N → Vec F S16x256 .f32 × Vec F S16x128 .f32
  | 0, h => (k1_pay4 (iblk1 W c 1 ⟨0, h⟩) (iblk1 W c 0 ⟨0, h⟩), k1_pay5 (iblk1 W c 1 ⟨0, h⟩) (iblk1 W c 0 ⟨0, h⟩))
  | n + 1, h => (k1_pay6 (iblk1 W c 1 ⟨n + 1, h⟩) (iblk1 W c 0 ⟨n + 1, h⟩) (tcAcc c n (Nat.lt_of_succ_lt h)).1,
      k1_pay7 (iblk1 W c 1 ⟨n + 1, h⟩) (iblk1 W c 0 ⟨n + 1, h⟩) (tcAcc c n (Nat.lt_of_succ_lt h)).2)

theorem tcAcc_zero (c : Dev nD) (t : Fin cfg1.N) (ht : t.val = 0) :
    tcAcc W c t.val t.isLt = (k1_pay4 (iblk1 W c 1 t) (iblk1 W c 0 t), k1_pay5 (iblk1 W c 1 t) (iblk1 W c 0 t)) := by
  obtain ⟨n, hn⟩ := t
  cases n with
  | zero => rfl
  | succ n => exact absurd ht (Nat.succ_ne_zero n)

theorem tcAcc_pos (c : Dev nD) (t : Fin cfg1.N) (ht : t.val ≠ 0) :
    tcAcc W c t.val t.isLt
      = (k1_pay6 (iblk1 W c 1 t) (iblk1 W c 0 t) (tcAcc W c (t.val - 1) (Nat.lt_of_le_of_lt (Nat.sub_le _ _) t.isLt)).1,
         k1_pay7 (iblk1 W c 1 t) (iblk1 W c 0 t) (tcAcc W c (t.val - 1) (Nat.lt_of_le_of_lt (Nat.sub_le _ _) t.isLt)).2) := by
  obtain ⟨n, hn⟩ := t
  cases n with
  | zero => exact absurd rfl ht
  | succ n => rfl

def PhiV (c : Dev nD) : (n : ℕ) → n ≤ cfg1.N → sProp 𝕄
  | 0, _ => Pipeline.scopedRest (Ix := HIx 1) (Name := ℕ) (U := UU) (Lvl := ℕ) (Val := Elt F) spec1 c
  | n + 1, hn => iprop(owns (c : Thread nD τ) (Memref.whole cc1_scratch0) fullShare (tcAcc W c n hn).1
      ∗ owns (c : Thread nD τ) (Memref.whole cc1_scratch1) fullShare (tcAcc W c n hn).2 ∗ otherScoped c)

theorem PhiV_zero (c : Dev nD) (n : ℕ) (h : n ≤ cfg1.N) (hz : n = 0) :
    PhiV W c n h = Pipeline.scopedRest (Ix := HIx 1) (Name := ℕ) (U := UU) (Lvl := ℕ) (Val := Elt F) spec1 c := by
  subst hz; rfl

theorem PhiV_succ (c : Dev nD) (n : ℕ) (hn : n < cfg1.N) :
    PhiV W c (n + 1) hn = iprop(owns (c : Thread nD τ) (Memref.whole cc1_scratch0) fullShare (tcAcc W c n hn).1
      ∗ owns (c : Thread nD τ) (Memref.whole cc1_scratch1) fullShare (tcAcc W c n hn).2 ∗ otherScoped c) := rfl

theorem PhiV_pos (c : Dev nD) (n : ℕ) (h : n ≤ cfg1.N) (hz : n ≠ 0) :
    PhiV W c n h = iprop(owns (c : Thread nD τ) (Memref.whole cc1_scratch0) fullShare (tcAcc W c (n - 1) (by omega)).1
      ∗ owns (c : Thread nD τ) (Memref.whole cc1_scratch1) fullShare (tcAcc W c (n - 1) (by omega)).2 ∗ otherScoped c) := by
  cases n with
  | zero => exact absurd rfl hz
  | succ n => rfl

def rdV (c : Dev nD) : Pipeline.RDat τ (Elt F) (HIx 1) ℕ UU ℕ cfg1 c where
  A w := W c (Pipeline.arrRef spec1 w)
  after w t _ X := match w with
    | ⟨0, _⟩ => True
    | ⟨1, _⟩ => True
    | ⟨2, _⟩ => t.val = 15 → X = (tcAcc W c t.val t.isLt).1
    | ⟨3, _⟩ => t.val = 15 → X = (tcAcc W c t.val t.isLt).2
  Φ t := PhiV W c t.val (Nat.le_of_lt_succ t.isLt)
  q _ := fullShare
  owed _ := 0
  recorded _ := BW F c

theorem rdV_share (c : Dev nD) (w : Fin cfg1.W) : (rdV W c).share w = fullShare := by
  unfold Pipeline.RDat.share; split <;> rfl

theorem PhiV_castSucc (c : Dev nD) (t : Fin cfg1.N) : (rdV W c).Φ t.castSucc = PhiV W c t.val (Nat.le_of_lt t.isLt) := by
  dsimp only [rdV]; simp only [Fin.coe_castSucc]

theorem fetchedV0 (c : Dev nD) (t : Fin cfg1.N) (d) : (rdV W c).fetched 0 t d = iblk1 W c 0 t := by
  unfold Pipeline.RDat.fetched Pipeline.RDat.blockOf iblk1; rfl
theorem fetchedV1 (c : Dev nD) (t : Fin cfg1.N) (d) : (rdV W c).fetched 1 t d = iblk1 W c 1 t := by
  unfold Pipeline.RDat.fetched Pipeline.RDat.blockOf iblk1; rfl

set_option maxHeartbeats 2000000 in

theorem sound_bodyV (c : Dev nD) (t : Fin cfg1.N) (y2 : Vec F S16x256 .f32) (y3 : Vec F S16x128 .f32) :
    iprop((rdV W c).Φ t.castSucc ∗ (rdV W c).owesAt ι₀ t.castSucc
        ∗ owns (c : Thread nD τ) ((cfg1.win 0).stage (cfg1.slots t 0)) fullShare (iblk1 W c 0 t)
        ∗ owns (c : Thread nD τ) ((cfg1.win 1).stage (cfg1.slots t 1)) fullShare (iblk1 W c 1 t)
        ∗ owns (c : Thread nD τ) ((cfg1.win 2).stage (cfg1.slots t 2)) fullShare y2
        ∗ owns (c : Thread nD τ) ((cfg1.win 3).stage (cfg1.slots t 3)) fullShare y3)
      ⊢ wp frame (wpE (defs₀ (F := F)) Variants.none c none) Set.univ (bodyAt1 t) (fun _ =>
        iprop((rdV W c).Φ t.succ ∗ (rdV W c).owesAt ι₀ t.succ
          ∗ (∃ X, ⌜(rdV W c).after 0 t (iblk1 W c 0 t) X⌝ ∗ owns (c : Thread nD τ) ((cfg1.win 0).stage (cfg1.slots t 0)) fullShare X)
          ∗ (∃ X, ⌜(rdV W c).after 1 t (iblk1 W c 1 t) X⌝ ∗ owns (c : Thread nD τ) ((cfg1.win 1).stage (cfg1.slots t 1)) fullShare X)
          ∗ (∃ X, ⌜(rdV W c).after 2 t y2 X⌝ ∗ owns (c : Thread nD τ) ((cfg1.win 2).stage (cfg1.slots t 2)) fullShare X)
          ∗ (∃ X, ⌜(rdV W c).after 3 t y3 X⌝ ∗ owns (c : Thread nD τ) ((cfg1.win 3).stage (cfg1.slots t 3)) fullShare X))) := by
  unfold bodyAt1
  rw [show (rdV W c).owesAt ι₀ t.succ = (rdV W c).owesAt ι₀ t.castSucc from rfl]
  rw [show (rdV W c).Φ t.succ = PhiV W c (t.val + 1) t.isLt from rfl, PhiV_succ, PhiV_castSucc]
  have hN : t.val < 16 := lt_of_lt_of_eq t.isLt (show cfg1.N = 16 from N_1)
  by_cases hz : t.val = 0
  on_goal 2 => by_cases hl : t.val = 15
  on_goal 3 =>
    rw [PhiV_pos W c _ _ hz, tcAcc_pos W c t hz]
    iintro ⟨⟨HS0, HS1, Hr⟩, HO, H0, H1, H2, H3⟩
    iapply (tc1_body_V c (grid1.coords t) _ _ _ _ _ _ _ _ _ _ _ _ (iblk1 W c 0 t) (iblk1 W c 1 t) y2 y3 _ _ _ _ _ _ (Or.inr ⟨fun h => hz ((hc1a t).mp h), (hc1b t).mpr (by omega), rfl, rfl, Or.inl ⟨fun h => hl ((hc1c t).mp h), rfl, rfl⟩⟩) Set.univ _)
  on_goal 2 =>
    rw [PhiV_pos W c _ _ hz, tcAcc_pos W c t hz]
    iintro ⟨⟨HS0, HS1, Hr⟩, HO, H0, H1, H2, H3⟩
    iapply (tc1_body_V c (grid1.coords t) _ _ _ _ _ _ _ _ _ _ _ _ (iblk1 W c 0 t) (iblk1 W c 1 t) y2 y3 _ _ _ _ _ _ (Or.inr ⟨fun h => hz ((hc1a t).mp h), (hc1b t).mpr (by omega), rfl, rfl, Or.inr ⟨(hc1c t).mpr hl, rfl, rfl⟩⟩) Set.univ _)
  on_goal 1 =>
    rw [PhiV_zero W c _ _ hz, scopedRest1_owns, tcAcc_zero W c t hz]
    iintro ⟨⟨⟨%s0, HS0⟩, ⟨%s1, HS1⟩, Hr⟩, HO, H0, H1, H2, H3⟩
    iapply (tc1_body_V c (grid1.coords t) _ _ _ _ _ _ _ _ _ _ _ _ (iblk1 W c 0 t) (iblk1 W c 1 t) y2 y3 s0 s1 _ _ _ _ (Or.inl ⟨(hc1a t).mpr hz, fun h => by have := (hc1b t).mp h; omega, fun h => by have := (hc1c t).mp h; omega, rfl, rfl, rfl, rfl⟩) Set.univ _)
  all_goals
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr]
    · isplitl [HS0]; · iexact HS0
      isplitl [HS1] <;> iassumption
    isplitl [HO]; · iexact HO
    isplitl [H0]
    · iexists (iblk1 W c 0 t); isplitr; · ipureintro; trivial
      iexact H0
    isplitl [H1]
    · iexists (iblk1 W c 1 t); isplitr; · ipureintro; trivial
      iexact H1
    isplitl [H2]
    · iexists _; isplitr; swap; · iexact H2
      ipureintro; show t.val = 15 → _ = (tcAcc W c t.val t.isLt).1; intro h; first | omega | rw [tcAcc_pos W c t hz]
    iexists _; isplitr; swap; · iexact H3
    ipureintro; show t.val = 15 → _ = (tcAcc W c t.val t.isLt).2; intro h; first | omega | rw [tcAcc_pos W c t hz]

theorem body_obligationV (c : Dev nD) : (rdV W c).BodyObligation (defs₀ (F := F)) Variants.none ι₀ Set.univ := fun t Y hY => by
  obtain ⟨d0, h0⟩ := ((rdV W c).finds_of_fetch (fetch1_0 t) (Y 0)).mp (hY 0)
  obtain ⟨d1, h1⟩ := ((rdV W c).finds_of_fetch (fetch1_1 t) (Y 1)).mp (hY 1)
  rw [fetchedV0] at h0; rw [fetchedV1] at h1
  rw [bigSep_W1, bigSep_W1, h0, h1]
  exact sound_bodyV W c t (Y 2) (Y 3)

theorem t15_lt : 15 < cfg1.N := by rw [show cfg1.N = 16 from N_1]; decide

def tcRes0 (c : Dev nD) : Buf (Elt F) ((cfg1.win 2).arr.view.loc (c.tc : Thread nD τ)) :=
  ((cfg1.win 2).blk ⟨15, t15_lt⟩).view.write (Elt F) (W c (Pipeline.arrRef spec1 2))
    ((cfg1.win 2).cut (cfg1.grid.coords ⟨15, t15_lt⟩) (tcAcc W c 15 t15_lt).1) Finset.univ

def tcRes1 (c : Dev nD) : Buf (Elt F) ((cfg1.win 3).arr.view.loc (c.tc : Thread nD τ)) :=
  ((cfg1.win 3).blk ⟨15, t15_lt⟩).view.write (Elt F) (W c (Pipeline.arrRef spec1 3))
    ((cfg1.win 3).cut (cfg1.grid.coords ⟨15, t15_lt⟩) (tcAcc W c 15 t15_lt).2) Finset.univ

def tcOut : TcVal F := fun c =>
  Function.update (Function.update (W c) (Pipeline.arrRef spec1 2) (tcRes0 W c)) (Pipeline.arrRef spec1 3) (tcRes1 W c)

theorem arrRef1_ne {w w' : Fin 4} (h : w ≠ w') : Pipeline.arrRef spec1 w ≠ Pipeline.arrRef spec1 w' :=
  fun e => h (launch1.win.arr_inj e)

theorem tcOut_arr0 (c : Dev nD) : tcOut W c (Pipeline.arrRef spec1 0) = W c (Pipeline.arrRef spec1 0) := by
  unfold tcOut; rw [Function.update_of_ne (arrRef1_ne (by decide)), Function.update_of_ne (arrRef1_ne (by decide))]
theorem tcOut_arr1 (c : Dev nD) : tcOut W c (Pipeline.arrRef spec1 1) = W c (Pipeline.arrRef spec1 1) := by
  unfold tcOut; rw [Function.update_of_ne (arrRef1_ne (by decide)), Function.update_of_ne (arrRef1_ne (by decide))]
theorem tcOut_arr2 (c : Dev nD) : tcOut W c (Pipeline.arrRef spec1 2) = tcRes0 W c := by
  unfold tcOut; rw [Function.update_of_ne (arrRef1_ne (by decide)), Function.update_self]
theorem tcOut_arr3 (c : Dev nD) : tcOut W c (Pipeline.arrRef spec1 3) = tcRes1 W c := by
  unfold tcOut; rw [Function.update_self]
theorem tcOut_rest (c : Dev nD) (b : Ref sig .tc) (hb : b ∉ Finset.univ.image (Pipeline.arrRef spec1)) : tcOut W c b = W c b := by
  have h (w : Fin 4) : b ≠ Pipeline.arrRef spec1 w := fun e => hb (e ▸ Finset.mem_image_of_mem _ (Finset.mem_univ w))
  unfold tcOut; rw [Function.update_of_ne (h 3), Function.update_of_ne (h 2)]

theorem tcOut_ok (m : (ℓ : Loc nD τ sig) → Buf (Elt F) ℓ) (hW : TcValOK m W) : TcValOK m (tcOut W) := fun c =>
  ⟨(tcOut_arr1 W c).trans (hW c).1, (tcOut_rest W c main_arg1 (by decide)).trans (hW c).2⟩

theorem arrAtV_lt (c : Dev nD) (w : Fin cfg1.W) (hfl : ∀ t : Fin cfg1.N, (cfg1.win w).flush t = true ↔ t.val % 16 = 15) :
    ∀ n, n ≤ 15 → (rdV W c).ArrAt w n = fun G => G = (rdV W c).A w
  | 0, _ => rfl
  | n + 1, hn => by
    have hlt : n < cfg1.N := by rw [show cfg1.N = 16 from N_1]; omega
    have hf : (cfg1.win w).flush ⟨n, hlt⟩ = false := by
      cases h : (cfg1.win w).flush ⟨n, hlt⟩ with
      | false => rfl
      | true => have := (hfl ⟨n, hlt⟩).mp h; dsimp only at this; omega
    unfold Pipeline.RDat.ArrAt
    simp only [dif_pos hlt, hf, Bool.false_eq_true, ↓reduceIte]
    exact arrAtV_lt c w hfl n (by omega)

theorem arrAtV_last (c : Dev nD) (w : Fin cfg1.W) (hfl : ∀ t : Fin cfg1.N, (cfg1.win w).flush t = true ↔ t.val % 16 = 15)
    (G : Buf (Elt F) ((cfg1.win w).arr.view.loc (c.tc : Thread nD τ))) (h : (rdV W c).ArrAt w 16 G) (res)
    (hres : ∀ Y X, (rdV W c).after w ⟨15, t15_lt⟩ Y X → X = res) :
    G = ((cfg1.win w).blk ⟨15, t15_lt⟩).view.write (Elt F) (W c (Pipeline.arrRef spec1 w))
      ((cfg1.win w).cut (cfg1.grid.coords ⟨15, t15_lt⟩) res) Finset.univ := by
  have hf : (cfg1.win w).flush ⟨15, t15_lt⟩ = true := (hfl ⟨15, t15_lt⟩).mpr rfl
  unfold Pipeline.RDat.ArrAt at h
  simp only [dif_pos t15_lt, hf, ↓reduceIte] at h
  rw [arrAtV_lt W c w hfl 15 le_rfl] at h
  obtain ⟨G₀, X, rfl, ⟨Y, -, hX⟩, rfl⟩ := h
  obtain rfl := hres _ _ hX; rfl

def rdsV : (p : Fin 2) → (c : Dev nD) → Pipeline.RDat τ (Elt F) (HIx 1) ℕ UU ℕ (Pipeline.pin (pcfgs (F := F)) adm p) c
  | 0 => rdV W
  | 1 => rdAny W cfg2

set_option backward.isDefEq.respectTransparency.types false in

theorem unscopedBufs_of_arrays1 (c : Dev nD) (Wc V' : (b : Ref sig .tc) → Buf (Elt F) ((c.tc : Thread nD τ).loc b))
    (G : (w : Fin cfg1.W) → Buf (Elt F) ((cfg1.win w).arr.view.loc (c.tc : Thread nD τ)))
    (hV' : ∀ w, V' (Pipeline.arrRef spec1 w) = G w) (hrest : ∀ b, b ∉ Finset.univ.image (Pipeline.arrRef spec1) → V' b = Wc b) :
    (unscopedBufs c V' : sProp 𝕄)
      = iprop(((((c.tc : Thread nD τ).loc (Pipeline.arrRef spec1 0)) ↦{fullShare} G 0) ∗ (((c.tc : Thread nD τ).loc (Pipeline.arrRef spec1 1)) ↦{fullShare} G 1)
          ∗ (((c.tc : Thread nD τ).loc (Pipeline.arrRef spec1 2)) ↦{fullShare} G 2) ∗ (((c.tc : Thread nD τ).loc (Pipeline.arrRef spec1 3)) ↦{fullShare} G 3))
        ∗ Pipeline.unscopedRest (Ix := HIx 1) (Name := ℕ) (U := UU) (Lvl := ℕ) spec1 c Wc) := by
  rw [Pipeline.unscopedBufs_split (Pipeline.pin (pcfgs (F := F)) adm) 0 launch1.win.arr_unscoped launch1.win.arr_inj c V', bigSep_W1]
  rw [show Pipeline.unscopedRest (Ix := HIx 1) (Name := ℕ) (U := UU) (Lvl := ℕ) (Pipeline.pin (pcfgs (F := F)) adm 0).spec c V'
      = Pipeline.unscopedRest (Ix := HIx 1) (Name := ℕ) (U := UU) (Lvl := ℕ) spec1 c Wc from by
    unfold Pipeline.unscopedRest
    exact bigSep_congr fun b hb => by rw [hrest b (Finset.mem_sdiff.mp hb).2]]
  rw [← hV' 0, ← hV' 1, ← hV' 2, ← hV' 3]
  rfl

set_option backward.isDefEq.respectTransparency.types false in

theorem exit_arraysV (c : Dev nD) :
    iprop((rdV W c).arraysAt cfg1.N ∗ Pipeline.unscopedRest (Ix := HIx 1) (Name := ℕ) (U := UU) (Lvl := ℕ) spec1 c (W c))
      ⊢ (unscopedBufs c (tcOut W c) : sProp 𝕄) := by
  have step1 : ((rdV W c).arraysAt cfg1.N : sProp 𝕄)
      ⊢ iprop(∃ G : (w : Fin cfg1.W) → Buf (Elt F) ((cfg1.win w).arr.view.loc (c.tc : Thread nD τ)),
          bigSep Finset.univ fun w => iprop(⌜(rdV W c).ArrAt w cfg1.N (G w)⌝
            ∗ ((cfg1.win w).arr.view.loc (c.tc : Thread nD τ) ↦[(cfg1.win w).arr.view.set]{(rdV W c).share w} G w))) := by
    unfold Pipeline.RDat.arraysAt
    exact bigSep_exists_pi Finset.univ _
  have step2 (G : (w : Fin cfg1.W) → Buf (Elt F) ((cfg1.win w).arr.view.loc (c.tc : Thread nD τ))) :
      (bigSep Finset.univ fun w => iprop(⌜(rdV W c).ArrAt w cfg1.N (G w)⌝
            ∗ ((cfg1.win w).arr.view.loc (c.tc : Thread nD τ) ↦[(cfg1.win w).arr.view.set]{(rdV W c).share w} G w)) : sProp 𝕄)
        = bigSep Finset.univ fun w => iprop(⌜(rdV W c).ArrAt w cfg1.N (G w)⌝
            ∗ (((c.tc : Thread nD τ).loc (Pipeline.arrRef spec1 w)) ↦{fullShare} G w)) :=
    bigSep_congr fun w _ => by
      have hs : (cfg1.win w).arr.view.set = Finset.univ := (launch1.arr_whole w).set_eq_univ
      rw [hs, rdV_share]
  refine (sep_mono step1 .rfl).trans ?_
  iintro ⟨⟨%G, Hb⟩, Hr⟩
  ihave Hc := (Entails.of_eq ((step2 G).trans (bigSep_W1 _))) $$ Hb
  icases Hc with ⟨⟨%h0, H0⟩, ⟨%h1, H1⟩, ⟨%h2, H2⟩, ⟨%h3, H3⟩⟩
  rw [(rdV W c).ArrAt_in 0 rfl] at h0
  rw [(rdV W c).ArrAt_in 1 rfl] at h1
  rw [show cfg1.N = 16 from N_1] at h2 h3
  have g2 : G 2 = tcRes0 W c := arrAtV_last W c 2 flush1_2 _ h2 _ fun _ _ h => h rfl
  have g3 : G 3 = tcRes1 W c := arrAtV_last W c 3 flush1_3 _ h3 _ fun _ _ h => h rfl
  have hV' : ∀ w, tcOut W c (Pipeline.arrRef spec1 w) = G w := fun w => by
    fin_cases w
    · exact (tcOut_arr0 W c).trans h0.symm
    · exact (tcOut_arr1 W c).trans h1.symm
    · exact (tcOut_arr2 W c).trans g2.symm
    · exact (tcOut_arr3 W c).trans g3.symm
  iapply (Entails.of_eq (unscopedBufs_of_arrays1 c (W c) (tcOut W c) G hV' (tcOut_rest W c)).symm)
  isplitr [Hr]
  · isplitl [H0]; · iexact H0
    isplitl [H1]; · iexact H1
    isplitl [H2] <;> iassumption
  · iexact Hr

theorem PhiV_out (c : Dev nD) (n : ℕ) (h : n ≤ cfg1.N) (hn : n ≠ 0) :
    PhiV W c n h ⊢ Pipeline.scopedRest (Ix := HIx 1) (Name := ℕ) (U := UU) (Lvl := ℕ) (Val := Elt F) spec1 c := by
  rw [PhiV_pos W c n h hn, scopedRest1_owns]
  iintro ⟨HS0, HS1, Hr⟩
  isplitl [HS0]; · iexists _; iexact HS0
  isplitl [HS1]; · iexists _; iexact HS1
  iexact Hr

set_option maxHeartbeats 4000000 in
set_option backward.isDefEq.respectTransparency.types false in

def regV : Pipeline.RDat.RegionSeg (pcfgs (F := F)) adm (rdsV W) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligationV W c
  hwaits := Pipeline.RDat.hwaits_of_owed_zero _ _ _ _ _ _ 0 fun _ _ => rfl
  pre := tcPre W
  post := tcPre (tcOut W)
  X _ := iprop(emp)
  Y _ := iprop(emp)
  Z c := Pipeline.unscopedRest (Ix := HIx 1) (Name := ℕ) (U := UU) (Lvl := ℕ) spec1 c (W c)
  hentry c := by
    unfold tcPre
    iintro ⟨⟨Hub, HO⟩, -, -⟩
    ihave H := (Pipeline.RDat.arrays_of_unscopedBufs (pcfgs (F := F)) adm (rdsV W) (p := 0) launch1.win launch1.arr_whole c
      (rdV_share W c) (W c) (fun _ => rfl)) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (tcOwes_in cfg1 c); iexact HO
    isplitr; · iempintro
    iexact Hr
  hin c := by
    show iprop(iprop(emp) ∗ _ ∗ Pipeline.scopedRest (Ix := HIx 1) (Name := ℕ) (U := UU) (Lvl := ℕ) (Val := Elt F) spec1 c)
      ⊢ Pipeline.scopedRest (Ix := HIx 1) (Name := ℕ) (U := UU) (Lvl := ℕ) (Val := Elt F) spec1 c
    iintro ⟨-, -, H⟩; iexact H
  hout c := by
    rw [Pipeline.ownSems0_none]
    show PhiV W c cfg1.N le_rfl
      ⊢ iprop(iprop(emp) ∗ iprop(emp) ∗ Pipeline.scopedRest (Ix := HIx 1) (Name := ℕ) (U := UU) (Lvl := ℕ) (Val := Elt F) spec1 c)
    iintro H
    isplitr; · iempintro
    isplitr; · iempintro
    iapply (PhiV_out W c cfg1.N le_rfl (by rw [show cfg1.N = 16 from N_1]; decide))
    iexact H
  hexit c := by
    show iprop((rdV W c).arraysAt cfg1.N ∗ (rdV W c).owesAt ι₀ (Fin.last cfg1.N) ∗ iprop(emp)
        ∗ Pipeline.unscopedRest (Ix := HIx 1) (Name := ℕ) (U := UU) (Lvl := ℕ) spec1 c (W c))
      ⊢ |={Set.univ}=> tcPre (tcOut W) c
    unfold tcPre
    iintro ⟨Ha, HO, -, HZ⟩
    ihave H := (exit_arraysV W c) $$ [Ha HZ]
    · isplitl [Ha] <;> iassumption
    imodintro
    isplitl [H]; · iexact H
    iapply (tcOwes_out cfg1 c); iexact HO

set_option backward.isDefEq.respectTransparency.types false in

theorem tc1_step_val (V : TcVal F) : RegionStep (F := F) 0 (tcPre V) (tcPre (tcOut V)) := fun c _ k Q =>
  Pipeline.RDat.RegionSeg.wp (pcfgs (F := F)) adm (rdsV V) ι₀ cellOf_inj_pin EP defs₀ 𝒱₀ (K (F := F)).L (K (F := F)).lev
    (regV V) c none (fun _ h => nomatch h) k Q

end Cert.Proof.KI

end
-- ==== Proof.ValueKI.lean ====
import proofs.«216278_g4776003633407_cont_8to1_c_644_33_alg».proof.Proof.LaunchV
import proofs.«216278_g4776003633407_cont_8to1_c_644_33_alg».proof.Proof.ScTile
import proofs.«216278_g4776003633407_cont_8to1_c_644_33_alg».proof.Proof.Tc1Val
import proofs.«216278_g4776003633407_cont_8to1_c_644_33_alg».proof.Proof.Tc2

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable (outF : (d : Dev nD) → Buf (Elt F) (oFLoc d)) (outA : (d : Dev nD) → Buf (Elt F) (oALoc d))

variable [FloatOps F]

def BodyOblV : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d (widL L) ∗ scopedBufs (V d (cV L) (jV L)) ∗ scopedSems0 (V d (cV L) (jV L))
        ∗ owes (V d (cV L) (jV L)) O W)
      ⊢ wp frame (wpE (defs₀ (F := F)) 𝒱₀ (V d (cV L) (jV L)) none) Set.univ (bodyAt (F := F) L)
          fun _ => iprop(tileTdV m outF outA d (widL L) ∗ scopedBufs (V d (cV L) (jV L)) ∗ scopedSems0 (V d (cV L) (jV L))
            ∗ ∃ W', ⌜∀ p ∈ W', p ∈ W ∨ p.2 = none⌝ ∗ owes (V d (cV L) (jV L)) O W')

theorem tileOblV (hbody : BodyOblV (F := F) m outF outA) : (K (F := F)).TileObl (D (F := F)) 𝒱 (PV m outF outA) v₀ 0 := by
  intro d c i O W hO _ _
  simp only [show (PV m outF outA).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

theorem value_run [∀ e, Nonempty (Elt F e)] (hTile : (K (F := F)).TileObl (D (F := F)) 𝒱 (PV m outF outA) v₀ 0) :
    θ_run (Cert.KernelIdeal.defs (F := F)) (Cert.KernelIdeal.threads (F := F)) ⟨m, fun _ => 0, ρ⟩ (QCV m outF outA tcOut Tc2.V3) :=
  run_main_val m ρ outF outA tcOut Tc2.V3 hTile (fun V _ => tc1_step_val V) (fun V hV => tcOut_ok V m hV)
    (fun V _ => Tc2.tc2_step_named V) (fun V hV => Tc2.V3_ok V hV)

theorem frame_run_of_value [∀ e, Nonempty (Elt F e)] (hTile : (K (F := F)).TileObl (D (F := F)) 𝒱 (PV m outF outA) v₀ 0) :
    θ_run (Cert.KernelIdeal.defs (F := F)) (Cert.KernelIdeal.threads (F := F)) ⟨m, fun _ => 0, ρ⟩ (QC m) :=
  (θ_run Cert.KernelIdeal.defs _ _).mono (fun _ h c => (h c).2) (value_run m ρ outF outA hTile)

end Cert.Proof.KI

end
-- ==== Proof.RefFrame.lean ====
import proofs.«216278_g4776003633407_cont_8to1_c_644_33_alg».proof.Defs
import proofs.«216278_g4776003633407_cont_8to1_c_644_33_alg».proof.Proof.Gen.ReferenceIdeal
import proofs.«216278_g4776003633407_cont_8to1_c_644_33_alg».proof.Proof.RefRun
import proofs.«216278_g4776003633407_cont_8to1_c_644_33_alg».proof.Proof.RefRead
import proofs.«216278_g4776003633407_cont_8to1_c_644_33_alg».proof.Proof.Gen.Pre_input_domain

noncomputable section

namespace Cert.Proof.RefFrame

open Idealize.ShloMosaic Idealize.ShloMosaic.TcCoe Idealize.SL.Sem

theorem frame_ri : @Cert.frame_ReferenceIdeal Cert.ReferenceIdeal.Gen.facts Cert.Pre_input_domain.Gen.facts := fun m ρ _ =>
  (θ_run Cert.ReferenceIdeal.defs _ _).mono (fun _ h c => (h c).2) (Cert.ReferenceIdeal.Value.run (F := Ideal) m ρ)

end Cert.Proof.RefFrame

end
-- ==== Proof.RefSpec.lean ====
import Idealize.ShloMosaic.PureOps.Ideal
import Idealize.ShloMosaic.Lib.ValueIdx

noncomputable section

open scoped BigOperators

namespace Cert.Proof.Spec

open Idealize.ShloMosaic

variable (x : Fin 65536 → Fin 256 → EReal) (lab : Fin 65536 → ℕ)

def rows (ci : Fin 13) : Finset (Fin 65536) := Finset.univ.filter fun r => lab r = ci.val

def cnt (ci : Fin 13) : EReal := ∑ _r ∈ rows lab ci, (1 : EReal)

def sumF (ci : Fin 13) (j : Fin 256) : EReal := ∑ r ∈ rows lab ci, x r j

def sumSq (ci : Fin 13) : EReal := ∑ r ∈ rows lab ci, ∑ k : Fin 256, x r k * x r k

def safe (ci : Fin 13) : EReal := max (cnt lab ci) 1

def mean (ci : Fin 13) (j : Fin 256) : EReal := Ideal.div (sumF x lab ci j) (safe lab ci)

def var (ci : Fin 13) : EReal :=
  Ideal.div (sumSq x lab ci - ∑ k : Fin 256, mean x lab ci k * sumF x lab ci k) (safe lab ci)

def valid (ci : Fin 13) : Prop := 1 < cnt lab ci

def vcount : EReal := ∑ ci : Fin 13, (open Classical in if valid lab ci then (1 : EReal) else 0)

def lossSum : EReal := ∑ ci : Fin 13, (open Classical in if valid lab ci then var x lab ci else 0)

def refLoss : EReal :=
  open Classical in if 0 < vcount lab then Ideal.div (lossSum x lab) (max (vcount lab) 1) else 0

end Cert.Proof.Spec

end
-- ==== Proof.RefValue.lean ====
import proofs.«216278_g4776003633407_cont_8to1_c_644_33_alg».proof.Proof.RefRead
import proofs.«216278_g4776003633407_cont_8to1_c_644_33_alg».proof.Proof.RefSpec
import Idealize.ShloMosaic.Lib.ValueIdxRank1
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Idealize.ShloMosaic.StableHlo
open Cert.Proof

theorem start1 (idx : IVec S65536x1 32) (j : S65536.Idx) :
    scatter_S13_S65536x1_S65536_n_0_0_1.start j idx (0 : Fin 1) = (idx (ix2 (j 0) 0)).toInt := by
  unfold ScatterDims.start
  rw [dif_pos (show (0 : Fin S13.rank) ∈ scatter_S13_S65536x1_S65536_n_0_0_1.scatterDimsToOperandDims from List.mem_singleton.mpr rfl)]
  refine congrArg (fun k => (idx k).toInt) ?_
  funext b; refine Fin.ext ?_
  match b with
  | ⟨0, _⟩ => rfl
  | ⟨1, _⟩ => rfl

theorem window1 (j : S65536.Idx) :
    scatter_S13_S65536x1_S65536_n_0_0_1.window j (0 : Fin 1) = 0 := by
  unfold ScatterDims.window
  rw [dif_neg]
  decide

theorem resultIdx1_iff (idx : IVec S65536x1 32) (j : S65536.Idx) (i : S13.Idx) :
    scatter_S13_S65536x1_S65536_n_0_0_1.resultIdx? j idx = some i ↔ (idx (ix2 (j 0) 0)).toInt = ((i 0).val : Int) := by
  have hi : (i 0).val < 13 := (i 0).isLt
  unfold ScatterDims.resultIdx?
  split_ifs with h
  · rw [Option.some.injEq]
    have h0 := h 0
    rw [start1, window1] at h0
    constructor
    · intro hf
      have := congrArg Fin.val (congrFun hf 0)
      simp only [start1, window1] at this
      omega
    · intro he
      funext a
      obtain rfl : a = 0 := Subsingleton.elim _ _
      refine Fin.ext ?_
      simp only [start1, window1]
      omega
  · constructor
    · intro hn; cases hn
    · intro he
      exfalso
      apply h
      intro a
      obtain rfl : a = 0 := Subsingleton.elim _ _
      rw [start1, window1]
      show 0 ≤ _ + ((0 : Nat) : Int) ∧ _ + ((0 : Nat) : Int) < (13 : Nat)
      omega

theorem scatter1_apply (z : (⟨S13, .f32⟩ : BufTy).Contents (Elt Ideal)) (idx : (⟨S65536x1, .i32⟩ : BufTy).Contents (Elt Ideal))
    (u : (⟨S65536, .f32⟩ : BufTy).Contents (Elt Ideal)) (L : Fin 65536 → ℕ)
    (hL : ∀ r, (idx (ix2 r 0)).toInt = (L r : Int)) (ci : Fin 13) :
    Host.scatterAdd (F := Ideal) (φ := .f32) scatter_S13_S65536x1_S65536_n_0_0_1 z idx u (ix1 ci)
      = z (ix1 ci) + ∑ r ∈ Finset.univ.filter (fun r : Fin 65536 => L r = ci.val), u (ix1 r) := by
  show Ideal.hostScatterAdd _ z idx u (ix1 ci) = _
  unfold Ideal.hostScatterAdd
  refine congrArg (z (ix1 ci) + ·) ?_
  rw [Finset.sum_filter, Finset.sum_filter, ← Equiv.sum_comp (idxEquiv1 (n := 65536)).symm]
  refine Finset.sum_congr rfl fun r _ => ?_
  have hiff := resultIdx1_iff idx (idxEquiv1.symm r) (ix1 ci)
  have hr0 : (idx (ix2 ((idxEquiv1.symm r) 0) 0)).toInt = (L r : Int) := hL r
  rw [hr0] at hiff
  by_cases hr : L r = ci.val
  · rw [if_pos hr, if_pos (hiff.mpr (by rw [hr]))]; rfl
  · rw [if_neg hr, if_neg (fun h => hr (by have := hiff.mp h; exact_mod_cast this))]

theorem start2_0 (idx : IVec S65536x1 32) (j : S65536x256.Idx) :
    scatter_S13x256_S65536x1_S65536x256_1_0_0_1.start j idx (0 : Fin 2) = (idx (ix2 (j 0) 0)).toInt := by
  unfold ScatterDims.start
  rw [dif_pos (show (0 : Fin S13x256.rank) ∈ scatter_S13x256_S65536x1_S65536x256_1_0_0_1.scatterDimsToOperandDims from List.mem_singleton.mpr rfl)]
  refine congrArg (fun k => (idx k).toInt) ?_
  funext b; refine Fin.ext ?_
  match b with
  | ⟨0, _⟩ => rfl
  | ⟨1, _⟩ => rfl

theorem start2_1 (idx : IVec S65536x1 32) (j : S65536x256.Idx) :
    scatter_S13x256_S65536x1_S65536x256_1_0_0_1.start j idx (1 : Fin 2) = 0 := by
  unfold ScatterDims.start
  rw [dif_neg]
  decide

theorem window2_0 (j : S65536x256.Idx) :
    scatter_S13x256_S65536x1_S65536x256_1_0_0_1.window j (0 : Fin 2) = 0 := by
  unfold ScatterDims.window
  rw [dif_neg]
  decide

theorem window2_1 (j : S65536x256.Idx) :
    scatter_S13x256_S65536x1_S65536x256_1_0_0_1.window j (1 : Fin 2) = (j 1).val := by
  unfold ScatterDims.window
  rw [dif_pos (show (1 : Fin S13x256.rank) ∈ scatter_S13x256_S65536x1_S65536x256_1_0_0_1.sKept by decide)]
  rfl

theorem resultIdx2_iff (idx : IVec S65536x1 32) (j : S65536x256.Idx) (i : S13x256.Idx) :
    scatter_S13x256_S65536x1_S65536x256_1_0_0_1.resultIdx? j idx = some i
      ↔ (idx (ix2 (j 0) 0)).toInt = ((i 0).val : Int) ∧ (j 1).val = (i 1).val := by
  have hi0 : (i 0).val < 13 := (i 0).isLt
  have hi1 : (i 1).val < 256 := (i 1).isLt
  have hj1 : (j 1).val < 256 := (j 1).isLt
  unfold ScatterDims.resultIdx?
  split_ifs with h
  · rw [Option.some.injEq, funext_iff, Fin.forall_fin_two]
    rw [Fin.forall_fin_two] at h
    obtain ⟨h0, h1⟩ := h
    rw [start2_0, window2_0] at h0
    rw [start2_1, window2_1] at h1
    constructor
    · rintro ⟨hf0, hf1⟩
      have e0 := congrArg Fin.val hf0
      have e1 := congrArg Fin.val hf1
      simp only [start2_0, window2_0, start2_1, window2_1] at e0 e1
      omega
    · rintro ⟨he0, he1⟩
      refine ⟨Fin.ext ?_, Fin.ext ?_⟩
      · simp only [start2_0, window2_0]; omega
      · simp only [start2_1, window2_1]; omega
  · constructor
    · intro hn; cases hn
    · rintro ⟨he0, he1⟩
      exfalso
      apply h
      rw [Fin.forall_fin_two, start2_0, window2_0, start2_1, window2_1]
      show (0 ≤ _ + ((0 : Nat) : Int) ∧ _ + ((0 : Nat) : Int) < (13 : Nat)) ∧ (0 ≤ (0 : Int) + _ ∧ (0 : Int) + _ < (256 : Nat))
      omega

theorem scatter2_apply (z : (⟨S13x256, .f32⟩ : BufTy).Contents (Elt Ideal)) (idx : (⟨S65536x1, .i32⟩ : BufTy).Contents (Elt Ideal))
    (u : (⟨S65536x256, .f32⟩ : BufTy).Contents (Elt Ideal)) (L : Fin 65536 → ℕ)
    (hL : ∀ r, (idx (ix2 r 0)).toInt = (L r : Int)) (ci : Fin 13) (k : Fin 256) :
    Host.scatterAdd (F := Ideal) (φ := .f32) scatter_S13x256_S65536x1_S65536x256_1_0_0_1 z idx u (ix2 ci k)
      = z (ix2 ci k) + ∑ r ∈ Finset.univ.filter (fun r : Fin 65536 => L r = ci.val), u (ix2 r k) := by
  show Ideal.hostScatterAdd _ z idx u (ix2 ci k) = _
  unfold Ideal.hostScatterAdd
  refine congrArg (z (ix2 ci k) + ·) ?_
  rw [Finset.sum_filter, Finset.sum_filter, sum_idx2]
  refine Finset.sum_congr rfl fun r _ => ?_
  have hiff := fun q : Fin 256 => resultIdx2_iff idx (ix2 r q) (ix2 ci k)
  have hr0 : ∀ q : Fin 256, (idx (ix2 ((ix2 r q : S65536x256.Idx) 0) 0)).toInt = (L r : Int) := fun _ => hL r
  by_cases hr : L r = ci.val
  · rw [if_pos hr, Finset.sum_eq_single k]
    · rw [if_pos ((hiff k).mpr ⟨by rw [hr0, hr], rfl⟩)]
    · intro q _ hq
      rw [if_neg (fun h => hq (Fin.ext ((hiff q).mp h).2))]
    · intro hk; exact absurd (Finset.mem_univ k) hk
  · rw [if_neg hr]
    refine Finset.sum_eq_zero fun q _ => ?_
    rw [if_neg (fun h => hr (by have := ((hiff q).mp h).1; rw [hr0] at this; exact_mod_cast this))]

theorem cmp_ogt_pos {a b : EReal} (h : b < a) : FloatOps.cmpf (F := Ideal) (φ := .f32) .ogt a b = 1#1 := by
  show BitVec.ofBool (decide (b < a)) = 1#1
  rw [decide_eq_true h]; rfl

theorem cmp_ogt_neg {a b : EReal} (h : ¬ b < a) : FloatOps.cmpf (F := Ideal) (φ := .f32) .ogt a b = 0#1 := by
  show BitVec.ofBool (decide (b < a)) = 0#1
  rw [decide_eq_false h]; rfl

theorem uitofp_one : FloatOps.uitofp (F := Ideal) .f32 (1#1) = (1 : EReal) := by
  show (((1#1 : BitVec 1).toNat : ℝ) : EReal) = 1
  norm_num

theorem uitofp_zero : FloatOps.uitofp (F := Ideal) .f32 (0#1) = (0 : EReal) := by
  show (((0#1 : BitVec 1).toNat : ℝ) : EReal) = 0
  norm_num

section Stages

variable (x : (⟨S65536x256, .f32⟩ : BufTy).Contents (Elt Ideal)) (lab : (⟨S65536, .i32⟩ : BufTy).Contents (Elt Ideal))
  (hlab : ∀ r, (lab r).toNat ≤ 12)

abbrev X : Fin 65536 → Fin 256 → EReal := fun r j => x (ix2 r j)

abbrev L : Fin 65536 → ℕ := fun r => (lab (ix1 r)).toNat

include hlab in

theorem idx_toInt (r : Fin 65536) :
    (Read.val_main_v2 (F := Ideal) lab (ix2 r 0)).toInt = (((lab (ix1 r)).toNat : ℕ) : Int) := by
  rw [Read.val_main_v2_apply]
  have e : Read.idx_main_v2 (ix2 r (0 : Fin 1)) = ix1 r := by
    funext a; match a with | ⟨0, _⟩ => rfl
  rw [e]
  have h := hlab (ix1 r)
  rw [BitVec.toInt_eq_toNat_cond]
  split_ifs <;> omega

include hlab in
theorem v3_apply (ci : Fin 13) : Read.val_main_v3 (F := Ideal) lab (ix1 ci) = Spec.cnt (L lab) ci := by
  unfold Read.val_main_v3
  rw [scatter1_apply _ (Read.val_main_v2 (F := Ideal) lab) _ (L lab) (idx_toInt lab hlab) ci, Read.val_main_v1_apply, Read.val_main_cst_0_apply,
    Ideal.ofBits_def, Ideal.ofBits_zero_f32, zero_add]
  unfold Spec.cnt Spec.rows
  refine Finset.sum_congr rfl fun r _ => ?_
  rw [Read.val_main_v0_apply, Read.val_main_cst_apply, Ideal.ofBits_def, Ideal.ofBits_one_f32]

include hlab in
theorem v6_apply (ci : Fin 13) (k : Fin 256) :
    Read.val_main_v6 (F := Ideal) x lab (ix2 ci k) = Spec.sumF (X x) (L lab) ci k := by
  unfold Read.val_main_v6
  rw [scatter2_apply _ (Read.val_main_v5 (F := Ideal) lab) _ (L lab) (idx_toInt lab hlab) ci k, Read.val_main_v4_apply, Read.val_main_cst_1_apply,
    Ideal.ofBits_def, Ideal.ofBits_zero_f32, zero_add]
  rfl

theorem v8_apply (r : Fin 65536) :
    Read.val_main_v8 (F := Ideal) x (ix1 r) = ∑ k : Fin 256, X x r k * X x r k := by
  rw [Read.val_main_v8_apply, Read.val_main_cst_2_apply, Ideal.ofBits_def, Ideal.ofBits_zero_f32, zero_add]
  refine Finset.sum_congr rfl fun k _ => ?_
  have e : Read.idx_main_v8 (ix1 r) k = ix2 r k := by
    funext a; match a with | ⟨0, _⟩ => rfl | ⟨1, _⟩ => rfl
  rw [Read.val_main_v7_apply, Ideal.mulf_def, e]

include hlab in
theorem v11_apply (ci : Fin 13) :
    Read.val_main_v11 (F := Ideal) x lab (ix1 ci) = Spec.sumSq (X x) (L lab) ci := by
  unfold Read.val_main_v11
  rw [scatter1_apply _ (Read.val_main_v10 (F := Ideal) lab) _ (L lab) (idx_toInt lab hlab) ci, Read.val_main_v9_apply, Read.val_main_cst_3_apply,
    Ideal.ofBits_def, Ideal.ofBits_zero_f32, zero_add]
  unfold Spec.sumSq Spec.rows
  exact Finset.sum_congr rfl fun r _ => v8_apply x r

include hlab in
theorem v13_apply (ci : Fin 13) : Read.val_main_v13 (F := Ideal) lab (ix1 ci) = Spec.safe (L lab) ci := by
  rw [Read.val_main_v13_apply, v3_apply lab hlab, Read.val_main_v12_apply, Read.val_main_cst_4_apply,
    Ideal.ofBits_def, Ideal.ofBits_one_f32, Ideal.maximumf_def]
  rfl

include hlab in
theorem v15_apply (ci : Fin 13) (k : Fin 256) :
    Read.val_main_v15 (F := Ideal) lab (ix2 ci k) = Spec.safe (L lab) ci := by
  have e : Read.idx_main_v14 (Read.idx_main_v15 (ix2 ci k)) = ix1 ci := by
    funext a; match a with | ⟨0, _⟩ => rfl
  rw [Read.val_main_v15_apply, Read.val_main_v14_apply, e, v13_apply lab hlab]

include hlab in
theorem v16_apply (ci : Fin 13) (k : Fin 256) :
    Read.val_main_v16 (F := Ideal) x lab (ix2 ci k) = Spec.mean (X x) (L lab) ci k := by
  rw [Read.val_main_v16_apply, v6_apply x lab hlab, v15_apply lab hlab, Ideal.hostDivf_def]
  rfl

include hlab in
theorem v18_apply (ci : Fin 13) :
    Read.val_main_v18 (F := Ideal) x lab (ix1 ci)
      = ∑ k : Fin 256, Spec.mean (X x) (L lab) ci k * Spec.sumF (X x) (L lab) ci k := by
  rw [Read.val_main_v18_apply, Read.val_main_cst_5_apply, Ideal.ofBits_def, Ideal.ofBits_zero_f32, zero_add]
  refine Finset.sum_congr rfl fun k _ => ?_
  have e : Read.idx_main_v18 (ix1 ci) k = ix2 ci k := by
    funext a; match a with | ⟨0, _⟩ => rfl | ⟨1, _⟩ => rfl
  rw [e, Read.val_main_v17_apply, v16_apply x lab hlab, v6_apply x lab hlab, Ideal.mulf_def]

include hlab in
theorem v20_apply (ci : Fin 13) :
    Read.val_main_v20 (F := Ideal) x lab (ix1 ci) = Spec.var (X x) (L lab) ci := by
  rw [Read.val_main_v20_apply, Read.val_main_v19_apply, v11_apply x lab hlab, v18_apply x lab hlab, v13_apply lab hlab,
    Ideal.hostDivf_def, Ideal.subf_def]
  rfl

include hlab in

theorem v22_apply (ci : Fin 13) :
    Read.val_main_v22 (F := Ideal) lab (ix1 ci) = FloatOps.cmpf (F := Ideal) (φ := .f32) .ogt (Spec.cnt (L lab) ci) 1 := by
  rw [Read.val_main_v22_apply, v3_apply lab hlab, Read.val_main_v21_apply, Read.val_main_cst_6_apply,
    Ideal.ofBits_def, Ideal.ofBits_one_f32]

include hlab in
theorem v23_apply (ci : Fin 13) :
    Read.val_main_v23 (F := Ideal) lab (ix1 ci)
      = (open Classical in if Spec.valid (L lab) ci then (1 : EReal) else 0) := by
  rw [Read.val_main_v23_apply, v22_apply lab hlab]
  by_cases h : Spec.valid (L lab) ci
  · rw [if_pos h, cmp_ogt_pos h, uitofp_one]
  · rw [if_neg h, cmp_ogt_neg h, uitofp_zero]

include hlab in
theorem v24_apply (i : S_.Idx) : Read.val_main_v24 (F := Ideal) lab i = Spec.vcount (L lab) := by
  rw [Read.val_main_v24_apply, Read.val_main_cst_7_apply, Ideal.ofBits_def, Ideal.ofBits_zero_f32, zero_add,
    ← Equiv.sum_comp (idxEquiv1 (n := 13)).symm]
  unfold Spec.vcount
  exact Finset.sum_congr rfl fun ci _ => v23_apply lab hlab ci

include hlab in
theorem v25_apply (ci : Fin 13) :
    Read.val_main_v25 (F := Ideal) x lab (ix1 ci)
      = (open Classical in if Spec.valid (L lab) ci then Spec.var (X x) (L lab) ci else 0) := by
  rw [Read.val_main_v25_apply, v22_apply lab hlab, v20_apply x lab hlab, Read.val_main_call0_v1_apply,
    Read.val_main_call0_v0_apply, Read.val_main_cst_8_apply, Ideal.ofBits_def, Ideal.ofBits_zero_f32]
  by_cases h : Spec.valid (L lab) ci
  · rw [if_pos h, cmp_ogt_pos h, select_one]
  · rw [if_neg h, cmp_ogt_neg h, select_zero]

include hlab in
theorem v26_apply (i : S_.Idx) : Read.val_main_v26 (F := Ideal) x lab i = Spec.lossSum (X x) (L lab) := by
  rw [Read.val_main_v26_apply, Read.val_main_cst_9_apply, Ideal.ofBits_def, Ideal.ofBits_zero_f32, zero_add,
    ← Equiv.sum_comp (idxEquiv1 (n := 13)).symm]
  unfold Spec.lossSum
  exact Finset.sum_congr rfl fun ci _ => v25_apply x lab hlab ci

end Stages

theorem result_eq (x : FVec Ideal S65536x256 .f32) (lab : IVec S65536 32) (hlab : ∀ r, (lab r).toNat ≤ 12) :
    Read.val_main_v30 (F := Ideal) x lab
      = fun _ => Spec.refLoss (fun r j => x (ix2 r j)) (fun r => (lab (ix1 r)).toNat) := by
  funext i
  rw [Read.val_main_v30_apply, Read.val_main_v27_apply, Read.val_main_v29_apply, Read.val_main_v28_apply,
    v24_apply lab hlab, v26_apply x lab hlab, Read.val_main_cst_10_apply, Read.val_main_cst_11_apply,
    Read.val_main_cst_12_apply, Ideal.ofBits_def, Ideal.ofBits_zero_f32, Ideal.ofBits_def, Ideal.ofBits_one_f32,
    Ideal.hostDivf_def, Ideal.maximumf_def]
  unfold Spec.refLoss
  by_cases h : 0 < Spec.vcount (L lab)
  · rw [if_pos h, cmp_ogt_pos h, select_one]
  · rw [if_neg h, cmp_ogt_neg h, select_zero]

open Idealize.ShloMosaic.TcCoe Idealize.SL.Sem in

theorem run_refLoss (m : (ℓ : Loc nD τ sig) → Buf (Elt Ideal) ℓ) (ρ : Dev nD → PrngReg)
    (hlab : ∀ (c : Dev nD) (r : S65536.Idx), ((m ((c.tc : Thread nD τ).loc main_arg1) : IVec S65536 32) r).toNat ≤ 12) :
    θ_run (defs (F := Ideal)) (onTc (τ := τ) (main (F := Ideal))) ⟨m, fun _ => 0, ρ⟩ fun r => ∀ c : Dev nD,
      r.2.mem ((c.tc : Thread nD τ).loc main_v30)
          = (fun _ => Spec.refLoss
              (fun r j => (m ((c.tc : Thread nD τ).loc main_arg0) : FVec Ideal S65536x256 .f32) (ix2 r j))
              (fun r => ((m ((c.tc : Thread nD τ).loc main_arg1) : IVec S65536 32) (ix1 r)).toNat))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((Read.val_main_v30_eq _ _).trans (result_eq _ _ (hlab c))), (h c).2⟩)
    (Value.run (F := Ideal) m ρ)

end Cert.ReferenceIdeal.RefValue

end
-- ==== Proof.Tc2Val.lean ====
import proofs.«216278_g4776003633407_cont_8to1_c_644_33_alg».proof.Proof.Tc2
import Idealize.ShloMosaic.Lib.Pipeline.Value

set_option maxRecDepth 16384

noncomputable section

namespace Cert.Proof.KI.Tc2

open Cert.KernelIdeal Cert.KernelIdeal.Gen
open Cert.Proof.KI
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : TcVal F)

theorem iblk2_0 (c : Dev nD) (t : Fin cfg2.N) : iblk2 V c 0 t = V c main_v1_0 := by
  funext j
  show V c main_v1_0 (((cfg2.win 0).blk t).view.emb j) = V c main_v1_0 j
  congr 1
  funext a; apply Fin.ext
  match a with
  | ⟨0, _⟩ => show win2_0.index t (0 : Fin 3) * 32 + 1 * (j 0).val = (j 0).val; show 0 * 32 + 1 * (j 0).val = (j 0).val; omega
  | ⟨1, _⟩ => show win2_0.index t (1 : Fin 3) * 16 + 1 * (j 1).val = (j 1).val; show 0 * 16 + 1 * (j 1).val = (j 1).val; omega
  | ⟨2, _⟩ => show win2_0.index t (2 : Fin 3) * 256 + 1 * (j 2).val = (j 2).val; show 0 * 256 + 1 * (j 2).val = (j 2).val; omega

theorem iblk2_1 (c : Dev nD) (t : Fin cfg2.N) : iblk2 V c 1 t = V c main_v1_1 := by
  funext j
  show V c main_v1_1 (((cfg2.win 1).blk t).view.emb j) = V c main_v1_1 j
  congr 1
  funext a; apply Fin.ext
  match a with
  | ⟨0, _⟩ => show win2_1.index t (0 : Fin 3) * 32 + 1 * (j 0).val = (j 0).val; show 0 * 32 + 1 * (j 0).val = (j 0).val; omega
  | ⟨1, _⟩ => show win2_1.index t (1 : Fin 3) * 16 + 1 * (j 1).val = (j 1).val; show 0 * 16 + 1 * (j 1).val = (j 1).val; omega
  | ⟨2, _⟩ => show win2_1.index t (2 : Fin 3) * 32 + 1 * (j 2).val = (j 2).val; show 0 * 32 + 1 * (j 2).val = (j 2).val; omega

theorem iblk2_2 (c : Dev nD) (t : Fin cfg2.N) : iblk2 V c 2 t = V c main_v2_0 := by
  funext j
  show V c main_v2_0 (((cfg2.win 2).blk t).view.emb j) = V c main_v2_0 j
  congr 1
  funext a; apply Fin.ext
  match a with
  | ⟨0, _⟩ => show win2_2.index t (0 : Fin 2) * 16 + 1 * (j 0).val = (j 0).val; show 0 * 16 + 1 * (j 0).val = (j 0).val; omega
  | ⟨1, _⟩ => show win2_2.index t (1 : Fin 2) * 256 + 1 * (j 1).val = (j 1).val; show 0 * 256 + 1 * (j 1).val = (j 1).val; omega

theorem iblk2_3 (c : Dev nD) (t : Fin cfg2.N) : iblk2 V c 3 t = V c main_v2_1 := by
  funext j
  show V c main_v2_1 (((cfg2.win 3).blk t).view.emb j) = V c main_v2_1 j
  congr 1
  funext a; apply Fin.ext
  match a with
  | ⟨0, _⟩ => show win2_3.index t (0 : Fin 2) * 16 + 1 * (j 0).val = (j 0).val; show 0 * 16 + 1 * (j 0).val = (j 0).val; omega
  | ⟨1, _⟩ => show win2_3.index t (1 : Fin 2) * 128 + 1 * (j 1).val = (j 1).val; show 0 * 128 + 1 * (j 1).val = (j 1).val; omega

theorem flushed2_4 (B : Set (SemLoc sig × HIx 1)) (c : Dev nD) (t : Fin cfg2.N) :
    (dat2 V B c).flushed 4 t = epiVal (V c main_v1_0) (V c main_v1_1) (V c main_v2_0) (V c main_v2_1) := by
  show (cfg2.win 4).cut (grid2.coords t) ((dat2 V B c).after 4 t) = _
  rw [after2_4, out2_4_eq, iblk2_0, iblk2_1, iblk2_2, iblk2_3]
  rfl

theorem arrAt2_4 (B : Set (SemLoc sig × HIx 1)) (c : Dev nD) :
    (dat2 V B c).arrAt 4 cfg2.N = epiVal (V c main_v1_0) (V c main_v1_1) (V c main_v2_0) (V c main_v2_1) := by
  refine (dat2 V B c).arrAt_eq_of_cover 4 _ (fun t _ => ?_) (fun i => ⟨t2_0, flush2_4 t2_0, ?_⟩)
  · rw [flushed2_4]
    funext j
    show epiVal (V c main_v1_0) (V c main_v1_1) (V c main_v2_0) (V c main_v2_1) j
      = epiVal (V c main_v1_0) (V c main_v1_1) (V c main_v2_0) (V c main_v2_1) (((cfg2.win 4).blk t).view.emb j)
    congr 1
    funext a; apply Fin.ext
    match a with
    | ⟨0, _⟩ => show (j 0).val = win2_4.index t (0 : Fin 2) * 1 + 1 * (j 0).val; show (j 0).val = 0 * 1 + 1 * (j 0).val; omega
    | ⟨1, _⟩ => show (j 1).val = win2_4.index t (1 : Fin 2) * 1 + 1 * (j 1).val; show (j 1).val = 0 * 1 + 1 * (j 1).val; omega
  · show i ∈ ((View.whole main_v3).slice (win2_4.rect t2_0)).set
    rw [View.set_slice_whole, Rect.mem_set_unit]
    intro a
    match a with
    | ⟨0, _⟩ => show win2_4.index t2_0 (0 : Fin 2) * 1 ≤ (i 0).val ∧ (i 0).val < win2_4.index t2_0 (0 : Fin 2) * 1 + 1; have h : (i 0).val < 1 := (i 0).isLt; show 0 * 1 ≤ (i 0).val ∧ (i 0).val < 0 * 1 + 1; omega
    | ⟨1, _⟩ => show win2_4.index t2_0 (1 : Fin 2) * 1 ≤ (i 1).val ∧ (i 1).val < win2_4.index t2_0 (1 : Fin 2) * 1 + 1; have h : (i 1).val < 1 := (i 1).isLt; show 0 * 1 ≤ (i 1).val ∧ (i 1).val < 0 * 1 + 1; omega

theorem V3_val (c : Dev nD) :
    V3 V c main_v3 = epiVal (V c main_v1_0) (V c main_v1_1) (V c main_v2_0) (V c main_v2_1) :=
  (V3_out V c).trans (arrAt2_4 V (BW F c) c)

end Cert.Proof.KI.Tc2

end
-- ==== Proof.KSpec.lean ====
import Idealize.ShloMosaic.PureOps.Ideal
import Idealize.ShloMosaic.Lib.ValueIdx
import Mathlib.Data.EReal.Operations
import Mathlib.Algebra.BigOperators.Group.Finset.Basic

noncomputable section

namespace Cert.Proof.Spec

open Idealize.ShloMosaic
open scoped BigOperators
open Classical

def scRow (w : Fin 32) (t : Fin 1024) : Fin 65536 := ⟨1024 * w.val + t.val, by omega⟩

def tcRow (t : Fin 32768) : Fin 65536 := ⟨32768 + t.val, by omega⟩

def lane (k l : Fin 16) : Fin 256 := ⟨16 * k.val + l.val, by omega⟩

@[simp] theorem scRow_val (w : Fin 32) (t : Fin 1024) : (scRow w t).val = 1024 * w.val + t.val := rfl
@[simp] theorem tcRow_val (t : Fin 32768) : (tcRow t).val = 32768 + t.val := rfl
@[simp] theorem lane_val (k l : Fin 16) : (lane k l).val = 16 * k.val + l.val := rfl

def scF (x : Fin 65536 → Fin 256 → EReal) (lab : Fin 65536 → ℕ) (w : Fin 32) (ci : Fin 16) (j : Fin 256) : EReal :=
  ∑ t : Fin 1024, if lab (scRow w t) = ci.val then x (scRow w t) j else 0

def scCnt (lab : Fin 65536 → ℕ) (w : Fin 32) (ci : Fin 16) : ℕ :=
  (Finset.univ.filter fun t : Fin 1024 => lab (scRow w t) = ci.val).card

def scSq (x : Fin 65536 → Fin 256 → EReal) (lab : Fin 65536 → ℕ) (w : Fin 32) (ci : Fin 16) (l : Fin 16) : EReal :=
  ∑ t : Fin 1024, if lab (scRow w t) = ci.val then ∑ k : Fin 16, x (scRow w t) (lane k l) * x (scRow w t) (lane k l) else 0

def scA (x : Fin 65536 → Fin 256 → EReal) (lab : Fin 65536 → ℕ) (w : Fin 32) (ci : Fin 16) (l : Fin 32) : EReal :=
  if h : l.val < 16 then scSq x lab w ci ⟨l.val, h⟩ else ((scCnt lab w ci : ℝ) : EReal)

def tcF (x : Fin 65536 → Fin 256 → EReal) (lab : Fin 65536 → ℕ) (ci : Fin 16) (j : Fin 256) : EReal :=
  ∑ t : Fin 32768, if lab (tcRow t) = ci.val then x (tcRow t) j else 0

def tcCnt (lab : Fin 65536 → ℕ) (ci : Fin 16) : ℕ :=
  (Finset.univ.filter fun t : Fin 32768 => lab (tcRow t) = ci.val).card

def tcSq (x : Fin 65536 → Fin 256 → EReal) (lab : Fin 65536 → ℕ) (ci : Fin 16) : EReal :=
  ∑ t : Fin 32768, if lab (tcRow t) = ci.val then ∑ j : Fin 256, x (tcRow t) j * x (tcRow t) j else 0

def tcA (x : Fin 65536 → Fin 256 → EReal) (lab : Fin 65536 → ℕ) (ci : Fin 16) (l : Fin 128) : EReal :=
  if l.val = 0 then tcSq x lab ci else if l.val = 1 then ((tcCnt lab ci : ℝ) : EReal) else 0

section Epilogue

variable (sF : Fin 32 → Fin 16 → Fin 256 → EReal) (sA : Fin 32 → Fin 16 → Fin 32 → EReal)
  (tF : Fin 16 → Fin 256 → EReal) (tA : Fin 16 → Fin 128 → EReal)

def epiSf (ci : Fin 16) (j : Fin 256) : EReal := tF ci j + ∑ w : Fin 32, sF w ci j

def epiAux (ci : Fin 16) (l : Fin 32) : EReal := ∑ w : Fin 32, sA w ci l

def epiSumsq (ci : Fin 16) : EReal :=
  (∑ l : Fin 32, if l.val < 16 then epiAux sA ci l else 0) + ∑ l : Fin 128, if l.val = 0 then tA ci l else 0

def epiCounts (ci : Fin 16) : EReal :=
  Ideal.div (∑ l : Fin 32, if 16 ≤ l.val then epiAux sA ci l else 0) 16 + ∑ l : Fin 128, if l.val = 1 then tA ci l else 0

def epiSafe (ci : Fin 16) : EReal := max (epiCounts sA tA ci) 1

def epiNrm (ci : Fin 16) : EReal := ∑ j : Fin 256, epiSf sF tF ci j * epiSf sF tF ci j

def epiVar (ci : Fin 16) : EReal :=
  Ideal.div (epiSumsq sA tA ci - Ideal.div (epiNrm sF tF ci) (epiSafe sA tA ci)) (epiSafe sA tA ci)

def epiValid (ci : Fin 16) : Prop := 1 < epiCounts sA tA ci ∧ ci.val < 13

def epiVc : EReal := ∑ ci : Fin 16, if epiValid sA tA ci then (1 : EReal) else 0

def epiLossSum : EReal := ∑ ci : Fin 16, if epiValid sA tA ci then epiVar sF sA tF tA ci else 0

def epiLoss : EReal :=
  if 0 < epiVc sA tA then Ideal.div (epiLossSum sF sA tF tA) (max (epiVc sA tA) 1) else 0

end Epilogue

end Cert.Proof.Spec

end
-- ==== Proof.KSpecLemmas.lean ====
import proofs.«216278_g4776003633407_cont_8to1_c_644_33_alg».proof.Proof.KSpec
import Idealize.ShloMosaic.PureOps.Ideal.Laws
import Mathlib.Data.EReal.Operations
import Mathlib.Algebra.BigOperators.Group.Finset.Basic
import Mathlib.Algebra.BigOperators.Fin
import Mathlib.Logic.Equiv.Fin.Basic
import Mathlib.Tactic.NormNum

noncomputable section

namespace Cert.Proof.Spec

open Idealize.ShloMosaic
open scoped BigOperators

theorem ofBits_one : Ideal.ofBits .f32 0x3F800000#32 = (1 : EReal) := by
  simp [Ideal.ofBits, Ideal.ieee, -EReal.coe_mul]; norm_num

theorem ofBits_sixteen : Ideal.ofBits .f32 0x41800000#32 = (16 : EReal) := by
  have h : Ideal.ofBits .f32 0x41800000#32 = ((16 : ℝ) : EReal) := by
    simp [Ideal.ofBits, Ideal.ieee, -EReal.coe_mul]; norm_num
  rw [h]; norm_cast

def chunkRow (g : Fin 8) (i : Fin 128) : Fin 1024 := ⟨128 * g.val + i.val, by omega⟩

def blockRow (b : Fin 16) (i : Fin 2048) : Fin 32768 := ⟨2048 * b.val + i.val, by omega⟩

@[simp] theorem chunkRow_val (g : Fin 8) (i : Fin 128) : (chunkRow g i).val = 128 * g.val + i.val := rfl
@[simp] theorem blockRow_val (b : Fin 16) (i : Fin 2048) : (blockRow b i).val = 2048 * b.val + i.val := rfl

theorem sum_chunks {M : Type*} [AddCommMonoid M] (f : Fin 1024 → M) :
    ∑ t, f t = ∑ g : Fin 8, ∑ i : Fin 128, f (chunkRow g i) := by
  have h2 := (finProdFinEquiv (m := 8) (n := 128)).sum_comp (fun i : Fin (8 * 128) => f i)
  rw [Fintype.sum_prod_type] at h2
  refine h2.symm.trans ?_
  refine Finset.sum_congr rfl fun g _ => Finset.sum_congr rfl fun i _ => ?_
  have e : (finProdFinEquiv (m := 8) (n := 128) (g, i)) = chunkRow g i := by
    apply Fin.ext
    show i.val + 128 * g.val = 128 * g.val + i.val
    omega
  rw [e]

theorem sum_blocks {M : Type*} [AddCommMonoid M] (f : Fin 32768 → M) :
    ∑ t, f t = ∑ b : Fin 16, ∑ i : Fin 2048, f (blockRow b i) := by
  have h2 := (finProdFinEquiv (m := 16) (n := 2048)).sum_comp (fun i : Fin (16 * 2048) => f i)
  rw [Fintype.sum_prod_type] at h2
  refine h2.symm.trans ?_
  refine Finset.sum_congr rfl fun b _ => Finset.sum_congr rfl fun i _ => ?_
  have e : (finProdFinEquiv (m := 16) (n := 2048) (b, i)) = blockRow b i := by
    apply Fin.ext
    show i.val + 2048 * b.val = 2048 * b.val + i.val
    omega
  rw [e]

theorem tcRow_blockRow_val (b : Fin 16) (i : Fin 2048) :
    (tcRow (blockRow b i)).val = 2048 * (b.val + 16) + i.val := by
  rw [tcRow_val, blockRow_val]; omega

end Cert.Proof.Spec

end
-- ==== Proof.Tc2Spec.lean ====
import proofs.«216278_g4776003633407_cont_8to1_c_644_33_alg».proof.Proof.Tc2Dat
import proofs.«216278_g4776003633407_cont_8to1_c_644_33_alg».proof.Proof.KSpecLemmas
import Idealize.ShloMosaic.PureOps.Ideal.Laws
import Idealize.ShloMosaic.Lib.ValueIdx
import Idealize.ShloMosaic.Lib.Pipeline.Value
import Mathlib.Algebra.BigOperators.Fin

set_option maxRecDepth 16384

noncomputable section

namespace Cert.Proof.KI.Tc2

open Cert.KernelIdeal Cert.KernelIdeal.Gen
open Idealize.ShloMosaic Idealize.ShloMosaic.ValueIdx
open Cert.Proof.Spec
open scoped BigOperators

theorem sum32 {M : Type*} [AddCommMonoid M] (f : Fin 32 → M) :
    ∑ w, f w = f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 + f 30 + f 31 := by
  simp only [Fin.sum_univ_castSucc, Fin.sum_univ_zero, zero_add]
  rfl

theorem hz2 : (![0, 0] : Fin 2 → Nat) = fun _ => 0 := funext fun a => by fin_cases a <;> rfl

variable (x0 : Vec Ideal S32x16x256 .f32) (x1 : Vec Ideal S32x16x32 .f32) (x2 : Vec Ideal S16x256 .f32) (x3 : Vec Ideal S16x128 .f32)

theorem slabA (k : ℕ) (inb : ∀ a, (![k, 0, 0] : Fin 3 → Nat) a + S1x16x32.size a ≤ S32x16x32.size a) (ci : Fin 16) (l : Fin 32) :
    shapeCast S16x32 (View.ld x1 (Rect.unit (s := S32x16x32) ![k, 0, 0] S1x16x32.size inb)) shapeCasts_S1x16x32_S16x32 (ix2 ci l)
      = x1 (ix3 ⟨k, inb 0⟩ ci l) := by
  rw [shapeCast_dropUnit_apply]
  show x1 _ = x1 _
  congr 1
  funext a; apply Fin.ext
  match a with
  | ⟨0, _⟩ => show k + 1 * 0 = k; omega
  | ⟨1, _⟩ => show 0 + 1 * ci.val = ci.val; omega
  | ⟨2, _⟩ => show 0 + 1 * l.val = l.val; omega

theorem slabF (k : ℕ) (inb : ∀ a, (![k, 0, 0] : Fin 3 → Nat) a + S1x16x256.size a ≤ S32x16x256.size a) (ci : Fin 16) (j : Fin 256) :
    shapeCast S16x256 (View.ld x0 (Rect.unit (s := S32x16x256) ![k, 0, 0] S1x16x256.size inb)) shapeCasts_S1x16x256_S16x256 (ix2 ci j)
      = x0 (ix3 ⟨k, inb 0⟩ ci j) := by
  rw [shapeCast_dropUnit_apply]
  show x0 _ = x0 _
  congr 1
  funext a; apply Fin.ext
  match a with
  | ⟨0, _⟩ => show k + 1 * 0 = k; omega
  | ⟨1, _⟩ => show 0 + 1 * ci.val = ci.val; omega
  | ⟨2, _⟩ => show 0 + 1 * j.val = j.val; omega

theorem cnt_apply (ci : Fin 16) (l : Fin 32) : cnt (F := Ideal) x1 (ix2 ci l) = ∑ w : Fin 32, x1 (ix3 w ci l) := by
  rw [sum32]
  unfold cnt cnt3 cnt2 cnt1 k2_pay3 k2_pay4 k2_pay5 k2_pay6
  simp only [addf_apply]
  rw [slabA x1 0 inb_S32x16x32_S1x16x32_0_0_0 ci l,
    slabA x1 1 inb_S32x16x32_S1x16x32_1_0_0 ci l,
    slabA x1 2 inb_S32x16x32_S1x16x32_2_0_0 ci l,
    slabA x1 3 inb_S32x16x32_S1x16x32_3_0_0 ci l,
    slabA x1 4 inb_S32x16x32_S1x16x32_4_0_0 ci l,
    slabA x1 5 inb_S32x16x32_S1x16x32_5_0_0 ci l,
    slabA x1 6 inb_S32x16x32_S1x16x32_6_0_0 ci l,
    slabA x1 7 inb_S32x16x32_S1x16x32_7_0_0 ci l,
    slabA x1 8 inb_S32x16x32_S1x16x32_8_0_0 ci l,
    slabA x1 9 inb_S32x16x32_S1x16x32_9_0_0 ci l,
    slabA x1 10 inb_S32x16x32_S1x16x32_10_0_0 ci l,
    slabA x1 11 inb_S32x16x32_S1x16x32_11_0_0 ci l,
    slabA x1 12 inb_S32x16x32_S1x16x32_12_0_0 ci l,
    slabA x1 13 inb_S32x16x32_S1x16x32_13_0_0 ci l,
    slabA x1 14 inb_S32x16x32_S1x16x32_14_0_0 ci l,
    slabA x1 15 inb_S32x16x32_S1x16x32_15_0_0 ci l,
    slabA x1 16 inb_S32x16x32_S1x16x32_16_0_0 ci l,
    slabA x1 17 inb_S32x16x32_S1x16x32_17_0_0 ci l,
    slabA x1 18 inb_S32x16x32_S1x16x32_18_0_0 ci l,
    slabA x1 19 inb_S32x16x32_S1x16x32_19_0_0 ci l,
    slabA x1 20 inb_S32x16x32_S1x16x32_20_0_0 ci l,
    slabA x1 21 inb_S32x16x32_S1x16x32_21_0_0 ci l,
    slabA x1 22 inb_S32x16x32_S1x16x32_22_0_0 ci l,
    slabA x1 23 inb_S32x16x32_S1x16x32_23_0_0 ci l,
    slabA x1 24 inb_S32x16x32_S1x16x32_24_0_0 ci l,
    slabA x1 25 inb_S32x16x32_S1x16x32_25_0_0 ci l,
    slabA x1 26 inb_S32x16x32_S1x16x32_26_0_0 ci l,
    slabA x1 27 inb_S32x16x32_S1x16x32_27_0_0 ci l,
    slabA x1 28 inb_S32x16x32_S1x16x32_28_0_0 ci l,
    slabA x1 29 inb_S32x16x32_S1x16x32_29_0_0 ci l,
    slabA x1 30 inb_S32x16x32_S1x16x32_30_0_0 ci l,
    slabA x1 31 inb_S32x16x32_S1x16x32_31_0_0 ci l]
  rfl

theorem fs_apply (ci : Fin 16) (j : Fin 256) :
    fs (F := Ideal) x0 x2 (ix2 ci j) = x2 (ix2 ci j) + ∑ w : Fin 32, x0 (ix3 w ci j) := by
  rw [sum32]
  unfold fs fs3 fs2 fs1 k2_pay2 k2_pay7 k2_pay8 k2_pay9 k2_pay10
  simp only [addf_apply, shapeCast_self, View.ld_unit_zero (S := S16x256) hz2]
  rw [slabF x0 0 inb_S32x16x256_S1x16x256_0_0_0 ci j,
    slabF x0 1 inb_S32x16x256_S1x16x256_1_0_0 ci j,
    slabF x0 2 inb_S32x16x256_S1x16x256_2_0_0 ci j,
    slabF x0 3 inb_S32x16x256_S1x16x256_3_0_0 ci j,
    slabF x0 4 inb_S32x16x256_S1x16x256_4_0_0 ci j,
    slabF x0 5 inb_S32x16x256_S1x16x256_5_0_0 ci j,
    slabF x0 6 inb_S32x16x256_S1x16x256_6_0_0 ci j,
    slabF x0 7 inb_S32x16x256_S1x16x256_7_0_0 ci j,
    slabF x0 8 inb_S32x16x256_S1x16x256_8_0_0 ci j,
    slabF x0 9 inb_S32x16x256_S1x16x256_9_0_0 ci j,
    slabF x0 10 inb_S32x16x256_S1x16x256_10_0_0 ci j,
    slabF x0 11 inb_S32x16x256_S1x16x256_11_0_0 ci j,
    slabF x0 12 inb_S32x16x256_S1x16x256_12_0_0 ci j,
    slabF x0 13 inb_S32x16x256_S1x16x256_13_0_0 ci j,
    slabF x0 14 inb_S32x16x256_S1x16x256_14_0_0 ci j,
    slabF x0 15 inb_S32x16x256_S1x16x256_15_0_0 ci j,
    slabF x0 16 inb_S32x16x256_S1x16x256_16_0_0 ci j,
    slabF x0 17 inb_S32x16x256_S1x16x256_17_0_0 ci j,
    slabF x0 18 inb_S32x16x256_S1x16x256_18_0_0 ci j,
    slabF x0 19 inb_S32x16x256_S1x16x256_19_0_0 ci j,
    slabF x0 20 inb_S32x16x256_S1x16x256_20_0_0 ci j,
    slabF x0 21 inb_S32x16x256_S1x16x256_21_0_0 ci j,
    slabF x0 22 inb_S32x16x256_S1x16x256_22_0_0 ci j,
    slabF x0 23 inb_S32x16x256_S1x16x256_23_0_0 ci j,
    slabF x0 24 inb_S32x16x256_S1x16x256_24_0_0 ci j,
    slabF x0 25 inb_S32x16x256_S1x16x256_25_0_0 ci j,
    slabF x0 26 inb_S32x16x256_S1x16x256_26_0_0 ci j,
    slabF x0 27 inb_S32x16x256_S1x16x256_27_0_0 ci j,
    slabF x0 28 inb_S32x16x256_S1x16x256_28_0_0 ci j,
    slabF x0 29 inb_S32x16x256_S1x16x256_29_0_0 ci j,
    slabF x0 30 inb_S32x16x256_S1x16x256_30_0_0 ci j,
    slabF x0 31 inb_S32x16x256_S1x16x256_31_0_0 ci j]
  simp only [add_assoc]
  rfl

section Bits
variable {α : Type}

theorem bit_sge16 (k : Fin 32) : IntOp.cmpi .sge (BitVec.ofNat 32 k.val) 16#32 = if 16 ≤ k.val then 1#1 else 0#1 := by
  fin_cases k <;> first | rfl | decide
theorem bit_slt16 (k : Fin 32) : IntOp.cmpi .slt (BitVec.ofNat 32 k.val) 16#32 = if k.val < 16 then 1#1 else 0#1 := by
  fin_cases k <;> first | rfl | decide
theorem bit_eq0 (k : Fin 128) : IntOp.cmpi .eq (BitVec.ofNat 32 k.val) 0#32 = if k.val = 0 then 1#1 else 0#1 := by
  fin_cases k <;> first | rfl | decide
theorem bit_eq1 (k : Fin 128) : IntOp.cmpi .eq (BitVec.ofNat 32 k.val) 1#32 = if k.val = 1 then 1#1 else 0#1 := by
  fin_cases k <;> first | rfl | decide
theorem bit_slt13 (k : Fin 16) : IntOp.cmpi .slt (BitVec.ofNat 32 k.val) 13#32 = if k.val < 13 then 1#1 else 0#1 := by
  fin_cases k <;> first | rfl | decide
theorem bit_ogt (x y : EReal) : Ideal.cmp .ogt x y = if y < x then 1#1 else 0#1 := by
  unfold Ideal.cmp; by_cases h : y < x <;> simp [h]
theorem select_ite (p : Prop) [Decidable p] (a b : α) : Scalar.select (if p then 1#1 else 0#1) a b = if p then a else b := by
  by_cases h : p <;> simp [h, Scalar.select]
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem cmpi_apply {s : Shape} {w : Nat} (p : CmpIPredicate) (a b : IVec s w) (i : s.Idx) : cmpi p a b i = IntOp.cmpi p (a i) (b i) := rfl
theorem andi_apply {s : Shape} {w : Nat} (a b : IVec s w) (i : s.Idx) : andi a b i = IntOp.andi (a i) (b i) := rfl
theorem scalar_ofBits (φ : FTy) (b : BitVec φ.bits) : (Scalar.ofBits φ b : Ideal φ) = Ideal.ofBits φ b := rfl
theorem cmpf_ideal {φ : FTy} (p : CmpFPredicate) (x y : Ideal φ) : FloatOps.cmpf p x y = Ideal.cmp p x y := rfl

end Bits

section Reads
variable {α : Type}

theorem lift_16x32 (ci : Fin 16) (k : Fin 32) : reduces_S16x32_S16.lift (ix1 ci) k = ix2 ci k := by
  funext a; apply Fin.ext; match a with | ⟨0, _⟩ => rfl | ⟨1, _⟩ => rfl
theorem lift_16x128 (ci : Fin 16) (k : Fin 128) : reduces_S16x128_S16.lift (ix1 ci) k = ix2 ci k := by
  funext a; apply Fin.ext; match a with | ⟨0, _⟩ => rfl | ⟨1, _⟩ => rfl
theorem lift_16x256 (ci : Fin 16) (k : Fin 256) : reduces_S16x256_S16.lift (ix1 ci) k = ix2 ci k := by
  funext a; apply Fin.ext; match a with | ⟨0, _⟩ => rfl | ⟨1, _⟩ => rfl

theorem red_16x32 (v : FVec Ideal S16x32 .f32) (ci : Fin 16) :
    multiReduction .add [1] S16 v 0x00000000#32 reduces_S16x32_S16 (.inl rfl) rfl (ix1 ci) = ∑ l : Fin 32, v (ix2 ci l) := by
  refine (Ideal.multiReduction_add_single v _ reduces_S16x32_S16 _ _ (ix1 ci)).trans ?_
  show ∑ l : Fin 32, v (reduces_S16x32_S16.lift (ix1 ci) l) = _
  exact Finset.sum_congr rfl fun l _ => by rw [lift_16x32]
theorem red_16x128 (v : FVec Ideal S16x128 .f32) (ci : Fin 16) :
    multiReduction .add [1] S16 v 0x00000000#32 reduces_S16x128_S16 (.inl rfl) rfl (ix1 ci) = ∑ l : Fin 128, v (ix2 ci l) := by
  refine (Ideal.multiReduction_add_single v _ reduces_S16x128_S16 _ _ (ix1 ci)).trans ?_
  show ∑ l : Fin 128, v (reduces_S16x128_S16.lift (ix1 ci) l) = _
  exact Finset.sum_congr rfl fun l _ => by rw [lift_16x128]
theorem red_16x256 (v : FVec Ideal S16x256 .f32) (ci : Fin 16) :
    multiReduction .add [1] S16 v 0x00000000#32 reduces_S16x256_S16 (.inl rfl) rfl (ix1 ci) = ∑ l : Fin 256, v (ix2 ci l) := by
  refine (Ideal.multiReduction_add_single v _ reduces_S16x256_S16 _ _ (ix1 ci)).trans ?_
  show ∑ l : Fin 256, v (reduces_S16x256_S16.lift (ix1 ci) l) = _
  exact Finset.sum_congr rfl fun l _ => by rw [lift_16x256]

def e16 : Fin 16 ≃ S1x16x1.Idx where
  toFun ci := ix3 (0 : Fin 1) ci (0 : Fin 1)
  invFun i := i 1
  left_inv ci := rfl
  right_inv i := by
    funext a; apply Fin.ext
    match a with
    | ⟨0, _⟩ => show 0 = (i 0).val; have h : (i 0).val < 1 := (i 0).isLt; omega
    | ⟨1, _⟩ => rfl
    | ⟨2, _⟩ => show 0 = (i 2).val; have h : (i 2).val < 1 := (i 2).isLt; omega

theorem red_1x16x1 (v : FVec Ideal S1x16x1 .f32) (j : S1.Idx) :
    multiReduction .add [1, 2] S1 v 0x00000000#32 reduces_S1x16x1_S1 (.inl rfl) rfl j = ∑ ci : Fin 16, v (ix3 (0 : Fin 1) ci (0 : Fin 1)) := by
  refine (Ideal.multiReduction_add_total v _ reduces_S1x16x1_S1 (fun b => by fin_cases b; rfl) _ _ j).trans ?_
  exact (Equiv.sum_comp e16 v).symm

theorem sc_16_16x1 (v : S16.Idx → α) (ci : Fin 16) (z : Fin 1) :
    shapeCast S16x1 v shapeCasts_S16_S16x1 (ix2 ci z) = v (ix1 ci) :=
  shapeCast_apply v _ _ _ (by
    rw [Shape.rowMajor_val_one, Shape.rowMajor_val_two]
    show ci.val = ci.val * 1 + z.val
    have := z.isLt; omega)

theorem sc_16x1_1x16x1 (v : S16x1.Idx → α) (ci : Fin 16) :
    shapeCast S1x16x1 v shapeCasts_S16x1_S1x16x1 (ix3 (0 : Fin 1) ci (0 : Fin 1)) = v (ix2 ci (0 : Fin 1)) := by
  rw [shapeCast_addUnit_apply]
  congr 1; funext a; match a with | ⟨0, _⟩ => rfl | ⟨1, _⟩ => rfl

theorem ex_1_1x1x1 (v : S1.Idx → α) :
    extractAt ![0, 0, 0] (shapeCast S1x1x1 v shapeCasts_S1_S1x1x1) inpos_S1x1x1_p0_0_0 = v (ix1 (0 : Fin 1)) := by
  unfold extractAt
  exact shapeCast_apply v _ _ _ (by rw [Shape.rowMajor_val_one, Shape.rowMajor_val_three]; rfl)

end Reads

abbrev sFof (x0 : Vec Ideal S32x16x256 .f32) : Fin 32 → Fin 16 → Fin 256 → EReal := fun w ci j => x0 (ix3 w ci j)
abbrev sAof (x1 : Vec Ideal S32x16x32 .f32) : Fin 32 → Fin 16 → Fin 32 → EReal := fun w ci l => x1 (ix3 w ci l)
abbrev tFof (x2 : Vec Ideal S16x256 .f32) : Fin 16 → Fin 256 → EReal := fun ci j => x2 (ix2 ci j)
abbrev tAof (x3 : Vec Ideal S16x128 .f32) : Fin 16 → Fin 128 → EReal := fun ci l => x3 (ix2 ci l)

theorem aux_apply (ci : Fin 16) (l : Fin 128) : aux (F := Ideal) x3 (ix2 ci l) = x3 (ix2 ci l) := by
  simp only [aux, k2_pay11, shapeCast_self, View.ld_unit_zero (S := S16x128) hz2]

theorem sumcnt_apply (ci : Fin 16) :
    k2_pay13 (cnt (F := Ideal) x1) (ix1 ci) = ∑ l : Fin 32, if 16 ≤ l.val then epiAux (sAof x1) ci l else 0 := by
  simp only [k2_pay13]
  rw [red_16x32]
  refine Finset.sum_congr rfl fun l _ => ?_
  rw [select_apply, cmpi_apply, iota_single_apply, broadcast_apply, broadcast_apply, cnt_apply]
  show Scalar.select (IntOp.cmpi .sge (BitVec.ofNat 32 l.val) 16#32) _ _ = _
  rw [bit_sge16, select_ite, scalar_ofBits, Ideal.ofBits_zero_f32]
  rfl

theorem sumsq_apply (ci : Fin 16) (z : Fin 1) :
    k2_pay12 (cnt (F := Ideal) x1) (View.ld x3 (Rect.unit (s := S16x128) ![0, 0] S16x128.size inb_S16x128_S16x128_0_0)) (ix2 ci z)
      = epiSumsq (sAof x1) (tAof x3) ci := by
  simp only [k2_pay12, k2_pay11]
  rw [addf_apply, sc_16_16x1, sc_16_16x1, red_16x32, red_16x128]
  unfold epiSumsq
  congr 1
  · refine Finset.sum_congr rfl fun l _ => ?_
    rw [select_apply, cmpi_apply, iota_single_apply, broadcast_apply, broadcast_apply, cnt_apply]
    show Scalar.select (IntOp.cmpi .slt (BitVec.ofNat 32 l.val) 16#32) _ _ = _
    rw [bit_slt16, select_ite, scalar_ofBits, Ideal.ofBits_zero_f32]
    rfl
  · refine Finset.sum_congr rfl fun l _ => ?_
    rw [select_apply, cmpi_apply, iota_single_apply, broadcast_apply, broadcast_apply, shapeCast_self, View.ld_unit_zero (S := S16x128) hz2]
    show Scalar.select (IntOp.cmpi .eq (BitVec.ofNat 32 l.val) 0#32) _ _ = _
    rw [bit_eq0, select_ite, scalar_ofBits, Ideal.ofBits_zero_f32]

theorem counts_apply (ci : Fin 16) (z : Fin 1) :
    k2_pay14 (aux (F := Ideal) x3) lanes (k2_pay13 (cnt (F := Ideal) x1)) (ix2 ci z) = epiCounts (sAof x1) (tAof x3) ci := by
  simp only [k2_pay14, lanes]
  rw [addf_apply, divf_apply, sc_16_16x1, sc_16_16x1, red_16x128, sumcnt_apply, broadcast_apply, scalar_ofBits, ofBits_sixteen]
  unfold epiCounts
  congr 1
  refine Finset.sum_congr rfl fun l _ => ?_
  rw [select_apply, cmpi_apply, iota_single_apply, broadcast_apply, broadcast_apply, aux_apply]
  show Scalar.select (IntOp.cmpi .eq (BitVec.ofNat 32 l.val) 1#32) _ _ = _
  rw [bit_eq1, select_ite, scalar_ofBits, Ideal.ofBits_zero_f32]

theorem valid_apply (ci : Fin 16) (z : Fin 1) (a b : EReal) [inst : Decidable (epiValid (sAof x1) (tAof x3) ci)] :
    Scalar.select (k2_pay15 (aux (F := Ideal) x3) lanes (k2_pay13 (cnt (F := Ideal) x1)) (ix2 ci z)) a b
      = if epiValid (sAof x1) (tAof x3) ci then a else b := by
  simp only [k2_pay15]
  rw [andi_apply, cmpf_apply, cmpi_apply, counts_apply, iota_single_apply, broadcast_apply, broadcast_apply, scalar_ofBits, ofBits_one,
    cmpf_ideal, bit_ogt]
  show Scalar.select (IntOp.andi _ (IntOp.cmpi .slt (BitVec.ofNat 32 ci.val) 13#32)) a b = _
  rw [bit_slt13, andi_ite, select_ite]
  by_cases h : epiValid (sAof x1) (tAof x3) ci
  · rw [if_pos h, if_pos (show 1 < epiCounts (sAof x1) (tAof x3) ci ∧ ci.val < 13 from h)]
  · rw [if_neg h, if_neg (show ¬ (1 < epiCounts (sAof x1) (tAof x3) ci ∧ ci.val < 13) from h)]

theorem vc_apply (i : S1x1.Idx) :
    k2_pay16 (aux (F := Ideal) x3) lanes (k2_pay13 (cnt (F := Ideal) x1)) i = epiVc (sAof x1) (tAof x3) := by
  classical
  simp only [k2_pay16]
  rw [broadcast_apply, ex_1_1x1x1, red_1x16x1]
  unfold epiVc
  refine Finset.sum_congr rfl fun ci _ => ?_
  rw [sc_16x1_1x16x1, select_apply, valid_apply, broadcast_apply, broadcast_apply, scalar_ofBits, scalar_ofBits, ofBits_one, Ideal.ofBits_zero_f32]

theorem nrm_apply (ci : Fin 16) :
    multiReduction .add [1] S16 (mulf (fs (F := Ideal) x0 x2) (fs (F := Ideal) x0 x2)) 0x00000000#32 reduces_S16x256_S16 (.inl rfl) rfl (ix1 ci)
      = epiNrm (sFof x0) (tFof x2) ci := by
  rw [red_16x256]
  unfold epiNrm
  refine Finset.sum_congr rfl fun j _ => ?_
  rw [mulf_apply, fs_apply]
  rfl

theorem mean_apply (i : S1x1.Idx) :
    k2_pay18 (fs (F := Ideal) x0 x2) (aux (F := Ideal) x3) lanes
        (k2_pay12 (cnt (F := Ideal) x1) (View.ld x3 (Rect.unit (s := S16x128) ![0, 0] S16x128.size inb_S16x128_S16x128_0_0)))
        (k2_pay13 (cnt (F := Ideal) x1)) i
      = Ideal.div (epiLossSum (sFof x0) (sAof x1) (tFof x2) (tAof x3)) (max (epiVc (sAof x1) (tAof x3)) 1) := by
  classical
  simp only [k2_pay18]
  rw [divf_apply, broadcast_apply, maximumf_apply, vc_apply, broadcast_apply, scalar_ofBits, ofBits_one, ex_1_1x1x1, red_1x16x1]
  congr 1
  unfold epiLossSum
  refine Finset.sum_congr rfl fun ci _ => ?_
  rw [sc_16x1_1x16x1, select_apply, valid_apply, broadcast_apply, scalar_ofBits, Ideal.ofBits_zero_f32]
  by_cases h : epiValid (sAof x1) (tAof x3) ci
  · rw [if_pos h, if_pos h, divf_apply, subf_apply, divf_apply, maximumf_apply, sumsq_apply, sc_16_16x1, nrm_apply, counts_apply]
    rfl
  · rw [if_neg h, if_neg h]

theorem epiVal_eq :
    epiVal (F := Ideal) x0 x1 x2 x3 = fun _ => epiLoss (sFof x0) (sAof x1) (tFof x2) (tAof x3) := by
  classical
  funext i
  simp only [epiVal, k2_pay1, k2_pay17]
  rw [select_apply, cmpf_apply, broadcast_apply, vc_apply, mean_apply, cmpf_ideal, bit_ogt, select_ite, Ideal.ofBits_def, Ideal.ofBits_zero_f32]
  unfold epiLoss
  by_cases h : 0 < epiVc (sAof x1) (tAof x3)
  · rw [if_pos h]
  · rw [if_neg h]

end Cert.Proof.KI.Tc2

end
-- ==== Proof.LibReal.lean ====
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

def IsReal (x : EReal) : Prop := ∃ r : ℝ, x = (r : EReal)

def IsPosReal (x : EReal) : Prop := ∃ r : ℝ, 0 < r ∧ x = (r : EReal)

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem div_coe_coe (a : ℝ) {b : ℝ} (hb : b ≠ 0) :
    Ideal.div (a : EReal) (b : EReal) = ((a / b : ℝ) : EReal) := by
  rw [Ideal.div_coe hb, ← EReal.coe_mul, mul_one_div]

theorem ofBits_zero : Ideal.ofBits .f32 0x00000000#32 = ((0 : ℝ) : EReal) := by
  rw [Ideal.ofBits_zero_f32, EReal.coe_zero]

end Cert.LibReal

end
-- ==== Proof.Algebra.lean ====
import proofs.«216278_g4776003633407_cont_8to1_c_644_33_alg».proof.Proof.KSpec
import proofs.«216278_g4776003633407_cont_8to1_c_644_33_alg».proof.Proof.RefSpec
import proofs.«216278_g4776003633407_cont_8to1_c_644_33_alg».proof.Proof.LibReal
import Mathlib.Data.EReal.Operations
import Mathlib.Data.EReal.Inv
import Mathlib.Algebra.BigOperators.Group.Finset.Basic
import Mathlib.Algebra.BigOperators.Fin
import Mathlib.Algebra.BigOperators.Field
import Mathlib.Logic.Equiv.Fin.Basic
import Mathlib.Tactic.Ring
import Mathlib.Tactic.Linarith

noncomputable section

namespace Cert.Proof.Spec

open Idealize.ShloMosaic
open Cert.LibReal
open scoped BigOperators
open Classical

theorem sum_rows {M : Type*} [AddCommMonoid M] (f : Fin 65536 → M) :
    ∑ r, f r = (∑ t : Fin 32768, f (tcRow t)) + ∑ w : Fin 32, ∑ t : Fin 1024, f (scRow w t) := by
  have h := Fin.sum_univ_add (M := M) (a := 32768) (b := 32768) f
  have hB : (∑ i : Fin 32768, f (Fin.natAdd 32768 i)) = ∑ t : Fin 32768, f (tcRow t) :=
    Finset.sum_congr rfl fun t _ => rfl
  have hA : (∑ i : Fin 32768, f (Fin.castAdd 32768 i)) = ∑ w : Fin 32, ∑ t : Fin 1024, f (scRow w t) := by
    have h2 := (finProdFinEquiv (m := 32) (n := 1024)).sum_comp (fun i : Fin (32 * 1024) => f (Fin.castAdd 32768 i))
    rw [Fintype.sum_prod_type] at h2
    refine h2.symm.trans ?_
    refine Finset.sum_congr rfl fun w _ => Finset.sum_congr rfl fun t _ => ?_
    have e : Fin.castAdd 32768 (finProdFinEquiv (m := 32) (n := 1024) (w, t)) = scRow w t := by
      apply Fin.ext
      show t.val + 1024 * w.val = 1024 * w.val + t.val
      omega
    rw [e]
  rw [h, hA, hB, add_comm]

theorem sum_lanes {M : Type*} [AddCommMonoid M] (g : Fin 256 → M) :
    ∑ l : Fin 16, ∑ k : Fin 16, g (lane k l) = ∑ j : Fin 256, g j := by
  have h2 := (finProdFinEquiv (m := 16) (n := 16)).sum_comp (fun i : Fin (16 * 16) => g i)
  rw [Fintype.sum_prod_type, Finset.sum_comm] at h2
  refine Eq.trans ?_ h2
  refine Finset.sum_congr rfl fun l _ => Finset.sum_congr rfl fun k _ => ?_
  have e : (finProdFinEquiv (m := 16) (n := 16) (k, l)) = lane k l := by
    apply Fin.ext
    show l.val + 16 * k.val = 16 * k.val + l.val
    omega
  rw [e]

theorem sum_lo32 {M : Type*} [AddCommMonoid M] (h : Fin 32 → M) :
    (∑ l : Fin 32, if l.val < 16 then h l else 0) = ∑ l : Fin 16, h (Fin.castAdd 16 l) := by
  rw [Fin.sum_univ_add (M := M) (a := 16) (b := 16) (fun l : Fin 32 => if l.val < 16 then h l else 0)]
  have h1 : ∀ i : Fin 16, (if (Fin.castAdd 16 i).val < 16 then h (Fin.castAdd 16 i) else 0) = h (Fin.castAdd 16 i) :=
    fun i => if_pos (by rw [Fin.coe_castAdd]; exact i.isLt)
  have h2 : ∀ i : Fin 16, (if (Fin.natAdd 16 i).val < 16 then h (Fin.natAdd 16 i) else 0) = 0 :=
    fun i => if_neg (by rw [Fin.coe_natAdd]; omega)
  rw [Finset.sum_congr rfl fun i _ => h1 i, Finset.sum_congr rfl fun i _ => h2 i, Finset.sum_const_zero, add_zero]

theorem sum_hi32 {M : Type*} [AddCommMonoid M] (h : Fin 32 → M) :
    (∑ l : Fin 32, if 16 ≤ l.val then h l else 0) = ∑ l : Fin 16, h (Fin.natAdd 16 l) := by
  rw [Fin.sum_univ_add (M := M) (a := 16) (b := 16) (fun l : Fin 32 => if 16 ≤ l.val then h l else 0)]
  have h1 : ∀ i : Fin 16, (if 16 ≤ (Fin.castAdd 16 i).val then h (Fin.castAdd 16 i) else 0) = 0 :=
    fun i => if_neg (by rw [Fin.coe_castAdd]; have := i.isLt; omega)
  have h2 : ∀ i : Fin 16, (if 16 ≤ (Fin.natAdd 16 i).val then h (Fin.natAdd 16 i) else 0) = h (Fin.natAdd 16 i) :=
    fun i => if_pos (by rw [Fin.coe_natAdd]; omega)
  rw [Finset.sum_congr rfl fun i _ => h1 i, Finset.sum_congr rfl fun i _ => h2 i, Finset.sum_const_zero, zero_add]

theorem sum_mask13 {M : Type*} [AddCommMonoid M] (q : Fin 16 → Prop) [DecidablePred q] (p : Fin 13 → Prop)
    [DecidablePred p] (h : Fin 16 → M) (g : Fin 13 → M)
    (hq : ∀ c : Fin 13, q (Fin.castAdd 3 c) ↔ p c) (hq' : ∀ c : Fin 3, ¬ q (Fin.natAdd 13 c))
    (hg : ∀ c : Fin 13, p c → h (Fin.castAdd 3 c) = g c) :
    (∑ c : Fin 16, if q c then h c else 0) = ∑ c : Fin 13, if p c then g c else 0 := by
  rw [Fin.sum_univ_add (M := M) (a := 13) (b := 3) (fun c : Fin 16 => if q c then h c else 0)]
  have h2 : ∀ i : Fin 3, (if q (Fin.natAdd 13 i) then h (Fin.natAdd 13 i) else 0) = 0 := fun i => if_neg (hq' i)
  rw [Finset.sum_congr rfl fun i _ => h2 i, Finset.sum_const_zero, add_zero]
  refine Finset.sum_congr rfl fun c _ => ?_
  by_cases hp : p c
  · rw [if_pos hp, if_pos ((hq c).mpr hp), hg c hp]
  · rw [if_neg hp, if_neg (fun hh => hp ((hq c).mp hh))]

theorem sum_pick128 {M : Type*} [AddCommMonoid M] (h : Fin 128 → M) (n : ℕ) (hn : n < 128) :
    (∑ l : Fin 128, if l.val = n then h l else 0) = h ⟨n, hn⟩ := by
  rw [Finset.sum_eq_single (⟨n, hn⟩ : Fin 128)]
  · exact if_pos rfl
  · intro b _ hb
    exact if_neg fun hh => hb (Fin.ext hh)
  · intro h'; exact absurd (Finset.mem_univ _) h'

theorem sum_ite_const {ι M : Type*} [AddCommMonoid M] (s : Finset ι) (c : Prop) [Decidable c] (g : ι → M) :
    (∑ i ∈ s, if c then g i else 0) = if c then ∑ i ∈ s, g i else 0 := by
  by_cases hc : c
  · simp only [hc, if_true]
  · simp only [hc, if_false, Finset.sum_const_zero]

theorem isPosReal_max_one {c : EReal} (hc : IsReal c) : IsPosReal (max c 1) := by
  obtain ⟨r, rfl⟩ := hc
  rcases le_total (r : EReal) 1 with h | h
  · rw [max_eq_right h]; exact ⟨1, one_pos, EReal.coe_one.symm⟩
  · rw [max_eq_left h]
    refine ⟨r, ?_, rfl⟩
    rw [← EReal.coe_one, EReal.coe_le_coe_iff] at h
    linarith

theorem inner_div (s : Fin 256 → EReal) (m : EReal) (hs : ∀ j, IsReal (s j)) (hm : IsPosReal m) :
    ∑ k : Fin 256, Ideal.div (s k) m * s k = Ideal.div (∑ j : Fin 256, s j * s j) m := by
  choose σ hσ using hs
  obtain ⟨μ, hμ, rfl⟩ := hm
  have hμ0 : μ ≠ 0 := hμ.ne'
  have e : s = fun j => (σ j : EReal) := funext hσ
  subst e
  rw [sum_eq_coe_sum Finset.univ _ (fun k => σ k / μ * σ k)
      (fun k _ => by rw [div_coe_coe _ hμ0, ← EReal.coe_mul]),
    sum_eq_coe_sum Finset.univ _ (fun j => σ j * σ j) (fun j _ => (EReal.coe_mul _ _).symm),
    div_coe_coe _ hμ0]
  congr 1
  rw [Finset.sum_div]
  exact Finset.sum_congr rfl fun k _ => by ring

theorem sum_one_eq_card {ι : Type*} (s : Finset ι) : ∑ _i ∈ s, (1 : EReal) = ((s.card : ℝ) : EReal) := by
  rw [sum_eq_coe_sum s (fun _ => (1 : EReal)) (fun _ => (1 : ℝ)) (fun _ _ => EReal.coe_one.symm)]
  congr 1
  rw [Finset.sum_const, nsmul_eq_mul, mul_one]

theorem sixteen_eq : (16 : EReal) = ((16 : ℝ) : EReal) := by norm_cast

theorem sixteen_lanes (n : ℝ) : Ideal.div (∑ _l : Fin 16, (n : EReal)) 16 = (n : EReal) := by
  rw [sum_eq_coe_sum Finset.univ (fun _ => (n : EReal)) (fun _ => n) (fun _ _ => rfl), sixteen_eq,
    div_coe_coe _ (by norm_num : (16 : ℝ) ≠ 0)]
  congr 1
  rw [Finset.sum_const, Finset.card_univ, Fintype.card_fin, nsmul_eq_mul]
  push_cast
  ring

section Main

variable (x : Fin 65536 → Fin 256 → EReal) (lab : Fin 65536 → ℕ)

theorem scA_lo (w : Fin 32) (c : Fin 16) (l : Fin 16) : scA x lab w c (Fin.castAdd 16 l) = scSq x lab w c l := by
  unfold scA
  rw [dif_pos (show (Fin.castAdd 16 l).val < 16 by rw [Fin.coe_castAdd]; exact l.isLt)]
  rfl

theorem scA_hi (w : Fin 32) (c : Fin 16) (l : Fin 16) :
    scA x lab w c (Fin.natAdd 16 l) = ((scCnt lab w c : ℝ) : EReal) := by
  unfold scA
  rw [dif_neg (show ¬ (Fin.natAdd 16 l).val < 16 by rw [Fin.coe_natAdd]; omega)]

theorem tcA_zero (c : Fin 16) (h : 0 < 128) : tcA x lab c ⟨0, h⟩ = tcSq x lab c := if_pos rfl

theorem tcA_one (c : Fin 16) (h : 1 < 128) : tcA x lab c ⟨1, h⟩ = ((tcCnt lab c : ℝ) : EReal) := by
  unfold tcA
  rw [if_neg (show ¬ (1 : ℕ) = 0 by omega), if_pos rfl]

theorem scSq_sum (w : Fin 32) (c : Fin 16) :
    ∑ l : Fin 16, scSq x lab w c l
      = ∑ t : Fin 1024, if lab (scRow w t) = c.val then ∑ j : Fin 256, x (scRow w t) j * x (scRow w t) j else 0 := by
  unfold scSq
  rw [Finset.sum_comm]
  refine Finset.sum_congr rfl fun t _ => ?_
  rw [sum_ite_const]
  have hl : ∑ l : Fin 16, ∑ k : Fin 16, x (scRow w t) (lane k l) * x (scRow w t) (lane k l)
      = ∑ j : Fin 256, x (scRow w t) j * x (scRow w t) j :=
    sum_lanes fun j => x (scRow w t) j * x (scRow w t) j
  rw [hl]

theorem sumF_eq (ci : Fin 13) (j : Fin 256) :
    sumF x lab ci j = epiSf (scF x lab) (tcF x lab) (Fin.castAdd 3 ci) j := by
  unfold sumF rows epiSf scF tcF
  rw [Finset.sum_filter, sum_rows]
  rfl

theorem sumSq_eq (ci : Fin 13) :
    sumSq x lab ci = epiSumsq (scA x lab) (tcA x lab) (Fin.castAdd 3 ci) := by
  unfold sumSq rows epiSumsq epiAux
  rw [Finset.sum_filter, sum_rows, sum_lo32, sum_pick128 _ 0 (by norm_num), tcA_zero]
  simp only [scA_lo]
  have h1 : ∑ l : Fin 16, ∑ w : Fin 32, scSq x lab w (Fin.castAdd 3 ci) l
      = ∑ w : Fin 32, ∑ t : Fin 1024,
          if lab (scRow w t) = ci.val then ∑ j : Fin 256, x (scRow w t) j * x (scRow w t) j else 0 := by
    rw [Finset.sum_comm]
    exact Finset.sum_congr rfl fun w _ => scSq_sum x lab w _
  rw [h1, add_comm]
  rfl

theorem card_rows (ci : Fin 13) :
    (rows lab ci).card = tcCnt lab (Fin.castAdd 3 ci) + ∑ w : Fin 32, scCnt lab w (Fin.castAdd 3 ci) := by
  unfold rows tcCnt scCnt
  simp only [Finset.card_filter]
  rw [sum_rows]
  rfl

theorem cnt_eq (ci : Fin 13) :
    cnt lab ci = epiCounts (scA x lab) (tcA x lab) (Fin.castAdd 3 ci) := by
  unfold cnt epiCounts epiAux
  rw [sum_one_eq_card, sum_hi32, sum_pick128 _ 1 (by norm_num), tcA_one]
  simp only [scA_hi]
  rw [sum_eq_coe_sum Finset.univ (fun w => ((scCnt lab w (Fin.castAdd 3 ci) : ℝ) : EReal))
      (fun w => (scCnt lab w (Fin.castAdd 3 ci) : ℝ)) (fun _ _ => rfl),
    sixteen_lanes, ← EReal.coe_add, card_rows]
  congr 1
  push_cast
  ring

theorem isReal_cnt (ci : Fin 13) : IsReal (cnt lab ci) := by
  unfold cnt
  rw [sum_one_eq_card]
  exact isReal_coe _

theorem safe_eq (ci : Fin 13) :
    safe lab ci = epiSafe (scA x lab) (tcA x lab) (Fin.castAdd 3 ci) := by
  unfold safe epiSafe
  rw [cnt_eq x lab ci]

theorem var_eq (hfin : ∀ r j, ∃ a : ℝ, x r j = (a : EReal)) (ci : Fin 13) :
    var x lab ci = epiVar (scF x lab) (scA x lab) (tcF x lab) (tcA x lab) (Fin.castAdd 3 ci) := by
  unfold var epiVar epiNrm mean
  have hs : ∀ j, IsReal (sumF x lab ci j) := fun j => IsReal.sum _ _ fun r _ => hfin r j
  have hm : IsPosReal (safe lab ci) := isPosReal_max_one (isReal_cnt lab ci)
  rw [inner_div (fun k => sumF x lab ci k) (safe lab ci) hs hm, ← sumSq_eq, ← safe_eq x]
  simp only [← sumF_eq]

theorem valid_iff (ci : Fin 13) :
    epiValid (scA x lab) (tcA x lab) (Fin.castAdd 3 ci) ↔ valid lab ci := by
  unfold epiValid valid
  rw [← cnt_eq x lab ci]
  have : (Fin.castAdd 3 ci).val < 13 := by rw [Fin.coe_castAdd]; exact ci.isLt
  simp only [this, and_true]

theorem not_valid_hi (c : Fin 3) : ¬ epiValid (scA x lab) (tcA x lab) (Fin.natAdd 13 c) := by
  unfold epiValid
  rw [Fin.coe_natAdd]
  omega

theorem vcount_eq : vcount lab = epiVc (scA x lab) (tcA x lab) := by
  unfold vcount epiVc
  exact (sum_mask13 (fun c => epiValid (scA x lab) (tcA x lab) c) (fun ci => valid lab ci) (fun _ => (1 : EReal))
    (fun _ => (1 : EReal)) (valid_iff x lab) (not_valid_hi x lab) (fun _ _ => rfl)).symm

theorem lossSum_eq (hfin : ∀ r j, ∃ a : ℝ, x r j = (a : EReal)) :
    lossSum x lab = epiLossSum (scF x lab) (scA x lab) (tcF x lab) (tcA x lab) := by
  unfold lossSum epiLossSum
  exact (sum_mask13 (fun c => epiValid (scA x lab) (tcA x lab) c) (fun ci => valid lab ci)
    (fun c => epiVar (scF x lab) (scA x lab) (tcF x lab) (tcA x lab) c) (fun ci => var x lab ci)
    (valid_iff x lab) (not_valid_hi x lab) (fun ci _ => (var_eq x lab hfin ci).symm)).symm

theorem loss_eq (hfin : ∀ r j, ∃ a : ℝ, x r j = (a : EReal)) (_hlab : ∀ r, lab r ≤ 12) :
    refLoss x lab = epiLoss (scF x lab) (scA x lab) (tcF x lab) (tcA x lab) := by
  unfold refLoss epiLoss
  rw [vcount_eq x lab, lossSum_eq x lab hfin]

end Main

end Cert.Proof.Spec

end
-- ==== Proof.Tc1Math.lean ====
import proofs.«216278_g4776003633407_cont_8to1_c_644_33_alg».proof.Proof.KSpec
import proofs.«216278_g4776003633407_cont_8to1_c_644_33_alg».proof.Proof.KSpecLemmas
import proofs.«216278_g4776003633407_cont_8to1_c_644_33_alg».proof.Proof.LibReal
import Mathlib.Data.EReal.Operations
import Mathlib.Algebra.BigOperators.Group.Finset.Basic

noncomputable section

namespace Cert.Proof.Spec

open Idealize.ShloMosaic
open Cert.LibReal
open scoped BigOperators

section UpTo

variable {M : Type*} [AddCommMonoid M]

def upTo16 (c : Fin 16 → M) (n : ℕ) : M := ∑ b : Fin 16, if b.val < n then c b else 0

theorem upTo16_zero (c : Fin 16 → M) : upTo16 c 0 = 0 := by
  unfold upTo16
  exact Finset.sum_eq_zero fun b _ => if_neg (Nat.not_lt_zero _)

theorem upTo16_succ (c : Fin 16 → M) (b : Fin 16) : upTo16 c (b.val + 1) = upTo16 c b.val + c b := by
  unfold upTo16
  have h : ∀ b' : Fin 16, (if b'.val < b.val + 1 then c b' else 0)
      = (if b'.val < b.val then c b' else 0) + (if b' = b then c b' else 0) := by
    intro b'
    by_cases h1 : b'.val < b.val
    · have h2 : b' ≠ b := fun hh => by rw [hh] at h1; exact lt_irrefl _ h1
      rw [if_pos h1, if_pos (by omega), if_neg h2, add_zero]
    · by_cases h2 : b' = b
      · rw [if_neg h1, if_pos h2, if_pos (by rw [h2]; omega), zero_add]
      · have : b'.val ≠ b.val := fun hh => h2 (Fin.ext hh)
        rw [if_neg h1, if_neg h2, if_neg (by omega), add_zero]
  rw [Finset.sum_congr rfl fun b' _ => h b', Finset.sum_add_distrib, Finset.sum_ite_eq', if_pos (Finset.mem_univ _)]

theorem upTo16_one (c : Fin 16 → M) : upTo16 c 1 = c 0 := by
  have h := upTo16_succ c 0
  rw [show ((0 : Fin 16).val + 1) = 1 from rfl, show (0 : Fin 16).val = 0 from rfl, upTo16_zero, zero_add] at h
  exact h

theorem upTo16_sixteen (c : Fin 16 → M) : upTo16 c 16 = ∑ b : Fin 16, c b := by
  unfold upTo16
  exact Finset.sum_congr rfl fun b _ => if_pos b.isLt

end UpTo

theorem sum_ite_one {ι : Type*} (s : Finset ι) (p : ι → Prop) [DecidablePred p] :
    ∑ i ∈ s, (if p i then (1 : EReal) else 0) = (((s.filter p).card : ℝ) : EReal) := by
  rw [← Finset.sum_filter,
    sum_eq_coe_sum (s.filter p) (fun _ => (1 : EReal)) (fun _ => (1 : ℝ)) (fun _ _ => EReal.coe_one.symm)]
  congr 1
  rw [Finset.sum_const, nsmul_eq_mul, mul_one]

section Block

variable (x : Fin 65536 → Fin 256 → EReal) (lab : Fin 65536 → ℕ)

def blockLab (b : Fin 16) (i : Fin 2048) : ℕ := lab (tcRow (blockRow b i))

def oneHot (b : Fin 16) (ci : Fin 16) (i : Fin 2048) : EReal := if ci.val = blockLab lab b i then 1 else 0

def rowSq (b : Fin 16) (i : Fin 2048) : EReal :=
  ∑ j : Fin 256, x (tcRow (blockRow b i)) j * x (tcRow (blockRow b i)) j

def auxCol (b : Fin 16) (i : Fin 2048) (l : Fin 128) : EReal :=
  if l.val = 0 then rowSq x b i else if l.val = 1 then 1 else 0

def blockF (b : Fin 16) (ci : Fin 16) (j : Fin 256) : EReal :=
  ∑ i : Fin 2048, oneHot lab b ci i * x (tcRow (blockRow b i)) j

def blockA (b : Fin 16) (ci : Fin 16) (l : Fin 128) : EReal :=
  ∑ i : Fin 2048, oneHot lab b ci i * auxCol x b i l

theorem oneHot_mul (b : Fin 16) (ci : Fin 16) (i : Fin 2048) (y : EReal) :
    oneHot lab b ci i * y = if lab (tcRow (blockRow b i)) = ci.val then y else 0 := by
  unfold oneHot blockLab
  by_cases h : lab (tcRow (blockRow b i)) = ci.val
  · rw [if_pos h.symm, if_pos h, one_mul]
  · rw [if_neg (fun hh => h hh.symm), if_neg h, zero_mul]

theorem blockF_eq (b : Fin 16) (ci : Fin 16) (j : Fin 256) :
    blockF x lab b ci j
      = ∑ i : Fin 2048, if lab (tcRow (blockRow b i)) = ci.val then x (tcRow (blockRow b i)) j else 0 := by
  unfold blockF
  exact Finset.sum_congr rfl fun i _ => oneHot_mul lab b ci i _

theorem blockA_zero (b : Fin 16) (ci : Fin 16) (l : Fin 128) (hl : l.val = 0) :
    blockA x lab b ci l
      = ∑ i : Fin 2048, if lab (tcRow (blockRow b i)) = ci.val
          then ∑ j : Fin 256, x (tcRow (blockRow b i)) j * x (tcRow (blockRow b i)) j else 0 := by
  unfold blockA
  refine Finset.sum_congr rfl fun i _ => ?_
  rw [oneHot_mul]
  unfold auxCol rowSq
  rw [if_pos hl]

theorem blockA_one (b : Fin 16) (ci : Fin 16) (l : Fin 128) (hl : l.val = 1) :
    blockA x lab b ci l
      = ∑ i : Fin 2048, if lab (tcRow (blockRow b i)) = ci.val then (1 : EReal) else 0 := by
  unfold blockA
  refine Finset.sum_congr rfl fun i _ => ?_
  rw [oneHot_mul]
  unfold auxCol
  rw [if_neg (show ¬ l.val = 0 by omega), if_pos hl]

theorem blockA_rest (b : Fin 16) (ci : Fin 16) (l : Fin 128) (h0 : l.val ≠ 0) (h1 : l.val ≠ 1) :
    blockA x lab b ci l = 0 := by
  unfold blockA
  refine Finset.sum_eq_zero fun i _ => ?_
  unfold auxCol
  rw [if_neg h0, if_neg h1, mul_zero]

theorem tcF_eq_blocks (ci : Fin 16) (j : Fin 256) : tcF x lab ci j = ∑ b : Fin 16, blockF x lab b ci j := by
  unfold tcF
  rw [sum_blocks]
  exact Finset.sum_congr rfl fun b _ => (blockF_eq x lab b ci j).symm

theorem tcA_eq_blocks (ci : Fin 16) (l : Fin 128) : tcA x lab ci l = ∑ b : Fin 16, blockA x lab b ci l := by
  unfold tcA
  by_cases h0 : l.val = 0
  · rw [if_pos h0]
    unfold tcSq
    rw [sum_blocks]
    exact Finset.sum_congr rfl fun b _ => (blockA_zero x lab b ci l h0).symm
  · rw [if_neg h0]
    by_cases h1 : l.val = 1
    · rw [if_pos h1]
      unfold tcCnt
      rw [← sum_ite_one, sum_blocks]
      exact Finset.sum_congr rfl fun b _ => (blockA_one x lab b ci l h1).symm
    · rw [if_neg h1]
      exact (Finset.sum_eq_zero fun b _ => blockA_rest x lab b ci l h0 h1).symm

theorem tcF_eq_upTo16 (ci : Fin 16) (j : Fin 256) :
    tcF x lab ci j = upTo16 (fun b => blockF x lab b ci j) 16 := by
  rw [upTo16_sixteen, tcF_eq_blocks]

theorem tcA_eq_upTo16 (ci : Fin 16) (l : Fin 128) :
    tcA x lab ci l = upTo16 (fun b => blockA x lab b ci l) 16 := by
  rw [upTo16_sixteen, tcA_eq_blocks]

end Block

end Cert.Proof.Spec

end
-- ==== Proof.Tc1Ideal.lean ====
import proofs.«216278_g4776003633407_cont_8to1_c_644_33_alg».proof.Proof.Tc1Val
import proofs.«216278_g4776003633407_cont_8to1_c_644_33_alg».proof.Proof.Tc1Math
import Idealize.ShloMosaic.Lib.ValueIdx
import Idealize.ShloMosaic.Lib.ValueLayout
import Idealize.ShloMosaic.PureOps.Ideal
import Idealize.ShloMosaic.PureOps.IdealRules

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore.Cfg (HIx Pay)
open Idealize.SL Idealize.SL.Sem
open scoped BigOperators

section AnyF

variable {F : FTy → Type} [FloatOps F] (W : TcVal F)

theorem tcRes0_eq (c : Dev nD) : tcRes0 W c = (tcAcc W c 15 t15_lt).1 := by
  have hz' : (fun a => win1_2.index ⟨15, t15_lt⟩ a * main_v2_0.ty.shape.size a) = fun _ => 0 :=
    funext fun a => by fin_cases a <;> decide
  exact Memref.write_access_unit_zero_univ (Elt F) main_v2_0 hz' (fun a => by rw [congrFun hz' a]; simp) _ _

theorem tcRes1_eq (c : Dev nD) : tcRes1 W c = (tcAcc W c 15 t15_lt).2 := by
  have hz' : (fun a => win1_3.index ⟨15, t15_lt⟩ a * main_v2_1.ty.shape.size a) = fun _ => 0 :=
    funext fun a => by fin_cases a <;> decide
  exact Memref.write_access_unit_zero_univ (Elt F) main_v2_1 hz' (fun a => by rw [congrFun hz' a]; simp) _ _

theorem index1_0 (t : Fin cfg1.N) : win1_0.index t 0 = t.val + 16 ∧ win1_0.index t 1 = 0 ∧ win1_0.index t 2 = 0 :=
  (by decide +kernel : ∀ t : Fin grid1.N, win1_0.index t 0 = t.val + 16 ∧ win1_0.index t 1 = 0 ∧ win1_0.index t 2 = 0) t
theorem index1_1 (t : Fin cfg1.N) : win1_1.index t 0 = t.val + 16 ∧ win1_1.index t 1 = 0 :=
  (by decide +kernel : ∀ t : Fin grid1.N, win1_1.index t 0 = t.val + 16 ∧ win1_1.index t 1 = 0) t

theorem row_lt (t : Fin cfg1.N) (k : Fin 2048) : 2048 * (t.val + 16) + k.val < 65536 := by
  have := lt_of_lt_of_eq t.isLt (show cfg1.N = 16 from N_1); have := k.isLt; omega
theorem blk_lt (t : Fin cfg1.N) : t.val + 16 < 32 := by
  have := lt_of_lt_of_eq t.isLt (show cfg1.N = 16 from N_1); omega

theorem iblk1_x_apply (c : Dev nD) (t : Fin cfg1.N) (k : Fin 2048) (j : Fin 256) :
    (iblk1 W c 1 t : Vec F S2048x256 .f32) (ix2 k j) = W c main_arg0 (ix2 ⟨2048 * (t.val + 16) + k.val, row_lt t k⟩ j) := by
  unfold iblk1
  rw [View.read_apply]
  show W c main_arg0 _ = W c main_arg0 _
  congr 1
  funext a
  apply Fin.ext
  match a with
  | ⟨0, _⟩ => show win1_1.index t 0 * 2048 + 1 * k.val = 2048 * (t.val + 16) + k.val; rw [(index1_1 t).1]; omega
  | ⟨1, _⟩ => show win1_1.index t 1 * 256 + 1 * j.val = j.val; rw [(index1_1 t).2]; omega

theorem iblk1_l_apply (c : Dev nD) (t : Fin cfg1.N) (k : Fin 2048) :
    (iblk1 W c 0 t : Vec F S1x1x2048 .i32) (ix3 0 0 k) = W c main_v0 (ix3 ⟨t.val + 16, blk_lt t⟩ 0 k) := by
  unfold iblk1
  rw [View.read_apply]
  show W c main_v0 _ = W c main_v0 _
  congr 1
  funext a
  apply Fin.ext
  match a with
  | ⟨0, _⟩ => show win1_0.index t 0 * 1 + 1 * 0 = t.val + 16; rw [(index1_0 t).1]; omega
  | ⟨1, _⟩ => show win1_0.index t 1 * 1 + 1 * 0 = 0; rw [(index1_0 t).2.1]
  | ⟨2, _⟩ => show win1_0.index t 2 * 2048 + 1 * k.val = k.val; rw [(index1_0 t).2.2]; omega

end AnyF

section AtIdeal

open Cert.Proof.Spec Cert.LibReal

abbrev D256 := dot_S16x2048_S2048x256_S16x256_1_0_0_1_n_n
abbrev D128 := dot_S16x2048_S2048x128_S16x128_1_0_0_1_n_n

theorem lhs256_0 (j : S16x256.Idx) (k : D256.contr.Idx) : (D256.lhsIdx j k 0 : ℕ) = j 0 := by
  simp [DotDims.lhsIdx, D256, dot_S16x2048_S2048x256_S16x256_1_0_0_1_n_n]; rfl
theorem lhs256_1 (j : S16x256.Idx) (k : D256.contr.Idx) : (D256.lhsIdx j k 1 : ℕ) = k ⟨0, by decide⟩ := by
  simp [DotDims.lhsIdx, D256, dot_S16x2048_S2048x256_S16x256_1_0_0_1_n_n]; rfl
theorem rhs256_0 (j : S16x256.Idx) (k : D256.contr.Idx) : (D256.rhsIdx j k 0 : ℕ) = k ⟨0, by decide⟩ := by
  simp [DotDims.rhsIdx, D256, dot_S16x2048_S2048x256_S16x256_1_0_0_1_n_n]; rfl
theorem rhs256_1 (j : S16x256.Idx) (k : D256.contr.Idx) : (D256.rhsIdx j k 1 : ℕ) = j 1 := by
  simp [DotDims.rhsIdx, D256, dot_S16x2048_S2048x256_S16x256_1_0_0_1_n_n]; rfl

theorem lhs128_0 (j : S16x128.Idx) (k : D128.contr.Idx) : (D128.lhsIdx j k 0 : ℕ) = j 0 := by
  simp [DotDims.lhsIdx, D128, dot_S16x2048_S2048x128_S16x128_1_0_0_1_n_n]; rfl
theorem lhs128_1 (j : S16x128.Idx) (k : D128.contr.Idx) : (D128.lhsIdx j k 1 : ℕ) = k ⟨0, by decide⟩ := by
  simp [DotDims.lhsIdx, D128, dot_S16x2048_S2048x128_S16x128_1_0_0_1_n_n]; rfl
theorem rhs128_0 (j : S16x128.Idx) (k : D128.contr.Idx) : (D128.rhsIdx j k 0 : ℕ) = k ⟨0, by decide⟩ := by
  simp [DotDims.rhsIdx, D128, dot_S16x2048_S2048x128_S16x128_1_0_0_1_n_n]; rfl
theorem rhs128_1 (j : S16x128.Idx) (k : D128.contr.Idx) : (D128.rhsIdx j k 1 : ℕ) = j 1 := by
  simp [DotDims.rhsIdx, D128, dot_S16x2048_S2048x128_S16x128_1_0_0_1_n_n]; rfl

def cE256 : D256.contr.Idx ≃ Fin 2048 := contrEquiv1 D256 2048 (by decide) (by decide)
def cE128 : D128.contr.Idx ≃ Fin 2048 := contrEquiv1 D128 2048 (by decide) (by decide)

theorem cE256_symm_val (k : Fin 2048) : ((cE256.symm k) ⟨0, by decide⟩ : ℕ) = k.val := contrEquiv1_symm_val D256 2048 _ _ k
theorem cE128_symm_val (k : Fin 2048) : ((cE128.symm k) ⟨0, by decide⟩ : ℕ) = k.val := contrEquiv1_symm_val D128 2048 _ _ k

theorem lhsIdx256 (ci : Fin 16) (j : Fin 256) (k : Fin 2048) : D256.lhsIdx (ix2 ci j) (cE256.symm k) = ix2 ci k := by
  funext a; apply Fin.ext
  match a with
  | ⟨0, _⟩ => exact lhs256_0 _ _
  | ⟨1, _⟩ => exact (lhs256_1 _ _).trans (cE256_symm_val k)
theorem rhsIdx256 (ci : Fin 16) (j : Fin 256) (k : Fin 2048) : D256.rhsIdx (ix2 ci j) (cE256.symm k) = ix2 k j := by
  funext a; apply Fin.ext
  match a with
  | ⟨0, _⟩ => exact (rhs256_0 _ _).trans (cE256_symm_val k)
  | ⟨1, _⟩ => exact rhs256_1 _ _
theorem lhsIdx128 (ci : Fin 16) (l : Fin 128) (k : Fin 2048) : D128.lhsIdx (ix2 ci l) (cE128.symm k) = ix2 ci k := by
  funext a; apply Fin.ext
  match a with
  | ⟨0, _⟩ => exact lhs128_0 _ _
  | ⟨1, _⟩ => exact (lhs128_1 _ _).trans (cE128_symm_val k)
theorem rhsIdx128 (ci : Fin 16) (l : Fin 128) (k : Fin 2048) : D128.rhsIdx (ix2 ci l) (cE128.symm k) = ix2 k l := by
  funext a; apply Fin.ext
  match a with
  | ⟨0, _⟩ => exact (rhs128_0 _ _).trans (cE128_symm_val k)
  | ⟨1, _⟩ => exact rhs128_1 _ _

theorem onehot_word (n : ℕ) (hn : n < 2 ^ 32) (w : BitVec 32) :
    ((((IntOp.cmpi .eq (BitVec.ofNat 32 n) w).setWidth 32).toInt : ℝ) : EReal) = if n = w.toNat then 1 else 0 := by
  have e : (BitVec.ofNat 32 n == w) = decide (n = w.toNat) := by
    by_cases h : n = w.toNat
    · subst h; simp
    · have hne : BitVec.ofNat 32 n ≠ w := fun hh => h (by rw [← hh, BitVec.toNat_ofNat, Nat.mod_eq_of_lt hn])
      simp [hne, h]
  unfold IntOp.cmpi
  simp only [e]
  by_cases h : n = w.toNat
  · rw [if_pos h, decide_eq_true h]
    have e1 : ((BitVec.ofBool true).setWidth 32).toInt = 1 := by decide
    rw [e1]; norm_num
  · rw [if_neg h, decide_eq_false h]
    have e0 : ((BitVec.ofBool false).setWidth 32).toInt = 0 := by decide
    rw [e0]; norm_num

theorem pay1_apply (L : Vec Ideal S1x1x2048 .i32) (ci : Fin 16) (k : Fin 2048) :
    k1_pay1 (F := Ideal) L (ix2 ci k) = if ci.val = (L (ix3 0 0 k)).toNat then (1 : EReal) else 0 := by
  unfold k1_pay1
  dsimp only
  rw [sitofp_apply, extui_apply]
  show ((((IntOp.cmpi .eq (iota .tc S16x2048 32 [0] iota_S16x2048_d0_w32 (ix2 ci k))
      (broadcastTo S16x2048 (shapeCast S1x2048 L shapeCasts_S1x1x2048_S1x2048) broadcasts_S1x2048_S16x2048 (ix2 ci k))).setWidth 32).toInt : ℝ) : EReal) = _
  rw [broadcastTo_1b_ab_apply, shapeCast_1ab_ab_apply]
  have hi : iota .tc S16x2048 32 [0] iota_S16x2048_d0_w32 (ix2 ci k) = BitVec.ofNat 32 ci.val := by
    show BitVec.ofNat 32 (0 * 16 + ci.val) = _
    rw [Nat.zero_mul, Nat.zero_add]
  rw [hi]
  exact onehot_word ci.val (by have := ci.isLt; omega) _

theorem pay2_apply (X : Vec Ideal S2048x256 .f32) (L : Vec Ideal S1x1x2048 .i32) (ci : Fin 16) (j : Fin 256) :
    k1_pay2 (F := Ideal) X L (ix2 ci j)
      = ∑ k : Fin 2048, (if ci.val = (L (ix3 0 0 k)).toNat then (1 : EReal) else 0) * X (ix2 k j) := by
  unfold k1_pay2
  show Ideal.matmul D256 (k1_pay1 L) X (constant (F := Ideal) S16x256 .f32 0x00000000#32) (ix2 ci j) = _
  unfold Ideal.matmul
  rw [constant_apply, ofBits_zero, EReal.coe_zero, zero_add, ← Equiv.sum_comp cE256.symm]
  refine Finset.sum_congr rfl fun k _ => ?_
  rw [lhsIdx256, rhsIdx256, pay1_apply]

theorem select_word_eq {α : Type} (n m : ℕ) (hn : n < 2 ^ 32) (hm : m < 2 ^ 32) (A B : α) :
    Scalar.select (IntOp.cmpi .eq (BitVec.ofNat 32 n) (BitVec.ofNat 32 m)) A B = if n = m then A else B := by
  have e : (BitVec.ofNat 32 n == BitVec.ofNat 32 m) = decide (n = m) := by
    by_cases h : n = m
    · subst h; simp
    · have hne : BitVec.ofNat 32 n ≠ BitVec.ofNat 32 m := fun hh => h (by
        have := congrArg BitVec.toNat hh
        rwa [BitVec.toNat_ofNat, BitVec.toNat_ofNat, Nat.mod_eq_of_lt hn, Nat.mod_eq_of_lt hm] at this)
      simp [hne, h]
  unfold IntOp.cmpi
  simp only [e]
  by_cases h : n = m
  · rw [if_pos h, decide_eq_true h]; exact select_one A B
  · rw [if_neg h, decide_eq_false h]; exact select_zero A B

theorem select_word_zero {α : Type} (n : ℕ) (hn : n < 2 ^ 32) (A B : α) :
    Scalar.select (IntOp.cmpi .eq (BitVec.ofNat 32 n) 0#32) A B = if n = 0 then A else B :=
  select_word_eq n 0 hn (by norm_num) A B
theorem select_word_one {α : Type} (n : ℕ) (hn : n < 2 ^ 32) (A B : α) :
    Scalar.select (IntOp.cmpi .eq (BitVec.ofNat 32 n) 1#32) A B = if n = 1 then A else B :=
  select_word_eq n 1 hn (by norm_num) A B

theorem rowsq_apply (X : Vec Ideal S2048x256 .f32) (k : Fin 2048) :
    (multiReduction (F := Ideal) .add [1] S2048 (mulf X X) 0x00000000#32 reduces_S2048x256_S2048 (.inl rfl) rfl) (ix1 k)
      = ∑ j : Fin 256, X (ix2 k j) * X (ix2 k j) := by
  show Ideal.reduceAdd reduces_S2048x256_S2048 (fun i : S2048x256.Idx => (X i * X i : EReal)) (ix1 k) = _
  unfold Ideal.reduceAdd
  rw [Finset.sum_filter, sum_idx2]
  have hd : ∀ (a : Fin 2048) (b : Fin 256), (reduces_S2048x256_S2048.drop (ix2 a b) = ix1 k) ↔ a = k := fun a b => by
    constructor
    · intro h
      have := congrFun h 0
      exact Fin.ext (show (reduces_S2048x256_S2048.drop (ix2 a b) 0).val = (ix1 k 0).val from congrArg Fin.val this)
    · rintro rfl
      funext d; match d with | ⟨0, _⟩ => rfl
  simp only [hd]
  rw [Finset.sum_eq_single k (fun a _ ha => by simp [ha]) (fun h => absurd (Finset.mem_univ k) h)]
  simp

theorem aux_apply (X : Vec Ideal S2048x256 .f32) (k : Fin 2048) (l : Fin 128) :
    (select (cmpi .eq (iota .tc S2048x128 32 [1] iota_S2048x128_d1_w32) (broadcast S2048x128 0#32))
        (broadcastTo S2048x128 (shapeCast S2048x1 (shapeCast S2048x1 (multiReduction (F := Ideal) .add [1] S2048 (mulf X X) 0x00000000#32 reduces_S2048x256_S2048 (.inl rfl) rfl) shapeCasts_S2048_S2048x1) shapeCasts_S2048x1_S2048x1) broadcasts_S2048x1_S2048x128)
        (select (cmpi .eq (iota .tc S2048x128 32 [1] iota_S2048x128_d1_w32) (broadcast S2048x128 1#32))
          (broadcast S2048x128 (Scalar.ofBits (F := Ideal) .f32 0x3F800000#32)) (broadcast S2048x128 (Scalar.ofBits (F := Ideal) .f32 0x00000000#32)))
        : FVec Ideal S2048x128 .f32) (ix2 k l)
      = if l.val = 0 then ∑ j : Fin 256, X (ix2 k j) * X (ix2 k j) else if l.val = 1 then 1 else 0 := by
  have hi : iota .tc S2048x128 32 [1] iota_S2048x128_d1_w32 (ix2 k l) = BitVec.ofNat 32 l.val := by
    show BitVec.ofNat 32 (0 * 128 + l.val) = _
    rw [Nat.zero_mul, Nat.zero_add]
  have hl : l.val < 2 ^ 32 := by have := l.isLt; omega
  rw [select_apply, select_apply]
  show Scalar.select (IntOp.cmpi .eq (iota .tc S2048x128 32 [1] iota_S2048x128_d1_w32 (ix2 k l)) 0#32) _
      (Scalar.select (IntOp.cmpi .eq (iota .tc S2048x128 32 [1] iota_S2048x128_d1_w32 (ix2 k l)) 1#32) _ _) = _
  rw [hi, select_word_zero l.val hl, select_word_one l.val hl]
  congr 1
  · rw [broadcastTo_apply _ _ (ix2 k l) (ix2 k (0 : Fin 1)) (fun ax => by
      match ax with
      | ⟨0, _⟩ => rfl
      | ⟨1, _⟩ => rfl)]
    rw [shapeCast_self, shapeCast_apply _ _ (ix2 k (0 : Fin 1)) (ix1 k) (by
      rw [Shape.rowMajor_val_one, Shape.rowMajor_val_two]
      show k.val = k.val * 1 + 0
      omega)]
    exact rowsq_apply X k
  · congr 1
    · show Ideal.ofBits .f32 0x3F800000#32 = 1
      exact ofBits_one
    · show Ideal.ofBits .f32 0x00000000#32 = 0
      rw [ofBits_zero, EReal.coe_zero]

theorem pay3_apply (X : Vec Ideal S2048x256 .f32) (L : Vec Ideal S1x1x2048 .i32) (ci : Fin 16) (l : Fin 128) :
    k1_pay3 (F := Ideal) X L (ix2 ci l)
      = ∑ k : Fin 2048, (if ci.val = (L (ix3 0 0 k)).toNat then (1 : EReal) else 0)
          * (if l.val = 0 then ∑ j : Fin 256, X (ix2 k j) * X (ix2 k j) else if l.val = 1 then 1 else 0) := by
  unfold k1_pay3
  show Ideal.matmul D128 (k1_pay1 L) _ (constant (F := Ideal) S16x128 .f32 0x00000000#32) (ix2 ci l) = _
  unfold Ideal.matmul
  rw [constant_apply, ofBits_zero, EReal.coe_zero, zero_add, ← Equiv.sum_comp cE128.symm]
  refine Finset.sum_congr rfl fun k _ => ?_
  rw [lhsIdx128, rhsIdx128, pay1_apply, aux_apply]

variable (W : TcVal Ideal)

def xOf (c : Dev nD) : Fin 65536 → Fin 256 → EReal := fun r j => W c main_arg0 (ix2 r j)
def labOf (c : Dev nD) : Fin 65536 → ℕ := fun r =>
  (show BitVec 32 from W c main_v0 (ix3 (⟨r.val / 2048, by have := r.isLt; omega⟩ : Fin 32) (0 : Fin 1)
    (⟨r.val % 2048, Nat.mod_lt _ (by norm_num)⟩ : Fin 2048))).toNat

theorem lt16 (t : Fin cfg1.N) : t.val < 16 := lt_of_lt_of_eq t.isLt (show cfg1.N = 16 from N_1)

theorem tcRow_block (t : Fin cfg1.N) (k : Fin 2048) :
    tcRow (blockRow ⟨t.val, lt16 t⟩ k) = ⟨2048 * (t.val + 16) + k.val, row_lt t k⟩ := Fin.ext (tcRow_blockRow_val _ _)

theorem labOf_row (c : Dev nD) (t : Fin cfg1.N) (k : Fin 2048) :
    labOf W c ⟨2048 * (t.val + 16) + k.val, row_lt t k⟩
      = (show BitVec 32 from W c main_v0 (ix3 (⟨t.val + 16, blk_lt t⟩ : Fin 32) (0 : Fin 1) k)).toNat := by
  unfold labOf
  have h1 : (2048 * (t.val + 16) + k.val) / 2048 = t.val + 16 := by have := k.isLt; omega
  have h2 : (2048 * (t.val + 16) + k.val) % 2048 = k.val := by have := k.isLt; omega
  simp only [h1, h2, Fin.eta]

theorem pay2_block (c : Dev nD) (t : Fin cfg1.N) (ci : Fin 16) (j : Fin 256) :
    k1_pay2 (F := Ideal) (iblk1 W c 1 t) (iblk1 W c 0 t) (ix2 ci j) = blockF (xOf W c) (labOf W c) ⟨t.val, lt16 t⟩ ci j := by
  rw [pay2_apply]
  unfold blockF oneHot blockLab
  refine Finset.sum_congr rfl fun k _ => ?_
  rw [iblk1_x_apply, iblk1_l_apply, tcRow_block, labOf_row]
  rfl

theorem pay3_block (c : Dev nD) (t : Fin cfg1.N) (ci : Fin 16) (l : Fin 128) :
    k1_pay3 (F := Ideal) (iblk1 W c 1 t) (iblk1 W c 0 t) (ix2 ci l) = blockA (xOf W c) (labOf W c) ⟨t.val, lt16 t⟩ ci l := by
  rw [pay3_apply]
  unfold blockA oneHot blockLab auxCol rowSq
  refine Finset.sum_congr rfl fun k _ => ?_
  rw [iblk1_l_apply, tcRow_block, labOf_row]
  simp only [iblk1_x_apply]
  rfl

theorem tcAcc_fst_apply (c : Dev nD) : ∀ (n : ℕ) (h : n < cfg1.N) (ci : Fin 16) (j : Fin 256),
    (tcAcc W c n h).1 (ix2 ci j) = upTo16 (fun b => blockF (xOf W c) (labOf W c) b ci j) (n + 1)
  | 0, h, ci, j => by
    show k1_pay4 (F := Ideal) (iblk1 W c 1 ⟨0, h⟩) (iblk1 W c 0 ⟨0, h⟩) (ix2 ci j) = _
    unfold k1_pay4
    rw [shapeCast_self, pay2_block, upTo16_one]
    rfl
  | n + 1, h, ci, j => by
    show k1_pay6 (F := Ideal) (iblk1 W c 1 ⟨n + 1, h⟩) (iblk1 W c 0 ⟨n + 1, h⟩) (tcAcc W c n (Nat.lt_of_succ_lt h)).1 (ix2 ci j) = _
    unfold k1_pay6
    rw [shapeCast_self, addf_apply, tcAcc_fst_apply c n _ ci j, pay2_block]
    exact (upTo16_succ (fun b => blockF (xOf W c) (labOf W c) b ci j) ⟨n + 1, lt16 ⟨n + 1, h⟩⟩).symm

theorem tcAcc_snd_apply (c : Dev nD) : ∀ (n : ℕ) (h : n < cfg1.N) (ci : Fin 16) (l : Fin 128),
    (tcAcc W c n h).2 (ix2 ci l) = upTo16 (fun b => blockA (xOf W c) (labOf W c) b ci l) (n + 1)
  | 0, h, ci, l => by
    show k1_pay5 (F := Ideal) (iblk1 W c 1 ⟨0, h⟩) (iblk1 W c 0 ⟨0, h⟩) (ix2 ci l) = _
    unfold k1_pay5
    rw [shapeCast_self, pay3_block, upTo16_one]
    rfl
  | n + 1, h, ci, l => by
    show k1_pay7 (F := Ideal) (iblk1 W c 1 ⟨n + 1, h⟩) (iblk1 W c 0 ⟨n + 1, h⟩) (tcAcc W c n (Nat.lt_of_succ_lt h)).2 (ix2 ci l) = _
    unfold k1_pay7
    rw [shapeCast_self, addf_apply, tcAcc_snd_apply c n _ ci l, pay3_block]
    exact (upTo16_succ (fun b => blockA (xOf W c) (labOf W c) b ci l) ⟨n + 1, lt16 ⟨n + 1, h⟩⟩).symm

theorem tcRes0_ideal (c : Dev nD) (ci : Fin 16) (j : Fin 256) :
    tcRes0 W c (ix2 ci j) = tcF (xOf W c) (labOf W c) ci j := by
  rw [tcRes0_eq, tcAcc_fst_apply, tcF_eq_upTo16]

theorem tcRes1_ideal (c : Dev nD) (ci : Fin 16) (l : Fin 128) :
    tcRes1 W c (ix2 ci l) = tcA (xOf W c) (labOf W c) ci l := by
  rw [tcRes1_eq, tcAcc_snd_apply, tcA_eq_upTo16]

theorem shapeCast_labels_apply {α : Type} (f : S65536.Idx → α) (a : Fin 32) (b : Fin 2048) :
    shapeCast S32x1x2048 f shapeCasts_S65536_S32x1x2048 (ix3 a (0 : Fin 1) b)
      = f (ix1 (⟨2048 * a.val + b.val, by have := a.isLt; have := b.isLt; omega⟩ : Fin 65536)) :=
  shapeCast_apply f _ _ _ (by
    rw [Shape.rowMajor_val_one, Shape.rowMajor_val_three]
    show 2048 * a.val + b.val = (a.val * 1 + 0) * 2048 + b.val
    omega)

theorem xOf_eq (c : Dev nD) (x : Fin 65536 → Fin 256 → EReal) (hx : ∀ r j, W c main_arg0 (ix2 r j) = x r j) : xOf W c = x :=
  funext fun r => funext fun j => hx r j

theorem labOf_eq (c : Dev nD) (lab : Fin 65536 → ℕ)
    (hl : ∀ (a : Fin 32) (b : Fin 2048), (show BitVec 32 from W c main_v0 (ix3 a (0 : Fin 1) b)).toNat
      = lab (⟨2048 * a.val + b.val, by have := a.isLt; have := b.isLt; omega⟩ : Fin 65536)) : labOf W c = lab :=
  funext fun r => by
    unfold labOf
    rw [hl]
    exact congrArg lab (Fin.ext (Nat.div_add_mod r.val 2048))

theorem tcRes0_ideal_of (c : Dev nD) (x : Fin 65536 → Fin 256 → EReal) (lab : Fin 65536 → ℕ)
    (hx : ∀ r j, W c main_arg0 (ix2 r j) = x r j)
    (hl : ∀ (a : Fin 32) (b : Fin 2048), (show BitVec 32 from W c main_v0 (ix3 a (0 : Fin 1) b)).toNat
      = lab (⟨2048 * a.val + b.val, by have := a.isLt; have := b.isLt; omega⟩ : Fin 65536))
    (ci : Fin 16) (j : Fin 256) : tcRes0 W c (ix2 ci j) = tcF x lab ci j := by
  rw [tcRes0_ideal, xOf_eq W c x hx, labOf_eq W c lab hl]

theorem tcRes1_ideal_of (c : Dev nD) (x : Fin 65536 → Fin 256 → EReal) (lab : Fin 65536 → ℕ)
    (hx : ∀ r j, W c main_arg0 (ix2 r j) = x r j)
    (hl : ∀ (a : Fin 32) (b : Fin 2048), (show BitVec 32 from W c main_v0 (ix3 a (0 : Fin 1) b)).toNat
      = lab (⟨2048 * a.val + b.val, by have := a.isLt; have := b.isLt; omega⟩ : Fin 65536))
    (ci : Fin 16) (l : Fin 128) : tcRes1 W c (ix2 ci l) = tcA x lab ci l := by
  rw [tcRes1_ideal, xOf_eq W c x hx, labOf_eq W c lab hl]

end AtIdeal

end Cert.Proof.KI

end
-- ==== Proof.Assemble.lean ====
import proofs.«216278_g4776003633407_cont_8to1_c_644_33_alg».proof.Defs
import proofs.«216278_g4776003633407_cont_8to1_c_644_33_alg».proof.Proof.FrameKI
import proofs.«216278_g4776003633407_cont_8to1_c_644_33_alg».proof.Proof.FrameKIB
import proofs.«216278_g4776003633407_cont_8to1_c_644_33_alg».proof.Proof.LaunchV
import proofs.«216278_g4776003633407_cont_8to1_c_644_33_alg».proof.Proof.ValueKI
import proofs.«216278_g4776003633407_cont_8to1_c_644_33_alg».proof.Proof.RefFrame
import proofs.«216278_g4776003633407_cont_8to1_c_644_33_alg».proof.Proof.RefValue
import proofs.«216278_g4776003633407_cont_8to1_c_644_33_alg».proof.Proof.PreFacts
import proofs.«216278_g4776003633407_cont_8to1_c_644_33_alg».proof.Proof.Tc2Val
import proofs.«216278_g4776003633407_cont_8to1_c_644_33_alg».proof.Proof.Tc2Spec
import proofs.«216278_g4776003633407_cont_8to1_c_644_33_alg».proof.Proof.Algebra
import proofs.«216278_g4776003633407_cont_8to1_c_644_33_alg».proof.Proof.Tc1Ideal

noncomputable section

namespace Cert.Proof.Assemble

open Idealize.ShloMosaic Idealize.ShloMosaic.ValueIdx Idealize.SL.Sem
open Cert.Proof.KI

def xArg (m : (ℓ : Loc Cert.KernelIdeal.nD Cert.KernelIdeal.τ Cert.KernelIdeal.sig) → Buf (Elt Ideal) ℓ) (c : Dev Cert.KernelIdeal.nD) :
    Fin 65536 → Fin 256 → EReal :=
  fun r j => (m ((c.tc : Thread Cert.KernelIdeal.nD Cert.KernelIdeal.τ).loc Cert.KernelIdeal.main_arg0) : FVec Ideal Cert.KernelIdeal.S65536x256 .f32) (ix2 r j)

def labArg (m : (ℓ : Loc Cert.KernelIdeal.nD Cert.KernelIdeal.τ Cert.KernelIdeal.sig) → Buf (Elt Ideal) ℓ) (c : Dev Cert.KernelIdeal.nD) :
    Fin 65536 → ℕ :=
  fun r => ((m ((c.tc : Thread Cert.KernelIdeal.nD Cert.KernelIdeal.τ).loc Cert.KernelIdeal.main_arg1) : IVec Cert.KernelIdeal.S65536 32) (ix1 r)).toNat

theorem resV_const {m : (ℓ : Loc Cert.KernelIdeal.nD Cert.KernelIdeal.τ Cert.KernelIdeal.sig) → Buf (Elt Ideal) ℓ}
    {outF : (d : Dev Cert.KernelIdeal.nD) → Buf (Elt Ideal) (oFLoc d)} {outA : (d : Dev Cert.KernelIdeal.nD) → Buf (Elt Ideal) (oALoc d)}
    {N1 N2 : TcVal Ideal → TcVal Ideal} {c : Dev Cert.KernelIdeal.nD} {a : EReal}
    (h : Vout m outF outA N1 N2 c Cert.KernelIdeal.main_v3 = fun _ => a) : resV m outF outA N1 N2 c = fun _ => a := by
  unfold resV
  refine (StableHlo.reshape_result Cert.KernelIdeal.main_v3 Cert.KernelIdeal.main_v4 _ _ _ _ _).trans ?_
  funext i
  show shapeCast _ (V2 m c (Vout m outF outA N1 N2 c Cert.KernelIdeal.main_v3) (Vout m outF outA N1 N2 c Cert.KernelIdeal.main_v4) v3') _ i = a
  rw [V2_v3, h]
  rfl

theorem algebraic_of
    (outF : ((ℓ : Loc Cert.KernelIdeal.nD Cert.KernelIdeal.τ Cert.KernelIdeal.sig) → Buf (Elt Ideal) ℓ) → (d : Dev Cert.KernelIdeal.nD) → Buf (Elt Ideal) (oFLoc d))
    (outA : ((ℓ : Loc Cert.KernelIdeal.nD Cert.KernelIdeal.τ Cert.KernelIdeal.sig) → Buf (Elt Ideal) ℓ) → (d : Dev Cert.KernelIdeal.nD) → Buf (Elt Ideal) (oALoc d))
    (N1 N2 : TcVal Ideal → TcVal Ideal)
    (hrun : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m →
      θ_run (Cert.KernelIdeal.defs (F := Ideal)) (Cert.KernelIdeal.threads (F := Ideal)) ⟨m, fun _ => 0, ρ⟩ (QCV m (outF m) (outA m) N1 N2))
    (hval : ∀ (m : (ℓ : Loc Cert.KernelIdeal.nD Cert.KernelIdeal.τ Cert.KernelIdeal.sig) → Buf (Elt Ideal) ℓ), Cert.Pre_KernelIdeal m →
      ∀ c, Vout m (outF m) (outA m) N1 N2 c Cert.KernelIdeal.main_v3 = fun _ => Spec.refLoss (xArg m c) (labArg m c)) :
    Cert.algebraic_KernelIdeal_ReferenceIdeal := by
  intro m g m' g' hpre hagree
  refine ⟨fun c => fun _ => Spec.refLoss (xArg m c) (labArg m c), ?_, ?_⟩
  · exact (θ_run Cert.KernelIdeal.defs _ _).mono (fun _ h c => ⟨(h c).1.trans (resV_const (hval m hpre c)), (h c).2.1, (h c).2.2⟩) (hrun m g hpre)
  · have hlab' : ∀ (c : Dev Cert.ReferenceIdeal.nD) (r : Cert.ReferenceIdeal.S65536.Idx),
        ((m' ((c.tc : Thread Cert.ReferenceIdeal.nD Cert.ReferenceIdeal.τ).loc Cert.ReferenceIdeal.main_arg1) : IVec Cert.ReferenceIdeal.S65536 32) r).toNat ≤ 12 := by
      intro c r
      rw [(hagree c).2]
      exact Cert.Proof.PreFacts.labels_le_of_pre m hpre c r
    refine (θ_run Cert.ReferenceIdeal.defs _ _).mono (fun _ h c => ⟨(h c).1.trans ?_, (h c).2.1, (h c).2.2⟩)
      (Cert.ReferenceIdeal.RefValue.run_refLoss m' g' hlab')
    rw [(hagree c).1, (hagree c).2]
    rfl

theorem algebraic_pi
    (outF : ((ℓ : Loc Cert.KernelIdeal.nD Cert.KernelIdeal.τ Cert.KernelIdeal.sig) → Buf (Elt Ideal) ℓ) → (d : Dev Cert.KernelIdeal.nD) → Buf (Elt Ideal) (oFLoc d))
    (outA : ((ℓ : Loc Cert.KernelIdeal.nD Cert.KernelIdeal.τ Cert.KernelIdeal.sig) → Buf (Elt Ideal) ℓ) → (d : Dev Cert.KernelIdeal.nD) → Buf (Elt Ideal) (oALoc d))
    (hTileV : ∀ m : (ℓ : Loc Cert.KernelIdeal.nD Cert.KernelIdeal.τ Cert.KernelIdeal.sig) → Buf (Elt Ideal) ℓ, LabOK m →
      (K (F := Ideal)).TileObl (D (F := Ideal)) 𝒱 (PV m (outF m) (outA m)) v₀ 0)
    (hval : ∀ (m : (ℓ : Loc Cert.KernelIdeal.nD Cert.KernelIdeal.τ Cert.KernelIdeal.sig) → Buf (Elt Ideal) ℓ), Cert.Pre_KernelIdeal m →
      ∀ c, Vout m (outF m) (outA m) tcOut Tc2.V3 c Cert.KernelIdeal.main_v3 = fun _ => Spec.refLoss (xArg m c) (labArg m c)) :
    Cert.algebraic_KernelIdeal_ReferenceIdeal :=
  algebraic_of outF outA tcOut Tc2.V3
    (fun m ρ hpre => value_run (F := Ideal) m ρ (outF m) (outA m) (hTileV m fun c r => Cert.Proof.PreFacts.labels_le _ _ (hpre c) r)) hval

section Chain

open Cert.KernelIdeal Cert.KernelIdeal.Gen

variable {F : FTy → Type} [FloatOps F]
variable (m : (ℓ : Loc nD τ sig) → Buf (Elt F) ℓ)
variable (oF : (d : Dev nD) → Buf (Elt F) (oFLoc d)) (oA : (d : Dev nD) → Buf (Elt F) (oALoc d))

theorem Vin_v10 (c : Dev nD) : Vin m oF oA c c main_v1_0 = oF c := by unfold Vin; rw [extV_self, mkV_v10]
theorem Vin_v11 (c : Dev nD) : Vin m oF oA c c main_v1_1 = oA c := by unfold Vin; rw [extV_self, mkV_v11]
theorem Vin_v0 (c : Dev nD) : Vin m oF oA c c main_v0 = labels0 m c := by unfold Vin; rw [extV_self, mkV_v0]
theorem Vin_arg0 (c : Dev nD) : Vin m oF oA c c main_arg0 = m (xLoc c) := (Vin_ok m oF oA c c).1
theorem Vout_v3 (c : Dev nD) :
    Vout m oF oA tcOut Tc2.V3 c main_v3 = Tc2.epiVal (oF c) (oA c) (tcRes0 (Vin m oF oA c) c) (tcRes1 (Vin m oF oA c) c) := by
  have e2 : tcOut (Vin m oF oA c) c main_v2_0 = tcRes0 (Vin m oF oA c) c := tcOut_arr2 _ c
  have e3 : tcOut (Vin m oF oA c) c main_v2_1 = tcRes1 (Vin m oF oA c) c := tcOut_arr3 _ c
  unfold Vout
  rw [Tc2.V3_val, tcOut_rest _ c main_v1_0 (by decide), tcOut_rest _ c main_v1_1 (by decide), e2, e3, Vin_v10, Vin_v11]

end Chain

def outF (m : (ℓ : Loc Cert.KernelIdeal.nD Cert.KernelIdeal.τ Cert.KernelIdeal.sig) → Buf (Elt Ideal) ℓ) (c : Dev Cert.KernelIdeal.nD) :
    Buf (Elt Ideal) (oFLoc c) :=
  fun i => Spec.scF (xArg m c) (labArg m c) (i 0) (i 1) (i 2)

def outA (m : (ℓ : Loc Cert.KernelIdeal.nD Cert.KernelIdeal.τ Cert.KernelIdeal.sig) → Buf (Elt Ideal) ℓ) (c : Dev Cert.KernelIdeal.nD) :
    Buf (Elt Ideal) (oALoc c) :=
  fun i => Spec.scA (xArg m c) (labArg m c) (i 0) (i 1) (i 2)

theorem sFof_outF (m : (ℓ : Loc Cert.KernelIdeal.nD Cert.KernelIdeal.τ Cert.KernelIdeal.sig) → Buf (Elt Ideal) ℓ) (c : Dev Cert.KernelIdeal.nD) :
    Tc2.sFof (outF m c) = Spec.scF (xArg m c) (labArg m c) := rfl
theorem sAof_outA (m : (ℓ : Loc Cert.KernelIdeal.nD Cert.KernelIdeal.τ Cert.KernelIdeal.sig) → Buf (Elt Ideal) ℓ) (c : Dev Cert.KernelIdeal.nD) :
    Tc2.sAof (outA m c) = Spec.scA (xArg m c) (labArg m c) := rfl

theorem hval_of
    (hT0 : ∀ (m : (ℓ : Loc Cert.KernelIdeal.nD Cert.KernelIdeal.τ Cert.KernelIdeal.sig) → Buf (Elt Ideal) ℓ), Cert.Pre_KernelIdeal m → ∀ c,
      Tc2.tFof (tcRes0 (Vin m (outF m) (outA m) c) c) = Spec.tcF (xArg m c) (labArg m c))
    (hT1 : ∀ (m : (ℓ : Loc Cert.KernelIdeal.nD Cert.KernelIdeal.τ Cert.KernelIdeal.sig) → Buf (Elt Ideal) ℓ), Cert.Pre_KernelIdeal m → ∀ c,
      Tc2.tAof (tcRes1 (Vin m (outF m) (outA m) c) c) = Spec.tcA (xArg m c) (labArg m c))
    (m : (ℓ : Loc Cert.KernelIdeal.nD Cert.KernelIdeal.τ Cert.KernelIdeal.sig) → Buf (Elt Ideal) ℓ) (hpre : Cert.Pre_KernelIdeal m) (c : Dev Cert.KernelIdeal.nD) :
    Vout m (outF m) (outA m) tcOut Tc2.V3 c Cert.KernelIdeal.main_v3 = fun _ => Spec.refLoss (xArg m c) (labArg m c) := by
  have hfin : ∀ r j, ∃ a : ℝ, xArg m c r j = (a : EReal) := fun r j => Cert.Proof.PreFacts.features_real_of_pre m hpre c (ix2 r j)
  have hlab : ∀ r, labArg m c r ≤ 12 := fun r => Cert.Proof.PreFacts.labels_le_of_pre m hpre c (ix1 r)
  rw [Vout_v3, Tc2.epiVal_eq, sFof_outF, sAof_outA, hT0 m hpre c, hT1 m hpre c, Spec.loss_eq (xArg m c) (labArg m c) hfin hlab]
  rfl

theorem algebraic_final
    (hTileV : ∀ m : (ℓ : Loc Cert.KernelIdeal.nD Cert.KernelIdeal.τ Cert.KernelIdeal.sig) → Buf (Elt Ideal) ℓ, LabOK m →
      (K (F := Ideal)).TileObl (D (F := Ideal)) 𝒱 (PV m (outF m) (outA m)) v₀ 0)
    (hT0 : ∀ (m : (ℓ : Loc Cert.KernelIdeal.nD Cert.KernelIdeal.τ Cert.KernelIdeal.sig) → Buf (Elt Ideal) ℓ), Cert.Pre_KernelIdeal m → ∀ c,
      Tc2.tFof (tcRes0 (Vin m (outF m) (outA m) c) c) = Spec.tcF (xArg m c) (labArg m c))
    (hT1 : ∀ (m : (ℓ : Loc Cert.KernelIdeal.nD Cert.KernelIdeal.τ Cert.KernelIdeal.sig) → Buf (Elt Ideal) ℓ), Cert.Pre_KernelIdeal m → ∀ c,
      Tc2.tAof (tcRes1 (Vin m (outF m) (outA m) c) c) = Spec.tcA (xArg m c) (labArg m c)) :
    Cert.algebraic_KernelIdeal_ReferenceIdeal :=
  algebraic_pi outF outA hTileV (hval_of hT0 hT1)

section Upper

open Cert.KernelIdeal Cert.KernelIdeal.Gen

variable (m : (ℓ : Loc Cert.KernelIdeal.nD Cert.KernelIdeal.τ Cert.KernelIdeal.sig) → Buf (Elt Ideal) ℓ) (c : Dev Cert.KernelIdeal.nD)

theorem labels0_eq : labels0 m c = fun i => shapeCast S32x1x2048 (m (lLoc c)) shapeCasts_S65536_S32x1x2048 i := by
  unfold labels0; exact StableHlo.reshape_result _ _ _ _ _ _ _

theorem hx_pi : ∀ r j, Vin m (outF m) (outA m) c c main_arg0 (ix2 r j) = xArg m c r j := by
  intro r j; rw [Vin_arg0]; rfl

theorem hl_pi : ∀ (a : Fin 32) (b : Fin 2048), (show BitVec 32 from Vin m (outF m) (outA m) c c main_v0 (ix3 a (0 : Fin 1) b)).toNat
    = labArg m c (⟨2048 * a.val + b.val, by have := a.isLt; have := b.isLt; omega⟩ : Fin 65536) := by
  intro a b
  rw [Vin_v0, labels0_eq]
  show (shapeCast S32x1x2048 (m (lLoc c)) shapeCasts_S65536_S32x1x2048 (ix3 a (0 : Fin 1) b)).toNat = _
  rw [shapeCast_labels_apply]
  rfl

theorem hT0_pi : Tc2.tFof (tcRes0 (Vin m (outF m) (outA m) c) c) = Spec.tcF (xArg m c) (labArg m c) :=
  funext fun ci => funext fun j => tcRes0_ideal_of (Vin m (outF m) (outA m) c) c (xArg m c) (labArg m c) (hx_pi m c) (hl_pi m c) ci j

theorem hT1_pi : Tc2.tAof (tcRes1 (Vin m (outF m) (outA m) c) c) = Spec.tcA (xArg m c) (labArg m c) :=
  funext fun ci => funext fun l => tcRes1_ideal_of (Vin m (outF m) (outA m) c) c (xArg m c) (labArg m c) (hx_pi m c) (hl_pi m c) ci l

end Upper

theorem algebraic_of_tile
    (hTileV : ∀ m : (ℓ : Loc Cert.KernelIdeal.nD Cert.KernelIdeal.τ Cert.KernelIdeal.sig) → Buf (Elt Ideal) ℓ, LabOK m →
      (K (F := Ideal)).TileObl (D (F := Ideal)) 𝒱 (PV m (outF m) (outA m)) v₀ 0) :
    Cert.algebraic_KernelIdeal_ReferenceIdeal :=
  algebraic_final hTileV (fun m _ c => hT0_pi m c) (fun m _ c => hT1_pi m c)

/-- The printed kernel's frame from its task obligation; at the extended reals the body's obligation with the
    specification's arrays written gives the named run, hence the algebraic claim and, its values dropped, the frame. -/
theorem claim_final
    (hTileB : ∀ m : (ℓ : Loc Cert.Kernel.nD Cert.Kernel.τ Cert.Kernel.sig) → Buf (Elt Bits) ℓ, Cert.Proof.KB.LabOK m →
      (Cert.Proof.KB.K (F := Bits)).TileObl (Cert.Proof.KB.D (F := Bits)) Cert.Proof.KB.𝒱 (Cert.Proof.KB.P m) Cert.Proof.KB.v₀ 0)
    (hBodyV : ∀ m : (ℓ : Loc Cert.KernelIdeal.nD Cert.KernelIdeal.τ Cert.KernelIdeal.sig) → Buf (Elt Ideal) ℓ, LabOK m → BodyOblV (F := Ideal) m (outF m) (outA m)) : Cert.Claim :=
  ⟨Cert.Kernel.Gen.facts, Cert.KernelIdeal.Gen.facts, Cert.ReferenceIdeal.Gen.facts, Cert.Pre_input_domain.Gen.facts,
    Cert.Proof.KB.frame_pi hTileB,
    fun m ρ hpre => (θ_run Cert.KernelIdeal.defs _ _).mono (fun _ h c => h c)
      (frame_run_of_value m ρ _ _ (tileOblV m _ _ (hBodyV m fun c r => Cert.Proof.PreFacts.labels_le _ _ (hpre c) r))),
    Cert.Proof.RefFrame.frame_ri, trivial,
    algebraic_of_tile fun m h => tileOblV m (outF m) (outA m) (hBodyV m h)⟩

end Cert.Proof.Assemble

end
-- ==== Proof.ScOwnB.lean ====
import proofs.«216278_g4776003633407_cont_8to1_c_644_33_alg».proof.Proof.IfaceB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

def scrRefs : Finset (Ref sig .scVector) :=
  {cc0_scratch0, cc0_scratch1, cc0_scratch2, cc0_scratch3, cc0_scratch4, cc0_scratch5, cc0_scratch6, cc0_scratch7, cc0_scratch8}

def devEmb (c : Fin τ.nSC) (i : Fin τ.nSub) : Ref sig .scVector ↪ DevRef τ sig := ⟨(Proc.scVector c i).devRef, Proc.devRef_injective _⟩

theorem scr_sub : scrRefs.map (devEmb c i) ⊆ ownRefs (sig := sig) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl | rfl <;> exact SparseCore.Cfg.mem_ownRefs_of_owner rfl

theorem ownBufs_V :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f)
          ∗ (∃ f, (V d c i).loc cc0_scratch6 ↦{fullShare} f) ∗ (∃ f, (V d c i).loc cc0_scratch7 ↦{fullShare} f)
          ∗ (∃ f, (V d c i).loc cc0_scratch8 ↦{fullShare} f))
          ∗ bigSep (ownRefs (τ := τ) (.scVector c i) \ scrRefs.map (devEmb c i)) fun b => iprop(∃ f, ((d, b) : Loc nD τ sig) ↦{fullShare} f)) := by
  unfold SparseCore.Cfg.ownBufs
  rw [bigSep_sdiff_split (scr_sub c i), bigSep_map]
  congr 1
  unfold scrRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

def scrSems : Finset (SemLoc sig) := {.dma 0, .dma 1, .dma 2, .dma 3, .dma 4, .dma 5}

def thrEmb (thr : Thread nD τ) : SemLoc sig ↪ GSem nD τ sig := ⟨fun sm => (thr, sm), fun _ _ e => (Prod.mk.inj e).2⟩

theorem sems_sub : scrSems.map (thrEmb (V d c i)) ⊆ ownCells (sig := sig) (V d c i) := by
  intro g hg
  obtain ⟨sm, hs, rfl⟩ := Finset.mem_map.mp hg
  simp only [scrSems, Finset.mem_insert, Finset.mem_singleton] at hs
  rcases hs with rfl | rfl | rfl | rfl | rfl | rfl
  · exact mem_ownCells.mpr ⟨rfl, by show (SemLoc.dma 0 : SemLoc sig).isScoped .scVector = true; decide⟩
  · exact mem_ownCells.mpr ⟨rfl, by show (SemLoc.dma 1 : SemLoc sig).isScoped .scVector = true; decide⟩
  · exact mem_ownCells.mpr ⟨rfl, by show (SemLoc.dma 2 : SemLoc sig).isScoped .scVector = true; decide⟩
  · exact mem_ownCells.mpr ⟨rfl, by show (SemLoc.dma 3 : SemLoc sig).isScoped .scVector = true; decide⟩
  · exact mem_ownCells.mpr ⟨rfl, by show (SemLoc.dma 4 : SemLoc sig).isScoped .scVector = true; decide⟩
  · exact mem_ownCells.mpr ⟨rfl, by show (SemLoc.dma 5 : SemLoc sig).isScoped .scVector = true; decide⟩

theorem ownSems0_V :
    (ownSems0 (V d c i) : sProp 𝕄)
      = iprop((semVal (V d c i, .dma 0) 0 ∗ semVal (V d c i, .dma 1) 0 ∗ semVal (V d c i, .dma 2) 0 ∗ semVal (V d c i, .dma 3) 0
          ∗ semVal (V d c i, .dma 4) 0 ∗ semVal (V d c i, .dma 5) 0)
          ∗ bigSep (ownCells (V d c i) \ scrSems.map (thrEmb (V d c i))) fun g => semVal g 0) := by
  unfold SparseCore.Cfg.ownSems0
  rw [bigSep_sdiff_split (sems_sub d c i), bigSep_map]
  congr 1
  unfold scrSems
  rw [SparseCore.bigSep_insert' (by decide), SparseCore.bigSep_insert' (by decide), SparseCore.bigSep_insert' (by decide),
    SparseCore.bigSep_insert' (by decide), SparseCore.bigSep_insert' (by decide), bigSep_singleton]
  rfl

end Cert.Proof.KB

end
-- ==== Proof.ScSlotsB.lean ====
import proofs.«216278_g4776003633407_cont_8to1_c_644_33_alg».proof.Proof.ScOwnB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

abbrev fbufM : Memref sig .scVector .vmem S2x128x256 .f32 := Memref.whole cc0_scratch0
abbrev lbufM : Memref sig .scVector .vmem S2x128 .i32 := Memref.whole cc0_scratch1

theorem hdiv2F : 2 ∣ S2x128x256.size 0 := ⟨1, rfl⟩
theorem hdiv2L : 2 ∣ S2x128.size 0 := ⟨1, rfl⟩

abbrev fSlotR (p : Fin 2) : Rect S2x128x256 := Rect.part (s := S2x128x256) (a₀ := 0) hdiv2F p
abbrev lSlotR (p : Fin 2) : Rect S2x128 := Rect.part (s := S2x128) (a₀ := 0) hdiv2L p
abbrev fSlotSet (p : Fin 2) : Finset S2x128x256.Idx := ((fbufM).view.slice (fSlotR p)).set
abbrev lSlotSet (p : Fin 2) : Finset S2x128.Idx := ((lbufM).view.slice (lSlotR p)).set

theorem fSlotSet_eq (p : Fin 2) : fSlotSet p = (fSlotR p).set := by
  show ((View.whole (cc0_scratch0 : Ref sig .scVector)).slice (fSlotR p)).set = _
  rw [View.set_slice]; exact Finset.map_refl
theorem lSlotSet_eq (p : Fin 2) : lSlotSet p = (lSlotR p).set := by
  show ((View.whole (cc0_scratch1 : Ref sig .scVector)).slice (lSlotR p)).set = _
  rw [View.set_slice]; exact Finset.map_refl

theorem fSlots_disjoint : ∀ i ∈ (Finset.univ : Finset (Fin 2)), ∀ j ∈ (Finset.univ : Finset (Fin 2)), i ≠ j → Disjoint (fSlotSet i) (fSlotSet j) :=
  fun i _ j _ h => by rw [fSlotSet_eq, fSlotSet_eq]; exact Rect.part_disjoint hdiv2F h
theorem lSlots_disjoint : ∀ i ∈ (Finset.univ : Finset (Fin 2)), ∀ j ∈ (Finset.univ : Finset (Fin 2)), i ≠ j → Disjoint (lSlotSet i) (lSlotSet j) :=
  fun i _ j _ h => by rw [lSlotSet_eq, lSlotSet_eq]; exact Rect.part_disjoint hdiv2L h
theorem fSlots_cover : (Finset.univ : Finset (Fin 2)).biUnion fSlotSet = Finset.univ :=
  (Finset.biUnion_congr rfl fun i _ => fSlotSet_eq i).trans (Rect.biUnion_part hdiv2F)
theorem lSlots_cover : (Finset.univ : Finset (Fin 2)).biUnion lSlotSet = Finset.univ :=
  (Finset.biUnion_congr rfl fun i _ => lSlotSet_eq i).trans (Rect.biUnion_part hdiv2L)

theorem fbuf_slots (f : Buf (Elt F) ((fbufM).view.loc (V d c i))) :
    ((fbufM).view.loc (V d c i) ↦{fullShare} f : sProp 𝕄)
      = iprop(((fbufM).view.loc (V d c i) ↦[fSlotSet 0]{fullShare} f) ∗ ((fbufM).view.loc (V d c i) ↦[fSlotSet 1]{fullShare} f)) := by
  rw [show ((fbufM).view.loc (V d c i) ↦{fullShare} f : sProp 𝕄) = bigSep Finset.univ fun p : Fin 2 => (fbufM).view.loc (V d c i) ↦[fSlotSet p]{fullShare} f from by
    rw [← pointsTo_biUnion Finset.univ (ℓ := (fbufM).view.loc (V d c i)) fSlotSet fSlots_disjoint, fSlots_cover]; try rfl]
  rw [show (Finset.univ : Finset (Fin 2)) = {0, 1} by decide, SparseCore.bigSep_insert' (by decide), bigSep_singleton]

theorem lbuf_slots (f : Buf (Elt F) ((lbufM).view.loc (V d c i))) :
    ((lbufM).view.loc (V d c i) ↦{fullShare} f : sProp 𝕄)
      = iprop(((lbufM).view.loc (V d c i) ↦[lSlotSet 0]{fullShare} f) ∗ ((lbufM).view.loc (V d c i) ↦[lSlotSet 1]{fullShare} f)) := by
  rw [show ((lbufM).view.loc (V d c i) ↦{fullShare} f : sProp 𝕄) = bigSep Finset.univ fun p : Fin 2 => (lbufM).view.loc (V d c i) ↦[lSlotSet p]{fullShare} f from by
    rw [← pointsTo_biUnion Finset.univ (ℓ := (lbufM).view.loc (V d c i)) lSlotSet lSlots_disjoint, lSlots_cover]; try rfl]
  rw [show (Finset.univ : Finset (Fin 2)) = {0, 1} by decide, SparseCore.bigSep_insert' (by decide), bigSep_singleton]

abbrev fSlotM0 : Memref sig .scVector .vmem S128x256 .f32 :=
  ((fbufM).slice (Rect.unit (s := S2x128x256) ![0, 0, 0] S1x128x256.size inb_S2x128x256_S1x128x256_0_0_0) (fun _ => rfl)).squeeze S128x256 squeezes_S1x128x256_S128x256
abbrev fSlotM1 : Memref sig .scVector .vmem S128x256 .f32 :=
  ((fbufM).slice (Rect.unit (s := S2x128x256) ![1, 0, 0] S1x128x256.size inb_S2x128x256_S1x128x256_1_0_0) (fun _ => rfl)).squeeze S128x256 squeezes_S1x128x256_S128x256
abbrev lSlotM0 : Memref sig .scVector .vmem S128 .i32 :=
  ((lbufM).slice (Rect.unit (s := S2x128) ![0, 0] S1x128.size inb_S2x128_S1x128_0_0) (fun _ => rfl)).squeeze S128 squeezes_S1x128_S128
abbrev lSlotM1 : Memref sig .scVector .vmem S128 .i32 :=
  ((lbufM).slice (Rect.unit (s := S2x128) ![1, 0] S1x128.size inb_S2x128_S1x128_1_0) (fun _ => rfl)).squeeze S128 squeezes_S1x128_S128

theorem fRect0 : Rect.unit (s := S2x128x256) ![0, 0, 0] S1x128x256.size inb_S2x128x256_S1x128x256_0_0_0 = fSlotR 0 := by
  unfold fSlotR Rect.part Rect.block
  congr 1 <;> funext a <;> (match a with | 0 => simp [Shape.partIx, Shape.partSize] | 1 => simp [Shape.partIx, Shape.partSize] | 2 => simp [Shape.partIx, Shape.partSize])
theorem fRect1 : Rect.unit (s := S2x128x256) ![1, 0, 0] S1x128x256.size inb_S2x128x256_S1x128x256_1_0_0 = fSlotR 1 := by
  unfold fSlotR Rect.part Rect.block
  congr 1 <;> funext a <;> (match a with | 0 => simp [Shape.partIx, Shape.partSize] | 1 => simp [Shape.partIx, Shape.partSize] | 2 => simp [Shape.partIx, Shape.partSize])
theorem lRect0 : Rect.unit (s := S2x128) ![0, 0] S1x128.size inb_S2x128_S1x128_0_0 = lSlotR 0 := by
  unfold lSlotR Rect.part Rect.block
  congr 1 <;> funext a <;> (match a with | 0 => simp [Shape.partIx, Shape.partSize] | 1 => simp [Shape.partIx, Shape.partSize])
theorem lRect1 : Rect.unit (s := S2x128) ![1, 0] S1x128.size inb_S2x128_S1x128_1_0 = lSlotR 1 := by
  unfold lSlotR Rect.part Rect.block
  congr 1 <;> funext a <;> (match a with | 0 => simp [Shape.partIx, Shape.partSize] | 1 => simp [Shape.partIx, Shape.partSize])

theorem set_fSlotM0 : (fSlotM0).view.set = fSlotSet 0 := by
  show (((fbufM).view.slice (Rect.unit (s := S2x128x256) ![0, 0, 0] S1x128x256.size inb_S2x128x256_S1x128x256_0_0_0)).reshape S128x256 squeezes_S1x128x256_S128x256.numel_eq).set = _
  rw [View.set_reshape]; unfold fSlotSet; rw [View.set_slice, View.set_slice]; exact congrArg _ (congrArg (fun r : Rect S2x128x256 => r.set) fRect0)
theorem set_fSlotM1 : (fSlotM1).view.set = fSlotSet 1 := by
  show (((fbufM).view.slice (Rect.unit (s := S2x128x256) ![1, 0, 0] S1x128x256.size inb_S2x128x256_S1x128x256_1_0_0)).reshape S128x256 squeezes_S1x128x256_S128x256.numel_eq).set = _
  rw [View.set_reshape]; unfold fSlotSet; rw [View.set_slice, View.set_slice]; exact congrArg _ (congrArg (fun r : Rect S2x128x256 => r.set) fRect1)
theorem set_lSlotM0 : (lSlotM0).view.set = lSlotSet 0 := by
  show (((lbufM).view.slice (Rect.unit (s := S2x128) ![0, 0] S1x128.size inb_S2x128_S1x128_0_0)).reshape S128 squeezes_S1x128_S128.numel_eq).set = _
  rw [View.set_reshape]; unfold lSlotSet; rw [View.set_slice, View.set_slice]; exact congrArg _ (congrArg (fun r : Rect S2x128 => r.set) lRect0)
theorem set_lSlotM1 : (lSlotM1).view.set = lSlotSet 1 := by
  show (((lbufM).view.slice (Rect.unit (s := S2x128) ![1, 0] S1x128.size inb_S2x128_S1x128_1_0)).reshape S128 squeezes_S1x128_S128.numel_eq).set = _
  rw [View.set_reshape]; unfold lSlotSet; rw [View.set_slice, View.set_slice]; exact congrArg _ (congrArg (fun r : Rect S2x128 => r.set) lRect1)

theorem fSlots_union : fSlotSet 0 ∪ fSlotSet 1 = Finset.univ := by
  have hc := fSlots_cover
  rwa [show (Finset.univ : Finset (Fin 2)) = {0, 1} by decide, Finset.biUnion_insert, Finset.singleton_biUnion] at hc
theorem lSlots_union : lSlotSet 0 ∪ lSlotSet 1 = Finset.univ := by
  have hc := lSlots_cover
  rwa [show (Finset.univ : Finset (Fin 2)) = {0, 1} by decide, Finset.biUnion_insert, Finset.singleton_biUnion] at hc

theorem fSlot_compl0 : Finset.univ \ (fSlotM1).view.set = fSlotSet 0 := by
  rw [set_fSlotM1, ← fSlots_union]
  exact Finset.union_sdiff_cancel_right (fSlots_disjoint 0 (Finset.mem_univ _) 1 (Finset.mem_univ _) (by decide))
theorem fSlot_compl1 : Finset.univ \ (fSlotM0).view.set = fSlotSet 1 := by
  rw [set_fSlotM0, ← fSlots_union]
  exact Finset.union_sdiff_cancel_left (fSlots_disjoint 0 (Finset.mem_univ _) 1 (Finset.mem_univ _) (by decide))
theorem lSlot_compl0 : Finset.univ \ (lSlotM1).view.set = lSlotSet 0 := by
  rw [set_lSlotM1, ← lSlots_union]
  exact Finset.union_sdiff_cancel_right (lSlots_disjoint 0 (Finset.mem_univ _) 1 (Finset.mem_univ _) (by decide))
theorem lSlot_compl1 : Finset.univ \ (lSlotM0).view.set = lSlotSet 1 := by
  rw [set_lSlotM0, ← lSlots_union]
  exact Finset.union_sdiff_cancel_left (lSlots_disjoint 0 (Finset.mem_univ _) 1 (Finset.mem_univ _) (by decide))

theorem lslot0_to_rest (f : Buf (Elt F) ((lbufM).view.loc (V d c i))) :
    ((lSlotM0).view.loc (V d c i) ↦[(lSlotM0).view.set]{fullShare} f : sProp 𝕄) ⊢ ((lbufM).view.loc (V d c i) ↦[Finset.univ \ (lSlotM1).view.set]{fullShare} f) :=
  Entails.of_eq (by rw [set_lSlotM0, lSlot_compl0])
theorem lslot0_of_rest (f : Buf (Elt F) ((lbufM).view.loc (V d c i))) :
    ((lbufM).view.loc (V d c i) ↦[Finset.univ \ (lSlotM1).view.set]{fullShare} f : sProp 𝕄) ⊢ ((lSlotM0).view.loc (V d c i) ↦[(lSlotM0).view.set]{fullShare} f) :=
  Entails.of_eq (by rw [set_lSlotM0, lSlot_compl0])

theorem lslot1_to_rest (f : Buf (Elt F) ((lbufM).view.loc (V d c i))) :
    ((lSlotM1).view.loc (V d c i) ↦[(lSlotM1).view.set]{fullShare} f : sProp 𝕄) ⊢ ((lbufM).view.loc (V d c i) ↦[Finset.univ \ (lSlotM0).view.set]{fullShare} f) :=
  Entails.of_eq (by rw [set_lSlotM1, lSlot_compl1])
theorem lslot1_of_rest (f : Buf (Elt F) ((lbufM).view.loc (V d c i))) :
    ((lbufM).view.loc (V d c i) ↦[Finset.univ \ (lSlotM0).view.set]{fullShare} f : sProp 𝕄) ⊢ ((lSlotM1).view.loc (V d c i) ↦[(lSlotM1).view.set]{fullShare} f) :=
  Entails.of_eq (by rw [set_lSlotM1, lSlot_compl1])

theorem fslot0_to_rest (f : Buf (Elt F) ((fbufM).view.loc (V d c i))) :
    ((fSlotM0).view.loc (V d c i) ↦[(fSlotM0).view.set]{fullShare} f : sProp 𝕄) ⊢ ((fbufM).view.loc (V d c i) ↦[Finset.univ \ (fSlotM1).view.set]{fullShare} f) :=
  Entails.of_eq (by rw [set_fSlotM0, fSlot_compl0])
theorem fslot0_of_rest (f : Buf (Elt F) ((fbufM).view.loc (V d c i))) :
    ((fbufM).view.loc (V d c i) ↦[Finset.univ \ (fSlotM1).view.set]{fullShare} f : sProp 𝕄) ⊢ ((fSlotM0).view.loc (V d c i) ↦[(fSlotM0).view.set]{fullShare} f) :=
  Entails.of_eq (by rw [set_fSlotM0, fSlot_compl0])

theorem fslot1_to_rest (f : Buf (Elt F) ((fbufM).view.loc (V d c i))) :
    ((fSlotM1).view.loc (V d c i) ↦[(fSlotM1).view.set]{fullShare} f : sProp 𝕄) ⊢ ((fbufM).view.loc (V d c i) ↦[Finset.univ \ (fSlotM0).view.set]{fullShare} f) :=
  Entails.of_eq (by rw [set_fSlotM1, fSlot_compl1])
theorem fslot1_of_rest (f : Buf (Elt F) ((fbufM).view.loc (V d c i))) :
    ((fbufM).view.loc (V d c i) ↦[Finset.univ \ (fSlotM0).view.set]{fullShare} f : sProp 𝕄) ⊢ ((fSlotM1).view.loc (V d c i) ↦[(fSlotM1).view.set]{fullShare} f) :=
  Entails.of_eq (by rw [set_fSlotM1, fSlot_compl1])

theorem fslot0_to_rest_ex (f : Buf (Elt F) ((fbufM).view.loc (V d c i))) :
    ((fSlotM0).view.loc (V d c i) ↦[(fSlotM0).view.set]{fullShare} f : sProp 𝕄) ⊢ iprop(∃ f', (fbufM).view.loc (V d c i) ↦[Finset.univ \ (fSlotM1).view.set]{fullShare} f') := by
  iintro H
  iexists f
  iapply (fslot0_to_rest (F := F) d c i f)
  iexact H

theorem fslot1_to_rest_ex (f : Buf (Elt F) ((fbufM).view.loc (V d c i))) :
    ((fSlotM1).view.loc (V d c i) ↦[(fSlotM1).view.set]{fullShare} f : sProp 𝕄) ⊢ iprop(∃ f', (fbufM).view.loc (V d c i) ↦[Finset.univ \ (fSlotM0).view.set]{fullShare} f') := by
  iintro H
  iexists f
  iapply (fslot1_to_rest (F := F) d c i f)
  iexact H

end Cert.Proof.KB

end
-- ==== Proof.ScOutB.lean ====
import proofs.«216278_g4776003633407_cont_8to1_c_644_33_alg».proof.Proof.ScSlotsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

def widL (L : grid0.Coords) : Fin 32 := ⟨(L 1).val * 2 + (L 0).val, by
  have h0 : (L 0).val < 2 := (L 0).isLt
  have h1 : (L 1).val < 16 := (L 1).isLt
  omega⟩

abbrev outFM (L : grid0.Coords) : Memref sig .scVector .hbm S16x256 .f32 :=
  ((Memref.whole main_v1_0_scv : Memref sig .scVector .hbm S32x16x256 .f32).slice (Rect.unit (s := S32x16x256) (k0_off121 L) S1x16x256.size (k0_off121_inb L)) (fun _ => rfl)).squeeze S16x256 squeezes_S1x16x256_S16x256
abbrev outAM (L : grid0.Coords) : Memref sig .scVector .hbm S16x32 .f32 :=
  ((Memref.whole main_v1_1_scv : Memref sig .scVector .hbm S32x16x32 .f32).slice (Rect.unit (s := S32x16x32) (k0_off122 L) S1x16x32.size (k0_off122_inb L)) (fun _ => rfl)).squeeze S16x32 squeezes_S1x16x32_S16x32

theorem outF_rect : Rect.unit (s := S32x16x256) (k0_off121 L) S1x16x256.size (k0_off121_inb L) = blkF (widL L) := by
  unfold blkF Rect.part Rect.block
  congr 1 <;> funext a
  · rw [k0_off121_eq]
    match a with
    | 0 => simp [Shape.partIx, Shape.partSize, widL]; omega
    | 1 => simp [Shape.partIx, Shape.partSize]
    | 2 => simp [Shape.partIx, Shape.partSize]
  · match a with
    | 0 => simp [Shape.partSize]
    | 1 => simp [Shape.partSize]
    | 2 => simp [Shape.partSize]
theorem outA_rect : Rect.unit (s := S32x16x32) (k0_off122 L) S1x16x32.size (k0_off122_inb L) = blkA (widL L) := by
  unfold blkA Rect.part Rect.block
  congr 1 <;> funext a
  · rw [k0_off122_eq]
    match a with
    | 0 => simp [Shape.partIx, Shape.partSize, widL]; omega
    | 1 => simp [Shape.partIx, Shape.partSize]
    | 2 => simp [Shape.partIx, Shape.partSize]
  · match a with
    | 0 => simp [Shape.partSize]
    | 1 => simp [Shape.partSize]
    | 2 => simp [Shape.partSize]

theorem set_outFM : (outFM L).view.set = blkFSet (widL L) := by
  show (((Memref.whole main_v1_0_scv : Memref sig .scVector .hbm S32x16x256 .f32).view.slice (Rect.unit (s := S32x16x256) (k0_off121 L) S1x16x256.size (k0_off121_inb L))).reshape S16x256 squeezes_S1x16x256_S16x256.numel_eq).set = _
  rw [View.set_reshape]; unfold blkFSet; rw [View.set_slice, View.set_slice]; exact congrArg _ (congrArg (fun r : Rect S32x16x256 => r.set) (outF_rect L))
theorem set_outAM : (outAM L).view.set = blkASet (widL L) := by
  show (((Memref.whole main_v1_1_scv : Memref sig .scVector .hbm S32x16x32 .f32).view.slice (Rect.unit (s := S32x16x32) (k0_off122 L) S1x16x32.size (k0_off122_inb L))).reshape S16x32 squeezes_S1x16x32_S16x32.numel_eq).set = _
  rw [View.set_reshape]; unfold blkASet; rw [View.set_slice, View.set_slice]; exact congrArg _ (congrArg (fun r : Rect S32x16x32 => r.set) (outA_rect L))

end Cert.Proof.KB

end
-- ==== Proof.ScNameB.lean ====
import proofs.«216278_g4776003633407_cont_8to1_c_644_33_alg».proof.Proof.ScSlotsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

theorem lslot0_name (g₀ : Buf (Elt F) ((lbufM).view.loc (V d c i))) (pay : S128.Idx → Elt F .i32) :
    ((lSlotM0).view.loc (V d c i) ↦[(lSlotM0).view.set]{fullShare} (lSlotM0).view.writes (Elt F) g₀ [⟨Rect.whole S128, pay⟩] : sProp 𝕄)
      ⊢ iprop(∃ pay', ⌜pay' = pay⌝ ∗ (lSlotM0).view.loc (V d c i) ↦[(lSlotM0).view.set]{fullShare} (lSlotM0).view.writes (Elt F) g₀ [⟨Rect.whole S128, pay'⟩]) := by
  iintro H
  iexists pay
  isplitr
  · ipureintro; rfl
  · iexact H
theorem lslot1_name (g₀ : Buf (Elt F) ((lbufM).view.loc (V d c i))) (pay : S128.Idx → Elt F .i32) :
    ((lSlotM1).view.loc (V d c i) ↦[(lSlotM1).view.set]{fullShare} (lSlotM1).view.writes (Elt F) g₀ [⟨Rect.whole S128, pay⟩] : sProp 𝕄)
      ⊢ iprop(∃ pay', ⌜pay' = pay⌝ ∗ (lSlotM1).view.loc (V d c i) ↦[(lSlotM1).view.set]{fullShare} (lSlotM1).view.writes (Elt F) g₀ [⟨Rect.whole S128, pay'⟩]) := by
  iintro H
  iexists pay
  isplitr
  · ipureintro; rfl
  · iexact H
theorem fslot0_name (g₀ : Buf (Elt F) ((fbufM).view.loc (V d c i))) (pay : S128x256.Idx → Elt F .f32) :
    ((fSlotM0).view.loc (V d c i) ↦[(fSlotM0).view.set]{fullShare} (fSlotM0).view.writes (Elt F) g₀ [⟨Rect.whole S128x256, pay⟩] : sProp 𝕄)
      ⊢ iprop(∃ pay', ⌜pay' = pay⌝ ∗ (fSlotM0).view.loc (V d c i) ↦[(fSlotM0).view.set]{fullShare} (fSlotM0).view.writes (Elt F) g₀ [⟨Rect.whole S128x256, pay'⟩]) := by
  iintro H
  iexists pay
  isplitr
  · ipureintro; rfl
  · iexact H
theorem fslot1_name (g₀ : Buf (Elt F) ((fbufM).view.loc (V d c i))) (pay : S128x256.Idx → Elt F .f32) :
    ((fSlotM1).view.loc (V d c i) ↦[(fSlotM1).view.set]{fullShare} (fSlotM1).view.writes (Elt F) g₀ [⟨Rect.whole S128x256, pay⟩] : sProp 𝕄)
      ⊢ iprop(∃ pay', ⌜pay' = pay⌝ ∗ (fSlotM1).view.loc (V d c i) ↦[(fSlotM1).view.set]{fullShare} (fSlotM1).view.writes (Elt F) g₀ [⟨Rect.whole S128x256, pay'⟩]) := by
  iintro H
  iexists pay
  isplitr
  · ipureintro; rfl
  · iexact H

end Cert.Proof.KB

end
-- ==== Proof.SortSpec.lean ====
import Mathlib.Data.Finset.Card
import Mathlib.Data.Fintype.Card
import Mathlib.Data.Fintype.BigOperators
import Mathlib.Algebra.BigOperators.Group.Finset.Basic
import Mathlib.Algebra.Order.BigOperators.Group.Finset
import Mathlib.Tactic.Linarith

namespace Cert.Proof.Sort

open scoped BigOperators

variable (lab : Fin 128 → ℕ)

def cntUpTo (r ci : ℕ) : ℕ := (Finset.univ.filter fun r' : Fin 128 => r'.val < r ∧ lab r' = ci).card

def cnt (ci : ℕ) : ℕ := cntUpTo lab 128 ci

def off (ci : ℕ) : ℕ := ∑ c ∈ Finset.range ci, cnt lab c

def pos (r : Fin 128) : ℕ := off lab (lab r) + cntUpTo lab r.val (lab r)

theorem cntUpTo_zero (ci : ℕ) : cntUpTo lab 0 ci = 0 := by
  unfold cntUpTo
  rw [Finset.card_eq_zero, Finset.filter_eq_empty_iff]
  intro r' _ h
  exact absurd h.1 (Nat.not_lt_zero _)

theorem cntUpTo_succ (r : Fin 128) (ci : ℕ) :
    cntUpTo lab (r.val + 1) ci = cntUpTo lab r.val ci + if lab r = ci then 1 else 0 := by
  unfold cntUpTo
  by_cases h : lab r = ci
  · rw [if_pos h]
    have e : (Finset.univ.filter fun r' : Fin 128 => r'.val < r.val + 1 ∧ lab r' = ci)
        = insert r (Finset.univ.filter fun r' : Fin 128 => r'.val < r.val ∧ lab r' = ci) := by
      ext r'
      simp only [Finset.mem_filter, Finset.mem_univ, true_and, Finset.mem_insert]
      constructor
      · rintro ⟨h1, h2⟩
        by_cases h3 : r' = r
        · exact Or.inl h3
        · refine Or.inr ⟨?_, h2⟩
          have : r'.val ≠ r.val := fun hh => h3 (Fin.ext hh)
          omega
      · rintro (h1 | ⟨h1, h2⟩)
        · subst h1; exact ⟨Nat.lt_succ_self _, h⟩
        · exact ⟨by omega, h2⟩
    rw [e, Finset.card_insert_of_notMem]
    simp only [Finset.mem_filter, Finset.mem_univ, true_and, not_and]
    intro hh; exact absurd hh (lt_irrefl _)
  · rw [if_neg h, add_zero]
    congr 1
    ext r'
    simp only [Finset.mem_filter, Finset.mem_univ, true_and]
    constructor
    · rintro ⟨h1, h2⟩
      refine ⟨?_, h2⟩
      have : r'.val ≠ r.val := fun hh => h (by rw [← h2]; exact congrArg lab (Fin.ext hh).symm)
      omega
    · rintro ⟨h1, h2⟩; exact ⟨by omega, h2⟩

theorem cnt_eq_card (ci : ℕ) : cnt lab ci = (Finset.univ.filter fun r : Fin 128 => lab r = ci).card := by
  unfold cnt cntUpTo
  congr 1
  ext r'
  simp only [Finset.mem_filter, Finset.mem_univ, true_and]
  exact ⟨fun h => h.2, fun h => ⟨r'.isLt, h⟩⟩

theorem cntUpTo_mono {r r' : ℕ} (h : r ≤ r') (ci : ℕ) : cntUpTo lab r ci ≤ cntUpTo lab r' ci := by
  unfold cntUpTo
  apply Finset.card_le_card
  intro a
  simp only [Finset.mem_filter, Finset.mem_univ, true_and]
  rintro ⟨h1, h2⟩; exact ⟨by omega, h2⟩

theorem cntUpTo_le_cnt (r ci : ℕ) : cntUpTo lab r ci ≤ cnt lab ci := by
  unfold cnt cntUpTo
  apply Finset.card_le_card
  intro a
  simp only [Finset.mem_filter, Finset.mem_univ, true_and]
  rintro ⟨_, h2⟩; exact ⟨a.isLt, h2⟩

theorem cntUpTo_lt_of_lt {r r' : Fin 128} (h : r.val < r'.val) : cntUpTo lab r.val (lab r) < cntUpTo lab r'.val (lab r) := by
  have h1 := cntUpTo_succ lab r (lab r)
  rw [if_pos rfl] at h1
  have h2 := cntUpTo_mono lab (show r.val + 1 ≤ r'.val from h) (lab r)
  omega

theorem cntUpTo_lt_cnt (r : Fin 128) : cntUpTo lab r.val (lab r) < cnt lab (lab r) := by
  have h1 := cntUpTo_succ lab r (lab r)
  rw [if_pos rfl] at h1
  have h2 := cntUpTo_le_cnt lab (r.val + 1) (lab r)
  omega

theorem off_zero : off lab 0 = 0 := by
  unfold off; rw [Finset.range_zero, Finset.sum_empty]

theorem off_succ (ci : ℕ) : off lab (ci + 1) = off lab ci + cnt lab ci := by
  unfold off; rw [Finset.sum_range_succ]

theorem off_mono {a b : ℕ} (h : a ≤ b) : off lab a ≤ off lab b := by
  unfold off
  exact Finset.sum_le_sum_of_subset (Finset.range_mono h)

theorem off_thirteen (hlab : ∀ r, lab r ≤ 12) : off lab 13 = 128 := by
  unfold off
  have h := Finset.card_eq_sum_card_fiberwise (s := (Finset.univ : Finset (Fin 128))) (t := Finset.range 13) (f := lab)
    (fun r _ => Finset.mem_range.mpr (Nat.lt_succ_of_le (hlab r)))
  rw [Finset.card_univ, Fintype.card_fin] at h
  rw [h]
  exact Finset.sum_congr rfl fun c _ => cnt_eq_card lab c

theorem off_add_cnt_le (hlab : ∀ r, lab r ≤ 12) {ci : ℕ} (hci : ci ≤ 12) : off lab ci + cnt lab ci ≤ 128 := by
  rw [← off_succ, ← off_thirteen lab hlab]
  exact off_mono lab (by omega)

theorem cnt_le (ci : ℕ) : cnt lab ci ≤ 128 := by
  rw [cnt_eq_card]
  have := Finset.card_le_univ (Finset.univ.filter fun r : Fin 128 => lab r = ci)
  rwa [Fintype.card_fin] at this

theorem off_le_pos (r : Fin 128) : off lab (lab r) ≤ pos lab r := Nat.le_add_right _ _

theorem pos_lt_off_succ (r : Fin 128) : pos lab r < off lab (lab r + 1) := by
  rw [off_succ]
  unfold pos
  have := cntUpTo_lt_cnt lab r
  omega

theorem pos_lt_off_add_cnt (r : Fin 128) : pos lab r < off lab (lab r) + cnt lab (lab r) := by
  rw [← off_succ]; exact pos_lt_off_succ lab r

theorem pos_lt (hlab : ∀ r, lab r ≤ 12) (r : Fin 128) : pos lab r < 128 :=
  lt_of_lt_of_le (pos_lt_off_add_cnt lab r) (off_add_cnt_le lab hlab (hlab r))

theorem pos_injective : Function.Injective (pos lab) := by
  intro r1 r2 h
  by_contra hne
  have hv : r1.val ≠ r2.val := fun hh => hne (Fin.ext hh)
  rcases lt_trichotomy (lab r1) (lab r2) with hl | hl | hl
  · have h1 := pos_lt_off_succ lab r1
    have h2 := off_mono lab (show lab r1 + 1 ≤ lab r2 from hl)
    have h3 := off_le_pos lab r2
    omega
  · unfold pos at h
    rw [hl] at h
    have hc : cntUpTo lab r1.val (lab r2) = cntUpTo lab r2.val (lab r2) := by omega
    rcases Nat.lt_or_gt_of_ne hv with hlt | hlt
    · have := cntUpTo_lt_of_lt lab hlt
      rw [hl] at this
      omega
    · have := cntUpTo_lt_of_lt lab hlt
      rw [← hl] at hc
      omega
  · have h1 := pos_lt_off_succ lab r2
    have h2 := off_mono lab (show lab r2 + 1 ≤ lab r1 from hl)
    have h3 := off_le_pos lab r1
    omega

def posFin (hlab : ∀ r, lab r ≤ 12) (r : Fin 128) : Fin 128 := ⟨pos lab r, pos_lt lab hlab r⟩

theorem posFin_bijective (hlab : ∀ r, lab r ≤ 12) : Function.Bijective (posFin lab hlab) := by
  rw [← Finite.injective_iff_bijective]
  intro r1 r2 h
  exact pos_injective lab (congrArg Fin.val h)

theorem cntUpTo_injOn (ci : ℕ) (r1 r2 : Fin 128) (h1 : lab r1 = ci) (h2 : lab r2 = ci)
    (h : cntUpTo lab r1.val ci = cntUpTo lab r2.val ci) : r1 = r2 := by
  apply pos_injective lab
  unfold pos
  rw [h1, h2, h]

theorem image_cntUpTo (ci : ℕ) :
    (Finset.univ.filter fun r : Fin 128 => lab r = ci).image (fun r => cntUpTo lab r.val ci)
      = Finset.range (cnt lab ci) := by
  apply Finset.eq_of_subset_of_card_le
  · intro i hi
    rw [Finset.mem_image] at hi
    obtain ⟨r, hr, rfl⟩ := hi
    rw [Finset.mem_filter] at hr
    rw [Finset.mem_range, ← hr.2]
    exact cntUpTo_lt_cnt lab r
  · rw [Finset.card_range, Finset.card_image_of_injOn, cnt_eq_card]
    intro r1 hr1 r2 hr2 h
    rw [Finset.mem_coe, Finset.mem_filter] at hr1 hr2
    exact cntUpTo_injOn lab ci r1 r2 hr1.2 hr2.2 h

theorem sum_class_slots {M : Type*} [AddCommMonoid M] (bucket : ℕ → Fin 128) (hb : ∀ r, bucket (pos lab r) = r)
    (ci : ℕ) (g : Fin 128 → M) :
    ∑ i ∈ Finset.range (cnt lab ci), g (bucket (off lab ci + i))
      = ∑ r ∈ Finset.univ.filter (fun r : Fin 128 => lab r = ci), g r := by
  rw [← image_cntUpTo, Finset.sum_image]
  · refine Finset.sum_congr rfl fun r hr => ?_
    rw [Finset.mem_filter] at hr
    have : off lab ci + cntUpTo lab r.val ci = pos lab r := by unfold pos; rw [hr.2]
    rw [this, hb]
  · intro r1 hr1 r2 hr2 h
    rw [Finset.mem_coe, Finset.mem_filter] at hr1 hr2
    exact cntUpTo_injOn lab ci r1 r2 hr1.2 hr2.2 h

end Cert.Proof.Sort
-- ==== Proof.SortWords.lean ====
import Mathlib.Data.Real.Basic
import Mathlib.Tactic.Linarith
import Mathlib.Tactic.NormNum

namespace Cert.Proof.Sort

abbrev W (n : ℕ) : BitVec 32 := BitVec.ofNat 32 n

theorem W_add (a b : ℕ) : W a + W b = W (a + b) := (BitVec.ofNat_add a b).symm

theorem W_add_one (a : ℕ) : W a + 1#32 = W (a + 1) := (BitVec.ofNat_add a 1).symm

theorem W_toNat {a : ℕ} (h : a < 2 ^ 32) : (W a).toNat = a := by
  rw [BitVec.toNat_ofNat]; exact Nat.mod_eq_of_lt h

theorem W_toInt {a : ℕ} (h : a < 2 ^ 31) : (W a).toInt = (a : ℤ) := by
  rw [BitVec.toInt_eq_toNat_cond, W_toNat (by omega)]
  rw [if_pos (by omega)]

theorem W_toInt_real {a : ℕ} (h : a < 2 ^ 31) : (((W a).toInt : ℤ) : ℝ) = (a : ℝ) := by
  rw [W_toInt h]; norm_cast

end Cert.Proof.Sort
-- ==== Proof.ScSortLoopsB.lean ====
import proofs.«216278_g4776003633407_cont_8to1_c_644_33_alg».proof.Proof.ScOwnB
import proofs.«216278_g4776003633407_cont_8to1_c_644_33_alg».proof.Proof.SortSpec
import proofs.«216278_g4776003633407_cont_8to1_c_644_33_alg».proof.Proof.SortWords
import Idealize.ShloMosaic.Lib.ValueIdx
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)

variable {F : FTy → Type}

local notation "𝕄" => MT nD τ sig (HIx 1) (Elt F) ℕ UU ℕ

variable (d : Dev nD) (L : grid0.Coords) [FloatOps F]

abbrev thrL (d : Dev nD) (L : grid0.Coords) : Thread nD τ := V d ((L 0).castLE hcore0) ((L 1).castLE hsub0)

section Cell
variable {sig' : RefSig} {κ : Kind} {sp : Space} {e : EltTy} {Val : EltTy → Type} {N : Nat}

theorem read_writes_cell (v : View sig' κ sp (⟨1, ![N]⟩ : Shape) e) (f : v.ty.Contents Val) (off : Fin 1 → Nat)
    (inb : ∀ a, off a + (⟨1, ![1]⟩ : Shape).size a ≤ (⟨1, ![N]⟩ : Shape).size a) (w : Val e)
    (Ls : List (View.Piece Val (⟨1, ![N]⟩ : Shape) e)) (i : Fin N) :
    v.read Val (v.writes Val f (⟨Rect.unit (s := (⟨1, ![N]⟩ : Shape)) off (⟨1, ![1]⟩ : Shape).size inb, fun _ => w⟩ :: Ls)) (ix1 i)
      = if i.val = off 0 then w else v.read Val (v.writes Val f Ls) (ix1 i) := by
  by_cases h : i.val = off 0
  · rw [if_pos h]
    have hm : (ix1 i : (⟨1, ![N]⟩ : Shape).Idx) ∈ (Rect.unit (s := (⟨1, ![N]⟩ : Shape)) off (⟨1, ![1]⟩ : Shape).size inb).set := by
      rw [Rect.mem_set_unit]
      intro a
      obtain rfl : a = 0 := Subsingleton.elim _ _
      show off 0 ≤ i.val ∧ i.val < off 0 + 1
      omega
    obtain ⟨x, hx⟩ : ∃ x, (Rect.unit (s := (⟨1, ![N]⟩ : Shape)) off (⟨1, ![1]⟩ : Shape).size inb).emb x = ix1 i :=
      (Rect.unit (s := (⟨1, ![N]⟩ : Shape)) off (⟨1, ![1]⟩ : Shape).size inb).exists_idx_of_mem hm
    rw [← hx]
    exact View.read_writes_cons_emb v f _ (fun _ => w) Ls x
  · rw [if_neg h, View.writes_cons, View.read_slice_write_of_not_mem]
    rw [Rect.map_emb_univ, Rect.mem_set_unit]
    intro hh
    have := hh 0
    apply h
    show i.val = off 0
    have h2 : off 0 ≤ i.val ∧ i.val < off 0 + 1 := this
    omega

end Cell

section Cell2
variable {sig' : RefSig} {κ : Kind} {sp : Space} {e : EltTy} {Val : EltTy → Type} {N : Nat}

theorem readAt_cell (v : View sig' κ sp (⟨1, ![N]⟩ : Shape) e) (f : v.ty.Contents Val) (off : Fin 1 → Nat)
    (inb : ∀ a, off a + (⟨1, ![1]⟩ : Shape).size a ≤ (⟨1, ![N]⟩ : Shape).size a)
    (h : 0 < (Rect.unit (s := (⟨1, ![N]⟩ : Shape)) off (⟨1, ![1]⟩ : Shape).size inb).toLoadRect.shape.numel)
    (i : Fin N) (hi : i.val = off 0) :
    v.readAt Val (Rect.unit (s := (⟨1, ![N]⟩ : Shape)) off (⟨1, ![1]⟩ : Shape).size inb).toLoadRect f (Shape.Idx.first h)
      = v.read Val f (ix1 i) := by
  rw [View.readAt_apply]
  congr 1
  funext a
  obtain rfl : a = 0 := Subsingleton.elim _ _
  refine Fin.ext ?_
  show off 0 + 1 * 0 = i.val
  omega

end Cell2

abbrev mLab : Memref sig .scVector .smem S128 .i32 := Memref.whole cc0_scratch4

abbrev mBkt : Memref sig .scVector .smem S128 .i32 := Memref.whole cc0_scratch5

abbrev mCnt : Memref sig .scVector .smem S16 .i32 := Memref.whole cc0_scratch6

abbrev mOff : Memref sig .scVector .smem S16 .i32 := Memref.whole cc0_scratch7

abbrev mPos : Memref sig .scVector .smem S16 .i32 := Memref.whole cc0_scratch8

theorem read_mLab (g : S128.Idx → BitVec 32) : (mLab).view.read (Elt F) g = g := rfl
theorem read_mBkt (g : S128.Idx → BitVec 32) : (mBkt).view.read (Elt F) g = g := rfl
theorem read_mCnt (g : S16.Idx → BitVec 32) : (mCnt).view.read (Elt F) g = g := rfl
theorem read_mOff (g : S16.Idx → BitVec 32) : (mOff).view.read (Elt F) g = g := rfl
theorem read_mPos (g : S16.Idx → BitVec 32) : (mPos).view.read (Elt F) g = g := rfl

variable (labels : Fin 128 → BitVec 32)

abbrev labN : Fin 128 → ℕ := fun r => (labels r).toNat

open Cert.Proof.Sort (W)

def inv3 (k : Nat) (_ : Unit) : sProp 𝕄 :=
  iprop(∃ f : S16.Idx → BitVec 32, ⌜∀ ci : Fin 16, ci.val < k → f (ix1 ci) = 0#32⌝
    ∗ (mCnt).view.loc (thrL d L) ↦{fullShare} f)

def inv5 (fc : S16.Idx → BitVec 32) (k : Nat) (acc : BitVec 32) : sProp 𝕄 :=
  iprop(⌜acc = W (Sort.off (labN labels) k)⌝ ∗ ((mCnt).view.loc (thrL d L) ↦{fullShare} fc)
    ∗ (∃ fo : S16.Idx → BitVec 32, ⌜∀ ci : Fin 16, ci.val < k → fo (ix1 ci) = W (Sort.off (labN labels) ci.val)⌝
        ∗ ((mOff).view.loc (thrL d L) ↦{fullShare} fo))
    ∗ (∃ fp : S16.Idx → BitVec 32, ⌜∀ ci : Fin 16, ci.val < k → fp (ix1 ci) = W (Sort.off (labN labels) ci.val)⌝
        ∗ ((mPos).view.loc (thrL d L) ↦{fullShare} fp)))

def inv6 (fl : S128.Idx → BitVec 32) (k : Nat) (_ : Unit) : sProp 𝕄 :=
  iprop(((mLab).view.loc (thrL d L) ↦{fullShare} fl)
    ∗ (∃ fp : S16.Idx → BitVec 32,
        ⌜∀ ci : Fin 16, ci.val < 13 → fp (ix1 ci) = W (Sort.off (labN labels) ci.val + Sort.cntUpTo (labN labels) k ci.val)⌝
        ∗ ((mPos).view.loc (thrL d L) ↦{fullShare} fp))
    ∗ (∃ fb : S128.Idx → BitVec 32,
        ⌜∀ r p : Fin 128, r.val < k → p.val = Sort.pos (labN labels) r → fb (ix1 p) = W r.val⌝
        ∗ ((mBkt).view.loc (thrL d L) ↦{fullShare} fb)))

theorem t3_region (c0 c1 : BitVec 32) (k0_t2 : Fin k0_t2_loop.trips) (k : Fin k0_t3_loop.trips) (acc : Unit) :
    inv3 (F := F) d L k.val acc
      ⊢ wp frame (wpE (defs₀ (F := F)) 𝒱₀ (thrL d L) none) Set.univ
          (k0_t3_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 k acc)
          (inv3 (F := F) d L (k.val + 1)) := by
  unfold inv3 k0_t3_body
  iintro ⟨%f, %hf, Hc⟩
  sl_exec
  sl_step
  iexists ((mCnt).view.writes (Elt F) f [⟨Rect.unit (s := S16) (k0_off23 k) S1.size (k0_off23_inb k), fun _ => (0#32 : BitVec 32)⟩])
  isplitr
  · ipureintro
    intro ci hci
    have := read_writes_cell (Val := Elt F) (mCnt).view f (k0_off23 k) (k0_off23_inb k) (0#32 : BitVec 32) [] ci
    rw [read_mCnt, read_mCnt] at this
    rw [this]
    split_ifs with h
    · rfl
    · rw [k0_off23_eq] at h
      exact hf ci (by have : ci.val ≠ k.val := h; omega)
  · iexact Hc

theorem t5_region (fc : S16.Idx → BitVec 32) (hfc : ∀ ci : Fin 16, ci.val < 13 → fc (ix1 ci) = W (Sort.cnt (labN labels) ci.val))
    (c0 c1 : BitVec 32) (k0_t2 : Fin k0_t2_loop.trips) (k : Fin k0_t5_loop.trips) (acc : BitVec 32) :
    inv5 (F := F) d L labels fc k.val acc
      ⊢ wp frame (wpE (defs₀ (F := F)) 𝒱₀ (thrL d L) none) Set.univ
          (k0_t5_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 k acc)
          (inv5 (F := F) d L labels fc (k.val + 1)) := by
  unfold inv5 k0_t5_body
  iintro ⟨%hacc, Hc, ⟨%fo, %hfo, Ho⟩, ⟨%fp, %hfp, Hp⟩⟩
  have hk : k.val < 13 := lt_of_lt_of_le k.isLt k0_t5_abs.2.1
  have hoff : (k0_off57 k) 0 = k.val := by rw [k0_off57_eq]; rfl
  sl_exec
  sl_step
  isplitr
  · ipureintro
    unfold t5_region.sl.v82 t5_region.sl.r_2
    show acc + _ = _
    rw [readAt_cell (Val := Elt F) (mCnt).view fc (k0_off57 k) (k0_off57_inb k) _ ⟨k.val, by omega⟩ hoff.symm, read_mCnt,
      hfc ⟨k.val, by omega⟩ hk, hacc, Sort.off_succ]
    exact Sort.W_add _ _
  isplitl [Hc]
  · iexact Hc
  isplitl [Ho]
  · iexists ((mOff).view.writes (Elt F) fo [⟨Rect.unit (s := S16) (k0_off57 k) S1.size (k0_off57_inb k), fun _ => acc⟩])
    isplitr
    · ipureintro
      intro ci hci
      have := read_writes_cell (Val := Elt F) (mOff).view fo (k0_off57 k) (k0_off57_inb k) acc [] ci
      rw [read_mOff, read_mOff] at this
      rw [this]
      split_ifs with h
      · rw [hacc, h, hoff]
      · exact hfo ci (by rw [hoff] at h; omega)
    · iexact Ho
  · iexists ((mPos).view.writes (Elt F) fp [⟨Rect.unit (s := S16) (k0_off57 k) S1.size (k0_off57_inb k), fun _ => acc⟩])
    isplitr
    · ipureintro
      intro ci hci
      have := read_writes_cell (Val := Elt F) (mPos).view fp (k0_off57 k) (k0_off57_inb k) acc [] ci
      rw [read_mPos, read_mPos] at this
      rw [this]
      split_ifs with h
      · rw [hacc, h, hoff]
      · exact hfp ci (by rw [hoff] at h; omega)
    · iexact Hp

theorem chk17_of_le (v : BitVec 32) (h : v.toNat ≤ 12) : k0_chk17 v := by
  refine ⟨fun a => ?_, fun a => ?_⟩ <;> obtain rfl : a = 0 := Subsingleton.elim _ _
  · show v.toNat + 1 ≤ 16; omega
  · show v.toNat + 1 ≤ 16; omega

theorem chk18_of_lt (v : BitVec 32) (h : v.toNat < 128) : k0_chk18 v := by
  intro a; obtain rfl : a = 0 := Subsingleton.elim _ _
  show v.toNat + 1 ≤ 128; omega

theorem t6_region (fl : S128.Idx → BitVec 32) (hlab : ∀ r, (labels r).toNat ≤ 12) (hfl : ∀ r, fl (ix1 r) = labels r)
    (c0 c1 : BitVec 32) (k0_t2 : Fin k0_t2_loop.trips) (k : Fin k0_t6_loop.trips) (acc : Unit) :
    inv6 (F := F) d L labels fl k.val acc
      ⊢ wp frame (wpE (defs₀ (F := F)) 𝒱₀ (thrL d L) none) Set.univ
          (k0_t6_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 k acc)
          (inv6 (F := F) d L labels fl (k.val + 1)) := by
  unfold inv6 k0_t6_body
  iintro ⟨Hl, ⟨%fp, %hfp, Hp⟩, ⟨%fb, %hfb, Hb⟩⟩
  have hk : k.val < 128 := lt_of_lt_of_le k.isLt k0_t6_abs.2.1
  have hoff : (k0_off58 k) 0 = k.val := by rw [k0_off58_eq]; rfl
  sl_exec
  have hr : t6_region.sl.r (F := F) fl k = labels ⟨k.val, hk⟩ := by
    unfold t6_region.sl.r
    rw [readAt_cell (Val := Elt F) (mLab).view fl (k0_off58 k) (k0_off58_inb k) _ ⟨k.val, hk⟩ hoff.symm, read_mLab, hfl]
  have h17 : k0_chk17 (t6_region.sl.r (F := F) fl k) := by rw [hr]; exact chk17_of_le _ (hlab _)
  sl_exec
  have hlk : (labels ⟨k.val, hk⟩).toNat ≤ 12 := hlab _
  have hr1 : t6_region.sl.r_1 (F := F) fl k fp h17 = W (Sort.pos (labN labels) ⟨k.val, hk⟩) := by
    unfold t6_region.sl.r_1
    rw [readAt_cell (Val := Elt F) (mPos).view fp (k0_off59 (t6_region.sl.r (F := F) fl k)) (k0_off59_inb _ h17) _
      ⟨(labels ⟨k.val, hk⟩).toNat, by omega⟩ (by rw [hr]; rfl), read_mPos, hfp _ (by show (labels ⟨k.val, hk⟩).toNat < 13; omega)]
    rfl
  have hpos : Sort.pos (labN labels) ⟨k.val, hk⟩ < 128 := Sort.pos_lt (labN labels) hlab _
  have h18 : k0_chk18 (t6_region.sl.r_1 (F := F) fl k fp h17) := by
    rw [hr1]; exact chk18_of_lt _ (by rw [Sort.W_toNat (by omega)]; exact hpos)
  sl_exec
  sl_step
  isplitl [Hl]
  · iexact Hl
  isplitl [Hp]
  · iexists ((mPos).view.writes (Elt F) fp [⟨Rect.unit (s := S16) (k0_off61 (t6_region.sl.r (F := F) fl k)) S1.size (k0_off61_inb _ h17),
      fun _ => t6_region.sl.v82 (F := F) fl k fp h17⟩])
    isplitr
    · ipureintro
      intro ci hci
      have := read_writes_cell (Val := Elt F) (mPos).view fp (k0_off61 (t6_region.sl.r (F := F) fl k)) (k0_off61_inb _ h17)
        (t6_region.sl.v82 (F := F) fl k fp h17) [] ci
      rw [read_mPos, read_mPos] at this
      rw [this]
      have ho : k0_off61 (t6_region.sl.r (F := F) fl k) 0 = (labels ⟨k.val, hk⟩).toNat := by rw [hr]; rfl
      rw [ho, show k.val + 1 = (⟨k.val, hk⟩ : Fin 128).val + 1 from rfl, Sort.cntUpTo_succ (labN labels) ⟨k.val, hk⟩ ci.val]
      by_cases h1 : ci.val = (labels ⟨k.val, hk⟩).toNat
      · rw [if_pos h1, if_pos (show labN labels ⟨k.val, hk⟩ = ci.val from h1.symm)]
        unfold t6_region.sl.v82
        rw [hr1]
        show W _ + 1#32 = _
        rw [Sort.W_add_one]
        unfold Sort.pos
        rw [show labN labels ⟨k.val, hk⟩ = ci.val from h1.symm, Nat.add_assoc]
      · rw [if_neg h1, if_neg (show ¬ labN labels ⟨k.val, hk⟩ = ci.val from fun e => h1 e.symm), Nat.add_zero]
        exact hfp ci hci
    · iexact Hp
  · iexists ((mBkt).view.writes (Elt F) fb [⟨Rect.unit (s := S128) (k0_off60 (t6_region.sl.r_1 (F := F) fl k fp h17)) S1.size (k0_off60_inb _ h18),
      fun _ => t6_region.sl.arg18 k⟩])
    isplitr
    · ipureintro
      intro r p hr' hp
      have := read_writes_cell (Val := Elt F) (mBkt).view fb (k0_off60 (t6_region.sl.r_1 (F := F) fl k fp h17)) (k0_off60_inb _ h18)
        (t6_region.sl.arg18 k) [] p
      rw [read_mBkt, read_mBkt] at this
      rw [this]
      have ho : k0_off60 (t6_region.sl.r_1 (F := F) fl k fp h17) 0 = Sort.pos (labN labels) ⟨k.val, hk⟩ := by
        rw [hr1]; show (W _).toNat = _; exact Sort.W_toNat (by omega)
      rw [ho]
      by_cases h : p.val = Sort.pos (labN labels) ⟨k.val, hk⟩
      · rw [if_pos h]
        have e : r = ⟨k.val, hk⟩ := Sort.pos_injective (labN labels) (by rw [← hp, h])
        rw [e]
        unfold t6_region.sl.arg18
        simp [Scf.iv]
      · rw [if_neg h]
        have hne : r.val ≠ k.val := fun e => h (by rw [hp]; congr 1; exact Fin.ext e)
        exact hfb r p (by omega) hp
    · iexact Hb

theorem t3_trips : k0_t3_loop.trips = 13 := by decide
theorem t5_trips : k0_t5_loop.trips = 13 := by decide
theorem t6_trips : k0_t6_loop.trips = 128 := by decide

theorem inv3_init (f : S16.Idx → BitVec 32) :
    ((mCnt).view.loc (thrL d L) ↦{fullShare} f : sProp 𝕄) ⊢ inv3 (F := F) d L 0 ⟨⟩ := by
  unfold inv3
  iintro H
  iexists f
  isplitr
  · ipureintro; intro ci h; exact absurd h (Nat.not_lt_zero _)
  · iexact H

theorem inv5_init (fc fo fp : S16.Idx → BitVec 32) :
    iprop(((mCnt).view.loc (thrL d L) ↦{fullShare} fc) ∗ ((mOff).view.loc (thrL d L) ↦{fullShare} fo)
        ∗ ((mPos).view.loc (thrL d L) ↦{fullShare} fp) : sProp 𝕄)
      ⊢ inv5 (F := F) d L labels fc 0 0#32 := by
  unfold inv5
  iintro ⟨Hc, Ho, Hp⟩
  isplitr
  · ipureintro; rw [Sort.off_zero]
  isplitl [Hc]
  · iexact Hc
  isplitl [Ho]
  · iexists fo
    isplitr
    · ipureintro; intro ci h; exact absurd h (Nat.not_lt_zero _)
    · iexact Ho
  · iexists fp
    isplitr
    · ipureintro; intro ci h; exact absurd h (Nat.not_lt_zero _)
    · iexact Hp

theorem pos_init (fp : S16.Idx → BitVec 32)
    (h : ∀ ci : Fin 16, ci.val < 13 → fp (ix1 ci) = W (Sort.off (labN labels) ci.val)) :
    ∀ ci : Fin 16, ci.val < 13 → fp (ix1 ci) = W (Sort.off (labN labels) ci.val + Sort.cntUpTo (labN labels) 0 ci.val) := by
  intro ci hci
  rw [Sort.cntUpTo_zero, Nat.add_zero]
  exact h ci hci

theorem inv6_init (fl : S128.Idx → BitVec 32) (fp : S16.Idx → BitVec 32) (fb : S128.Idx → BitVec 32)
    (h : ∀ ci : Fin 16, ci.val < 13 → fp (ix1 ci) = W (Sort.off (labN labels) ci.val)) :
    iprop(((mLab).view.loc (thrL d L) ↦{fullShare} fl) ∗ ((mPos).view.loc (thrL d L) ↦{fullShare} fp)
        ∗ ((mBkt).view.loc (thrL d L) ↦{fullShare} fb) : sProp 𝕄)
      ⊢ inv6 (F := F) d L labels fl 0 ⟨⟩ := by
  unfold inv6
  iintro ⟨Hl, Hp, Hb⟩
  isplitl [Hl]
  · iexact Hl
  isplitl [Hp]
  · iexists fp
    isplitr
    · ipureintro; exact pos_init labels fp h
    · iexact Hp
  · iexists fb
    isplitr
    · ipureintro; intro r p hr; exact absurd hr (Nat.not_lt_zero _)
    · iexact Hb

end Cert.Proof.KB

end
-- ==== Proof.ScExtLoopB.lean ====
import proofs.«216278_g4776003633407_cont_8to1_c_644_33_alg».proof.Proof.ScSortLoopsB
import proofs.«216278_g4776003633407_cont_8to1_c_644_33_alg».proof.Proof.ScSlotsB
import Idealize.ShloMosaic.Lib.Pipeline.Value

noncomputable section

namespace Cert.Proof.KB

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2)
open Cert.Proof.Sort (W)

variable {F : FTy → Type}

local notation "𝕄" => MT nD τ sig (HIx 1) (Elt F) ℕ UU ℕ

variable (d : Dev nD) (L : grid0.Coords) [FloatOps F] (labels : Fin 128 → BitVec 32)

def inv4_0 (lb : S2x128.Idx → BitVec 32) (k : Nat) (_ : Unit) : sProp 𝕄 :=
  iprop(((lbufM).view.loc (thrL d L) ↦[Finset.univ \ (lSlotM1).view.set]{fullShare} lb)
    ∗ (∃ fl : S128.Idx → BitVec 32, ⌜∀ r : Fin 128, r.val < 16 * k → fl (ix1 r) = labels r⌝
        ∗ ((mLab).view.loc (thrL d L) ↦{fullShare} fl))
    ∗ (∃ fc : S16.Idx → BitVec 32,
        ⌜∀ ci : Fin 16, ci.val < 13 → fc (ix1 ci) = W (Sort.cntUpTo (labN labels) (16 * k) ci.val)⌝
        ∗ ((mCnt).view.loc (thrL d L) ↦{fullShare} fc)))

theorem k0_off24_eq : ∀ (k0_t2 : Fin k0_t2_loop.trips) (k0_t4 : Fin k0_t4_loop.trips),
    k0_off24 k0_t2 k0_t4 = ![k0_t2.val % 2, 16 * k0_t4.val] := by decide +kernel

def inv4_1 (lb : S2x128.Idx → BitVec 32) (k : Nat) (_ : Unit) : sProp 𝕄 :=
  iprop(((lbufM).view.loc (thrL d L) ↦[Finset.univ \ (lSlotM0).view.set]{fullShare} lb)
    ∗ (∃ fl : S128.Idx → BitVec 32, ⌜∀ r : Fin 128, r.val < 16 * k → fl (ix1 r) = labels r⌝
        ∗ ((mLab).view.loc (thrL d L) ↦{fullShare} fl))
    ∗ (∃ fc : S16.Idx → BitVec 32,
        ⌜∀ ci : Fin 16, ci.val < 13 → fc (ix1 ci) = W (Sort.cntUpTo (labN labels) (16 * k) ci.val)⌝
        ∗ ((mCnt).view.loc (thrL d L) ↦{fullShare} fc)))

def inv4 (o : Finset S2x128.Idx) (lb : S2x128.Idx → BitVec 32) (k : Nat) (_ : Unit) : sProp 𝕄 :=
  iprop(((lbufM).view.loc (thrL d L) ↦[Finset.univ \ o]{fullShare} lb)
    ∗ (∃ fl : S128.Idx → BitVec 32, ⌜∀ r : Fin 128, r.val < 16 * k → fl (ix1 r) = labels r⌝
        ∗ ((mLab).view.loc (thrL d L) ↦{fullShare} fl))
    ∗ (∃ fc : S16.Idx → BitVec 32,
        ⌜∀ ci : Fin 16, ci.val < 13 → fc (ix1 ci) = W (Sort.cntUpTo (labN labels) (16 * k) ci.val)⌝
        ∗ ((mCnt).view.loc (thrL d L) ↦{fullShare} fc)))

theorem lane_val (v : S1x16.Idx → BitVec 32) (j : Fin 16) (off : Fin 1 → Nat) (hoff : off 0 = j.val)
    (hs : S16.Slices off S1) (hc : S1x16.ShapeCasts S16) (h0 : ∀ a, (![0] : Fin 1 → Nat) a < S1.size a) :
    extractAt ![0] (extractStridedSlice S1 off (shapeCast S16 v hc) hs) h0 = v (ix2 0 j) := by
  unfold extractAt
  rw [extractStridedSlice_apply off _ hs _ (ix1 j) (by
    intro a; obtain rfl : a = 0 := Subsingleton.elim _ _
    show j.val = off 0 + 0; omega)]
  exact shapeCast_apply v hc (ix1 j) (ix2 0 j) (by
    rw [Shape.rowMajor_val_one, Shape.rowMajor_val_two]
    show 0 * 16 + j.val = j.val; omega)

-- A word equal to a label is at most 12, so the count cell it names lies among the sixteen.
theorem chk_of_le (v w : BitVec 32) (e : v = w) (h : w.toNat ≤ 12) : k0_chk1 v := by
  subst e; intro a; obtain rfl : a = 0 := Subsingleton.elim _ _
  show v.toNat + 1 ≤ 16; omega

theorem lab_step (fl : S128.Idx → BitVec 32) {Ls : List (View.Piece (Elt F) S128 .i32)} {n : ℕ} {hn : n < 128}
    (hP : ∀ r : Fin 128, r.val < n → ((mLab).view.writes (Elt F) fl Ls) (ix1 r) = labels r)
    {off : Fin 1 → Nat} {inb : ∀ a, off a + S1.size a ≤ S128.size a} (hoff : off 0 = n)
    {l : BitVec 32} (hl : l = labels ⟨n, hn⟩) :
    ∀ r : Fin 128, r.val < n + 1 →
      ((mLab).view.writes (Elt F) fl (⟨Rect.unit (s := S128) off S1.size inb, fun _ => l⟩ :: Ls)) (ix1 r) = labels r := by
  intro r hr
  have := read_writes_cell (Val := Elt F) (mLab).view fl off inb l Ls r
  rw [read_mLab, read_mLab] at this
  rw [this]
  split_ifs with h
  · rw [hl]; congr 1; exact Fin.ext (by show n = r.val; omega)
  · exact hP r (by omega)

theorem cnt_step (fc : S16.Idx → BitVec 32) {Ls : List (View.Piece (Elt F) S16 .i32)} {n : ℕ} {hn : n < 128}
    (hP : ∀ ci : Fin 16, ci.val < 13 → ((mCnt).view.writes (Elt F) fc Ls) (ix1 ci) = W (Sort.cntUpTo (labN labels) n ci.val))
    {l : BitVec 32} {inb : ∀ a, k0_off26 l a + S1.size a ≤ S16.size a}
    (hlab : (labels ⟨n, hn⟩).toNat ≤ 12) (hl : l = labels ⟨n, hn⟩)
    {h : 0 < (Rect.unit (s := S16) (k0_off26 l) S1.size inb).toLoadRect.shape.numel}
    {c : BitVec 32}
    (hc : c = Scalar.addi ((mCnt).view.readAt (Elt F) (Rect.unit (s := S16) (k0_off26 l) S1.size inb).toLoadRect
      ((mCnt).view.writes (Elt F) fc Ls) (Shape.Idx.first h)) 1#32) :
    ∀ ci : Fin 16, ci.val < 13 →
      ((mCnt).view.writes (Elt F) fc (⟨Rect.unit (s := S16) (k0_off26 l) S1.size inb, fun _ => c⟩ :: Ls)) (ix1 ci)
        = W (Sort.cntUpTo (labN labels) (n + 1) ci.val) := by
  intro ci hci
  have hoff : k0_off26 l 0 = l.toNat := rfl
  have := read_writes_cell (Val := Elt F) (mCnt).view fc (k0_off26 l) inb c Ls ci
  rw [read_mCnt, read_mCnt] at this
  rw [this, show n + 1 = (⟨n, hn⟩ : Fin 128).val + 1 from rfl, Sort.cntUpTo_succ (labN labels) ⟨n, hn⟩ ci.val]
  have hlt : l.toNat ≤ 12 := by rw [hl]; exact hlab
  by_cases h1 : ci.val = k0_off26 l 0
  · rw [if_pos h1, if_pos (show labN labels ⟨n, hn⟩ = ci.val by show (labels ⟨n, hn⟩).toNat = ci.val; rw [← hl]; omega), hc,
      readAt_cell (Val := Elt F) (mCnt).view _ (k0_off26 l) inb h ci h1, read_mCnt, hP ci hci]
    show W _ + 1#32 = _
    rw [Sort.W_add_one]
  · rw [if_neg h1, if_neg (show ¬ labN labels ⟨n, hn⟩ = ci.val by show ¬ (labels ⟨n, hn⟩).toNat = ci.val; rw [← hl]; omega), Nat.add_zero]
    exact hP ci hci

-- The load's rectangle sits in row `k0_t2 % 2` of the buffer, so it misses any 128-word row at another offset.
theorem load_disj (k0_t2 : Fin k0_t2_loop.trips) (k : Fin k0_t4_loop.trips) (off : Fin 2 → Nat)
    (inb : ∀ a, off a + S1x128.size a ≤ S2x128.size a) (h : k0_t2.val % 2 + 1 ≤ off 0 ∨ off 0 + 1 ≤ k0_t2.val % 2) :
    Disjoint ((lbufM).view.setOn (Rect.unit (s := S2x128) (k0_off24 k0_t2 k) S1x16.size (k0_off24_inb k0_t2 k)).set)
      (Rect.unit (s := S2x128) off S1x128.size inb).set := by
  have e : (lbufM).view.setOn (Rect.unit (s := S2x128) (k0_off24 k0_t2 k) S1x16.size (k0_off24_inb k0_t2 k)).set
      = (Rect.unit (s := S2x128) (k0_off24 k0_t2 k) S1x16.size (k0_off24_inb k0_t2 k)).set := Finset.map_refl
  rw [e]
  refine Rect.unit_disjoint 0 ?_
  rw [k0_off24_eq]
  exact h

-- Lane `n` of the sixteen words loaded at trip `k` from slot `p` is the label of row `16 k + n`.
theorem lane (p : Fin 2) (lb : S2x128.Idx → BitVec 32) (hlb : ∀ r : Fin 128, lb (ix2 p r) = labels r)
    (k0_t2 : Fin k0_t2_loop.trips) (hp : k0_t2.val % 2 = p.val) (k : Fin k0_t4_loop.trips) (hk : k.val < 8)
    (n : ℕ) (hn : n < 16) (off : Fin 1 → Nat) (hoff : off 0 = n) (hs : S16.Slices off S1) :
    extractAt ![0] (extractStridedSlice S1 off (k0_pay11 ((lbufM).view.readAt (Elt F) (Rect.unit (s := S2x128) (k0_off24 k0_t2 k) S1x16.size (k0_off24_inb k0_t2 k)).toLoadRect lb)) hs) inpos_S1_p0
      = labels ⟨16 * k.val + n, by omega⟩ := by
  rw [← hlb]
  refine (lane_val _ ⟨n, hn⟩ off hoff hs shapeCasts_S1x16_S16 inpos_S1_p0).trans ?_
  rw [View.readAt_apply]
  show lb _ = lb _
  congr 1
  funext a
  refine Fin.ext ?_
  match a with
  | ⟨0, _⟩ => show k0_off24 k0_t2 k 0 + 1 * 0 = p.val; rw [k0_off24_eq, hp]; rfl
  | ⟨1, _⟩ => show k0_off24 k0_t2 k 1 + 1 * n = 16 * k.val + n; rw [k0_off24_eq]; show 16 * k.val + 1 * n = _; omega

-- One trip, for either slot: `o` is the other slot's cell set, which the trip's load does not touch.
theorem t4_region (o : Finset S2x128.Idx) (p : Fin 2) (lb : S2x128.Idx → BitVec 32) (hlab : ∀ r, (labels r).toNat ≤ 12)
    (hlb : ∀ r : Fin 128, lb (ix2 p r) = labels r)
    (c0 c1 : BitVec 32) (k0_t2 : Fin k0_t2_loop.trips) (hp : k0_t2.val % 2 = p.val) (v49 : BitVec 32)
    (k : Fin k0_t4_loop.trips) (acc : Unit)
    (hdisj : Disjoint ((lbufM).view.setOn (Rect.unit (s := S2x128) (k0_off24 k0_t2 k) S1x16.size (k0_off24_inb k0_t2 k)).set) o) :
    inv4 (F := F) d L labels o lb k.val acc
      ⊢ wp frame (wpE (defs₀ (F := F)) 𝒱₀ (thrL d L) none) Set.univ
          (k0_t4_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 v49 k acc)
          (inv4 (F := F) d L labels o lb (k.val + 1)) := by
  unfold inv4 k0_t4_body
  iintro ⟨Hlb, ⟨%fl, %hfl, Hl⟩, ⟨%fc, %hfc, Hc⟩⟩
  have hk : k.val < 8 := lt_of_lt_of_le k.isLt k0_t4_abs.2.1
  have hv := lane (F := F) labels p lb hlb k0_t2 hp k hk
  sl_exec (disch := exact chk_of_le _ _ (hv _ (by decide) _ rfl (by decide)) (hlab _))
  sl_step
  isplitl [Hlb]
  · iexact Hlb
  isplitl [Hl]
  · iexists _
    isplitr
    rotate_left
    · iexact Hl
    · ipureintro
      rw [show 16 * (k.val + 1) = 16 * k.val + 15 + 1 by omega]
      iterate 16 refine lab_step (F := F) labels fl ?_ (by simp only [k0_off25_eq, k0_off27_eq, k0_off29_eq, k0_off31_eq, k0_off33_eq, k0_off35_eq, k0_off37_eq, k0_off39_eq, k0_off41_eq, k0_off43_eq, k0_off45_eq, k0_off47_eq, k0_off49_eq, k0_off51_eq, k0_off53_eq, k0_off55_eq]; rfl) (hv _ (by decide) _ rfl (by decide))
      exact fun r hr => hfl r (by omega)
  · iexists _
    isplitr
    rotate_left
    · iexact Hc
    · ipureintro
      rw [show 16 * (k.val + 1) = 16 * k.val + 15 + 1 by omega]
      iterate 16 refine cnt_step (F := F) labels fc ?_ (hlab _) (hv _ (by decide) _ rfl (by decide)) rfl
      exact fun ci hci => hfc ci hci

theorem t4_region0 (lb : S2x128.Idx → BitVec 32) (hlab : ∀ r, (labels r).toNat ≤ 12)
    (hlb : ∀ r : Fin 128, lb (ix2 (0 : Fin 2) r) = labels r)
    (c0 c1 : BitVec 32) (k0_t2 : Fin k0_t2_loop.trips) (hp : k0_t2.val % 2 = 0) (v49 : BitVec 32)
    (k : Fin k0_t4_loop.trips) (acc : Unit) :
    inv4_0 (F := F) d L labels lb k.val acc
      ⊢ wp frame (wpE (defs₀ (F := F)) 𝒱₀ (thrL d L) none) Set.univ
          (k0_t4_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 v49 k acc)
          (inv4_0 (F := F) d L labels lb (k.val + 1)) :=
  t4_region (F := F) d L labels _ 0 lb hlab hlb c0 c1 k0_t2 hp v49 k acc (by
    rw [set_lSlotM1, lSlotSet_eq, ← lRect1]; exact load_disj k0_t2 k _ _ (Or.inl (by rw [hp]; exact Nat.le_refl 1)))

theorem t4_region1 (lb : S2x128.Idx → BitVec 32) (hlab : ∀ r, (labels r).toNat ≤ 12)
    (hlb : ∀ r : Fin 128, lb (ix2 (1 : Fin 2) r) = labels r)
    (c0 c1 : BitVec 32) (k0_t2 : Fin k0_t2_loop.trips) (hp : k0_t2.val % 2 = 1) (v49 : BitVec 32)
    (k : Fin k0_t4_loop.trips) (acc : Unit) :
    inv4_1 (F := F) d L labels lb k.val acc
      ⊢ wp frame (wpE (defs₀ (F := F)) 𝒱₀ (thrL d L) none) Set.univ
          (k0_t4_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 v49 k acc)
          (inv4_1 (F := F) d L labels lb (k.val + 1)) :=
  t4_region (F := F) d L labels _ 1 lb hlab hlb c0 c1 k0_t2 hp v49 k acc (by
    rw [set_lSlotM0, lSlotSet_eq, ← lRect0]; exact load_disj k0_t2 k _ _ (Or.inr (by rw [hp]; exact Nat.le_refl 1)))

theorem t4_trips : k0_t4_loop.trips = 8 := by decide

theorem inv4_init (o : Finset S2x128.Idx) (lb : S2x128.Idx → BitVec 32) (fl : S128.Idx → BitVec 32) (fc : S16.Idx → BitVec 32)
    (hfc : ∀ ci : Fin 16, ci.val < 13 → fc (ix1 ci) = 0#32) :
    iprop(((lbufM).view.loc (thrL d L) ↦[Finset.univ \ o]{fullShare} lb)
        ∗ ((mLab).view.loc (thrL d L) ↦{fullShare} fl) ∗ ((mCnt).view.loc (thrL d L) ↦{fullShare} fc) : sProp 𝕄)
      ⊢ inv4 (F := F) d L labels o lb 0 ⟨⟩ := by
  unfold inv4
  iintro ⟨Hlb, Hl, Hc⟩
  isplitl [Hlb]
  · iexact Hlb
  isplitl [Hl]
  · iexists fl
    isplitr
    · ipureintro; intro r hr; exact absurd hr (by omega)
    · iexact Hl
  · iexists fc
    isplitr
    · ipureintro; intro ci hci; rw [hfc ci hci, Nat.mul_zero, Sort.cntUpTo_zero]
    · iexact Hc

theorem inv4_0_init (lb : S2x128.Idx → BitVec 32) (fl : S128.Idx → BitVec 32) (fc : S16.Idx → BitVec 32)
    (hfc : ∀ ci : Fin 16, ci.val < 13 → fc (ix1 ci) = 0#32) :
    iprop(((lbufM).view.loc (thrL d L) ↦[Finset.univ \ (lSlotM1).view.set]{fullShare} lb)
        ∗ ((mLab).view.loc (thrL d L) ↦{fullShare} fl) ∗ ((mCnt).view.loc (thrL d L) ↦{fullShare} fc) : sProp 𝕄)
      ⊢ inv4_0 (F := F) d L labels lb 0 ⟨⟩ :=
  inv4_init (F := F) d L labels _ lb fl fc hfc

theorem inv4_1_init (lb : S2x128.Idx → BitVec 32) (fl : S128.Idx → BitVec 32) (fc : S16.Idx → BitVec 32)
    (hfc : ∀ ci : Fin 16, ci.val < 13 → fc (ix1 ci) = 0#32) :
    iprop(((lbufM).view.loc (thrL d L) ↦[Finset.univ \ (lSlotM0).view.set]{fullShare} lb)
        ∗ ((mLab).view.loc (thrL d L) ↦{fullShare} fl) ∗ ((mCnt).view.loc (thrL d L) ↦{fullShare} fc) : sProp 𝕄)
      ⊢ inv4_1 (F := F) d L labels lb 0 ⟨⟩ :=
  inv4_init (F := F) d L labels _ lb fl fc hfc

theorem lab_exit (fl : S128.Idx → BitVec 32) (h : ∀ r : Fin 128, r.val < 16 * 8 → fl (ix1 r) = labels r) :
    ∀ r : Fin 128, fl (ix1 r) = labels r := fun r => h r (by have := r.isLt; omega)

theorem cnt_exit (fc : S16.Idx → BitVec 32)
    (h : ∀ ci : Fin 16, ci.val < 13 → fc (ix1 ci) = W (Sort.cntUpTo (labN labels) (16 * 8) ci.val)) :
    ∀ ci : Fin 16, ci.val < 13 → fc (ix1 ci) = W (Sort.cnt (labN labels) ci.val) := h

theorem whole128_emb (r : Fin 128) : (Rect.whole S128).emb (ix1 r) = (ix1 r : S128.Idx) := by
  funext a
  obtain rfl : a = 0 := Subsingleton.elim _ _
  refine Fin.ext ?_
  show 0 + 1 * r.val = r.val
  omega

theorem label_slice_read (M : S65536.Idx → BitVec 32) (off : Fin 1 → Nat) (h : ∀ a, off a + S128.size a ≤ S65536.size a)
    (r : Fin 128) :
    ReadAs.same.apply (View.read (Elt F)
        ((Memref.whole main_arg1_scv : Memref sig .scVector .hbm S65536 .i32).slice (Rect.unit (s := S65536) off S128.size h) (fun _ => rfl)).view M) (ix1 r)
      = M (ix1 ⟨off 0 + r.val, by have := h 0; have : off 0 + 128 ≤ 65536 := this; omega⟩) := by
  show M _ = M _
  congr 1
  funext (a : Fin 1)
  obtain rfl : a = 0 := Subsingleton.elim _ _
  refine Fin.ext ?_
  show off 0 + 1 * r.val = off 0 + r.val
  omega

abbrev lSlotM (o₂ : Fin 2 → Nat) (i₂ : ∀ a, o₂ a + S1x128.size a ≤ S2x128.size a) : Memref sig .scVector .vmem S128 .i32 :=
  ((lbufM).slice (Rect.unit (s := S2x128) o₂ S1x128.size i₂) (fun _ => rfl)).squeeze S128 squeezes_S1x128_S128

-- A slot read through its own memref at row `r` is the label buffer at `(p, r)`: the slot is row `p` of the buffer.
theorem read_lSlotM (p : Fin 2) (o₂ : Fin 2 → Nat) (i₂ : ∀ a, o₂ a + S1x128.size a ≤ S2x128.size a) (h0 : o₂ 0 = p.val) (h1 : o₂ 1 = 0)
    (f : S2x128.Idx → BitVec 32) (r : Fin 128) :
    (lSlotM o₂ i₂).view.read (Elt F) f (ix1 r) = f (ix2 p r) := by
  show shapeCast S128 ((lbufM).view.readAt (Elt F) (Rect.unit (s := S2x128) o₂ S1x128.size i₂).toLoadRect f) _ (ix1 r) = _
  rw [shapeCast_apply _ _ (ix1 r) (ix2 0 r) (by
    rw [Shape.rowMajor_val_one, Shape.rowMajor_val_two]; show 0 * 128 + r.val = r.val; omega)]
  rw [View.readAt_apply]
  show f _ = f _
  congr 1
  funext a
  refine Fin.ext ?_
  match a with
  | ⟨0, _⟩ => show o₂ 0 + 1 * 0 = p.val; omega
  | ⟨1, _⟩ => show o₂ 1 + 1 * r.val = r.val; omega

-- Entering the loop with the chunk's labels landed whole in slot `p`: the slot's cells, handed over as the buffer less the other slot's cells `o`, hold row `r`'s label at `(p, r)`.
theorem lslot_entry (p : Fin 2) (o₂ : Fin 2 → Nat) (i₂ : ∀ a, o₂ a + S1x128.size a ≤ S2x128.size a) (h0 : o₂ 0 = p.val) (h1 : o₂ 1 = 0)
    (o : Finset S2x128.Idx)
    (hrest : ∀ f, ((lSlotM o₂ i₂).view.loc (thrL d L) ↦[(lSlotM o₂ i₂).view.set]{fullShare} f : sProp 𝕄)
      ⊢ ((lbufM).view.loc (thrL d L) ↦[Finset.univ \ o]{fullShare} f))
    (M : S65536.Idx → BitVec 32) (hM : ∀ i, (M i).toNat ≤ 12) (g₀ : S2x128.Idx → BitVec 32)
    (pay : S128.Idx → BitVec 32) (off : Fin 1 → Nat) (h : ∀ a, off a + S128.size a ≤ S65536.size a)
    (hpay : pay = ReadAs.same.apply (View.read (Elt F)
      ((Memref.whole main_arg1_scv : Memref sig .scVector .hbm S65536 .i32).slice (Rect.unit (s := S65536) off S128.size h) (fun _ => rfl)).view M)) :
    ((lSlotM o₂ i₂).view.loc (thrL d L) ↦[(lSlotM o₂ i₂).view.set]{fullShare}
        (lSlotM o₂ i₂).view.writes (Elt F) g₀ [⟨Rect.whole S128, pay⟩] : sProp 𝕄)
      ⊢ iprop(∃ (labels : Fin 128 → BitVec 32) (lb : S2x128.Idx → BitVec 32),
          ⌜(∀ r, (labels r).toNat ≤ 12)
            ∧ (∀ r : Fin 128, labels r = M (ix1 ⟨off 0 + r.val, by have := h 0; have : off 0 + 128 ≤ 65536 := this; omega⟩))
            ∧ (∀ r : Fin 128, lb (ix2 p r) = labels r)⌝
          ∗ ((lbufM).view.loc (thrL d L) ↦[Finset.univ \ o]{fullShare} lb)) := by
  iintro H
  iexists (fun r => M (ix1 ⟨off 0 + r.val, by have := h 0; have : off 0 + 128 ≤ 65536 := this; omega⟩))
  iexists _
  isplitr
  rotate_left
  · iapply (hrest _)
    iexact H
  · ipureintro
    refine ⟨fun r => hM _, fun r => rfl, fun r => ?_⟩
    refine (read_lSlotM (F := F) p o₂ i₂ h0 h1 _ r).symm.trans ?_
    have h2 := View.read_writes_cons_emb (Val := Elt F) (lSlotM o₂ i₂).view g₀ (Rect.whole S128) pay [] (ix1 r)
    rw [whole128_emb r] at h2
    rw [h2, hpay]
    exact label_slice_read (F := F) M off h r

theorem lslot_entry_0' (M : S65536.Idx → BitVec 32) (hM : ∀ i, (M i).toNat ≤ 12) (g₀ : S2x128.Idx → BitVec 32)
    (pay : S128.Idx → BitVec 32) (off : Fin 1 → Nat) (h : ∀ a, off a + S128.size a ≤ S65536.size a)
    (hpay : pay = ReadAs.same.apply (View.read (Elt F)
      ((Memref.whole main_arg1_scv : Memref sig .scVector .hbm S65536 .i32).slice (Rect.unit (s := S65536) off S128.size h) (fun _ => rfl)).view M)) :
    ((lSlotM0).view.loc (thrL d L) ↦[(lSlotM0).view.set]{fullShare}
        (lSlotM0).view.writes (Elt F) g₀ [⟨Rect.whole S128, pay⟩] : sProp 𝕄)
      ⊢ iprop(∃ (labels : Fin 128 → BitVec 32) (lb : S2x128.Idx → BitVec 32),
          ⌜(∀ r, (labels r).toNat ≤ 12)
            ∧ (∀ r : Fin 128, labels r = M (ix1 ⟨off 0 + r.val, by have := h 0; have : off 0 + 128 ≤ 65536 := this; omega⟩))
            ∧ (∀ r : Fin 128, lb (ix2 (0 : Fin 2) r) = labels r)⌝
          ∗ ((lbufM).view.loc (thrL d L) ↦[Finset.univ \ (lSlotM1).view.set]{fullShare} lb)) :=
  lslot_entry (F := F) d L 0 ![0, 0] inb_S2x128_S1x128_0_0 rfl rfl _ (lslot0_to_rest (F := F) d _ _) M hM g₀ pay off h hpay

theorem lslot_entry_1' (M : S65536.Idx → BitVec 32) (hM : ∀ i, (M i).toNat ≤ 12) (g₀ : S2x128.Idx → BitVec 32)
    (pay : S128.Idx → BitVec 32) (off : Fin 1 → Nat) (h : ∀ a, off a + S128.size a ≤ S65536.size a)
    (hpay : pay = ReadAs.same.apply (View.read (Elt F)
      ((Memref.whole main_arg1_scv : Memref sig .scVector .hbm S65536 .i32).slice (Rect.unit (s := S65536) off S128.size h) (fun _ => rfl)).view M)) :
    ((lSlotM1).view.loc (thrL d L) ↦[(lSlotM1).view.set]{fullShare}
        (lSlotM1).view.writes (Elt F) g₀ [⟨Rect.whole S128, pay⟩] : sProp 𝕄)
      ⊢ iprop(∃ (labels : Fin 128 → BitVec 32) (lb : S2x128.Idx → BitVec 32),
          ⌜(∀ r, (labels r).toNat ≤ 12)
            ∧ (∀ r : Fin 128, labels r = M (ix1 ⟨off 0 + r.val, by have := h 0; have : off 0 + 128 ≤ 65536 := this; omega⟩))
            ∧ (∀ r : Fin 128, lb (ix2 (1 : Fin 2) r) = labels r)⌝
          ∗ ((lbufM).view.loc (thrL d L) ↦[Finset.univ \ (lSlotM0).view.set]{fullShare} lb)) :=
  lslot_entry (F := F) d L 1 ![1, 0] inb_S2x128_S1x128_1_0 rfl rfl _ (lslot1_to_rest (F := F) d _ _) M hM g₀ pay off h hpay

end Cert.Proof.KB

end
-- ==== Proof.ScClsLoopB.lean ====
import proofs.«216278_g4776003633407_cont_8to1_c_644_33_alg».proof.Proof.ScSlotsB
import proofs.«216278_g4776003633407_cont_8to1_c_644_33_alg».proof.Proof.SortSpec
import proofs.«216278_g4776003633407_cont_8to1_c_644_33_alg».proof.Proof.SortWords
import Idealize.ShloMosaic.Lib.ValueIdx
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)
open Cert.Proof.Sort (W)

variable {F : FTy → Type}

local notation "𝕄" => MT nD τ sig (HIx 1) (Elt F) ℕ UU ℕ

variable (d : Dev nD) (L : grid0.Coords) [FloatOps F]
abbrev thrC (d : Dev nD) (L : grid0.Coords) : Thread nD τ := V d ((L 0).castLE hcore0) ((L 1).castLE hsub0)

abbrev bktM : Memref sig .scVector .smem S128 .i32 := Memref.whole cc0_scratch5
abbrev cntM : Memref sig .scVector .smem S16 .i32 := Memref.whole cc0_scratch6
abbrev offM : Memref sig .scVector .smem S16 .i32 := Memref.whole cc0_scratch7
abbrev afM : Memref sig .scVector .vmem S16x256 .f32 := Memref.whole cc0_scratch2
abbrev axM : Memref sig .scVector .vmem S16x32 .f32 := Memref.whole cc0_scratch3

theorem setOn_fbufM (M : Finset S2x128x256.Idx) : (fbufM).view.setOn M = M := Finset.map_refl

theorem disj_slot1 (off : Fin 3 → Nat) (inb : ∀ a, off a + S1x1x16.size a ≤ S2x128x256.size a) (h0 : off 0 = 0) :
    Disjoint ((fbufM).view.setOn (Rect.unit (s := S2x128x256) off S1x1x16.size inb).set) (fSlotM1).view.set := by
  rw [setOn_fbufM, set_fSlotM1, fSlotSet_eq, ← fRect1]
  exact Rect.unit_disjoint 0 (Or.inl (by rw [h0]; decide))

theorem disj_slot0 (off : Fin 3 → Nat) (inb : ∀ a, off a + S1x1x16.size a ≤ S2x128x256.size a) (h0 : off 0 = 1) :
    Disjoint ((fbufM).view.setOn (Rect.unit (s := S2x128x256) off S1x1x16.size inb).set) (fSlotM0).view.set := by
  rw [setOn_fbufM, set_fSlotM0, fSlotSet_eq, ← fRect0]
  exact Rect.unit_disjoint 0 (Or.inr (by rw [h0]; decide))

/-- The slot coordinate of every piece's offset is the parity of the chunk's trip. -/
theorem slot_first : ∀ k0_t2 : Fin k0_t2_loop.trips, k0_off65 k0_t2 0#32 0 = k0_t2.val % 2 := by decide +kernel
theorem off65_first : ∀ (k0_t2 : Fin k0_t2_loop.trips) (w : BitVec 32), k0_off65 k0_t2 w 0 = k0_t2.val % 2 := fun k _ => slot_first k
theorem off66_first : ∀ (k0_t2 : Fin k0_t2_loop.trips) (w : BitVec 32), k0_off66 k0_t2 w 0 = k0_t2.val % 2 := fun k _ => slot_first k
theorem off67_first : ∀ (k0_t2 : Fin k0_t2_loop.trips) (w : BitVec 32), k0_off67 k0_t2 w 0 = k0_t2.val % 2 := fun k _ => slot_first k
theorem off68_first : ∀ (k0_t2 : Fin k0_t2_loop.trips) (w : BitVec 32), k0_off68 k0_t2 w 0 = k0_t2.val % 2 := fun k _ => slot_first k
theorem off69_first : ∀ (k0_t2 : Fin k0_t2_loop.trips) (w : BitVec 32), k0_off69 k0_t2 w 0 = k0_t2.val % 2 := fun k _ => slot_first k
theorem off70_first : ∀ (k0_t2 : Fin k0_t2_loop.trips) (w : BitVec 32), k0_off70 k0_t2 w 0 = k0_t2.val % 2 := fun k _ => slot_first k
theorem off71_first : ∀ (k0_t2 : Fin k0_t2_loop.trips) (w : BitVec 32), k0_off71 k0_t2 w 0 = k0_t2.val % 2 := fun k _ => slot_first k
theorem off72_first : ∀ (k0_t2 : Fin k0_t2_loop.trips) (w : BitVec 32), k0_off72 k0_t2 w 0 = k0_t2.val % 2 := fun k _ => slot_first k
theorem off73_first : ∀ (k0_t2 : Fin k0_t2_loop.trips) (w : BitVec 32), k0_off73 k0_t2 w 0 = k0_t2.val % 2 := fun k _ => slot_first k
theorem off74_first : ∀ (k0_t2 : Fin k0_t2_loop.trips) (w : BitVec 32), k0_off74 k0_t2 w 0 = k0_t2.val % 2 := fun k _ => slot_first k
theorem off75_first : ∀ (k0_t2 : Fin k0_t2_loop.trips) (w : BitVec 32), k0_off75 k0_t2 w 0 = k0_t2.val % 2 := fun k _ => slot_first k
theorem off76_first : ∀ (k0_t2 : Fin k0_t2_loop.trips) (w : BitVec 32), k0_off76 k0_t2 w 0 = k0_t2.val % 2 := fun k _ => slot_first k
theorem off77_first : ∀ (k0_t2 : Fin k0_t2_loop.trips) (w : BitVec 32), k0_off77 k0_t2 w 0 = k0_t2.val % 2 := fun k _ => slot_first k
theorem off78_first : ∀ (k0_t2 : Fin k0_t2_loop.trips) (w : BitVec 32), k0_off78 k0_t2 w 0 = k0_t2.val % 2 := fun k _ => slot_first k
theorem off79_first : ∀ (k0_t2 : Fin k0_t2_loop.trips) (w : BitVec 32), k0_off79 k0_t2 w 0 = k0_t2.val % 2 := fun k _ => slot_first k
theorem off80_first : ∀ (k0_t2 : Fin k0_t2_loop.trips) (w : BitVec 32), k0_off80 k0_t2 w 0 = k0_t2.val % 2 := fun k _ => slot_first k

/-- The `j`-th 16-lane piece of a row below 128 of either slot lies inside the buffer. -/
theorem piece_inb {off : Fin 3 → Nat} {n : ℕ} (j : Fin 16) (h0 : off 0 = n % 2) (h1 : off 1 < 128) (h2 : off 2 = 16 * j.val) :
    ∀ a, off a + S1x1x16.size a ≤ S2x128x256.size a := fun a => match a with
  | ⟨0, _⟩ => by show off 0 + 1 ≤ 2; omega
  | ⟨1, _⟩ => by show off 1 + 1 ≤ 128; omega
  | ⟨2, _⟩ => by show off 2 + 16 ≤ 256; omega

theorem chk21_of (k0_t2 : Fin k0_t2_loop.trips) (w : BitVec 32) (hw : w.toNat < 128) : k0_chk21 k0_t2 w :=
  ⟨piece_inb 0 (off65_first k0_t2 w) hw rfl,
   piece_inb 1 (off66_first k0_t2 w) hw rfl,
   piece_inb 2 (off67_first k0_t2 w) hw rfl,
   piece_inb 3 (off68_first k0_t2 w) hw rfl,
   piece_inb 4 (off69_first k0_t2 w) hw rfl,
   piece_inb 5 (off70_first k0_t2 w) hw rfl,
   piece_inb 6 (off71_first k0_t2 w) hw rfl,
   piece_inb 7 (off72_first k0_t2 w) hw rfl,
   piece_inb 8 (off73_first k0_t2 w) hw rfl,
   piece_inb 9 (off74_first k0_t2 w) hw rfl,
   piece_inb 10 (off75_first k0_t2 w) hw rfl,
   piece_inb 11 (off76_first k0_t2 w) hw rfl,
   piece_inb 12 (off77_first k0_t2 w) hw rfl,
   piece_inb 13 (off78_first k0_t2 w) hw rfl,
   piece_inb 14 (off79_first k0_t2 w) hw rfl,
   piece_inb 15 (off80_first k0_t2 w) hw rfl⟩

theorem t8_trips_W : ∀ c : Fin 129, (k0_t8_loop (W c.val)).trips = c.val := by decide +kernel

theorem iv01 (k : ℕ) : Scf.iv (0#32) (1#32) k = W k := by
  unfold Scf.iv; rw [BitVec.mul_one, BitVec.zero_add]

theorem off64_W (c o : ℕ) (k : Fin (k0_t8_loop (W c)).trips) : k0_off64 (W c) (W o) k = ![(W (o + k.val)).toNat] := by
  show ![((W o) + Scf.iv (0#32) (1#32) k.val).toNat] = _
  rw [iv01, Sort.W_add]

theorem chk20_W {c o : ℕ} (h : o + c ≤ 128) : k0_chk20 (W c) (W o) := by
  refine ⟨fun k a => ?_, fun k => absurd k.isLt (by have := (k0_t9_abs (W c)).2.1; omega)⟩
  have hk : k.val < c := by
    have h1 := t8_trips_W ⟨c, by omega⟩
    have h2 := k.isLt
    simp only at h1
    omega
  rw [off64_W]
  obtain rfl : a = 0 := Subsingleton.elim _ _
  show (W (o + k.val)).toNat + 1 ≤ 128
  rw [Sort.W_toNat (by omega)]
  omega

theorem t7_trips : k0_t7_loop.trips = 13 := by decide +kernel

def cell16 (k : Fin k0_t7_loop.trips) : Fin 16 := ⟨k.val, by have := k.isLt; have e := t7_trips; omega⟩

theorem readCnt_at (f : S16.Idx → BitVec 32) (k : Fin k0_t7_loop.trips) (h1 : 0 < S1.numel) :
    (cntM).view.readAt (Elt F) (Rect.unit (s := S16) (k0_off63 k) S1.size (k0_off63_inb k)).toLoadRect f (Shape.Idx.first h1)
      = f (ix1 (cell16 k)) := by
  show f _ = f _
  congr 1
  refine funext fun (a : Fin 1) => ?_
  obtain rfl : a = 0 := Subsingleton.elim _ _
  apply Fin.ext
  show k0_off63 k 0 + 1 * 0 = k.val
  rw [k0_off63_eq]
  rfl

theorem readOff_at (f : S16.Idx → BitVec 32) (k : Fin k0_t7_loop.trips) (h1 : 0 < S1.numel) :
    (offM).view.readAt (Elt F) (Rect.unit (s := S16) (k0_off63 k) S1.size (k0_off63_inb k)).toLoadRect f (Shape.Idx.first h1)
      = f (ix1 (cell16 k)) := by
  show f _ = f _
  congr 1
  refine funext fun (a : Fin 1) => ?_
  obtain rfl : a = 0 := Subsingleton.elim _ _
  apply Fin.ext
  show k0_off63 k 0 + 1 * 0 = k.val
  rw [k0_off63_eq]
  rfl

theorem chk20_at (fc fo : S16.Idx → BitVec 32) (k : Fin k0_t7_loop.trips) (h1 h1' : 0 < S1.numel) {c o : ℕ}
    (hc : fc (ix1 (cell16 k)) = W c) (ho : fo (ix1 (cell16 k)) = W o) (h : o + c ≤ 128) :
    k0_chk20
      ((cntM).view.readAt (Elt F) (Rect.unit (s := S16) (k0_off63 k) S1.size (k0_off63_inb k)).toLoadRect fc (Shape.Idx.first h1))
      ((offM).view.readAt (Elt F) (Rect.unit (s := S16) (k0_off63 k) S1.size (k0_off63_inb k)).toLoadRect fo (Shape.Idx.first h1')) := by
  rw [readCnt_at, readOff_at, hc, ho]
  exact chk20_W h

theorem bucket_cells (lab : Fin 128 → ℕ) (hlab : ∀ r, lab r ≤ 12) (fb : S128.Idx → BitVec 32)
    (hfb : ∀ r : Fin 128, fb (ix1 ⟨Sort.pos lab r, Sort.pos_lt lab hlab r⟩) = W r.val) (q : S128.Idx) :
    ∃ r : Fin 128, fb q = W r.val := by
  obtain ⟨r, hr⟩ := (Sort.posFin_bijective lab hlab).2 (q 0)
  refine ⟨r, ?_⟩
  have e : q = ix1 (Sort.posFin lab hlab r) := by rw [hr]; exact ValueIdx.eq_ix1 q
  rw [e]
  exact hfb r

theorem bucket_lt (lab : Fin 128 → ℕ) (hlab : ∀ r, lab r ≤ 12) (fb : S128.Idx → BitVec 32)
    (hfb : ∀ r : Fin 128, fb (ix1 ⟨Sort.pos lab r, Sort.pos_lt lab hlab r⟩) = W r.val) (q : S128.Idx) :
    (fb q).toNat < 128 := by
  obtain ⟨r, hr⟩ := bucket_cells lab hlab fb hfb q
  rw [hr, Sort.W_toNat (by have := r.isLt; omega)]
  exact r.isLt

def inv8 (X : Finset S2x128x256.Idx) (fb : S128.Idx → BitVec 32) (f0 : Buf (Elt F) ((fbufM).view.loc (thrC d L))) (_ : Nat)
    (_ : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(((bktM).view.loc (thrC d L) ↦{fullShare} fb) ∗ ((fbufM).view.loc (thrC d L) ↦[Finset.univ \ X]{fullShare} f0))

def inv8s0 (fb : S128.Idx → BitVec 32) (f0 : Buf (Elt F) ((fbufM).view.loc (thrC d L))) (_ : Nat)
    (_ : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(((bktM).view.loc (thrC d L) ↦{fullShare} fb) ∗ ((fbufM).view.loc (thrC d L) ↦[Finset.univ \ (fSlotM1).view.set]{fullShare} f0))

def inv8s1 (fb : S128.Idx → BitVec 32) (f0 : Buf (Elt F) ((fbufM).view.loc (thrC d L))) (_ : Nat)
    (_ : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(((bktM).view.loc (thrC d L) ↦{fullShare} fb) ∗ ((fbufM).view.loc (thrC d L) ↦[Finset.univ \ (fSlotM0).view.set]{fullShare} f0))

/-- Every piece read in a trip begins in the slot of the trip's parity, hence off `X`; the rest is the frame. -/
theorem t8_region (X : Finset S2x128x256.Idx) (fb : S128.Idx → BitVec 32) (f0 : Buf (Elt F) ((fbufM).view.loc (thrC d L)))
    (v3 : FVec F S16 .f32) (k0_t2 : Fin k0_t2_loop.trips)
    (hd : ∀ (off : Fin 3 → Nat) (inb : ∀ a, off a + S1x1x16.size a ≤ S2x128x256.size a), off 0 = k0_t2.val % 2 →
      Disjoint ((fbufM).view.setOn (Rect.unit (s := S2x128x256) off S1x1x16.size inb).set) X)
    (v49 : BitVec 32) (c0 c1 : BitVec 32) (k0_t7 : Fin k0_t7_loop.trips)
    (v77 : BitVec 32) (hw19 : k0_chk19 v77) (v79 : BitVec 32) (hw20 : k0_chk20 v77 v79)
    (hfb : ∀ q : S128.Idx, k0_chk21 k0_t2 (fb q))
    (k : Fin (k0_t8_loop v77).trips) (acc) :
    inv8 (F := F) d L X fb f0 k.val acc
      ⊢ wp frame (wpE (defs₀ (F := F)) 𝒱₀ (thrC d L) none) Set.univ
          (k0_t8_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v3 k0_t2 v49 c0 c1 k0_t7 v77 hw19 v79 hw20 k acc)
          (inv8 (F := F) d L X fb f0 (k.val + 1)) := by
  unfold inv8 k0_t8_body
  iintro ⟨Hb, Hf⟩
  sl_exec (disch := exact hd _ _ (slot_first k0_t2))
  sl_step
  iframe

/-- The tail loop makes no trip. -/
theorem t9_none {P : Prop} {v : BitVec 32} (k : Fin (k0_t9_loop v).trips) : P :=
  absurd k.isLt (by have := (k0_t9_abs v).2.1; omega)

def inv7 (X : Finset S2x128x256.Idx) (fc fo : S16.Idx → BitVec 32) (fb : S128.Idx → BitVec 32) (f0 : Buf (Elt F) ((fbufM).view.loc (thrC d L))) (_ : Nat) (_ : Unit) : sProp 𝕄 :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ X]{fullShare} f0)
    ∗ (∃ g, (afM).view.loc (thrC d L) ↦{fullShare} g) ∗ (∃ g, (axM).view.loc (thrC d L) ↦{fullShare} g))

def inv7s0 (fc fo : S16.Idx → BitVec 32) (fb : S128.Idx → BitVec 32) (f0 : Buf (Elt F) ((fbufM).view.loc (thrC d L))) (_ : Nat) (_ : Unit) : sProp 𝕄 :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM1).view.set]{fullShare} f0)
    ∗ (∃ g, (afM).view.loc (thrC d L) ↦{fullShare} g) ∗ (∃ g, (axM).view.loc (thrC d L) ↦{fullShare} g))

def inv7s1 (fc fo : S16.Idx → BitVec 32) (fb : S128.Idx → BitVec 32) (f0 : Buf (Elt F) ((fbufM).view.loc (thrC d L))) (_ : Nat) (_ : Unit) : sProp 𝕄 :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM0).view.set]{fullShare} f0)
    ∗ (∃ g, (afM).view.loc (thrC d L) ↦{fullShare} g) ∗ (∃ g, (axM).view.loc (thrC d L) ↦{fullShare} g))

theorem inv7_intro (X : Finset S2x128x256.Idx) (fc fo : S16.Idx → BitVec 32) (fb : S128.Idx → BitVec 32) (f0 : Buf (Elt F) ((fbufM).view.loc (thrC d L)))
    (a : Buf (Elt F) ((afM).view.loc (thrC d L))) (b : Buf (Elt F) ((axM).view.loc (thrC d L))) (n : Nat) (u : Unit) :
    iprop(((cntM).view.loc (thrC d L) ↦{fullShare} fc) ∗ ((offM).view.loc (thrC d L) ↦{fullShare} fo) ∗ ((bktM).view.loc (thrC d L) ↦{fullShare} fb)
      ∗ ((fbufM).view.loc (thrC d L) ↦[Finset.univ \ X]{fullShare} f0)
      ∗ ((afM).view.loc (thrC d L) ↦{fullShare} a) ∗ ((axM).view.loc (thrC d L) ↦{fullShare} b))
      ⊢ inv7 (F := F) d L X fc fo fb f0 n u := by
  unfold inv7
  iintro ⟨Hc, Ho, Hb, Hf, Ha, Hx⟩
  iframe
  isplitl [Ha]
  · iexists _; iexact Ha
  · iexists _; iexact Hx

theorem t7_region (X : Finset S2x128x256.Idx) (lab : Fin 128 → ℕ) (hlab : ∀ r, lab r ≤ 12) (fc fo : S16.Idx → BitVec 32) (fb : S128.Idx → BitVec 32)
    (f0 : Buf (Elt F) ((fbufM).view.loc (thrC d L)))
    (hfc : ∀ ci : Fin 16, ci.val < 13 → fc (ix1 ci) = W (Sort.cnt lab ci.val))
    (hfo : ∀ ci : Fin 16, ci.val < 13 → fo (ix1 ci) = W (Sort.off lab ci.val))
    (hfb : ∀ r : Fin 128, fb (ix1 ⟨Sort.pos lab r, Sort.pos_lt lab hlab r⟩) = W r.val)
    (v2 : BitVec 32) (v3 : FVec F S16 .f32) (k0_t2 : Fin k0_t2_loop.trips)
    (hd : ∀ (off : Fin 3 → Nat) (inb : ∀ a, off a + S1x1x16.size a ≤ S2x128x256.size a), off 0 = k0_t2.val % 2 →
      Disjoint ((fbufM).view.setOn (Rect.unit (s := S2x128x256) off S1x1x16.size inb).set) X)
    (v49 : BitVec 32)
    (k : Fin k0_t7_loop.trips) (acc : Unit) :
    inv7 (F := F) d L X fc fo fb f0 k.val acc
      ⊢ wp frame (wpE (defs₀ (F := F)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7 (F := F) d L X fc fo fb f0 (k.val + 1)) := by
  have hk13 : (cell16 k).val < 13 := by have := k.isLt; have e := t7_trips; show k.val < 13; omega
  have hfb21 : ∀ q : S128.Idx, k0_chk21 k0_t2 (fb q) := fun q => chk21_of k0_t2 (fb q) (bucket_lt lab hlab fb hfb q)
  unfold inv7 k0_t7_body
  iintro ⟨Hc, Ho, Hb, Hf, ⟨%ga, Ha⟩, ⟨%gx, Hx⟩⟩
  sl_exec (disch := exact chk20_at fc fo k _ _ (hfc _ hk13) (hfo _ hk13) (Sort.off_add_cnt_le lab hlab (by omega)))
  sl_for (inv8 (F := F) d L X fb f0) $$ [Hb Hf]
  case region =>
    intro k' acc'
    exact t8_region (F := F) d L X fb f0 v3 k0_t2 hd v49 _ _ k _ _ _ _ hfb21 k' acc'
  · unfold inv8; iframe
  iintro %acc1 HI
  unfold inv8
  icases HI with ⟨Hb, Hf⟩
  sl_exec
  sl_for (inv8 (F := F) d L X fb f0) $$ [Hb Hf]
  case region =>
    intro k' acc'
    exact t9_none k'
  · unfold inv8; iframe
  iintro %acc2 HI
  unfold inv8
  icases HI with ⟨Hb, Hf⟩
  sl_exec
  sl_step
  iframe
  isplitl [Ha]
  · iexists _; iexact Ha
  · iexists _; iexact Hx

theorem t7_region0 (lab : Fin 128 → ℕ) (hlab : ∀ r, lab r ≤ 12) (fc fo : S16.Idx → BitVec 32) (fb : S128.Idx → BitVec 32)
    (f0 : Buf (Elt F) ((fbufM).view.loc (thrC d L)))
    (hfc : ∀ ci : Fin 16, ci.val < 13 → fc (ix1 ci) = W (Sort.cnt lab ci.val))
    (hfo : ∀ ci : Fin 16, ci.val < 13 → fo (ix1 ci) = W (Sort.off lab ci.val))
    (hfb : ∀ r : Fin 128, fb (ix1 ⟨Sort.pos lab r, Sort.pos_lt lab hlab r⟩) = W r.val)
    (v2 : BitVec 32) (v3 : FVec F S16 .f32) (k0_t2 : Fin k0_t2_loop.trips) (hp : k0_t2.val % 2 = 0) (v49 : BitVec 32)
    (k : Fin k0_t7_loop.trips) (acc : Unit) :
    inv7s0 (F := F) d L fc fo fb f0 k.val acc
      ⊢ wp frame (wpE (defs₀ (F := F)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7s0 (F := F) d L fc fo fb f0 (k.val + 1)) :=
  t7_region (F := F) d L _ lab hlab fc fo fb f0 hfc hfo hfb v2 v3 k0_t2 (fun off inb h => disj_slot1 off inb (h.trans hp)) v49 k acc

theorem t7_region1 (lab : Fin 128 → ℕ) (hlab : ∀ r, lab r ≤ 12) (fc fo : S16.Idx → BitVec 32) (fb : S128.Idx → BitVec 32)
    (f0 : Buf (Elt F) ((fbufM).view.loc (thrC d L)))
    (hfc : ∀ ci : Fin 16, ci.val < 13 → fc (ix1 ci) = W (Sort.cnt lab ci.val))
    (hfo : ∀ ci : Fin 16, ci.val < 13 → fo (ix1 ci) = W (Sort.off lab ci.val))
    (hfb : ∀ r : Fin 128, fb (ix1 ⟨Sort.pos lab r, Sort.pos_lt lab hlab r⟩) = W r.val)
    (v2 : BitVec 32) (v3 : FVec F S16 .f32) (k0_t2 : Fin k0_t2_loop.trips) (hp : k0_t2.val % 2 = 1) (v49 : BitVec 32)
    (k : Fin k0_t7_loop.trips) (acc : Unit) :
    inv7s1 (F := F) d L fc fo fb f0 k.val acc
      ⊢ wp frame (wpE (defs₀ (F := F)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7s1 (F := F) d L fc fo fb f0 (k.val + 1)) :=
  t7_region (F := F) d L _ lab hlab fc fo fb f0 hfc hfo hfb v2 v3 k0_t2 (fun off inb h => disj_slot0 off inb (h.trans hp)) v49 k acc

theorem inv7s0_intro (fc fo : S16.Idx → BitVec 32) (fb : S128.Idx → BitVec 32) (f0 : Buf (Elt F) ((fbufM).view.loc (thrC d L)))
    (a : Buf (Elt F) ((afM).view.loc (thrC d L))) (b : Buf (Elt F) ((axM).view.loc (thrC d L))) (n : Nat) (u : Unit) :
    iprop(((cntM).view.loc (thrC d L) ↦{fullShare} fc) ∗ ((offM).view.loc (thrC d L) ↦{fullShare} fo) ∗ ((bktM).view.loc (thrC d L) ↦{fullShare} fb)
      ∗ ((fbufM).view.loc (thrC d L) ↦[Finset.univ \ (fSlotM1).view.set]{fullShare} f0)
      ∗ ((afM).view.loc (thrC d L) ↦{fullShare} a) ∗ ((axM).view.loc (thrC d L) ↦{fullShare} b))
      ⊢ inv7s0 (F := F) d L fc fo fb f0 n u :=
  inv7_intro (F := F) d L _ fc fo fb f0 a b n u

theorem inv7s1_intro (fc fo : S16.Idx → BitVec 32) (fb : S128.Idx → BitVec 32) (f0 : Buf (Elt F) ((fbufM).view.loc (thrC d L)))
    (a : Buf (Elt F) ((afM).view.loc (thrC d L))) (b : Buf (Elt F) ((axM).view.loc (thrC d L))) (n : Nat) (u : Unit) :
    iprop(((cntM).view.loc (thrC d L) ↦{fullShare} fc) ∗ ((offM).view.loc (thrC d L) ↦{fullShare} fo) ∗ ((bktM).view.loc (thrC d L) ↦{fullShare} fb)
      ∗ ((fbufM).view.loc (thrC d L) ↦[Finset.univ \ (fSlotM0).view.set]{fullShare} f0)
      ∗ ((afM).view.loc (thrC d L) ↦{fullShare} a) ∗ ((axM).view.loc (thrC d L) ↦{fullShare} b))
      ⊢ inv7s1 (F := F) d L fc fo fb f0 n u :=
  inv7_intro (F := F) d L _ fc fo fb f0 a b n u

end Cert.Proof.KB

end
-- ==== Proof.ScEndB.lean ====
import proofs.«216278_g4776003633407_cont_8to1_c_644_33_alg».proof.Proof.ScOutB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords) [FloatOps F]

section Pieces
variable (c : Fin τ.nSC) (i : Fin τ.nSub)

theorem fbuf_join (fa fb : Buf (Elt F) ((fbufM).view.loc (V d c i))) :
    iprop(((fSlotM0).view.loc (V d c i) ↦[(fSlotM0).view.set]{fullShare} fa) ∗ ((fSlotM1).view.loc (V d c i) ↦[(fSlotM1).view.set]{fullShare} fb))
      ⊢ ((V d c i).loc cc0_scratch0 ↦{fullShare} ((fSlotSet 1).piecewise fb fa) : sProp 𝕄) := by
  have h : iprop(((fbufM).view.loc (V d c i) ↦[fSlotSet 0]{fullShare} fa) ∗ ((fbufM).view.loc (V d c i) ↦[fSlotSet 1]{fullShare} fb))
      ⊢ ((fbufM).view.loc (V d c i) ↦[fSlotSet 0 ∪ fSlotSet 1]{fullShare} ((fSlotSet 1).piecewise fb fa) : sProp 𝕄) :=
    pointsTo_join (fSlots_disjoint 0 (Finset.mem_univ _) 1 (Finset.mem_univ _) (by decide))
  rw [fSlots_union] at h
  rw [set_fSlotM0, set_fSlotM1]
  exact h

theorem lbuf_join (la lb : Buf (Elt F) ((lbufM).view.loc (V d c i))) :
    iprop(((lSlotM0).view.loc (V d c i) ↦[(lSlotM0).view.set]{fullShare} la) ∗ ((lSlotM1).view.loc (V d c i) ↦[(lSlotM1).view.set]{fullShare} lb))
      ⊢ ((V d c i).loc cc0_scratch1 ↦{fullShare} ((lSlotSet 1).piecewise lb la) : sProp 𝕄) := by
  have h : iprop(((lbufM).view.loc (V d c i) ↦[lSlotSet 0]{fullShare} la) ∗ ((lbufM).view.loc (V d c i) ↦[lSlotSet 1]{fullShare} lb))
      ⊢ ((lbufM).view.loc (V d c i) ↦[lSlotSet 0 ∪ lSlotSet 1]{fullShare} ((lSlotSet 1).piecewise lb la) : sProp 𝕄) :=
    pointsTo_join (lSlots_disjoint 0 (Finset.mem_univ _) 1 (Finset.mem_univ _) (by decide))
  rw [lSlots_union] at h
  rw [set_lSlotM0, set_lSlotM1]
  exact h

end Pieces

theorem waits_insert {W W₁ : Waits sig (HIx 1)} (h : ∀ p ∈ W₁, p ∈ W ∨ p.2 = none) (sm : SemLoc sig) :
    ∀ p ∈ insert (sm, (default : HIx 1)) W₁, p ∈ W ∨ p.2 = none := by
  intro p hp
  rcases Finset.mem_insert.mp hp with h' | hp
  · exact Or.inr (by rw [h']; rfl)
  · exact h p hp

theorem outF_back (f : Buf (Elt F) (oFLoc d)) :
    ((outFM L).view.loc (V d (cV L) (jV L)) ↦[(outFM L).view.set]{fullShare} f : sProp 𝕄) ⊢ (oFLoc d ↦[blkFSet (widL L)]{fullShare} f) :=
  Entails.of_eq (by rw [set_outFM])
theorem outA_back (f : Buf (Elt F) (oALoc d)) :
    ((outAM L).view.loc (V d (cV L) (jV L)) ↦[(outAM L).view.set]{fullShare} f : sProp 𝕄) ⊢ (oALoc d ↦[blkASet (widL L)]{fullShare} f) :=
  Entails.of_eq (by rw [set_outAM])

def taskEndA (L : grid0.Coords) : Prog (TpuEff nD τ sig (Elt F) Λ₀ (.scVector ((L 0).castLE hcore0) ((L 1).castLE hsub0))) PUnit := do
  Prog.lift (.enqueueDma (Memref.whole cc0_scratch2 : Memref sig .scVector .vmem S16x256 .f32) (.here (outFM L)) (.dma (cc0_scoped0 : DmaSems sig S_).sem) (Memref.isWhole_whole _).wordExact ((View.wordExact_bits rfl).reshape _ _) ⟨Or.inl rfl, trivial⟩)
  Prog.lift (.waitDma2 (cc0_scoped0 : DmaSems sig S_).sem (Memref.whole cc0_scratch2 : Memref sig .scVector .vmem S16x256 .f32) (outFM L) (Memref.isWhole_whole _).wordExact ((View.wordExact_bits rfl).reshape _ _))
  Prog.lift (.enqueueDma (Memref.whole cc0_scratch3 : Memref sig .scVector .vmem S16x32 .f32) (.here (outAM L)) (.dma (cc0_scoped1 : DmaSems sig S_).sem) (Memref.isWhole_whole _).wordExact ((View.wordExact_bits rfl).reshape _ _) ⟨Or.inl rfl, trivial⟩)
  pure ⟨⟩

def taskEndB (L : grid0.Coords) : Prog (TpuEff nD τ sig (Elt F) Λ₀ (.scVector ((L 0).castLE hcore0) ((L 1).castLE hsub0))) PUnit := do
  Prog.lift (.waitDma2 (cc0_scoped1 : DmaSems sig S_).sem (Memref.whole cc0_scratch3 : Memref sig .scVector .vmem S16x32 .f32) (outAM L) (Memref.isWhole_whole _).wordExact ((View.wordExact_bits rfl).reshape _ _))
  pure ⟨⟩

def endPre (L : grid0.Coords)
    (a2 : Buf (Elt F) ((Memref.whole cc0_scratch2 : Memref sig .scVector .vmem S16x256 .f32).view.loc (V d (cV L) (jV L))))
    (a3 : Buf (Elt F) ((Memref.whole cc0_scratch3 : Memref sig .scVector .vmem S16x32 .f32).view.loc (V d (cV L) (jV L))))
    (fa fb : Buf (Elt F) ((fbufM).view.loc (V d (cV L) (jV L)))) (la lb : Buf (Elt F) ((lbufM).view.loc (V d (cV L) (jV L))))
    (c4 : Buf (Elt F) ((Memref.whole cc0_scratch4 : Memref sig .scVector .smem S128 .i32).view.loc (V d (cV L) (jV L))))
    (c5 : Buf (Elt F) ((Memref.whole cc0_scratch5 : Memref sig .scVector .smem S128 .i32).view.loc (V d (cV L) (jV L))))
    (c6 : Buf (Elt F) ((Memref.whole cc0_scratch6 : Memref sig .scVector .smem S16 .i32).view.loc (V d (cV L) (jV L))))
    (c7 : Buf (Elt F) ((Memref.whole cc0_scratch7 : Memref sig .scVector .smem S16 .i32).view.loc (V d (cV L) (jV L))))
    (c8 : Buf (Elt F) ((Memref.whole cc0_scratch8 : Memref sig .scVector .smem S16 .i32).view.loc (V d (cV L) (jV L)))) : sProp 𝕄 :=
  iprop(((oFLoc d ↦[blkFSet (widL L)]{fullShare} m (oFLoc d)) ∗ (oALoc d ↦[blkASet (widL L)]{fullShare} m (oALoc d)))
    ∗ (((Memref.whole cc0_scratch2 : Memref sig .scVector .vmem S16x256 .f32).view.loc (V d (cV L) (jV L)) ↦{fullShare} a2)
      ∗ ((Memref.whole cc0_scratch3 : Memref sig .scVector .vmem S16x32 .f32).view.loc (V d (cV L) (jV L)) ↦{fullShare} a3))
    ∗ (((fSlotM0).view.loc (V d (cV L) (jV L)) ↦[(fSlotM0).view.set]{fullShare} fa) ∗ ((fSlotM1).view.loc (V d (cV L) (jV L)) ↦[(fSlotM1).view.set]{fullShare} fb)
      ∗ ((lSlotM0).view.loc (V d (cV L) (jV L)) ↦[(lSlotM0).view.set]{fullShare} la) ∗ ((lSlotM1).view.loc (V d (cV L) (jV L)) ↦[(lSlotM1).view.set]{fullShare} lb))
    ∗ (((Memref.whole cc0_scratch4 : Memref sig .scVector .smem S128 .i32).view.loc (V d (cV L) (jV L)) ↦{fullShare} c4)
      ∗ ((Memref.whole cc0_scratch5 : Memref sig .scVector .smem S128 .i32).view.loc (V d (cV L) (jV L)) ↦{fullShare} c5)
      ∗ ((Memref.whole cc0_scratch6 : Memref sig .scVector .smem S16 .i32).view.loc (V d (cV L) (jV L)) ↦{fullShare} c6)
      ∗ ((Memref.whole cc0_scratch7 : Memref sig .scVector .smem S16 .i32).view.loc (V d (cV L) (jV L)) ↦{fullShare} c7)
      ∗ ((Memref.whole cc0_scratch8 : Memref sig .scVector .smem S16 .i32).view.loc (V d (cV L) (jV L)) ↦{fullShare} c8))
    ∗ (((Memref.whole main_arg0_scv : Memref sig .scVector .hbm S65536x256 .f32).view.loc (V d (cV L) (jV L)) ↦{Transfers.shareDrop (qTile (widL L)) 4} m (xLoc d))
      ∗ ((Memref.whole main_arg0_scv : Memref sig .scVector .hbm S65536x256 .f32).view.loc (V d (cV L) (jV L)) ↦{Transfers.shareTok (qTile (widL L)) 4 (0 : Fin 4)} m (xLoc d))
      ∗ ((Memref.whole main_arg0_scv : Memref sig .scVector .hbm S65536x256 .f32).view.loc (V d (cV L) (jV L)) ↦{Transfers.shareTok (qTile (widL L)) 4 (1 : Fin 4)} m (xLoc d))
      ∗ ((Memref.whole main_arg0_scv : Memref sig .scVector .hbm S65536x256 .f32).view.loc (V d (cV L) (jV L)) ↦{Transfers.shareTok (qTile (widL L)) 4 (2 : Fin 4)} m (xLoc d))
      ∗ ((Memref.whole main_arg0_scv : Memref sig .scVector .hbm S65536x256 .f32).view.loc (V d (cV L) (jV L)) ↦{Transfers.shareTok (qTile (widL L)) 4 (3 : Fin 4)} m (xLoc d)))
    ∗ (((Memref.whole main_arg1_scv : Memref sig .scVector .hbm S65536 .i32).view.loc (V d (cV L) (jV L)) ↦{Transfers.shareDrop (qTile (widL L)) 4} m (lLoc d))
      ∗ ((Memref.whole main_arg1_scv : Memref sig .scVector .hbm S65536 .i32).view.loc (V d (cV L) (jV L)) ↦{Transfers.shareTok (qTile (widL L)) 4 (0 : Fin 4)} m (lLoc d))
      ∗ ((Memref.whole main_arg1_scv : Memref sig .scVector .hbm S65536 .i32).view.loc (V d (cV L) (jV L)) ↦{Transfers.shareTok (qTile (widL L)) 4 (1 : Fin 4)} m (lLoc d))
      ∗ ((Memref.whole main_arg1_scv : Memref sig .scVector .hbm S65536 .i32).view.loc (V d (cV L) (jV L)) ↦{Transfers.shareTok (qTile (widL L)) 4 (2 : Fin 4)} m (lLoc d))
      ∗ ((Memref.whole main_arg1_scv : Memref sig .scVector .hbm S65536 .i32).view.loc (V d (cV L) (jV L)) ↦{Transfers.shareTok (qTile (widL L)) 4 (3 : Fin 4)} m (lLoc d)))
    ∗ (semVal ((V d (cV L) (jV L)), .dma 0) 0 ∗ semVal ((V d (cV L) (jV L)), .dma 1) 0 ∗ semVal ((V d (cV L) (jV L)), .dma 2) 0 ∗ semVal ((V d (cV L) (jV L)), .dma 3) 0
      ∗ semVal ((V d (cV L) (jV L)), .dma 4) 0 ∗ semVal ((V d (cV L) (jV L)), .dma 5) 0)
    ∗ (bigSep (ownRefs (τ := τ) (.scVector (cV L) (jV L)) \ scrRefs.map (devEmb (cV L) (jV L))) fun b => iprop(∃ f, ((d, b) : Loc nD τ sig) ↦{fullShare} f))
    ∗ (bigSep (ownCells (V d (cV L) (jV L)) \ scrSems.map (thrEmb (V d (cV L) (jV L)))) fun g => semVal g 0))

def endPost (L : grid0.Coords) (O : CellTallies nD τ sig (HIx 1)) (W : Waits sig (HIx 1)) : sProp 𝕄 :=
  iprop(tileTd m d (widL L)
    ∗ (((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f) ∗ (∃ f, (V d (cV L) (jV L)).loc cc0_scratch7 ↦{fullShare} f)
          ∗ (∃ f, (V d (cV L) (jV L)).loc cc0_scratch8 ↦{fullShare} f))
          ∗ bigSep (ownRefs (τ := τ) (.scVector (cV L) (jV L)) \ scrRefs.map (devEmb (cV L) (jV L))) fun b => iprop(∃ f, ((d, b) : Loc nD τ sig) ↦{fullShare} f))
    ∗ ((semVal ((V d (cV L) (jV L)), .dma 0) 0 ∗ semVal ((V d (cV L) (jV L)), .dma 1) 0 ∗ semVal ((V d (cV L) (jV L)), .dma 2) 0 ∗ semVal ((V d (cV L) (jV L)), .dma 3) 0
          ∗ semVal ((V d (cV L) (jV L)), .dma 4) 0 ∗ semVal ((V d (cV L) (jV L)), .dma 5) 0)
          ∗ bigSep (ownCells (V d (cV L) (jV L)) \ scrSems.map (thrEmb (V d (cV L) (jV L)))) fun g => semVal g 0)
    ∗ ∃ W'', ⌜∀ p ∈ W'', p ∈ W ∨ p.2 = none⌝ ∗ owes (V d (cV L) (jV L)) O W'')

theorem task_end (O : CellTallies nD τ sig (HIx 1)) (W : Waits sig (HIx 1))
    (a2) (a3) (fa fb) (la lb) (c4) (c5) (c6) (c7) (c8) :
    iprop(□ (Transfers.MayWaits (V d (cV L) (jV L)) (none : HIx 1) O : sProp 𝕄) ∗ endPre m d L a2 a3 fa fb la lb c4 c5 c6 c7 c8
        ∗ ∃ W', ⌜∀ p ∈ W', p ∈ W ∨ p.2 = none⌝ ∗ owes (V d (cV L) (jV L)) O W')
      ⊢ wp frame (wpE (defs₀ (F := F)) 𝒱₀ (V d (cV L) (jV L)) none) Set.univ (taskEndA (F := F) L) fun _ =>
          wp frame (wpE (defs₀ (F := F)) 𝒱₀ (V d (cV L) (jV L)) none) Set.univ (taskEndB (F := F) L) fun _ => endPost m d L O W := by
  unfold taskEndA taskEndB endPre
  iintro ⟨#Hmw, ⟨⟨HoF, HoA⟩, ⟨Hb2, Hb3⟩, ⟨Hf0, Hf1, Hl0, Hl1⟩, ⟨Hb4, Hb5, Hb6, Hb7, Hb8⟩, ⟨Hxr, Hx0, Hx1, Hx2, Hx3⟩, ⟨Hlr, Hlt0, Hlt1, Hlt2, Hlt3⟩,
    ⟨Hs0, Hs1, Hs2, Hs3, Hs4, Hs5⟩, Hbufs, Hsems⟩, ⟨%W', %hW', HO⟩⟩
  ihave HoF := (Entails.of_eq (show (oFLoc d ↦[blkFSet (widL L)]{fullShare} m (oFLoc d) : sProp 𝕄) = ((outFM L).view.loc (V d (cV L) (jV L)) ↦[(outFM L).view.set]{fullShare} m (oFLoc d)) from by rw [set_outFM])) $$ HoF
  ihave HoA := (Entails.of_eq (show (oALoc d ↦[blkASet (widL L)]{fullShare} m (oALoc d) : sProp 𝕄) = ((outAM L).view.loc (V d (cV L) (jV L)) ↦[(outAM L).view.set]{fullShare} m (oALoc d)) from by rw [set_outAM])) $$ HoA
  sl_exec
  sl_step
  unfold endPost tileTd

  isplitl [Hxr Hx0 Hx1 Hx2 Hx3 Hlr Hlt0 Hlt1 Hlt2 Hlt3 HoF HoA]
  · isplitl [Hxr Hx0 Hx1 Hx2 Hx3]
    · iapply (Transfers.pointsTo_toks_join (qTile (widL L)) 4)
      rw [bigSep_W1]
      isplitl [Hxr]; · iexact Hxr
      isplitl [Hx0]; · iexact Hx0
      isplitl [Hx1]; · iexact Hx1
      isplitl [Hx2]; · iexact Hx2
      iexact Hx3
    isplitl [Hlr Hlt0 Hlt1 Hlt2 Hlt3]
    · iapply (Transfers.pointsTo_toks_join (qTile (widL L)) 4)
      rw [bigSep_W1]
      isplitl [Hlr]; · iexact Hlr
      isplitl [Hlt0]; · iexact Hlt0
      isplitl [Hlt1]; · iexact Hlt1
      isplitl [Hlt2]; · iexact Hlt2
      iexact Hlt3
    isplitl [HoF]
    · iexists _; iapply (outF_back (F := F) d L _); iexact HoF
    · iexists _; iapply (outA_back (F := F) d L _); iexact HoA

  isplitl [Hf0 Hf1 Hl0 Hl1 Hb2 Hb3 Hb4 Hb5 Hb6 Hb7 Hb8 Hbufs]
  · isplitr [Hbufs]
    · isplitl [Hf0 Hf1]
      · iexists _; iapply (fbuf_join (F := F) d (cV L) (jV L) fa fb); isplitl [Hf0] <;> iassumption
      isplitl [Hl0 Hl1]
      · iexists _; iapply (lbuf_join (F := F) d (cV L) (jV L) la lb); isplitl [Hl0] <;> iassumption
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      iexists _; iexact Hb8
    · iexact Hbufs

  isplitl [Hs0 Hs1 Hs2 Hs3 Hs4 Hs5 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      iexact Hs5
    · iexact Hsems

  iexists _
  isplitr
  swap
  · iexact HO
  ipureintro
  exact waits_insert (waits_insert hW' _) _

end Cert.Proof.KB

end
-- ==== Proof.ScBodyB.lean ====
import proofs.«216278_g4776003633407_cont_8to1_c_644_33_alg».proof.Proof.ScOutB
import proofs.«216278_g4776003633407_cont_8to1_c_644_33_alg».proof.Proof.ScNameB
import proofs.«216278_g4776003633407_cont_8to1_c_644_33_alg».proof.Proof.ScSortLoopsB
import proofs.«216278_g4776003633407_cont_8to1_c_644_33_alg».proof.Proof.ScExtLoopB
import proofs.«216278_g4776003633407_cont_8to1_c_644_33_alg».proof.Proof.ScClsLoopB
import proofs.«216278_g4776003633407_cont_8to1_c_644_33_alg».proof.Proof.ScEndB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Sort (W)

variable (m : (ℓ : Loc nD τ sig) → Buf (Elt F) ℓ) (d : Dev nD) (L : grid0.Coords) [FloatOps F]

def invZ (_ : Nat) (_ : PUnit) : sProp 𝕄 := iprop((∃ f, (Memref.whole cc0_scratch2 : Memref sig .scVector .vmem S16x256 .f32).view.loc (V d (cV L) (jV L)) ↦{fullShare} f) ∗ (∃ f, (Memref.whole cc0_scratch3 : Memref sig .scVector .vmem S16x32 .f32).view.loc (V d (cV L) (jV L)) ↦{fullShare} f))

set_option maxHeartbeats 16000000 in
theorem tile_body (hM : ∀ i : S65536.Idx, ((m (lLoc d) : IVec S65536 32) i).toNat ≤ 12) (hF : (K (F := F)).Facts) (O : CellTallies nD τ sig (HIx 1)) (W₀ : Waits sig (HIx 1)) (hO : ∀ g, O g none = 0) :
    iprop(levAts (K (F := F)).L (K (F := F)).lev ∗ emp ∗ tileGo m d (widL L)
        ∗ scopedBufs (V d (cV L) (jV L)) ∗ scopedSems0 (V d (cV L) (jV L)) ∗ owes (V d (cV L) (jV L)) O W₀)
      ⊢ wp frame (wpE (defs₀ (F := F)) 𝒱₀ (V d (cV L) (jV L)) none) Set.univ
          (cc0__sc_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1)
          fun _ => iprop(tileTd m d (widL L) ∗ scopedBufs (V d (cV L) (jV L)) ∗ scopedSems0 (V d (cV L) (jV L))
            ∗ ∃ W', ⌜∀ p ∈ W', p ∈ W₀ ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileGo
  iintro ⟨#Hlv, -, ⟨Hx, Hl, HoF, HoA⟩, ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩⟩, Hbufs⟩,
    ⟨⟨Hs0, Hs1, Hs2, Hs3, Hs4, Hs5⟩, Hsems⟩, HO⟩
  ihave Hmw := ((K (F := F)).mayWaits_none (thr := (V d (cV L) (jV L))) hO) $$ Hlv
  sl_exec
  sl_for (invZ (F := F) d L) $$ [Hb2 Hb3]
  case region =>
    intro k _
    unfold invZ
    iintro ⟨⟨%g2, H2⟩, ⟨%g3, H3⟩⟩
    sl_exec
    sl_step
    isplitl [H2]
    · iexists _; iexact H2
    · iexists _; iexact H3
  · unfold invZ
    isplitl [Hb2]
    · iexists _; iexact Hb2
    · iexists _; iexact Hb3
  iintro %_ HI
  unfold invZ
  icases HI with ⟨⟨%g2, Hb2⟩, ⟨%g3, Hb3⟩⟩

  ihave Hb0 := (Entails.of_eq (fbuf_slots (F := F) d (cV L) (jV L) f0)) $$ Hb0
  ihave Hb1 := (Entails.of_eq (lbuf_slots (F := F) d (cV L) (jV L) f1)) $$ Hb1
  icases Hb0 with ⟨Hf0, Hf1⟩
  icases Hb1 with ⟨Hlb0, Hlb1⟩
  ihave Hf0 := (Entails.of_eq (show ((fbufM).view.loc (V d (cV L) (jV L)) ↦[fSlotSet 0]{fullShare} f0 : sProp 𝕄) = ((fSlotM0).view.loc (V d (cV L) (jV L)) ↦[(fSlotM0).view.set]{fullShare} f0) from by rw [set_fSlotM0])) $$ Hf0
  ihave Hf1 := (Entails.of_eq (show ((fbufM).view.loc (V d (cV L) (jV L)) ↦[fSlotSet 1]{fullShare} f0 : sProp 𝕄) = ((fSlotM1).view.loc (V d (cV L) (jV L)) ↦[(fSlotM1).view.set]{fullShare} f0) from by rw [set_fSlotM1])) $$ Hf1
  ihave Hlb0 := (Entails.of_eq (show ((lbufM).view.loc (V d (cV L) (jV L)) ↦[lSlotSet 0]{fullShare} f1 : sProp 𝕄) = ((lSlotM0).view.loc (V d (cV L) (jV L)) ↦[(lSlotM0).view.set]{fullShare} f1) from by rw [set_lSlotM0])) $$ Hlb0
  ihave Hlb1 := (Entails.of_eq (show ((lbufM).view.loc (V d (cV L) (jV L)) ↦[lSlotSet 1]{fullShare} f1 : sProp 𝕄) = ((lSlotM1).view.loc (V d (cV L) (jV L)) ↦[(lSlotM1).view.set]{fullShare} f1) from by rw [set_lSlotM1])) $$ Hlb1
  ihave Hx := (Entails.of_eq (show (xLoc d ↦{qTile (widL L)} m (xLoc d) : sProp 𝕄) = ((Memref.whole main_arg0_scv : Memref sig .scVector .hbm S65536x256 .f32).view.loc (V d (cV L) (jV L)) ↦{qTile (widL L)} m (xLoc d)) from rfl)) $$ Hx
  ihave Hl := (Entails.of_eq (show (lLoc d ↦{qTile (widL L)} m (lLoc d) : sProp 𝕄) = ((Memref.whole main_arg1_scv : Memref sig .scVector .hbm S65536 .i32).view.loc (V d (cV L) (jV L)) ↦{qTile (widL L)} m (lLoc d)) from rfl)) $$ Hl
  ihave Hx := (Transfers.pointsTo_toks_split (qTile (widL L)) 4) $$ Hx
  ihave Hl := (Transfers.pointsTo_toks_split (qTile (widL L)) 4) $$ Hl
  rw [bigSep_W1, bigSep_W1]
  icases Hx with ⟨Hxr, Hx0, Hx1, Hx2, Hx3⟩
  icases Hl with ⟨Hlr, Hl0, Hl1, Hl2, Hl3⟩
  ihave Hb4 := (Entails.of_eq (show ((V d (cV L) (jV L)).loc cc0_scratch4 ↦{fullShare} f4 : sProp 𝕄) = ((Memref.whole cc0_scratch4 : Memref sig .scVector .smem S128 .i32).view.loc (V d (cV L) (jV L)) ↦{fullShare} f4) from rfl)) $$ Hb4
  ihave Hb5 := (Entails.of_eq (show ((V d (cV L) (jV L)).loc cc0_scratch5 ↦{fullShare} f5 : sProp 𝕄) = ((Memref.whole cc0_scratch5 : Memref sig .scVector .smem S128 .i32).view.loc (V d (cV L) (jV L)) ↦{fullShare} f5) from rfl)) $$ Hb5
  ihave Hb6 := (Entails.of_eq (show ((V d (cV L) (jV L)).loc cc0_scratch6 ↦{fullShare} f6 : sProp 𝕄) = ((Memref.whole cc0_scratch6 : Memref sig .scVector .smem S16 .i32).view.loc (V d (cV L) (jV L)) ↦{fullShare} f6) from rfl)) $$ Hb6
  ihave Hb7 := (Entails.of_eq (show ((V d (cV L) (jV L)).loc cc0_scratch7 ↦{fullShare} f7 : sProp 𝕄) = ((Memref.whole cc0_scratch7 : Memref sig .scVector .smem S16 .i32).view.loc (V d (cV L) (jV L)) ↦{fullShare} f7) from rfl)) $$ Hb7
  ihave Hb8 := (Entails.of_eq (show ((V d (cV L) (jV L)).loc cc0_scratch8 ↦{fullShare} f8 : sProp 𝕄) = ((Memref.whole cc0_scratch8 : Memref sig .scVector .smem S16 .i32).view.loc (V d (cV L) (jV L)) ↦{fullShare} f8) from rfl)) $$ Hb8
  sl_exec
  sl_unroll

  sl_exec
  sl_for (inv3 (F := F) d L) $$ [Hb6]
  case region => exact fun k acc => t3_region (F := F) d L 0#32 1#32 ⟨0, by decide⟩ k acc
  · iapply (inv3_init (F := F) d L _); iexact Hb6
  iintro %_ HI
  unfold inv3
  icases HI with ⟨%c6, %hc6, Hb6⟩
  sl_exec

  ihave H := (lslot0_name (F := F) d (cV L) (jV L) _ _) $$ Hlb0
  icases H with ⟨%pay, %hpay, Hlb0⟩
  have hpay' : pay = ReadAs.same.apply (View.read (Elt F) ((Memref.whole main_arg1_scv : Memref sig .scVector .hbm S65536 .i32).slice (Rect.unit (s := S65536) (k0_off20 L 0#32) S128.size (k0_off20_inb L 0)) (fun _ => rfl)).view (m (lLoc d))) := hpay.trans rfl
  ihave H := (lslot_entry_0' (F := F) d L (m (lLoc d)) hM _ pay (k0_off20 L 0#32) (k0_off20_inb L 0) hpay') $$ Hlb0
  icases H with ⟨%labels, %lb, %hL, Hlb0⟩
  obtain ⟨hlab, hrow, hlb⟩ := hL
  sl_for (inv4_0 (F := F) d L labels lb) $$ [Hlb0 Hb4 Hb6]
  case region => exact fun k acc => t4_region0 (F := F) d L labels lb hlab hlb 0#32 1#32 ⟨0, by decide⟩ (by decide) _ k acc
  · iapply (inv4_0_init (F := F) d L labels lb _ _ (fun ci hci => hc6 ci (by show ci.val < k0_t3_loop.trips; rw [t3_trips]; exact hci)))
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨0, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨0, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot0_to_rest_ex (F := F) d (cV L) (jV L) _) $$ Hf0
  icases H with ⟨%fbc, Hf0⟩
  sl_for (inv7s0 (F := F) d L fc fo fb fbc) $$ [Hb6 Hb7 Hb5 Hf0 Hb2 Hb3]
  case region => exact fun k acc => t7_region0 (F := F) d L (labN labels) hlab fc fo fb fbc hfc hfo' hfb' _ _ ⟨0, by decide⟩ (by decide) _ k acc
  · iapply (inv7s0_intro (F := F) d L fc fo fb fbc _ _ 0 ())
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7s0
  icases HI with ⟨Hb6, Hb7, Hb5, Hf0, ⟨%ga, Hb2⟩, ⟨%gx, Hb3⟩⟩
  ihave Hf0 := (fslot0_of_rest (F := F) d (cV L) (jV L) _) $$ Hf0
  ihave Hlb0 := (lslot0_of_rest (F := F) d (cV L) (jV L) _) $$ Hlb0
  clear hfb' hfb hfp2 hfp' hfo' hfp hfo hacc5 hfc hfl hfc0 hfl0 hlb hrow hlab hc6 hpay' hpay
  try clear labels
  try clear pay
  try clear c6
  try clear fp
  try clear acc5

  sl_exec
  sl_for (inv3 (F := F) d L) $$ [Hb6]
  case region => exact fun k acc => t3_region (F := F) d L 0#32 1#32 ⟨1, by decide⟩ k acc
  · iapply (inv3_init (F := F) d L _); iexact Hb6
  iintro %_ HI
  unfold inv3
  icases HI with ⟨%c6, %hc6, Hb6⟩
  sl_exec

  ihave H := (lslot1_name (F := F) d (cV L) (jV L) _ _) $$ Hlb1
  icases H with ⟨%pay, %hpay, Hlb1⟩
  have hpay' : pay = ReadAs.same.apply (View.read (Elt F) ((Memref.whole main_arg1_scv : Memref sig .scVector .hbm S65536 .i32).slice (Rect.unit (s := S65536) (k0_off20 L 128#32) S128.size (k0_off20_inb L 1)) (fun _ => rfl)).view (m (lLoc d))) := hpay.trans rfl
  ihave H := (lslot_entry_1' (F := F) d L (m (lLoc d)) hM _ pay (k0_off20 L 128#32) (k0_off20_inb L 1) hpay') $$ Hlb1
  icases H with ⟨%labels, %lb, %hL, Hlb1⟩
  obtain ⟨hlab, hrow, hlb⟩ := hL
  sl_for (inv4_1 (F := F) d L labels lb) $$ [Hlb1 Hb4 Hb6]
  case region => exact fun k acc => t4_region1 (F := F) d L labels lb hlab hlb 0#32 1#32 ⟨1, by decide⟩ (by decide) _ k acc
  · iapply (inv4_1_init (F := F) d L labels lb _ _ (fun ci hci => hc6 ci (by show ci.val < k0_t3_loop.trips; rw [t3_trips]; exact hci)))
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨1, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨1, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot1_to_rest_ex (F := F) d (cV L) (jV L) _) $$ Hf1
  icases H with ⟨%fbc, Hf1⟩
  sl_for (inv7s1 (F := F) d L fc fo fb fbc) $$ [Hb6 Hb7 Hb5 Hf1 Hb2 Hb3]
  case region => exact fun k acc => t7_region1 (F := F) d L (labN labels) hlab fc fo fb fbc hfc hfo' hfb' _ _ ⟨1, by decide⟩ (by decide) _ k acc
  · iapply (inv7s1_intro (F := F) d L fc fo fb fbc _ _ 0 ())
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7s1
  icases HI with ⟨Hb6, Hb7, Hb5, Hf1, ⟨%ga, Hb2⟩, ⟨%gx, Hb3⟩⟩
  ihave Hf1 := (fslot1_of_rest (F := F) d (cV L) (jV L) _) $$ Hf1
  ihave Hlb1 := (lslot1_of_rest (F := F) d (cV L) (jV L) _) $$ Hlb1
  clear hfb' hfb hfp2 hfp' hfo' hfp hfo hacc5 hfc hfl hfc0 hfl0 hlb hrow hlab hc6 hpay' hpay
  try clear labels
  try clear pay
  try clear c6
  try clear fp
  try clear acc5

  sl_exec
  sl_for (inv3 (F := F) d L) $$ [Hb6]
  case region => exact fun k acc => t3_region (F := F) d L 0#32 1#32 ⟨2, by decide⟩ k acc
  · iapply (inv3_init (F := F) d L _); iexact Hb6
  iintro %_ HI
  unfold inv3
  icases HI with ⟨%c6, %hc6, Hb6⟩
  sl_exec

  ihave H := (lslot0_name (F := F) d (cV L) (jV L) _ _) $$ Hlb0
  icases H with ⟨%pay, %hpay, Hlb0⟩
  have hpay' : pay = ReadAs.same.apply (View.read (Elt F) ((Memref.whole main_arg1_scv : Memref sig .scVector .hbm S65536 .i32).slice (Rect.unit (s := S65536) (k0_off120 L ⟨0, by decide⟩) S128.size (k0_off120_inb L ⟨0, by decide⟩ (by decide))) (fun _ => rfl)).view (m (lLoc d))) := hpay.trans rfl
  ihave H := (lslot_entry_0' (F := F) d L (m (lLoc d)) hM _ pay (k0_off120 L ⟨0, by decide⟩) (k0_off120_inb L ⟨0, by decide⟩ (by decide)) hpay') $$ Hlb0
  icases H with ⟨%labels, %lb, %hL, Hlb0⟩
  obtain ⟨hlab, hrow, hlb⟩ := hL
  sl_for (inv4_0 (F := F) d L labels lb) $$ [Hlb0 Hb4 Hb6]
  case region => exact fun k acc => t4_region0 (F := F) d L labels lb hlab hlb 0#32 1#32 ⟨2, by decide⟩ (by decide) _ k acc
  · iapply (inv4_0_init (F := F) d L labels lb _ _ (fun ci hci => hc6 ci (by show ci.val < k0_t3_loop.trips; rw [t3_trips]; exact hci)))
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨2, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨2, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot0_to_rest_ex (F := F) d (cV L) (jV L) _) $$ Hf0
  icases H with ⟨%fbc, Hf0⟩
  sl_for (inv7s0 (F := F) d L fc fo fb fbc) $$ [Hb6 Hb7 Hb5 Hf0 Hb2 Hb3]
  case region => exact fun k acc => t7_region0 (F := F) d L (labN labels) hlab fc fo fb fbc hfc hfo' hfb' _ _ ⟨2, by decide⟩ (by decide) _ k acc
  · iapply (inv7s0_intro (F := F) d L fc fo fb fbc _ _ 0 ())
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7s0
  icases HI with ⟨Hb6, Hb7, Hb5, Hf0, ⟨%ga, Hb2⟩, ⟨%gx, Hb3⟩⟩
  ihave Hf0 := (fslot0_of_rest (F := F) d (cV L) (jV L) _) $$ Hf0
  ihave Hlb0 := (lslot0_of_rest (F := F) d (cV L) (jV L) _) $$ Hlb0
  clear hfb' hfb hfp2 hfp' hfo' hfp hfo hacc5 hfc hfl hfc0 hfl0 hlb hrow hlab hc6 hpay' hpay
  try clear labels
  try clear pay
  try clear c6
  try clear fp
  try clear acc5

  sl_exec
  sl_for (inv3 (F := F) d L) $$ [Hb6]
  case region => exact fun k acc => t3_region (F := F) d L 0#32 1#32 ⟨3, by decide⟩ k acc
  · iapply (inv3_init (F := F) d L _); iexact Hb6
  iintro %_ HI
  unfold inv3
  icases HI with ⟨%c6, %hc6, Hb6⟩
  sl_exec

  ihave H := (lslot1_name (F := F) d (cV L) (jV L) _ _) $$ Hlb1
  icases H with ⟨%pay, %hpay, Hlb1⟩
  have hpay' : pay = ReadAs.same.apply (View.read (Elt F) ((Memref.whole main_arg1_scv : Memref sig .scVector .hbm S65536 .i32).slice (Rect.unit (s := S65536) (k0_off120 L ⟨1, by decide⟩) S128.size (k0_off120_inb L ⟨1, by decide⟩ (by decide))) (fun _ => rfl)).view (m (lLoc d))) := hpay.trans rfl
  ihave H := (lslot_entry_1' (F := F) d L (m (lLoc d)) hM _ pay (k0_off120 L ⟨1, by decide⟩) (k0_off120_inb L ⟨1, by decide⟩ (by decide)) hpay') $$ Hlb1
  icases H with ⟨%labels, %lb, %hL, Hlb1⟩
  obtain ⟨hlab, hrow, hlb⟩ := hL
  sl_for (inv4_1 (F := F) d L labels lb) $$ [Hlb1 Hb4 Hb6]
  case region => exact fun k acc => t4_region1 (F := F) d L labels lb hlab hlb 0#32 1#32 ⟨3, by decide⟩ (by decide) _ k acc
  · iapply (inv4_1_init (F := F) d L labels lb _ _ (fun ci hci => hc6 ci (by show ci.val < k0_t3_loop.trips; rw [t3_trips]; exact hci)))
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨3, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨3, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot1_to_rest_ex (F := F) d (cV L) (jV L) _) $$ Hf1
  icases H with ⟨%fbc, Hf1⟩
  sl_for (inv7s1 (F := F) d L fc fo fb fbc) $$ [Hb6 Hb7 Hb5 Hf1 Hb2 Hb3]
  case region => exact fun k acc => t7_region1 (F := F) d L (labN labels) hlab fc fo fb fbc hfc hfo' hfb' _ _ ⟨3, by decide⟩ (by decide) _ k acc
  · iapply (inv7s1_intro (F := F) d L fc fo fb fbc _ _ 0 ())
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7s1
  icases HI with ⟨Hb6, Hb7, Hb5, Hf1, ⟨%ga, Hb2⟩, ⟨%gx, Hb3⟩⟩
  ihave Hf1 := (fslot1_of_rest (F := F) d (cV L) (jV L) _) $$ Hf1
  ihave Hlb1 := (lslot1_of_rest (F := F) d (cV L) (jV L) _) $$ Hlb1
  clear hfb' hfb hfp2 hfp' hfo' hfp hfo hacc5 hfc hfl hfc0 hfl0 hlb hrow hlab hc6 hpay' hpay
  try clear labels
  try clear pay
  try clear c6
  try clear fp
  try clear acc5

  sl_exec
  sl_for (inv3 (F := F) d L) $$ [Hb6]
  case region => exact fun k acc => t3_region (F := F) d L 0#32 1#32 ⟨4, by decide⟩ k acc
  · iapply (inv3_init (F := F) d L _); iexact Hb6
  iintro %_ HI
  unfold inv3
  icases HI with ⟨%c6, %hc6, Hb6⟩
  sl_exec

  ihave H := (lslot0_name (F := F) d (cV L) (jV L) _ _) $$ Hlb0
  icases H with ⟨%pay, %hpay, Hlb0⟩
  have hpay' : pay = ReadAs.same.apply (View.read (Elt F) ((Memref.whole main_arg1_scv : Memref sig .scVector .hbm S65536 .i32).slice (Rect.unit (s := S65536) (k0_off120 L ⟨2, by decide⟩) S128.size (k0_off120_inb L ⟨2, by decide⟩ (by decide))) (fun _ => rfl)).view (m (lLoc d))) := hpay.trans rfl
  ihave H := (lslot_entry_0' (F := F) d L (m (lLoc d)) hM _ pay (k0_off120 L ⟨2, by decide⟩) (k0_off120_inb L ⟨2, by decide⟩ (by decide)) hpay') $$ Hlb0
  icases H with ⟨%labels, %lb, %hL, Hlb0⟩
  obtain ⟨hlab, hrow, hlb⟩ := hL
  sl_for (inv4_0 (F := F) d L labels lb) $$ [Hlb0 Hb4 Hb6]
  case region => exact fun k acc => t4_region0 (F := F) d L labels lb hlab hlb 0#32 1#32 ⟨4, by decide⟩ (by decide) _ k acc
  · iapply (inv4_0_init (F := F) d L labels lb _ _ (fun ci hci => hc6 ci (by show ci.val < k0_t3_loop.trips; rw [t3_trips]; exact hci)))
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨4, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨4, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot0_to_rest_ex (F := F) d (cV L) (jV L) _) $$ Hf0
  icases H with ⟨%fbc, Hf0⟩
  sl_for (inv7s0 (F := F) d L fc fo fb fbc) $$ [Hb6 Hb7 Hb5 Hf0 Hb2 Hb3]
  case region => exact fun k acc => t7_region0 (F := F) d L (labN labels) hlab fc fo fb fbc hfc hfo' hfb' _ _ ⟨4, by decide⟩ (by decide) _ k acc
  · iapply (inv7s0_intro (F := F) d L fc fo fb fbc _ _ 0 ())
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7s0
  icases HI with ⟨Hb6, Hb7, Hb5, Hf0, ⟨%ga, Hb2⟩, ⟨%gx, Hb3⟩⟩
  ihave Hf0 := (fslot0_of_rest (F := F) d (cV L) (jV L) _) $$ Hf0
  ihave Hlb0 := (lslot0_of_rest (F := F) d (cV L) (jV L) _) $$ Hlb0
  clear hfb' hfb hfp2 hfp' hfo' hfp hfo hacc5 hfc hfl hfc0 hfl0 hlb hrow hlab hc6 hpay' hpay
  try clear labels
  try clear pay
  try clear c6
  try clear fp
  try clear acc5

  sl_exec
  sl_for (inv3 (F := F) d L) $$ [Hb6]
  case region => exact fun k acc => t3_region (F := F) d L 0#32 1#32 ⟨5, by decide⟩ k acc
  · iapply (inv3_init (F := F) d L _); iexact Hb6
  iintro %_ HI
  unfold inv3
  icases HI with ⟨%c6, %hc6, Hb6⟩
  sl_exec

  ihave H := (lslot1_name (F := F) d (cV L) (jV L) _ _) $$ Hlb1
  icases H with ⟨%pay, %hpay, Hlb1⟩
  have hpay' : pay = ReadAs.same.apply (View.read (Elt F) ((Memref.whole main_arg1_scv : Memref sig .scVector .hbm S65536 .i32).slice (Rect.unit (s := S65536) (k0_off120 L ⟨3, by decide⟩) S128.size (k0_off120_inb L ⟨3, by decide⟩ (by decide))) (fun _ => rfl)).view (m (lLoc d))) := hpay.trans rfl
  ihave H := (lslot_entry_1' (F := F) d L (m (lLoc d)) hM _ pay (k0_off120 L ⟨3, by decide⟩) (k0_off120_inb L ⟨3, by decide⟩ (by decide)) hpay') $$ Hlb1
  icases H with ⟨%labels, %lb, %hL, Hlb1⟩
  obtain ⟨hlab, hrow, hlb⟩ := hL
  sl_for (inv4_1 (F := F) d L labels lb) $$ [Hlb1 Hb4 Hb6]
  case region => exact fun k acc => t4_region1 (F := F) d L labels lb hlab hlb 0#32 1#32 ⟨5, by decide⟩ (by decide) _ k acc
  · iapply (inv4_1_init (F := F) d L labels lb _ _ (fun ci hci => hc6 ci (by show ci.val < k0_t3_loop.trips; rw [t3_trips]; exact hci)))
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨5, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨5, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot1_to_rest_ex (F := F) d (cV L) (jV L) _) $$ Hf1
  icases H with ⟨%fbc, Hf1⟩
  sl_for (inv7s1 (F := F) d L fc fo fb fbc) $$ [Hb6 Hb7 Hb5 Hf1 Hb2 Hb3]
  case region => exact fun k acc => t7_region1 (F := F) d L (labN labels) hlab fc fo fb fbc hfc hfo' hfb' _ _ ⟨5, by decide⟩ (by decide) _ k acc
  · iapply (inv7s1_intro (F := F) d L fc fo fb fbc _ _ 0 ())
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7s1
  icases HI with ⟨Hb6, Hb7, Hb5, Hf1, ⟨%ga, Hb2⟩, ⟨%gx, Hb3⟩⟩
  ihave Hf1 := (fslot1_of_rest (F := F) d (cV L) (jV L) _) $$ Hf1
  ihave Hlb1 := (lslot1_of_rest (F := F) d (cV L) (jV L) _) $$ Hlb1
  clear hfb' hfb hfp2 hfp' hfo' hfp hfo hacc5 hfc hfl hfc0 hfl0 hlb hrow hlab hc6 hpay' hpay
  try clear labels
  try clear pay
  try clear c6
  try clear fp
  try clear acc5

  sl_exec
  sl_for (inv3 (F := F) d L) $$ [Hb6]
  case region => exact fun k acc => t3_region (F := F) d L 0#32 1#32 ⟨6, by decide⟩ k acc
  · iapply (inv3_init (F := F) d L _); iexact Hb6
  iintro %_ HI
  unfold inv3
  icases HI with ⟨%c6, %hc6, Hb6⟩
  sl_exec

  ihave H := (lslot0_name (F := F) d (cV L) (jV L) _ _) $$ Hlb0
  icases H with ⟨%pay, %hpay, Hlb0⟩
  have hpay' : pay = ReadAs.same.apply (View.read (Elt F) ((Memref.whole main_arg1_scv : Memref sig .scVector .hbm S65536 .i32).slice (Rect.unit (s := S65536) (k0_off120 L ⟨4, by decide⟩) S128.size (k0_off120_inb L ⟨4, by decide⟩ (by decide))) (fun _ => rfl)).view (m (lLoc d))) := hpay.trans rfl
  ihave H := (lslot_entry_0' (F := F) d L (m (lLoc d)) hM _ pay (k0_off120 L ⟨4, by decide⟩) (k0_off120_inb L ⟨4, by decide⟩ (by decide)) hpay') $$ Hlb0
  icases H with ⟨%labels, %lb, %hL, Hlb0⟩
  obtain ⟨hlab, hrow, hlb⟩ := hL
  sl_for (inv4_0 (F := F) d L labels lb) $$ [Hlb0 Hb4 Hb6]
  case region => exact fun k acc => t4_region0 (F := F) d L labels lb hlab hlb 0#32 1#32 ⟨6, by decide⟩ (by decide) _ k acc
  · iapply (inv4_0_init (F := F) d L labels lb _ _ (fun ci hci => hc6 ci (by show ci.val < k0_t3_loop.trips; rw [t3_trips]; exact hci)))
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨6, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨6, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot0_to_rest_ex (F := F) d (cV L) (jV L) _) $$ Hf0
  icases H with ⟨%fbc, Hf0⟩
  sl_for (inv7s0 (F := F) d L fc fo fb fbc) $$ [Hb6 Hb7 Hb5 Hf0 Hb2 Hb3]
  case region => exact fun k acc => t7_region0 (F := F) d L (labN labels) hlab fc fo fb fbc hfc hfo' hfb' _ _ ⟨6, by decide⟩ (by decide) _ k acc
  · iapply (inv7s0_intro (F := F) d L fc fo fb fbc _ _ 0 ())
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7s0
  icases HI with ⟨Hb6, Hb7, Hb5, Hf0, ⟨%ga, Hb2⟩, ⟨%gx, Hb3⟩⟩
  ihave Hf0 := (fslot0_of_rest (F := F) d (cV L) (jV L) _) $$ Hf0
  ihave Hlb0 := (lslot0_of_rest (F := F) d (cV L) (jV L) _) $$ Hlb0
  clear hfb' hfb hfp2 hfp' hfo' hfp hfo hacc5 hfc hfl hfc0 hfl0 hlb hrow hlab hc6 hpay' hpay
  try clear labels
  try clear pay
  try clear c6
  try clear fp
  try clear acc5

  sl_exec
  sl_for (inv3 (F := F) d L) $$ [Hb6]
  case region => exact fun k acc => t3_region (F := F) d L 0#32 1#32 ⟨7, by decide⟩ k acc
  · iapply (inv3_init (F := F) d L _); iexact Hb6
  iintro %_ HI
  unfold inv3
  icases HI with ⟨%c6, %hc6, Hb6⟩
  sl_exec

  ihave H := (lslot1_name (F := F) d (cV L) (jV L) _ _) $$ Hlb1
  icases H with ⟨%pay, %hpay, Hlb1⟩
  have hpay' : pay = ReadAs.same.apply (View.read (Elt F) ((Memref.whole main_arg1_scv : Memref sig .scVector .hbm S65536 .i32).slice (Rect.unit (s := S65536) (k0_off120 L ⟨5, by decide⟩) S128.size (k0_off120_inb L ⟨5, by decide⟩ (by decide))) (fun _ => rfl)).view (m (lLoc d))) := hpay.trans rfl
  ihave H := (lslot_entry_1' (F := F) d L (m (lLoc d)) hM _ pay (k0_off120 L ⟨5, by decide⟩) (k0_off120_inb L ⟨5, by decide⟩ (by decide)) hpay') $$ Hlb1
  icases H with ⟨%labels, %lb, %hL, Hlb1⟩
  obtain ⟨hlab, hrow, hlb⟩ := hL
  sl_for (inv4_1 (F := F) d L labels lb) $$ [Hlb1 Hb4 Hb6]
  case region => exact fun k acc => t4_region1 (F := F) d L labels lb hlab hlb 0#32 1#32 ⟨7, by decide⟩ (by decide) _ k acc
  · iapply (inv4_1_init (F := F) d L labels lb _ _ (fun ci hci => hc6 ci (by show ci.val < k0_t3_loop.trips; rw [t3_trips]; exact hci)))
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  have hfl := lab_exit labels fl (fun r hr => hfl0 r (by show r.val < 16 * k0_t4_loop.trips; rw [t4_trips]; exact hr))
  have hfc := cnt_exit labels fc (fun ci hci => by have h := hfc0 ci hci; rw [show (16 * Scf.trips k0_t4_loop.lb k0_t4_loop.ub k0_t4_loop.st) = 16 * 8 from by show 16 * k0_t4_loop.trips = 16 * 8; rw [t4_trips]] at h; exact h)
  sl_exec

  sl_for (inv5 (F := F) d L labels fc) $$ [Hb6 Hb7 Hb8]
  case region => exact fun k acc => t5_region (F := F) d L labels fc hfc 0#32 1#32 ⟨7, by decide⟩ k acc
  · iapply (inv5_init (F := F) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  have hfo' : ∀ ci : Fin 16, ci.val < 13 → fo (ValueIdx.ix1 ci) = W (Sort.off (labN labels) ci.val) := fun ci hci => hfo ci (by show ci.val < k0_t5_loop.trips; rw [t5_trips]; exact hci)
  have hfp' : ∀ ci : Fin 16, ci.val < 13 → fp (ValueIdx.ix1 ci) = W (Sort.off (labN labels) ci.val) := fun ci hci => hfp ci (by show ci.val < k0_t5_loop.trips; rw [t5_trips]; exact hci)
  sl_exec

  sl_for (inv6 (F := F) d L labels fl) $$ [Hb4 Hb8 Hb5]
  case region => exact fun k acc => t6_region (F := F) d L labels fl hlab hfl 0#32 1#32 ⟨7, by decide⟩ k acc
  · iapply (inv6_init (F := F) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  have hfb' : ∀ r : Fin 128, fb (ValueIdx.ix1 ⟨Sort.pos (labN labels) r, Sort.pos_lt (labN labels) hlab r⟩) = W r.val := fun r => hfb r ⟨_, Sort.pos_lt (labN labels) hlab r⟩ (by show r.val < k0_t6_loop.trips; rw [t6_trips]; exact r.isLt) rfl
  sl_exec

  ihave H := (fslot1_to_rest_ex (F := F) d (cV L) (jV L) _) $$ Hf1
  icases H with ⟨%fbc, Hf1⟩
  sl_for (inv7s1 (F := F) d L fc fo fb fbc) $$ [Hb6 Hb7 Hb5 Hf1 Hb2 Hb3]
  case region => exact fun k acc => t7_region1 (F := F) d L (labN labels) hlab fc fo fb fbc hfc hfo' hfb' _ _ ⟨7, by decide⟩ (by decide) _ k acc
  · iapply (inv7s1_intro (F := F) d L fc fo fb fbc _ _ 0 ())
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7s1
  icases HI with ⟨Hb6, Hb7, Hb5, Hf1, ⟨%ga, Hb2⟩, ⟨%gx, Hb3⟩⟩
  ihave Hf1 := (fslot1_of_rest (F := F) d (cV L) (jV L) _) $$ Hf1
  ihave Hlb1 := (lslot1_of_rest (F := F) d (cV L) (jV L) _) $$ Hlb1
  clear hfb' hfb hfp2 hfp' hfo' hfp hfo hacc5 hfc hfl hfc0 hfl0 hlb hrow hlab hc6 hpay' hpay
  try clear labels
  try clear pay
  try clear c6
  try clear fp
  try clear acc5

  sl_exec
  iapply (task_end (F := F) m d L O W₀ _ _ _ _ _ _ _ _ _ _ _)
  isplitr; · iexact Hmw
  isplitr [HO]
  · unfold endPre
    isplitl [HoF HoA]
    · isplitl [HoF] <;> iassumption
    isplitl [Hb2 Hb3]
    · isplitl [Hb2] <;> iassumption
    isplitl [Hf0 Hf1 Hlb0 Hlb1]
    ·
      isplitl [Hf0]; · iexact Hf0
      isplitl [Hf1]; · iexact Hf1
      isplitl [Hlb0]; · iexact Hlb0
      iexact Hlb1
    isplitl [Hb4 Hb5 Hb6 Hb7 Hb8]
    ·
      isplitl [Hb4]; · iexact Hb4
      isplitl [Hb5]; · iexact Hb5
      isplitl [Hb6]; · iexact Hb6
      isplitl [Hb7]; · iexact Hb7
      iexact Hb8
    isplitl [Hxr Hx0 Hx1 Hx2 Hx3]
    ·
      isplitl [Hxr]; · iexact Hxr
      isplitl [Hx0]; · iexact Hx0
      isplitl [Hx1]; · iexact Hx1
      isplitl [Hx2]; · iexact Hx2
      iexact Hx3
    isplitl [Hlr Hl0 Hl1 Hl2 Hl3]
    ·
      isplitl [Hlr]; · iexact Hlr
      isplitl [Hl0]; · iexact Hl0
      isplitl [Hl1]; · iexact Hl1
      isplitl [Hl2]; · iexact Hl2
      iexact Hl3
    isplitl [Hs0 Hs1 Hs2 Hs3 Hs4 Hs5]
    ·
      isplitl [Hs0]; · iexact Hs0
      isplitl [Hs1]; · iexact Hs1
      isplitl [Hs2]; · iexact Hs2
      isplitl [Hs3]; · iexact Hs3
      isplitl [Hs4]; · iexact Hs4
      iexact Hs5
    isplitl [Hbufs]; · iexact Hbufs
    iexact Hsems
  · iexists _
    isplitr
    swap
    · iexact HO
    ipureintro
    iterate 16 refine waits_insert ?_ _
    exact fun p hp => Or.inl hp

end Cert.Proof.KB

end
-- ==== Proof.ScTileB.lean ====
import proofs.«216278_g4776003633407_cont_8to1_c_644_33_alg».proof.Proof.LaunchB
import proofs.«216278_g4776003633407_cont_8to1_c_644_33_alg».proof.Proof.ScOutB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

abbrev bodyAt (L : grid0.Coords) :=
  cc0__sc_body (F := F) L (Memref.whole main_arg0_scv) (Memref.isWhole_whole _) (Memref.whole main_arg1_scv) (Memref.isWhole_whole _)
    (Memref.whole main_v1_0_scv) (Memref.isWhole_whole _) (Memref.whole main_v1_1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scoped0 cc0_scoped1

def BodyObl : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d (widL L) ∗ scopedBufs (V d (cV L) (jV L)) ∗ scopedSems0 (V d (cV L) (jV L))
        ∗ owes (V d (cV L) (jV L)) O W)
      ⊢ wp frame (wpE (defs₀ (F := F)) 𝒱₀ (V d (cV L) (jV L)) none) Set.univ (bodyAt (F := F) L)
          fun _ => iprop(tileTd m d (widL L) ∗ scopedBufs (V d (cV L) (jV L)) ∗ scopedSems0 (V d (cV L) (jV L))
            ∗ ∃ W', ⌜∀ p ∈ W', p ∈ W ∨ p.2 = none⌝ ∗ owes (V d (cV L) (jV L)) O W')

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : BodyObl (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.KB

end
-- ==== Proof.ScFrameB.lean ====
import proofs.«216278_g4776003633407_cont_8to1_c_644_33_alg».proof.Proof.ScBodyB
import proofs.«216278_g4776003633407_cont_8to1_c_644_33_alg».proof.Proof.ScTileB
import proofs.«216278_g4776003633407_cont_8to1_c_644_33_alg».proof.Proof.FrameKIB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.Sem

variable {F : FTy → Type} [FloatOps F]

theorem bodyObl (m : (ℓ : Loc nD τ sig) → Buf (Elt F) ℓ) (hlab : LabOK m) : BodyObl (F := F) m := fun d L O W hO =>
  tile_body (F := F) m d L (fun i => hlab d i) facts O W hO

end Cert.Proof.KB

end
-- ==== Proof.ScSortLoops.lean ====
import proofs.«216278_g4776003633407_cont_8to1_c_644_33_alg».proof.Proof.ScOwn
import proofs.«216278_g4776003633407_cont_8to1_c_644_33_alg».proof.Proof.SortSpec
import proofs.«216278_g4776003633407_cont_8to1_c_644_33_alg».proof.Proof.SortWords
import Idealize.ShloMosaic.Lib.ValueIdx
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)

variable {F : FTy → Type}

local notation "𝕄" => MT nD τ sig (HIx 1) (Elt F) ℕ UU ℕ

variable (d : Dev nD) (L : grid0.Coords) [FloatOps F]

abbrev thrL (d : Dev nD) (L : grid0.Coords) : Thread nD τ := V d ((L 0).castLE hcore0) ((L 1).castLE hsub0)

section Cell
variable {sig' : RefSig} {κ : Kind} {sp : Space} {e : EltTy} {Val : EltTy → Type} {N : Nat}

theorem read_writes_cell (v : View sig' κ sp (⟨1, ![N]⟩ : Shape) e) (f : v.ty.Contents Val) (off : Fin 1 → Nat)
    (inb : ∀ a, off a + (⟨1, ![1]⟩ : Shape).size a ≤ (⟨1, ![N]⟩ : Shape).size a) (w : Val e)
    (Ls : List (View.Piece Val (⟨1, ![N]⟩ : Shape) e)) (i : Fin N) :
    v.read Val (v.writes Val f (⟨Rect.unit (s := (⟨1, ![N]⟩ : Shape)) off (⟨1, ![1]⟩ : Shape).size inb, fun _ => w⟩ :: Ls)) (ix1 i)
      = if i.val = off 0 then w else v.read Val (v.writes Val f Ls) (ix1 i) := by
  by_cases h : i.val = off 0
  · rw [if_pos h]
    have hm : (ix1 i : (⟨1, ![N]⟩ : Shape).Idx) ∈ (Rect.unit (s := (⟨1, ![N]⟩ : Shape)) off (⟨1, ![1]⟩ : Shape).size inb).set := by
      rw [Rect.mem_set_unit]
      intro a
      obtain rfl : a = 0 := Subsingleton.elim _ _
      show off 0 ≤ i.val ∧ i.val < off 0 + 1
      omega
    obtain ⟨x, hx⟩ : ∃ x, (Rect.unit (s := (⟨1, ![N]⟩ : Shape)) off (⟨1, ![1]⟩ : Shape).size inb).emb x = ix1 i :=
      (Rect.unit (s := (⟨1, ![N]⟩ : Shape)) off (⟨1, ![1]⟩ : Shape).size inb).exists_idx_of_mem hm
    rw [← hx]
    exact View.read_writes_cons_emb v f _ (fun _ => w) Ls x
  · rw [if_neg h, View.writes_cons, View.read_slice_write_of_not_mem]
    rw [Rect.map_emb_univ, Rect.mem_set_unit]
    intro hh
    have := hh 0
    apply h
    show i.val = off 0
    have h2 : off 0 ≤ i.val ∧ i.val < off 0 + 1 := this
    omega

end Cell

section Cell2
variable {sig' : RefSig} {κ : Kind} {sp : Space} {e : EltTy} {Val : EltTy → Type} {N : Nat}

theorem readAt_cell (v : View sig' κ sp (⟨1, ![N]⟩ : Shape) e) (f : v.ty.Contents Val) (off : Fin 1 → Nat)
    (inb : ∀ a, off a + (⟨1, ![1]⟩ : Shape).size a ≤ (⟨1, ![N]⟩ : Shape).size a)
    (h : 0 < (Rect.unit (s := (⟨1, ![N]⟩ : Shape)) off (⟨1, ![1]⟩ : Shape).size inb).toLoadRect.shape.numel)
    (i : Fin N) (hi : i.val = off 0) :
    v.readAt Val (Rect.unit (s := (⟨1, ![N]⟩ : Shape)) off (⟨1, ![1]⟩ : Shape).size inb).toLoadRect f (Shape.Idx.first h)
      = v.read Val f (ix1 i) := by
  rw [View.readAt_apply]
  congr 1
  funext a
  obtain rfl : a = 0 := Subsingleton.elim _ _
  refine Fin.ext ?_
  show off 0 + 1 * 0 = i.val
  omega

end Cell2

abbrev mLab : Memref sig .scVector .smem S128 .i32 := Memref.whole cc0_scratch4

abbrev mBkt : Memref sig .scVector .smem S128 .i32 := Memref.whole cc0_scratch5

abbrev mCnt : Memref sig .scVector .smem S16 .i32 := Memref.whole cc0_scratch6

abbrev mOff : Memref sig .scVector .smem S16 .i32 := Memref.whole cc0_scratch7

abbrev mPos : Memref sig .scVector .smem S16 .i32 := Memref.whole cc0_scratch8

theorem read_mLab (g : S128.Idx → BitVec 32) : (mLab).view.read (Elt F) g = g := rfl
theorem read_mBkt (g : S128.Idx → BitVec 32) : (mBkt).view.read (Elt F) g = g := rfl
theorem read_mCnt (g : S16.Idx → BitVec 32) : (mCnt).view.read (Elt F) g = g := rfl
theorem read_mOff (g : S16.Idx → BitVec 32) : (mOff).view.read (Elt F) g = g := rfl
theorem read_mPos (g : S16.Idx → BitVec 32) : (mPos).view.read (Elt F) g = g := rfl

variable (labels : Fin 128 → BitVec 32)

abbrev labN : Fin 128 → ℕ := fun r => (labels r).toNat

open Cert.Proof.Sort (W)

def inv3 (k : Nat) (_ : Unit) : sProp 𝕄 :=
  iprop(∃ f : S16.Idx → BitVec 32, ⌜∀ ci : Fin 16, ci.val < k → f (ix1 ci) = 0#32⌝
    ∗ (mCnt).view.loc (thrL d L) ↦{fullShare} f)

def inv5 (fc : S16.Idx → BitVec 32) (k : Nat) (acc : BitVec 32) : sProp 𝕄 :=
  iprop(⌜acc = W (Sort.off (labN labels) k)⌝ ∗ ((mCnt).view.loc (thrL d L) ↦{fullShare} fc)
    ∗ (∃ fo : S16.Idx → BitVec 32, ⌜∀ ci : Fin 16, ci.val < k → fo (ix1 ci) = W (Sort.off (labN labels) ci.val)⌝
        ∗ ((mOff).view.loc (thrL d L) ↦{fullShare} fo))
    ∗ (∃ fp : S16.Idx → BitVec 32, ⌜∀ ci : Fin 16, ci.val < k → fp (ix1 ci) = W (Sort.off (labN labels) ci.val)⌝
        ∗ ((mPos).view.loc (thrL d L) ↦{fullShare} fp)))

def inv6 (fl : S128.Idx → BitVec 32) (k : Nat) (_ : Unit) : sProp 𝕄 :=
  iprop(((mLab).view.loc (thrL d L) ↦{fullShare} fl)
    ∗ (∃ fp : S16.Idx → BitVec 32,
        ⌜∀ ci : Fin 16, ci.val < 13 → fp (ix1 ci) = W (Sort.off (labN labels) ci.val + Sort.cntUpTo (labN labels) k ci.val)⌝
        ∗ ((mPos).view.loc (thrL d L) ↦{fullShare} fp))
    ∗ (∃ fb : S128.Idx → BitVec 32,
        ⌜∀ r p : Fin 128, r.val < k → p.val = Sort.pos (labN labels) r → fb (ix1 p) = W r.val⌝
        ∗ ((mBkt).view.loc (thrL d L) ↦{fullShare} fb)))

theorem t3_region (c0 c1 : BitVec 32) (k0_t2 : Fin k0_t2_loop.trips) (k : Fin k0_t3_loop.trips) (acc : Unit) :
    inv3 (F := F) d L k.val acc
      ⊢ wp frame (wpE (defs₀ (F := F)) 𝒱₀ (thrL d L) none) Set.univ
          (k0_t3_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 k acc)
          (inv3 (F := F) d L (k.val + 1)) := by
  unfold inv3 k0_t3_body
  iintro ⟨%f, %hf, Hc⟩
  sl_exec
  sl_step
  iexists ((mCnt).view.writes (Elt F) f [⟨Rect.unit (s := S16) (k0_off23 k) S1.size (k0_off23_inb k), fun _ => (0#32 : BitVec 32)⟩])
  isplitr
  · ipureintro
    intro ci hci
    have := read_writes_cell (Val := Elt F) (mCnt).view f (k0_off23 k) (k0_off23_inb k) (0#32 : BitVec 32) [] ci
    rw [read_mCnt, read_mCnt] at this
    rw [this]
    split_ifs with h
    · rfl
    · rw [k0_off23_eq] at h
      exact hf ci (by have : ci.val ≠ k.val := h; omega)
  · iexact Hc

theorem t5_region (fc : S16.Idx → BitVec 32) (hfc : ∀ ci : Fin 16, ci.val < 13 → fc (ix1 ci) = W (Sort.cnt (labN labels) ci.val))
    (c0 c1 : BitVec 32) (k0_t2 : Fin k0_t2_loop.trips) (k : Fin k0_t5_loop.trips) (acc : BitVec 32) :
    inv5 (F := F) d L labels fc k.val acc
      ⊢ wp frame (wpE (defs₀ (F := F)) 𝒱₀ (thrL d L) none) Set.univ
          (k0_t5_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 k acc)
          (inv5 (F := F) d L labels fc (k.val + 1)) := by
  unfold inv5 k0_t5_body
  iintro ⟨%hacc, Hc, ⟨%fo, %hfo, Ho⟩, ⟨%fp, %hfp, Hp⟩⟩
  have hk : k.val < 13 := lt_of_lt_of_le k.isLt k0_t5_abs.2.1
  have hoff : (k0_off57 k) 0 = k.val := by rw [k0_off57_eq]; rfl
  sl_exec
  sl_step
  isplitr
  · ipureintro
    unfold t5_region.sl.v82 t5_region.sl.r_2
    show acc + _ = _
    rw [readAt_cell (Val := Elt F) (mCnt).view fc (k0_off57 k) (k0_off57_inb k) _ ⟨k.val, by omega⟩ hoff.symm, read_mCnt,
      hfc ⟨k.val, by omega⟩ hk, hacc, Sort.off_succ]
    exact Sort.W_add _ _
  isplitl [Hc]
  · iexact Hc
  isplitl [Ho]
  · iexists ((mOff).view.writes (Elt F) fo [⟨Rect.unit (s := S16) (k0_off57 k) S1.size (k0_off57_inb k), fun _ => acc⟩])
    isplitr
    · ipureintro
      intro ci hci
      have := read_writes_cell (Val := Elt F) (mOff).view fo (k0_off57 k) (k0_off57_inb k) acc [] ci
      rw [read_mOff, read_mOff] at this
      rw [this]
      split_ifs with h
      · rw [hacc, h, hoff]
      · exact hfo ci (by rw [hoff] at h; omega)
    · iexact Ho
  · iexists ((mPos).view.writes (Elt F) fp [⟨Rect.unit (s := S16) (k0_off57 k) S1.size (k0_off57_inb k), fun _ => acc⟩])
    isplitr
    · ipureintro
      intro ci hci
      have := read_writes_cell (Val := Elt F) (mPos).view fp (k0_off57 k) (k0_off57_inb k) acc [] ci
      rw [read_mPos, read_mPos] at this
      rw [this]
      split_ifs with h
      · rw [hacc, h, hoff]
      · exact hfp ci (by rw [hoff] at h; omega)
    · iexact Hp

theorem chk17_of_le (v : BitVec 32) (h : v.toNat ≤ 12) : k0_chk17 v := by
  refine ⟨fun a => ?_, fun a => ?_⟩ <;> obtain rfl : a = 0 := Subsingleton.elim _ _
  · show v.toNat + 1 ≤ 16; omega
  · show v.toNat + 1 ≤ 16; omega

theorem chk18_of_lt (v : BitVec 32) (h : v.toNat < 128) : k0_chk18 v := by
  intro a; obtain rfl : a = 0 := Subsingleton.elim _ _
  show v.toNat + 1 ≤ 128; omega

theorem t6_region (fl : S128.Idx → BitVec 32) (hlab : ∀ r, (labels r).toNat ≤ 12) (hfl : ∀ r, fl (ix1 r) = labels r)
    (c0 c1 : BitVec 32) (k0_t2 : Fin k0_t2_loop.trips) (k : Fin k0_t6_loop.trips) (acc : Unit) :
    inv6 (F := F) d L labels fl k.val acc
      ⊢ wp frame (wpE (defs₀ (F := F)) 𝒱₀ (thrL d L) none) Set.univ
          (k0_t6_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 k acc)
          (inv6 (F := F) d L labels fl (k.val + 1)) := by
  unfold inv6 k0_t6_body
  iintro ⟨Hl, ⟨%fp, %hfp, Hp⟩, ⟨%fb, %hfb, Hb⟩⟩
  have hk : k.val < 128 := lt_of_lt_of_le k.isLt k0_t6_abs.2.1
  have hoff : (k0_off58 k) 0 = k.val := by rw [k0_off58_eq]; rfl
  sl_exec
  have hr : t6_region.sl.r (F := F) fl k = labels ⟨k.val, hk⟩ := by
    unfold t6_region.sl.r
    rw [readAt_cell (Val := Elt F) (mLab).view fl (k0_off58 k) (k0_off58_inb k) _ ⟨k.val, hk⟩ hoff.symm, read_mLab, hfl]
  have h17 : k0_chk17 (t6_region.sl.r (F := F) fl k) := by rw [hr]; exact chk17_of_le _ (hlab _)
  sl_exec
  have hlk : (labels ⟨k.val, hk⟩).toNat ≤ 12 := hlab _
  have hr1 : t6_region.sl.r_1 (F := F) fl k fp h17 = W (Sort.pos (labN labels) ⟨k.val, hk⟩) := by
    unfold t6_region.sl.r_1
    rw [readAt_cell (Val := Elt F) (mPos).view fp (k0_off59 (t6_region.sl.r (F := F) fl k)) (k0_off59_inb _ h17) _
      ⟨(labels ⟨k.val, hk⟩).toNat, by omega⟩ (by rw [hr]; rfl), read_mPos, hfp _ (by show (labels ⟨k.val, hk⟩).toNat < 13; omega)]
    rfl
  have hpos : Sort.pos (labN labels) ⟨k.val, hk⟩ < 128 := Sort.pos_lt (labN labels) hlab _
  have h18 : k0_chk18 (t6_region.sl.r_1 (F := F) fl k fp h17) := by
    rw [hr1]; exact chk18_of_lt _ (by rw [Sort.W_toNat (by omega)]; exact hpos)
  sl_exec
  sl_step
  isplitl [Hl]
  · iexact Hl
  isplitl [Hp]
  · iexists ((mPos).view.writes (Elt F) fp [⟨Rect.unit (s := S16) (k0_off61 (t6_region.sl.r (F := F) fl k)) S1.size (k0_off61_inb _ h17),
      fun _ => t6_region.sl.v82 (F := F) fl k fp h17⟩])
    isplitr
    · ipureintro
      intro ci hci
      have := read_writes_cell (Val := Elt F) (mPos).view fp (k0_off61 (t6_region.sl.r (F := F) fl k)) (k0_off61_inb _ h17)
        (t6_region.sl.v82 (F := F) fl k fp h17) [] ci
      rw [read_mPos, read_mPos] at this
      rw [this]
      have ho : k0_off61 (t6_region.sl.r (F := F) fl k) 0 = (labels ⟨k.val, hk⟩).toNat := by rw [hr]; rfl
      rw [ho, show k.val + 1 = (⟨k.val, hk⟩ : Fin 128).val + 1 from rfl, Sort.cntUpTo_succ (labN labels) ⟨k.val, hk⟩ ci.val]
      by_cases h1 : ci.val = (labels ⟨k.val, hk⟩).toNat
      · rw [if_pos h1, if_pos (show labN labels ⟨k.val, hk⟩ = ci.val from h1.symm)]
        unfold t6_region.sl.v82
        rw [hr1]
        show W _ + 1#32 = _
        rw [Sort.W_add_one]
        unfold Sort.pos
        rw [show labN labels ⟨k.val, hk⟩ = ci.val from h1.symm, Nat.add_assoc]
      · rw [if_neg h1, if_neg (show ¬ labN labels ⟨k.val, hk⟩ = ci.val from fun e => h1 e.symm), Nat.add_zero]
        exact hfp ci hci
    · iexact Hp
  · iexists ((mBkt).view.writes (Elt F) fb [⟨Rect.unit (s := S128) (k0_off60 (t6_region.sl.r_1 (F := F) fl k fp h17)) S1.size (k0_off60_inb _ h18),
      fun _ => t6_region.sl.arg18 k⟩])
    isplitr
    · ipureintro
      intro r p hr' hp
      have := read_writes_cell (Val := Elt F) (mBkt).view fb (k0_off60 (t6_region.sl.r_1 (F := F) fl k fp h17)) (k0_off60_inb _ h18)
        (t6_region.sl.arg18 k) [] p
      rw [read_mBkt, read_mBkt] at this
      rw [this]
      have ho : k0_off60 (t6_region.sl.r_1 (F := F) fl k fp h17) 0 = Sort.pos (labN labels) ⟨k.val, hk⟩ := by
        rw [hr1]; show (W _).toNat = _; exact Sort.W_toNat (by omega)
      rw [ho]
      by_cases h : p.val = Sort.pos (labN labels) ⟨k.val, hk⟩
      · rw [if_pos h]
        have e : r = ⟨k.val, hk⟩ := Sort.pos_injective (labN labels) (by rw [← hp, h])
        rw [e]
        unfold t6_region.sl.arg18
        simp [Scf.iv]
      · rw [if_neg h]
        have hne : r.val ≠ k.val := fun e => h (by rw [hp]; congr 1; exact Fin.ext e)
        exact hfb r p (by omega) hp
    · iexact Hb

theorem t3_trips : k0_t3_loop.trips = 13 := by decide
theorem t5_trips : k0_t5_loop.trips = 13 := by decide
theorem t6_trips : k0_t6_loop.trips = 128 := by decide

theorem inv3_init (f : S16.Idx → BitVec 32) :
    ((mCnt).view.loc (thrL d L) ↦{fullShare} f : sProp 𝕄) ⊢ inv3 (F := F) d L 0 ⟨⟩ := by
  unfold inv3
  iintro H
  iexists f
  isplitr
  · ipureintro; intro ci h; exact absurd h (Nat.not_lt_zero _)
  · iexact H

theorem inv5_init (fc fo fp : S16.Idx → BitVec 32) :
    iprop(((mCnt).view.loc (thrL d L) ↦{fullShare} fc) ∗ ((mOff).view.loc (thrL d L) ↦{fullShare} fo)
        ∗ ((mPos).view.loc (thrL d L) ↦{fullShare} fp) : sProp 𝕄)
      ⊢ inv5 (F := F) d L labels fc 0 0#32 := by
  unfold inv5
  iintro ⟨Hc, Ho, Hp⟩
  isplitr
  · ipureintro; rw [Sort.off_zero]
  isplitl [Hc]
  · iexact Hc
  isplitl [Ho]
  · iexists fo
    isplitr
    · ipureintro; intro ci h; exact absurd h (Nat.not_lt_zero _)
    · iexact Ho
  · iexists fp
    isplitr
    · ipureintro; intro ci h; exact absurd h (Nat.not_lt_zero _)
    · iexact Hp

theorem pos_init (fp : S16.Idx → BitVec 32)
    (h : ∀ ci : Fin 16, ci.val < 13 → fp (ix1 ci) = W (Sort.off (labN labels) ci.val)) :
    ∀ ci : Fin 16, ci.val < 13 → fp (ix1 ci) = W (Sort.off (labN labels) ci.val + Sort.cntUpTo (labN labels) 0 ci.val) := by
  intro ci hci
  rw [Sort.cntUpTo_zero, Nat.add_zero]
  exact h ci hci

theorem inv6_init (fl : S128.Idx → BitVec 32) (fp : S16.Idx → BitVec 32) (fb : S128.Idx → BitVec 32)
    (h : ∀ ci : Fin 16, ci.val < 13 → fp (ix1 ci) = W (Sort.off (labN labels) ci.val)) :
    iprop(((mLab).view.loc (thrL d L) ↦{fullShare} fl) ∗ ((mPos).view.loc (thrL d L) ↦{fullShare} fp)
        ∗ ((mBkt).view.loc (thrL d L) ↦{fullShare} fb) : sProp 𝕄)
      ⊢ inv6 (F := F) d L labels fl 0 ⟨⟩ := by
  unfold inv6
  iintro ⟨Hl, Hp, Hb⟩
  isplitl [Hl]
  · iexact Hl
  isplitl [Hp]
  · iexists fp
    isplitr
    · ipureintro; exact pos_init labels fp h
    · iexact Hp
  · iexists fb
    isplitr
    · ipureintro; intro r p hr; exact absurd hr (Nat.not_lt_zero _)
    · iexact Hb

end Cert.Proof.KI

end
-- ==== Proof.ScExtLoop.lean ====
import proofs.«216278_g4776003633407_cont_8to1_c_644_33_alg».proof.Proof.ScSortLoops
import proofs.«216278_g4776003633407_cont_8to1_c_644_33_alg».proof.Proof.ScSlots
import Idealize.ShloMosaic.Lib.Pipeline.Value

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2)
open Cert.Proof.Sort (W)

variable {F : FTy → Type}

local notation "𝕄" => MT nD τ sig (HIx 1) (Elt F) ℕ UU ℕ

variable (d : Dev nD) (L : grid0.Coords) [FloatOps F] (labels : Fin 128 → BitVec 32)

def inv4_0 (lb : S2x128.Idx → BitVec 32) (k : Nat) (_ : Unit) : sProp 𝕄 :=
  iprop(((lbufM).view.loc (thrL d L) ↦[Finset.univ \ (lSlotM1).view.set]{fullShare} lb)
    ∗ (∃ fl : S128.Idx → BitVec 32, ⌜∀ r : Fin 128, r.val < 16 * k → fl (ix1 r) = labels r⌝
        ∗ ((mLab).view.loc (thrL d L) ↦{fullShare} fl))
    ∗ (∃ fc : S16.Idx → BitVec 32,
        ⌜∀ ci : Fin 16, ci.val < 13 → fc (ix1 ci) = W (Sort.cntUpTo (labN labels) (16 * k) ci.val)⌝
        ∗ ((mCnt).view.loc (thrL d L) ↦{fullShare} fc)))

theorem k0_off24_eq : ∀ (k0_t2 : Fin k0_t2_loop.trips) (k0_t4 : Fin k0_t4_loop.trips),
    k0_off24 k0_t2 k0_t4 = ![k0_t2.val % 2, 16 * k0_t4.val] := by decide +kernel

def inv4_1 (lb : S2x128.Idx → BitVec 32) (k : Nat) (_ : Unit) : sProp 𝕄 :=
  iprop(((lbufM).view.loc (thrL d L) ↦[Finset.univ \ (lSlotM0).view.set]{fullShare} lb)
    ∗ (∃ fl : S128.Idx → BitVec 32, ⌜∀ r : Fin 128, r.val < 16 * k → fl (ix1 r) = labels r⌝
        ∗ ((mLab).view.loc (thrL d L) ↦{fullShare} fl))
    ∗ (∃ fc : S16.Idx → BitVec 32,
        ⌜∀ ci : Fin 16, ci.val < 13 → fc (ix1 ci) = W (Sort.cntUpTo (labN labels) (16 * k) ci.val)⌝
        ∗ ((mCnt).view.loc (thrL d L) ↦{fullShare} fc)))

def inv4 (o : Finset S2x128.Idx) (lb : S2x128.Idx → BitVec 32) (k : Nat) (_ : Unit) : sProp 𝕄 :=
  iprop(((lbufM).view.loc (thrL d L) ↦[Finset.univ \ o]{fullShare} lb)
    ∗ (∃ fl : S128.Idx → BitVec 32, ⌜∀ r : Fin 128, r.val < 16 * k → fl (ix1 r) = labels r⌝
        ∗ ((mLab).view.loc (thrL d L) ↦{fullShare} fl))
    ∗ (∃ fc : S16.Idx → BitVec 32,
        ⌜∀ ci : Fin 16, ci.val < 13 → fc (ix1 ci) = W (Sort.cntUpTo (labN labels) (16 * k) ci.val)⌝
        ∗ ((mCnt).view.loc (thrL d L) ↦{fullShare} fc)))

theorem lane_val (v : S1x16.Idx → BitVec 32) (j : Fin 16) (off : Fin 1 → Nat) (hoff : off 0 = j.val)
    (hs : S16.Slices off S1) (hc : S1x16.ShapeCasts S16) (h0 : ∀ a, (![0] : Fin 1 → Nat) a < S1.size a) :
    extractAt ![0] (extractStridedSlice S1 off (shapeCast S16 v hc) hs) h0 = v (ix2 0 j) := by
  unfold extractAt
  rw [extractStridedSlice_apply off _ hs _ (ix1 j) (by
    intro a; obtain rfl : a = 0 := Subsingleton.elim _ _
    show j.val = off 0 + 0; omega)]
  exact shapeCast_apply v hc (ix1 j) (ix2 0 j) (by
    rw [Shape.rowMajor_val_one, Shape.rowMajor_val_two]
    show 0 * 16 + j.val = j.val; omega)

-- A word equal to a label is at most 12, so the count cell it names lies among the sixteen.
theorem chk_of_le (v w : BitVec 32) (e : v = w) (h : w.toNat ≤ 12) : k0_chk1 v := by
  subst e; intro a; obtain rfl : a = 0 := Subsingleton.elim _ _
  show v.toNat + 1 ≤ 16; omega

theorem lab_step (fl : S128.Idx → BitVec 32) {Ls : List (View.Piece (Elt F) S128 .i32)} {n : ℕ} {hn : n < 128}
    (hP : ∀ r : Fin 128, r.val < n → ((mLab).view.writes (Elt F) fl Ls) (ix1 r) = labels r)
    {off : Fin 1 → Nat} {inb : ∀ a, off a + S1.size a ≤ S128.size a} (hoff : off 0 = n)
    {l : BitVec 32} (hl : l = labels ⟨n, hn⟩) :
    ∀ r : Fin 128, r.val < n + 1 →
      ((mLab).view.writes (Elt F) fl (⟨Rect.unit (s := S128) off S1.size inb, fun _ => l⟩ :: Ls)) (ix1 r) = labels r := by
  intro r hr
  have := read_writes_cell (Val := Elt F) (mLab).view fl off inb l Ls r
  rw [read_mLab, read_mLab] at this
  rw [this]
  split_ifs with h
  · rw [hl]; congr 1; exact Fin.ext (by show n = r.val; omega)
  · exact hP r (by omega)

theorem cnt_step (fc : S16.Idx → BitVec 32) {Ls : List (View.Piece (Elt F) S16 .i32)} {n : ℕ} {hn : n < 128}
    (hP : ∀ ci : Fin 16, ci.val < 13 → ((mCnt).view.writes (Elt F) fc Ls) (ix1 ci) = W (Sort.cntUpTo (labN labels) n ci.val))
    {l : BitVec 32} {inb : ∀ a, k0_off26 l a + S1.size a ≤ S16.size a}
    (hlab : (labels ⟨n, hn⟩).toNat ≤ 12) (hl : l = labels ⟨n, hn⟩)
    {h : 0 < (Rect.unit (s := S16) (k0_off26 l) S1.size inb).toLoadRect.shape.numel}
    {c : BitVec 32}
    (hc : c = Scalar.addi ((mCnt).view.readAt (Elt F) (Rect.unit (s := S16) (k0_off26 l) S1.size inb).toLoadRect
      ((mCnt).view.writes (Elt F) fc Ls) (Shape.Idx.first h)) 1#32) :
    ∀ ci : Fin 16, ci.val < 13 →
      ((mCnt).view.writes (Elt F) fc (⟨Rect.unit (s := S16) (k0_off26 l) S1.size inb, fun _ => c⟩ :: Ls)) (ix1 ci)
        = W (Sort.cntUpTo (labN labels) (n + 1) ci.val) := by
  intro ci hci
  have hoff : k0_off26 l 0 = l.toNat := rfl
  have := read_writes_cell (Val := Elt F) (mCnt).view fc (k0_off26 l) inb c Ls ci
  rw [read_mCnt, read_mCnt] at this
  rw [this, show n + 1 = (⟨n, hn⟩ : Fin 128).val + 1 from rfl, Sort.cntUpTo_succ (labN labels) ⟨n, hn⟩ ci.val]
  have hlt : l.toNat ≤ 12 := by rw [hl]; exact hlab
  by_cases h1 : ci.val = k0_off26 l 0
  · rw [if_pos h1, if_pos (show labN labels ⟨n, hn⟩ = ci.val by show (labels ⟨n, hn⟩).toNat = ci.val; rw [← hl]; omega), hc,
      readAt_cell (Val := Elt F) (mCnt).view _ (k0_off26 l) inb h ci h1, read_mCnt, hP ci hci]
    show W _ + 1#32 = _
    rw [Sort.W_add_one]
  · rw [if_neg h1, if_neg (show ¬ labN labels ⟨n, hn⟩ = ci.val by show ¬ (labels ⟨n, hn⟩).toNat = ci.val; rw [← hl]; omega), Nat.add_zero]
    exact hP ci hci

-- The load's rectangle sits in row `k0_t2 % 2` of the buffer, so it misses any 128-word row at another offset.
theorem load_disj (k0_t2 : Fin k0_t2_loop.trips) (k : Fin k0_t4_loop.trips) (off : Fin 2 → Nat)
    (inb : ∀ a, off a + S1x128.size a ≤ S2x128.size a) (h : k0_t2.val % 2 + 1 ≤ off 0 ∨ off 0 + 1 ≤ k0_t2.val % 2) :
    Disjoint ((lbufM).view.setOn (Rect.unit (s := S2x128) (k0_off24 k0_t2 k) S1x16.size (k0_off24_inb k0_t2 k)).set)
      (Rect.unit (s := S2x128) off S1x128.size inb).set := by
  have e : (lbufM).view.setOn (Rect.unit (s := S2x128) (k0_off24 k0_t2 k) S1x16.size (k0_off24_inb k0_t2 k)).set
      = (Rect.unit (s := S2x128) (k0_off24 k0_t2 k) S1x16.size (k0_off24_inb k0_t2 k)).set := Finset.map_refl
  rw [e]
  refine Rect.unit_disjoint 0 ?_
  rw [k0_off24_eq]
  exact h

-- Lane `n` of the sixteen words loaded at trip `k` from slot `p` is the label of row `16 k + n`.
theorem lane (p : Fin 2) (lb : S2x128.Idx → BitVec 32) (hlb : ∀ r : Fin 128, lb (ix2 p r) = labels r)
    (k0_t2 : Fin k0_t2_loop.trips) (hp : k0_t2.val % 2 = p.val) (k : Fin k0_t4_loop.trips) (hk : k.val < 8)
    (n : ℕ) (hn : n < 16) (off : Fin 1 → Nat) (hoff : off 0 = n) (hs : S16.Slices off S1) :
    extractAt ![0] (extractStridedSlice S1 off (k0_pay11 ((lbufM).view.readAt (Elt F) (Rect.unit (s := S2x128) (k0_off24 k0_t2 k) S1x16.size (k0_off24_inb k0_t2 k)).toLoadRect lb)) hs) inpos_S1_p0
      = labels ⟨16 * k.val + n, by omega⟩ := by
  rw [← hlb]
  refine (lane_val _ ⟨n, hn⟩ off hoff hs shapeCasts_S1x16_S16 inpos_S1_p0).trans ?_
  rw [View.readAt_apply]
  show lb _ = lb _
  congr 1
  funext a
  refine Fin.ext ?_
  match a with
  | ⟨0, _⟩ => show k0_off24 k0_t2 k 0 + 1 * 0 = p.val; rw [k0_off24_eq, hp]; rfl
  | ⟨1, _⟩ => show k0_off24 k0_t2 k 1 + 1 * n = 16 * k.val + n; rw [k0_off24_eq]; show 16 * k.val + 1 * n = _; omega

-- One trip, for either slot: `o` is the other slot's cell set, which the trip's load does not touch.
theorem t4_region (o : Finset S2x128.Idx) (p : Fin 2) (lb : S2x128.Idx → BitVec 32) (hlab : ∀ r, (labels r).toNat ≤ 12)
    (hlb : ∀ r : Fin 128, lb (ix2 p r) = labels r)
    (c0 c1 : BitVec 32) (k0_t2 : Fin k0_t2_loop.trips) (hp : k0_t2.val % 2 = p.val) (v49 : BitVec 32)
    (k : Fin k0_t4_loop.trips) (acc : Unit)
    (hdisj : Disjoint ((lbufM).view.setOn (Rect.unit (s := S2x128) (k0_off24 k0_t2 k) S1x16.size (k0_off24_inb k0_t2 k)).set) o) :
    inv4 (F := F) d L labels o lb k.val acc
      ⊢ wp frame (wpE (defs₀ (F := F)) 𝒱₀ (thrL d L) none) Set.univ
          (k0_t4_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 v49 k acc)
          (inv4 (F := F) d L labels o lb (k.val + 1)) := by
  unfold inv4 k0_t4_body
  iintro ⟨Hlb, ⟨%fl, %hfl, Hl⟩, ⟨%fc, %hfc, Hc⟩⟩
  have hk : k.val < 8 := lt_of_lt_of_le k.isLt k0_t4_abs.2.1
  have hv := lane (F := F) labels p lb hlb k0_t2 hp k hk
  sl_exec (disch := exact chk_of_le _ _ (hv _ (by decide) _ rfl (by decide)) (hlab _))
  sl_step
  isplitl [Hlb]
  · iexact Hlb
  isplitl [Hl]
  · iexists _
    isplitr
    rotate_left
    · iexact Hl
    · ipureintro
      rw [show 16 * (k.val + 1) = 16 * k.val + 15 + 1 by omega]
      iterate 16 refine lab_step (F := F) labels fl ?_ (by simp only [k0_off25_eq, k0_off27_eq, k0_off29_eq, k0_off31_eq, k0_off33_eq, k0_off35_eq, k0_off37_eq, k0_off39_eq, k0_off41_eq, k0_off43_eq, k0_off45_eq, k0_off47_eq, k0_off49_eq, k0_off51_eq, k0_off53_eq, k0_off55_eq]; rfl) (hv _ (by decide) _ rfl (by decide))
      exact fun r hr => hfl r (by omega)
  · iexists _
    isplitr
    rotate_left
    · iexact Hc
    · ipureintro
      rw [show 16 * (k.val + 1) = 16 * k.val + 15 + 1 by omega]
      iterate 16 refine cnt_step (F := F) labels fc ?_ (hlab _) (hv _ (by decide) _ rfl (by decide)) rfl
      exact fun ci hci => hfc ci hci

theorem t4_region0 (lb : S2x128.Idx → BitVec 32) (hlab : ∀ r, (labels r).toNat ≤ 12)
    (hlb : ∀ r : Fin 128, lb (ix2 (0 : Fin 2) r) = labels r)
    (c0 c1 : BitVec 32) (k0_t2 : Fin k0_t2_loop.trips) (hp : k0_t2.val % 2 = 0) (v49 : BitVec 32)
    (k : Fin k0_t4_loop.trips) (acc : Unit) :
    inv4_0 (F := F) d L labels lb k.val acc
      ⊢ wp frame (wpE (defs₀ (F := F)) 𝒱₀ (thrL d L) none) Set.univ
          (k0_t4_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 v49 k acc)
          (inv4_0 (F := F) d L labels lb (k.val + 1)) :=
  t4_region (F := F) d L labels _ 0 lb hlab hlb c0 c1 k0_t2 hp v49 k acc (by
    rw [set_lSlotM1, lSlotSet_eq, ← lRect1]; exact load_disj k0_t2 k _ _ (Or.inl (by rw [hp]; exact Nat.le_refl 1)))

theorem t4_region1 (lb : S2x128.Idx → BitVec 32) (hlab : ∀ r, (labels r).toNat ≤ 12)
    (hlb : ∀ r : Fin 128, lb (ix2 (1 : Fin 2) r) = labels r)
    (c0 c1 : BitVec 32) (k0_t2 : Fin k0_t2_loop.trips) (hp : k0_t2.val % 2 = 1) (v49 : BitVec 32)
    (k : Fin k0_t4_loop.trips) (acc : Unit) :
    inv4_1 (F := F) d L labels lb k.val acc
      ⊢ wp frame (wpE (defs₀ (F := F)) 𝒱₀ (thrL d L) none) Set.univ
          (k0_t4_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 c0 c1 k0_t2 v49 k acc)
          (inv4_1 (F := F) d L labels lb (k.val + 1)) :=
  t4_region (F := F) d L labels _ 1 lb hlab hlb c0 c1 k0_t2 hp v49 k acc (by
    rw [set_lSlotM0, lSlotSet_eq, ← lRect0]; exact load_disj k0_t2 k _ _ (Or.inr (by rw [hp]; exact Nat.le_refl 1)))

theorem t4_trips : k0_t4_loop.trips = 8 := by decide

theorem inv4_init (o : Finset S2x128.Idx) (lb : S2x128.Idx → BitVec 32) (fl : S128.Idx → BitVec 32) (fc : S16.Idx → BitVec 32)
    (hfc : ∀ ci : Fin 16, ci.val < 13 → fc (ix1 ci) = 0#32) :
    iprop(((lbufM).view.loc (thrL d L) ↦[Finset.univ \ o]{fullShare} lb)
        ∗ ((mLab).view.loc (thrL d L) ↦{fullShare} fl) ∗ ((mCnt).view.loc (thrL d L) ↦{fullShare} fc) : sProp 𝕄)
      ⊢ inv4 (F := F) d L labels o lb 0 ⟨⟩ := by
  unfold inv4
  iintro ⟨Hlb, Hl, Hc⟩
  isplitl [Hlb]
  · iexact Hlb
  isplitl [Hl]
  · iexists fl
    isplitr
    · ipureintro; intro r hr; exact absurd hr (by omega)
    · iexact Hl
  · iexists fc
    isplitr
    · ipureintro; intro ci hci; rw [hfc ci hci, Nat.mul_zero, Sort.cntUpTo_zero]
    · iexact Hc

theorem inv4_0_init (lb : S2x128.Idx → BitVec 32) (fl : S128.Idx → BitVec 32) (fc : S16.Idx → BitVec 32)
    (hfc : ∀ ci : Fin 16, ci.val < 13 → fc (ix1 ci) = 0#32) :
    iprop(((lbufM).view.loc (thrL d L) ↦[Finset.univ \ (lSlotM1).view.set]{fullShare} lb)
        ∗ ((mLab).view.loc (thrL d L) ↦{fullShare} fl) ∗ ((mCnt).view.loc (thrL d L) ↦{fullShare} fc) : sProp 𝕄)
      ⊢ inv4_0 (F := F) d L labels lb 0 ⟨⟩ :=
  inv4_init (F := F) d L labels _ lb fl fc hfc

theorem inv4_1_init (lb : S2x128.Idx → BitVec 32) (fl : S128.Idx → BitVec 32) (fc : S16.Idx → BitVec 32)
    (hfc : ∀ ci : Fin 16, ci.val < 13 → fc (ix1 ci) = 0#32) :
    iprop(((lbufM).view.loc (thrL d L) ↦[Finset.univ \ (lSlotM0).view.set]{fullShare} lb)
        ∗ ((mLab).view.loc (thrL d L) ↦{fullShare} fl) ∗ ((mCnt).view.loc (thrL d L) ↦{fullShare} fc) : sProp 𝕄)
      ⊢ inv4_1 (F := F) d L labels lb 0 ⟨⟩ :=
  inv4_init (F := F) d L labels _ lb fl fc hfc

theorem lab_exit (fl : S128.Idx → BitVec 32) (h : ∀ r : Fin 128, r.val < 16 * 8 → fl (ix1 r) = labels r) :
    ∀ r : Fin 128, fl (ix1 r) = labels r := fun r => h r (by have := r.isLt; omega)

theorem cnt_exit (fc : S16.Idx → BitVec 32)
    (h : ∀ ci : Fin 16, ci.val < 13 → fc (ix1 ci) = W (Sort.cntUpTo (labN labels) (16 * 8) ci.val)) :
    ∀ ci : Fin 16, ci.val < 13 → fc (ix1 ci) = W (Sort.cnt (labN labels) ci.val) := h

theorem whole128_emb (r : Fin 128) : (Rect.whole S128).emb (ix1 r) = (ix1 r : S128.Idx) := by
  funext a
  obtain rfl : a = 0 := Subsingleton.elim _ _
  refine Fin.ext ?_
  show 0 + 1 * r.val = r.val
  omega

theorem label_slice_read (M : S65536.Idx → BitVec 32) (off : Fin 1 → Nat) (h : ∀ a, off a + S128.size a ≤ S65536.size a)
    (r : Fin 128) :
    ReadAs.same.apply (View.read (Elt F)
        ((Memref.whole main_arg1_scv : Memref sig .scVector .hbm S65536 .i32).slice (Rect.unit (s := S65536) off S128.size h) (fun _ => rfl)).view M) (ix1 r)
      = M (ix1 ⟨off 0 + r.val, by have := h 0; have : off 0 + 128 ≤ 65536 := this; omega⟩) := by
  show M _ = M _
  congr 1
  funext (a : Fin 1)
  obtain rfl : a = 0 := Subsingleton.elim _ _
  refine Fin.ext ?_
  show off 0 + 1 * r.val = off 0 + r.val
  omega

abbrev lSlotM (o₂ : Fin 2 → Nat) (i₂ : ∀ a, o₂ a + S1x128.size a ≤ S2x128.size a) : Memref sig .scVector .vmem S128 .i32 :=
  ((lbufM).slice (Rect.unit (s := S2x128) o₂ S1x128.size i₂) (fun _ => rfl)).squeeze S128 squeezes_S1x128_S128

-- A slot read through its own memref at row `r` is the label buffer at `(p, r)`: the slot is row `p` of the buffer.
theorem read_lSlotM (p : Fin 2) (o₂ : Fin 2 → Nat) (i₂ : ∀ a, o₂ a + S1x128.size a ≤ S2x128.size a) (h0 : o₂ 0 = p.val) (h1 : o₂ 1 = 0)
    (f : S2x128.Idx → BitVec 32) (r : Fin 128) :
    (lSlotM o₂ i₂).view.read (Elt F) f (ix1 r) = f (ix2 p r) := by
  show shapeCast S128 ((lbufM).view.readAt (Elt F) (Rect.unit (s := S2x128) o₂ S1x128.size i₂).toLoadRect f) _ (ix1 r) = _
  rw [shapeCast_apply _ _ (ix1 r) (ix2 0 r) (by
    rw [Shape.rowMajor_val_one, Shape.rowMajor_val_two]; show 0 * 128 + r.val = r.val; omega)]
  rw [View.readAt_apply]
  show f _ = f _
  congr 1
  funext a
  refine Fin.ext ?_
  match a with
  | ⟨0, _⟩ => show o₂ 0 + 1 * 0 = p.val; omega
  | ⟨1, _⟩ => show o₂ 1 + 1 * r.val = r.val; omega

-- Entering the loop with the chunk's labels landed whole in slot `p`: the slot's cells, handed over as the buffer less the other slot's cells `o`, hold row `r`'s label at `(p, r)`.
theorem lslot_entry (p : Fin 2) (o₂ : Fin 2 → Nat) (i₂ : ∀ a, o₂ a + S1x128.size a ≤ S2x128.size a) (h0 : o₂ 0 = p.val) (h1 : o₂ 1 = 0)
    (o : Finset S2x128.Idx)
    (hrest : ∀ f, ((lSlotM o₂ i₂).view.loc (thrL d L) ↦[(lSlotM o₂ i₂).view.set]{fullShare} f : sProp 𝕄)
      ⊢ ((lbufM).view.loc (thrL d L) ↦[Finset.univ \ o]{fullShare} f))
    (M : S65536.Idx → BitVec 32) (hM : ∀ i, (M i).toNat ≤ 12) (g₀ : S2x128.Idx → BitVec 32)
    (pay : S128.Idx → BitVec 32) (off : Fin 1 → Nat) (h : ∀ a, off a + S128.size a ≤ S65536.size a)
    (hpay : pay = ReadAs.same.apply (View.read (Elt F)
      ((Memref.whole main_arg1_scv : Memref sig .scVector .hbm S65536 .i32).slice (Rect.unit (s := S65536) off S128.size h) (fun _ => rfl)).view M)) :
    ((lSlotM o₂ i₂).view.loc (thrL d L) ↦[(lSlotM o₂ i₂).view.set]{fullShare}
        (lSlotM o₂ i₂).view.writes (Elt F) g₀ [⟨Rect.whole S128, pay⟩] : sProp 𝕄)
      ⊢ iprop(∃ (labels : Fin 128 → BitVec 32) (lb : S2x128.Idx → BitVec 32),
          ⌜(∀ r, (labels r).toNat ≤ 12)
            ∧ (∀ r : Fin 128, labels r = M (ix1 ⟨off 0 + r.val, by have := h 0; have : off 0 + 128 ≤ 65536 := this; omega⟩))
            ∧ (∀ r : Fin 128, lb (ix2 p r) = labels r)⌝
          ∗ ((lbufM).view.loc (thrL d L) ↦[Finset.univ \ o]{fullShare} lb)) := by
  iintro H
  iexists (fun r => M (ix1 ⟨off 0 + r.val, by have := h 0; have : off 0 + 128 ≤ 65536 := this; omega⟩))
  iexists _
  isplitr
  rotate_left
  · iapply (hrest _)
    iexact H
  · ipureintro
    refine ⟨fun r => hM _, fun r => rfl, fun r => ?_⟩
    refine (read_lSlotM (F := F) p o₂ i₂ h0 h1 _ r).symm.trans ?_
    have h2 := View.read_writes_cons_emb (Val := Elt F) (lSlotM o₂ i₂).view g₀ (Rect.whole S128) pay [] (ix1 r)
    rw [whole128_emb r] at h2
    rw [h2, hpay]
    exact label_slice_read (F := F) M off h r

theorem lslot_entry_0' (M : S65536.Idx → BitVec 32) (hM : ∀ i, (M i).toNat ≤ 12) (g₀ : S2x128.Idx → BitVec 32)
    (pay : S128.Idx → BitVec 32) (off : Fin 1 → Nat) (h : ∀ a, off a + S128.size a ≤ S65536.size a)
    (hpay : pay = ReadAs.same.apply (View.read (Elt F)
      ((Memref.whole main_arg1_scv : Memref sig .scVector .hbm S65536 .i32).slice (Rect.unit (s := S65536) off S128.size h) (fun _ => rfl)).view M)) :
    ((lSlotM0).view.loc (thrL d L) ↦[(lSlotM0).view.set]{fullShare}
        (lSlotM0).view.writes (Elt F) g₀ [⟨Rect.whole S128, pay⟩] : sProp 𝕄)
      ⊢ iprop(∃ (labels : Fin 128 → BitVec 32) (lb : S2x128.Idx → BitVec 32),
          ⌜(∀ r, (labels r).toNat ≤ 12)
            ∧ (∀ r : Fin 128, labels r = M (ix1 ⟨off 0 + r.val, by have := h 0; have : off 0 + 128 ≤ 65536 := this; omega⟩))
            ∧ (∀ r : Fin 128, lb (ix2 (0 : Fin 2) r) = labels r)⌝
          ∗ ((lbufM).view.loc (thrL d L) ↦[Finset.univ \ (lSlotM1).view.set]{fullShare} lb)) :=
  lslot_entry (F := F) d L 0 ![0, 0] inb_S2x128_S1x128_0_0 rfl rfl _ (lslot0_to_rest (F := F) d _ _) M hM g₀ pay off h hpay

theorem lslot_entry_1' (M : S65536.Idx → BitVec 32) (hM : ∀ i, (M i).toNat ≤ 12) (g₀ : S2x128.Idx → BitVec 32)
    (pay : S128.Idx → BitVec 32) (off : Fin 1 → Nat) (h : ∀ a, off a + S128.size a ≤ S65536.size a)
    (hpay : pay = ReadAs.same.apply (View.read (Elt F)
      ((Memref.whole main_arg1_scv : Memref sig .scVector .hbm S65536 .i32).slice (Rect.unit (s := S65536) off S128.size h) (fun _ => rfl)).view M)) :
    ((lSlotM1).view.loc (thrL d L) ↦[(lSlotM1).view.set]{fullShare}
        (lSlotM1).view.writes (Elt F) g₀ [⟨Rect.whole S128, pay⟩] : sProp 𝕄)
      ⊢ iprop(∃ (labels : Fin 128 → BitVec 32) (lb : S2x128.Idx → BitVec 32),
          ⌜(∀ r, (labels r).toNat ≤ 12)
            ∧ (∀ r : Fin 128, labels r = M (ix1 ⟨off 0 + r.val, by have := h 0; have : off 0 + 128 ≤ 65536 := this; omega⟩))
            ∧ (∀ r : Fin 128, lb (ix2 (1 : Fin 2) r) = labels r)⌝
          ∗ ((lbufM).view.loc (thrL d L) ↦[Finset.univ \ (lSlotM0).view.set]{fullShare} lb)) :=
  lslot_entry (F := F) d L 1 ![1, 0] inb_S2x128_S1x128_1_0 rfl rfl _ (lslot1_to_rest (F := F) d _ _) M hM g₀ pay off h hpay

end Cert.Proof.KI

end
-- ==== Proof.ScClsLoop.lean ====
import proofs.«216278_g4776003633407_cont_8to1_c_644_33_alg».proof.Proof.ScSlots
import proofs.«216278_g4776003633407_cont_8to1_c_644_33_alg».proof.Proof.SortSpec
import proofs.«216278_g4776003633407_cont_8to1_c_644_33_alg».proof.Proof.SortWords
import Idealize.ShloMosaic.Lib.ValueIdx
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)
open Cert.Proof.Sort (W)

variable {F : FTy → Type}

local notation "𝕄" => MT nD τ sig (HIx 1) (Elt F) ℕ UU ℕ

variable (d : Dev nD) (L : grid0.Coords) [FloatOps F]
abbrev thrC (d : Dev nD) (L : grid0.Coords) : Thread nD τ := V d ((L 0).castLE hcore0) ((L 1).castLE hsub0)

abbrev bktM : Memref sig .scVector .smem S128 .i32 := Memref.whole cc0_scratch5
abbrev cntM : Memref sig .scVector .smem S16 .i32 := Memref.whole cc0_scratch6
abbrev offM : Memref sig .scVector .smem S16 .i32 := Memref.whole cc0_scratch7
abbrev afM : Memref sig .scVector .vmem S16x256 .f32 := Memref.whole cc0_scratch2
abbrev axM : Memref sig .scVector .vmem S16x32 .f32 := Memref.whole cc0_scratch3

theorem setOn_fbufM (M : Finset S2x128x256.Idx) : (fbufM).view.setOn M = M := Finset.map_refl

theorem disj_slot1 (off : Fin 3 → Nat) (inb : ∀ a, off a + S1x1x16.size a ≤ S2x128x256.size a) (h0 : off 0 = 0) :
    Disjoint ((fbufM).view.setOn (Rect.unit (s := S2x128x256) off S1x1x16.size inb).set) (fSlotM1).view.set := by
  rw [setOn_fbufM, set_fSlotM1, fSlotSet_eq, ← fRect1]
  exact Rect.unit_disjoint 0 (Or.inl (by rw [h0]; decide))

theorem disj_slot0 (off : Fin 3 → Nat) (inb : ∀ a, off a + S1x1x16.size a ≤ S2x128x256.size a) (h0 : off 0 = 1) :
    Disjoint ((fbufM).view.setOn (Rect.unit (s := S2x128x256) off S1x1x16.size inb).set) (fSlotM0).view.set := by
  rw [setOn_fbufM, set_fSlotM0, fSlotSet_eq, ← fRect0]
  exact Rect.unit_disjoint 0 (Or.inr (by rw [h0]; decide))

/-- The slot coordinate of every piece's offset is the parity of the chunk's trip. -/
theorem slot_first : ∀ k0_t2 : Fin k0_t2_loop.trips, k0_off65 k0_t2 0#32 0 = k0_t2.val % 2 := by decide +kernel
theorem off65_first : ∀ (k0_t2 : Fin k0_t2_loop.trips) (w : BitVec 32), k0_off65 k0_t2 w 0 = k0_t2.val % 2 := fun k _ => slot_first k
theorem off66_first : ∀ (k0_t2 : Fin k0_t2_loop.trips) (w : BitVec 32), k0_off66 k0_t2 w 0 = k0_t2.val % 2 := fun k _ => slot_first k
theorem off67_first : ∀ (k0_t2 : Fin k0_t2_loop.trips) (w : BitVec 32), k0_off67 k0_t2 w 0 = k0_t2.val % 2 := fun k _ => slot_first k
theorem off68_first : ∀ (k0_t2 : Fin k0_t2_loop.trips) (w : BitVec 32), k0_off68 k0_t2 w 0 = k0_t2.val % 2 := fun k _ => slot_first k
theorem off69_first : ∀ (k0_t2 : Fin k0_t2_loop.trips) (w : BitVec 32), k0_off69 k0_t2 w 0 = k0_t2.val % 2 := fun k _ => slot_first k
theorem off70_first : ∀ (k0_t2 : Fin k0_t2_loop.trips) (w : BitVec 32), k0_off70 k0_t2 w 0 = k0_t2.val % 2 := fun k _ => slot_first k
theorem off71_first : ∀ (k0_t2 : Fin k0_t2_loop.trips) (w : BitVec 32), k0_off71 k0_t2 w 0 = k0_t2.val % 2 := fun k _ => slot_first k
theorem off72_first : ∀ (k0_t2 : Fin k0_t2_loop.trips) (w : BitVec 32), k0_off72 k0_t2 w 0 = k0_t2.val % 2 := fun k _ => slot_first k
theorem off73_first : ∀ (k0_t2 : Fin k0_t2_loop.trips) (w : BitVec 32), k0_off73 k0_t2 w 0 = k0_t2.val % 2 := fun k _ => slot_first k
theorem off74_first : ∀ (k0_t2 : Fin k0_t2_loop.trips) (w : BitVec 32), k0_off74 k0_t2 w 0 = k0_t2.val % 2 := fun k _ => slot_first k
theorem off75_first : ∀ (k0_t2 : Fin k0_t2_loop.trips) (w : BitVec 32), k0_off75 k0_t2 w 0 = k0_t2.val % 2 := fun k _ => slot_first k
theorem off76_first : ∀ (k0_t2 : Fin k0_t2_loop.trips) (w : BitVec 32), k0_off76 k0_t2 w 0 = k0_t2.val % 2 := fun k _ => slot_first k
theorem off77_first : ∀ (k0_t2 : Fin k0_t2_loop.trips) (w : BitVec 32), k0_off77 k0_t2 w 0 = k0_t2.val % 2 := fun k _ => slot_first k
theorem off78_first : ∀ (k0_t2 : Fin k0_t2_loop.trips) (w : BitVec 32), k0_off78 k0_t2 w 0 = k0_t2.val % 2 := fun k _ => slot_first k
theorem off79_first : ∀ (k0_t2 : Fin k0_t2_loop.trips) (w : BitVec 32), k0_off79 k0_t2 w 0 = k0_t2.val % 2 := fun k _ => slot_first k
theorem off80_first : ∀ (k0_t2 : Fin k0_t2_loop.trips) (w : BitVec 32), k0_off80 k0_t2 w 0 = k0_t2.val % 2 := fun k _ => slot_first k

/-- The `j`-th 16-lane piece of a row below 128 of either slot lies inside the buffer. -/
theorem piece_inb {off : Fin 3 → Nat} {n : ℕ} (j : Fin 16) (h0 : off 0 = n % 2) (h1 : off 1 < 128) (h2 : off 2 = 16 * j.val) :
    ∀ a, off a + S1x1x16.size a ≤ S2x128x256.size a := fun a => match a with
  | ⟨0, _⟩ => by show off 0 + 1 ≤ 2; omega
  | ⟨1, _⟩ => by show off 1 + 1 ≤ 128; omega
  | ⟨2, _⟩ => by show off 2 + 16 ≤ 256; omega

theorem chk21_of (k0_t2 : Fin k0_t2_loop.trips) (w : BitVec 32) (hw : w.toNat < 128) : k0_chk21 k0_t2 w :=
  ⟨piece_inb 0 (off65_first k0_t2 w) hw rfl,
   piece_inb 1 (off66_first k0_t2 w) hw rfl,
   piece_inb 2 (off67_first k0_t2 w) hw rfl,
   piece_inb 3 (off68_first k0_t2 w) hw rfl,
   piece_inb 4 (off69_first k0_t2 w) hw rfl,
   piece_inb 5 (off70_first k0_t2 w) hw rfl,
   piece_inb 6 (off71_first k0_t2 w) hw rfl,
   piece_inb 7 (off72_first k0_t2 w) hw rfl,
   piece_inb 8 (off73_first k0_t2 w) hw rfl,
   piece_inb 9 (off74_first k0_t2 w) hw rfl,
   piece_inb 10 (off75_first k0_t2 w) hw rfl,
   piece_inb 11 (off76_first k0_t2 w) hw rfl,
   piece_inb 12 (off77_first k0_t2 w) hw rfl,
   piece_inb 13 (off78_first k0_t2 w) hw rfl,
   piece_inb 14 (off79_first k0_t2 w) hw rfl,
   piece_inb 15 (off80_first k0_t2 w) hw rfl⟩

theorem t8_trips_W : ∀ c : Fin 129, (k0_t8_loop (W c.val)).trips = c.val := by decide +kernel

theorem iv01 (k : ℕ) : Scf.iv (0#32) (1#32) k = W k := by
  unfold Scf.iv; rw [BitVec.mul_one, BitVec.zero_add]

theorem off64_W (c o : ℕ) (k : Fin (k0_t8_loop (W c)).trips) : k0_off64 (W c) (W o) k = ![(W (o + k.val)).toNat] := by
  show ![((W o) + Scf.iv (0#32) (1#32) k.val).toNat] = _
  rw [iv01, Sort.W_add]

theorem chk20_W {c o : ℕ} (h : o + c ≤ 128) : k0_chk20 (W c) (W o) := by
  refine ⟨fun k a => ?_, fun k => absurd k.isLt (by have := (k0_t9_abs (W c)).2.1; omega)⟩
  have hk : k.val < c := by
    have h1 := t8_trips_W ⟨c, by omega⟩
    have h2 := k.isLt
    simp only at h1
    omega
  rw [off64_W]
  obtain rfl : a = 0 := Subsingleton.elim _ _
  show (W (o + k.val)).toNat + 1 ≤ 128
  rw [Sort.W_toNat (by omega)]
  omega

theorem t7_trips : k0_t7_loop.trips = 13 := by decide +kernel

def cell16 (k : Fin k0_t7_loop.trips) : Fin 16 := ⟨k.val, by have := k.isLt; have e := t7_trips; omega⟩

theorem readCnt_at (f : S16.Idx → BitVec 32) (k : Fin k0_t7_loop.trips) (h1 : 0 < S1.numel) :
    (cntM).view.readAt (Elt F) (Rect.unit (s := S16) (k0_off63 k) S1.size (k0_off63_inb k)).toLoadRect f (Shape.Idx.first h1)
      = f (ix1 (cell16 k)) := by
  show f _ = f _
  congr 1
  refine funext fun (a : Fin 1) => ?_
  obtain rfl : a = 0 := Subsingleton.elim _ _
  apply Fin.ext
  show k0_off63 k 0 + 1 * 0 = k.val
  rw [k0_off63_eq]
  rfl

theorem readOff_at (f : S16.Idx → BitVec 32) (k : Fin k0_t7_loop.trips) (h1 : 0 < S1.numel) :
    (offM).view.readAt (Elt F) (Rect.unit (s := S16) (k0_off63 k) S1.size (k0_off63_inb k)).toLoadRect f (Shape.Idx.first h1)
      = f (ix1 (cell16 k)) := by
  show f _ = f _
  congr 1
  refine funext fun (a : Fin 1) => ?_
  obtain rfl : a = 0 := Subsingleton.elim _ _
  apply Fin.ext
  show k0_off63 k 0 + 1 * 0 = k.val
  rw [k0_off63_eq]
  rfl

theorem chk20_at (fc fo : S16.Idx → BitVec 32) (k : Fin k0_t7_loop.trips) (h1 h1' : 0 < S1.numel) {c o : ℕ}
    (hc : fc (ix1 (cell16 k)) = W c) (ho : fo (ix1 (cell16 k)) = W o) (h : o + c ≤ 128) :
    k0_chk20
      ((cntM).view.readAt (Elt F) (Rect.unit (s := S16) (k0_off63 k) S1.size (k0_off63_inb k)).toLoadRect fc (Shape.Idx.first h1))
      ((offM).view.readAt (Elt F) (Rect.unit (s := S16) (k0_off63 k) S1.size (k0_off63_inb k)).toLoadRect fo (Shape.Idx.first h1')) := by
  rw [readCnt_at, readOff_at, hc, ho]
  exact chk20_W h

theorem bucket_cells (lab : Fin 128 → ℕ) (hlab : ∀ r, lab r ≤ 12) (fb : S128.Idx → BitVec 32)
    (hfb : ∀ r : Fin 128, fb (ix1 ⟨Sort.pos lab r, Sort.pos_lt lab hlab r⟩) = W r.val) (q : S128.Idx) :
    ∃ r : Fin 128, fb q = W r.val := by
  obtain ⟨r, hr⟩ := (Sort.posFin_bijective lab hlab).2 (q 0)
  refine ⟨r, ?_⟩
  have e : q = ix1 (Sort.posFin lab hlab r) := by rw [hr]; exact ValueIdx.eq_ix1 q
  rw [e]
  exact hfb r

theorem bucket_lt (lab : Fin 128 → ℕ) (hlab : ∀ r, lab r ≤ 12) (fb : S128.Idx → BitVec 32)
    (hfb : ∀ r : Fin 128, fb (ix1 ⟨Sort.pos lab r, Sort.pos_lt lab hlab r⟩) = W r.val) (q : S128.Idx) :
    (fb q).toNat < 128 := by
  obtain ⟨r, hr⟩ := bucket_cells lab hlab fb hfb q
  rw [hr, Sort.W_toNat (by have := r.isLt; omega)]
  exact r.isLt

def inv8 (X : Finset S2x128x256.Idx) (fb : S128.Idx → BitVec 32) (f0 : Buf (Elt F) ((fbufM).view.loc (thrC d L))) (_ : Nat)
    (_ : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(((bktM).view.loc (thrC d L) ↦{fullShare} fb) ∗ ((fbufM).view.loc (thrC d L) ↦[Finset.univ \ X]{fullShare} f0))

def inv8s0 (fb : S128.Idx → BitVec 32) (f0 : Buf (Elt F) ((fbufM).view.loc (thrC d L))) (_ : Nat)
    (_ : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(((bktM).view.loc (thrC d L) ↦{fullShare} fb) ∗ ((fbufM).view.loc (thrC d L) ↦[Finset.univ \ (fSlotM1).view.set]{fullShare} f0))

def inv8s1 (fb : S128.Idx → BitVec 32) (f0 : Buf (Elt F) ((fbufM).view.loc (thrC d L))) (_ : Nat)
    (_ : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : sProp 𝕄 :=
  iprop(((bktM).view.loc (thrC d L) ↦{fullShare} fb) ∗ ((fbufM).view.loc (thrC d L) ↦[Finset.univ \ (fSlotM0).view.set]{fullShare} f0))

/-- Every piece read in a trip begins in the slot of the trip's parity, hence off `X`; the rest is the frame. -/
theorem t8_region (X : Finset S2x128x256.Idx) (fb : S128.Idx → BitVec 32) (f0 : Buf (Elt F) ((fbufM).view.loc (thrC d L)))
    (v3 : FVec F S16 .f32) (k0_t2 : Fin k0_t2_loop.trips)
    (hd : ∀ (off : Fin 3 → Nat) (inb : ∀ a, off a + S1x1x16.size a ≤ S2x128x256.size a), off 0 = k0_t2.val % 2 →
      Disjoint ((fbufM).view.setOn (Rect.unit (s := S2x128x256) off S1x1x16.size inb).set) X)
    (v49 : BitVec 32) (c0 c1 : BitVec 32) (k0_t7 : Fin k0_t7_loop.trips)
    (v77 : BitVec 32) (hw19 : k0_chk19 v77) (v79 : BitVec 32) (hw20 : k0_chk20 v77 v79)
    (hfb : ∀ q : S128.Idx, k0_chk21 k0_t2 (fb q))
    (k : Fin (k0_t8_loop v77).trips) (acc) :
    inv8 (F := F) d L X fb f0 k.val acc
      ⊢ wp frame (wpE (defs₀ (F := F)) 𝒱₀ (thrC d L) none) Set.univ
          (k0_t8_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v3 k0_t2 v49 c0 c1 k0_t7 v77 hw19 v79 hw20 k acc)
          (inv8 (F := F) d L X fb f0 (k.val + 1)) := by
  unfold inv8 k0_t8_body
  iintro ⟨Hb, Hf⟩
  sl_exec (disch := exact hd _ _ (slot_first k0_t2))
  sl_step
  iframe

/-- The tail loop makes no trip. -/
theorem t9_none {P : Prop} {v : BitVec 32} (k : Fin (k0_t9_loop v).trips) : P :=
  absurd k.isLt (by have := (k0_t9_abs v).2.1; omega)

def inv7 (X : Finset S2x128x256.Idx) (fc fo : S16.Idx → BitVec 32) (fb : S128.Idx → BitVec 32) (f0 : Buf (Elt F) ((fbufM).view.loc (thrC d L))) (_ : Nat) (_ : Unit) : sProp 𝕄 :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ X]{fullShare} f0)
    ∗ (∃ g, (afM).view.loc (thrC d L) ↦{fullShare} g) ∗ (∃ g, (axM).view.loc (thrC d L) ↦{fullShare} g))

def inv7s0 (fc fo : S16.Idx → BitVec 32) (fb : S128.Idx → BitVec 32) (f0 : Buf (Elt F) ((fbufM).view.loc (thrC d L))) (_ : Nat) (_ : Unit) : sProp 𝕄 :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM1).view.set]{fullShare} f0)
    ∗ (∃ g, (afM).view.loc (thrC d L) ↦{fullShare} g) ∗ (∃ g, (axM).view.loc (thrC d L) ↦{fullShare} g))

def inv7s1 (fc fo : S16.Idx → BitVec 32) (fb : S128.Idx → BitVec 32) (f0 : Buf (Elt F) ((fbufM).view.loc (thrC d L))) (_ : Nat) (_ : Unit) : sProp 𝕄 :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM0).view.set]{fullShare} f0)
    ∗ (∃ g, (afM).view.loc (thrC d L) ↦{fullShare} g) ∗ (∃ g, (axM).view.loc (thrC d L) ↦{fullShare} g))

theorem inv7_intro (X : Finset S2x128x256.Idx) (fc fo : S16.Idx → BitVec 32) (fb : S128.Idx → BitVec 32) (f0 : Buf (Elt F) ((fbufM).view.loc (thrC d L)))
    (a : Buf (Elt F) ((afM).view.loc (thrC d L))) (b : Buf (Elt F) ((axM).view.loc (thrC d L))) (n : Nat) (u : Unit) :
    iprop(((cntM).view.loc (thrC d L) ↦{fullShare} fc) ∗ ((offM).view.loc (thrC d L) ↦{fullShare} fo) ∗ ((bktM).view.loc (thrC d L) ↦{fullShare} fb)
      ∗ ((fbufM).view.loc (thrC d L) ↦[Finset.univ \ X]{fullShare} f0)
      ∗ ((afM).view.loc (thrC d L) ↦{fullShare} a) ∗ ((axM).view.loc (thrC d L) ↦{fullShare} b))
      ⊢ inv7 (F := F) d L X fc fo fb f0 n u := by
  unfold inv7
  iintro ⟨Hc, Ho, Hb, Hf, Ha, Hx⟩
  iframe
  isplitl [Ha]
  · iexists _; iexact Ha
  · iexists _; iexact Hx

theorem t7_region (X : Finset S2x128x256.Idx) (lab : Fin 128 → ℕ) (hlab : ∀ r, lab r ≤ 12) (fc fo : S16.Idx → BitVec 32) (fb : S128.Idx → BitVec 32)
    (f0 : Buf (Elt F) ((fbufM).view.loc (thrC d L)))
    (hfc : ∀ ci : Fin 16, ci.val < 13 → fc (ix1 ci) = W (Sort.cnt lab ci.val))
    (hfo : ∀ ci : Fin 16, ci.val < 13 → fo (ix1 ci) = W (Sort.off lab ci.val))
    (hfb : ∀ r : Fin 128, fb (ix1 ⟨Sort.pos lab r, Sort.pos_lt lab hlab r⟩) = W r.val)
    (v2 : BitVec 32) (v3 : FVec F S16 .f32) (k0_t2 : Fin k0_t2_loop.trips)
    (hd : ∀ (off : Fin 3 → Nat) (inb : ∀ a, off a + S1x1x16.size a ≤ S2x128x256.size a), off 0 = k0_t2.val % 2 →
      Disjoint ((fbufM).view.setOn (Rect.unit (s := S2x128x256) off S1x1x16.size inb).set) X)
    (v49 : BitVec 32)
    (k : Fin k0_t7_loop.trips) (acc : Unit) :
    inv7 (F := F) d L X fc fo fb f0 k.val acc
      ⊢ wp frame (wpE (defs₀ (F := F)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7 (F := F) d L X fc fo fb f0 (k.val + 1)) := by
  have hk13 : (cell16 k).val < 13 := by have := k.isLt; have e := t7_trips; show k.val < 13; omega
  have hfb21 : ∀ q : S128.Idx, k0_chk21 k0_t2 (fb q) := fun q => chk21_of k0_t2 (fb q) (bucket_lt lab hlab fb hfb q)
  unfold inv7 k0_t7_body
  iintro ⟨Hc, Ho, Hb, Hf, ⟨%ga, Ha⟩, ⟨%gx, Hx⟩⟩
  sl_exec (disch := exact chk20_at fc fo k _ _ (hfc _ hk13) (hfo _ hk13) (Sort.off_add_cnt_le lab hlab (by omega)))
  sl_for (inv8 (F := F) d L X fb f0) $$ [Hb Hf]
  case region =>
    intro k' acc'
    exact t8_region (F := F) d L X fb f0 v3 k0_t2 hd v49 _ _ k _ _ _ _ hfb21 k' acc'
  · unfold inv8; iframe
  iintro %acc1 HI
  unfold inv8
  icases HI with ⟨Hb, Hf⟩
  sl_exec
  sl_for (inv8 (F := F) d L X fb f0) $$ [Hb Hf]
  case region =>
    intro k' acc'
    exact t9_none k'
  · unfold inv8; iframe
  iintro %acc2 HI
  unfold inv8
  icases HI with ⟨Hb, Hf⟩
  sl_exec
  sl_step
  iframe
  isplitl [Ha]
  · iexists _; iexact Ha
  · iexists _; iexact Hx

theorem t7_region0 (lab : Fin 128 → ℕ) (hlab : ∀ r, lab r ≤ 12) (fc fo : S16.Idx → BitVec 32) (fb : S128.Idx → BitVec 32)
    (f0 : Buf (Elt F) ((fbufM).view.loc (thrC d L)))
    (hfc : ∀ ci : Fin 16, ci.val < 13 → fc (ix1 ci) = W (Sort.cnt lab ci.val))
    (hfo : ∀ ci : Fin 16, ci.val < 13 → fo (ix1 ci) = W (Sort.off lab ci.val))
    (hfb : ∀ r : Fin 128, fb (ix1 ⟨Sort.pos lab r, Sort.pos_lt lab hlab r⟩) = W r.val)
    (v2 : BitVec 32) (v3 : FVec F S16 .f32) (k0_t2 : Fin k0_t2_loop.trips) (hp : k0_t2.val % 2 = 0) (v49 : BitVec 32)
    (k : Fin k0_t7_loop.trips) (acc : Unit) :
    inv7s0 (F := F) d L fc fo fb f0 k.val acc
      ⊢ wp frame (wpE (defs₀ (F := F)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7s0 (F := F) d L fc fo fb f0 (k.val + 1)) :=
  t7_region (F := F) d L _ lab hlab fc fo fb f0 hfc hfo hfb v2 v3 k0_t2 (fun off inb h => disj_slot1 off inb (h.trans hp)) v49 k acc

theorem t7_region1 (lab : Fin 128 → ℕ) (hlab : ∀ r, lab r ≤ 12) (fc fo : S16.Idx → BitVec 32) (fb : S128.Idx → BitVec 32)
    (f0 : Buf (Elt F) ((fbufM).view.loc (thrC d L)))
    (hfc : ∀ ci : Fin 16, ci.val < 13 → fc (ix1 ci) = W (Sort.cnt lab ci.val))
    (hfo : ∀ ci : Fin 16, ci.val < 13 → fo (ix1 ci) = W (Sort.off lab ci.val))
    (hfb : ∀ r : Fin 128, fb (ix1 ⟨Sort.pos lab r, Sort.pos_lt lab hlab r⟩) = W r.val)
    (v2 : BitVec 32) (v3 : FVec F S16 .f32) (k0_t2 : Fin k0_t2_loop.trips) (hp : k0_t2.val % 2 = 1) (v49 : BitVec 32)
    (k : Fin k0_t7_loop.trips) (acc : Unit) :
    inv7s1 (F := F) d L fc fo fb f0 k.val acc
      ⊢ wp frame (wpE (defs₀ (F := F)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7s1 (F := F) d L fc fo fb f0 (k.val + 1)) :=
  t7_region (F := F) d L _ lab hlab fc fo fb f0 hfc hfo hfb v2 v3 k0_t2 (fun off inb h => disj_slot0 off inb (h.trans hp)) v49 k acc

theorem inv7s0_intro (fc fo : S16.Idx → BitVec 32) (fb : S128.Idx → BitVec 32) (f0 : Buf (Elt F) ((fbufM).view.loc (thrC d L)))
    (a : Buf (Elt F) ((afM).view.loc (thrC d L))) (b : Buf (Elt F) ((axM).view.loc (thrC d L))) (n : Nat) (u : Unit) :
    iprop(((cntM).view.loc (thrC d L) ↦{fullShare} fc) ∗ ((offM).view.loc (thrC d L) ↦{fullShare} fo) ∗ ((bktM).view.loc (thrC d L) ↦{fullShare} fb)
      ∗ ((fbufM).view.loc (thrC d L) ↦[Finset.univ \ (fSlotM1).view.set]{fullShare} f0)
      ∗ ((afM).view.loc (thrC d L) ↦{fullShare} a) ∗ ((axM).view.loc (thrC d L) ↦{fullShare} b))
      ⊢ inv7s0 (F := F) d L fc fo fb f0 n u :=
  inv7_intro (F := F) d L _ fc fo fb f0 a b n u

theorem inv7s1_intro (fc fo : S16.Idx → BitVec 32) (fb : S128.Idx → BitVec 32) (f0 : Buf (Elt F) ((fbufM).view.loc (thrC d L)))
    (a : Buf (Elt F) ((afM).view.loc (thrC d L))) (b : Buf (Elt F) ((axM).view.loc (thrC d L))) (n : Nat) (u : Unit) :
    iprop(((cntM).view.loc (thrC d L) ↦{fullShare} fc) ∗ ((offM).view.loc (thrC d L) ↦{fullShare} fo) ∗ ((bktM).view.loc (thrC d L) ↦{fullShare} fb)
      ∗ ((fbufM).view.loc (thrC d L) ↦[Finset.univ \ (fSlotM0).view.set]{fullShare} f0)
      ∗ ((afM).view.loc (thrC d L) ↦{fullShare} a) ∗ ((axM).view.loc (thrC d L) ↦{fullShare} b))
      ⊢ inv7s1 (F := F) d L fc fo fb f0 n u :=
  inv7_intro (F := F) d L _ fc fo fb f0 a b n u

end Cert.Proof.KI

end
-- ==== Proof.ScEnd.lean ====
import proofs.«216278_g4776003633407_cont_8to1_c_644_33_alg».proof.Proof.ScOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords) [FloatOps F]

section Pieces
variable (c : Fin τ.nSC) (i : Fin τ.nSub)

theorem fbuf_join (fa fb : Buf (Elt F) ((fbufM).view.loc (V d c i))) :
    iprop(((fSlotM0).view.loc (V d c i) ↦[(fSlotM0).view.set]{fullShare} fa) ∗ ((fSlotM1).view.loc (V d c i) ↦[(fSlotM1).view.set]{fullShare} fb))
      ⊢ ((V d c i).loc cc0_scratch0 ↦{fullShare} ((fSlotSet 1).piecewise fb fa) : sProp 𝕄) := by
  have h : iprop(((fbufM).view.loc (V d c i) ↦[fSlotSet 0]{fullShare} fa) ∗ ((fbufM).view.loc (V d c i) ↦[fSlotSet 1]{fullShare} fb))
      ⊢ ((fbufM).view.loc (V d c i) ↦[fSlotSet 0 ∪ fSlotSet 1]{fullShare} ((fSlotSet 1).piecewise fb fa) : sProp 𝕄) :=
    pointsTo_join (fSlots_disjoint 0 (Finset.mem_univ _) 1 (Finset.mem_univ _) (by decide))
  rw [fSlots_union] at h
  rw [set_fSlotM0, set_fSlotM1]
  exact h

theorem lbuf_join (la lb : Buf (Elt F) ((lbufM).view.loc (V d c i))) :
    iprop(((lSlotM0).view.loc (V d c i) ↦[(lSlotM0).view.set]{fullShare} la) ∗ ((lSlotM1).view.loc (V d c i) ↦[(lSlotM1).view.set]{fullShare} lb))
      ⊢ ((V d c i).loc cc0_scratch1 ↦{fullShare} ((lSlotSet 1).piecewise lb la) : sProp 𝕄) := by
  have h : iprop(((lbufM).view.loc (V d c i) ↦[lSlotSet 0]{fullShare} la) ∗ ((lbufM).view.loc (V d c i) ↦[lSlotSet 1]{fullShare} lb))
      ⊢ ((lbufM).view.loc (V d c i) ↦[lSlotSet 0 ∪ lSlotSet 1]{fullShare} ((lSlotSet 1).piecewise lb la) : sProp 𝕄) :=
    pointsTo_join (lSlots_disjoint 0 (Finset.mem_univ _) 1 (Finset.mem_univ _) (by decide))
  rw [lSlots_union] at h
  rw [set_lSlotM0, set_lSlotM1]
  exact h

end Pieces

theorem waits_insert {W W₁ : Waits sig (HIx 1)} (h : ∀ p ∈ W₁, p ∈ W ∨ p.2 = none) (sm : SemLoc sig) :
    ∀ p ∈ insert (sm, (default : HIx 1)) W₁, p ∈ W ∨ p.2 = none := by
  intro p hp
  rcases Finset.mem_insert.mp hp with h' | hp
  · exact Or.inr (by rw [h']; rfl)
  · exact h p hp

theorem outF_back (f : Buf (Elt F) (oFLoc d)) :
    ((outFM L).view.loc (V d (cV L) (jV L)) ↦[(outFM L).view.set]{fullShare} f : sProp 𝕄) ⊢ (oFLoc d ↦[blkFSet (widL L)]{fullShare} f) :=
  Entails.of_eq (by rw [set_outFM])
theorem outA_back (f : Buf (Elt F) (oALoc d)) :
    ((outAM L).view.loc (V d (cV L) (jV L)) ↦[(outAM L).view.set]{fullShare} f : sProp 𝕄) ⊢ (oALoc d ↦[blkASet (widL L)]{fullShare} f) :=
  Entails.of_eq (by rw [set_outAM])

def taskEndA (L : grid0.Coords) : Prog (TpuEff nD τ sig (Elt F) Λ₀ (.scVector ((L 0).castLE hcore0) ((L 1).castLE hsub0))) PUnit := do
  Prog.lift (.enqueueDma (Memref.whole cc0_scratch2 : Memref sig .scVector .vmem S16x256 .f32) (.here (outFM L)) (.dma (cc0_scoped0 : DmaSems sig S_).sem) (Memref.isWhole_whole _).wordExact ((View.wordExact_bits rfl).reshape _ _) ⟨Or.inl rfl, trivial⟩)
  Prog.lift (.waitDma2 (cc0_scoped0 : DmaSems sig S_).sem (Memref.whole cc0_scratch2 : Memref sig .scVector .vmem S16x256 .f32) (outFM L) (Memref.isWhole_whole _).wordExact ((View.wordExact_bits rfl).reshape _ _))
  Prog.lift (.enqueueDma (Memref.whole cc0_scratch3 : Memref sig .scVector .vmem S16x32 .f32) (.here (outAM L)) (.dma (cc0_scoped1 : DmaSems sig S_).sem) (Memref.isWhole_whole _).wordExact ((View.wordExact_bits rfl).reshape _ _) ⟨Or.inl rfl, trivial⟩)
  pure ⟨⟩

def taskEndB (L : grid0.Coords) : Prog (TpuEff nD τ sig (Elt F) Λ₀ (.scVector ((L 0).castLE hcore0) ((L 1).castLE hsub0))) PUnit := do
  Prog.lift (.waitDma2 (cc0_scoped1 : DmaSems sig S_).sem (Memref.whole cc0_scratch3 : Memref sig .scVector .vmem S16x32 .f32) (outAM L) (Memref.isWhole_whole _).wordExact ((View.wordExact_bits rfl).reshape _ _))
  pure ⟨⟩

def endPre (L : grid0.Coords)
    (a2 : Buf (Elt F) ((Memref.whole cc0_scratch2 : Memref sig .scVector .vmem S16x256 .f32).view.loc (V d (cV L) (jV L))))
    (a3 : Buf (Elt F) ((Memref.whole cc0_scratch3 : Memref sig .scVector .vmem S16x32 .f32).view.loc (V d (cV L) (jV L))))
    (fa fb : Buf (Elt F) ((fbufM).view.loc (V d (cV L) (jV L)))) (la lb : Buf (Elt F) ((lbufM).view.loc (V d (cV L) (jV L))))
    (c4 : Buf (Elt F) ((Memref.whole cc0_scratch4 : Memref sig .scVector .smem S128 .i32).view.loc (V d (cV L) (jV L))))
    (c5 : Buf (Elt F) ((Memref.whole cc0_scratch5 : Memref sig .scVector .smem S128 .i32).view.loc (V d (cV L) (jV L))))
    (c6 : Buf (Elt F) ((Memref.whole cc0_scratch6 : Memref sig .scVector .smem S16 .i32).view.loc (V d (cV L) (jV L))))
    (c7 : Buf (Elt F) ((Memref.whole cc0_scratch7 : Memref sig .scVector .smem S16 .i32).view.loc (V d (cV L) (jV L))))
    (c8 : Buf (Elt F) ((Memref.whole cc0_scratch8 : Memref sig .scVector .smem S16 .i32).view.loc (V d (cV L) (jV L)))) : sProp 𝕄 :=
  iprop(((oFLoc d ↦[blkFSet (widL L)]{fullShare} m (oFLoc d)) ∗ (oALoc d ↦[blkASet (widL L)]{fullShare} m (oALoc d)))
    ∗ (((Memref.whole cc0_scratch2 : Memref sig .scVector .vmem S16x256 .f32).view.loc (V d (cV L) (jV L)) ↦{fullShare} a2)
      ∗ ((Memref.whole cc0_scratch3 : Memref sig .scVector .vmem S16x32 .f32).view.loc (V d (cV L) (jV L)) ↦{fullShare} a3))
    ∗ (((fSlotM0).view.loc (V d (cV L) (jV L)) ↦[(fSlotM0).view.set]{fullShare} fa) ∗ ((fSlotM1).view.loc (V d (cV L) (jV L)) ↦[(fSlotM1).view.set]{fullShare} fb)
      ∗ ((lSlotM0).view.loc (V d (cV L) (jV L)) ↦[(lSlotM0).view.set]{fullShare} la) ∗ ((lSlotM1).view.loc (V d (cV L) (jV L)) ↦[(lSlotM1).view.set]{fullShare} lb))
    ∗ (((Memref.whole cc0_scratch4 : Memref sig .scVector .smem S128 .i32).view.loc (V d (cV L) (jV L)) ↦{fullShare} c4)
      ∗ ((Memref.whole cc0_scratch5 : Memref sig .scVector .smem S128 .i32).view.loc (V d (cV L) (jV L)) ↦{fullShare} c5)
      ∗ ((Memref.whole cc0_scratch6 : Memref sig .scVector .smem S16 .i32).view.loc (V d (cV L) (jV L)) ↦{fullShare} c6)
      ∗ ((Memref.whole cc0_scratch7 : Memref sig .scVector .smem S16 .i32).view.loc (V d (cV L) (jV L)) ↦{fullShare} c7)
      ∗ ((Memref.whole cc0_scratch8 : Memref sig .scVector .smem S16 .i32).view.loc (V d (cV L) (jV L)) ↦{fullShare} c8))
    ∗ (((Memref.whole main_arg0_scv : Memref sig .scVector .hbm S65536x256 .f32).view.loc (V d (cV L) (jV L)) ↦{Transfers.shareDrop (qTile (widL L)) 4} m (xLoc d))
      ∗ ((Memref.whole main_arg0_scv : Memref sig .scVector .hbm S65536x256 .f32).view.loc (V d (cV L) (jV L)) ↦{Transfers.shareTok (qTile (widL L)) 4 (0 : Fin 4)} m (xLoc d))
      ∗ ((Memref.whole main_arg0_scv : Memref sig .scVector .hbm S65536x256 .f32).view.loc (V d (cV L) (jV L)) ↦{Transfers.shareTok (qTile (widL L)) 4 (1 : Fin 4)} m (xLoc d))
      ∗ ((Memref.whole main_arg0_scv : Memref sig .scVector .hbm S65536x256 .f32).view.loc (V d (cV L) (jV L)) ↦{Transfers.shareTok (qTile (widL L)) 4 (2 : Fin 4)} m (xLoc d))
      ∗ ((Memref.whole main_arg0_scv : Memref sig .scVector .hbm S65536x256 .f32).view.loc (V d (cV L) (jV L)) ↦{Transfers.shareTok (qTile (widL L)) 4 (3 : Fin 4)} m (xLoc d)))
    ∗ (((Memref.whole main_arg1_scv : Memref sig .scVector .hbm S65536 .i32).view.loc (V d (cV L) (jV L)) ↦{Transfers.shareDrop (qTile (widL L)) 4} m (lLoc d))
      ∗ ((Memref.whole main_arg1_scv : Memref sig .scVector .hbm S65536 .i32).view.loc (V d (cV L) (jV L)) ↦{Transfers.shareTok (qTile (widL L)) 4 (0 : Fin 4)} m (lLoc d))
      ∗ ((Memref.whole main_arg1_scv : Memref sig .scVector .hbm S65536 .i32).view.loc (V d (cV L) (jV L)) ↦{Transfers.shareTok (qTile (widL L)) 4 (1 : Fin 4)} m (lLoc d))
      ∗ ((Memref.whole main_arg1_scv : Memref sig .scVector .hbm S65536 .i32).view.loc (V d (cV L) (jV L)) ↦{Transfers.shareTok (qTile (widL L)) 4 (2 : Fin 4)} m (lLoc d))
      ∗ ((Memref.whole main_arg1_scv : Memref sig .scVector .hbm S65536 .i32).view.loc (V d (cV L) (jV L)) ↦{Transfers.shareTok (qTile (widL L)) 4 (3 : Fin 4)} m (lLoc d)))
    ∗ (semVal ((V d (cV L) (jV L)), .dma 0) 0 ∗ semVal ((V d (cV L) (jV L)), .dma 1) 0 ∗ semVal ((V d (cV L) (jV L)), .dma 2) 0 ∗ semVal ((V d (cV L) (jV L)), .dma 3) 0
      ∗ semVal ((V d (cV L) (jV L)), .dma 4) 0 ∗ semVal ((V d (cV L) (jV L)), .dma 5) 0)
    ∗ (bigSep (ownRefs (τ := τ) (.scVector (cV L) (jV L)) \ scrRefs.map (devEmb (cV L) (jV L))) fun b => iprop(∃ f, ((d, b) : Loc nD τ sig) ↦{fullShare} f))
    ∗ (bigSep (ownCells (V d (cV L) (jV L)) \ scrSems.map (thrEmb (V d (cV L) (jV L)))) fun g => semVal g 0))

def endPost (L : grid0.Coords) (O : CellTallies nD τ sig (HIx 1)) (W : Waits sig (HIx 1)) : sProp 𝕄 :=
  iprop(tileTd m d (widL L)
    ∗ (((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f) ∗ (∃ f, (V d (cV L) (jV L)).loc cc0_scratch7 ↦{fullShare} f)
          ∗ (∃ f, (V d (cV L) (jV L)).loc cc0_scratch8 ↦{fullShare} f))
          ∗ bigSep (ownRefs (τ := τ) (.scVector (cV L) (jV L)) \ scrRefs.map (devEmb (cV L) (jV L))) fun b => iprop(∃ f, ((d, b) : Loc nD τ sig) ↦{fullShare} f))
    ∗ ((semVal ((V d (cV L) (jV L)), .dma 0) 0 ∗ semVal ((V d (cV L) (jV L)), .dma 1) 0 ∗ semVal ((V d (cV L) (jV L)), .dma 2) 0 ∗ semVal ((V d (cV L) (jV L)), .dma 3) 0
          ∗ semVal ((V d (cV L) (jV L)), .dma 4) 0 ∗ semVal ((V d (cV L) (jV L)), .dma 5) 0)
          ∗ bigSep (ownCells (V d (cV L) (jV L)) \ scrSems.map (thrEmb (V d (cV L) (jV L)))) fun g => semVal g 0)
    ∗ ∃ W'', ⌜∀ p ∈ W'', p ∈ W ∨ p.2 = none⌝ ∗ owes (V d (cV L) (jV L)) O W'')

theorem task_end (O : CellTallies nD τ sig (HIx 1)) (W : Waits sig (HIx 1))
    (a2) (a3) (fa fb) (la lb) (c4) (c5) (c6) (c7) (c8) :
    iprop(□ (Transfers.MayWaits (V d (cV L) (jV L)) (none : HIx 1) O : sProp 𝕄) ∗ endPre m d L a2 a3 fa fb la lb c4 c5 c6 c7 c8
        ∗ ∃ W', ⌜∀ p ∈ W', p ∈ W ∨ p.2 = none⌝ ∗ owes (V d (cV L) (jV L)) O W')
      ⊢ wp frame (wpE (defs₀ (F := F)) 𝒱₀ (V d (cV L) (jV L)) none) Set.univ (taskEndA (F := F) L) fun _ =>
          wp frame (wpE (defs₀ (F := F)) 𝒱₀ (V d (cV L) (jV L)) none) Set.univ (taskEndB (F := F) L) fun _ => endPost m d L O W := by
  unfold taskEndA taskEndB endPre
  iintro ⟨#Hmw, ⟨⟨HoF, HoA⟩, ⟨Hb2, Hb3⟩, ⟨Hf0, Hf1, Hl0, Hl1⟩, ⟨Hb4, Hb5, Hb6, Hb7, Hb8⟩, ⟨Hxr, Hx0, Hx1, Hx2, Hx3⟩, ⟨Hlr, Hlt0, Hlt1, Hlt2, Hlt3⟩,
    ⟨Hs0, Hs1, Hs2, Hs3, Hs4, Hs5⟩, Hbufs, Hsems⟩, ⟨%W', %hW', HO⟩⟩
  ihave HoF := (Entails.of_eq (show (oFLoc d ↦[blkFSet (widL L)]{fullShare} m (oFLoc d) : sProp 𝕄) = ((outFM L).view.loc (V d (cV L) (jV L)) ↦[(outFM L).view.set]{fullShare} m (oFLoc d)) from by rw [set_outFM])) $$ HoF
  ihave HoA := (Entails.of_eq (show (oALoc d ↦[blkASet (widL L)]{fullShare} m (oALoc d) : sProp 𝕄) = ((outAM L).view.loc (V d (cV L) (jV L)) ↦[(outAM L).view.set]{fullShare} m (oALoc d)) from by rw [set_outAM])) $$ HoA
  sl_exec
  sl_step
  unfold endPost tileTd

  isplitl [Hxr Hx0 Hx1 Hx2 Hx3 Hlr Hlt0 Hlt1 Hlt2 Hlt3 HoF HoA]
  · isplitl [Hxr Hx0 Hx1 Hx2 Hx3]
    · iapply (Transfers.pointsTo_toks_join (qTile (widL L)) 4)
      rw [bigSep_W1]
      isplitl [Hxr]; · iexact Hxr
      isplitl [Hx0]; · iexact Hx0
      isplitl [Hx1]; · iexact Hx1
      isplitl [Hx2]; · iexact Hx2
      iexact Hx3
    isplitl [Hlr Hlt0 Hlt1 Hlt2 Hlt3]
    · iapply (Transfers.pointsTo_toks_join (qTile (widL L)) 4)
      rw [bigSep_W1]
      isplitl [Hlr]; · iexact Hlr
      isplitl [Hlt0]; · iexact Hlt0
      isplitl [Hlt1]; · iexact Hlt1
      isplitl [Hlt2]; · iexact Hlt2
      iexact Hlt3
    isplitl [HoF]
    · iexists _; iapply (outF_back (F := F) d L _); iexact HoF
    · iexists _; iapply (outA_back (F := F) d L _); iexact HoA

  isplitl [Hf0 Hf1 Hl0 Hl1 Hb2 Hb3 Hb4 Hb5 Hb6 Hb7 Hb8 Hbufs]
  · isplitr [Hbufs]
    · isplitl [Hf0 Hf1]
      · iexists _; iapply (fbuf_join (F := F) d (cV L) (jV L) fa fb); isplitl [Hf0] <;> iassumption
      isplitl [Hl0 Hl1]
      · iexists _; iapply (lbuf_join (F := F) d (cV L) (jV L) la lb); isplitl [Hl0] <;> iassumption
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      iexists _; iexact Hb8
    · iexact Hbufs

  isplitl [Hs0 Hs1 Hs2 Hs3 Hs4 Hs5 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      iexact Hs5
    · iexact Hsems

  iexists _
  isplitr
  swap
  · iexact HO
  ipureintro
  exact waits_insert (waits_insert hW' _) _

end Cert.Proof.KI

end
-- ==== Proof.ScZero.lean ====
import proofs.«216278_g4776003633407_cont_8to1_c_644_33_alg».proof.Proof.ScOut
import Idealize.ShloMosaic.Lib.ValueIdx
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (d : Dev nD) (L : grid0.Coords) [FloatOps F]

abbrev af0 : Memref sig .scVector .vmem S16x256 .f32 := Memref.whole cc0_scratch2
abbrev ax0 : Memref sig .scVector .vmem S16x32 .f32 := Memref.whole cc0_scratch3

abbrev zeroW : F .f32 := Scalar.ofBits .f32 0x00000000#32

def invZv (k : Nat) (_ : Unit) : sProp 𝕄 :=
  iprop(∃ (a : S16x256.Idx → F .f32) (b : S16x32.Idx → F .f32),
    ⌜∀ r : Fin 16, r.val < k → (∀ j, a (ix2 r j) = zeroW) ∧ (∀ l, b (ix2 r l) = zeroW)⌝
    ∗ ((af0).view.loc (V d (cV L) (jV L)) ↦{fullShare} a) ∗ ((ax0).view.loc (V d (cV L) (jV L)) ↦{fullShare} b))

section Const
variable {sig' : RefSig} {κ : Kind} {sp : Space} {s : Shape} {e : EltTy} {Val : EltTy → Type}

theorem read_writes_const (v : View sig' κ sp s e) (f : v.ty.Contents Val) (z : Val e) :
    ∀ (Ls : List (View.Piece Val s e)), (∀ p ∈ Ls, ∀ y, p.2 y = z) → ∀ x : s.Idx,
      (v.read Val f x = z ∨ ∃ p ∈ Ls, x ∈ p.1.set) → v.read Val (v.writes Val f Ls) x = z
  | [], _, x, hx => by
    rcases hx with h | ⟨p, hp, _⟩
    · exact h
    · exact absurd hp List.not_mem_nil
  | p :: Ls, hL, x, hx => by
    by_cases hm : x ∈ p.1.set
    · obtain ⟨r, w⟩ := p
      obtain ⟨y, rfl⟩ : ∃ y, r.emb y = x := r.exists_idx_of_mem hm
      rw [View.read_writes_cons_emb]
      exact hL ⟨r, w⟩ List.mem_cons_self y
    · have hm' : x ∉ Finset.univ.map p.1.emb := by rwa [Rect.map_emb_univ]
      rw [View.writes_cons, View.read_slice_write_of_not_mem p.1 _ _ _ hm']
      refine read_writes_const v f z Ls (fun q hq => hL q (List.mem_cons_of_mem _ hq)) x ?_
      rcases hx with h | ⟨q, hq, hxq⟩
      · exact .inl h
      · rcases List.mem_cons.mp hq with rfl | hq
        · exact absurd hxq hm
        · exact .inr ⟨q, hq, hxq⟩

theorem mem_row16 {R C : ℕ} (off : Fin 2 → Nat)
    (inb : ∀ a, off a + (⟨2, ![1, 16]⟩ : Shape).size a ≤ (⟨2, ![R, C]⟩ : Shape).size a) (r : Fin R) (j : Fin C)
    (h0 : off 0 = r.val) (h1 : off 1 ≤ j.val) (h2 : j.val < off 1 + 16) :
    (ix2 r j : (⟨2, ![R, C]⟩ : Shape).Idx) ∈ (Rect.unit (s := (⟨2, ![R, C]⟩ : Shape)) off (⟨2, ![1, 16]⟩ : Shape).size inb).set := by
  rw [Rect.mem_set_unit]
  intro a
  match a with
  | ⟨0, _⟩ => show off 0 ≤ r.val ∧ r.val < off 0 + 1; omega
  | ⟨1, _⟩ => show off 1 ≤ j.val ∧ j.val < off 1 + 16; omega

end Const

theorem read_af0 (g : S16x256.Idx → F .f32) : (af0).view.read (Elt F) g = g := rfl
theorem read_ax0 (g : S16x32.Idx → F .f32) : (ax0).view.read (Elt F) g = g := rfl

set_option maxHeartbeats 8000000 in

theorem t1_region (k : Fin k0_t1_loop.trips) (acc : Unit) :
    invZv (F := F) d L k.val acc
      ⊢ wp frame (wpE (defs₀ (F := F)) 𝒱₀ (V d (cV L) (jV L)) none) Set.univ
          (k0_t1_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 k acc)
          (invZv (F := F) d L (k.val + 1)) := by
  unfold invZv k0_t1_body
  iintro ⟨%a, %b, %hab, Ha, Hb⟩
  sl_exec
  sl_step
  iexists _
  iexists _
  isplitr; swap
  · isplitl [Ha]
    · iexact Ha
    · iexact Hb
  ipureintro
  intro r hr
  refine ⟨fun j => ?_, fun l => ?_⟩
  · refine (congrFun (read_af0 (F := F) _) (ix2 r j)).symm.trans
      (read_writes_const (Val := Elt F) (af0).view a (zeroW (F := F)) _ (fun p hp y => ?_) (ix2 r j) ?_)
    · simp only [List.mem_cons, List.mem_nil_iff, _root_.or_false] at hp
      rcases hp with rfl | rfl | rfl | rfl | rfl | rfl | rfl | rfl | rfl | rfl | rfl | rfl | rfl | rfl | rfl | rfl <;> rfl
    · by_cases hrk : r.val = k.val
      swap
      · exact .inl ((hab r (by omega)).1 j)
      by_cases c1 : j.val < 16
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_row16 (k0_off1 k) (k0_off1_inb k) r j (by rw [k0_off1_eq k]; exact hrk.symm) (by rw [k0_off1_eq k]; show 0 ≤ j.val; omega) (by rw [k0_off1_eq k]; show j.val < 0 + 16; omega)⟩
      by_cases c2 : j.val < 32
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_row16 (k0_off2 k) (k0_off2_inb k) r j (by rw [k0_off2_eq k]; exact hrk.symm) (by rw [k0_off2_eq k]; show 16 ≤ j.val; omega) (by rw [k0_off2_eq k]; show j.val < 16 + 16; omega)⟩
      by_cases c3 : j.val < 48
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_row16 (k0_off3 k) (k0_off3_inb k) r j (by rw [k0_off3_eq k]; exact hrk.symm) (by rw [k0_off3_eq k]; show 32 ≤ j.val; omega) (by rw [k0_off3_eq k]; show j.val < 32 + 16; omega)⟩
      by_cases c4 : j.val < 64
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_row16 (k0_off4 k) (k0_off4_inb k) r j (by rw [k0_off4_eq k]; exact hrk.symm) (by rw [k0_off4_eq k]; show 48 ≤ j.val; omega) (by rw [k0_off4_eq k]; show j.val < 48 + 16; omega)⟩
      by_cases c5 : j.val < 80
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_row16 (k0_off5 k) (k0_off5_inb k) r j (by rw [k0_off5_eq k]; exact hrk.symm) (by rw [k0_off5_eq k]; show 64 ≤ j.val; omega) (by rw [k0_off5_eq k]; show j.val < 64 + 16; omega)⟩
      by_cases c6 : j.val < 96
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_row16 (k0_off6 k) (k0_off6_inb k) r j (by rw [k0_off6_eq k]; exact hrk.symm) (by rw [k0_off6_eq k]; show 80 ≤ j.val; omega) (by rw [k0_off6_eq k]; show j.val < 80 + 16; omega)⟩
      by_cases c7 : j.val < 112
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_row16 (k0_off7 k) (k0_off7_inb k) r j (by rw [k0_off7_eq k]; exact hrk.symm) (by rw [k0_off7_eq k]; show 96 ≤ j.val; omega) (by rw [k0_off7_eq k]; show j.val < 96 + 16; omega)⟩
      by_cases c8 : j.val < 128
      · exact .inr ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_row16 (k0_off8 k) (k0_off8_inb k) r j (by rw [k0_off8_eq k]; exact hrk.symm) (by rw [k0_off8_eq k]; show 112 ≤ j.val; omega) (by rw [k0_off8_eq k]; show j.val < 112 + 16; omega)⟩
      by_cases c9 : j.val < 144
      · exact .inr ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_row16 (k0_off9 k) (k0_off9_inb k) r j (by rw [k0_off9_eq k]; exact hrk.symm) (by rw [k0_off9_eq k]; show 128 ≤ j.val; omega) (by rw [k0_off9_eq k]; show j.val < 128 + 16; omega)⟩
      by_cases c10 : j.val < 160
      · exact .inr ⟨_, (List.mem_cons_of_mem _ (List.mem_cons_of_mem _ (List.mem_cons_of_mem _ (List.mem_cons_of_mem _ (List.mem_cons_of_mem _ (List.mem_cons_of_mem _ List.mem_cons_self)))))), mem_row16 (k0_off10 k) (k0_off10_inb k) r j (by rw [k0_off10_eq k]; exact hrk.symm) (by rw [k0_off10_eq k]; show 144 ≤ j.val; omega) (by rw [k0_off10_eq k]; show j.val < 144 + 16; omega)⟩
      by_cases c11 : j.val < 176
      · exact .inr ⟨_, (List.mem_cons_of_mem _ (List.mem_cons_of_mem _ (List.mem_cons_of_mem _ (List.mem_cons_of_mem _ (List.mem_cons_of_mem _ List.mem_cons_self))))), mem_row16 (k0_off11 k) (k0_off11_inb k) r j (by rw [k0_off11_eq k]; exact hrk.symm) (by rw [k0_off11_eq k]; show 160 ≤ j.val; omega) (by rw [k0_off11_eq k]; show j.val < 160 + 16; omega)⟩
      by_cases c12 : j.val < 192
      · exact .inr ⟨_, (List.mem_cons_of_mem _ (List.mem_cons_of_mem _ (List.mem_cons_of_mem _ (List.mem_cons_of_mem _ List.mem_cons_self)))), mem_row16 (k0_off12 k) (k0_off12_inb k) r j (by rw [k0_off12_eq k]; exact hrk.symm) (by rw [k0_off12_eq k]; show 176 ≤ j.val; omega) (by rw [k0_off12_eq k]; show j.val < 176 + 16; omega)⟩
      by_cases c13 : j.val < 208
      · exact .inr ⟨_, (List.mem_cons_of_mem _ (List.mem_cons_of_mem _ (List.mem_cons_of_mem _ List.mem_cons_self))), mem_row16 (k0_off13 k) (k0_off13_inb k) r j (by rw [k0_off13_eq k]; exact hrk.symm) (by rw [k0_off13_eq k]; show 192 ≤ j.val; omega) (by rw [k0_off13_eq k]; show j.val < 192 + 16; omega)⟩
      by_cases c14 : j.val < 224
      · exact .inr ⟨_, (List.mem_cons_of_mem _ (List.mem_cons_of_mem _ List.mem_cons_self)), mem_row16 (k0_off14 k) (k0_off14_inb k) r j (by rw [k0_off14_eq k]; exact hrk.symm) (by rw [k0_off14_eq k]; show 208 ≤ j.val; omega) (by rw [k0_off14_eq k]; show j.val < 208 + 16; omega)⟩
      by_cases c15 : j.val < 240
      · exact .inr ⟨_, (List.mem_cons_of_mem _ List.mem_cons_self), mem_row16 (k0_off15 k) (k0_off15_inb k) r j (by rw [k0_off15_eq k]; exact hrk.symm) (by rw [k0_off15_eq k]; show 224 ≤ j.val; omega) (by rw [k0_off15_eq k]; show j.val < 224 + 16; omega)⟩
      exact .inr ⟨_, List.mem_cons_self, mem_row16 (k0_off16 k) (k0_off16_inb k) r j (by rw [k0_off16_eq k]; exact hrk.symm) (by rw [k0_off16_eq k]; show 240 ≤ j.val; omega) (by rw [k0_off16_eq k]; show j.val < 240 + 16; omega)⟩
  · refine (congrFun (read_ax0 (F := F) _) (ix2 r l)).symm.trans
      (read_writes_const (Val := Elt F) (ax0).view b (zeroW (F := F)) _ (fun p hp y => ?_) (ix2 r l) ?_)
    · simp only [List.mem_cons, List.mem_nil_iff, _root_.or_false] at hp
      rcases hp with rfl | rfl <;> rfl
    · by_cases hrk : r.val = k.val
      swap
      · exact .inl ((hab r (by omega)).2 l)
      by_cases c1 : l.val < 16
      · exact .inr ⟨_, (List.mem_cons_of_mem _ List.mem_cons_self), mem_row16 (k0_off17 k) (k0_off17_inb k) r l (by rw [k0_off17_eq k]; exact hrk.symm) (by rw [k0_off17_eq k]; show 0 ≤ l.val; omega) (by rw [k0_off17_eq k]; show l.val < 0 + 16; omega)⟩
      exact .inr ⟨_, List.mem_cons_self, mem_row16 (k0_off18 k) (k0_off18_inb k) r l (by rw [k0_off18_eq k]; exact hrk.symm) (by rw [k0_off18_eq k]; show 16 ≤ l.val; omega) (by rw [k0_off18_eq k]; show l.val < 16 + 16; omega)⟩

theorem invZv_init (a : S16x256.Idx → F .f32) (b : S16x32.Idx → F .f32) :
    iprop(((af0).view.loc (V d (cV L) (jV L)) ↦{fullShare} a) ∗ ((ax0).view.loc (V d (cV L) (jV L)) ↦{fullShare} b))
      ⊢ invZv (F := F) d L 0 () := by
  unfold invZv
  iintro ⟨Ha, Hb⟩
  iexists a; iexists b
  isplitr
  · ipureintro; intro r hr; exact absurd hr (Nat.not_lt_zero _)
  isplitl [Ha] <;> iassumption

theorem invZv_exit (u : Unit) :
    invZv (F := F) d L 16 u
      ⊢ iprop(((af0).view.loc (V d (cV L) (jV L)) ↦{fullShare} (fun _ => zeroW (F := F)))
        ∗ ((ax0).view.loc (V d (cV L) (jV L)) ↦{fullShare} (fun _ => zeroW (F := F)))) := by
  unfold invZv
  iintro ⟨%a, %b, %hab, Ha, Hb⟩
  have ha : a = fun _ => zeroW (F := F) := funext fun i => by
    rw [ValueIdx.eq_ix2 i]; exact (hab (i 0) (i 0).isLt).1 (i 1)
  have hb : b = fun _ => zeroW (F := F) := funext fun i => by
    rw [ValueIdx.eq_ix2 i]; exact (hab (i 0) (i 0).isLt).2 (i 1)
  subst ha; subst hb
  isplitl [Ha] <;> iassumption

end Cert.Proof.KI

end
-- ==== Proof.ScValEntry.lean ====
import proofs.«216278_g4776003633407_cont_8to1_c_644_33_alg».proof.Proof.ScOut
import proofs.«216278_g4776003633407_cont_8to1_c_644_33_alg».proof.Proof.ScSlots
import proofs.«216278_g4776003633407_cont_8to1_c_644_33_alg».proof.Proof.KSpecLemmas
import Idealize.ShloMosaic.Lib.Pipeline.Value
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type}

local notation "𝕄" => MT nD τ sig (HIx 1) (Elt F) ℕ UU ℕ

theorem t2_trips : k0_t2_loop.trips = 8 := by decide

def featOff (L : grid0.Coords) (g : Fin 8) : Fin 2 → Nat :=
  if g.val = 0 then k0_off19 L 0#32
  else if g.val = 1 then k0_off19 L 128#32
  else k0_off117 L ⟨g.val - 2, by rw [t2_trips]; omega⟩

def labOff (L : grid0.Coords) (g : Fin 8) : Fin 1 → Nat :=
  if g.val = 0 then k0_off20 L 0#32
  else if g.val = 1 then k0_off20 L 128#32
  else k0_off120 L ⟨g.val - 2, by rw [t2_trips]; omega⟩

theorem featOff_eq (L : grid0.Coords) (g : Fin 8) : featOff L g = ![1024 * (widL L).val + 128 * g.val, 0] := by
  have hw : (widL L).val = (L 1).val * 2 + (L 0).val := rfl
  unfold featOff
  split
  · next h =>
    rw [show (0#32 : BitVec 32) = BitVec.ofNat 32 (128 * (0 : Fin 2).val) from rfl, k0_off19_eq, hw, h]
    congr 1; show 2048 * (L 1).val + 1024 * (L 0).val + 128 * 0 = _; omega
  · split
    · next h =>
      rw [show (128#32 : BitVec 32) = BitVec.ofNat 32 (128 * (1 : Fin 2).val) from rfl, k0_off19_eq, hw, h]
      congr 1; show 2048 * (L 1).val + 1024 * (L 0).val + 128 * 1 = _; omega
    · next h0 h1 =>
      rw [k0_off117_eq, hw]
      congr 1; show 2048 * (L 1).val + 1024 * (L 0).val + 128 * (g.val - 2) + 256 = _; omega

theorem labOff_eq (L : grid0.Coords) (g : Fin 8) : labOff L g = ![1024 * (widL L).val + 128 * g.val] := by
  have hw : (widL L).val = (L 1).val * 2 + (L 0).val := rfl
  unfold labOff
  split
  · next h =>
    rw [show (0#32 : BitVec 32) = BitVec.ofNat 32 (128 * (0 : Fin 2).val) from rfl, k0_off20_eq, hw, h]
    congr 1; show 2048 * (L 1).val + 1024 * (L 0).val + 128 * 0 = _; omega
  · split
    · next h =>
      rw [show (128#32 : BitVec 32) = BitVec.ofNat 32 (128 * (1 : Fin 2).val) from rfl, k0_off20_eq, hw, h]
      congr 1; show 2048 * (L 1).val + 1024 * (L 0).val + 128 * 1 = _; omega
    · next h0 h1 =>
      rw [k0_off120_eq, hw]
      congr 1; show 2048 * (L 1).val + 1024 * (L 0).val + 128 * (g.val - 2) + 256 = _; omega

theorem featOff_zero (L : grid0.Coords) (g : Fin 8) : featOff L g 0 = 1024 * (widL L).val + 128 * g.val := by rw [featOff_eq]; rfl
theorem featOff_one (L : grid0.Coords) (g : Fin 8) : featOff L g 1 = 0 := by rw [featOff_eq]; rfl
theorem labOff_zero (L : grid0.Coords) (g : Fin 8) : labOff L g 0 = 1024 * (widL L).val + 128 * g.val := by rw [labOff_eq]; rfl

-- Reading row `r`, feature `j` of the window at slot `s` of the feature buffer is reading cell `(s, r, j)`.
theorem slot_read (s : Fin 2) (inb : ∀ a, (![s.val, 0, 0] : Fin 3 → ℕ) a + S1x128x256.size a ≤ S2x128x256.size a)
    (hc : (Rect.unit (s := S2x128x256) ![s.val, 0, 0] S1x128x256.size inb).shape.ShapeCasts S128x256)
    (f : S2x128x256.Idx → Elt F .f32) (r : Fin 128) (j : Fin 256) :
    shapeCast S128x256 ((fbufM).view.readAt (Elt F)
      (Rect.unit (s := S2x128x256) ![s.val, 0, 0] S1x128x256.size inb).toLoadRect f) hc (ix2 r j) = f (ix3 s r j) := by
  rw [shapeCast_apply _ _ (ix2 r j) (ix3 0 r j) (by
    rw [Shape.rowMajor_val_three, Shape.rowMajor_val_two]; show (0 * 128 + r.val) * 256 + j.val = r.val * 256 + j.val; omega)]
  rw [View.readAt_apply]
  show f _ = f _
  congr 1
  funext a
  refine Fin.ext ?_
  match a with
  | ⟨0, _⟩ => show s.val + 1 * 0 = s.val; omega
  | ⟨1, _⟩ => show 0 + 1 * r.val = r.val; omega
  | ⟨2, _⟩ => show 0 + 1 * j.val = j.val; omega

theorem read_fSlotM0 (f : S2x128x256.Idx → Elt F .f32) (r : Fin 128) (j : Fin 256) :
    (fSlotM0).view.read (Elt F) f (ix2 r j) = f (ix3 (0 : Fin 2) r j) :=
  slot_read 0 inb_S2x128x256_S1x128x256_0_0_0 (by decide) f r j

theorem read_fSlotM1 (f : S2x128x256.Idx → Elt F .f32) (r : Fin 128) (j : Fin 256) :
    (fSlotM1).view.read (Elt F) f (ix2 r j) = f (ix3 (1 : Fin 2) r j) :=
  slot_read 1 inb_S2x128x256_S1x128x256_1_0_0 (by decide) f r j

theorem whole128x256_emb (r : Fin 128) (j : Fin 256) : (Rect.whole S128x256).emb (ix2 r j) = (ix2 r j : S128x256.Idx) := by
  funext a
  refine Fin.ext ?_
  match a with
  | ⟨0, _⟩ => show 0 + 1 * r.val = r.val; omega
  | ⟨1, _⟩ => show 0 + 1 * j.val = j.val; omega

theorem fslot0_landed (g₀ : S2x128x256.Idx → Elt F .f32) (pay : S128x256.Idx → Elt F .f32) (r : Fin 128) (j : Fin 256) :
    ((fSlotM0).view.writes (Elt F) g₀ [⟨Rect.whole S128x256, pay⟩]) (ix3 (0 : Fin 2) r j) = pay (ix2 r j) := by
  have e := read_fSlotM0 (F := F) ((fSlotM0).view.writes (Elt F) g₀ [⟨Rect.whole S128x256, pay⟩]) r j
  rw [← e]
  have h2 := View.read_writes_cons_emb (Val := Elt F) (fSlotM0).view g₀ (Rect.whole S128x256) pay [] (ix2 r j)
  rw [whole128x256_emb r j] at h2
  exact h2

theorem fslot1_landed (g₀ : S2x128x256.Idx → Elt F .f32) (pay : S128x256.Idx → Elt F .f32) (r : Fin 128) (j : Fin 256) :
    ((fSlotM1).view.writes (Elt F) g₀ [⟨Rect.whole S128x256, pay⟩]) (ix3 (1 : Fin 2) r j) = pay (ix2 r j) := by
  have e := read_fSlotM1 (F := F) ((fSlotM1).view.writes (Elt F) g₀ [⟨Rect.whole S128x256, pay⟩]) r j
  rw [← e]
  have h2 := View.read_writes_cons_emb (Val := Elt F) (fSlotM1).view g₀ (Rect.whole S128x256) pay [] (ix2 r j)
  rw [whole128x256_emb r j] at h2
  exact h2

theorem feat_slice_read (M : S65536x256.Idx → Elt F .f32) (off : Fin 2 → Nat) (h : ∀ a, off a + S128x256.size a ≤ S65536x256.size a)
    (h1 : off 1 = 0) (r : Fin 128) (j : Fin 256) :
    ReadAs.same.apply (View.read (Elt F)
        ((Memref.whole main_arg0_scv : Memref sig .scVector .hbm S65536x256 .f32).slice (Rect.unit (s := S65536x256) off S128x256.size h) (fun _ => rfl)).view M) (ix2 r j)
      = M (ix2 ⟨off 0 + r.val, by have := h 0; have : off 0 + 128 ≤ 65536 := this; omega⟩ j) := by
  show M _ = M _
  congr 1
  funext a
  refine Fin.ext ?_
  match a with
  | ⟨0, _⟩ => show off 0 + 1 * r.val = off 0 + r.val; omega
  | ⟨1, _⟩ => show off 1 + 1 * j.val = j.val; omega

variable (d : Dev nD) (L : grid0.Coords)

theorem fslot_entry_0' (M : S65536x256.Idx → Elt F .f32) (g₀ : S2x128x256.Idx → Elt F .f32) (pay : S128x256.Idx → Elt F .f32)
    (off : Fin 2 → Nat) (h : ∀ a, off a + S128x256.size a ≤ S65536x256.size a) (h1 : off 1 = 0)
    (hpay : pay = ReadAs.same.apply (View.read (Elt F)
      ((Memref.whole main_arg0_scv : Memref sig .scVector .hbm S65536x256 .f32).slice (Rect.unit (s := S65536x256) off S128x256.size h) (fun _ => rfl)).view M)) :
    ((fSlotM0).view.loc (V d (cV L) (jV L)) ↦[(fSlotM0).view.set]{fullShare} (fSlotM0).view.writes (Elt F) g₀ [⟨Rect.whole S128x256, pay⟩] : sProp 𝕄)
      ⊢ iprop(∃ fbc : S2x128x256.Idx → Elt F .f32,
          ⌜∀ (r : Fin 128) (j : Fin 256), fbc (ix3 (0 : Fin 2) r j) = M (ix2 ⟨off 0 + r.val, by have := h 0; have : off 0 + 128 ≤ 65536 := this; omega⟩ j)⌝
          ∗ ((fbufM).view.loc (V d (cV L) (jV L)) ↦[Finset.univ \ (fSlotM1).view.set]{fullShare} fbc)) := by
  iintro H
  iexists _
  isplitr
  rotate_left
  · iapply (fslot0_to_rest (F := F) d _ _ _)
    iexact H
  · ipureintro
    intro r j
    rw [fslot0_landed, hpay]
    exact feat_slice_read (F := F) M off h h1 r j

theorem fslot_entry_1' (M : S65536x256.Idx → Elt F .f32) (g₀ : S2x128x256.Idx → Elt F .f32) (pay : S128x256.Idx → Elt F .f32)
    (off : Fin 2 → Nat) (h : ∀ a, off a + S128x256.size a ≤ S65536x256.size a) (h1 : off 1 = 0)
    (hpay : pay = ReadAs.same.apply (View.read (Elt F)
      ((Memref.whole main_arg0_scv : Memref sig .scVector .hbm S65536x256 .f32).slice (Rect.unit (s := S65536x256) off S128x256.size h) (fun _ => rfl)).view M)) :
    ((fSlotM1).view.loc (V d (cV L) (jV L)) ↦[(fSlotM1).view.set]{fullShare} (fSlotM1).view.writes (Elt F) g₀ [⟨Rect.whole S128x256, pay⟩] : sProp 𝕄)
      ⊢ iprop(∃ fbc : S2x128x256.Idx → Elt F .f32,
          ⌜∀ (r : Fin 128) (j : Fin 256), fbc (ix3 (1 : Fin 2) r j) = M (ix2 ⟨off 0 + r.val, by have := h 0; have : off 0 + 128 ≤ 65536 := this; omega⟩ j)⌝
          ∗ ((fbufM).view.loc (V d (cV L) (jV L)) ↦[Finset.univ \ (fSlotM0).view.set]{fullShare} fbc)) := by
  iintro H
  iexists _
  isplitr
  rotate_left
  · iapply (fslot1_to_rest (F := F) d _ _ _)
    iexact H
  · ipureintro
    intro r j
    rw [fslot1_landed, hpay]
    exact feat_slice_read (F := F) M off h h1 r j

end Cert.Proof.KI

end
-- ==== Proof.ScMath.lean ====
import proofs.«216278_g4776003633407_cont_8to1_c_644_33_alg».proof.Proof.KSpec
import proofs.«216278_g4776003633407_cont_8to1_c_644_33_alg».proof.Proof.KSpecLemmas
import proofs.«216278_g4776003633407_cont_8to1_c_644_33_alg».proof.Proof.SortSpec
import proofs.«216278_g4776003633407_cont_8to1_c_644_33_alg».proof.Proof.LibReal
import Mathlib.Data.EReal.Operations
import Mathlib.Algebra.BigOperators.Group.Finset.Basic
import Mathlib.Algebra.BigOperators.Fin
import Mathlib.Logic.Equiv.Fin.Basic

noncomputable section

namespace Cert.Proof.Spec

open Idealize.ShloMosaic
open scoped BigOperators

section UpTo

variable {M : Type*} [AddCommMonoid M]

def upTo8 (c : Fin 8 → M) (n : ℕ) : M := ∑ g : Fin 8, if g.val < n then c g else 0

theorem upTo8_zero (c : Fin 8 → M) : upTo8 c 0 = 0 := by
  unfold upTo8
  exact Finset.sum_eq_zero fun g _ => if_neg (Nat.not_lt_zero _)

theorem upTo8_succ (c : Fin 8 → M) (g : Fin 8) : upTo8 c (g.val + 1) = upTo8 c g.val + c g := by
  unfold upTo8
  have h : ∀ g' : Fin 8, (if g'.val < g.val + 1 then c g' else 0)
      = (if g'.val < g.val then c g' else 0) + (if g' = g then c g' else 0) := by
    intro g'
    by_cases h1 : g'.val < g.val
    · have h2 : g' ≠ g := fun hh => by rw [hh] at h1; exact lt_irrefl _ h1
      rw [if_pos h1, if_pos (by omega), if_neg h2, add_zero]
    · by_cases h2 : g' = g
      · rw [if_neg h1, if_pos h2, if_pos (by rw [h2]; omega), zero_add]
      · have : g'.val ≠ g.val := fun hh => h2 (Fin.ext hh)
        rw [if_neg h1, if_neg h2, if_neg (by omega), add_zero]
  rw [Finset.sum_congr rfl fun g' _ => h g', Finset.sum_add_distrib, Finset.sum_ite_eq', if_pos (Finset.mem_univ _)]

theorem upTo8_eight (c : Fin 8 → M) : upTo8 c 8 = ∑ g : Fin 8, c g := by
  unfold upTo8
  exact Finset.sum_congr rfl fun g _ => if_pos g.isLt

end UpTo

def piece4 (q m : Fin 4) : Fin 16 := ⟨4 * q.val + m.val, by omega⟩

@[simp] theorem piece4_val (q m : Fin 4) : (piece4 q m).val = 4 * q.val + m.val := rfl

theorem sum16_by4 {M : Type*} [AddCommMonoid M] (h : Fin 16 → M) :
    ∑ k : Fin 16, h k
      = ((∑ q : Fin 4, h (piece4 q 0)) + ∑ q : Fin 4, h (piece4 q 1))
        + ((∑ q : Fin 4, h (piece4 q 2)) + ∑ q : Fin 4, h (piece4 q 3)) := by
  have h2 := (finProdFinEquiv (m := 4) (n := 4)).sum_comp (fun i : Fin (4 * 4) => h i)
  rw [Fintype.sum_prod_type, Finset.sum_comm] at h2
  have e : ∀ (m q : Fin 4), (finProdFinEquiv (m := 4) (n := 4) (q, m)) = piece4 q m := by
    intro m q
    apply Fin.ext
    show m.val + 4 * q.val = 4 * q.val + m.val
    omega
  simp only [e] at h2
  rw [← h2, Fin.sum_univ_four, add_assoc, add_assoc]

theorem sum_rows_by4 {ι M : Type*} [AddCommMonoid M] (s : Finset ι) (f : ι → Fin 16 → M) :
    ((∑ i ∈ s, ∑ q : Fin 4, f i (piece4 q 0)) + ∑ i ∈ s, ∑ q : Fin 4, f i (piece4 q 1))
        + ((∑ i ∈ s, ∑ q : Fin 4, f i (piece4 q 2)) + ∑ i ∈ s, ∑ q : Fin 4, f i (piece4 q 3))
      = ∑ i ∈ s, ∑ k : Fin 16, f i k := by
  rw [← Finset.sum_add_distrib, ← Finset.sum_add_distrib, ← Finset.sum_add_distrib]
  exact Finset.sum_congr rfl fun i _ => (sum16_by4 (f i)).symm

section Chunk

variable (x : Fin 65536 → Fin 256 → EReal) (lab : Fin 65536 → ℕ)

def chunkLab (w : Fin 32) (g : Fin 8) (i : Fin 128) : ℕ := lab (scRow w (chunkRow g i))

def chunkF (w : Fin 32) (g : Fin 8) (ci : ℕ) (j : Fin 256) : EReal :=
  ∑ i ∈ Finset.univ.filter (fun i : Fin 128 => chunkLab lab w g i = ci), x (scRow w (chunkRow g i)) j

def chunkSq (w : Fin 32) (g : Fin 8) (ci : ℕ) (l : Fin 16) : EReal :=
  ∑ i ∈ Finset.univ.filter (fun i : Fin 128 => chunkLab lab w g i = ci),
    ∑ k : Fin 16, x (scRow w (chunkRow g i)) (lane k l) * x (scRow w (chunkRow g i)) (lane k l)

theorem chunkF_slots (w : Fin 32) (g : Fin 8) (bucket : ℕ → Fin 128)
    (hb : ∀ r, bucket (Sort.pos (chunkLab lab w g) r) = r) (ci : ℕ) (j : Fin 256) :
    chunkF x lab w g ci j
      = ∑ i ∈ Finset.range (Sort.cnt (chunkLab lab w g) ci),
          x (scRow w (chunkRow g (bucket (Sort.off (chunkLab lab w g) ci + i)))) j :=
  (Sort.sum_class_slots (chunkLab lab w g) bucket hb ci (fun r => x (scRow w (chunkRow g r)) j)).symm

theorem chunkSq_slots (w : Fin 32) (g : Fin 8) (bucket : ℕ → Fin 128)
    (hb : ∀ r, bucket (Sort.pos (chunkLab lab w g) r) = r) (ci : ℕ) (l : Fin 16) :
    chunkSq x lab w g ci l
      = ∑ i ∈ Finset.range (Sort.cnt (chunkLab lab w g) ci), ∑ k : Fin 16,
          x (scRow w (chunkRow g (bucket (Sort.off (chunkLab lab w g) ci + i)))) (lane k l)
            * x (scRow w (chunkRow g (bucket (Sort.off (chunkLab lab w g) ci + i)))) (lane k l) :=
  (Sort.sum_class_slots (chunkLab lab w g) bucket hb ci
    (fun r => ∑ k : Fin 16, x (scRow w (chunkRow g r)) (lane k l) * x (scRow w (chunkRow g r)) (lane k l))).symm

theorem chunkSq_slots4 (w : Fin 32) (g : Fin 8) (bucket : ℕ → Fin 128)
    (hb : ∀ r, bucket (Sort.pos (chunkLab lab w g) r) = r) (ci : ℕ) (l : Fin 16)
    (S : Fin 4 → EReal)
    (hS : ∀ m : Fin 4, S m = ∑ i ∈ Finset.range (Sort.cnt (chunkLab lab w g) ci), ∑ q : Fin 4,
      x (scRow w (chunkRow g (bucket (Sort.off (chunkLab lab w g) ci + i)))) (lane (piece4 q m) l)
        * x (scRow w (chunkRow g (bucket (Sort.off (chunkLab lab w g) ci + i)))) (lane (piece4 q m) l)) :
    (S 0 + S 1) + (S 2 + S 3) = chunkSq x lab w g ci l := by
  rw [chunkSq_slots x lab w g bucket hb ci l, hS 0, hS 1, hS 2, hS 3]
  exact sum_rows_by4 (Finset.range (Sort.cnt (chunkLab lab w g) ci))
    (fun i k => x (scRow w (chunkRow g (bucket (Sort.off (chunkLab lab w g) ci + i)))) (lane k l)
      * x (scRow w (chunkRow g (bucket (Sort.off (chunkLab lab w g) ci + i)))) (lane k l))

theorem scF_eq_chunks (w : Fin 32) (ci : Fin 16) (j : Fin 256) :
    scF x lab w ci j = ∑ g : Fin 8, chunkF x lab w g ci.val j := by
  unfold scF chunkF chunkLab
  rw [sum_chunks]
  exact Finset.sum_congr rfl fun g _ => (Finset.sum_filter _ _).symm

theorem scSq_eq_chunks (w : Fin 32) (ci : Fin 16) (l : Fin 16) :
    scSq x lab w ci l = ∑ g : Fin 8, chunkSq x lab w g ci.val l := by
  unfold scSq chunkSq chunkLab
  rw [sum_chunks]
  exact Finset.sum_congr rfl fun g _ => (Finset.sum_filter _ _).symm

theorem scCnt_eq_chunks (w : Fin 32) (ci : Fin 16) :
    scCnt lab w ci = ∑ g : Fin 8, Sort.cnt (chunkLab lab w g) ci.val := by
  unfold scCnt
  rw [Finset.card_filter, sum_chunks]
  refine Finset.sum_congr rfl fun g _ => ?_
  rw [Sort.cnt_eq_card, Finset.card_filter]
  rfl

theorem scCnt_real_eq_chunks (w : Fin 32) (ci : Fin 16) :
    ((scCnt lab w ci : ℝ) : EReal) = ∑ g : Fin 8, ((Sort.cnt (chunkLab lab w g) ci.val : ℝ) : EReal) := by
  rw [scCnt_eq_chunks, Nat.cast_sum, Cert.LibReal.coe_finset_sum]

theorem scF_eq_upTo8 (w : Fin 32) (ci : Fin 16) (j : Fin 256) :
    scF x lab w ci j = upTo8 (fun g => chunkF x lab w g ci.val j) 8 := by
  rw [upTo8_eight, scF_eq_chunks]

theorem scA_lo_eq_upTo8 (w : Fin 32) (ci : Fin 16) (l : Fin 32) (h : l.val < 16) :
    scA x lab w ci l = upTo8 (fun g => chunkSq x lab w g ci.val ⟨l.val, h⟩) 8 := by
  unfold scA
  rw [dif_pos h, upTo8_eight, scSq_eq_chunks]

theorem scA_hi_eq_upTo8 (w : Fin 32) (ci : Fin 16) (l : Fin 32) (h : ¬ l.val < 16) :
    scA x lab w ci l = upTo8 (fun g => ((Sort.cnt (chunkLab lab w g) ci.val : ℝ) : EReal)) 8 := by
  unfold scA
  rw [dif_neg h, upTo8_eight, scCnt_real_eq_chunks]

theorem scF_eq_zero (hlab : ∀ r, lab r ≤ 12) (w : Fin 32) (ci : Fin 16) (hci : 13 ≤ ci.val) (j : Fin 256) :
    scF x lab w ci j = 0 := by
  unfold scF
  exact Finset.sum_eq_zero fun t _ => if_neg (by have := hlab (scRow w t); omega)

theorem scA_eq_zero (hlab : ∀ r, lab r ≤ 12) (w : Fin 32) (ci : Fin 16) (hci : 13 ≤ ci.val) (l : Fin 32) :
    scA x lab w ci l = 0 := by
  unfold scA
  by_cases h : l.val < 16
  · rw [dif_pos h]
    unfold scSq
    exact Finset.sum_eq_zero fun t _ => if_neg (by have := hlab (scRow w t); omega)
  · rw [dif_neg h]
    have : scCnt lab w ci = 0 := by
      unfold scCnt
      rw [Finset.card_eq_zero, Finset.filter_eq_empty_iff]
      intro t _
      have := hlab (scRow w t); omega
    rw [this, Nat.cast_zero, EReal.coe_zero]

end Chunk

end Cert.Proof.Spec

end
-- ==== Proof.ScValGlue.lean ====
import proofs.«216278_g4776003633407_cont_8to1_c_644_33_alg».proof.Proof.ScSortLoops
import proofs.«216278_g4776003633407_cont_8to1_c_644_33_alg».proof.Proof.ScMath

noncomputable section

namespace Cert.Proof.KI

open Cert.KernelIdeal Cert.KernelIdeal.Gen
open Idealize.ShloMosaic
open Idealize.ShloMosaic.ValueIdx (ix1 ix2)
open Cert.Proof.Sort (W)

theorem labN_eq_chunkLab (M : S65536.Idx → BitVec 32) (LAB : Fin 65536 → ℕ) (hLAB : ∀ r, LAB r = (M (ix1 r)).toNat)
    (labels : Fin 128 → BitVec 32) (off0 : ℕ) (w : Fin 32) (g : Fin 8) (hoff : off0 = 1024 * w.val + 128 * g.val)
    (hrow : ∀ (r : Fin 128) (h : off0 + r.val < 65536), labels r = M (ix1 ⟨off0 + r.val, h⟩)) :
    labN labels = Spec.chunkLab LAB w g := by
  funext r
  have h : off0 + r.val < 65536 := by have := w.isLt; have := g.isLt; have := r.isLt; omega
  show (labels r).toNat = LAB (Spec.scRow w (Spec.chunkRow g r))
  rw [hrow r h, hLAB]
  congr 3
  refine Fin.ext ?_
  show off0 + r.val = 1024 * w.val + (128 * g.val + r.val)
  omega

theorem chunk_sort_facts (M : S65536.Idx → BitVec 32) (LAB : Fin 65536 → ℕ) (hLAB : ∀ r, LAB r = (M (ix1 r)).toNat)
    (labels : Fin 128 → BitVec 32) (off0 : ℕ) (w : Fin 32) (g : Fin 8) (hoff : off0 = 1024 * w.val + 128 * g.val)
    (hrow : ∀ (r : Fin 128) (h : off0 + r.val < 65536), labels r = M (ix1 ⟨off0 + r.val, h⟩))
    (hlab : ∀ r, (labels r).toNat ≤ 12)
    (fc fo : S16.Idx → BitVec 32) (fb : S128.Idx → BitVec 32)
    (hfc : ∀ ci : Fin 16, ci.val < 13 → fc (ix1 ci) = W (Sort.cnt (labN labels) ci.val))
    (hfo : ∀ ci : Fin 16, ci.val < 13 → fo (ix1 ci) = W (Sort.off (labN labels) ci.val))
    (hfb : ∀ r : Fin 128, fb (ix1 (Sort.posFin (labN labels) hlab r)) = W r.val) :
    ∃ hlab' : ∀ r, Spec.chunkLab LAB w g r ≤ 12,
      (∀ ci : Fin 16, ci.val < 13 → fc (ix1 ci) = W (Sort.cnt (Spec.chunkLab LAB w g) ci.val))
      ∧ (∀ ci : Fin 16, ci.val < 13 → fo (ix1 ci) = W (Sort.off (Spec.chunkLab LAB w g) ci.val))
      ∧ (∀ r : Fin 128, fb (ix1 ⟨Sort.pos (Spec.chunkLab LAB w g) r, Sort.pos_lt (Spec.chunkLab LAB w g) hlab' r⟩) = W r.val) := by
  have key : ∀ lab' : Fin 128 → ℕ, labN labels = lab' →
      ∃ hlab' : ∀ r, lab' r ≤ 12,
        (∀ ci : Fin 16, ci.val < 13 → fc (ix1 ci) = W (Sort.cnt lab' ci.val))
        ∧ (∀ ci : Fin 16, ci.val < 13 → fo (ix1 ci) = W (Sort.off lab' ci.val))
        ∧ (∀ r : Fin 128, fb (ix1 ⟨Sort.pos lab' r, Sort.pos_lt lab' hlab' r⟩) = W r.val) := by
    rintro lab' rfl
    exact ⟨hlab, hfc, hfo, hfb⟩
  exact key _ (labN_eq_chunkLab M LAB hLAB labels off0 w g hoff hrow)

end Cert.Proof.KI

end
-- ==== Proof.ScClsValDefs.lean ====
import proofs.«216278_g4776003633407_cont_8to1_c_644_33_alg».proof.Proof.ScClsLoop

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Cert.Proof.Sort (W)

variable {F : FTy → Type}

local notation "𝕄" => MT nD τ sig (HIx 1) (Elt F) ℕ UU ℕ

variable (d : Dev nD) (L : grid0.Coords) [FloatOps F]

def rowPiece (k0_t2 : Fin k0_t2_loop.trips) (f0 : Buf (Elt F) ((fbufM).view.loc (thrC d L))) (w : BitVec 32) (h : k0_chk21 k0_t2 w) :
    Fin 16 → FVec F S16 .f32
  | ⟨0, _⟩ => shapeCast S16 ((fbufM).view.readAt (Elt F) (Rect.unit (s := S2x128x256) (k0_off65 k0_t2 w) S1x1x16.size (k0_off65_inb k0_t2 w h)).toLoadRect f0) shapeCasts_S1x1x16_S16
  | ⟨1, _⟩ => shapeCast S16 ((fbufM).view.readAt (Elt F) (Rect.unit (s := S2x128x256) (k0_off66 k0_t2 w) S1x1x16.size (k0_off66_inb k0_t2 w h)).toLoadRect f0) shapeCasts_S1x1x16_S16
  | ⟨2, _⟩ => shapeCast S16 ((fbufM).view.readAt (Elt F) (Rect.unit (s := S2x128x256) (k0_off67 k0_t2 w) S1x1x16.size (k0_off67_inb k0_t2 w h)).toLoadRect f0) shapeCasts_S1x1x16_S16
  | ⟨3, _⟩ => shapeCast S16 ((fbufM).view.readAt (Elt F) (Rect.unit (s := S2x128x256) (k0_off68 k0_t2 w) S1x1x16.size (k0_off68_inb k0_t2 w h)).toLoadRect f0) shapeCasts_S1x1x16_S16
  | ⟨4, _⟩ => shapeCast S16 ((fbufM).view.readAt (Elt F) (Rect.unit (s := S2x128x256) (k0_off69 k0_t2 w) S1x1x16.size (k0_off69_inb k0_t2 w h)).toLoadRect f0) shapeCasts_S1x1x16_S16
  | ⟨5, _⟩ => shapeCast S16 ((fbufM).view.readAt (Elt F) (Rect.unit (s := S2x128x256) (k0_off70 k0_t2 w) S1x1x16.size (k0_off70_inb k0_t2 w h)).toLoadRect f0) shapeCasts_S1x1x16_S16
  | ⟨6, _⟩ => shapeCast S16 ((fbufM).view.readAt (Elt F) (Rect.unit (s := S2x128x256) (k0_off71 k0_t2 w) S1x1x16.size (k0_off71_inb k0_t2 w h)).toLoadRect f0) shapeCasts_S1x1x16_S16
  | ⟨7, _⟩ => shapeCast S16 ((fbufM).view.readAt (Elt F) (Rect.unit (s := S2x128x256) (k0_off72 k0_t2 w) S1x1x16.size (k0_off72_inb k0_t2 w h)).toLoadRect f0) shapeCasts_S1x1x16_S16
  | ⟨8, _⟩ => shapeCast S16 ((fbufM).view.readAt (Elt F) (Rect.unit (s := S2x128x256) (k0_off73 k0_t2 w) S1x1x16.size (k0_off73_inb k0_t2 w h)).toLoadRect f0) shapeCasts_S1x1x16_S16
  | ⟨9, _⟩ => shapeCast S16 ((fbufM).view.readAt (Elt F) (Rect.unit (s := S2x128x256) (k0_off74 k0_t2 w) S1x1x16.size (k0_off74_inb k0_t2 w h)).toLoadRect f0) shapeCasts_S1x1x16_S16
  | ⟨10, _⟩ => shapeCast S16 ((fbufM).view.readAt (Elt F) (Rect.unit (s := S2x128x256) (k0_off75 k0_t2 w) S1x1x16.size (k0_off75_inb k0_t2 w h)).toLoadRect f0) shapeCasts_S1x1x16_S16
  | ⟨11, _⟩ => shapeCast S16 ((fbufM).view.readAt (Elt F) (Rect.unit (s := S2x128x256) (k0_off76 k0_t2 w) S1x1x16.size (k0_off76_inb k0_t2 w h)).toLoadRect f0) shapeCasts_S1x1x16_S16
  | ⟨12, _⟩ => shapeCast S16 ((fbufM).view.readAt (Elt F) (Rect.unit (s := S2x128x256) (k0_off77 k0_t2 w) S1x1x16.size (k0_off77_inb k0_t2 w h)).toLoadRect f0) shapeCasts_S1x1x16_S16
  | ⟨13, _⟩ => shapeCast S16 ((fbufM).view.readAt (Elt F) (Rect.unit (s := S2x128x256) (k0_off78 k0_t2 w) S1x1x16.size (k0_off78_inb k0_t2 w h)).toLoadRect f0) shapeCasts_S1x1x16_S16
  | ⟨14, _⟩ => shapeCast S16 ((fbufM).view.readAt (Elt F) (Rect.unit (s := S2x128x256) (k0_off79 k0_t2 w) S1x1x16.size (k0_off79_inb k0_t2 w h)).toLoadRect f0) shapeCasts_S1x1x16_S16
  | _ => shapeCast S16 ((fbufM).view.readAt (Elt F) (Rect.unit (s := S2x128x256) (k0_off80 k0_t2 w) S1x1x16.size (k0_off80_inb k0_t2 w h)).toLoadRect f0) shapeCasts_S1x1x16_S16

def sqStep (s a b c e : FVec F S16 .f32) : FVec F S16 .f32 :=
  addf (addf (addf (addf s (mulf a a)) (mulf b b)) (mulf c c)) (mulf e e)

def stepFn (P : Fin 16 → FVec F S16 .f32) (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (addf acc.1 (P 0), addf acc.2.1 (P 1), addf acc.2.2.1 (P 2), addf acc.2.2.2.1 (P 3), addf acc.2.2.2.2.1 (P 4), addf acc.2.2.2.2.2.1 (P 5), addf acc.2.2.2.2.2.2.1 (P 6), addf acc.2.2.2.2.2.2.2.1 (P 7), addf acc.2.2.2.2.2.2.2.2.1 (P 8), addf acc.2.2.2.2.2.2.2.2.2.1 (P 9), addf acc.2.2.2.2.2.2.2.2.2.2.1 (P 10), addf acc.2.2.2.2.2.2.2.2.2.2.2.1 (P 11), addf acc.2.2.2.2.2.2.2.2.2.2.2.2.1 (P 12), addf acc.2.2.2.2.2.2.2.2.2.2.2.2.2.1 (P 13), addf acc.2.2.2.2.2.2.2.2.2.2.2.2.2.2.1 (P 14), addf acc.2.2.2.2.2.2.2.2.2.2.2.2.2.2.2.1 (P 15),
   sqStep acc.2.2.2.2.2.2.2.2.2.2.2.2.2.2.2.2.1 (P 0) (P 4) (P 8) (P 12), sqStep acc.2.2.2.2.2.2.2.2.2.2.2.2.2.2.2.2.2.1 (P 1) (P 5) (P 9) (P 13),
   sqStep acc.2.2.2.2.2.2.2.2.2.2.2.2.2.2.2.2.2.2.1 (P 2) (P 6) (P 10) (P 14), sqStep acc.2.2.2.2.2.2.2.2.2.2.2.2.2.2.2.2.2.2.2 (P 3) (P 7) (P 11) (P 15))

def accFn (a : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) : Fin 20 → FVec F S16 .f32
  | ⟨0, _⟩ => a.1
  | ⟨1, _⟩ => a.2.1
  | ⟨2, _⟩ => a.2.2.1
  | ⟨3, _⟩ => a.2.2.2.1
  | ⟨4, _⟩ => a.2.2.2.2.1
  | ⟨5, _⟩ => a.2.2.2.2.2.1
  | ⟨6, _⟩ => a.2.2.2.2.2.2.1
  | ⟨7, _⟩ => a.2.2.2.2.2.2.2.1
  | ⟨8, _⟩ => a.2.2.2.2.2.2.2.2.1
  | ⟨9, _⟩ => a.2.2.2.2.2.2.2.2.2.1
  | ⟨10, _⟩ => a.2.2.2.2.2.2.2.2.2.2.1
  | ⟨11, _⟩ => a.2.2.2.2.2.2.2.2.2.2.2.1
  | ⟨12, _⟩ => a.2.2.2.2.2.2.2.2.2.2.2.2.1
  | ⟨13, _⟩ => a.2.2.2.2.2.2.2.2.2.2.2.2.2.1
  | ⟨14, _⟩ => a.2.2.2.2.2.2.2.2.2.2.2.2.2.2.1
  | ⟨15, _⟩ => a.2.2.2.2.2.2.2.2.2.2.2.2.2.2.2.1
  | ⟨16, _⟩ => a.2.2.2.2.2.2.2.2.2.2.2.2.2.2.2.2.1
  | ⟨17, _⟩ => a.2.2.2.2.2.2.2.2.2.2.2.2.2.2.2.2.2.1
  | ⟨18, _⟩ => a.2.2.2.2.2.2.2.2.2.2.2.2.2.2.2.2.2.2.1
  | _ => a.2.2.2.2.2.2.2.2.2.2.2.2.2.2.2.2.2.2.2

def cntWord (fc : S16.Idx → BitVec 32) (k : Fin k0_t7_loop.trips) : BitVec 32 :=
  (cntM).view.readAt (Elt F) (Rect.unit (s := S16) (k0_off63 k) S1.size (k0_off63_inb k)).toLoadRect fc (Shape.Idx.first (show 0 < S1.numel by decide))

def offWord (fo : S16.Idx → BitVec 32) (k : Fin k0_t7_loop.trips) : BitVec 32 :=
  (offM).view.readAt (Elt F) (Rect.unit (s := S16) (k0_off63 k) S1.size (k0_off63_inb k)).toLoadRect fo (Shape.Idx.first (show 0 < S1.numel by decide))

def bktWord (fb : S128.Idx → BitVec 32) (v77 v79 : BitVec 32) (hw20 : k0_chk20 v77 v79) (k : Fin (k0_t8_loop v77).trips) : BitVec 32 :=
  (bktM).view.readAt (Elt F) (Rect.unit (s := S128) (k0_off64 v77 v79 k) S1.size (k0_off64_inb v77 v79 hw20 k)).toLoadRect fb (Shape.Idx.first (show 0 < S1.numel by decide))

def afNew (k : Fin k0_t7_loop.trips) (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) (ga : Buf (Elt F) ((afM).view.loc (thrC d L))) : Buf (Elt F) ((afM).view.loc (thrC d L)) :=
  (afM).view.writes (Elt F) ga
    [⟨Rect.unit (s := S16x256) (k0_off113 k) S1x16.size (k0_off113_inb k), shapeCast S1x16 (addf (shapeCast S16 ((afM).view.readAt (Elt F) (Rect.unit (s := S16x256) (k0_off113 k) S1x16.size (k0_off113_inb k)).toLoadRect ga) shapeCasts_S1x16_S16) acc.2.2.2.2.2.2.2.2.2.2.2.2.2.2.2.1) shapeCasts_S16_S1x16⟩,
     ⟨Rect.unit (s := S16x256) (k0_off112 k) S1x16.size (k0_off112_inb k), shapeCast S1x16 (addf (shapeCast S16 ((afM).view.readAt (Elt F) (Rect.unit (s := S16x256) (k0_off112 k) S1x16.size (k0_off112_inb k)).toLoadRect ga) shapeCasts_S1x16_S16) acc.2.2.2.2.2.2.2.2.2.2.2.2.2.2.1) shapeCasts_S16_S1x16⟩,
     ⟨Rect.unit (s := S16x256) (k0_off111 k) S1x16.size (k0_off111_inb k), shapeCast S1x16 (addf (shapeCast S16 ((afM).view.readAt (Elt F) (Rect.unit (s := S16x256) (k0_off111 k) S1x16.size (k0_off111_inb k)).toLoadRect ga) shapeCasts_S1x16_S16) acc.2.2.2.2.2.2.2.2.2.2.2.2.2.1) shapeCasts_S16_S1x16⟩,
     ⟨Rect.unit (s := S16x256) (k0_off110 k) S1x16.size (k0_off110_inb k), shapeCast S1x16 (addf (shapeCast S16 ((afM).view.readAt (Elt F) (Rect.unit (s := S16x256) (k0_off110 k) S1x16.size (k0_off110_inb k)).toLoadRect ga) shapeCasts_S1x16_S16) acc.2.2.2.2.2.2.2.2.2.2.2.2.1) shapeCasts_S16_S1x16⟩,
     ⟨Rect.unit (s := S16x256) (k0_off109 k) S1x16.size (k0_off109_inb k), shapeCast S1x16 (addf (shapeCast S16 ((afM).view.readAt (Elt F) (Rect.unit (s := S16x256) (k0_off109 k) S1x16.size (k0_off109_inb k)).toLoadRect ga) shapeCasts_S1x16_S16) acc.2.2.2.2.2.2.2.2.2.2.2.1) shapeCasts_S16_S1x16⟩,
     ⟨Rect.unit (s := S16x256) (k0_off108 k) S1x16.size (k0_off108_inb k), shapeCast S1x16 (addf (shapeCast S16 ((afM).view.readAt (Elt F) (Rect.unit (s := S16x256) (k0_off108 k) S1x16.size (k0_off108_inb k)).toLoadRect ga) shapeCasts_S1x16_S16) acc.2.2.2.2.2.2.2.2.2.2.1) shapeCasts_S16_S1x16⟩,
     ⟨Rect.unit (s := S16x256) (k0_off107 k) S1x16.size (k0_off107_inb k), shapeCast S1x16 (addf (shapeCast S16 ((afM).view.readAt (Elt F) (Rect.unit (s := S16x256) (k0_off107 k) S1x16.size (k0_off107_inb k)).toLoadRect ga) shapeCasts_S1x16_S16) acc.2.2.2.2.2.2.2.2.2.1) shapeCasts_S16_S1x16⟩,
     ⟨Rect.unit (s := S16x256) (k0_off106 k) S1x16.size (k0_off106_inb k), shapeCast S1x16 (addf (shapeCast S16 ((afM).view.readAt (Elt F) (Rect.unit (s := S16x256) (k0_off106 k) S1x16.size (k0_off106_inb k)).toLoadRect ga) shapeCasts_S1x16_S16) acc.2.2.2.2.2.2.2.2.1) shapeCasts_S16_S1x16⟩,
     ⟨Rect.unit (s := S16x256) (k0_off105 k) S1x16.size (k0_off105_inb k), shapeCast S1x16 (addf (shapeCast S16 ((afM).view.readAt (Elt F) (Rect.unit (s := S16x256) (k0_off105 k) S1x16.size (k0_off105_inb k)).toLoadRect ga) shapeCasts_S1x16_S16) acc.2.2.2.2.2.2.2.1) shapeCasts_S16_S1x16⟩,
     ⟨Rect.unit (s := S16x256) (k0_off104 k) S1x16.size (k0_off104_inb k), shapeCast S1x16 (addf (shapeCast S16 ((afM).view.readAt (Elt F) (Rect.unit (s := S16x256) (k0_off104 k) S1x16.size (k0_off104_inb k)).toLoadRect ga) shapeCasts_S1x16_S16) acc.2.2.2.2.2.2.1) shapeCasts_S16_S1x16⟩,
     ⟨Rect.unit (s := S16x256) (k0_off103 k) S1x16.size (k0_off103_inb k), shapeCast S1x16 (addf (shapeCast S16 ((afM).view.readAt (Elt F) (Rect.unit (s := S16x256) (k0_off103 k) S1x16.size (k0_off103_inb k)).toLoadRect ga) shapeCasts_S1x16_S16) acc.2.2.2.2.2.1) shapeCasts_S16_S1x16⟩,
     ⟨Rect.unit (s := S16x256) (k0_off102 k) S1x16.size (k0_off102_inb k), shapeCast S1x16 (addf (shapeCast S16 ((afM).view.readAt (Elt F) (Rect.unit (s := S16x256) (k0_off102 k) S1x16.size (k0_off102_inb k)).toLoadRect ga) shapeCasts_S1x16_S16) acc.2.2.2.2.1) shapeCasts_S16_S1x16⟩,
     ⟨Rect.unit (s := S16x256) (k0_off101 k) S1x16.size (k0_off101_inb k), shapeCast S1x16 (addf (shapeCast S16 ((afM).view.readAt (Elt F) (Rect.unit (s := S16x256) (k0_off101 k) S1x16.size (k0_off101_inb k)).toLoadRect ga) shapeCasts_S1x16_S16) acc.2.2.2.1) shapeCasts_S16_S1x16⟩,
     ⟨Rect.unit (s := S16x256) (k0_off100 k) S1x16.size (k0_off100_inb k), shapeCast S1x16 (addf (shapeCast S16 ((afM).view.readAt (Elt F) (Rect.unit (s := S16x256) (k0_off100 k) S1x16.size (k0_off100_inb k)).toLoadRect ga) shapeCasts_S1x16_S16) acc.2.2.1) shapeCasts_S16_S1x16⟩,
     ⟨Rect.unit (s := S16x256) (k0_off99 k) S1x16.size (k0_off99_inb k), shapeCast S1x16 (addf (shapeCast S16 ((afM).view.readAt (Elt F) (Rect.unit (s := S16x256) (k0_off99 k) S1x16.size (k0_off99_inb k)).toLoadRect ga) shapeCasts_S1x16_S16) acc.2.1) shapeCasts_S16_S1x16⟩,
     ⟨Rect.unit (s := S16x256) (k0_off98 k) S1x16.size (k0_off98_inb k), shapeCast S1x16 (addf (shapeCast S16 ((afM).view.readAt (Elt F) (Rect.unit (s := S16x256) (k0_off98 k) S1x16.size (k0_off98_inb k)).toLoadRect ga) shapeCasts_S1x16_S16) acc.1) shapeCasts_S16_S1x16⟩]

def axNew (k : Fin k0_t7_loop.trips) (acc : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32) (v3 : FVec F S16 .f32) (v77 : BitVec 32) (gx : Buf (Elt F) ((axM).view.loc (thrC d L))) : Buf (Elt F) ((axM).view.loc (thrC d L)) :=
  (axM).view.writes (Elt F) gx
    [⟨Rect.unit (s := S16x32) (k0_off115 k) S1x16.size (k0_off115_inb k), shapeCast S1x16 (addf (shapeCast S16 ((axM).view.readAt (Elt F) (Rect.unit (s := S16x32) (k0_off115 k) S1x16.size (k0_off115_inb k)).toLoadRect gx) shapeCasts_S1x16_S16) (addf v3 (broadcast S16 (Scalar.sitofp .f32 v77)))) shapeCasts_S16_S1x16⟩,
     ⟨Rect.unit (s := S16x32) (k0_off114 k) S1x16.size (k0_off114_inb k), shapeCast S1x16 (addf (shapeCast S16 ((axM).view.readAt (Elt F) (Rect.unit (s := S16x32) (k0_off114 k) S1x16.size (k0_off114_inb k)).toLoadRect gx) shapeCasts_S1x16_S16) (addf (addf acc.2.2.2.2.2.2.2.2.2.2.2.2.2.2.2.2.1 acc.2.2.2.2.2.2.2.2.2.2.2.2.2.2.2.2.2.1) (addf acc.2.2.2.2.2.2.2.2.2.2.2.2.2.2.2.2.2.2.1 acc.2.2.2.2.2.2.2.2.2.2.2.2.2.2.2.2.2.2.2))) shapeCasts_S16_S1x16⟩]

end Cert.Proof.KI

end
-- ==== Proof.ScClsValRun.lean ====
import proofs.«216278_g4776003633407_cont_8to1_c_644_33_alg».proof.Proof.ScClsValDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Cert.Proof.Sort (W)

variable {F : FTy → Type}

local notation "𝕄" => MT nD τ sig (HIx 1) (Elt F) ℕ UU ℕ

variable (d : Dev nD) (L : grid0.Coords) [FloatOps F]

abbrev Acc20 (F : FTy → Type) : Type :=
  FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

-- A row trip reads only pieces whose slot coordinate is the chunk's parity, so any cell set `X` missing all such pieces stays withheld.
theorem t8_val (X : Finset S2x128x256.Idx) (fb : S128.Idx → BitVec 32) (f0 : Buf (Elt F) ((fbufM).view.loc (thrC d L)))
    (v3 : FVec F S16 .f32) (k0_t2 : Fin k0_t2_loop.trips)
    (hX : ∀ (off : Fin 3 → Nat) (inb : ∀ a, off a + S1x1x16.size a ≤ S2x128x256.size a), off 0 = k0_t2.val % 2 →
      Disjoint ((fbufM).view.setOn (Rect.unit (s := S2x128x256) off S1x1x16.size inb).set) X)
    (v49 c0 c1 : BitVec 32) (k0_t7 : Fin k0_t7_loop.trips)
    (v77 : BitVec 32) (hw19 : k0_chk19 v77) (v79 : BitVec 32) (hw20 : k0_chk20 v77 v79)
    (hfb : ∀ q : S128.Idx, k0_chk21 k0_t2 (fb q))
    (J : Nat → Acc20 F → Prop)
    (hJ : ∀ (i : Fin (k0_t8_loop v77).trips) (a : Acc20 F), J i.val a →
      J (i.val + 1) (stepFn (rowPiece (F := F) d L k0_t2 f0 (bktWord (F := F) fb v77 v79 hw20 i) (hfb _)) a))
    (k : Fin (k0_t8_loop v77).trips) (acc : Acc20 F) :
    (iprop(⌜J k.val acc⌝ ∗ ((bktM).view.loc (thrC d L) ↦{fullShare} fb) ∗ ((fbufM).view.loc (thrC d L) ↦[Finset.univ \ X]{fullShare} f0)) : sProp 𝕄)
      ⊢ wp frame (wpE (defs₀ (F := F)) 𝒱₀ (thrC d L) none) Set.univ
          (k0_t8_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v3 k0_t2 v49 c0 c1 k0_t7 v77 hw19 v79 hw20 k acc)
          (fun r => iprop(⌜J (k.val + 1) r⌝ ∗ ((bktM).view.loc (thrC d L) ↦{fullShare} fb) ∗ ((fbufM).view.loc (thrC d L) ↦[Finset.univ \ X]{fullShare} f0))) := by
  have d65 := fun w inb => hX (k0_off65 k0_t2 w) inb (off65_first k0_t2 w)
  have d66 := fun w inb => hX (k0_off66 k0_t2 w) inb (off66_first k0_t2 w)
  have d67 := fun w inb => hX (k0_off67 k0_t2 w) inb (off67_first k0_t2 w)
  have d68 := fun w inb => hX (k0_off68 k0_t2 w) inb (off68_first k0_t2 w)
  have d69 := fun w inb => hX (k0_off69 k0_t2 w) inb (off69_first k0_t2 w)
  have d70 := fun w inb => hX (k0_off70 k0_t2 w) inb (off70_first k0_t2 w)
  have d71 := fun w inb => hX (k0_off71 k0_t2 w) inb (off71_first k0_t2 w)
  have d72 := fun w inb => hX (k0_off72 k0_t2 w) inb (off72_first k0_t2 w)
  have d73 := fun w inb => hX (k0_off73 k0_t2 w) inb (off73_first k0_t2 w)
  have d74 := fun w inb => hX (k0_off74 k0_t2 w) inb (off74_first k0_t2 w)
  have d75 := fun w inb => hX (k0_off75 k0_t2 w) inb (off75_first k0_t2 w)
  have d76 := fun w inb => hX (k0_off76 k0_t2 w) inb (off76_first k0_t2 w)
  have d77 := fun w inb => hX (k0_off77 k0_t2 w) inb (off77_first k0_t2 w)
  have d78 := fun w inb => hX (k0_off78 k0_t2 w) inb (off78_first k0_t2 w)
  have d79 := fun w inb => hX (k0_off79 k0_t2 w) inb (off79_first k0_t2 w)
  have d80 := fun w inb => hX (k0_off80 k0_t2 w) inb (off80_first k0_t2 w)
  unfold k0_t8_body
  iintro ⟨%hJk, Hb, Hf⟩
  sl_exec
  sl_step
  isplitr
  · ipureintro
    exact hJ k acc hJk
  iframe

set_option maxHeartbeats 4000000 in
-- The row loop carries `J` from the initial accumulators to the class's count, and the two accumulators end as `afNew` and `axNew` of the result.
theorem t7_val (X : Finset S2x128x256.Idx) (fc fo : S16.Idx → BitVec 32) (fb : S128.Idx → BitVec 32)
    (f0 : Buf (Elt F) ((fbufM).view.loc (thrC d L)))
    (v2 : BitVec 32) (v3 : FVec F S16 .f32) (k0_t2 : Fin k0_t2_loop.trips)
    (hX : ∀ (off : Fin 3 → Nat) (inb : ∀ a, off a + S1x1x16.size a ≤ S2x128x256.size a), off 0 = k0_t2.val % 2 →
      Disjoint ((fbufM).view.setOn (Rect.unit (s := S2x128x256) off S1x1x16.size inb).set) X)
    (v49 : BitVec 32) (k : Fin k0_t7_loop.trips) (acc : Unit)
    (ga : Buf (Elt F) ((afM).view.loc (thrC d L))) (gx : Buf (Elt F) ((axM).view.loc (thrC d L)))
    (hw20 : k0_chk20 (cntWord (F := F) fc k) (offWord (F := F) fo k))
    (hfb21 : ∀ q : S128.Idx, k0_chk21 k0_t2 (fb q))
    (J : Nat → Acc20 F → Prop)
    (hJ0 : J 0 (v3, v3, v3, v3, v3, v3, v3, v3, v3, v3, v3, v3, v3, v3, v3, v3, v3, v3, v3, v3))
    (hJ : ∀ (i : Fin (k0_t8_loop (cntWord (F := F) fc k)).trips) (a : Acc20 F), J i.val a →
      J (i.val + 1) (stepFn (rowPiece (F := F) d L k0_t2 f0 (bktWord (F := F) fb (cntWord (F := F) fc k) (offWord (F := F) fo k) hw20 i) (hfb21 _)) a)) :
    (iprop(((cntM).view.loc (thrC d L) ↦{fullShare} fc) ∗ ((offM).view.loc (thrC d L) ↦{fullShare} fo) ∗ ((bktM).view.loc (thrC d L) ↦{fullShare} fb) ∗ ((fbufM).view.loc (thrC d L) ↦[Finset.univ \ X]{fullShare} f0)
      ∗ ((afM).view.loc (thrC d L) ↦{fullShare} ga) ∗ ((axM).view.loc (thrC d L) ↦{fullShare} gx)) : sProp 𝕄)
      ⊢ wp frame (wpE (defs₀ (F := F)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (fun _ => iprop(∃ a1 : Acc20 F, ⌜J (k0_t8_loop (cntWord (F := F) fc k)).trips a1⌝
            ∗ ((cntM).view.loc (thrC d L) ↦{fullShare} fc) ∗ ((offM).view.loc (thrC d L) ↦{fullShare} fo) ∗ ((bktM).view.loc (thrC d L) ↦{fullShare} fb) ∗ ((fbufM).view.loc (thrC d L) ↦[Finset.univ \ X]{fullShare} f0)
            ∗ ((afM).view.loc (thrC d L) ↦{fullShare} afNew (F := F) d L k a1 ga)
            ∗ ((axM).view.loc (thrC d L) ↦{fullShare} axNew (F := F) d L k a1 v3 (cntWord (F := F) fc k) gx))) := by
  unfold k0_t7_body
  iintro ⟨Hc, Ho, Hb, Hf, Ha, Hx⟩
  sl_exec (disch := exact hw20)
  sl_for (fun i a => iprop(⌜J i a⌝ ∗ ((bktM).view.loc (thrC d L) ↦{fullShare} fb) ∗ ((fbufM).view.loc (thrC d L) ↦[Finset.univ \ X]{fullShare} f0))) $$ [Hb Hf]
  case region =>
    intro k' acc'
    exact t8_val (F := F) d L X fb f0 v3 k0_t2 hX v49 _ _ k _ _ _ _ hfb21 J hJ k' acc'
  · isplitr
    · ipureintro; exact hJ0
    iframe
  iintro %acc1 HI
  icases HI with ⟨%hJ1, Hb, Hf⟩
  sl_exec
  sl_for (fun i a => iprop(⌜a = acc1⌝ ∗ ((bktM).view.loc (thrC d L) ↦{fullShare} fb) ∗ ((fbufM).view.loc (thrC d L) ↦[Finset.univ \ X]{fullShare} f0))) $$ [Hb Hf]
  case region =>
    intro k' acc'
    exact absurd k'.isLt (Nat.not_lt.mpr (le_trans (k0_t9_abs _).2.1 (Nat.zero_le _)))
  · isplitr
    · ipureintro; rfl
    iframe
  iintro %acc2 HI
  icases HI with ⟨%hacc2, Hb, Hf⟩
  subst hacc2
  sl_exec
  sl_step
  iexists acc2
  isplitr
  · ipureintro; exact hJ1
  unfold afNew axNew
  iframe
  isplitl [Ha]
  · iexact Ha
  · iexact Hx

end Cert.Proof.KI

end
-- ==== Proof.ScClsStoreA.lean ====
import proofs.«216278_g4776003633407_cont_8to1_c_644_33_alg».proof.Proof.ScClsValDefs
import Idealize.ShloMosaic.Lib.Pipeline.Value
import Idealize.ShloMosaic.Lib.ValueLayout
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Cert.Proof.Sort (W)

variable {F : FTy → Type}

local notation "𝕄" => MT nD τ sig (HIx 1) (Elt F) ℕ UU ℕ

variable (d : Dev nD) (L : grid0.Coords) [FloatOps F]

section AfStore

theorem read_af_hit (f : S16x256.Idx → EReal) (off : Fin 2 → ℕ) (inb : ∀ a, off a + S1x16.size a ≤ S16x256.size a)
    (pay : S1x16.Idx → EReal) (Ls : List (View.Piece (Elt Ideal) S16x256 .f32)) (ci : Fin 16) (j : Fin 256) (x : Fin 16)
    (h0 : off 0 = ci.val) (hx : off 1 + x.val = j.val) :
    (afM).view.writes (Elt Ideal) f (⟨Rect.unit (s := S16x256) off S1x16.size inb, pay⟩ :: Ls) (ix2 ci j)
      = pay (ix2 (0 : Fin 1) x) := by
  have e : (Rect.unit (s := S16x256) off S1x16.size inb).emb (ix2 (0 : Fin 1) x) = ix2 ci j := by
    funext a
    match a with
    | ⟨0, _⟩ => exact Fin.ext (show off 0 + 1 * 0 = ci.val by omega)
    | ⟨1, _⟩ => exact Fin.ext (show off 1 + 1 * x.val = j.val by omega)
  have h := View.read_writes_cons_emb (afM).view f (Rect.unit (s := S16x256) off S1x16.size inb) pay Ls (ix2 (0 : Fin 1) x)
  rw [e] at h
  exact h

theorem read_af_skip (f : S16x256.Idx → EReal) (off : Fin 2 → ℕ) (inb : ∀ a, off a + S1x16.size a ≤ S16x256.size a)
    (pay : S1x16.Idx → EReal) (Ls : List (View.Piece (Elt Ideal) S16x256 .f32)) (ci : Fin 16) (j : Fin 256)
    (h : ¬ (off 0 = ci.val ∧ off 1 ≤ j.val ∧ j.val < off 1 + 16)) :
    (afM).view.writes (Elt Ideal) f (⟨Rect.unit (s := S16x256) off S1x16.size inb, pay⟩ :: Ls) (ix2 ci j)
      = (afM).view.writes (Elt Ideal) f Ls (ix2 ci j) := by
  show (afM).view.read (Elt Ideal) ((afM).view.writes (Elt Ideal) f (⟨Rect.unit (s := S16x256) off S1x16.size inb, pay⟩ :: Ls)) (ix2 ci j) = _
  rw [View.writes_cons, View.read_slice_write_of_not_mem]
  · rfl
  · rw [Rect.map_emb_univ, Rect.mem_set_unit]
    intro hh
    apply h
    have a0 : off 0 ≤ ci.val ∧ ci.val < off 0 + 1 := hh 0
    have a1 : off 1 ≤ j.val ∧ j.val < off 1 + 16 := hh 1
    omega

theorem readAt_af (ga : S16x256.Idx → EReal) (off : Fin 2 → ℕ) (inb : ∀ a, off a + S1x16.size a ≤ S16x256.size a)
    (ci : Fin 16) (j : Fin 256) (x : Fin 16) (h0 : off 0 = ci.val) (hx : off 1 + x.val = j.val) :
    (afM).view.readAt (Elt Ideal) (Rect.unit (s := S16x256) off S1x16.size inb).toLoadRect ga (ix2 (0 : Fin 1) x) = ga (ix2 ci j) := by
  show ga _ = ga _
  congr 1
  funext a
  match a with
  | ⟨0, _⟩ => exact Fin.ext (show off 0 + 1 * 0 = ci.val by omega)
  | ⟨1, _⟩ => exact Fin.ext (show off 1 + 1 * x.val = j.val by omega)

theorem rmw_af (R : FVec Ideal S1x16 .f32) (B : FVec Ideal S16 .f32) (x : Fin 16) :
    shapeCast S1x16 (addf (F := Ideal) (shapeCast S16 R shapeCasts_S1x16_S16) B) shapeCasts_S16_S1x16 (ix2 (0 : Fin 1) x)
      = R (ix2 (0 : Fin 1) x) + B (ix1 x) := by
  have h1 := ValueIdx.shapeCast_a_1a_apply (a := 16) (addf (F := Ideal) (shapeCast S16 R shapeCasts_S1x16_S16) B)
    shapeCasts_S16_S1x16 (0 : Fin 1) x
  have h2 := ValueIdx.shapeCast_1a_a_apply (a := 16) R shapeCasts_S1x16_S16 x
  refine h1.trans ?_
  rw [ValueIdx.addf_apply]
  exact congrArg (· + B (ix1 x)) h2

def afOff (k : Fin k0_t7_loop.trips) : ℕ → (Fin 2 → ℕ)
  | 0 => k0_off98 k
  | 1 => k0_off99 k
  | 2 => k0_off100 k
  | 3 => k0_off101 k
  | 4 => k0_off102 k
  | 5 => k0_off103 k
  | 6 => k0_off104 k
  | 7 => k0_off105 k
  | 8 => k0_off106 k
  | 9 => k0_off107 k
  | 10 => k0_off108 k
  | 11 => k0_off109 k
  | 12 => k0_off110 k
  | 13 => k0_off111 k
  | 14 => k0_off112 k
  | 15 => k0_off113 k
  | _ => k0_off98 k

theorem afInb (k : Fin k0_t7_loop.trips) : ∀ (n : ℕ) (a : Fin 2), afOff k n a + S1x16.size a ≤ S16x256.size a
  | 0 => k0_off98_inb k
  | 1 => k0_off99_inb k
  | 2 => k0_off100_inb k
  | 3 => k0_off101_inb k
  | 4 => k0_off102_inb k
  | 5 => k0_off103_inb k
  | 6 => k0_off104_inb k
  | 7 => k0_off105_inb k
  | 8 => k0_off106_inb k
  | 9 => k0_off107_inb k
  | 10 => k0_off108_inb k
  | 11 => k0_off109_inb k
  | 12 => k0_off110_inb k
  | 13 => k0_off111_inb k
  | 14 => k0_off112_inb k
  | 15 => k0_off113_inb k
  | _ + 16 => k0_off98_inb k

theorem afOff_eq (k : Fin k0_t7_loop.trips) : ∀ (n : ℕ), n < 16 → afOff k n = ![k.val, 16 * n]
  | 0, _ => k0_off98_eq k
  | 1, _ => k0_off99_eq k
  | 2, _ => k0_off100_eq k
  | 3, _ => k0_off101_eq k
  | 4, _ => k0_off102_eq k
  | 5, _ => k0_off103_eq k
  | 6, _ => k0_off104_eq k
  | 7, _ => k0_off105_eq k
  | 8, _ => k0_off106_eq k
  | 9, _ => k0_off107_eq k
  | 10, _ => k0_off108_eq k
  | 11, _ => k0_off109_eq k
  | 12, _ => k0_off110_eq k
  | 13, _ => k0_off111_eq k
  | 14, _ => k0_off112_eq k
  | 15, _ => k0_off113_eq k
  | n + 16, h => absurd h (by omega)

def afList (k : Fin k0_t7_loop.trips) (P : ℕ → S1x16.Idx → EReal) : ℕ → List (View.Piece (Elt Ideal) S16x256 .f32)
  | 0 => []
  | n + 1 => ⟨Rect.unit (s := S16x256) (afOff k n) S1x16.size (afInb k n), P n⟩ :: afList k P n

theorem read_afList (k : Fin k0_t7_loop.trips) (P : ℕ → S1x16.Idx → EReal) (ga : S16x256.Idx → EReal) (ci : Fin 16) (j : Fin 256) :
    ∀ n, n ≤ 16 → (afM).view.writes (Elt Ideal) ga (afList k P n) (ix2 ci j)
      = if ci.val = k.val ∧ j.val / 16 < n then P (j.val / 16) (ix2 (0 : Fin 1) ⟨j.val % 16, Nat.mod_lt _ (by decide)⟩) else ga (ix2 ci j)
  | 0, _ => by
    rw [if_neg (by omega)]
    rfl
  | n + 1, hn => by
    have ih := read_afList k P ga ci j n (by omega)
    have hoff := afOff_eq k n (by omega)
    have h0 : afOff k n 0 = k.val := by rw [hoff]; rfl
    have h1 : afOff k n 1 = 16 * n := by rw [hoff]; rfl
    show (afM).view.writes (Elt Ideal) ga (⟨Rect.unit (s := S16x256) (afOff k n) S1x16.size (afInb k n), P n⟩ :: afList k P n) (ix2 ci j) = _
    by_cases hit : ci.val = k.val ∧ j.val / 16 = n
    · rw [read_af_hit ga _ _ _ _ ci j ⟨j.val % 16, Nat.mod_lt _ (by decide)⟩ (by rw [h0]; exact hit.1.symm)
        (by rw [h1]; show 16 * n + j.val % 16 = j.val; have := hit.2; omega),
        if_pos (by omega), hit.2]
    · rw [read_af_skip ga _ _ _ _ ci j (by rw [h0, h1]; intro hh; apply hit; omega), ih]
      by_cases hc : ci.val = k.val ∧ j.val / 16 < n
      · rw [if_pos hc, if_pos (by omega)]
      · rw [if_neg hc, if_neg (by intro hh; apply hc; constructor; exact hh.1; have : j.val / 16 ≠ n := fun e => hit ⟨hh.1, e⟩; omega)]

def afPay (k : Fin k0_t7_loop.trips) (a : FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32) (ga : S16x256.Idx → EReal) (n : ℕ) : S1x16.Idx → EReal :=
  shapeCast S1x16 (addf (F := Ideal) (shapeCast S16 ((afM).view.readAt (Elt Ideal) (Rect.unit (s := S16x256) (afOff k n) S1x16.size (afInb k n)).toLoadRect ga) shapeCasts_S1x16_S16)
    (accFn (F := Ideal) a ⟨n % 20, Nat.mod_lt _ (by decide)⟩)) shapeCasts_S16_S1x16

theorem afNew_eq_afList (k : Fin k0_t7_loop.trips) (a : FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32) (ga : S16x256.Idx → EReal) :
    afNew (F := Ideal) d L k a ga = (afM).view.writes (Elt Ideal) ga (afList k (afPay k a ga) 16) := rfl

theorem afNew_apply (k : Fin k0_t7_loop.trips) (a : FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32) (ga : S16x256.Idx → EReal) (ci : Fin 16) (j : Fin 256) :
    afNew (F := Ideal) d L k a ga (ix2 ci j)
      = if ci = cell16 k then ga (ix2 ci j) + accFn (F := Ideal) a ⟨j.val / 16, by omega⟩ (ix1 ⟨j.val % 16, by omega⟩) else ga (ix2 ci j) := by
  rw [afNew_eq_afList, read_afList k _ ga ci j 16 (le_refl _)]
  by_cases h : ci = cell16 k
  · have hv : ci.val = k.val := congrArg Fin.val h
    have hj : j.val / 16 < 16 := by omega
    have hoff := afOff_eq k (j.val / 16) hj
    have h0 : afOff k (j.val / 16) 0 = ci.val := by rw [hoff, hv]; rfl
    have h1 : afOff k (j.val / 16) 1 + (⟨j.val % 16, Nat.mod_lt _ (by decide)⟩ : Fin 16).val = j.val := by
      rw [hoff]; show 16 * (j.val / 16) + j.val % 16 = j.val; omega
    rw [if_pos ⟨hv, hj⟩, if_pos h]
    unfold afPay
    rw [rmw_af, readAt_af ga _ _ ci j _ h0 h1]
    congr 2
    exact Fin.ext (Nat.mod_eq_of_lt (by omega))
  · have hv : ¬ (ci.val = k.val ∧ j.val / 16 < 16) := fun hh => h (Fin.ext hh.1)
    rw [if_neg hv, if_neg h]

end AfStore

end Cert.Proof.KI

end
-- ==== Proof.ScClsStoreX.lean ====
import proofs.«216278_g4776003633407_cont_8to1_c_644_33_alg».proof.Proof.ScClsValDefs
import Idealize.ShloMosaic.Lib.Pipeline.Value
import Idealize.ShloMosaic.Lib.ValueLayout
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Cert.Proof.Sort (W)

variable {F : FTy → Type}

local notation "𝕄" => MT nD τ sig (HIx 1) (Elt F) ℕ UU ℕ

variable (d : Dev nD) (L : grid0.Coords) [FloatOps F]

section AxStore

theorem read_ax_hit (f : S16x32.Idx → EReal) (off : Fin 2 → ℕ) (inb : ∀ a, off a + S1x16.size a ≤ S16x32.size a)
    (pay : S1x16.Idx → EReal) (Ls : List (View.Piece (Elt Ideal) S16x32 .f32)) (ci : Fin 16) (l : Fin 32) (x : Fin 16)
    (h0 : off 0 = ci.val) (hx : off 1 + x.val = l.val) :
    (axM).view.writes (Elt Ideal) f (⟨Rect.unit (s := S16x32) off S1x16.size inb, pay⟩ :: Ls) (ix2 ci l)
      = pay (ix2 (0 : Fin 1) x) := by
  have e : (Rect.unit (s := S16x32) off S1x16.size inb).emb (ix2 (0 : Fin 1) x) = ix2 ci l := by
    funext a
    match a with
    | ⟨0, _⟩ => exact Fin.ext (show off 0 + 1 * 0 = ci.val by omega)
    | ⟨1, _⟩ => exact Fin.ext (show off 1 + 1 * x.val = l.val by omega)
  have h := View.read_writes_cons_emb (axM).view f (Rect.unit (s := S16x32) off S1x16.size inb) pay Ls (ix2 (0 : Fin 1) x)
  rw [e] at h
  exact h

theorem read_ax_skip (f : S16x32.Idx → EReal) (off : Fin 2 → ℕ) (inb : ∀ a, off a + S1x16.size a ≤ S16x32.size a)
    (pay : S1x16.Idx → EReal) (Ls : List (View.Piece (Elt Ideal) S16x32 .f32)) (ci : Fin 16) (l : Fin 32)
    (h : ¬ (off 0 = ci.val ∧ off 1 ≤ l.val ∧ l.val < off 1 + 16)) :
    (axM).view.writes (Elt Ideal) f (⟨Rect.unit (s := S16x32) off S1x16.size inb, pay⟩ :: Ls) (ix2 ci l)
      = (axM).view.writes (Elt Ideal) f Ls (ix2 ci l) := by
  show (axM).view.read (Elt Ideal) ((axM).view.writes (Elt Ideal) f (⟨Rect.unit (s := S16x32) off S1x16.size inb, pay⟩ :: Ls)) (ix2 ci l) = _
  rw [View.writes_cons, View.read_slice_write_of_not_mem]
  · rfl
  · rw [Rect.map_emb_univ, Rect.mem_set_unit]
    intro hh
    apply h
    have a0 : off 0 ≤ ci.val ∧ ci.val < off 0 + 1 := hh 0
    have a1 : off 1 ≤ l.val ∧ l.val < off 1 + 16 := hh 1
    omega

theorem readAt_ax (gx : S16x32.Idx → EReal) (off : Fin 2 → ℕ) (inb : ∀ a, off a + S1x16.size a ≤ S16x32.size a)
    (ci : Fin 16) (l : Fin 32) (x : Fin 16) (h0 : off 0 = ci.val) (hx : off 1 + x.val = l.val) :
    (axM).view.readAt (Elt Ideal) (Rect.unit (s := S16x32) off S1x16.size inb).toLoadRect gx (ix2 (0 : Fin 1) x) = gx (ix2 ci l) := by
  show gx _ = gx _
  congr 1
  funext a
  match a with
  | ⟨0, _⟩ => exact Fin.ext (show off 0 + 1 * 0 = ci.val by omega)
  | ⟨1, _⟩ => exact Fin.ext (show off 1 + 1 * x.val = l.val by omega)

theorem rmw_ax (R : FVec Ideal S1x16 .f32) (B : FVec Ideal S16 .f32) (x : Fin 16) :
    shapeCast S1x16 (addf (F := Ideal) (shapeCast S16 R shapeCasts_S1x16_S16) B) shapeCasts_S16_S1x16 (ix2 (0 : Fin 1) x)
      = R (ix2 (0 : Fin 1) x) + B (ix1 x) := by
  have h1 := ValueIdx.shapeCast_a_1a_apply (a := 16) (addf (F := Ideal) (shapeCast S16 R shapeCasts_S1x16_S16) B)
    shapeCasts_S16_S1x16 (0 : Fin 1) x
  have h2 := ValueIdx.shapeCast_1a_a_apply (a := 16) R shapeCasts_S1x16_S16 x
  refine h1.trans ?_
  rw [ValueIdx.addf_apply]
  exact congrArg (· + B (ix1 x)) h2

theorem axNew_apply (k : Fin k0_t7_loop.trips) (a : FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32 × FVec Ideal S16 .f32) (v3 : S16.Idx → EReal) (v77 : BitVec 32) (gx : S16x32.Idx → EReal)
    (ci : Fin 16) (l : Fin 32) :
    axNew (F := Ideal) d L k a v3 v77 gx (ix2 ci l)
      = if ci = cell16 k then
          (if h : l.val < 16 then
            gx (ix2 ci l) + ((accFn (F := Ideal) a 16 (ix1 ⟨l.val, h⟩) + accFn (F := Ideal) a 17 (ix1 ⟨l.val, h⟩))
              + (accFn (F := Ideal) a 18 (ix1 ⟨l.val, h⟩) + accFn (F := Ideal) a 19 (ix1 ⟨l.val, h⟩)))
          else gx (ix2 ci l) + (v3 (ix1 ⟨l.val - 16, by omega⟩) + ((v77.toInt : ℝ) : EReal)))
        else gx (ix2 ci l) := by
  have e114 : ∀ a', k0_off114 k a' = (![k.val, 0] : Fin 2 → ℕ) a' := fun a' => congrFun (k0_off114_eq k) a'
  have e115 : ∀ a', k0_off115 k a' = (![k.val, 16] : Fin 2 → ℕ) a' := fun a' => congrFun (k0_off115_eq k) a'
  have h114_0 : k0_off114 k 0 = k.val := e114 0
  have h114_1 : k0_off114 k 1 = 0 := e114 1
  have h115_0 : k0_off115 k 0 = k.val := e115 0
  have h115_1 : k0_off115 k 1 = 16 := e115 1
  unfold axNew
  by_cases h : ci = cell16 k
  · have hv : ci.val = k.val := congrArg Fin.val h
    rw [if_pos h]
    by_cases hl : l.val < 16
    · rw [dif_pos hl, read_ax_skip _ _ _ _ _ ci l (by rw [h115_1]; omega),
        read_ax_hit _ _ _ _ _ ci l ⟨l.val, hl⟩ (by rw [h114_0, hv]) (by rw [h114_1]; exact Nat.zero_add _),
        rmw_ax, readAt_ax gx _ _ ci l ⟨l.val, hl⟩ (by rw [h114_0, hv]) (by rw [h114_1]; exact Nat.zero_add _)]
      rfl
    · rw [dif_neg hl, read_ax_hit _ _ _ _ _ ci l ⟨l.val - 16, by omega⟩ (by rw [h115_0, hv]) (by rw [h115_1]; show 16 + (l.val - 16) = l.val; omega),
        rmw_ax, readAt_ax gx _ _ ci l ⟨l.val - 16, by omega⟩ (by rw [h115_0, hv]) (by rw [h115_1]; show 16 + (l.val - 16) = l.val; omega)]
      rfl
  · have hv : ci.val ≠ k.val := fun hh => h (Fin.ext hh)
    rw [if_neg h, read_ax_skip _ _ _ _ _ ci l (by rw [h115_0]; omega), read_ax_skip _ _ _ _ _ ci l (by rw [h114_0]; omega)]
    rfl

end AxStore

end Cert.Proof.KI

end
-- ==== Proof.ScClsVal.lean ====
import proofs.«216278_g4776003633407_cont_8to1_c_644_33_alg».proof.Proof.ScClsValRun
import proofs.«216278_g4776003633407_cont_8to1_c_644_33_alg».proof.Proof.ScClsStoreA
import proofs.«216278_g4776003633407_cont_8to1_c_644_33_alg».proof.Proof.ScClsStoreX
import proofs.«216278_g4776003633407_cont_8to1_c_644_33_alg».proof.Proof.ScMath
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Cert.Proof.Sort (W)

variable {F : FTy → Type}

local notation "𝕄" => MT nD τ sig (HIx 1) (Elt F) ℕ UU ℕ

variable (d : Dev nD) (L : grid0.Coords) [FloatOps F]

local notation "𝕄I" => MT nD τ sig (HIx 1) (Elt Ideal) ℕ UU ℕ

theorem accFn_step_sum (P : Fin 16 → FVec F S16 .f32) (a : Acc20 F) (n : Fin 16) :
    accFn (stepFn P a) (Fin.castAdd 4 n) = addf (accFn a (Fin.castAdd 4 n)) (P n) := by
  fin_cases n <;> rfl

theorem accFn_step_sq (P : Fin 16 → FVec F S16 .f32) (a : Acc20 F) (m : Fin 4) :
    accFn (stepFn P a) (Fin.natAdd 16 m)
      = sqStep (accFn a (Fin.natAdd 16 m)) (P (Spec.piece4 0 m)) (P (Spec.piece4 1 m)) (P (Spec.piece4 2 m)) (P (Spec.piece4 3 m)) := by
  fin_cases m <;> rfl

theorem accFn_init (v3 : FVec F S16 .f32) (j : Fin 20) :
    accFn (v3, v3, v3, v3, v3, v3, v3, v3, v3, v3, v3, v3, v3, v3, v3, v3, v3, v3, v3, v3) j = v3 := by
  fin_cases j <;> rfl

section IdealSums

def JRow (G : ℕ → Fin 16 → S16.Idx → EReal) (v3 : S16.Idx → EReal) (i : ℕ) (a : Acc20 Ideal) : Prop :=
  (∀ (n : Fin 16) (l : S16.Idx), accFn (F := Ideal) a (Fin.castAdd 4 n) l = v3 l + ∑ i' ∈ Finset.range i, G i' n l) ∧
  (∀ (m : Fin 4) (l : S16.Idx), accFn (F := Ideal) a (Fin.natAdd 16 m) l
      = v3 l + ∑ i' ∈ Finset.range i, ∑ q : Fin 4, G i' (Spec.piece4 q m) l * G i' (Spec.piece4 q m) l)

theorem JRow_zero (G : ℕ → Fin 16 → S16.Idx → EReal) (v3 : S16.Idx → EReal) :
    JRow G v3 0 (v3, v3, v3, v3, v3, v3, v3, v3, v3, v3, v3, v3, v3, v3, v3, v3, v3, v3, v3, v3) := by
  refine ⟨fun n l => ?_, fun m l => ?_⟩
  · rw [accFn_init, Finset.range_zero, Finset.sum_empty, add_zero]
  · rw [accFn_init, Finset.range_zero, Finset.sum_empty, add_zero]

theorem JRow_step (G : ℕ → Fin 16 → S16.Idx → EReal) (v3 : S16.Idx → EReal) (i : ℕ) (a : Acc20 Ideal)
    (h : JRow G v3 i a) : JRow G v3 (i + 1) (stepFn (F := Ideal) (G i) a) := by
  refine ⟨fun n l => ?_, fun m l => ?_⟩
  · rw [accFn_step_sum, ValueIdx.addf_apply, h.1 n l, Finset.sum_range_succ, add_assoc]
  · rw [accFn_step_sq]
    unfold sqStep
    simp only [ValueIdx.addf_apply, ValueIdx.mulf_apply]
    rw [h.2 m l, Finset.sum_range_succ, Fin.sum_univ_four]
    simp only [add_assoc]

end IdealSums

section IdealPieces

open Cert.Proof.Spec

-- Lane `l` of the 16-lane piece at `off` is the buffer's element there: slot `off 0`, row `off 1`, feature `off 2 + l`.
theorem piece_lane {off : Fin 3 → ℕ} (inb : ∀ a, off a + S1x1x16.size a ≤ S2x128x256.size a)
    {f0 : S2x128x256.Idx → EReal} {s : Fin 2} {r : Fin 128} {n l : Fin 16}
    (h0 : off 0 = s.val) (h1 : off 1 = r.val) (h2 : off 2 = 16 * n.val) :
    shapeCast S16 ((fbufM).view.readAt (Elt Ideal) (Rect.unit (s := S2x128x256) off S1x1x16.size inb).toLoadRect f0)
        shapeCasts_S1x1x16_S16 (ix1 l) = f0 (ix3 s r (lane n l)) := by
  rw [shapeCast_apply _ _ (ix1 l) (ix3 (0 : Fin 1) (0 : Fin 1) l)
    (by rw [Shape.rowMajor_val_three, Shape.rowMajor_val_one]; simp)]
  show f0 _ = f0 _
  congr 1
  funext a
  match a with
  | ⟨0, _⟩ => exact Fin.ext (show off 0 + 1 * 0 = s.val by omega)
  | ⟨1, _⟩ => exact Fin.ext (show off 1 + 1 * 0 = r.val by omega)
  | ⟨2, _⟩ => exact Fin.ext (show off 2 + 1 * l.val = 16 * n.val + l.val by omega)

end IdealPieces

section IdealRow

open Cert.Proof.Spec

theorem rowPiece_apply (k0_t2 : Fin k0_t2_loop.trips) (f0 : S2x128x256.Idx → EReal) (w : BitVec 32) (h : k0_chk21 k0_t2 w)
    (hw : w.toNat < 128) (n : Fin 16) (l : Fin 16) :
    rowPiece (F := Ideal) d L k0_t2 f0 w h n (ix1 l)
      = f0 (ix3 (⟨k0_t2.val % 2, Nat.mod_lt _ (by decide)⟩ : Fin 2) (⟨w.toNat, hw⟩ : Fin 128) (Spec.lane n l)) :=
  match n with
  | ⟨0, _⟩ => piece_lane (k0_off65_inb k0_t2 w h) (off65_first k0_t2 w) rfl rfl
  | ⟨1, _⟩ => piece_lane (k0_off66_inb k0_t2 w h) (off66_first k0_t2 w) rfl rfl
  | ⟨2, _⟩ => piece_lane (k0_off67_inb k0_t2 w h) (off67_first k0_t2 w) rfl rfl
  | ⟨3, _⟩ => piece_lane (k0_off68_inb k0_t2 w h) (off68_first k0_t2 w) rfl rfl
  | ⟨4, _⟩ => piece_lane (k0_off69_inb k0_t2 w h) (off69_first k0_t2 w) rfl rfl
  | ⟨5, _⟩ => piece_lane (k0_off70_inb k0_t2 w h) (off70_first k0_t2 w) rfl rfl
  | ⟨6, _⟩ => piece_lane (k0_off71_inb k0_t2 w h) (off71_first k0_t2 w) rfl rfl
  | ⟨7, _⟩ => piece_lane (k0_off72_inb k0_t2 w h) (off72_first k0_t2 w) rfl rfl
  | ⟨8, _⟩ => piece_lane (k0_off73_inb k0_t2 w h) (off73_first k0_t2 w) rfl rfl
  | ⟨9, _⟩ => piece_lane (k0_off74_inb k0_t2 w h) (off74_first k0_t2 w) rfl rfl
  | ⟨10, _⟩ => piece_lane (k0_off75_inb k0_t2 w h) (off75_first k0_t2 w) rfl rfl
  | ⟨11, _⟩ => piece_lane (k0_off76_inb k0_t2 w h) (off76_first k0_t2 w) rfl rfl
  | ⟨12, _⟩ => piece_lane (k0_off77_inb k0_t2 w h) (off77_first k0_t2 w) rfl rfl
  | ⟨13, _⟩ => piece_lane (k0_off78_inb k0_t2 w h) (off78_first k0_t2 w) rfl rfl
  | ⟨14, _⟩ => piece_lane (k0_off79_inb k0_t2 w h) (off79_first k0_t2 w) rfl rfl
  | ⟨15, _⟩ => piece_lane (k0_off80_inb k0_t2 w h) (off80_first k0_t2 w) rfl rfl
  | ⟨n' + 16, hn⟩ => absurd hn (by omega)

def bucketOf (fb : S128.Idx → BitVec 32) (p : ℕ) : Fin 128 :=
  if h : p < 128 then ⟨(fb (ix1 ⟨p, h⟩)).toNat % 128, Nat.mod_lt _ (by decide)⟩ else 0

theorem bucketOf_pos (lab : Fin 128 → ℕ) (hlab : ∀ r, lab r ≤ 12) (fb : S128.Idx → BitVec 32)
    (hfb : ∀ r : Fin 128, fb (ix1 ⟨Sort.pos lab r, Sort.pos_lt lab hlab r⟩) = W r.val) (r : Fin 128) :
    bucketOf fb (Sort.pos lab r) = r := by
  unfold bucketOf
  rw [dif_pos (Sort.pos_lt lab hlab r)]
  apply Fin.ext
  show (fb (ix1 ⟨Sort.pos lab r, Sort.pos_lt lab hlab r⟩)).toNat % 128 = r.val
  rw [hfb r, Sort.W_toNat (by have := r.isLt; omega), Nat.mod_eq_of_lt r.isLt]

theorem bucketOf_val (lab : Fin 128 → ℕ) (hlab : ∀ r, lab r ≤ 12) (fb : S128.Idx → BitVec 32)
    (hfb : ∀ r : Fin 128, fb (ix1 ⟨Sort.pos lab r, Sort.pos_lt lab hlab r⟩) = W r.val) (p : ℕ) (hp : p < 128) :
    (bucketOf fb p).val = (fb (ix1 ⟨p, hp⟩)).toNat := by
  unfold bucketOf
  rw [dif_pos hp]
  exact Nat.mod_eq_of_lt (bucket_lt lab hlab fb hfb _)

theorem bktWord_W (fb : S128.Idx → BitVec 32) {c o : ℕ} (hw20 : k0_chk20 (W c) (W o)) (i : Fin (k0_t8_loop (W c)).trips)
    (hoi : o + i.val < 128) :
    bktWord (F := Ideal) fb (W c) (W o) hw20 i = fb (ix1 ⟨o + i.val, hoi⟩) := by
  show fb _ = fb _
  congr 1
  refine funext fun (a : Fin 1) => ?_
  obtain rfl : a = 0 := Subsingleton.elim _ _
  apply Fin.ext
  show k0_off64 (W c) (W o) i 0 + 1 * 0 = o + i.val
  rw [off64_W]
  show (W (o + i.val)).toNat + 1 * 0 = o + i.val
  rw [Sort.W_toNat (by omega)]
  omega

end IdealRow

section IdealExit

open Cert.Proof.Spec

variable (X : Fin 65536 → Fin 256 → EReal) (LAB : Fin 65536 → ℕ) (w : Fin 32) (g : Fin 8)

def GRow (k0_t2 : Fin k0_t2_loop.trips) (f0 : S2x128x256.Idx → EReal) (fb : S128.Idx → BitVec 32) (v77 v79 : BitVec 32)
    (hw20 : k0_chk20 v77 v79) (hfb21 : ∀ q : S128.Idx, k0_chk21 k0_t2 (fb q)) (i : ℕ) (n : Fin 16) : S16.Idx → EReal :=
  if h : i < (k0_t8_loop v77).trips then
    rowPiece (F := Ideal) d L k0_t2 f0 (bktWord (F := Ideal) fb v77 v79 hw20 ⟨i, h⟩) (hfb21 _) n
  else fun _ => 0

theorem GRow_at (k0_t2 : Fin k0_t2_loop.trips) (f0 : S2x128x256.Idx → EReal) (fb : S128.Idx → BitVec 32) (v77 v79 : BitVec 32)
    (hw20 : k0_chk20 v77 v79) (hfb21 : ∀ q : S128.Idx, k0_chk21 k0_t2 (fb q)) (i : Fin (k0_t8_loop v77).trips) :
    GRow d L k0_t2 f0 fb v77 v79 hw20 hfb21 i.val
      = rowPiece (F := Ideal) d L k0_t2 f0 (bktWord (F := Ideal) fb v77 v79 hw20 i) (hfb21 _) := by
  funext n
  unfold GRow
  rw [dif_pos i.isLt]

theorem GRow_apply (p : Fin 2) (k0_t2 : Fin k0_t2_loop.trips) (hp : k0_t2.val % 2 = p.val)
    (lab : Fin 128 → ℕ) (hlab : ∀ r, lab r ≤ 12) (fb : S128.Idx → BitVec 32)
    (hfb : ∀ r : Fin 128, fb (ix1 ⟨Sort.pos lab r, Sort.pos_lt lab hlab r⟩) = W r.val)
    (f0 : S2x128x256.Idx → EReal) (hfbc : ∀ (r : Fin 128) (j : Fin 256), f0 (ix3 p r j) = X (scRow w (chunkRow g r)) j)
    {c o : ℕ} (hoc : o + c ≤ 128) (hw20 : k0_chk20 (W c) (W o)) (hfb21 : ∀ q : S128.Idx, k0_chk21 k0_t2 (fb q))
    (i : ℕ) (hi : i < c) (n l : Fin 16) :
    GRow d L k0_t2 f0 fb (W c) (W o) hw20 hfb21 i n (ix1 l)
      = X (scRow w (chunkRow g (bucketOf fb (o + i)))) (lane n l) := by
  have htr : (k0_t8_loop (W c)).trips = c := t8_trips_W ⟨c, by omega⟩
  have hit : i < (k0_t8_loop (W c)).trips := by rw [htr]; exact hi
  have hoi : o + i < 128 := by omega
  have hbw : bktWord (F := Ideal) fb (W c) (W o) hw20 ⟨i, hit⟩ = fb (ix1 ⟨o + i, hoi⟩) := bktWord_W fb hw20 ⟨i, hit⟩ hoi
  have hw : (bktWord (F := Ideal) fb (W c) (W o) hw20 ⟨i, hit⟩).toNat < 128 := by
    rw [hbw]; exact bucket_lt lab hlab fb hfb _
  unfold GRow
  rw [dif_pos hit]
  refine (rowPiece_apply d L k0_t2 f0 _ _ hw n l).trans ?_
  rw [← hfbc]
  congr 1
  funext a
  match a with
  | ⟨0, _⟩ => exact Fin.ext hp
  | ⟨1, _⟩ =>
    apply Fin.ext
    show (bktWord (F := Ideal) fb (W c) (W o) hw20 ⟨i, hit⟩).toNat = (bucketOf fb (o + i)).val
    rw [hbw, bucketOf_val lab hlab fb hfb _ hoi]
  | ⟨2, _⟩ => rfl

theorem row_sums (p : Fin 2) (k0_t2 : Fin k0_t2_loop.trips) (hp : k0_t2.val % 2 = p.val)
    (hlab : ∀ r, chunkLab LAB w g r ≤ 12) (fb : S128.Idx → BitVec 32)
    (hfb : ∀ r : Fin 128, fb (ix1 ⟨Sort.pos (chunkLab LAB w g) r, Sort.pos_lt _ hlab r⟩) = W r.val)
    (f0 : S2x128x256.Idx → EReal) (hfbc : ∀ (r : Fin 128) (j : Fin 256), f0 (ix3 p r j) = X (scRow w (chunkRow g r)) j)
    (v3 : S16.Idx → EReal) (hv3 : ∀ l, v3 l = 0) (ci : ℕ) (hci : ci ≤ 12)
    (v77 v79 : BitVec 32) (hc : v77 = W (Sort.cnt (chunkLab LAB w g) ci)) (ho : v79 = W (Sort.off (chunkLab LAB w g) ci))
    (hw20 : k0_chk20 v77 v79) (hfb21 : ∀ q : S128.Idx, k0_chk21 k0_t2 (fb q)) (a1 : Acc20 Ideal)
    (hJ : JRow (GRow d L k0_t2 f0 fb v77 v79 hw20 hfb21) v3 (k0_t8_loop v77).trips a1) :
    (∀ n l : Fin 16, accFn (F := Ideal) a1 (Fin.castAdd 4 n) (ix1 l) = chunkF X LAB w g ci (lane n l)) ∧
    (∀ l : Fin 16, (accFn (F := Ideal) a1 16 (ix1 l) + accFn (F := Ideal) a1 17 (ix1 l))
        + (accFn (F := Ideal) a1 18 (ix1 l) + accFn (F := Ideal) a1 19 (ix1 l)) = chunkSq X LAB w g ci l) := by
  subst hc
  subst ho
  have hoc := Sort.off_add_cnt_le (chunkLab LAB w g) hlab hci
  have htr : (k0_t8_loop (W (Sort.cnt (chunkLab LAB w g) ci))).trips = Sort.cnt (chunkLab LAB w g) ci :=
    t8_trips_W ⟨Sort.cnt (chunkLab LAB w g) ci, by omega⟩
  rw [htr] at hJ
  have hb : ∀ r, bucketOf fb (Sort.pos (chunkLab LAB w g) r) = r := bucketOf_pos (chunkLab LAB w g) hlab fb hfb
  have hG := fun (i : ℕ) (hi : i < Sort.cnt (chunkLab LAB w g) ci) (n l : Fin 16) =>
    GRow_apply d L X w g p k0_t2 hp (chunkLab LAB w g) hlab fb hfb f0 hfbc hoc hw20 hfb21 i hi n l
  constructor
  · intro n l
    rw [hJ.1 n (ix1 l), hv3, zero_add, chunkF_slots X LAB w g (bucketOf fb) hb ci (lane n l)]
    exact Finset.sum_congr rfl fun i hi => hG i (Finset.mem_range.mp hi) n l
  · intro l
    refine chunkSq_slots4 X LAB w g (bucketOf fb) hb ci l (fun m => accFn (F := Ideal) a1 (Fin.natAdd 16 m) (ix1 l)) (fun m => ?_)
    rw [hJ.2 m (ix1 l), hv3, zero_add]
    refine Finset.sum_congr rfl fun i hi => Finset.sum_congr rfl fun q _ => ?_
    rw [hG i (Finset.mem_range.mp hi) (piece4 q m) l]

end IdealExit

section IdealRegion

open Cert.Proof.Spec

variable (X : Fin 65536 → Fin 256 → EReal) (LAB : Fin 65536 → ℕ) (w : Fin 32) (g : Fin 8)

def axLane (g' : Fin 8) (ci : ℕ) (l : Fin 32) : EReal :=
  if h : l.val < 16 then chunkSq X LAB w g' ci ⟨l.val, h⟩ else ((Sort.cnt (chunkLab LAB w g') ci : ℝ) : EReal)

def AfAt (k : ℕ) (ga : S16x256.Idx → EReal) : Prop :=
  ∀ ci : Fin 16, ci.val < 13 → ∀ j : Fin 256,
    ga (ix2 ci j) = upTo8 (fun g' => chunkF X LAB w g' ci.val j) (if ci.val < k then g.val + 1 else g.val)

def AxAt (k : ℕ) (gx : S16x32.Idx → EReal) : Prop :=
  ∀ ci : Fin 16, ci.val < 13 → ∀ l : Fin 32,
    gx (ix2 ci l) = upTo8 (fun g' => axLane X LAB w g' ci.val l) (if ci.val < k then g.val + 1 else g.val)

def ZeroHi (ga : S16x256.Idx → EReal) (gx : S16x32.Idx → EReal) : Prop :=
  ∀ ci : Fin 16, 13 ≤ ci.val → (∀ j : Fin 256, ga (ix2 ci j) = 0) ∧ (∀ l : Fin 32, gx (ix2 ci l) = 0)

theorem AfAt_thirteen {ga : S16x256.Idx → EReal} (h : AfAt X LAB w g 13 ga) (ci : Fin 16) (hci : ci.val < 13) (j : Fin 256) :
    ga (ix2 ci j) = upTo8 (fun g' => chunkF X LAB w g' ci.val j) (g.val + 1) := by
  rw [h ci hci j, if_pos hci]

theorem AxAt_thirteen {gx : S16x32.Idx → EReal} (h : AxAt X LAB w g 13 gx) (ci : Fin 16) (hci : ci.val < 13) (l : Fin 32) :
    gx (ix2 ci l) = upTo8 (fun g' => axLane X LAB w g' ci.val l) (g.val + 1) := by
  rw [h ci hci l, if_pos hci]

theorem AfAt_zero_iff (ga : S16x256.Idx → EReal) :
    AfAt X LAB w g 0 ga ↔ ∀ ci : Fin 16, ci.val < 13 → ∀ j : Fin 256,
      ga (ix2 ci j) = upTo8 (fun g' => chunkF X LAB w g' ci.val j) g.val := by
  unfold AfAt
  simp only [Nat.not_lt_zero, if_false]

theorem AxAt_zero_iff (gx : S16x32.Idx → EReal) :
    AxAt X LAB w g 0 gx ↔ ∀ ci : Fin 16, ci.val < 13 → ∀ l : Fin 32,
      gx (ix2 ci l) = upTo8 (fun g' => axLane X LAB w g' ci.val l) g.val := by
  unfold AxAt
  simp only [Nat.not_lt_zero, if_false]

theorem scA_eq_upTo8_axLane (ci : Fin 16) (l : Fin 32) :
    scA X LAB w ci l = upTo8 (fun g' => axLane X LAB w g' ci.val l) 8 := by
  by_cases h : l.val < 16
  · rw [scA_lo_eq_upTo8 X LAB w ci l h]
    congr 1
    funext g'
    unfold axLane
    rw [dif_pos h]
  · rw [scA_hi_eq_upTo8 X LAB w ci l h]
    congr 1
    funext g'
    unfold axLane
    rw [dif_neg h]

theorem scF_eq_upTo8_chunkF (ci : Fin 16) (j : Fin 256) :
    scF X LAB w ci j = upTo8 (fun g' => chunkF X LAB w g' ci.val j) 8 := scF_eq_upTo8 X LAB w ci j

theorem AfAt_step (k : Fin k0_t7_loop.trips) (a1 : Acc20 Ideal) (ga : S16x256.Idx → EReal) (ha : AfAt X LAB w g k.val ga)
    (hsum : ∀ n l : Fin 16, accFn (F := Ideal) a1 (Fin.castAdd 4 n) (ix1 l) = chunkF X LAB w g k.val (lane n l)) :
    AfAt X LAB w g (k.val + 1) (afNew (F := Ideal) d L k a1 ga) := by
  intro ci hci j
  rw [afNew_apply]
  by_cases h : ci = cell16 k
  · have hv : ci.val = k.val := congrArg Fin.val h
    rw [if_pos h, ha ci hci j, if_neg (show ¬ ci.val < k.val by omega), if_pos (show ci.val < k.val + 1 by omega), upTo8_succ]
    congr 1
    have hs := hsum ⟨j.val / 16, by omega⟩ ⟨j.val % 16, Nat.mod_lt _ (by decide)⟩
    have hl : lane ⟨j.val / 16, by omega⟩ ⟨j.val % 16, Nat.mod_lt _ (by decide)⟩ = j :=
      Fin.ext (show 16 * (j.val / 16) + j.val % 16 = j.val by omega)
    rw [hl] at hs
    rw [hv]
    exact hs
  · have hv : ci.val ≠ k.val := fun hh => h (Fin.ext hh)
    rw [if_neg h, ha ci hci j]
    by_cases h2 : ci.val < k.val
    · rw [if_pos h2, if_pos (show ci.val < k.val + 1 by omega)]
    · rw [if_neg h2, if_neg (show ¬ ci.val < k.val + 1 by omega)]

theorem AxAt_step (k : Fin k0_t7_loop.trips) (a1 : Acc20 Ideal) (v3 : S16.Idx → EReal) (hv3 : ∀ l, v3 l = 0) (v77 : BitVec 32)
    (gx : S16x32.Idx → EReal) (hx : AxAt X LAB w g k.val gx)
    (hsq : ∀ l : Fin 16, (accFn (F := Ideal) a1 16 (ix1 l) + accFn (F := Ideal) a1 17 (ix1 l))
        + (accFn (F := Ideal) a1 18 (ix1 l) + accFn (F := Ideal) a1 19 (ix1 l)) = chunkSq X LAB w g k.val l)
    (hcnt : ((v77.toInt : ℝ) : EReal) = ((Sort.cnt (chunkLab LAB w g) k.val : ℝ) : EReal)) :
    AxAt X LAB w g (k.val + 1) (axNew (F := Ideal) d L k a1 v3 v77 gx) := by
  intro ci hci l
  rw [axNew_apply]
  by_cases h : ci = cell16 k
  · have hv : ci.val = k.val := congrArg Fin.val h
    rw [if_pos h, hx ci hci l, if_neg (show ¬ ci.val < k.val by omega), if_pos (show ci.val < k.val + 1 by omega), upTo8_succ]
    by_cases hl : l.val < 16
    · rw [dif_pos hl]
      congr 1
      unfold axLane
      rw [dif_pos hl, hv]
      exact hsq ⟨l.val, hl⟩
    · rw [dif_neg hl]
      congr 1
      unfold axLane
      rw [dif_neg hl, hv3, zero_add, hv]
      exact hcnt
  · have hv : ci.val ≠ k.val := fun hh => h (Fin.ext hh)
    rw [if_neg h, hx ci hci l]
    by_cases h2 : ci.val < k.val
    · rw [if_pos h2, if_pos (show ci.val < k.val + 1 by omega)]
    · rw [if_neg h2, if_neg (show ¬ ci.val < k.val + 1 by omega)]

theorem ZeroHi_step (k : Fin k0_t7_loop.trips) (a1 : Acc20 Ideal) (v3 : S16.Idx → EReal) (v77 : BitVec 32)
    (ga : S16x256.Idx → EReal) (gx : S16x32.Idx → EReal) (hz : ZeroHi ga gx) :
    ZeroHi (afNew (F := Ideal) d L k a1 ga) (axNew (F := Ideal) d L k a1 v3 v77 gx) := by
  intro ci hci
  have hne : ci ≠ cell16 k := fun hh => by
    have := congrArg Fin.val hh
    have hk := k.isLt
    have e := t7_trips
    have : ci.val = k.val := this
    omega
  refine ⟨fun j => ?_, fun l => ?_⟩
  · rw [afNew_apply, if_neg hne]; exact (hz ci hci).1 j
  · rw [axNew_apply, if_neg hne]; exact (hz ci hci).2 l

def inv7v0 (fc fo : S16.Idx → BitVec 32) (fb : S128.Idx → BitVec 32) (f0 : S2x128x256.Idx → EReal) (k : Nat) (_ : Unit) : sProp 𝕄I :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM1).view.set]{fullShare} f0)
    ∗ ∃ (ga : S16x256.Idx → EReal) (gx : S16x32.Idx → EReal), ⌜AfAt X LAB w g k ga ∧ AxAt X LAB w g k gx ∧ ZeroHi ga gx⌝
        ∗ ((afM).view.loc (thrC d L) ↦{fullShare} ga) ∗ ((axM).view.loc (thrC d L) ↦{fullShare} gx))

theorem inv7v0_intro (fc fo : S16.Idx → BitVec 32) (fb : S128.Idx → BitVec 32) (f0 : S2x128x256.Idx → EReal)
    (ga : S16x256.Idx → EReal) (gx : S16x32.Idx → EReal) (k : Nat) (u : Unit)
    (ha : AfAt X LAB w g k ga) (hx : AxAt X LAB w g k gx) (hz : ZeroHi ga gx) :
    (iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM1).view.set]{fullShare} f0)
      ∗ ((afM).view.loc (thrC d L) ↦{fullShare} ga) ∗ ((axM).view.loc (thrC d L) ↦{fullShare} gx)) : sProp 𝕄I)
      ⊢ inv7v0 d L X LAB w g fc fo fb f0 k u := by
  unfold inv7v0
  iintro ⟨Hc, Ho, Hb, Hf, Ha, Hx⟩
  iframe Hc Ho Hb Hf
  iexists ga, gx
  isplitr
  · ipureintro; exact ⟨ha, hx, hz⟩
  iframe

set_option maxHeartbeats 4000000 in
theorem t7v_region0 (hlab : ∀ r, chunkLab LAB w g r ≤ 12) (fc fo : S16.Idx → BitVec 32) (fb : S128.Idx → BitVec 32)
    (f0 : S2x128x256.Idx → EReal)
    (hfc : ∀ ci : Fin 16, ci.val < 13 → fc (ix1 ci) = W (Sort.cnt (chunkLab LAB w g) ci.val))
    (hfo : ∀ ci : Fin 16, ci.val < 13 → fo (ix1 ci) = W (Sort.off (chunkLab LAB w g) ci.val))
    (hfb : ∀ r : Fin 128, fb (ix1 ⟨Sort.pos (chunkLab LAB w g) r, Sort.pos_lt _ hlab r⟩) = W r.val)
    (hfbc : ∀ (r : Fin 128) (j : Fin 256), f0 (ix3 (0 : Fin 2) r j) = X (scRow w (chunkRow g r)) j)
    (v2 : BitVec 32) (v3 : FVec Ideal S16 .f32) (hv3 : ∀ l, v3 l = 0) (k0_t2 : Fin k0_t2_loop.trips) (hp : k0_t2.val % 2 = 0) (v49 : BitVec 32)
    (k : Fin k0_t7_loop.trips) (acc : Unit) :
    inv7v0 d L X LAB w g fc fo fb f0 k.val acc
      ⊢ wp frame (wpE (defs₀ (F := Ideal)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7v0 d L X LAB w g fc fo fb f0 (k.val + 1)) := by
  have hk13 : (cell16 k).val < 13 := by have := k.isLt; have e := t7_trips; show k.val < 13; omega
  have hk12 : k.val ≤ 12 := by have : k.val < 13 := hk13; omega
  have hcw : cntWord (F := Ideal) fc k = W (Sort.cnt (chunkLab LAB w g) k.val) := (readCnt_at (F := Ideal) fc k _).trans (hfc _ hk13)
  have how : offWord (F := Ideal) fo k = W (Sort.off (chunkLab LAB w g) k.val) := (readOff_at (F := Ideal) fo k _).trans (hfo _ hk13)
  have hw20 : k0_chk20 (cntWord (F := Ideal) fc k) (offWord (F := Ideal) fo k) := by
    rw [hcw, how]; exact chk20_W (Sort.off_add_cnt_le _ hlab hk12)
  have hfb21 : ∀ q : S128.Idx, k0_chk21 k0_t2 (fb q) := fun q => chk21_of k0_t2 (fb q) (bucket_lt _ hlab fb hfb q)
  unfold inv7v0
  iintro ⟨Hc, Ho, Hb, Hf, ⟨%ga, %gx, %hpure, Ha, Hx⟩⟩
  obtain ⟨ha, hx, hz⟩ := hpure
  iapply (wp_wand_r _ _ _)
  isplitl [Hc Ho Hb Hf Ha Hx]
  · iapply (t7_val (F := Ideal) d L (fSlotM1).view.set fc fo fb f0 v2 v3 k0_t2 (fun off inb h => disj_slot1 off inb (h.trans hp)) v49 k acc ga gx hw20 hfb21
      (JRow (GRow d L k0_t2 f0 fb (cntWord (F := Ideal) fc k) (offWord (F := Ideal) fo k) hw20 hfb21) v3)
      (JRow_zero _ v3)
      (fun i a h => by have := JRow_step _ v3 i.val a h; rwa [GRow_at] at this))
    iframe
  · iintro %u HQ
    icases HQ with ⟨%a1, %hJ1, Hc, Ho, Hb, Hf, Ha, Hx⟩
    have hs := row_sums d L X LAB w g (0 : Fin 2) k0_t2 hp hlab fb hfb f0 hfbc v3 hv3 k.val hk12 _ _ hcw how hw20 hfb21 a1 hJ1
    have hcnt : (((cntWord (F := Ideal) fc k).toInt : ℝ) : EReal) = ((Sort.cnt (chunkLab LAB w g) k.val : ℝ) : EReal) := by
      rw [hcw]
      exact congrArg (fun r : ℝ => (r : EReal)) (Sort.W_toInt_real (by have := Sort.cnt_le (chunkLab LAB w g) k.val; omega))
    iframe Hc Ho Hb Hf
    iexists (afNew (F := Ideal) d L k a1 ga), (axNew (F := Ideal) d L k a1 v3 (cntWord (F := Ideal) fc k) gx)
    isplitr
    · ipureintro
      exact ⟨AfAt_step d L X LAB w g k a1 ga ha hs.1, AxAt_step d L X LAB w g k a1 v3 hv3 _ gx hx hs.2 hcnt,
        ZeroHi_step d L k a1 v3 _ ga gx hz⟩
    iframe

def inv7v1 (fc fo : S16.Idx → BitVec 32) (fb : S128.Idx → BitVec 32) (f0 : S2x128x256.Idx → EReal) (k : Nat) (_ : Unit) : sProp 𝕄I :=
  iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM0).view.set]{fullShare} f0)
    ∗ ∃ (ga : S16x256.Idx → EReal) (gx : S16x32.Idx → EReal), ⌜AfAt X LAB w g k ga ∧ AxAt X LAB w g k gx ∧ ZeroHi ga gx⌝
        ∗ ((afM).view.loc (thrC d L) ↦{fullShare} ga) ∗ ((axM).view.loc (thrC d L) ↦{fullShare} gx))

theorem inv7v1_intro (fc fo : S16.Idx → BitVec 32) (fb : S128.Idx → BitVec 32) (f0 : S2x128x256.Idx → EReal)
    (ga : S16x256.Idx → EReal) (gx : S16x32.Idx → EReal) (k : Nat) (u : Unit)
    (ha : AfAt X LAB w g k ga) (hx : AxAt X LAB w g k gx) (hz : ZeroHi ga gx) :
    (iprop(((cntM).view.loc (thrC d L) ↦{fullShare} fc) ∗ ((offM).view.loc (thrC d L) ↦{fullShare} fo) ∗ ((bktM).view.loc (thrC d L) ↦{fullShare} fb)
    ∗ ((fbufM).view.loc (thrC d L) ↦[Finset.univ \ (fSlotM0).view.set]{fullShare} f0)
      ∗ ((afM).view.loc (thrC d L) ↦{fullShare} ga) ∗ ((axM).view.loc (thrC d L) ↦{fullShare} gx)) : sProp 𝕄I)
      ⊢ inv7v1 d L X LAB w g fc fo fb f0 k u := by
  unfold inv7v1
  iintro ⟨Hc, Ho, Hb, Hf, Ha, Hx⟩
  iframe Hc Ho Hb Hf
  iexists ga, gx
  isplitr
  · ipureintro; exact ⟨ha, hx, hz⟩
  iframe

set_option maxHeartbeats 4000000 in
theorem t7v_region1 (hlab : ∀ r, chunkLab LAB w g r ≤ 12) (fc fo : S16.Idx → BitVec 32) (fb : S128.Idx → BitVec 32)
    (f0 : S2x128x256.Idx → EReal)
    (hfc : ∀ ci : Fin 16, ci.val < 13 → fc (ix1 ci) = W (Sort.cnt (chunkLab LAB w g) ci.val))
    (hfo : ∀ ci : Fin 16, ci.val < 13 → fo (ix1 ci) = W (Sort.off (chunkLab LAB w g) ci.val))
    (hfb : ∀ r : Fin 128, fb (ix1 ⟨Sort.pos (chunkLab LAB w g) r, Sort.pos_lt _ hlab r⟩) = W r.val)
    (hfbc : ∀ (r : Fin 128) (j : Fin 256), f0 (ix3 (1 : Fin 2) r j) = X (scRow w (chunkRow g r)) j)
    (v2 : BitVec 32) (v3 : FVec Ideal S16 .f32) (hv3 : ∀ l, v3 l = 0) (k0_t2 : Fin k0_t2_loop.trips) (hp : k0_t2.val % 2 = 1) (v49 : BitVec 32)
    (k : Fin k0_t7_loop.trips) (acc : Unit) :
    inv7v1 d L X LAB w g fc fo fb f0 k.val acc
      ⊢ wp frame (wpE (defs₀ (F := Ideal)) 𝒱₀ (thrC d L) none) Set.univ
          (k0_t7_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1 v2 v3 k0_t2 v49 k acc)
          (inv7v1 d L X LAB w g fc fo fb f0 (k.val + 1)) := by
  have hk13 : (cell16 k).val < 13 := by have := k.isLt; have e := t7_trips; show k.val < 13; omega
  have hk12 : k.val ≤ 12 := by have : k.val < 13 := hk13; omega
  have hcw : cntWord (F := Ideal) fc k = W (Sort.cnt (chunkLab LAB w g) k.val) := (readCnt_at (F := Ideal) fc k _).trans (hfc _ hk13)
  have how : offWord (F := Ideal) fo k = W (Sort.off (chunkLab LAB w g) k.val) := (readOff_at (F := Ideal) fo k _).trans (hfo _ hk13)
  have hw20 : k0_chk20 (cntWord (F := Ideal) fc k) (offWord (F := Ideal) fo k) := by
    rw [hcw, how]; exact chk20_W (Sort.off_add_cnt_le _ hlab hk12)
  have hfb21 : ∀ q : S128.Idx, k0_chk21 k0_t2 (fb q) := fun q => chk21_of k0_t2 (fb q) (bucket_lt _ hlab fb hfb q)
  unfold inv7v1
  iintro ⟨Hc, Ho, Hb, Hf, ⟨%ga, %gx, %hpure, Ha, Hx⟩⟩
  obtain ⟨ha, hx, hz⟩ := hpure
  iapply (wp_wand_r _ _ _)
  isplitl [Hc Ho Hb Hf Ha Hx]
  · iapply (t7_val (F := Ideal) d L (fSlotM0).view.set fc fo fb f0 v2 v3 k0_t2 (fun off inb h => disj_slot0 off inb (h.trans hp)) v49 k acc ga gx hw20 hfb21
      (JRow (GRow d L k0_t2 f0 fb (cntWord (F := Ideal) fc k) (offWord (F := Ideal) fo k) hw20 hfb21) v3)
      (JRow_zero _ v3)
      (fun i a h => by have := JRow_step _ v3 i.val a h; rwa [GRow_at] at this))
    iframe
  · iintro %u HQ
    icases HQ with ⟨%a1, %hJ1, Hc, Ho, Hb, Hf, Ha, Hx⟩
    have hs := row_sums d L X LAB w g (1 : Fin 2) k0_t2 hp hlab fb hfb f0 hfbc v3 hv3 k.val hk12 _ _ hcw how hw20 hfb21 a1 hJ1
    have hcnt : (((cntWord (F := Ideal) fc k).toInt : ℝ) : EReal) = ((Sort.cnt (chunkLab LAB w g) k.val : ℝ) : EReal) := by
      rw [hcw]
      exact congrArg (fun r : ℝ => (r : EReal)) (Sort.W_toInt_real (by have := Sort.cnt_le (chunkLab LAB w g) k.val; omega))
    iframe Hc Ho Hb Hf
    iexists (afNew (F := Ideal) d L k a1 ga), (axNew (F := Ideal) d L k a1 v3 (cntWord (F := Ideal) fc k) gx)
    isplitr
    · ipureintro
      exact ⟨AfAt_step d L X LAB w g k a1 ga ha hs.1, AxAt_step d L X LAB w g k a1 v3 hv3 _ gx hx hs.2 hcnt,
        ZeroHi_step d L k a1 v3 _ ga gx hz⟩
    iframe

end IdealRegion

end Cert.Proof.KI

end
-- ==== Proof.ScValExit.lean ====
import proofs.«216278_g4776003633407_cont_8to1_c_644_33_alg».proof.Proof.ScOut
import proofs.«216278_g4776003633407_cont_8to1_c_644_33_alg».proof.Proof.Launch
import Idealize.ShloMosaic.Lib.Pipeline.Value
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type}

local notation "𝕄" => MT nD τ sig (HIx 1) (Elt F) ℕ UU ℕ

variable (L : grid0.Coords)

theorem read_outFM (f : S32x16x256.Idx → Elt F .f32) (ci : Fin 16) (j : Fin 256) :
    (outFM L).view.read (Elt F) f (ix2 ci j) = f (ix3 (widL L) ci j) := by
  rw [show (outFM L).view.read (Elt F) f = shapeCast S16x256 ((Memref.whole main_v1_0_scv : Memref sig .scVector .hbm S32x16x256 .f32).view.readAt (Elt F)
      (Rect.unit (s := S32x16x256) (k0_off121 L) S1x16x256.size (k0_off121_inb L)).toLoadRect f) (show S1x16x256.ShapeCasts S16x256 by decide) from rfl]
  rw [shapeCast_apply _ _ (ix2 ci j) (ix3 0 ci j) (by
    rw [Shape.rowMajor_val_three, Shape.rowMajor_val_two]; show (0 * 16 + ci.val) * 256 + j.val = ci.val * 256 + j.val; omega)]
  rw [View.readAt_apply]
  show f _ = f _
  congr 1
  funext a
  refine Fin.ext ?_
  have e := k0_off121_eq L
  match a with
  | ⟨0, _⟩ =>
    show k0_off121 L 0 + 1 * 0 = (L 1).val * 2 + (L 0).val
    rw [e]; show 2 * (L 1).val + (L 0).val + 1 * 0 = _; omega
  | ⟨1, _⟩ =>
    show k0_off121 L 1 + 1 * ci.val = ci.val
    rw [e]; show 0 + 1 * ci.val = ci.val; omega
  | ⟨2, _⟩ =>
    show k0_off121 L 2 + 1 * j.val = j.val
    rw [e]; show 0 + 1 * j.val = j.val; omega

theorem wholeS16x256_emb (ci : Fin 16) (j : Fin 256) : (Rect.whole S16x256).emb (ix2 ci j) = (ix2 ci j : S16x256.Idx) := by
  funext a
  refine Fin.ext ?_
  match a with
  | ⟨0, _⟩ => show 0 + 1 * ci.val = ci.val; omega
  | ⟨1, _⟩ => show 0 + 1 * j.val = j.val; omega

theorem outF_landed (f : S32x16x256.Idx → Elt F .f32) (pay : S16x256.Idx → Elt F .f32) (ci : Fin 16) (j : Fin 256) :
    ((outFM L).view.writes (Elt F) f [⟨Rect.whole S16x256, pay⟩]) (ix3 (widL L) ci j) = pay (ix2 ci j) := by
  have e := read_outFM (F := F) L ((outFM L).view.writes (Elt F) f [⟨Rect.whole S16x256, pay⟩]) ci j
  rw [← e]
  have h2 := View.read_writes_cons_emb (Val := Elt F) (outFM L).view f (Rect.whole S16x256) pay [] (ix2 ci j)
  rw [wholeS16x256_emb ci j] at h2
  exact h2

theorem mem_outFM_set {i : S32x16x256.Idx} (hi : i ∈ (outFM L).view.set) : ∃ (ci : Fin 16) (j : Fin 256), i = ix3 (widL L) ci j := by
  rw [set_outFM, blkFSet_eq, ← outF_rect L, Rect.mem_set_unit] at hi
  have h0 := hi 0
  rw [k0_off121_eq] at h0
  have h0' : 2 * (L 1).val + (L 0).val ≤ (i 0).val ∧ (i 0).val < 2 * (L 1).val + (L 0).val + 1 := h0
  refine ⟨i 1, i 2, ?_⟩
  funext a
  match a with
  | ⟨0, _⟩ => exact Fin.ext (show (i 0).val = (L 1).val * 2 + (L 0).val by omega)
  | ⟨1, _⟩ => rfl
  | ⟨2, _⟩ => rfl

theorem outF_exit (d : Dev nD) (oF : Buf (Elt F) (oFLoc d)) (f : S32x16x256.Idx → Elt F .f32) (pay : S16x256.Idx → Elt F .f32)
    (h : ∀ (ci : Fin 16) (j : Fin 256), pay (ix2 ci j) = oF (ix3 (widL L) ci j)) :
    ((outFM L).view.loc (V d (cV L) (jV L)) ↦[(outFM L).view.set]{fullShare} (outFM L).view.writes (Elt F) f [⟨Rect.whole S16x256, pay⟩] : sProp 𝕄)
      ⊢ (oFLoc d ↦[blkFSet (widL L)]{fullShare} oF) := by
  refine (Entails.of_eq (pointsTo_congr (q := fullShare) (fun i hi => ?_))).trans (Entails.of_eq (by rw [set_outFM]))
  obtain ⟨ci, j, rfl⟩ := mem_outFM_set L hi
  rw [outF_landed]
  exact h ci j

theorem read_outAM (f : S32x16x32.Idx → Elt F .f32) (ci : Fin 16) (j : Fin 32) :
    (outAM L).view.read (Elt F) f (ix2 ci j) = f (ix3 (widL L) ci j) := by
  rw [show (outAM L).view.read (Elt F) f = shapeCast S16x32 ((Memref.whole main_v1_1_scv : Memref sig .scVector .hbm S32x16x32 .f32).view.readAt (Elt F)
      (Rect.unit (s := S32x16x32) (k0_off122 L) S1x16x32.size (k0_off122_inb L)).toLoadRect f) (show S1x16x32.ShapeCasts S16x32 by decide) from rfl]
  rw [shapeCast_apply _ _ (ix2 ci j) (ix3 0 ci j) (by
    rw [Shape.rowMajor_val_three, Shape.rowMajor_val_two]; show (0 * 16 + ci.val) * 32 + j.val = ci.val * 32 + j.val; omega)]
  rw [View.readAt_apply]
  show f _ = f _
  congr 1
  funext a
  refine Fin.ext ?_
  have e := k0_off122_eq L
  match a with
  | ⟨0, _⟩ =>
    show k0_off122 L 0 + 1 * 0 = (L 1).val * 2 + (L 0).val
    rw [e]; show 2 * (L 1).val + (L 0).val + 1 * 0 = _; omega
  | ⟨1, _⟩ =>
    show k0_off122 L 1 + 1 * ci.val = ci.val
    rw [e]; show 0 + 1 * ci.val = ci.val; omega
  | ⟨2, _⟩ =>
    show k0_off122 L 2 + 1 * j.val = j.val
    rw [e]; show 0 + 1 * j.val = j.val; omega

theorem wholeS16x32_emb (ci : Fin 16) (j : Fin 32) : (Rect.whole S16x32).emb (ix2 ci j) = (ix2 ci j : S16x32.Idx) := by
  funext a
  refine Fin.ext ?_
  match a with
  | ⟨0, _⟩ => show 0 + 1 * ci.val = ci.val; omega
  | ⟨1, _⟩ => show 0 + 1 * j.val = j.val; omega

theorem outA_landed (f : S32x16x32.Idx → Elt F .f32) (pay : S16x32.Idx → Elt F .f32) (ci : Fin 16) (j : Fin 32) :
    ((outAM L).view.writes (Elt F) f [⟨Rect.whole S16x32, pay⟩]) (ix3 (widL L) ci j) = pay (ix2 ci j) := by
  have e := read_outAM (F := F) L ((outAM L).view.writes (Elt F) f [⟨Rect.whole S16x32, pay⟩]) ci j
  rw [← e]
  have h2 := View.read_writes_cons_emb (Val := Elt F) (outAM L).view f (Rect.whole S16x32) pay [] (ix2 ci j)
  rw [wholeS16x32_emb ci j] at h2
  exact h2

theorem mem_outAM_set {i : S32x16x32.Idx} (hi : i ∈ (outAM L).view.set) : ∃ (ci : Fin 16) (j : Fin 32), i = ix3 (widL L) ci j := by
  rw [set_outAM, blkASet_eq, ← outA_rect L, Rect.mem_set_unit] at hi
  have h0 := hi 0
  rw [k0_off122_eq] at h0
  have h0' : 2 * (L 1).val + (L 0).val ≤ (i 0).val ∧ (i 0).val < 2 * (L 1).val + (L 0).val + 1 := h0
  refine ⟨i 1, i 2, ?_⟩
  funext a
  match a with
  | ⟨0, _⟩ => exact Fin.ext (show (i 0).val = (L 1).val * 2 + (L 0).val by omega)
  | ⟨1, _⟩ => rfl
  | ⟨2, _⟩ => rfl

theorem outA_exit (d : Dev nD) (oA : Buf (Elt F) (oALoc d)) (f : S32x16x32.Idx → Elt F .f32) (pay : S16x32.Idx → Elt F .f32)
    (h : ∀ (ci : Fin 16) (j : Fin 32), pay (ix2 ci j) = oA (ix3 (widL L) ci j)) :
    ((outAM L).view.loc (V d (cV L) (jV L)) ↦[(outAM L).view.set]{fullShare} (outAM L).view.writes (Elt F) f [⟨Rect.whole S16x32, pay⟩] : sProp 𝕄)
      ⊢ (oALoc d ↦[blkASet (widL L)]{fullShare} oA) := by
  refine (Entails.of_eq (pointsTo_congr (q := fullShare) (fun i hi => ?_))).trans (Entails.of_eq (by rw [set_outAM]))
  obtain ⟨ci, j, rfl⟩ := mem_outAM_set L hi
  rw [outA_landed]
  exact h ci j

end Cert.Proof.KI

end
-- ==== Proof.ScEndVal.lean ====
import proofs.«216278_g4776003633407_cont_8to1_c_644_33_alg».proof.Proof.ScEnd
import proofs.«216278_g4776003633407_cont_8to1_c_644_33_alg».proof.Proof.ScValExit
import proofs.«216278_g4776003633407_cont_8to1_c_644_33_alg».proof.Proof.LaunchV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

variable (m : (ℓ : Loc nD τ sig) → Buf (Elt F) ℓ)
variable (outF : (d : Dev nD) → Buf (Elt F) (oFLoc d)) (outA : (d : Dev nD) → Buf (Elt F) (oALoc d))
variable (d : Dev nD) (L : grid0.Coords) [FloatOps F]

def endPostV (L : grid0.Coords) (O : CellTallies nD τ sig (HIx 1)) (W : Waits sig (HIx 1)) : sProp 𝕄 :=
  iprop(tileTdV m outF outA d (widL L)
    ∗ (((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f) ∗ (∃ f, (V d (cV L) (jV L)).loc cc0_scratch7 ↦{fullShare} f)
          ∗ (∃ f, (V d (cV L) (jV L)).loc cc0_scratch8 ↦{fullShare} f))
          ∗ bigSep (ownRefs (τ := τ) (.scVector (cV L) (jV L)) \ scrRefs.map (devEmb (cV L) (jV L))) fun b => iprop(∃ f, ((d, b) : Loc nD τ sig) ↦{fullShare} f))
    ∗ ((semVal ((V d (cV L) (jV L)), .dma 0) 0 ∗ semVal ((V d (cV L) (jV L)), .dma 1) 0 ∗ semVal ((V d (cV L) (jV L)), .dma 2) 0 ∗ semVal ((V d (cV L) (jV L)), .dma 3) 0
          ∗ semVal ((V d (cV L) (jV L)), .dma 4) 0 ∗ semVal ((V d (cV L) (jV L)), .dma 5) 0)
          ∗ bigSep (ownCells (V d (cV L) (jV L)) \ scrSems.map (thrEmb (V d (cV L) (jV L)))) fun g => semVal g 0)
    ∗ ∃ W'', ⌜∀ p ∈ W'', p ∈ W ∨ p.2 = none⌝ ∗ owes (V d (cV L) (jV L)) O W'')

theorem task_endV (O : CellTallies nD τ sig (HIx 1)) (W : Waits sig (HIx 1))
    (a2) (a3) (fa fb) (la lb) (c4) (c5) (c6) (c7) (c8)
    (hF : ∀ (ci : Fin 16) (j : Fin 256), a2 (ix2 ci j) = outF d (ix3 (widL L) ci j))
    (hA : ∀ (ci : Fin 16) (l : Fin 32), a3 (ix2 ci l) = outA d (ix3 (widL L) ci l)) :
    iprop(□ (Transfers.MayWaits (V d (cV L) (jV L)) (none : HIx 1) O : sProp 𝕄) ∗ endPre m d L a2 a3 fa fb la lb c4 c5 c6 c7 c8
        ∗ ∃ W', ⌜∀ p ∈ W', p ∈ W ∨ p.2 = none⌝ ∗ owes (V d (cV L) (jV L)) O W')
      ⊢ wp frame (wpE (defs₀ (F := F)) 𝒱₀ (V d (cV L) (jV L)) none) Set.univ (taskEndA (F := F) L) fun _ =>
          wp frame (wpE (defs₀ (F := F)) 𝒱₀ (V d (cV L) (jV L)) none) Set.univ (taskEndB (F := F) L) fun _ => endPostV m outF outA d L O W := by
  unfold taskEndA taskEndB endPre
  iintro ⟨#Hmw, ⟨⟨HoF, HoA⟩, ⟨Hb2, Hb3⟩, ⟨Hf0, Hf1, Hl0, Hl1⟩, ⟨Hb4, Hb5, Hb6, Hb7, Hb8⟩, ⟨Hxr, Hx0, Hx1, Hx2, Hx3⟩, ⟨Hlr, Hlt0, Hlt1, Hlt2, Hlt3⟩,
    ⟨Hs0, Hs1, Hs2, Hs3, Hs4, Hs5⟩, Hbufs, Hsems⟩, ⟨%W', %hW', HO⟩⟩
  ihave HoF := (Entails.of_eq (show (oFLoc d ↦[blkFSet (widL L)]{fullShare} m (oFLoc d) : sProp 𝕄) = ((outFM L).view.loc (V d (cV L) (jV L)) ↦[(outFM L).view.set]{fullShare} m (oFLoc d)) from by rw [set_outFM])) $$ HoF
  ihave HoA := (Entails.of_eq (show (oALoc d ↦[blkASet (widL L)]{fullShare} m (oALoc d) : sProp 𝕄) = ((outAM L).view.loc (V d (cV L) (jV L)) ↦[(outAM L).view.set]{fullShare} m (oALoc d)) from by rw [set_outAM])) $$ HoA
  sl_exec
  sl_step
  unfold endPostV tileTdV

  isplitl [Hxr Hx0 Hx1 Hx2 Hx3 Hlr Hlt0 Hlt1 Hlt2 Hlt3 HoF HoA]
  · isplitl [Hxr Hx0 Hx1 Hx2 Hx3]
    · iapply (Transfers.pointsTo_toks_join (qTile (widL L)) 4)
      rw [bigSep_W1]
      isplitl [Hxr]; · iexact Hxr
      isplitl [Hx0]; · iexact Hx0
      isplitl [Hx1]; · iexact Hx1
      isplitl [Hx2]; · iexact Hx2
      iexact Hx3
    isplitl [Hlr Hlt0 Hlt1 Hlt2 Hlt3]
    · iapply (Transfers.pointsTo_toks_join (qTile (widL L)) 4)
      rw [bigSep_W1]
      isplitl [Hlr]; · iexact Hlr
      isplitl [Hlt0]; · iexact Hlt0
      isplitl [Hlt1]; · iexact Hlt1
      isplitl [Hlt2]; · iexact Hlt2
      iexact Hlt3
    isplitl [HoF]
    · iapply (outF_exit (F := F) L d (outF d) _ _ fun ci j => (hF ci j)); iexact HoF
    · iapply (outA_exit (F := F) L d (outA d) _ _ fun ci l => (hA ci l)); iexact HoA

  isplitl [Hf0 Hf1 Hl0 Hl1 Hb2 Hb3 Hb4 Hb5 Hb6 Hb7 Hb8 Hbufs]
  · isplitr [Hbufs]
    · isplitl [Hf0 Hf1]
      · iexists _; iapply (fbuf_join (F := F) d (cV L) (jV L) fa fb); isplitl [Hf0] <;> iassumption
      isplitl [Hl0 Hl1]
      · iexists _; iapply (lbuf_join (F := F) d (cV L) (jV L) la lb); isplitl [Hl0] <;> iassumption
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      iexists _; iexact Hb8
    · iexact Hbufs

  isplitl [Hs0 Hs1 Hs2 Hs3 Hs4 Hs5 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      iexact Hs5
    · iexact Hsems

  iexists _
  isplitr
  swap
  · iexact HO
  ipureintro
  exact waits_insert (waits_insert hW' _) _

end Cert.Proof.KI

end
-- ==== Proof.ScName.lean ====
import proofs.«216278_g4776003633407_cont_8to1_c_644_33_alg».proof.Proof.ScSlots

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

theorem lslot0_name (g₀ : Buf (Elt F) ((lbufM).view.loc (V d c i))) (pay : S128.Idx → Elt F .i32) :
    ((lSlotM0).view.loc (V d c i) ↦[(lSlotM0).view.set]{fullShare} (lSlotM0).view.writes (Elt F) g₀ [⟨Rect.whole S128, pay⟩] : sProp 𝕄)
      ⊢ iprop(∃ pay', ⌜pay' = pay⌝ ∗ (lSlotM0).view.loc (V d c i) ↦[(lSlotM0).view.set]{fullShare} (lSlotM0).view.writes (Elt F) g₀ [⟨Rect.whole S128, pay'⟩]) := by
  iintro H
  iexists pay
  isplitr
  · ipureintro; rfl
  · iexact H
theorem lslot1_name (g₀ : Buf (Elt F) ((lbufM).view.loc (V d c i))) (pay : S128.Idx → Elt F .i32) :
    ((lSlotM1).view.loc (V d c i) ↦[(lSlotM1).view.set]{fullShare} (lSlotM1).view.writes (Elt F) g₀ [⟨Rect.whole S128, pay⟩] : sProp 𝕄)
      ⊢ iprop(∃ pay', ⌜pay' = pay⌝ ∗ (lSlotM1).view.loc (V d c i) ↦[(lSlotM1).view.set]{fullShare} (lSlotM1).view.writes (Elt F) g₀ [⟨Rect.whole S128, pay'⟩]) := by
  iintro H
  iexists pay
  isplitr
  · ipureintro; rfl
  · iexact H
theorem fslot0_name (g₀ : Buf (Elt F) ((fbufM).view.loc (V d c i))) (pay : S128x256.Idx → Elt F .f32) :
    ((fSlotM0).view.loc (V d c i) ↦[(fSlotM0).view.set]{fullShare} (fSlotM0).view.writes (Elt F) g₀ [⟨Rect.whole S128x256, pay⟩] : sProp 𝕄)
      ⊢ iprop(∃ pay', ⌜pay' = pay⌝ ∗ (fSlotM0).view.loc (V d c i) ↦[(fSlotM0).view.set]{fullShare} (fSlotM0).view.writes (Elt F) g₀ [⟨Rect.whole S128x256, pay'⟩]) := by
  iintro H
  iexists pay
  isplitr
  · ipureintro; rfl
  · iexact H
theorem fslot1_name (g₀ : Buf (Elt F) ((fbufM).view.loc (V d c i))) (pay : S128x256.Idx → Elt F .f32) :
    ((fSlotM1).view.loc (V d c i) ↦[(fSlotM1).view.set]{fullShare} (fSlotM1).view.writes (Elt F) g₀ [⟨Rect.whole S128x256, pay⟩] : sProp 𝕄)
      ⊢ iprop(∃ pay', ⌜pay' = pay⌝ ∗ (fSlotM1).view.loc (V d c i) ↦[(fSlotM1).view.set]{fullShare} (fSlotM1).view.writes (Elt F) g₀ [⟨Rect.whole S128x256, pay'⟩]) := by
  iintro H
  iexists pay
  isplitr
  · ipureintro; rfl
  · iexact H

end Cert.Proof.KI

end
-- ==== Proof.ScBodyVal.lean ====
/-
  The task of one vector subcore, at the extended reals, with its two blocks of the partial-result arrays named: after the
  zero fill the per-class feature sums and second results are zero; chunk g adds to class ci its rows' sum, their squares by
  lane and their number, so that after chunk g the two buffers hold the first g + 1 chunks' contributions added; after the
  eight chunks they hold the worker's sums, squares and counts by class, which the two write-outs copy to the worker's blocks.
  The integer side (the counting sort of each chunk) is the frame's; the chunk's labels and features are the specification's
  labels and features of chunk g of worker w.
-/
import proofs.«216278_g4776003633407_cont_8to1_c_644_33_alg».proof.Proof.ScOut
import proofs.«216278_g4776003633407_cont_8to1_c_644_33_alg».proof.Proof.ScSortLoops
import proofs.«216278_g4776003633407_cont_8to1_c_644_33_alg».proof.Proof.ScExtLoop
import proofs.«216278_g4776003633407_cont_8to1_c_644_33_alg».proof.Proof.ScClsLoop
import proofs.«216278_g4776003633407_cont_8to1_c_644_33_alg».proof.Proof.ScEnd
import proofs.«216278_g4776003633407_cont_8to1_c_644_33_alg».proof.Proof.ScZero
import proofs.«216278_g4776003633407_cont_8to1_c_644_33_alg».proof.Proof.ScValEntry
import proofs.«216278_g4776003633407_cont_8to1_c_644_33_alg».proof.Proof.ScValGlue
import proofs.«216278_g4776003633407_cont_8to1_c_644_33_alg».proof.Proof.ScClsVal
import proofs.«216278_g4776003633407_cont_8to1_c_644_33_alg».proof.Proof.ScValExit
import proofs.«216278_g4776003633407_cont_8to1_c_644_33_alg».proof.Proof.ScEndVal
import proofs.«216278_g4776003633407_cont_8to1_c_644_33_alg».proof.Proof.ScMath
import proofs.«216278_g4776003633407_cont_8to1_c_644_33_alg».proof.Proof.LaunchV
import proofs.«216278_g4776003633407_cont_8to1_c_644_33_alg».proof.Proof.ScName
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

local notation "𝕄" => MT nD τ sig (HIx 1) (Elt Ideal) ℕ UU ℕ

open Cert.Proof.Sort (W)

variable (m : (ℓ : Loc nD τ sig) → Buf (Elt Ideal) ℓ) (d : Dev nD) (L : grid0.Coords)

/-! ## The chunk's features are the specification's -/

/-- The features landed in a slot, read as the array's rows from the chunk's offset, are the specification's rows of chunk g of worker w. -/
theorem feat_glue (M : S65536x256.Idx → EReal) (X : Fin 65536 → Fin 256 → EReal) (hX : ∀ r j, X r j = M (ix2 r j))
    (fbc : S2x128x256.Idx → EReal) (p : Fin 2) (off0 : ℕ) (w : Fin 32) (g : Fin 8) (hoff : off0 = 1024 * w.val + 128 * g.val)
    (h0 : ∀ (r : Fin 128) (j : Fin 256) (h : off0 + r.val < 65536), fbc (ix3 p r j) = M (ix2 ⟨off0 + r.val, h⟩ j)) :
    ∀ (r : Fin 128) (j : Fin 256), fbc (ix3 p r j) = X (Spec.scRow w (Spec.chunkRow g r)) j := by
  intro r j
  have h : off0 + r.val < 65536 := by have := w.isLt; have := g.isLt; have := r.isLt; omega
  rw [h0 r j h, hX]
  congr 2
  refine Fin.ext ?_
  show off0 + r.val = 1024 * w.val + (128 * g.val + r.val)
  omega

set_option maxHeartbeats 16000000 in
theorem tile_body_val (outF : (d : Dev nD) → Buf (Elt Ideal) (oFLoc d)) (outA : (d : Dev nD) → Buf (Elt Ideal) (oALoc d))
    (X : Fin 65536 → Fin 256 → EReal) (LAB : Fin 65536 → ℕ)
    (hX : ∀ r j, X r j = (m (xLoc d) : FVec Ideal S65536x256 .f32) (ix2 r j))
    (hLAB : ∀ r, LAB r = ((m (lLoc d) : IVec S65536 32) (ix1 r)).toNat)
    (hoF : ∀ (ci : Fin 16) (j : Fin 256), outF d (ix3 (widL L) ci j) = Spec.scF X LAB (widL L) ci j)
    (hoA : ∀ (ci : Fin 16) (l : Fin 32), outA d (ix3 (widL L) ci l) = Spec.scA X LAB (widL L) ci l)
    (hM : ∀ i : S65536.Idx, ((m (lLoc d) : IVec S65536 32) i).toNat ≤ 12) (hF : (K (F := Ideal)).Facts) (O : CellTallies nD τ sig (HIx 1)) (W₀ : Waits sig (HIx 1)) (hO : ∀ g, O g none = 0) :
    iprop(levAts (K (F := Ideal)).L (K (F := Ideal)).lev ∗ emp ∗ tileGo m d (widL L)
        ∗ scopedBufs (V d (cV L) (jV L)) ∗ scopedSems0 (V d (cV L) (jV L)) ∗ owes (V d (cV L) (jV L)) O W₀)
      ⊢ wp frame (wpE (defs₀ (F := Ideal)) 𝒱₀ (V d (cV L) (jV L)) none) Set.univ
          (cc0__sc_body L (Memref.whole main_arg0_scv) (Memref.isWhole_whole _) (Memref.whole main_arg1_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scoped0 cc0_scoped1)
          fun _ => iprop(tileTdV m outF outA d (widL L) ∗ scopedBufs (V d (cV L) (jV L)) ∗ scopedSems0 (V d (cV L) (jV L))
            ∗ ∃ W', ⌜∀ p ∈ W', p ∈ W₀ ∨ p.2 = none⌝ ∗ owes (V d (cV L) (jV L)) O W') := by
  have hLle : ∀ r, LAB r ≤ 12 := fun r => by rw [hLAB]; exact hM _
  simp only [cc0__sc_body_eq_skeleton]; unfold cc0__sc_body_skel
  rw [(K (F := Ideal)).scopedBufs_V hF d (cV L) (jV L), SparseCore.Cfg.scopedSems0_V (Val := Elt Ideal) d (cV L) (jV L), ownSems0_V, ownBufs_V]
  unfold tileGo
  iintro ⟨#Hlv, -, ⟨Hx, Hl, HoF, HoA⟩, ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩⟩, Hbufs⟩,
    ⟨⟨Hs0, Hs1, Hs2, Hs3, Hs4, Hs5⟩, Hsems⟩, HO⟩
  ihave Hmw := ((K (F := Ideal)).mayWaits_none (thr := (V d (cV L) (jV L))) hO) $$ Hlv
  sl_exec
  -- the zero fill: both buffers end at zero
  sl_for (invZv (F := Ideal) d L) $$ [Hb2 Hb3]
  case region => exact fun k acc => t1_region (F := Ideal) d L k acc
  · iapply (invZv_init (F := Ideal) d L _ _)
    isplitl [Hb2]
    · iexact Hb2
    · iexact Hb3
  iintro %uZ HI
  ihave HI := ((Entails.of_eq (congrArg (fun n => invZv (F := Ideal) d L n uZ) (show Scf.trips k0_t1_loop.lb k0_t1_loop.ub k0_t1_loop.st = 16 by decide))).trans (invZv_exit (F := Ideal) d L uZ)) $$ HI
  icases HI with ⟨Hb2, Hb3⟩
  have hz0 : ZeroHi (fun _ => zeroW (F := Ideal)) (fun _ => zeroW (F := Ideal)) := fun ci _ => ⟨fun _ => Ideal.ofBits_zero_f32, fun _ => Ideal.ofBits_zero_f32⟩
  have ha0 : AfAt X LAB (widL L) (⟨0, by decide⟩ : Fin 8) 0 (fun _ => zeroW (F := Ideal)) := (AfAt_zero_iff X LAB (widL L) _ _).mpr fun ci hci j => by rw [Spec.upTo8_zero]; exact Ideal.ofBits_zero_f32
  have hx0 : AxAt X LAB (widL L) (⟨0, by decide⟩ : Fin 8) 0 (fun _ => zeroW (F := Ideal)) := (AxAt_zero_iff X LAB (widL L) _ _).mpr fun ci hci l => by rw [Spec.upTo8_zero]; exact Ideal.ofBits_zero_f32
  -- the feature and label buffers as their two slots, the arguments as four read tokens each, the scalar buffers as the program spells them
  ihave Hb0 := (Entails.of_eq (fbuf_slots (F := Ideal) d (cV L) (jV L) f0)) $$ Hb0
  ihave Hb1 := (Entails.of_eq (lbuf_slots (F := Ideal) d (cV L) (jV L) f1)) $$ Hb1
  icases Hb0 with ⟨Hf0, Hf1⟩
  icases Hb1 with ⟨Hlb0, Hlb1⟩
  ihave Hf0 := (Entails.of_eq (show ((fbufM).view.loc (V d (cV L) (jV L)) ↦[fSlotSet 0]{fullShare} f0 : sProp 𝕄) = ((fSlotM0).view.loc (V d (cV L) (jV L)) ↦[(fSlotM0).view.set]{fullShare} f0) from by rw [set_fSlotM0])) $$ Hf0
  ihave Hf1 := (Entails.of_eq (show ((fbufM).view.loc (V d (cV L) (jV L)) ↦[fSlotSet 1]{fullShare} f0 : sProp 𝕄) = ((fSlotM1).view.loc (V d (cV L) (jV L)) ↦[(fSlotM1).view.set]{fullShare} f0) from by rw [set_fSlotM1])) $$ Hf1
  ihave Hlb0 := (Entails.of_eq (show ((lbufM).view.loc (V d (cV L) (jV L)) ↦[lSlotSet 0]{fullShare} f1 : sProp 𝕄) = ((lSlotM0).view.loc (V d (cV L) (jV L)) ↦[(lSlotM0).view.set]{fullShare} f1) from by rw [set_lSlotM0])) $$ Hlb0
  ihave Hlb1 := (Entails.of_eq (show ((lbufM).view.loc (V d (cV L) (jV L)) ↦[lSlotSet 1]{fullShare} f1 : sProp 𝕄) = ((lSlotM1).view.loc (V d (cV L) (jV L)) ↦[(lSlotM1).view.set]{fullShare} f1) from by rw [set_lSlotM1])) $$ Hlb1
  ihave Hx := (Entails.of_eq (show (xLoc d ↦{qTile (widL L)} m (xLoc d) : sProp 𝕄) = ((Memref.whole main_arg0_scv : Memref sig .scVector .hbm S65536x256 .f32).view.loc (V d (cV L) (jV L)) ↦{qTile (widL L)} m (xLoc d)) from rfl)) $$ Hx
  ihave Hl := (Entails.of_eq (show (lLoc d ↦{qTile (widL L)} m (lLoc d) : sProp 𝕄) = ((Memref.whole main_arg1_scv : Memref sig .scVector .hbm S65536 .i32).view.loc (V d (cV L) (jV L)) ↦{qTile (widL L)} m (lLoc d)) from rfl)) $$ Hl
  ihave Hx := (Transfers.pointsTo_toks_split (qTile (widL L)) 4) $$ Hx
  ihave Hl := (Transfers.pointsTo_toks_split (qTile (widL L)) 4) $$ Hl
  rw [bigSep_W1, bigSep_W1]
  icases Hx with ⟨Hxr, Hx0, Hx1, Hx2, Hx3⟩
  icases Hl with ⟨Hlr, Hl0, Hl1, Hl2, Hl3⟩
  ihave Hb4 := (Entails.of_eq (show ((V d (cV L) (jV L)).loc cc0_scratch4 ↦{fullShare} f4 : sProp 𝕄) = ((Memref.whole cc0_scratch4 : Memref sig .scVector .smem S128 .i32).view.loc (V d (cV L) (jV L)) ↦{fullShare} f4) from rfl)) $$ Hb4
  ihave Hb5 := (Entails.of_eq (show ((V d (cV L) (jV L)).loc cc0_scratch5 ↦{fullShare} f5 : sProp 𝕄) = ((Memref.whole cc0_scratch5 : Memref sig .scVector .smem S128 .i32).view.loc (V d (cV L) (jV L)) ↦{fullShare} f5) from rfl)) $$ Hb5
  ihave Hb6 := (Entails.of_eq (show ((V d (cV L) (jV L)).loc cc0_scratch6 ↦{fullShare} f6 : sProp 𝕄) = ((Memref.whole cc0_scratch6 : Memref sig .scVector .smem S16 .i32).view.loc (V d (cV L) (jV L)) ↦{fullShare} f6) from rfl)) $$ Hb6
  ihave Hb7 := (Entails.of_eq (show ((V d (cV L) (jV L)).loc cc0_scratch7 ↦{fullShare} f7 : sProp 𝕄) = ((Memref.whole cc0_scratch7 : Memref sig .scVector .smem S16 .i32).view.loc (V d (cV L) (jV L)) ↦{fullShare} f7) from rfl)) $$ Hb7
  ihave Hb8 := (Entails.of_eq (show ((V d (cV L) (jV L)).loc cc0_scratch8 ↦{fullShare} f8 : sProp 𝕄) = ((Memref.whole cc0_scratch8 : Memref sig .scVector .smem S16 .i32).view.loc (V d (cV L) (jV L)) ↦{fullShare} f8) from rfl)) $$ Hb8
  sl_exec
  sl_unroll
  -- chunk 0 (slot 0): the labels have landed; zero the counts
  sl_exec
  sl_for (inv3 (F := Ideal) d L) $$ [Hb6]
  case region => exact fun k acc => t3_region (F := Ideal) d L 0#32 1#32 ⟨0, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot0_name (F := Ideal) d (cV L) (jV L) _ _) $$ Hlb0
  icases H with ⟨%pay, %hpay, Hlb0⟩
  have hpay' : pay = ReadAs.same.apply (View.read (Elt Ideal) ((Memref.whole main_arg1_scv : Memref sig .scVector .hbm S65536 .i32).slice (Rect.unit (s := S65536) (k0_off20 L 0#32) S128.size (k0_off20_inb L 0)) (fun _ => rfl)).view (m (lLoc d))) := hpay.trans rfl
  ihave H := (lslot_entry_0' (F := Ideal) d L (m (lLoc d)) hM _ pay (k0_off20 L 0#32) (k0_off20_inb L 0) hpay') $$ Hlb0
  icases H with ⟨%labels, %lb, %hL, Hlb0⟩
  obtain ⟨hlab, hrow, hlb⟩ := hL
  clear hpay' hpay
  try clear pay
  have hrowG : ∀ (r : Fin 128) (h : (1024 * (widL L).val + 128 * (⟨0, by decide⟩ : Fin 8).val) + r.val < 65536), labels r = (m (lLoc d) : IVec S65536 32) (ix1 ⟨(1024 * (widL L).val + 128 * (⟨0, by decide⟩ : Fin 8).val) + r.val, h⟩) := fun r h => (hrow r).trans (congrArg (fun n : Fin 65536 => (m (lLoc d) : IVec S65536 32) (ix1 n)) (Fin.ext (congrArg (· + r.val) (labOff_zero L (⟨0, by decide⟩ : Fin 8)))))
  sl_for (inv4_0 (F := Ideal) d L labels lb) $$ [Hlb0 Hb4 Hb6]
  case region => exact fun k acc => t4_region0 (F := Ideal) d L labels lb hlab hlb 0#32 1#32 ⟨0, by decide⟩ (by decide) _ k acc
  · iapply (inv4_0_init (F := Ideal) d L labels lb _ _ hc6)
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨0, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨0, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 0
  obtain ⟨hlabS, hfcS, hfoS, hfbS⟩ := chunk_sort_facts (m (lLoc d)) LAB hLAB labels (1024 * (widL L).val + 128 * (⟨0, by decide⟩ : Fin 8).val) (widL L) (⟨0, by decide⟩ : Fin 8) rfl hrowG hlab fc fo fb hfc hfo' hfb'
  sl_exec
  -- the features have landed: the slot holds the specification's rows of the chunk; per class, add up the rows found at its slots
  ihave H := (fslot0_name (F := Ideal) d (cV L) (jV L) _ _) $$ Hf0
  icases H with ⟨%payf, %hpayf, Hf0⟩
  have hpayf' : payf = ReadAs.same.apply (View.read (Elt Ideal) ((Memref.whole main_arg0_scv : Memref sig .scVector .hbm S65536x256 .f32).slice (Rect.unit (s := S65536x256) (k0_off19 L 0#32) S128x256.size (k0_off19_inb L 0)) (fun _ => rfl)).view (m (xLoc d))) := hpayf.trans rfl
  ihave H := (fslot_entry_0' (F := Ideal) d L (m (xLoc d)) _ payf (k0_off19 L 0#32) (k0_off19_inb L 0) (featOff_one L (⟨0, by decide⟩ : Fin 8)) hpayf') $$ Hf0
  icases H with ⟨%fbc, %hfbc0, Hf0⟩
  clear hpayf' hpayf
  try clear payf
  have hfbc := feat_glue (m (xLoc d)) X hX fbc (0 : Fin 2) (1024 * (widL L).val + 128 * (⟨0, by decide⟩ : Fin 8).val) (widL L) (⟨0, by decide⟩ : Fin 8) rfl (fun r j h => (hfbc0 r j).trans (congrArg (fun n : Fin 65536 => (m (xLoc d) : FVec Ideal S65536x256 .f32) (ix2 n j)) (Fin.ext (congrArg (· + r.val) (featOff_zero L (⟨0, by decide⟩ : Fin 8))))))
  sl_for (inv7v0 d L X LAB (widL L) (⟨0, by decide⟩ : Fin 8) fc fo fb fbc) $$ [Hb6 Hb7 Hb5 Hf0 Hb2 Hb3]
  case region => exact fun k acc => t7v_region0 d L X LAB (widL L) (⟨0, by decide⟩ : Fin 8) hlabS fc fo fb fbc hfcS hfoS hfbS hfbc _ _ (fun _ => Ideal.ofBits_zero_f32) ⟨0, by decide⟩ (by decide) _ k acc
  · iapply (inv7v0_intro d L X LAB (widL L) _ fc fo fb fbc _ _ 0 () ha0 hx0 hz0)
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7v0
  icases HI with ⟨Hb6, Hb7, Hb5, Hf0, ⟨%ga1, %gx1, %hpure, Hb2, Hb3⟩⟩
  obtain ⟨ha13, hx13, hz1⟩ := hpure
  rw [show Scf.trips k0_t7_loop.lb k0_t7_loop.ub k0_t7_loop.st = 13 from t7_trips] at ha13 hx13
  have ha1 : AfAt X LAB (widL L) (⟨1, by decide⟩ : Fin 8) 0 ga1 := (AfAt_zero_iff X LAB (widL L) _ _).mpr (AfAt_thirteen X LAB (widL L) (⟨0, by decide⟩ : Fin 8) ha13)
  have hx1 : AxAt X LAB (widL L) (⟨1, by decide⟩ : Fin 8) 0 gx1 := (AxAt_zero_iff X LAB (widL L) _ _).mpr (AxAt_thirteen X LAB (widL L) (⟨0, by decide⟩ : Fin 8) hx13)
  ihave Hf0 := (fslot0_of_rest (F := Ideal) d (cV L) (jV L) _) $$ Hf0
  ihave Hlb0 := (lslot0_of_rest (F := Ideal) d (cV L) (jV L) _) $$ Hlb0
  clear hfbc hfbc0 hfbS hfoS hfcS hlabS hfb' hfb hfp2 hfp' hfo' hfp hfo hacc5 hfc hfl hfc0 hfl0 hrowG hlb hrow hlab hc6 ha13 hx13 ha0 hx0 hz0
  try clear labels
  try clear c6
  try clear fp
  try clear acc5
  -- chunk 1 (slot 1): the labels have landed; zero the counts
  sl_exec
  sl_for (inv3 (F := Ideal) d L) $$ [Hb6]
  case region => exact fun k acc => t3_region (F := Ideal) d L 0#32 1#32 ⟨1, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot1_name (F := Ideal) d (cV L) (jV L) _ _) $$ Hlb1
  icases H with ⟨%pay, %hpay, Hlb1⟩
  have hpay' : pay = ReadAs.same.apply (View.read (Elt Ideal) ((Memref.whole main_arg1_scv : Memref sig .scVector .hbm S65536 .i32).slice (Rect.unit (s := S65536) (k0_off20 L 128#32) S128.size (k0_off20_inb L 1)) (fun _ => rfl)).view (m (lLoc d))) := hpay.trans rfl
  ihave H := (lslot_entry_1' (F := Ideal) d L (m (lLoc d)) hM _ pay (k0_off20 L 128#32) (k0_off20_inb L 1) hpay') $$ Hlb1
  icases H with ⟨%labels, %lb, %hL, Hlb1⟩
  obtain ⟨hlab, hrow, hlb⟩ := hL
  clear hpay' hpay
  try clear pay
  have hrowG : ∀ (r : Fin 128) (h : (1024 * (widL L).val + 128 * (⟨1, by decide⟩ : Fin 8).val) + r.val < 65536), labels r = (m (lLoc d) : IVec S65536 32) (ix1 ⟨(1024 * (widL L).val + 128 * (⟨1, by decide⟩ : Fin 8).val) + r.val, h⟩) := fun r h => (hrow r).trans (congrArg (fun n : Fin 65536 => (m (lLoc d) : IVec S65536 32) (ix1 n)) (Fin.ext (congrArg (· + r.val) (labOff_zero L (⟨1, by decide⟩ : Fin 8)))))
  sl_for (inv4_1 (F := Ideal) d L labels lb) $$ [Hlb1 Hb4 Hb6]
  case region => exact fun k acc => t4_region1 (F := Ideal) d L labels lb hlab hlb 0#32 1#32 ⟨1, by decide⟩ (by decide) _ k acc
  · iapply (inv4_1_init (F := Ideal) d L labels lb _ _ hc6)
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨1, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨1, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 1
  obtain ⟨hlabS, hfcS, hfoS, hfbS⟩ := chunk_sort_facts (m (lLoc d)) LAB hLAB labels (1024 * (widL L).val + 128 * (⟨1, by decide⟩ : Fin 8).val) (widL L) (⟨1, by decide⟩ : Fin 8) rfl hrowG hlab fc fo fb hfc hfo' hfb'
  sl_exec
  -- the features have landed: the slot holds the specification's rows of the chunk; per class, add up the rows found at its slots
  ihave H := (fslot1_name (F := Ideal) d (cV L) (jV L) _ _) $$ Hf1
  icases H with ⟨%payf, %hpayf, Hf1⟩
  have hpayf' : payf = ReadAs.same.apply (View.read (Elt Ideal) ((Memref.whole main_arg0_scv : Memref sig .scVector .hbm S65536x256 .f32).slice (Rect.unit (s := S65536x256) (k0_off19 L 128#32) S128x256.size (k0_off19_inb L 1)) (fun _ => rfl)).view (m (xLoc d))) := hpayf.trans rfl
  ihave H := (fslot_entry_1' (F := Ideal) d L (m (xLoc d)) _ payf (k0_off19 L 128#32) (k0_off19_inb L 1) (featOff_one L (⟨1, by decide⟩ : Fin 8)) hpayf') $$ Hf1
  icases H with ⟨%fbc, %hfbc0, Hf1⟩
  clear hpayf' hpayf
  try clear payf
  have hfbc := feat_glue (m (xLoc d)) X hX fbc (1 : Fin 2) (1024 * (widL L).val + 128 * (⟨1, by decide⟩ : Fin 8).val) (widL L) (⟨1, by decide⟩ : Fin 8) rfl (fun r j h => (hfbc0 r j).trans (congrArg (fun n : Fin 65536 => (m (xLoc d) : FVec Ideal S65536x256 .f32) (ix2 n j)) (Fin.ext (congrArg (· + r.val) (featOff_zero L (⟨1, by decide⟩ : Fin 8))))))
  sl_for (inv7v1 d L X LAB (widL L) (⟨1, by decide⟩ : Fin 8) fc fo fb fbc) $$ [Hb6 Hb7 Hb5 Hf1 Hb2 Hb3]
  case region => exact fun k acc => t7v_region1 d L X LAB (widL L) (⟨1, by decide⟩ : Fin 8) hlabS fc fo fb fbc hfcS hfoS hfbS hfbc _ _ (fun _ => Ideal.ofBits_zero_f32) ⟨1, by decide⟩ (by decide) _ k acc
  · iapply (inv7v1_intro d L X LAB (widL L) _ fc fo fb fbc _ _ 0 () ha1 hx1 hz1)
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7v1
  icases HI with ⟨Hb6, Hb7, Hb5, Hf1, ⟨%ga2, %gx2, %hpure, Hb2, Hb3⟩⟩
  obtain ⟨ha13, hx13, hz2⟩ := hpure
  rw [show Scf.trips k0_t7_loop.lb k0_t7_loop.ub k0_t7_loop.st = 13 from t7_trips] at ha13 hx13
  have ha2 : AfAt X LAB (widL L) (⟨2, by decide⟩ : Fin 8) 0 ga2 := (AfAt_zero_iff X LAB (widL L) _ _).mpr (AfAt_thirteen X LAB (widL L) (⟨1, by decide⟩ : Fin 8) ha13)
  have hx2 : AxAt X LAB (widL L) (⟨2, by decide⟩ : Fin 8) 0 gx2 := (AxAt_zero_iff X LAB (widL L) _ _).mpr (AxAt_thirteen X LAB (widL L) (⟨1, by decide⟩ : Fin 8) hx13)
  ihave Hf1 := (fslot1_of_rest (F := Ideal) d (cV L) (jV L) _) $$ Hf1
  ihave Hlb1 := (lslot1_of_rest (F := Ideal) d (cV L) (jV L) _) $$ Hlb1
  clear hfbc hfbc0 hfbS hfoS hfcS hlabS hfb' hfb hfp2 hfp' hfo' hfp hfo hacc5 hfc hfl hfc0 hfl0 hrowG hlb hrow hlab hc6 ha13 hx13 ha1 hx1 hz1
  try clear labels
  try clear c6
  try clear fp
  try clear acc5
  -- chunk 2 (slot 0): the labels have landed; zero the counts
  sl_exec
  sl_for (inv3 (F := Ideal) d L) $$ [Hb6]
  case region => exact fun k acc => t3_region (F := Ideal) d L 0#32 1#32 ⟨2, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot0_name (F := Ideal) d (cV L) (jV L) _ _) $$ Hlb0
  icases H with ⟨%pay, %hpay, Hlb0⟩
  have hpay' : pay = ReadAs.same.apply (View.read (Elt Ideal) ((Memref.whole main_arg1_scv : Memref sig .scVector .hbm S65536 .i32).slice (Rect.unit (s := S65536) (k0_off120 L ⟨0, by decide⟩) S128.size (k0_off120_inb L ⟨0, by decide⟩ (by decide))) (fun _ => rfl)).view (m (lLoc d))) := hpay.trans rfl
  ihave H := (lslot_entry_0' (F := Ideal) d L (m (lLoc d)) hM _ pay (k0_off120 L ⟨0, by decide⟩) (k0_off120_inb L ⟨0, by decide⟩ (by decide)) hpay') $$ Hlb0
  icases H with ⟨%labels, %lb, %hL, Hlb0⟩
  obtain ⟨hlab, hrow, hlb⟩ := hL
  clear hpay' hpay
  try clear pay
  have hrowG : ∀ (r : Fin 128) (h : (1024 * (widL L).val + 128 * (⟨2, by decide⟩ : Fin 8).val) + r.val < 65536), labels r = (m (lLoc d) : IVec S65536 32) (ix1 ⟨(1024 * (widL L).val + 128 * (⟨2, by decide⟩ : Fin 8).val) + r.val, h⟩) := fun r h => (hrow r).trans (congrArg (fun n : Fin 65536 => (m (lLoc d) : IVec S65536 32) (ix1 n)) (Fin.ext (congrArg (· + r.val) (labOff_zero L (⟨2, by decide⟩ : Fin 8)))))
  sl_for (inv4_0 (F := Ideal) d L labels lb) $$ [Hlb0 Hb4 Hb6]
  case region => exact fun k acc => t4_region0 (F := Ideal) d L labels lb hlab hlb 0#32 1#32 ⟨2, by decide⟩ (by decide) _ k acc
  · iapply (inv4_0_init (F := Ideal) d L labels lb _ _ hc6)
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨2, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨2, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 2
  obtain ⟨hlabS, hfcS, hfoS, hfbS⟩ := chunk_sort_facts (m (lLoc d)) LAB hLAB labels (1024 * (widL L).val + 128 * (⟨2, by decide⟩ : Fin 8).val) (widL L) (⟨2, by decide⟩ : Fin 8) rfl hrowG hlab fc fo fb hfc hfo' hfb'
  sl_exec
  -- the features have landed: the slot holds the specification's rows of the chunk; per class, add up the rows found at its slots
  ihave H := (fslot0_name (F := Ideal) d (cV L) (jV L) _ _) $$ Hf0
  icases H with ⟨%payf, %hpayf, Hf0⟩
  have hpayf' : payf = ReadAs.same.apply (View.read (Elt Ideal) ((Memref.whole main_arg0_scv : Memref sig .scVector .hbm S65536x256 .f32).slice (Rect.unit (s := S65536x256) (k0_off117 L ⟨0, by decide⟩) S128x256.size (k0_off117_inb L ⟨0, by decide⟩ (by decide))) (fun _ => rfl)).view (m (xLoc d))) := hpayf.trans rfl
  ihave H := (fslot_entry_0' (F := Ideal) d L (m (xLoc d)) _ payf (k0_off117 L ⟨0, by decide⟩) (k0_off117_inb L ⟨0, by decide⟩ (by decide)) (featOff_one L (⟨2, by decide⟩ : Fin 8)) hpayf') $$ Hf0
  icases H with ⟨%fbc, %hfbc0, Hf0⟩
  clear hpayf' hpayf
  try clear payf
  have hfbc := feat_glue (m (xLoc d)) X hX fbc (0 : Fin 2) (1024 * (widL L).val + 128 * (⟨2, by decide⟩ : Fin 8).val) (widL L) (⟨2, by decide⟩ : Fin 8) rfl (fun r j h => (hfbc0 r j).trans (congrArg (fun n : Fin 65536 => (m (xLoc d) : FVec Ideal S65536x256 .f32) (ix2 n j)) (Fin.ext (congrArg (· + r.val) (featOff_zero L (⟨2, by decide⟩ : Fin 8))))))
  sl_for (inv7v0 d L X LAB (widL L) (⟨2, by decide⟩ : Fin 8) fc fo fb fbc) $$ [Hb6 Hb7 Hb5 Hf0 Hb2 Hb3]
  case region => exact fun k acc => t7v_region0 d L X LAB (widL L) (⟨2, by decide⟩ : Fin 8) hlabS fc fo fb fbc hfcS hfoS hfbS hfbc _ _ (fun _ => Ideal.ofBits_zero_f32) ⟨2, by decide⟩ (by decide) _ k acc
  · iapply (inv7v0_intro d L X LAB (widL L) _ fc fo fb fbc _ _ 0 () ha2 hx2 hz2)
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7v0
  icases HI with ⟨Hb6, Hb7, Hb5, Hf0, ⟨%ga3, %gx3, %hpure, Hb2, Hb3⟩⟩
  obtain ⟨ha13, hx13, hz3⟩ := hpure
  rw [show Scf.trips k0_t7_loop.lb k0_t7_loop.ub k0_t7_loop.st = 13 from t7_trips] at ha13 hx13
  have ha3 : AfAt X LAB (widL L) (⟨3, by decide⟩ : Fin 8) 0 ga3 := (AfAt_zero_iff X LAB (widL L) _ _).mpr (AfAt_thirteen X LAB (widL L) (⟨2, by decide⟩ : Fin 8) ha13)
  have hx3 : AxAt X LAB (widL L) (⟨3, by decide⟩ : Fin 8) 0 gx3 := (AxAt_zero_iff X LAB (widL L) _ _).mpr (AxAt_thirteen X LAB (widL L) (⟨2, by decide⟩ : Fin 8) hx13)
  ihave Hf0 := (fslot0_of_rest (F := Ideal) d (cV L) (jV L) _) $$ Hf0
  ihave Hlb0 := (lslot0_of_rest (F := Ideal) d (cV L) (jV L) _) $$ Hlb0
  clear hfbc hfbc0 hfbS hfoS hfcS hlabS hfb' hfb hfp2 hfp' hfo' hfp hfo hacc5 hfc hfl hfc0 hfl0 hrowG hlb hrow hlab hc6 ha13 hx13 ha2 hx2 hz2
  try clear labels
  try clear c6
  try clear fp
  try clear acc5
  -- chunk 3 (slot 1): the labels have landed; zero the counts
  sl_exec
  sl_for (inv3 (F := Ideal) d L) $$ [Hb6]
  case region => exact fun k acc => t3_region (F := Ideal) d L 0#32 1#32 ⟨3, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot1_name (F := Ideal) d (cV L) (jV L) _ _) $$ Hlb1
  icases H with ⟨%pay, %hpay, Hlb1⟩
  have hpay' : pay = ReadAs.same.apply (View.read (Elt Ideal) ((Memref.whole main_arg1_scv : Memref sig .scVector .hbm S65536 .i32).slice (Rect.unit (s := S65536) (k0_off120 L ⟨1, by decide⟩) S128.size (k0_off120_inb L ⟨1, by decide⟩ (by decide))) (fun _ => rfl)).view (m (lLoc d))) := hpay.trans rfl
  ihave H := (lslot_entry_1' (F := Ideal) d L (m (lLoc d)) hM _ pay (k0_off120 L ⟨1, by decide⟩) (k0_off120_inb L ⟨1, by decide⟩ (by decide)) hpay') $$ Hlb1
  icases H with ⟨%labels, %lb, %hL, Hlb1⟩
  obtain ⟨hlab, hrow, hlb⟩ := hL
  clear hpay' hpay
  try clear pay
  have hrowG : ∀ (r : Fin 128) (h : (1024 * (widL L).val + 128 * (⟨3, by decide⟩ : Fin 8).val) + r.val < 65536), labels r = (m (lLoc d) : IVec S65536 32) (ix1 ⟨(1024 * (widL L).val + 128 * (⟨3, by decide⟩ : Fin 8).val) + r.val, h⟩) := fun r h => (hrow r).trans (congrArg (fun n : Fin 65536 => (m (lLoc d) : IVec S65536 32) (ix1 n)) (Fin.ext (congrArg (· + r.val) (labOff_zero L (⟨3, by decide⟩ : Fin 8)))))
  sl_for (inv4_1 (F := Ideal) d L labels lb) $$ [Hlb1 Hb4 Hb6]
  case region => exact fun k acc => t4_region1 (F := Ideal) d L labels lb hlab hlb 0#32 1#32 ⟨3, by decide⟩ (by decide) _ k acc
  · iapply (inv4_1_init (F := Ideal) d L labels lb _ _ hc6)
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨3, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨3, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 3
  obtain ⟨hlabS, hfcS, hfoS, hfbS⟩ := chunk_sort_facts (m (lLoc d)) LAB hLAB labels (1024 * (widL L).val + 128 * (⟨3, by decide⟩ : Fin 8).val) (widL L) (⟨3, by decide⟩ : Fin 8) rfl hrowG hlab fc fo fb hfc hfo' hfb'
  sl_exec
  -- the features have landed: the slot holds the specification's rows of the chunk; per class, add up the rows found at its slots
  ihave H := (fslot1_name (F := Ideal) d (cV L) (jV L) _ _) $$ Hf1
  icases H with ⟨%payf, %hpayf, Hf1⟩
  have hpayf' : payf = ReadAs.same.apply (View.read (Elt Ideal) ((Memref.whole main_arg0_scv : Memref sig .scVector .hbm S65536x256 .f32).slice (Rect.unit (s := S65536x256) (k0_off117 L ⟨1, by decide⟩) S128x256.size (k0_off117_inb L ⟨1, by decide⟩ (by decide))) (fun _ => rfl)).view (m (xLoc d))) := hpayf.trans rfl
  ihave H := (fslot_entry_1' (F := Ideal) d L (m (xLoc d)) _ payf (k0_off117 L ⟨1, by decide⟩) (k0_off117_inb L ⟨1, by decide⟩ (by decide)) (featOff_one L (⟨3, by decide⟩ : Fin 8)) hpayf') $$ Hf1
  icases H with ⟨%fbc, %hfbc0, Hf1⟩
  clear hpayf' hpayf
  try clear payf
  have hfbc := feat_glue (m (xLoc d)) X hX fbc (1 : Fin 2) (1024 * (widL L).val + 128 * (⟨3, by decide⟩ : Fin 8).val) (widL L) (⟨3, by decide⟩ : Fin 8) rfl (fun r j h => (hfbc0 r j).trans (congrArg (fun n : Fin 65536 => (m (xLoc d) : FVec Ideal S65536x256 .f32) (ix2 n j)) (Fin.ext (congrArg (· + r.val) (featOff_zero L (⟨3, by decide⟩ : Fin 8))))))
  sl_for (inv7v1 d L X LAB (widL L) (⟨3, by decide⟩ : Fin 8) fc fo fb fbc) $$ [Hb6 Hb7 Hb5 Hf1 Hb2 Hb3]
  case region => exact fun k acc => t7v_region1 d L X LAB (widL L) (⟨3, by decide⟩ : Fin 8) hlabS fc fo fb fbc hfcS hfoS hfbS hfbc _ _ (fun _ => Ideal.ofBits_zero_f32) ⟨3, by decide⟩ (by decide) _ k acc
  · iapply (inv7v1_intro d L X LAB (widL L) _ fc fo fb fbc _ _ 0 () ha3 hx3 hz3)
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7v1
  icases HI with ⟨Hb6, Hb7, Hb5, Hf1, ⟨%ga4, %gx4, %hpure, Hb2, Hb3⟩⟩
  obtain ⟨ha13, hx13, hz4⟩ := hpure
  rw [show Scf.trips k0_t7_loop.lb k0_t7_loop.ub k0_t7_loop.st = 13 from t7_trips] at ha13 hx13
  have ha4 : AfAt X LAB (widL L) (⟨4, by decide⟩ : Fin 8) 0 ga4 := (AfAt_zero_iff X LAB (widL L) _ _).mpr (AfAt_thirteen X LAB (widL L) (⟨3, by decide⟩ : Fin 8) ha13)
  have hx4 : AxAt X LAB (widL L) (⟨4, by decide⟩ : Fin 8) 0 gx4 := (AxAt_zero_iff X LAB (widL L) _ _).mpr (AxAt_thirteen X LAB (widL L) (⟨3, by decide⟩ : Fin 8) hx13)
  ihave Hf1 := (fslot1_of_rest (F := Ideal) d (cV L) (jV L) _) $$ Hf1
  ihave Hlb1 := (lslot1_of_rest (F := Ideal) d (cV L) (jV L) _) $$ Hlb1
  clear hfbc hfbc0 hfbS hfoS hfcS hlabS hfb' hfb hfp2 hfp' hfo' hfp hfo hacc5 hfc hfl hfc0 hfl0 hrowG hlb hrow hlab hc6 ha13 hx13 ha3 hx3 hz3
  try clear labels
  try clear c6
  try clear fp
  try clear acc5
  -- chunk 4 (slot 0): the labels have landed; zero the counts
  sl_exec
  sl_for (inv3 (F := Ideal) d L) $$ [Hb6]
  case region => exact fun k acc => t3_region (F := Ideal) d L 0#32 1#32 ⟨4, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot0_name (F := Ideal) d (cV L) (jV L) _ _) $$ Hlb0
  icases H with ⟨%pay, %hpay, Hlb0⟩
  have hpay' : pay = ReadAs.same.apply (View.read (Elt Ideal) ((Memref.whole main_arg1_scv : Memref sig .scVector .hbm S65536 .i32).slice (Rect.unit (s := S65536) (k0_off120 L ⟨2, by decide⟩) S128.size (k0_off120_inb L ⟨2, by decide⟩ (by decide))) (fun _ => rfl)).view (m (lLoc d))) := hpay.trans rfl
  ihave H := (lslot_entry_0' (F := Ideal) d L (m (lLoc d)) hM _ pay (k0_off120 L ⟨2, by decide⟩) (k0_off120_inb L ⟨2, by decide⟩ (by decide)) hpay') $$ Hlb0
  icases H with ⟨%labels, %lb, %hL, Hlb0⟩
  obtain ⟨hlab, hrow, hlb⟩ := hL
  clear hpay' hpay
  try clear pay
  have hrowG : ∀ (r : Fin 128) (h : (1024 * (widL L).val + 128 * (⟨4, by decide⟩ : Fin 8).val) + r.val < 65536), labels r = (m (lLoc d) : IVec S65536 32) (ix1 ⟨(1024 * (widL L).val + 128 * (⟨4, by decide⟩ : Fin 8).val) + r.val, h⟩) := fun r h => (hrow r).trans (congrArg (fun n : Fin 65536 => (m (lLoc d) : IVec S65536 32) (ix1 n)) (Fin.ext (congrArg (· + r.val) (labOff_zero L (⟨4, by decide⟩ : Fin 8)))))
  sl_for (inv4_0 (F := Ideal) d L labels lb) $$ [Hlb0 Hb4 Hb6]
  case region => exact fun k acc => t4_region0 (F := Ideal) d L labels lb hlab hlb 0#32 1#32 ⟨4, by decide⟩ (by decide) _ k acc
  · iapply (inv4_0_init (F := Ideal) d L labels lb _ _ hc6)
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨4, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨4, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 4
  obtain ⟨hlabS, hfcS, hfoS, hfbS⟩ := chunk_sort_facts (m (lLoc d)) LAB hLAB labels (1024 * (widL L).val + 128 * (⟨4, by decide⟩ : Fin 8).val) (widL L) (⟨4, by decide⟩ : Fin 8) rfl hrowG hlab fc fo fb hfc hfo' hfb'
  sl_exec
  -- the features have landed: the slot holds the specification's rows of the chunk; per class, add up the rows found at its slots
  ihave H := (fslot0_name (F := Ideal) d (cV L) (jV L) _ _) $$ Hf0
  icases H with ⟨%payf, %hpayf, Hf0⟩
  have hpayf' : payf = ReadAs.same.apply (View.read (Elt Ideal) ((Memref.whole main_arg0_scv : Memref sig .scVector .hbm S65536x256 .f32).slice (Rect.unit (s := S65536x256) (k0_off117 L ⟨2, by decide⟩) S128x256.size (k0_off117_inb L ⟨2, by decide⟩ (by decide))) (fun _ => rfl)).view (m (xLoc d))) := hpayf.trans rfl
  ihave H := (fslot_entry_0' (F := Ideal) d L (m (xLoc d)) _ payf (k0_off117 L ⟨2, by decide⟩) (k0_off117_inb L ⟨2, by decide⟩ (by decide)) (featOff_one L (⟨4, by decide⟩ : Fin 8)) hpayf') $$ Hf0
  icases H with ⟨%fbc, %hfbc0, Hf0⟩
  clear hpayf' hpayf
  try clear payf
  have hfbc := feat_glue (m (xLoc d)) X hX fbc (0 : Fin 2) (1024 * (widL L).val + 128 * (⟨4, by decide⟩ : Fin 8).val) (widL L) (⟨4, by decide⟩ : Fin 8) rfl (fun r j h => (hfbc0 r j).trans (congrArg (fun n : Fin 65536 => (m (xLoc d) : FVec Ideal S65536x256 .f32) (ix2 n j)) (Fin.ext (congrArg (· + r.val) (featOff_zero L (⟨4, by decide⟩ : Fin 8))))))
  sl_for (inv7v0 d L X LAB (widL L) (⟨4, by decide⟩ : Fin 8) fc fo fb fbc) $$ [Hb6 Hb7 Hb5 Hf0 Hb2 Hb3]
  case region => exact fun k acc => t7v_region0 d L X LAB (widL L) (⟨4, by decide⟩ : Fin 8) hlabS fc fo fb fbc hfcS hfoS hfbS hfbc _ _ (fun _ => Ideal.ofBits_zero_f32) ⟨4, by decide⟩ (by decide) _ k acc
  · iapply (inv7v0_intro d L X LAB (widL L) _ fc fo fb fbc _ _ 0 () ha4 hx4 hz4)
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7v0
  icases HI with ⟨Hb6, Hb7, Hb5, Hf0, ⟨%ga5, %gx5, %hpure, Hb2, Hb3⟩⟩
  obtain ⟨ha13, hx13, hz5⟩ := hpure
  rw [show Scf.trips k0_t7_loop.lb k0_t7_loop.ub k0_t7_loop.st = 13 from t7_trips] at ha13 hx13
  have ha5 : AfAt X LAB (widL L) (⟨5, by decide⟩ : Fin 8) 0 ga5 := (AfAt_zero_iff X LAB (widL L) _ _).mpr (AfAt_thirteen X LAB (widL L) (⟨4, by decide⟩ : Fin 8) ha13)
  have hx5 : AxAt X LAB (widL L) (⟨5, by decide⟩ : Fin 8) 0 gx5 := (AxAt_zero_iff X LAB (widL L) _ _).mpr (AxAt_thirteen X LAB (widL L) (⟨4, by decide⟩ : Fin 8) hx13)
  ihave Hf0 := (fslot0_of_rest (F := Ideal) d (cV L) (jV L) _) $$ Hf0
  ihave Hlb0 := (lslot0_of_rest (F := Ideal) d (cV L) (jV L) _) $$ Hlb0
  clear hfbc hfbc0 hfbS hfoS hfcS hlabS hfb' hfb hfp2 hfp' hfo' hfp hfo hacc5 hfc hfl hfc0 hfl0 hrowG hlb hrow hlab hc6 ha13 hx13 ha4 hx4 hz4
  try clear labels
  try clear c6
  try clear fp
  try clear acc5
  -- chunk 5 (slot 1): the labels have landed; zero the counts
  sl_exec
  sl_for (inv3 (F := Ideal) d L) $$ [Hb6]
  case region => exact fun k acc => t3_region (F := Ideal) d L 0#32 1#32 ⟨5, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot1_name (F := Ideal) d (cV L) (jV L) _ _) $$ Hlb1
  icases H with ⟨%pay, %hpay, Hlb1⟩
  have hpay' : pay = ReadAs.same.apply (View.read (Elt Ideal) ((Memref.whole main_arg1_scv : Memref sig .scVector .hbm S65536 .i32).slice (Rect.unit (s := S65536) (k0_off120 L ⟨3, by decide⟩) S128.size (k0_off120_inb L ⟨3, by decide⟩ (by decide))) (fun _ => rfl)).view (m (lLoc d))) := hpay.trans rfl
  ihave H := (lslot_entry_1' (F := Ideal) d L (m (lLoc d)) hM _ pay (k0_off120 L ⟨3, by decide⟩) (k0_off120_inb L ⟨3, by decide⟩ (by decide)) hpay') $$ Hlb1
  icases H with ⟨%labels, %lb, %hL, Hlb1⟩
  obtain ⟨hlab, hrow, hlb⟩ := hL
  clear hpay' hpay
  try clear pay
  have hrowG : ∀ (r : Fin 128) (h : (1024 * (widL L).val + 128 * (⟨5, by decide⟩ : Fin 8).val) + r.val < 65536), labels r = (m (lLoc d) : IVec S65536 32) (ix1 ⟨(1024 * (widL L).val + 128 * (⟨5, by decide⟩ : Fin 8).val) + r.val, h⟩) := fun r h => (hrow r).trans (congrArg (fun n : Fin 65536 => (m (lLoc d) : IVec S65536 32) (ix1 n)) (Fin.ext (congrArg (· + r.val) (labOff_zero L (⟨5, by decide⟩ : Fin 8)))))
  sl_for (inv4_1 (F := Ideal) d L labels lb) $$ [Hlb1 Hb4 Hb6]
  case region => exact fun k acc => t4_region1 (F := Ideal) d L labels lb hlab hlb 0#32 1#32 ⟨5, by decide⟩ (by decide) _ k acc
  · iapply (inv4_1_init (F := Ideal) d L labels lb _ _ hc6)
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨5, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨5, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 5
  obtain ⟨hlabS, hfcS, hfoS, hfbS⟩ := chunk_sort_facts (m (lLoc d)) LAB hLAB labels (1024 * (widL L).val + 128 * (⟨5, by decide⟩ : Fin 8).val) (widL L) (⟨5, by decide⟩ : Fin 8) rfl hrowG hlab fc fo fb hfc hfo' hfb'
  sl_exec
  -- the features have landed: the slot holds the specification's rows of the chunk; per class, add up the rows found at its slots
  ihave H := (fslot1_name (F := Ideal) d (cV L) (jV L) _ _) $$ Hf1
  icases H with ⟨%payf, %hpayf, Hf1⟩
  have hpayf' : payf = ReadAs.same.apply (View.read (Elt Ideal) ((Memref.whole main_arg0_scv : Memref sig .scVector .hbm S65536x256 .f32).slice (Rect.unit (s := S65536x256) (k0_off117 L ⟨3, by decide⟩) S128x256.size (k0_off117_inb L ⟨3, by decide⟩ (by decide))) (fun _ => rfl)).view (m (xLoc d))) := hpayf.trans rfl
  ihave H := (fslot_entry_1' (F := Ideal) d L (m (xLoc d)) _ payf (k0_off117 L ⟨3, by decide⟩) (k0_off117_inb L ⟨3, by decide⟩ (by decide)) (featOff_one L (⟨5, by decide⟩ : Fin 8)) hpayf') $$ Hf1
  icases H with ⟨%fbc, %hfbc0, Hf1⟩
  clear hpayf' hpayf
  try clear payf
  have hfbc := feat_glue (m (xLoc d)) X hX fbc (1 : Fin 2) (1024 * (widL L).val + 128 * (⟨5, by decide⟩ : Fin 8).val) (widL L) (⟨5, by decide⟩ : Fin 8) rfl (fun r j h => (hfbc0 r j).trans (congrArg (fun n : Fin 65536 => (m (xLoc d) : FVec Ideal S65536x256 .f32) (ix2 n j)) (Fin.ext (congrArg (· + r.val) (featOff_zero L (⟨5, by decide⟩ : Fin 8))))))
  sl_for (inv7v1 d L X LAB (widL L) (⟨5, by decide⟩ : Fin 8) fc fo fb fbc) $$ [Hb6 Hb7 Hb5 Hf1 Hb2 Hb3]
  case region => exact fun k acc => t7v_region1 d L X LAB (widL L) (⟨5, by decide⟩ : Fin 8) hlabS fc fo fb fbc hfcS hfoS hfbS hfbc _ _ (fun _ => Ideal.ofBits_zero_f32) ⟨5, by decide⟩ (by decide) _ k acc
  · iapply (inv7v1_intro d L X LAB (widL L) _ fc fo fb fbc _ _ 0 () ha5 hx5 hz5)
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7v1
  icases HI with ⟨Hb6, Hb7, Hb5, Hf1, ⟨%ga6, %gx6, %hpure, Hb2, Hb3⟩⟩
  obtain ⟨ha13, hx13, hz6⟩ := hpure
  rw [show Scf.trips k0_t7_loop.lb k0_t7_loop.ub k0_t7_loop.st = 13 from t7_trips] at ha13 hx13
  have ha6 : AfAt X LAB (widL L) (⟨6, by decide⟩ : Fin 8) 0 ga6 := (AfAt_zero_iff X LAB (widL L) _ _).mpr (AfAt_thirteen X LAB (widL L) (⟨5, by decide⟩ : Fin 8) ha13)
  have hx6 : AxAt X LAB (widL L) (⟨6, by decide⟩ : Fin 8) 0 gx6 := (AxAt_zero_iff X LAB (widL L) _ _).mpr (AxAt_thirteen X LAB (widL L) (⟨5, by decide⟩ : Fin 8) hx13)
  ihave Hf1 := (fslot1_of_rest (F := Ideal) d (cV L) (jV L) _) $$ Hf1
  ihave Hlb1 := (lslot1_of_rest (F := Ideal) d (cV L) (jV L) _) $$ Hlb1
  clear hfbc hfbc0 hfbS hfoS hfcS hlabS hfb' hfb hfp2 hfp' hfo' hfp hfo hacc5 hfc hfl hfc0 hfl0 hrowG hlb hrow hlab hc6 ha13 hx13 ha5 hx5 hz5
  try clear labels
  try clear c6
  try clear fp
  try clear acc5
  -- chunk 6 (slot 0): the labels have landed; zero the counts
  sl_exec
  sl_for (inv3 (F := Ideal) d L) $$ [Hb6]
  case region => exact fun k acc => t3_region (F := Ideal) d L 0#32 1#32 ⟨6, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot0_name (F := Ideal) d (cV L) (jV L) _ _) $$ Hlb0
  icases H with ⟨%pay, %hpay, Hlb0⟩
  have hpay' : pay = ReadAs.same.apply (View.read (Elt Ideal) ((Memref.whole main_arg1_scv : Memref sig .scVector .hbm S65536 .i32).slice (Rect.unit (s := S65536) (k0_off120 L ⟨4, by decide⟩) S128.size (k0_off120_inb L ⟨4, by decide⟩ (by decide))) (fun _ => rfl)).view (m (lLoc d))) := hpay.trans rfl
  ihave H := (lslot_entry_0' (F := Ideal) d L (m (lLoc d)) hM _ pay (k0_off120 L ⟨4, by decide⟩) (k0_off120_inb L ⟨4, by decide⟩ (by decide)) hpay') $$ Hlb0
  icases H with ⟨%labels, %lb, %hL, Hlb0⟩
  obtain ⟨hlab, hrow, hlb⟩ := hL
  clear hpay' hpay
  try clear pay
  have hrowG : ∀ (r : Fin 128) (h : (1024 * (widL L).val + 128 * (⟨6, by decide⟩ : Fin 8).val) + r.val < 65536), labels r = (m (lLoc d) : IVec S65536 32) (ix1 ⟨(1024 * (widL L).val + 128 * (⟨6, by decide⟩ : Fin 8).val) + r.val, h⟩) := fun r h => (hrow r).trans (congrArg (fun n : Fin 65536 => (m (lLoc d) : IVec S65536 32) (ix1 n)) (Fin.ext (congrArg (· + r.val) (labOff_zero L (⟨6, by decide⟩ : Fin 8)))))
  sl_for (inv4_0 (F := Ideal) d L labels lb) $$ [Hlb0 Hb4 Hb6]
  case region => exact fun k acc => t4_region0 (F := Ideal) d L labels lb hlab hlb 0#32 1#32 ⟨6, by decide⟩ (by decide) _ k acc
  · iapply (inv4_0_init (F := Ideal) d L labels lb _ _ hc6)
    isplitl [Hlb0]
    · iexact Hlb0
    isplitl [Hb4]
    · iexact Hb4
    · iexact Hb6
  iintro %_ HI
  unfold inv4_0
  icases HI with ⟨Hlb0, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨6, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨6, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 6
  obtain ⟨hlabS, hfcS, hfoS, hfbS⟩ := chunk_sort_facts (m (lLoc d)) LAB hLAB labels (1024 * (widL L).val + 128 * (⟨6, by decide⟩ : Fin 8).val) (widL L) (⟨6, by decide⟩ : Fin 8) rfl hrowG hlab fc fo fb hfc hfo' hfb'
  sl_exec
  -- the features have landed: the slot holds the specification's rows of the chunk; per class, add up the rows found at its slots
  ihave H := (fslot0_name (F := Ideal) d (cV L) (jV L) _ _) $$ Hf0
  icases H with ⟨%payf, %hpayf, Hf0⟩
  have hpayf' : payf = ReadAs.same.apply (View.read (Elt Ideal) ((Memref.whole main_arg0_scv : Memref sig .scVector .hbm S65536x256 .f32).slice (Rect.unit (s := S65536x256) (k0_off117 L ⟨4, by decide⟩) S128x256.size (k0_off117_inb L ⟨4, by decide⟩ (by decide))) (fun _ => rfl)).view (m (xLoc d))) := hpayf.trans rfl
  ihave H := (fslot_entry_0' (F := Ideal) d L (m (xLoc d)) _ payf (k0_off117 L ⟨4, by decide⟩) (k0_off117_inb L ⟨4, by decide⟩ (by decide)) (featOff_one L (⟨6, by decide⟩ : Fin 8)) hpayf') $$ Hf0
  icases H with ⟨%fbc, %hfbc0, Hf0⟩
  clear hpayf' hpayf
  try clear payf
  have hfbc := feat_glue (m (xLoc d)) X hX fbc (0 : Fin 2) (1024 * (widL L).val + 128 * (⟨6, by decide⟩ : Fin 8).val) (widL L) (⟨6, by decide⟩ : Fin 8) rfl (fun r j h => (hfbc0 r j).trans (congrArg (fun n : Fin 65536 => (m (xLoc d) : FVec Ideal S65536x256 .f32) (ix2 n j)) (Fin.ext (congrArg (· + r.val) (featOff_zero L (⟨6, by decide⟩ : Fin 8))))))
  sl_for (inv7v0 d L X LAB (widL L) (⟨6, by decide⟩ : Fin 8) fc fo fb fbc) $$ [Hb6 Hb7 Hb5 Hf0 Hb2 Hb3]
  case region => exact fun k acc => t7v_region0 d L X LAB (widL L) (⟨6, by decide⟩ : Fin 8) hlabS fc fo fb fbc hfcS hfoS hfbS hfbc _ _ (fun _ => Ideal.ofBits_zero_f32) ⟨6, by decide⟩ (by decide) _ k acc
  · iapply (inv7v0_intro d L X LAB (widL L) _ fc fo fb fbc _ _ 0 () ha6 hx6 hz6)
    isplitl [Hb6]
    · iexact Hb6
    isplitl [Hb7]
    · iexact Hb7
    isplitl [Hb5]
    · iexact Hb5
    isplitl [Hf0]
    · iexact Hf0
    isplitl [Hb2]
    · iexact Hb2
    · iexact Hb3
  iintro %_ HI
  unfold inv7v0
  icases HI with ⟨Hb6, Hb7, Hb5, Hf0, ⟨%ga7, %gx7, %hpure, Hb2, Hb3⟩⟩
  obtain ⟨ha13, hx13, hz7⟩ := hpure
  rw [show Scf.trips k0_t7_loop.lb k0_t7_loop.ub k0_t7_loop.st = 13 from t7_trips] at ha13 hx13
  have ha7 : AfAt X LAB (widL L) (⟨7, by decide⟩ : Fin 8) 0 ga7 := (AfAt_zero_iff X LAB (widL L) _ _).mpr (AfAt_thirteen X LAB (widL L) (⟨6, by decide⟩ : Fin 8) ha13)
  have hx7 : AxAt X LAB (widL L) (⟨7, by decide⟩ : Fin 8) 0 gx7 := (AxAt_zero_iff X LAB (widL L) _ _).mpr (AxAt_thirteen X LAB (widL L) (⟨6, by decide⟩ : Fin 8) hx13)
  ihave Hf0 := (fslot0_of_rest (F := Ideal) d (cV L) (jV L) _) $$ Hf0
  ihave Hlb0 := (lslot0_of_rest (F := Ideal) d (cV L) (jV L) _) $$ Hlb0
  clear hfbc hfbc0 hfbS hfoS hfcS hlabS hfb' hfb hfp2 hfp' hfo' hfp hfo hacc5 hfc hfl hfc0 hfl0 hrowG hlb hrow hlab hc6 ha13 hx13 ha6 hx6 hz6
  try clear labels
  try clear c6
  try clear fp
  try clear acc5
  -- chunk 7 (slot 1): the labels have landed; zero the counts
  sl_exec
  sl_for (inv3 (F := Ideal) d L) $$ [Hb6]
  case region => exact fun k acc => t3_region (F := Ideal) d L 0#32 1#32 ⟨7, by decide⟩ k acc
  · iapply (inv3_init (F := Ideal) d L _); iexact Hb6
  iintro %_ HI
  unfold inv3
  icases HI with ⟨%c6, %hc6, Hb6⟩
  rw [show Scf.trips k0_t3_loop.lb k0_t3_loop.ub k0_t3_loop.st = 13 from t3_trips] at hc6
  sl_exec
  -- the slot holds the chunk's labels, each at most 12; copy them to scalar memory and count them
  ihave H := (lslot1_name (F := Ideal) d (cV L) (jV L) _ _) $$ Hlb1
  icases H with ⟨%pay, %hpay, Hlb1⟩
  have hpay' : pay = ReadAs.same.apply (View.read (Elt Ideal) ((Memref.whole main_arg1_scv : Memref sig .scVector .hbm S65536 .i32).slice (Rect.unit (s := S65536) (k0_off120 L ⟨5, by decide⟩) S128.size (k0_off120_inb L ⟨5, by decide⟩ (by decide))) (fun _ => rfl)).view (m (lLoc d))) := hpay.trans rfl
  ihave H := (lslot_entry_1' (F := Ideal) d L (m (lLoc d)) hM _ pay (k0_off120 L ⟨5, by decide⟩) (k0_off120_inb L ⟨5, by decide⟩ (by decide)) hpay') $$ Hlb1
  icases H with ⟨%labels, %lb, %hL, Hlb1⟩
  obtain ⟨hlab, hrow, hlb⟩ := hL
  clear hpay' hpay
  try clear pay
  have hrowG : ∀ (r : Fin 128) (h : (1024 * (widL L).val + 128 * (⟨7, by decide⟩ : Fin 8).val) + r.val < 65536), labels r = (m (lLoc d) : IVec S65536 32) (ix1 ⟨(1024 * (widL L).val + 128 * (⟨7, by decide⟩ : Fin 8).val) + r.val, h⟩) := fun r h => (hrow r).trans (congrArg (fun n : Fin 65536 => (m (lLoc d) : IVec S65536 32) (ix1 n)) (Fin.ext (congrArg (· + r.val) (labOff_zero L (⟨7, by decide⟩ : Fin 8)))))
  sl_for (inv4_1 (F := Ideal) d L labels lb) $$ [Hlb1 Hb4 Hb6]
  case region => exact fun k acc => t4_region1 (F := Ideal) d L labels lb hlab hlb 0#32 1#32 ⟨7, by decide⟩ (by decide) _ k acc
  · iapply (inv4_1_init (F := Ideal) d L labels lb _ _ hc6)
    isplitl [Hlb1]
    · iexact Hlb1
    isplitl [Hb4]
    · iexact Hb4
    · iexact Hb6
  iintro %_ HI
  unfold inv4_1
  icases HI with ⟨Hlb1, ⟨%fl, %hfl0, Hb4⟩, ⟨%fc, %hfc0, Hb6⟩⟩
  rw [show Scf.trips k0_t4_loop.lb k0_t4_loop.ub k0_t4_loop.st = 8 from t4_trips] at hfl0 hfc0
  have hfl := lab_exit labels fl hfl0
  have hfc := cnt_exit labels fc hfc0
  sl_exec
  -- the first slot of each class
  sl_for (inv5 (F := Ideal) d L labels fc) $$ [Hb6 Hb7 Hb8]
  case region => exact fun k acc => t5_region (F := Ideal) d L labels fc hfc 0#32 1#32 ⟨7, by decide⟩ k acc
  · iapply (inv5_init (F := Ideal) d L labels fc _ _)
    isplitl [Hb6]
    · iexact Hb6
    isplitl [Hb7]
    · iexact Hb7
    · iexact Hb8
  iintro %acc5 HI
  unfold inv5
  icases HI with ⟨%hacc5, Hb6, ⟨%fo, %hfo, Hb7⟩, ⟨%fp, %hfp, Hb8⟩⟩
  rw [show Scf.trips k0_t5_loop.lb k0_t5_loop.ub k0_t5_loop.st = 13 from t5_trips] at hacc5 hfo hfp
  have hfo' : ∀ ci : Fin 16, ci.val < 13 → fo (ix1 ci) = W (Sort.off (labN labels) ci.val) := hfo
  have hfp' : ∀ ci : Fin 16, ci.val < 13 → fp (ix1 ci) = W (Sort.off (labN labels) ci.val) := hfp
  sl_exec
  -- the placement: row r goes to the next free slot of its class
  sl_for (inv6 (F := Ideal) d L labels fl) $$ [Hb4 Hb8 Hb5]
  case region => exact fun k acc => t6_region (F := Ideal) d L labels fl hlab hfl 0#32 1#32 ⟨7, by decide⟩ k acc
  · iapply (inv6_init (F := Ideal) d L labels fl fp _ hfp')
    isplitl [Hb4]
    · iexact Hb4
    isplitl [Hb8]
    · iexact Hb8
    · iexact Hb5
  iintro %_ HI
  unfold inv6
  icases HI with ⟨Hb4, ⟨%fp2, %hfp2, Hb8⟩, ⟨%fb, %hfb, Hb5⟩⟩
  rw [show Scf.trips k0_t6_loop.lb k0_t6_loop.ub k0_t6_loop.st = 128 from t6_trips] at hfp2 hfb
  have hfb' : ∀ r : Fin 128, fb (ix1 (Sort.posFin (labN labels) hlab r)) = W r.val := fun r => hfb r ⟨_, Sort.pos_lt (labN labels) hlab r⟩ r.isLt rfl
  -- the sort's facts over the specification's labels of chunk 7
  obtain ⟨hlabS, hfcS, hfoS, hfbS⟩ := chunk_sort_facts (m (lLoc d)) LAB hLAB labels (1024 * (widL L).val + 128 * (⟨7, by decide⟩ : Fin 8).val) (widL L) (⟨7, by decide⟩ : Fin 8) rfl hrowG hlab fc fo fb hfc hfo' hfb'
  sl_exec
  -- the features have landed: the slot holds the specification's rows of the chunk; per class, add up the rows found at its slots
  ihave H := (fslot1_name (F := Ideal) d (cV L) (jV L) _ _) $$ Hf1
  icases H with ⟨%payf, %hpayf, Hf1⟩
  have hpayf' : payf = ReadAs.same.apply (View.read (Elt Ideal) ((Memref.whole main_arg0_scv : Memref sig .scVector .hbm S65536x256 .f32).slice (Rect.unit (s := S65536x256) (k0_off117 L ⟨5, by decide⟩) S128x256.size (k0_off117_inb L ⟨5, by decide⟩ (by decide))) (fun _ => rfl)).view (m (xLoc d))) := hpayf.trans rfl
  ihave H := (fslot_entry_1' (F := Ideal) d L (m (xLoc d)) _ payf (k0_off117 L ⟨5, by decide⟩) (k0_off117_inb L ⟨5, by decide⟩ (by decide)) (featOff_one L (⟨7, by decide⟩ : Fin 8)) hpayf') $$ Hf1
  icases H with ⟨%fbc, %hfbc0, Hf1⟩
  clear hpayf' hpayf
  try clear payf
  have hfbc := feat_glue (m (xLoc d)) X hX fbc (1 : Fin 2) (1024 * (widL L).val + 128 * (⟨7, by decide⟩ : Fin 8).val) (widL L) (⟨7, by decide⟩ : Fin 8) rfl (fun r j h => (hfbc0 r j).trans (congrArg (fun n : Fin 65536 => (m (xLoc d) : FVec Ideal S65536x256 .f32) (ix2 n j)) (Fin.ext (congrArg (· + r.val) (featOff_zero L (⟨7, by decide⟩ : Fin 8))))))
  sl_for (inv7v1 d L X LAB (widL L) (⟨7, by decide⟩ : Fin 8) fc fo fb fbc) $$ [Hb6 Hb7 Hb5 Hf1 Hb2 Hb3]
  case region => exact fun k acc => t7v_region1 d L X LAB (widL L) (⟨7, by decide⟩ : Fin 8) hlabS fc fo fb fbc hfcS hfoS hfbS hfbc _ _ (fun _ => Ideal.ofBits_zero_f32) ⟨7, by decide⟩ (by decide) _ k acc
  · iapply (inv7v1_intro d L X LAB (widL L) _ fc fo fb fbc _ _ 0 () ha7 hx7 hz7)
    isplitl [Hb6]
    · iexact Hb6
    isplitl [Hb7]
    · iexact Hb7
    isplitl [Hb5]
    · iexact Hb5
    isplitl [Hf1]
    · iexact Hf1
    isplitl [Hb2]
    · iexact Hb2
    · iexact Hb3
  iintro %_ HI
  unfold inv7v1
  icases HI with ⟨Hb6, Hb7, Hb5, Hf1, ⟨%ga8, %gx8, %hpure, Hb2, Hb3⟩⟩
  obtain ⟨ha13, hx13, hz8⟩ := hpure
  rw [show Scf.trips k0_t7_loop.lb k0_t7_loop.ub k0_t7_loop.st = 13 from t7_trips] at ha13 hx13
  have haE := AfAt_thirteen X LAB (widL L) (⟨7, by decide⟩ : Fin 8) ha13
  have hxE := AxAt_thirteen X LAB (widL L) (⟨7, by decide⟩ : Fin 8) hx13
  ihave Hf1 := (fslot1_of_rest (F := Ideal) d (cV L) (jV L) _) $$ Hf1
  ihave Hlb1 := (lslot1_of_rest (F := Ideal) d (cV L) (jV L) _) $$ Hlb1
  clear hfbc hfbc0 hfbS hfoS hfcS hlabS hfb' hfb hfp2 hfp' hfo' hfp hfo hacc5 hfc hfl hfc0 hfl0 hrowG hlb hrow hlab hc6 ha13 hx13 ha7 hx7 hz7
  try clear labels
  try clear c6
  try clear fp
  try clear acc5
  -- after the eight chunks the two buffers hold the worker's sums, squares and counts by class
  have hEndF : ∀ (ci : Fin 16) (j : Fin 256), ga8 (ix2 ci j) = outF d (ix3 (widL L) ci j) := by
    intro ci j
    rw [hoF]
    by_cases hci : ci.val < 13
    · exact (haE ci hci j).trans (scF_eq_upTo8_chunkF X LAB (widL L) ci j).symm
    · rw [(hz8 ci (by omega)).1 j, Spec.scF_eq_zero X LAB hLle (widL L) ci (by omega) j]
  have hEndA : ∀ (ci : Fin 16) (l : Fin 32), gx8 (ix2 ci l) = outA d (ix3 (widL L) ci l) := by
    intro ci l
    rw [hoA]
    by_cases hci : ci.val < 13
    · exact (hxE ci hci l).trans (scA_eq_upTo8_axLane X LAB (widL L) ci l).symm
    · rw [(hz8 ci (by omega)).2 l, Spec.scA_eq_zero X LAB hLle (widL L) ci (by omega) l]
  -- the two write-outs and the return
  sl_exec
  iapply (task_endV (F := Ideal) m outF outA d L O W₀ _ _ _ _ _ _ _ _ _ _ _ hEndF hEndA)
  isplitr; · iexact Hmw
  isplitr [HO]
  · unfold endPre
    isplitl [HoF HoA]
    · isplitl [HoF] <;> iassumption
    isplitl [Hb2 Hb3]
    · isplitl [Hb2] <;> iassumption
    isplitl [Hf0 Hf1 Hlb0 Hlb1]
    ·
      isplitl [Hf0]; · iexact Hf0
      isplitl [Hf1]; · iexact Hf1
      isplitl [Hlb0]; · iexact Hlb0
      iexact Hlb1
    isplitl [Hb4 Hb5 Hb6 Hb7 Hb8]
    ·
      isplitl [Hb4]; · iexact Hb4
      isplitl [Hb5]; · iexact Hb5
      isplitl [Hb6]; · iexact Hb6
      isplitl [Hb7]; · iexact Hb7
      iexact Hb8
    isplitl [Hxr Hx0 Hx1 Hx2 Hx3]
    ·
      isplitl [Hxr]; · iexact Hxr
      isplitl [Hx0]; · iexact Hx0
      isplitl [Hx1]; · iexact Hx1
      isplitl [Hx2]; · iexact Hx2
      iexact Hx3
    isplitl [Hlr Hl0 Hl1 Hl2 Hl3]
    ·
      isplitl [Hlr]; · iexact Hlr
      isplitl [Hl0]; · iexact Hl0
      isplitl [Hl1]; · iexact Hl1
      isplitl [Hl2]; · iexact Hl2
      iexact Hl3
    isplitl [Hs0 Hs1 Hs2 Hs3 Hs4 Hs5]
    ·
      isplitl [Hs0]; · iexact Hs0
      isplitl [Hs1]; · iexact Hs1
      isplitl [Hs2]; · iexact Hs2
      isplitl [Hs3]; · iexact Hs3
      isplitl [Hs4]; · iexact Hs4
      iexact Hs5
    isplitl [Hbufs]; · iexact Hbufs
    iexact Hsems
  · iexists _
    isplitr
    swap
    · iexact HO
    ipureintro
    iterate 16 refine waits_insert ?_ _
    exact fun p hp => Or.inl hp

end Cert.Proof.KI

end
-- ==== Proof.ScBodyOblV.lean ====
import proofs.«216278_g4776003633407_cont_8to1_c_644_33_alg».proof.Proof.ScBodyVal
import proofs.«216278_g4776003633407_cont_8to1_c_644_33_alg».proof.Proof.Assemble

noncomputable section

namespace Cert.Proof.KI

open Cert.KernelIdeal Cert.KernelIdeal.Gen
open Idealize.ShloMosaic

theorem bodyOblV (m : (ℓ : Loc nD τ sig) → Buf (Elt Ideal) ℓ) (hlab : LabOK m) :
    BodyOblV (F := Ideal) m (Cert.Proof.Assemble.outF m) (Cert.Proof.Assemble.outA m) :=
  fun d L O W hO =>
    tile_body_val m d L (Cert.Proof.Assemble.outF m) (Cert.Proof.Assemble.outA m)
      (Cert.Proof.Assemble.xArg m d) (Cert.Proof.Assemble.labArg m d)
      (fun _ _ => rfl) (fun _ => rfl) (fun _ _ => rfl) (fun _ _ => rfl) (hlab d) facts O W hO

end Cert.Proof.KI

end
-- ==== Proof.lean ====
/-
  A variance loss over 13 classes of 65536 points with 256 features: per class with more than one point, the sum of
  squares less the inner product of the mean with the sum, over the count; the mean of these over those classes.
  The kernel sums the lower half of the points on 32 vector subcores after a counting sort of each 128-row chunk by
  class, the upper half by a one-hot matrix product, and adds the 33 partial results; splitting the reference's three
  segment sums by worker, chunk and lane, with the features finite, gives the same loss.
-/
import proofs.«216278_g4776003633407_cont_8to1_c_644_33_alg».proof.Defs
import proofs.«216278_g4776003633407_cont_8to1_c_644_33_alg».proof.Proof.Gen.Kernel
import proofs.«216278_g4776003633407_cont_8to1_c_644_33_alg».proof.Proof.Gen.Kernel.Skeleton
import proofs.«216278_g4776003633407_cont_8to1_c_644_33_alg».proof.Proof.Gen.Kernel.Launch
import proofs.«216278_g4776003633407_cont_8to1_c_644_33_alg».proof.Proof.Gen.Kernel.Regions
import proofs.«216278_g4776003633407_cont_8to1_c_644_33_alg».proof.Proof.Gen.Kernel.Points
import proofs.«216278_g4776003633407_cont_8to1_c_644_33_alg».proof.Proof.Gen.KernelIdeal
import proofs.«216278_g4776003633407_cont_8to1_c_644_33_alg».proof.Proof.Gen.KernelIdeal.Skeleton
import proofs.«216278_g4776003633407_cont_8to1_c_644_33_alg».proof.Proof.Gen.KernelIdeal.Launch
import proofs.«216278_g4776003633407_cont_8to1_c_644_33_alg».proof.Proof.Gen.KernelIdeal.Regions
import proofs.«216278_g4776003633407_cont_8to1_c_644_33_alg».proof.Proof.Gen.KernelIdeal.Points
import proofs.«216278_g4776003633407_cont_8to1_c_644_33_alg».proof.Proof.Gen.ReferenceIdeal
import proofs.«216278_g4776003633407_cont_8to1_c_644_33_alg».proof.Proof.Gen.Pre_input_domain
import Idealize.ShloMosaic.Adequacy
import Idealize.ShloMosaic.Init
import proofs.«216278_g4776003633407_cont_8to1_c_644_33_alg».proof.Proof.Assemble
import proofs.«216278_g4776003633407_cont_8to1_c_644_33_alg».proof.Proof.ScFrameB
import proofs.«216278_g4776003633407_cont_8to1_c_644_33_alg».proof.Proof.ScTileB
import proofs.«216278_g4776003633407_cont_8to1_c_644_33_alg».proof.Proof.ScBodyVal
import proofs.«216278_g4776003633407_cont_8to1_c_644_33_alg».proof.Proof.ScBodyOblV

noncomputable section

namespace Cert.Proof

open Idealize.ShloMosaic Idealize.SL.Sem

theorem claim : Cert.Claim :=
  Cert.Proof.Assemble.claim_final
    (fun m hlab => Cert.Proof.KB.tileObl m (Cert.Proof.KB.bodyObl m hlab))
    (fun m hlab => Cert.Proof.KI.bodyOblV m hlab)

end Cert.Proof

end
